-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![2048, 128]⟩ ⟨2, ![2048, 512]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 2048]⟩ ⟨2, ![512, 2048]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 2048]⟩ ⟨2, ![512, 2048]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S2x512x2048 : S_.BroadcastsInDim S2x512x2048 (![] : Fin 0 → Fin S2x512x2048.rank)
  reducesTo_S2x512x2048_S_d0_1_2 : S2x512x2048.ReducesTo [0, 1, 2] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S128x2048 : S_.BroadcastsInDim S128x2048 (![] : Fin 0 → Fin S128x2048.rank)
  reducesTo_S128x2048_S_d0_1 : S128x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part2 {F : FTy → Type} [FloatOps F] (main_arg7 : FVec F S2048x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  main_v38

def fn_part1 {F : FTy → Type} [FloatOps F] (main_arg4 : FVec F S2048x2048 .f32) (main_arg5 : FVec F S2048x512 .f32) (main_arg6 : FVec F S2048x32 .f32) (main_arg7 : FVec F S2048x2048 .f32) (main_v13 : IVec S_ 1) (main_v16 : IVec S128x2048 1) : IVec S_ 1 :=
  let main_c_5 : IVec S_ 1 := constantI S_ 1 1#1
  let main_v17 : IVec S_ 1 := (fun x v => Host.reduce IntOp.andi x v reducesTo_S128x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S2048x32 .f32 := Host.absf main_arg6
  let main_cst_10 : FVec F S_ .f32 := constant S_ .f32 0x7F800000#32
  let main_v30 : FVec F S2048x32 .f32 := broadcastInDim S2048x32 ![] bcast_S_S2048x32 main_cst_10
  let main_v31 : IVec S2048x32 1 := cmpf .olt main_v29 main_v30
  let main_c_11 : IVec S_ 1 := constantI S_ 1 1#1
  let main_v32 : IVec S_ 1 := (fun x v => Host.reduce IntOp.andi x v reducesTo_S2048x32_S_d0_1 h_S_) main_v31 main_c_11
  let main_v33 : IVec S_ 1 := andi main_v28 main_v32
  fn_part2 (F := F) main_arg7 main_v33

def fn {F : FTy → Type} [FloatOps F] (main_arg0 : FVec F S2x512x2048 .f32) (main_arg1 : FVec F S2048x128 .f32) (main_arg2 : FVec F S128x2048 .f32) (main_arg3 : FVec F S128x2048 .f32) (main_arg4 : FVec F S2048x2048 .f32) (main_arg5 : FVec F S2048x512 .f32) (main_arg6 : FVec F S2048x32 .f32) (main_arg7 : FVec F S2048x2048 .f32) : IVec S_ 1 :=
  let main_v0 : FVec F S2x512x2048 .f32 := Host.absf main_arg0
  let main_cst : FVec F S_ .f32 := constant S_ .f32 0x7F800000#32
  let main_v1 : FVec F S2x512x2048 .f32 := broadcastInDim S2x512x2048 ![] bcast_S_S2x512x2048 main_cst
  let main_v2 : IVec S2x512x2048 1 := cmpf .olt main_v0 main_v1
  let main_c : IVec S_ 1 := constantI S_ 1 1#1
  let main_v3 : IVec S_ 1 := (fun x v => Host.reduce IntOp.andi x v reducesTo_S2x512x2048_S_d0_1_2 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S128x2048 .f32 := Host.absf main_arg3
  let main_cst_4 : FVec F S_ .f32 := constant S_ .f32 0x7F800000#32
  let main_v15 : FVec F S128x2048 .f32 := broadcastInDim S128x2048 ![] bcast_S_S128x2048 main_cst_4
  let main_v16 : IVec S128x2048 1 := cmpf .olt main_v14 main_v15
  fn_part1 (F := F) main_arg4 main_arg5 main_arg6 main_arg7 main_v13 main_v16
-- ==== Pre_finite_inputs_ReferenceIdeal.lean ====
abbrev S2x512x2048 : Shape := ⟨3, ![2, 512, 2048]⟩
abbrev S2048x512 : Shape := ⟨2, ![2048, 512]⟩
abbrev S512x2048 : Shape := ⟨2, ![512, 2048]⟩
abbrev S2048x2048 : Shape := ⟨2, ![2048, 2048]⟩
abbrev S2048x32 : Shape := ⟨2, ![2048, 32]⟩
abbrev S_ : Shape := ⟨0, ![]⟩

class Facts : Prop where
  bcast_S_S2x512x2048 : S_.BroadcastsInDim S2x512x2048 (![] : Fin 0 → Fin S2x512x2048.rank)
  reducesTo_S2x512x2048_S_d0_1_2 : S2x512x2048.ReducesTo [0, 1, 2] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512x2048 : S_.BroadcastsInDim S512x2048 (![] : Fin 0 → Fin S512x2048.rank)
  reducesTo_S512x2048_S_d0_1 : S512x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part2 {F : FTy → Type} [FloatOps F] (main_arg7 : FVec F S2048x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  main_v38

def fn_part1 {F : FTy → Type} [FloatOps F] (main_arg4 : FVec F S2048x2048 .f32) (main_arg5 : FVec F S2048x512 .f32) (main_arg6 : FVec F S2048x32 .f32) (main_arg7 : FVec F S2048x2048 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S2048x32 .f32 := Host.absf main_arg6
  let main_cst_10 : FVec F S_ .f32 := constant S_ .f32 0x7F800000#32
  let main_v30 : FVec F S2048x32 .f32 := broadcastInDim S2048x32 ![] bcast_S_S2048x32 main_cst_10
  let main_v31 : IVec S2048x32 1 := cmpf .olt main_v29 main_v30
  let main_c_11 : IVec S_ 1 := constantI S_ 1 1#1
  let main_v32 : IVec S_ 1 := (fun x v => Host.reduce IntOp.andi x v reducesTo_S2048x32_S_d0_1 h_S_) main_v31 main_c_11
  let main_v33 : IVec S_ 1 := andi main_v28 main_v32
  fn_part2 (F := F) main_arg7 main_v33

def fn {F : FTy → Type} [FloatOps F] (main_arg0 : FVec F S2x512x2048 .f32) (main_arg1 : FVec F S2048x512 .f32) (main_arg2 : FVec F S512x2048 .f32) (main_arg3 : FVec F S512x2048 .f32) (main_arg4 : FVec F S2048x2048 .f32) (main_arg5 : FVec F S2048x512 .f32) (main_arg6 : FVec F S2048x32 .f32) (main_arg7 : FVec F S2048x2048 .f32) : IVec S_ 1 :=
  let main_v0 : FVec F S2x512x2048 .f32 := Host.absf main_arg0
  let main_cst : FVec F S_ .f32 := constant S_ .f32 0x7F800000#32
  let main_v1 : FVec F S2x512x2048 .f32 := broadcastInDim S2x512x2048 ![] bcast_S_S2x512x2048 main_cst
  let main_v2 : IVec S2x512x2048 1 := cmpf .olt main_v0 main_v1
  let main_c : IVec S_ 1 := constantI S_ 1 1#1
  let main_v3 : IVec S_ 1 := (fun x v => Host.reduce IntOp.andi x v reducesTo_S2x512x2048_S_d0_1_2 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg4 main_arg5 main_arg6 main_arg7 main_v13 main_v16
-- ==== Kernel.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S1024x2048 : Shape := ⟨2, ![1024, 2048]⟩
abbrev S4x1024x128 : Shape := ⟨3, ![4, 1024, 128]⟩
abbrev S4x128x512 : Shape := ⟨3, ![4, 128, 512]⟩
abbrev S4x1024x512 : Shape := ⟨3, ![4, 1024, 512]⟩
abbrev S512x2048 : Shape := ⟨2, ![512, 2048]⟩
abbrev S3x3 : Shape := ⟨2, ![3, 3]⟩
abbrev S3x4 : Shape := ⟨2, ![3, 4]⟩
abbrev S_ : Shape := ⟨0, ![]⟩
abbrev S1x512x2048 : Shape := ⟨3, ![1, 512, 2048]⟩
abbrev S1024x128 : Shape := ⟨2, ![1024, 128]⟩
abbrev S1x1024x128 : Shape := ⟨3, ![1, 1024, 128]⟩
abbrev S128x512 : Shape := ⟨2, ![128, 512]⟩
abbrev S1x128x512 : Shape := ⟨3, ![1, 128, 512]⟩
abbrev S1x1 : Shape := ⟨2, ![1, 1]⟩
abbrev S1024x32 : Shape := ⟨2, ![1024, 32]⟩
abbrev S1024x512 : Shape := ⟨2, ![1024, 512]⟩
abbrev S1024x160 : Shape := ⟨2, ![1024, 160]⟩
abbrev S512x160 : Shape := ⟨2, ![512, 160]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S1x1024x512 : Shape := ⟨3, ![1, 1024, 512]⟩
abbrev S512x1024 : Shape := ⟨2, ![512, 1024]⟩
abbrev S1024x1024 : Shape := ⟨2, ![1024, 1024]⟩
abbrev S2x512x1024 : Shape := ⟨3, ![2, 512, 1024]⟩

abbrev nBuf : Space → Nat
  | .hbm => 9
  | .vmem => 16
  | .smem => 0
  | _ => 0

abbrev bufTy : (tb : Table) → Fin (tcTables nBuf tb) → BufTy
  | .hbm, ⟨0, _⟩ => ⟨S2x512x2048, .f32⟩
  | .hbm, ⟨1, _⟩ => ⟨S2048x128, .f32⟩
  | .hbm, ⟨2, _⟩ => ⟨S128x2048, .f32⟩
  | .hbm, ⟨3, _⟩ => ⟨S128x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S2x512x2048, .f32⟩
  | .local _ .vmem, ⟨0, _⟩ => ⟨S2x512x2048, .f32⟩
  | .local _ .vmem, ⟨1, _⟩ => ⟨S2048x128, .f32⟩
  | .local _ .vmem, ⟨2, _⟩ => ⟨S128x2048, .f32⟩
  | .local _ .vmem, ⟨3, _⟩ => ⟨S128x2048, .f32⟩
  | .local _ .vmem, ⟨4, _⟩ => ⟨S2048x32, .f32⟩
  | .local _ .vmem, ⟨5, _⟩ => ⟨S2048x512, .f32⟩
  | .local _ .vmem, ⟨6, _⟩ => ⟨S2x512x2048, .f32⟩
  | .local _ .vmem, ⟨7, _⟩ => ⟨S1024x2048, .bf16⟩
  | .local _ .vmem, ⟨8, _⟩ => ⟨S4x1024x128, .bf16⟩
  | .local _ .vmem, ⟨9, _⟩ => ⟨S128x2048, .bf16⟩
  | .local _ .vmem, ⟨10, _⟩ => ⟨S128x2048, .bf16⟩
  | .local _ .vmem, ⟨11, _⟩ => ⟨S4x128x512, .bf16⟩
  | .local _ .vmem, ⟨12, _⟩ => ⟨S4x128x512, .bf16⟩
  | .local _ .vmem, ⟨13, _⟩ => ⟨S4x1024x512, .bf16⟩
  | .local _ .vmem, ⟨14, _⟩ => ⟨S2048x512, .f32⟩
  | .local _ .vmem, ⟨15, _⟩ => ⟨S512x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 2 → Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v16 : BitVec 32 := Scalar.muli v2 c512_i32
  ![0, v16.toNat]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_13 : BitVec 32 := 512#32
  let v18 : BitVec 32 := Scalar.muli v2 c512_i32_13
  let c0_i32_14 : BitVec 32 := 0#32
  ![v18.toNat, 0]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v38 : Index := Scalar.indexCast v2
  let c0_26 : Index := 0#32
  let c0_27 : Index := 0#32
  ![v38.toNat, 0, 0]
def k0_off4 (d0 : Dev nD) : Fin 2 → Nat :=
  let c0_37 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_36 : BitVec 32 := 512#32
  let v54 : BitVec 32 := Scalar.muli v2 c512_i32_36
  let v55 : Index := Scalar.indexCast v54
  ![0, v55.toNat]
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v57 : Index := Scalar.indexCast v2
  let c0_38 : Index := 0#32
  let c0_39 : Index := 0#32
  ![v57.toNat, 0, 0]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_55 : BitVec 32 := 0#32
  let c0_i32_56 : BitVec 32 := 0#32
  ![v2.toNat, 0, 0]
def k0_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_45 : BitVec 32 := 1#32
  let v68 : BitVec 32 := Scalar.addi v2 c1_i32_45
  let c4_i32_46 : BitVec 32 := 4#32
  let v69 : BitVec 32 := Scalar.remsi v68 c4_i32_46
  let c1_i32_53 : BitVec 32 := 1#32
  let v72 : BitVec 32 := Scalar.muli v69 c1_i32_53
  let v73 : BitVec 32 := Scalar.addi c0_i32_54 v72
  v73.toNat
def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_65 : BitVec 32 := 0#32
  let c0_i32_66 : BitVec 32 := 0#32
  ![v2.toNat, 0, 0]
def k0_off8 (d0 : Dev nD) (c1_i32_45 : BitVec 32) : Fin 2 → Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v68 : BitVec 32 := Scalar.addi v2 c1_i32_45
  let c4_i32_46 : BitVec 32 := 4#32
  let v69 : BitVec 32 := Scalar.remsi v68 c4_i32_46
  let c512_i32_47 : BitVec 32 := 512#32
  let v70 : BitVec 32 := Scalar.muli v69 c512_i32_47
  ![0, v70.toNat]
def k0_dev5 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_45 : BitVec 32 := 1#32
  let v68 : BitVec 32 := Scalar.addi v2 c1_i32_45
  let c4_i32_46 : BitVec 32 := 4#32
  let v69 : BitVec 32 := Scalar.remsi v68 c4_i32_46
  let c1_i32_63 : BitVec 32 := 1#32
  let v82 : BitVec 32 := Scalar.muli v69 c1_i32_63
  let v83 : BitVec 32 := Scalar.addi c0_i32_64 v82
  v83.toNat
def k0_dev6 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_45 : BitVec 32 := 1#32
  let v68 : BitVec 32 := Scalar.addi v2 c1_i32_45
  let c4_i32_46 : BitVec 32 := 4#32
  let v69 : BitVec 32 := Scalar.remsi v68 c4_i32_46
  let c1_i32_72 : BitVec 32 := 1#32
  let v91 : BitVec 32 := Scalar.muli v69 c1_i32_72
  let v92 : BitVec 32 := Scalar.addi c0_i32_73 v91
  v92.toNat
def k0_dev7 (d0 : Dev nD) : Nat :=
  let c0_i32_86 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_77 : BitVec 32 := 2#32
  let v100 : BitVec 32 := Scalar.addi v2 c2_i32_77
  let c4_i32_78 : BitVec 32 := 4#32
  let v101 : BitVec 32 := Scalar.remsi v100 c4_i32_78
  let c1_i32_85 : BitVec 32 := 1#32
  let v104 : BitVec 32 := Scalar.muli v101 c1_i32_85
  let v105 : BitVec 32 := Scalar.addi c0_i32_86 v104
  v105.toNat
def k0_dev8 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_77 : BitVec 32 := 2#32
  let v100 : BitVec 32 := Scalar.addi v2 c2_i32_77
  let c4_i32_78 : BitVec 32 := 4#32
  let v101 : BitVec 32 := Scalar.remsi v100 c4_i32_78
  let c1_i32_95 : BitVec 32 := 1#32
  let v114 : BitVec 32 := Scalar.muli v101 c1_i32_95
  let v115 : BitVec 32 := Scalar.addi c0_i32_96 v114
  v115.toNat
def k0_dev9 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_77 : BitVec 32 := 2#32
  let v100 : BitVec 32 := Scalar.addi v2 c2_i32_77
  let c4_i32_78 : BitVec 32 := 4#32
  let v101 : BitVec 32 := Scalar.remsi v100 c4_i32_78
  let c1_i32_104 : BitVec 32 := 1#32
  let v123 : BitVec 32 := Scalar.muli v101 c1_i32_104
  let v124 : BitVec 32 := Scalar.addi c0_i32_105 v123
  v124.toNat
def k0_dev10 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_109 : BitVec 32 := 3#32
  let v132 : BitVec 32 := Scalar.addi v2 c3_i32_109
  let c4_i32_110 : BitVec 32 := 4#32
  let v133 : BitVec 32 := Scalar.remsi v132 c4_i32_110
  let c1_i32_117 : BitVec 32 := 1#32
  let v136 : BitVec 32 := Scalar.muli v133 c1_i32_117
  let v137 : BitVec 32 := Scalar.addi c0_i32_118 v136
  v137.toNat
def k0_dev11 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_109 : BitVec 32 := 3#32
  let v132 : BitVec 32 := Scalar.addi v2 c3_i32_109
  let c4_i32_110 : BitVec 32 := 4#32
  let v133 : BitVec 32 := Scalar.remsi v132 c4_i32_110
  let c1_i32_127 : BitVec 32 := 1#32
  let v146 : BitVec 32 := Scalar.muli v133 c1_i32_127
  let v147 : BitVec 32 := Scalar.addi c0_i32_128 v146
  v147.toNat
def k0_dev12 (d0 : Dev nD) : Nat :=
  let c0_i32_137 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_109 : BitVec 32 := 3#32
  let v132 : BitVec 32 := Scalar.addi v2 c3_i32_109
  let c4_i32_110 : BitVec 32 := 4#32
  let v133 : BitVec 32 := Scalar.remsi v132 c4_i32_110
  let c1_i32_136 : BitVec 32 := 1#32
  let v155 : BitVec 32 := Scalar.muli v133 c1_i32_136
  let v156 : BitVec 32 := Scalar.addi c0_i32_137 v155
  v156.toNat
def k0_off9 (d0 : Dev nD) : Fin 2 → Nat :=
  let c0_145 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_144 : BitVec 32 := 4#32
  let v169 : BitVec 32 := Scalar.muli v2 c4_i32_144
  let c32_i32 : BitVec 32 := 32#32
  let v170 : BitVec 32 := Scalar.muli v169 c32_i32
  let v171 : Index := Scalar.indexCast v170
  ![0, v171.toNat]
def k0_off10 (d0 : Dev nD) (c1_i32_190 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_189 : BitVec 32 := 4#32
  let v218 : BitVec 32 := Scalar.addi v2 c4_i32_189
  let v219 : BitVec 32 := Scalar.subi v218 c1_i32_190
  let c4_i32_191 : BitVec 32 := 4#32
  let v220 : BitVec 32 := Scalar.remsi v219 c4_i32_191
  let v221 : Index := Scalar.indexCast v220
  let c0_192 : Index := 0#32
  let c0_193 : Index := 0#32
  ![v221.toNat, 0, 0]
def k0_off11 (d0 : Dev nD) (c1_i32_190 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_189 : BitVec 32 := 4#32
  let v218 : BitVec 32 := Scalar.addi v2 c4_i32_189
  let v219 : BitVec 32 := Scalar.subi v218 c1_i32_190
  let c4_i32_191 : BitVec 32 := 4#32
  let v220 : BitVec 32 := Scalar.remsi v219 c4_i32_191
  let v224 : Index := Scalar.indexCast v220
  let c0_194 : Index := 0#32
  let c0_195 : Index := 0#32
  ![v224.toNat, 0, 0]
def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v343 : Index := Scalar.indexCast v2
  let c0_289 : Index := 0#32
  let c0_290 : Index := 0#32
  ![v343.toNat, 0, 0]
def k0_off13 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v363 : Index := Scalar.indexCast v2
  let c512_296 : Index := 512#32
  let c0_297 : Index := 0#32
  ![v363.toNat, 512, 0]
def k0_off14 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_306 : BitVec 32 := 0#32
  let c0_i32_307 : BitVec 32 := 0#32
  ![v2.toNat, 0, 0]
def k0_dev13 (d0 : Dev nD) : Nat :=
  let c0_i32_305 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_298 : BitVec 32 := 1#32
  let v367 : BitVec 32 := Scalar.addi v2 c1_i32_298
  let c4_i32_299 : BitVec 32 := 4#32
  let v368 : BitVec 32 := Scalar.remsi v367 c4_i32_299
  let c1_i32_304 : BitVec 32 := 1#32
  let v369 : BitVec 32 := Scalar.muli v368 c1_i32_304
  let v370 : BitVec 32 := Scalar.addi c0_i32_305 v369
  v370.toNat
def k0_dev14 (d0 : Dev nD) : Nat :=
  let c0_i32_317 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_310 : BitVec 32 := 2#32
  let v379 : BitVec 32 := Scalar.addi v2 c2_i32_310
  let c4_i32_311 : BitVec 32 := 4#32
  let v380 : BitVec 32 := Scalar.remsi v379 c4_i32_311
  let c1_i32_316 : BitVec 32 := 1#32
  let v381 : BitVec 32 := Scalar.muli v380 c1_i32_316
  let v382 : BitVec 32 := Scalar.addi c0_i32_317 v381
  v382.toNat
def k0_dev15 (d0 : Dev nD) : Nat :=
  let c0_i32_329 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_322 : BitVec 32 := 3#32
  let v391 : BitVec 32 := Scalar.addi v2 c3_i32_322
  let c4_i32_323 : BitVec 32 := 4#32
  let v392 : BitVec 32 := Scalar.remsi v391 c4_i32_323
  let c1_i32_328 : BitVec 32 := 1#32
  let v393 : BitVec 32 := Scalar.muli v392 c1_i32_328
  let v394 : BitVec 32 := Scalar.addi c0_i32_329 v393
  v394.toNat
def k0_off15 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v425 : Index := Scalar.indexCast v2
  let c0_339 : Index := 0#32
  let c128 : Index := 128#32
  ![v425.toNat, 0, 128]
def k0_off16 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v445 : Index := Scalar.indexCast v2
  let c512_345 : Index := 512#32
  let c128_346 : Index := 128#32
  ![v445.toNat, 512, 128]
def k0_off17 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_355 : BitVec 32 := 0#32
  let c128_i32 : BitVec 32 := 128#32
  ![v2.toNat, 0, 128]
def k0_dev16 (d0 : Dev nD) : Nat :=
  let c0_i32_354 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_347 : BitVec 32 := 1#32
  let v449 : BitVec 32 := Scalar.addi v2 c1_i32_347
  let c4_i32_348 : BitVec 32 := 4#32
  let v450 : BitVec 32 := Scalar.remsi v449 c4_i32_348
  let c1_i32_353 : BitVec 32 := 1#32
  let v451 : BitVec 32 := Scalar.muli v450 c1_i32_353
  let v452 : BitVec 32 := Scalar.addi c0_i32_354 v451
  v452.toNat
def k0_dev17 (d0 : Dev nD) : Nat :=
  let c0_i32_365 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_358 : BitVec 32 := 2#32
  let v461 : BitVec 32 := Scalar.addi v2 c2_i32_358
  let c4_i32_359 : BitVec 32 := 4#32
  let v462 : BitVec 32 := Scalar.remsi v461 c4_i32_359
  let c1_i32_364 : BitVec 32 := 1#32
  let v463 : BitVec 32 := Scalar.muli v462 c1_i32_364
  let v464 : BitVec 32 := Scalar.addi c0_i32_365 v463
  v464.toNat
def k0_dev18 (d0 : Dev nD) : Nat :=
  let c0_i32_377 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_370 : BitVec 32 := 3#32
  let v473 : BitVec 32 := Scalar.addi v2 c3_i32_370
  let c4_i32_371 : BitVec 32 := 4#32
  let v474 : BitVec 32 := Scalar.remsi v473 c4_i32_371
  let c1_i32_376 : BitVec 32 := 1#32
  let v475 : BitVec 32 := Scalar.muli v474 c1_i32_376
  let v476 : BitVec 32 := Scalar.addi c0_i32_377 v475
  v476.toNat
def k0_off18 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v507 : Index := Scalar.indexCast v2
  let c0_387 : Index := 0#32
  let c256 : Index := 256#32
  ![v507.toNat, 0, 256]
def k0_off19 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v527 : Index := Scalar.indexCast v2
  let c512_393 : Index := 512#32
  let c256_394 : Index := 256#32
  ![v527.toNat, 512, 256]
def k0_off20 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_403 : BitVec 32 := 0#32
  let c256_i32 : BitVec 32 := 256#32
  ![v2.toNat, 0, 256]
def k0_dev19 (d0 : Dev nD) : Nat :=
  let c0_i32_402 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_395 : BitVec 32 := 1#32
  let v531 : BitVec 32 := Scalar.addi v2 c1_i32_395
  let c4_i32_396 : BitVec 32 := 4#32
  let v532 : BitVec 32 := Scalar.remsi v531 c4_i32_396
  let c1_i32_401 : BitVec 32 := 1#32
  let v533 : BitVec 32 := Scalar.muli v532 c1_i32_401
  let v534 : BitVec 32 := Scalar.addi c0_i32_402 v533
  v534.toNat
def k0_dev20 (d0 : Dev nD) : Nat :=
  let c0_i32_413 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_406 : BitVec 32 := 2#32
  let v543 : BitVec 32 := Scalar.addi v2 c2_i32_406
  let c4_i32_407 : BitVec 32 := 4#32
  let v544 : BitVec 32 := Scalar.remsi v543 c4_i32_407
  let c1_i32_412 : BitVec 32 := 1#32
  let v545 : BitVec 32 := Scalar.muli v544 c1_i32_412
  let v546 : BitVec 32 := Scalar.addi c0_i32_413 v545
  v546.toNat
def k0_dev21 (d0 : Dev nD) : Nat :=
  let c0_i32_425 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_418 : BitVec 32 := 3#32
  let v555 : BitVec 32 := Scalar.addi v2 c3_i32_418
  let c4_i32_419 : BitVec 32 := 4#32
  let v556 : BitVec 32 := Scalar.remsi v555 c4_i32_419
  let c1_i32_424 : BitVec 32 := 1#32
  let v557 : BitVec 32 := Scalar.muli v556 c1_i32_424
  let v558 : BitVec 32 := Scalar.addi c0_i32_425 v557
  v558.toNat
def k0_off21 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v589 : Index := Scalar.indexCast v2
  let c0_435 : Index := 0#32
  let c384 : Index := 384#32
  ![v589.toNat, 0, 384]
def k0_off22 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v609 : Index := Scalar.indexCast v2
  let c512_441 : Index := 512#32
  let c384_442 : Index := 384#32
  ![v609.toNat, 512, 384]
def k0_off23 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_451 : BitVec 32 := 0#32
  let c384_i32 : BitVec 32 := 384#32
  ![v2.toNat, 0, 384]
def k0_dev22 (d0 : Dev nD) : Nat :=
  let c0_i32_450 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_443 : BitVec 32 := 1#32
  let v613 : BitVec 32 := Scalar.addi v2 c1_i32_443
  let c4_i32_444 : BitVec 32 := 4#32
  let v614 : BitVec 32 := Scalar.remsi v613 c4_i32_444
  let c1_i32_449 : BitVec 32 := 1#32
  let v615 : BitVec 32 := Scalar.muli v614 c1_i32_449
  let v616 : BitVec 32 := Scalar.addi c0_i32_450 v615
  v616.toNat
def k0_dev23 (d0 : Dev nD) : Nat :=
  let c0_i32_461 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_454 : BitVec 32 := 2#32
  let v625 : BitVec 32 := Scalar.addi v2 c2_i32_454
  let c4_i32_455 : BitVec 32 := 4#32
  let v626 : BitVec 32 := Scalar.remsi v625 c4_i32_455
  let c1_i32_460 : BitVec 32 := 1#32
  let v627 : BitVec 32 := Scalar.muli v626 c1_i32_460
  let v628 : BitVec 32 := Scalar.addi c0_i32_461 v627
  v628.toNat
def k0_dev24 (d0 : Dev nD) : Nat :=
  let c0_i32_473 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_466 : BitVec 32 := 3#32
  let v637 : BitVec 32 := Scalar.addi v2 c3_i32_466
  let c4_i32_467 : BitVec 32 := 4#32
  let v638 : BitVec 32 := Scalar.remsi v637 c4_i32_467
  let c1_i32_472 : BitVec 32 := 1#32
  let v639 : BitVec 32 := Scalar.muli v638 c1_i32_472
  let v640 : BitVec 32 := Scalar.addi c0_i32_473 v639
  v640.toNat
def k0_off24 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v652 : Index := Scalar.indexCast v2
  let c0_481 : Index := 0#32
  let c0_482 : Index := 0#32
  ![v652.toNat, 0, 0]
def k0_off25 (d0 : Dev nD) (c1_i32_491 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_490 : BitVec 32 := 4#32
  let v663 : BitVec 32 := Scalar.addi v2 c4_i32_490
  let v664 : BitVec 32 := Scalar.subi v663 c1_i32_491
  let c4_i32_492 : BitVec 32 := 4#32
  let v665 : BitVec 32 := Scalar.remsi v664 c4_i32_492
  let c512_i32_493 : BitVec 32 := 512#32
  let v666 : BitVec 32 := Scalar.muli v665 c512_i32_493
  let c0_i32_494 : BitVec 32 := 0#32
  ![v666.toNat, 0]
def k0_off26 (d0 : Dev nD) (c1_i32_491 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_490 : BitVec 32 := 4#32
  let v663 : BitVec 32 := Scalar.addi v2 c4_i32_490
  let v664 : BitVec 32 := Scalar.subi v663 c1_i32_491
  let c4_i32_492 : BitVec 32 := 4#32
  let v665 : BitVec 32 := Scalar.remsi v664 c4_i32_492
  let v703 : Index := Scalar.indexCast v665
  let c0_538 : Index := 0#32
  let c0_539 : Index := 0#32
  ![v703.toNat, 0, 0]
abbrev stage0_0 : Fin 1 → Memref sig .tc .vmem S2x512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

class Facts₀ : Prop where
  hamt_1 : (1#32 : BitVec 32).msb = false
  inb_S2x512x2048_S1x512x2048_0_0_0 : ∀ a, (![0, 0, 0] : Fin 3 → Nat) a + S1x512x2048.size a ≤ S2x512x2048.size a
  h_S1x512x2048 : 0 < S1x512x2048.numel
  shapeCasts_S1x512x2048_S512x2048 : S1x512x2048.ShapeCasts S512x2048
  bitsLt_bf16_f32 : FTy.bits .bf16 < FTy.bits .f32
  inb_S1024x2048_S512x2048_0_0 : ∀ a, (![0, 0] : Fin 2 → Nat) a + S512x2048.size a ≤ S1024x2048.size a
  h_S512x2048 : 0 < S512x2048.numel
  shapeCasts_S512x2048_S512x2048 : S512x2048.ShapeCasts S512x2048
  packedbf16_S1024x2048_S512x2048_0_0 : (Rect.unit (s := S1024x2048) ![0, 0] S512x2048.size inb_S1024x2048_S512x2048_0_0).PackedRows (EltTy.packing .bf16)
  inb_S2x512x2048_S1x512x2048_1_0_0 : ∀ a, (![1, 0, 0] : Fin 3 → Nat) a + S1x512x2048.size a ≤ S2x512x2048.size a
  inb_S1024x2048_S512x2048_512_0 : ∀ a, (![512, 0] : Fin 2 → Nat) a + S512x2048.size a ≤ S1024x2048.size a
  packedbf16_S1024x2048_S512x2048_512_0 : (Rect.unit (s := S1024x2048) ![512, 0] S512x2048.size inb_S1024x2048_S512x2048_512_0).PackedRows (EltTy.packing .bf16)
  inb_S1024x2048_S1024x2048_0_0 : ∀ a, (![0, 0] : Fin 2 → Nat) a + S1024x2048.size a ≤ S1024x2048.size a
  h_S1024x2048 : 0 < S1024x2048.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  h_S1x1024x128 : 0 < S1x1024x128.numel
  shapeCasts_S1x1024x128_S1024x128 : S1x1024x128.ShapeCasts S1024x128
  shapeCasts_S1024x128_S1x1024x128 : S1024x128.ShapeCasts S1x1024x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  packedbf16_S128x2048_S128x2048_0_0 : (Rect.unit (s := S128x2048) ![0, 0] S128x2048.size inb_S128x2048_S128x2048_0_0).PackedRows (EltTy.packing .bf16)
  h_S128x512 : 0 < S128x512.numel
  h_S1x128x512 : 0 < S1x128x512.numel
  shapeCasts_S1x128x512_S128x512 : S1x128x512.ShapeCasts S128x512
  shapeCasts_S128x512_S1x128x512 : S128x512.ShapeCasts S1x128x512
  hamt_3 : (3#32 : BitVec 32).msb = false
  inb_S3x3_S1x1_0_0 : ∀ a, (![0, 0] : Fin 2 → Nat) a + S1x1.size a ≤ S3x3.size a
  squeezes_S1x1_S_ : S1x1.Squeezes S_
  squeezes_S1x1024x128_S1024x128 : S1x1024x128.Squeezes S1024x128
  inb_S3x3_S1x1_0_1 : ∀ a, (![0, 1] : Fin 2 → Nat) a + S1x1.size a ≤ S3x3.size a
  squeezes_S1x128x512_S128x512 : S1x128x512.Squeezes S128x512
  inb_S3x3_S1x1_0_2 : ∀ a, (![0, 2] : Fin 2 → Nat) a + S1x1.size a ≤ S3x3.size a
  inb_S3x3_S1x1_1_0 : ∀ a, (![1, 0] : Fin 2 → Nat) a + S1x1.size a ≤ S3x3.size a
  inb_S3x3_S1x1_1_1 : ∀ a, (![1, 1] : Fin 2 → Nat) a + S1x1.size a ≤ S3x3.size a
  inb_S3x3_S1x1_1_2 : ∀ a, (![1, 2] : Fin 2 → Nat) a + S1x1.size a ≤ S3x3.size a
  inb_S3x3_S1x1_2_0 : ∀ a, (![2, 0] : Fin 2 → Nat) a + S1x1.size a ≤ S3x3.size a
  inb_S3x3_S1x1_2_1 : ∀ a, (![2, 1] : Fin 2 → Nat) a + S1x1.size a ≤ S3x3.size a
  inb_S3x3_S1x1_2_2 : ∀ a, (![2, 2] : Fin 2 → Nat) a + S1x1.size a ≤ S3x3.size a
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S2048x512_S2048x512_0_0 : ∀ a, (![0, 0] : Fin 2 → Nat) a + S2048x512.size a ≤ S2048x512.size a
  h_S2048x512 : 0 < S2048x512.numel
  slices_S1024x512_o0_0_S1024x128 : S1024x512.Slices ![0, 0] S1024x128
  slices_S1024x128_o0_0_S1024x32 : S1024x128.Slices ![0, 0] S1024x32
  concatenates_S1024x128_S1024x32_S1024x160_d1 : Shape.Concatenates [S1024x128, S1024x32] S1024x160 1
  slices_S1024x160_o0_0_S512x160 : S1024x160.Slices ![0, 0] S512x160
  reduces_S512x512_S512 : S512x512.Reduces [1] S512
  shapeCasts_S512_S512x1 : S512.ShapeCasts S512x1
  slices_S1024x128_o0_0_S512x128 : S1024x128.Slices ![0, 0] S512x128
  broadcasts_S512x1_S512x128 : S512x1.Broadcasts S512x128
  h_S1x512x128 : 0 < S1x512x128.numel
  shapeCasts_S1x512x128_S512x128 : S1x512x128.ShapeCasts S512x128
  shapeCasts_S512x128_S1x512x128 : S512x128.ShapeCasts S1x512x128
  slices_S1024x160_o512_0_S512x160 : S1024x160.Slices ![512, 0] S512x160
  slices_S1024x128_o512_0_S512x128 : S1024x128.Slices ![512, 0] S512x128
  inb_S3x4_S1x1_0_0 : ∀ a, (![0, 0] : Fin 2 → Nat) a + S1x1.size a ≤ S3x4.size a
  inb_S3x4_S1x1_1_0 : ∀ a, (![1, 0] : Fin 2 → Nat) a + S1x1.size a ≤ S3x4.size a
  inb_S3x4_S1x1_2_0 : ∀ a, (![2, 0] : Fin 2 → Nat) a + S1x1.size a ≤ S3x4.size a
  slices_S1024x512_o0_128_S1024x128 : S1024x512.Slices ![0, 128] S1024x128
  slices_S1024x128_o0_32_S1024x32 : S1024x128.Slices ![0, 32] S1024x32
  inb_S3x4_S1x1_0_1 : ∀ a, (![0, 1] : Fin 2 → Nat) a + S1x1.size a ≤ S3x4.size a
  inb_S3x4_S1x1_1_1 : ∀ a, (![1, 1] : Fin 2 → Nat) a + S1x1.size a ≤ S3x4.size a
  inb_S3x4_S1x1_2_1 : ∀ a, (![2, 1] : Fin 2 → Nat) a + S1x1.size a ≤ S3x4.size a
  slices_S1024x512_o0_256_S1024x128 : S1024x512.Slices ![0, 256] S1024x128
  slices_S1024x128_o0_64_S1024x32 : S1024x128.Slices ![0, 64] S1024x32
  inb_S3x4_S1x1_0_2 : ∀ a, (![0, 2] : Fin 2 → Nat) a + S1x1.size a ≤ S3x4.size a
  inb_S3x4_S1x1_1_2 : ∀ a, (![1, 2] : Fin 2 → Nat) a + S1x1.size a ≤ S3x4.size a
  inb_S3x4_S1x1_2_2 : ∀ a, (![2, 2] : Fin 2 → Nat) a + S1x1.size a ≤ S3x4.size a
  slices_S1024x512_o0_384_S1024x128 : S1024x512.Slices ![0, 384] S1024x128
  slices_S1024x128_o0_96_S1024x32 : S1024x128.Slices ![0, 96] S1024x32
  inb_S3x4_S1x1_0_3 : ∀ a, (![0, 3] : Fin 2 → Nat) a + S1x1.size a ≤ S3x4.size a
  inb_S3x4_S1x1_1_3 : ∀ a, (![1, 3] : Fin 2 → Nat) a + S1x1.size a ≤ S3x4.size a
  inb_S3x4_S1x1_2_3 : ∀ a, (![2, 3] : Fin 2 → Nat) a + S1x1.size a ≤ S3x4.size a
  inb_S512x2048_S512x2048_0_0 : ∀ a, (![0, 0] : Fin 2 → Nat) a + S512x2048.size a ≤ S512x2048.size a
  h_S1x1024x512 : 0 < S1x1024x512.numel
  shapeCasts_S1x1024x512_S1024x512 : S1x1024x512.ShapeCasts S1024x512
  slices_S512x2048_o0_0_S512x1024 : S512x2048.Slices ![0, 0] S512x1024
  shapeCasts_S1024x1024_S2x512x1024 : S1024x1024.ShapeCasts S2x512x1024
  inb_S2x512x2048_S2x512x1024_0_0_0 : ∀ a, (![0, 0, 0] : Fin 3 → Nat) a + S2x512x1024.size a ≤ S2x512x2048.size a
  h_S2x512x1024 : 0 < S2x512x1024.numel
  slices_S512x2048_o0_1024_S512x1024 : S512x2048.Slices ![0, 1024] S512x1024
  inb_S2x512x2048_S2x512x1024_0_0_1024 : ∀ a, (![0, 0, 1024] : Fin 3 → Nat) a + S2x512x1024.size a ≤ S2x512x2048.size a
  shapeCasts_S2x512x1024_S2x512x1024 : S2x512x1024.ShapeCasts S2x512x1024
  dot_S1024x2048_S2048x128_S1024x128_1_0_0_1_n_n_wf : DotDims.WF S1024x2048 S2048x128 S1024x128 [1] [0] [0] [1] [] []
  dot_S1024x2048_S2048x32_S1024x32_1_0_0_1_n_n_wf : DotDims.WF S1024x2048 S2048x32 S1024x32 [1] [0] [0] [1] [] []
  dot_S1024x2048_S2048x512_S1024x512_1_0_0_1_n_n_wf : DotDims.WF S1024x2048 S2048x512 S1024x512 [1] [0] [0] [1] [] []
  dot_S1024x128_S128x512_S1024x512_1_0_0_1_n_n_wf : DotDims.WF S1024x128 S128x512 S1024x512 [1] [0] [0] [1] [] []
  dot_S512x160_S512x160_S512x512_1_1_0_0_n_n_wf : DotDims.WF S512x160 S512x160 S512x512 [1] [1] [0] [0] [] []
  dot_S512x512_S512x128_S512x128_1_0_0_1_n_n_wf : DotDims.WF S512x512 S512x128 S512x128 [1] [0] [0] [1] [] []
  dot_S1024x512_S512x1024_S1024x1024_1_0_0_1_n_n_wf : DotDims.WF S1024x512 S512x1024 S1024x1024 [1] [0] [0] [1] [] []
  hcc0_scratch9 : 7 + S3x3.numel ≤ 51
  hcc0_scratch10 : 16 + S3x3.numel ≤ 51
  hcc0_scratch11 : 25 + S3x4.numel ≤ 51
  hcc0_scratch12 : 37 + S3x4.numel ≤ 51
  hcc0_scratch13 : 49 + S_.numel ≤ 51
  hcc0_scratch14 : 50 + S_.numel ≤ 51
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ a, (k0_off1 d0) a + S2048x512.size a ≤ S2048x2048.size a
  k0_off2_inb : ∀ d0 : Dev nD, ∀ a, (k0_off2 d0) a + S512x2048.size a ≤ S2048x2048.size a
  k0_off3_inb : ∀ d0 : Dev nD, ∀ a, (k0_off3 d0) a + S1x1024x128.size a ≤ S4x1024x128.size a
  k0_off3_packedbf16 : ∀ d0 : Dev nD, (Rect.unit (s := S4x1024x128) (k0_off3 d0) S1x1024x128.size (k0_off3_inb d0)).PackedRows (EltTy.packing .bf16)
  k0_off4_inb : ∀ d0 : Dev nD, ∀ a, (k0_off4 d0) a + S128x512.size a ≤ S128x2048.size a
  k0_off5_inb : ∀ d0 : Dev nD, ∀ a, (k0_off5 d0) a + S1x128x512.size a ≤ S4x128x512.size a
  k0_off5_packedbf16 : ∀ d0 : Dev nD, (Rect.unit (s := S4x128x512) (k0_off5 d0) S1x128x512.size (k0_off5_inb d0)).PackedRows (EltTy.packing .bf16)
  k0_off6_inb : ∀ d0 : Dev nD, ∀ a, (k0_off6 d0) a + S1x1024x128.size a ≤ S4x1024x128.size a
  k0_off6_wordsbf16 : ∀ d0 : Dev nD, (Rect.unit (s := S4x1024x128) (k0_off6 d0) S1x1024x128.size (k0_off6_inb d0)).WholeWords (EltTy.packing .bf16)
  k0_dev4_lt : ∀ d0 : Dev nD, (k0_dev4 d0) < nD
  k0_off7_inb : ∀ d0 : Dev nD, ∀ a, (k0_off7 d0) a + S1x128x512.size a ≤ S4x128x512.size a
  k0_off8_inb : ∀ d0 : Dev nD, ∀ (r : Fin 3), ∀ a, (k0_off8 d0 (BitVec.ofNat 32 (1 + r.val))) a + S128x512.size a ≤ S128x2048.size a
  k0_off8_wordsbf16 : ∀ d0 : Dev nD, ∀ (r : Fin 3), (Rect.unit (s := S128x2048) (k0_off8 d0 (BitVec.ofNat 32 (1 + r.val))) S128x512.size (k0_off8_inb d0 r)).WholeWords (EltTy.packing .bf16)
  k0_off7_wordsbf16 : ∀ d0 : Dev nD, (Rect.unit (s := S4x128x512) (k0_off7 d0) S1x128x512.size (k0_off7_inb d0)).WholeWords (EltTy.packing .bf16)
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_off9_inb : ∀ d0 : Dev nD, ∀ a, (k0_off9 d0) a + S2048x128.size a ≤ S2048x512.size a
  k0_off10_inb : ∀ d0 : Dev nD, ∀ (r : Fin 3), ∀ a, (k0_off10 d0 (BitVec.ofNat 32 (1 + r.val))) a + S1x1024x128.size a ≤ S4x1024x128.size a
  k0_off11_inb : ∀ d0 : Dev nD, ∀ (r : Fin 3), ∀ a, (k0_off11 d0 (BitVec.ofNat 32 (1 + r.val))) a + S1x128x512.size a ≤ S4x128x512.size a
  k0_off12_inb : ∀ d0 : Dev nD, ∀ a, (k0_off12 d0) a + S1x512x128.size a ≤ S4x1024x512.size a
  k0_off12_packedbf16 : ∀ d0 : Dev nD, (Rect.unit (s := S4x1024x512) (k0_off12 d0) S1x512x128.size (k0_off12_inb d0)).PackedRows (EltTy.packing .bf16)
  k0_off13_inb : ∀ d0 : Dev nD, ∀ a, (k0_off13 d0) a + S1x512x128.size a ≤ S4x1024x512.size a
  k0_off13_packedbf16 : ∀ d0 : Dev nD, (Rect.unit (s := S4x1024x512) (k0_off13 d0) S1x512x128.size (k0_off13_inb d0)).PackedRows (EltTy.packing .bf16)
  k0_off14_inb : ∀ d0 : Dev nD, ∀ a, (k0_off14 d0) a + S1x1024x128.size a ≤ S4x1024x512.size a
  k0_off14_wordsbf16 : ∀ d0 : Dev nD, (Rect.unit (s := S4x1024x512) (k0_off14 d0) S1x1024x128.size (k0_off14_inb d0)).WholeWords (EltTy.packing .bf16)
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off15_inb : ∀ d0 : Dev nD, ∀ a, (k0_off15 d0) a + S1x512x128.size a ≤ S4x1024x512.size a
  k0_off15_packedbf16 : ∀ d0 : Dev nD, (Rect.unit (s := S4x1024x512) (k0_off15 d0) S1x512x128.size (k0_off15_inb d0)).PackedRows (EltTy.packing .bf16)
  k0_off16_inb : ∀ d0 : Dev nD, ∀ a, (k0_off16 d0) a + S1x512x128.size a ≤ S4x1024x512.size a
  k0_off16_packedbf16 : ∀ d0 : Dev nD, (Rect.unit (s := S4x1024x512) (k0_off16 d0) S1x512x128.size (k0_off16_inb d0)).PackedRows (EltTy.packing .bf16)
  k0_off17_inb : ∀ d0 : Dev nD, ∀ a, (k0_off17 d0) a + S1x1024x128.size a ≤ S4x1024x512.size a
  k0_off17_wordsbf16 : ∀ d0 : Dev nD, (Rect.unit (s := S4x1024x512) (k0_off17 d0) S1x1024x128.size (k0_off17_inb d0)).WholeWords (EltTy.packing .bf16)
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off18_inb : ∀ d0 : Dev nD, ∀ a, (k0_off18 d0) a + S1x512x128.size a ≤ S4x1024x512.size a
  k0_off18_packedbf16 : ∀ d0 : Dev nD, (Rect.unit (s := S4x1024x512) (k0_off18 d0) S1x512x128.size (k0_off18_inb d0)).PackedRows (EltTy.packing .bf16)
  k0_off19_inb : ∀ d0 : Dev nD, ∀ a, (k0_off19 d0) a + S1x512x128.size a ≤ S4x1024x512.size a
  k0_off19_packedbf16 : ∀ d0 : Dev nD, (Rect.unit (s := S4x1024x512) (k0_off19 d0) S1x512x128.size (k0_off19_inb d0)).PackedRows (EltTy.packing .bf16)
  k0_off20_inb : ∀ d0 : Dev nD, ∀ a, (k0_off20 d0) a + S1x1024x128.size a ≤ S4x1024x512.size a
  k0_off20_wordsbf16 : ∀ d0 : Dev nD, (Rect.unit (s := S4x1024x512) (k0_off20 d0) S1x1024x128.size (k0_off20_inb d0)).WholeWords (EltTy.packing .bf16)
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_off21_inb : ∀ d0 : Dev nD, ∀ a, (k0_off21 d0) a + S1x512x128.size a ≤ S4x1024x512.size a
  k0_off21_packedbf16 : ∀ d0 : Dev nD, (Rect.unit (s := S4x1024x512) (k0_off21 d0) S1x512x128.size (k0_off21_inb d0)).PackedRows (EltTy.packing .bf16)
  k0_off22_inb : ∀ d0 : Dev nD, ∀ a, (k0_off22 d0) a + S1x512x128.size a ≤ S4x1024x512.size a
  k0_off22_packedbf16 : ∀ d0 : Dev nD, (Rect.unit (s := S4x1024x512) (k0_off22 d0) S1x512x128.size (k0_off22_inb d0)).PackedRows (EltTy.packing .bf16)
  k0_off23_inb : ∀ d0 : Dev nD, ∀ a, (k0_off23 d0) a + S1x1024x128.size a ≤ S4x1024x512.size a
  k0_off23_wordsbf16 : ∀ d0 : Dev nD, (Rect.unit (s := S4x1024x512) (k0_off23 d0) S1x1024x128.size (k0_off23_inb d0)).WholeWords (EltTy.packing .bf16)
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_off24_inb : ∀ d0 : Dev nD, ∀ a, (k0_off24 d0) a + S1x1024x512.size a ≤ S4x1024x512.size a
  k0_off25_inb : ∀ d0 : Dev nD, ∀ (r : Fin 3), ∀ a, (k0_off25 d0 (BitVec.ofNat 32 (1 + r.val))) a + S512x2048.size a ≤ S2048x2048.size a
  k0_off26_inb : ∀ d0 : Dev nD, ∀ (r : Fin 3), ∀ a, (k0_off26 d0 (BitVec.ofNat 32 (1 + r.val))) a + S1x1024x512.size a ≤ S4x1024x512.size a
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole

variable [Facts₀]

abbrev cc0_scratch9 : DmaSems sig S3x3 := SemArray.consecutive 7 S3x3 hcc0_scratch9
abbrev cc0_scratch10 : DmaSems sig S3x3 := SemArray.consecutive 16 S3x3 hcc0_scratch10
abbrev cc0_scratch11 : DmaSems sig S3x4 := SemArray.consecutive 25 S3x4 hcc0_scratch11
abbrev cc0_scratch12 : DmaSems sig S3x4 := SemArray.consecutive 37 S3x4 hcc0_scratch12
abbrev cc0_scratch13 : DmaSems sig S_ := SemArray.consecutive 49 S_ hcc0_scratch13
abbrev cc0_scratch14 : DmaSems sig S_ := SemArray.consecutive 50 S_ hcc0_scratch14
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x2048_S2048x32_S1024x32_1_0_0_1_n_n : DotDims S1024x2048 S2048x32 S1024x32 where
  lhsContracting := [1]
  rhsContracting := [0]
  lhsNonContracting := [0]
  rhsNonContracting := [1]
  lhsBatch := []
  rhsBatch := []
  wf := dot_S1024x2048_S2048x32_S1024x32_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S512x160_S512x160_S512x512_1_1_0_0_n_n : DotDims S512x160 S512x160 S512x512 where
  lhsContracting := [1]
  rhsContracting := [1]
  lhsNonContracting := [0]
  rhsNonContracting := [0]
  lhsBatch := []
  rhsBatch := []
  wf := dot_S512x160_S512x160_S512x512_1_1_0_0_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg6) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_v1) true false (stage0_6 0) (sem0_6 0) (Memref.isWhole_whole _) (hstage0_6 0)

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x512x2048 : Shape := ⟨3, ![2, 512, 2048]⟩
abbrev S2048x512 : Shape := ⟨2, ![2048, 512]⟩
abbrev S512x2048 : Shape := ⟨2, ![512, 2048]⟩
abbrev S2048x2048 : Shape := ⟨2, ![2048, 2048]⟩
abbrev S2048x32 : Shape := ⟨2, ![2048, 32]⟩
abbrev S2x512x512 : Shape := ⟨3, ![2, 512, 512]⟩
abbrev S2x512x16x128 : Shape := ⟨4, ![2, 512, 16, 128]⟩
abbrev S2x512x16x32 : Shape := ⟨4, ![2, 512, 16, 32]⟩
abbrev S2x512x32 : Shape := ⟨3, ![2, 512, 32]⟩
abbrev S2x512x1x32 : Shape := ⟨4, ![2, 512, 1, 32]⟩
abbrev S2x16x512x512 : Shape := ⟨4, ![2, 16, 512, 512]⟩
abbrev S_ : Shape := ⟨0, ![]⟩
abbrev S2x16x512 : Shape := ⟨3, ![2, 16, 512]⟩
abbrev S2x16x512x1 : Shape := ⟨4, ![2, 16, 512, 1]⟩
abbrev S2x16x128x512 : Shape := ⟨4, ![2, 16, 128, 512]⟩

abbrev nBuf : Space → Nat
  | .hbm => 41
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2048x512, .f32⟩
  | .hbm, ⟨2, _⟩ => ⟨S512x2048, .f32⟩
  | .hbm, ⟨3, _⟩ => ⟨S512x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S2x512x512, .f32⟩
  | .hbm, ⟨9, _⟩ => ⟨S2x512x2048, .f32⟩
  | .hbm, ⟨10, _⟩ => ⟨S2x512x16x128, .f32⟩
  | .hbm, ⟨11, _⟩ => ⟨S2x512x2048, .f32⟩
  | .hbm, ⟨12, _⟩ => ⟨S2x512x16x128, .f32⟩
  | .hbm, ⟨13, _⟩ => ⟨S2x512x2048, .f32⟩
  | .hbm, ⟨14, _⟩ => ⟨S2x512x16x128, .f32⟩
  | .hbm, ⟨15, _⟩ => ⟨S2x512x512, .f32⟩
  | .hbm, ⟨16, _⟩ => ⟨S2x512x16x32, .f32⟩
  | .hbm, ⟨17, _⟩ => ⟨S2x512x32, .f32⟩
  | .hbm, ⟨18, _⟩ => ⟨S2x512x1x32, .f32⟩
  | .hbm, ⟨19, _⟩ => ⟨S2x16x512x512, .f32⟩
  | .hbm, ⟨20, _⟩ => ⟨S2x512x16x32, .f32⟩
  | .hbm, ⟨21, _⟩ => ⟨S2x16x512x512, .f32⟩
  | .hbm, ⟨22, _⟩ => ⟨S2x16x512x512, .f32⟩
  | .hbm, ⟨23, _⟩ => ⟨S_, .f32⟩
  | .hbm, ⟨24, _⟩ => ⟨S2x16x512x512, .f32⟩
  | .hbm, ⟨25, _⟩ => ⟨S2x16x512x512, .f32⟩
  | .hbm, ⟨26, _⟩ => ⟨S_, .f32⟩
  | .hbm, ⟨27, _⟩ => ⟨S2x16x512, .f32⟩
  | .hbm, ⟨28, _⟩ => ⟨S2x16x512x1, .f32⟩
  | .hbm, ⟨29, _⟩ => ⟨S2x16x512x512, .f32⟩
  | .hbm, ⟨30, _⟩ => ⟨S2x16x512x512, .f32⟩
  | .hbm, ⟨31, _⟩ => ⟨S2x16x512x512, .f32⟩
  | .hbm, ⟨32, _⟩ => ⟨S_, .f32⟩
  | .hbm, ⟨33, _⟩ => ⟨S2x16x512, .f32⟩
  | .hbm, ⟨34, _⟩ => ⟨S2x16x512x1, .f32⟩
  | .hbm, ⟨35, _⟩ => ⟨S2x16x512x512, .f32⟩
  | .hbm, ⟨36, _⟩ => ⟨S2x16x512x512, .f32⟩
  | .hbm, ⟨37, _⟩ => ⟨S2x16x128x512, .f32⟩
  | .hbm, ⟨38, _⟩ => ⟨S2x512x16x128, .f32⟩
  | .hbm, ⟨39, _⟩ => ⟨S2x512x2048, .f32⟩
  | .hbm, ⟨40, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  shapeCasts_S2x512x2048_S2x512x16x128 : S2x512x2048.ShapeCasts S2x512x16x128
  shapeCasts_S2x512x512_S2x512x16x32 : S2x512x512.ShapeCasts S2x512x16x32
  shapeCasts_S2x512x32_S2x512x1x32 : S2x512x32.ShapeCasts S2x512x1x32
  bcast_S2x512x1x32_S2x512x16x32_0_1_2_3 : S2x512x1x32.BroadcastsInDim S2x512x16x32 (![0, 1, 2, 3] : Fin 4 → Fin S2x512x16x32.rank)
  bcast_S_S2x16x512x512 : S_.BroadcastsInDim S2x16x512x512 (![] : Fin 0 → Fin S2x16x512x512.rank)
  reducesTo_S2x16x512x512_S2x16x512_d3 : S2x16x512x512.ReducesTo [3] S2x16x512
  h_S_ : 0 < S_.numel
  bcast_S2x16x512_S2x16x512x1_0_1_2 : S2x16x512.BroadcastsInDim S2x16x512x1 (![0, 1, 2] : Fin 3 → Fin S2x16x512x1.rank)
  bcast_S2x16x512x1_S2x16x512x512_0_1_2_3 : S2x16x512x1.BroadcastsInDim S2x16x512x512 (![0, 1, 2, 3] : Fin 4 → Fin S2x16x512x512.rank)
  transposes_S2x16x128x512_S2x512x16x128_0_3_1_2 : S2x16x128x512.Transposes [0, 3, 1, 2] S2x512x16x128
  shapeCasts_S2x512x16x128_S2x512x2048 : S2x512x16x128.ShapeCasts S2x512x2048
  dot_S2x512x2048_S2048x512_S2x512x512_2_0_01_1_n_n_wf : DotDims.WF S2x512x2048 S2048x512 S2x512x512 [2] [0] [0, 1] [1] [] []
  dot_S2x512x512_S512x2048_S2x512x2048_2_0_01_1_n_n_wf : DotDims.WF S2x512x512 S512x2048 S2x512x2048 [2] [0] [0, 1] [1] [] []
  dot_S2x512x2048_S2048x2048_S2x512x2048_2_0_01_1_n_n_wf : DotDims.WF S2x512x2048 S2048x2048 S2x512x2048 [2] [0] [0, 1] [1] [] []
  dot_S2x512x2048_S2048x32_S2x512x32_2_0_01_1_n_n_wf : DotDims.WF S2x512x2048 S2048x32 S2x512x32 [2] [0] [0, 1] [1] [] []
  dot_S2x512x16x128_S2x512x16x128_S2x16x512x512_3_3_1_1_02_02_wf : DotDims.WF S2x512x16x128 S2x512x16x128 S2x16x512x512 [3] [3] [1] [1] [0, 2] [0, 2]
  dot_S2x512x16x32_S2x512x16x32_S2x16x512x512_3_3_1_1_02_02_wf : DotDims.WF S2x512x16x32 S2x512x16x32 S2x16x512x512 [3] [3] [1] [1] [0, 2] [0, 2]
  dot_S2x512x16x128_S2x16x512x512_S2x16x128x512_1_3_3_2_02_01_wf : DotDims.WF S2x512x16x128 S2x16x512x512 S2x16x128x512 [1] [3] [3] [2] [0, 2] [0, 1]

variable [Facts₀]

def dot_S2x512x2048_S2048x512_S2x512x512_2_0_01_1_n_n : DotDims S2x512x2048 S2048x512 S2x512x512 where
  lhsContracting := [2]
  rhsContracting := [0]
  lhsNonContracting := [0, 1]
  rhsNonContracting := [1]
  lhsBatch := []
  rhsBatch := []
  wf := dot_S2x512x2048_S2048x512_S2x512x512_2_0_01_1_n_n_wf
def dot_S2x512x512_S512x2048_S2x512x2048_2_0_01_1_n_n : DotDims S2x512x512 S512x2048 S2x512x2048 where
  lhsContracting := [2]
  rhsContracting := [0]
  lhsNonContracting := [0, 1]
  rhsNonContracting := [1]
  lhsBatch := []
  rhsBatch := []
  wf := dot_S2x512x512_S512x2048_S2x512x2048_2_0_01_1_n_n_wf
def dot_S2x512x2048_S2048x2048_S2x512x2048_2_0_01_1_n_n : DotDims S2x512x2048 S2048x2048 S2x512x2048 where
  lhsContracting := [2]
  rhsContracting := [0]
  lhsNonContracting := [0, 1]
  rhsNonContracting := [1]
  lhsBatch := []
  rhsBatch := []
  wf := dot_S2x512x2048_S2048x2048_S2x512x2048_2_0_01_1_n_n_wf
def dot_S2x512x2048_S2048x32_S2x512x32_2_0_01_1_n_n : DotDims S2x512x2048 S2048x32 S2x512x32 where
  lhsContracting := [2]
  rhsContracting := [0]
  lhsNonContracting := [0, 1]
  rhsNonContracting := [1]
  lhsBatch := []
  rhsBatch := []
  wf := dot_S2x512x2048_S2048x32_S2x512x32_2_0_01_1_n_n_wf
def dot_S2x512x16x128_S2x512x16x128_S2x16x512x512_3_3_1_1_02_02 : DotDims S2x512x16x128 S2x512x16x128 S2x16x512x512 where
  lhsContracting := [3]
  rhsContracting := [3]
  lhsNonContracting := [1]
  rhsNonContracting := [1]
  lhsBatch := [0, 2]
  rhsBatch := [0, 2]
  wf := dot_S2x512x16x128_S2x512x16x128_S2x16x512x512_3_3_1_1_02_02_wf
def dot_S2x512x16x32_S2x512x16x32_S2x16x512x512_3_3_1_1_02_02 : DotDims S2x512x16x32 S2x512x16x32 S2x16x512x512 where
  lhsContracting := [3]
  rhsContracting := [3]
  lhsNonContracting := [1]
  rhsNonContracting := [1]
  lhsBatch := [0, 2]
  rhsBatch := [0, 2]
  wf := dot_S2x512x16x32_S2x512x16x32_S2x16x512x512_3_3_1_1_02_02_wf
def dot_S2x512x16x128_S2x16x512x512_S2x16x128x512_1_3_3_2_02_01 : DotDims S2x512x16x128 S2x16x512x512 S2x16x128x512 where
  lhsContracting := [1]
  rhsContracting := [3]
  lhsNonContracting := [3]
  rhsNonContracting := [2]
  lhsBatch := [0, 2]
  rhsBatch := [0, 1]
  wf := dot_S2x512x16x128_S2x16x512x512_S2x16x128x512_1_3_3_2_02_01_wf

class Facts : Prop extends Facts₀ where

variable [Facts]
-- ==== Proof.MlaSpec.lean ====
import Idealize.ShloMosaic.PureOps.Ideal
import Idealize.ShloMosaic.PureOps.Ideal.Laws
import Idealize.ShloMosaic.Lib.ValueIdx

noncomputable section

namespace Cert.MlaSpec

open Idealize.ShloMosaic
open scoped BigOperators

def col128 (h : Fin 16) (d : Fin 128) : Fin 2048 := ⟨h.val * 128 + d.val, by omega⟩
def col32 (h : Fin 16) (r : Fin 32) : Fin 512 := ⟨h.val * 32 + r.val, by omega⟩
def hd (e : Fin 2048) : Fin 16 := ⟨e.val / 128, by omega⟩
def lane (e : Fin 2048) : Fin 128 := ⟨e.val % 128, by omega⟩
def blk128 (g : Fin 4) (j : Fin 128) : Fin 512 := ⟨128 * g.val + j.val, by omega⟩
def blk512 (g : Fin 4) (e : Fin 512) : Fin 2048 := ⟨512 * g.val + e.val, by omega⟩
def head4 (g : Fin 4) (hh : Fin 4) : Fin 16 := ⟨4 * g.val + hh.val, by omega⟩
def gcol128 (hh : Fin 4) (d : Fin 128) : Fin 512 := ⟨hh.val * 128 + d.val, by omega⟩
def gcol32 (hh : Fin 4) (r : Fin 32) : Fin 128 := ⟨hh.val * 32 + r.val, by omega⟩

theorem col128_hd_lane (e : Fin 2048) : col128 (hd e) (lane e) = e :=
  Fin.ext (by simp only [col128, hd, lane]; omega)
theorem col128_head4 (g hh : Fin 4) (d : Fin 128) : col128 (head4 g hh) d = blk512 g (gcol128 hh d) :=
  Fin.ext (by simp only [col128, head4, blk512, gcol128]; omega)
theorem col32_head4 (g hh : Fin 4) (r : Fin 32) : col32 (head4 g hh) r = blk128 g (gcol32 hh r) :=
  Fin.ext (by simp only [col32, head4, blk128, gcol32]; omega)
theorem hd_blk512 (g : Fin 4) (hh : Fin 4) (d : Fin 128) : hd (blk512 g (gcol128 hh d)) = head4 g hh :=
  Fin.ext (by simp only [hd, head4, blk512, gcol128]; omega)

variable (X : Fin 2 → Fin 512 → Fin 2048 → EReal) (Wdkv : Fin 2048 → Fin 512 → EReal)
  (Wuk Wuv : Fin 512 → Fin 2048 → EReal) (Wq : Fin 2048 → Fin 2048 → EReal) (Wqr : Fin 2048 → Fin 512 → EReal)
  (Wkr : Fin 2048 → Fin 32 → EReal) (Wo : Fin 2048 → Fin 2048 → EReal) (scale : EReal)

/-- The latent c = x · Wdkv; keys, values, queries and the two rotary parts are products of the same kind. -/
def cLat (b : Fin 2) (s : Fin 512) (j : Fin 512) : EReal := ∑ d : Fin 2048, X b s d * Wdkv d j
def Kp (b : Fin 2) (s : Fin 512) (e : Fin 2048) : EReal := ∑ j : Fin 512, cLat X Wdkv b s j * Wuk j e
def Vp (b : Fin 2) (s : Fin 512) (e : Fin 2048) : EReal := ∑ j : Fin 512, cLat X Wdkv b s j * Wuv j e
def Qp (b : Fin 2) (s : Fin 512) (e : Fin 2048) : EReal := ∑ d : Fin 2048, X b s d * Wq d e
def Qrp (b : Fin 2) (s : Fin 512) (q : Fin 512) : EReal := ∑ d : Fin 2048, X b s d * Wqr d q
def Krp (b : Fin 2) (s : Fin 512) (r : Fin 32) : EReal := ∑ d : Fin 2048, X b s d * Wkr d r

/-- Query row s against key row t in head h: content part plus rotary part, scaled. -/
def score (b : Fin 2) (h : Fin 16) (s t : Fin 512) : EReal :=
  ((∑ d : Fin 128, Qp X Wq b s (col128 h d) * Kp X Wdkv Wuk b t (col128 h d))
    + ∑ r : Fin 32, Qrp X Wqr b s (col32 h r) * Krp X Wkr b t r) * scale

def rowMax {n : Nat} (sc : Fin n → EReal) : EReal := (Finset.univ : Finset (Fin n)).fold max ⊥ sc

/-- Softmax with the row maximum subtracted, applied to the values. -/
def refAttn {n : Nat} (sc v : Fin n → EReal) : EReal :=
  ∑ t : Fin n, Ideal.div (Ideal.exp (sc t - rowMax sc)) (∑ t' : Fin n, Ideal.exp (sc t' - rowMax sc)) * v t

/-- Unnormalised exponentials applied to the values, divided once by their sum. -/
def kerAttn {n : Nat} (sc v : Fin n → EReal) : EReal :=
  (∑ t : Fin n, Ideal.exp (sc t) * v t) * Ideal.div 1 (∑ t : Fin n, Ideal.exp (sc t))

def refO (b : Fin 2) (s : Fin 512) (e : Fin 2048) : EReal :=
  refAttn (fun t => score X Wdkv Wuk Wq Wqr Wkr scale b (hd e) s t) (fun t => Vp X Wdkv Wuv b t e)

def kerO (b : Fin 2) (s : Fin 512) (e : Fin 2048) : EReal :=
  kerAttn (fun t => score X Wdkv Wuk Wq Wqr Wkr scale b (hd e) s t) (fun t => Vp X Wdkv Wuv b t e)

def refOut (b : Fin 2) (s : Fin 512) (o : Fin 2048) : EReal :=
  ∑ e : Fin 2048, refO X Wdkv Wuk Wuv Wq Wqr Wkr scale b s e * Wo e o

def kerOut (b : Fin 2) (s : Fin 512) (o : Fin 2048) : EReal :=
  ∑ e : Fin 2048, kerO X Wdkv Wuk Wuv Wq Wqr Wkr scale b s e * Wo e o

def IsReal (x : EReal) : Prop := ∃ r : ℝ, x = (r : EReal)

end Cert.MlaSpec
-- ==== Proof.RefValue.lean ====
import proofs.«900571_g7700000000000572_dist_mla_v7x_i4_i_b2_s512_d2048_dc128_f32_1_alg».proof.Proof.Gen.ReferenceIdeal.Read
import proofs.«900571_g7700000000000572_dist_mla_v7x_i4_i_b2_s512_d2048_dc128_f32_1_alg».proof.Proof.MlaSpec

noncomputable section

namespace Cert.MlaRef

open Cert.ReferenceIdeal Cert.ReferenceIdeal.Gen Cert.ReferenceIdeal.Read
open Idealize.ShloMosaic Idealize.ShloMosaic.ValueIdx
open Cert.MlaSpec
open scoped BigOperators

abbrev Arr (S : Shape) : Type := (⟨S, .f32⟩ : BufTy).Contents (Elt Ideal)

variable (a0 : Arr S2x512x2048) (a1 : Arr S2048x512) (a2 a3 : Arr S512x2048) (a4 : Arr S2048x2048)
  (a5 : Arr S2048x512) (a6 : Arr S2048x32) (a7 : Arr S2048x2048)

abbrev X : Fin 2 → Fin 512 → Fin 2048 → EReal := fun b s d => a0 (ix3 b s d)
abbrev Wdkv : Fin 2048 → Fin 512 → EReal := fun d j => a1 (ix2 d j)
abbrev Wuk : Fin 512 → Fin 2048 → EReal := fun j e => a2 (ix2 j e)
abbrev Wuv : Fin 512 → Fin 2048 → EReal := fun j e => a3 (ix2 j e)
abbrev Wq : Fin 2048 → Fin 2048 → EReal := fun d e => a4 (ix2 d e)
abbrev Wqr : Fin 2048 → Fin 512 → EReal := fun d q => a5 (ix2 d q)
abbrev Wkr : Fin 2048 → Fin 32 → EReal := fun d r => a6 (ix2 d r)
abbrev Wo : Fin 2048 → Fin 2048 → EReal := fun e o => a7 (ix2 e o)
abbrev scale : EReal := Ideal.ofBits .f32 0x3DA1E89B#32
abbrev sc (b : Fin 2) (h : Fin 16) (s t : Fin 512) : EReal :=
  score (X a0) (Wdkv a1) (Wuk a2) (Wq a4) (Wqr a5) (Wkr a6) scale b h s t
abbrev ex (b : Fin 2) (h : Fin 16) (s t : Fin 512) : EReal :=
  Ideal.exp (sc a0 a1 a2 a4 a5 a6 b h s t - rowMax (sc a0 a1 a2 a4 a5 a6 b h s))

theorem v0_eq (b : Fin 2) (s j : Fin 512) :
    val_main_v0 (F := Ideal) a0 a1 (ix3 b s j) = cLat (X a0) (Wdkv a1) b s j := by
  rw [val_main_v0_apply]
  exact Finset.sum_congr rfl fun k _ => by
    rw [show lidx_main_v0 (ix3 b s j) k = ix3 b s k from eq_ix3 _, show ridx_main_v0 (ix3 b s j) k = ix2 k j from eq_ix2 _]

theorem v1_eq (b : Fin 2) (s : Fin 512) (e : Fin 2048) :
    val_main_v1 (F := Ideal) a0 a1 a2 (ix3 b s e) = Kp (X a0) (Wdkv a1) (Wuk a2) b s e := by
  rw [val_main_v1_apply]
  exact Finset.sum_congr rfl fun k _ => by
    rw [show lidx_main_v1 (ix3 b s e) k = ix3 b s k from eq_ix3 _, show ridx_main_v1 (ix3 b s e) k = ix2 k e from eq_ix2 _, v0_eq]

/-- Position ((b·512 + s)·16 + h)·128 + d of the flat array is column h·128 + d of row (b, s). -/
theorem split128 (b : Fin 2) (s : Fin 512) (h : Fin 16) (dh : Fin 128) :
    idx_main_v2 (ix4 b s h dh) = ix3 b s (col128 h dh) := by
  have := b.isLt; have := s.isLt; have := h.isLt; have := dh.isLt
  funext a; apply Fin.ext
  match a with
  | ⟨0, _⟩ => show (((b.val * 512 + s.val) * 16 + h.val) * 128 + dh.val) / 1048576 = b.val; omega
  | ⟨1, _⟩ => show (((b.val * 512 + s.val) * 16 + h.val) * 128 + dh.val) / 2048 % 512 = s.val; omega
  | ⟨2, _⟩ => show (((b.val * 512 + s.val) * 16 + h.val) * 128 + dh.val) % 2048 = h.val * 128 + dh.val; omega

theorem v2_eq (b : Fin 2) (s : Fin 512) (h : Fin 16) (dh : Fin 128) :
    val_main_v2 (F := Ideal) a0 a1 a2 (ix4 b s h dh) = Kp (X a0) (Wdkv a1) (Wuk a2) b s (col128 h dh) := by
  rw [val_main_v2_apply, split128, v1_eq]

theorem v3_eq (b : Fin 2) (s : Fin 512) (e : Fin 2048) :
    val_main_v3 (F := Ideal) a0 a1 a3 (ix3 b s e) = Vp (X a0) (Wdkv a1) (Wuv a3) b s e := by
  rw [val_main_v3_apply]
  exact Finset.sum_congr rfl fun k _ => by
    rw [show lidx_main_v3 (ix3 b s e) k = ix3 b s k from eq_ix3 _, show ridx_main_v3 (ix3 b s e) k = ix2 k e from eq_ix2 _, v0_eq]

theorem v4_eq (b : Fin 2) (s : Fin 512) (h : Fin 16) (dh : Fin 128) :
    val_main_v4 (F := Ideal) a0 a1 a3 (ix4 b s h dh) = Vp (X a0) (Wdkv a1) (Wuv a3) b s (col128 h dh) := by
  rw [val_main_v4_apply, show idx_main_v4 (ix4 b s h dh) = _ from split128 b s h dh, v3_eq]

theorem v5_eq (b : Fin 2) (s : Fin 512) (e : Fin 2048) :
    val_main_v5 (F := Ideal) a0 a4 (ix3 b s e) = Qp (X a0) (Wq a4) b s e := by
  rw [val_main_v5_apply]
  exact Finset.sum_congr rfl fun k _ => by
    rw [show lidx_main_v5 (ix3 b s e) k = ix3 b s k from eq_ix3 _, show ridx_main_v5 (ix3 b s e) k = ix2 k e from eq_ix2 _]

theorem v6_eq (b : Fin 2) (s : Fin 512) (h : Fin 16) (dh : Fin 128) :
    val_main_v6 (F := Ideal) a0 a4 (ix4 b s h dh) = Qp (X a0) (Wq a4) b s (col128 h dh) := by
  rw [val_main_v6_apply, show idx_main_v6 (ix4 b s h dh) = _ from split128 b s h dh, v5_eq]

theorem v7_eq (b : Fin 2) (s q : Fin 512) :
    val_main_v7 (F := Ideal) a0 a5 (ix3 b s q) = Qrp (X a0) (Wqr a5) b s q := by
  rw [val_main_v7_apply]
  exact Finset.sum_congr rfl fun k _ => by
    rw [show lidx_main_v7 (ix3 b s q) k = ix3 b s k from eq_ix3 _, show ridx_main_v7 (ix3 b s q) k = ix2 k q from eq_ix2 _]

theorem v8_eq (b : Fin 2) (s : Fin 512) (h : Fin 16) (r : Fin 32) :
    val_main_v8 (F := Ideal) a0 a5 (ix4 b s h r) = Qrp (X a0) (Wqr a5) b s (col32 h r) := by
  have e : idx_main_v8 (ix4 b s h r) = ix3 b s (col32 h r) := by
    have := b.isLt; have := s.isLt; have := h.isLt; have := r.isLt
    funext a; apply Fin.ext
    match a with
    | ⟨0, _⟩ => show (((b.val * 512 + s.val) * 16 + h.val) * 32 + r.val) / 262144 = b.val; omega
    | ⟨1, _⟩ => show (((b.val * 512 + s.val) * 16 + h.val) * 32 + r.val) / 512 % 512 = s.val; omega
    | ⟨2, _⟩ => show (((b.val * 512 + s.val) * 16 + h.val) * 32 + r.val) % 512 = h.val * 32 + r.val; omega
  rw [val_main_v8_apply, e, v7_eq]

theorem v9_eq (b : Fin 2) (s : Fin 512) (r : Fin 32) :
    val_main_v9 (F := Ideal) a0 a6 (ix3 b s r) = Krp (X a0) (Wkr a6) b s r := by
  rw [val_main_v9_apply]
  exact Finset.sum_congr rfl fun k _ => by
    rw [show lidx_main_v9 (ix3 b s r) k = ix3 b s k from eq_ix3 _, show ridx_main_v9 (ix3 b s r) k = ix2 k r from eq_ix2 _]

/-- A unit head axis is inserted and then repeated over the sixteen heads: every head reads the same rotary key. -/
theorem v12_eq (b : Fin 2) (s : Fin 512) (h : Fin 16) (r : Fin 32) :
    val_main_v12 (F := Ideal) a0 a6 (ix4 b s h r) = Krp (X a0) (Wkr a6) b s r := by
  have e : idx_main_v10 (ix4 b s (⟨0, Nat.one_pos⟩ : Fin 1) r) = ix3 b s r := by
    have := b.isLt; have := s.isLt; have := r.isLt
    funext a; apply Fin.ext
    match a with
    | ⟨0, _⟩ => show (((b.val * 512 + s.val) * 1 + 0) * 32 + r.val) / 16384 = b.val; omega
    | ⟨1, _⟩ => show (((b.val * 512 + s.val) * 1 + 0) * 32 + r.val) / 32 % 512 = s.val; omega
    | ⟨2, _⟩ => show (((b.val * 512 + s.val) * 1 + 0) * 32 + r.val) % 32 = r.val; omega
  rw [val_main_v12_apply, show idx_main_v12 (ix4 b s h r) = ix4 b s (⟨0, Nat.one_pos⟩ : Fin 1) r from eq_ix4 _,
    val_main_v10_apply, e, v9_eq]

theorem v16_eq (b : Fin 2) (h : Fin 16) (s t : Fin 512) :
    val_main_v16 (F := Ideal) a0 a1 a2 a4 a5 a6 (ix4 b h s t) = sc a0 a1 a2 a4 a5 a6 b h s t := by
  have e11 : val_main_v11 (F := Ideal) a0 a1 a2 a4 (ix4 b h s t)
      = ∑ d : Fin 128, Qp (X a0) (Wq a4) b s (col128 h d) * Kp (X a0) (Wdkv a1) (Wuk a2) b t (col128 h d) := by
    rw [val_main_v11_apply]
    exact Finset.sum_congr rfl fun k _ => by
      rw [show lidx_main_v11 (ix4 b h s t) k = ix4 b s h k from eq_ix4 _,
        show ridx_main_v11 (ix4 b h s t) k = ix4 b t h k from eq_ix4 _, v6_eq, v2_eq]
  have e13 : val_main_v13 (F := Ideal) a0 a5 a6 (ix4 b h s t)
      = ∑ r : Fin 32, Qrp (X a0) (Wqr a5) b s (col32 h r) * Krp (X a0) (Wkr a6) b t r := by
    rw [val_main_v13_apply]
    exact Finset.sum_congr rfl fun k _ => by
      rw [show lidx_main_v13 (ix4 b h s t) k = ix4 b s h k from eq_ix4 _,
        show ridx_main_v13 (ix4 b h s t) k = ix4 b t h k from eq_ix4 _, v8_eq, v12_eq]
  rw [val_main_v16_apply, val_main_v14_apply, val_main_v15_apply, val_main_cst_apply, e11, e13]
  rfl

theorem red_t : S2x16x512x512.Reduces [3] S2x16x512 := by decide

/-- The reduce from the word of -∞ is the fold of max from ⊥ over the row of scores. -/
theorem v17_eq (b : Fin 2) (h : Fin 16) (s : Fin 512) :
    val_main_v17 (F := Ideal) a0 a1 a2 a4 a5 a6 (ix3 b h s) = rowMax (sc a0 a1 a2 a4 a5 a6 b h s) := by
  unfold val_main_v17
  rw [Host.reduce_eq_fold_single (FloatOps.maximumf (F := Ideal) (φ := .f32)) _ _
    reducesTo_S2x16x512x512_S2x16x512_d3 red_t h_S_]
  have hf : (val_main_v16 (F := Ideal) a0 a1 a2 a4 a5 a6 ∘ red_t.lift (ix3 b h s))
      = fun t : Fin 512 => sc a0 a1 a2 a4 a5 a6 b h s t :=
    funext fun k => (congrArg (val_main_v16 (F := Ideal) a0 a1 a2 a4 a5 a6)
      (show red_t.lift (ix3 b h s) k = ix4 b h s (⟨k.val, k.isLt⟩ : Fin 512) from eq_ix4 _)).trans
      (v16_eq a0 a1 a2 a4 a5 a6 b h s ⟨k.val, k.isLt⟩)
  have hi : (val_main_cst_0 (F := Ideal)) (Shape.Idx.first h_S_) = (⊥ : EReal) := by
    show Ideal.ofBits .f32 0xFF800000#32 = (⊥ : EReal)
    simp [Ideal.ofBits, Ideal.ieee]
  rw [hf, hi]
  rfl

theorem v21_eq (b : Fin 2) (h : Fin 16) (s t : Fin 512) :
    val_main_v21 (F := Ideal) a0 a1 a2 a4 a5 a6 (ix4 b h s t) = ex a0 a1 a2 a4 a5 a6 b h s t := by
  rw [val_main_v21_apply, val_main_v20_apply, v16_eq, val_main_v19_apply, val_main_v18_apply,
    show idx_main_v18 (idx_main_v19 (ix4 b h s t)) = ix3 b h s from eq_ix3 _, v17_eq]
  rfl

/-- The sum over the keys starts from the zero word, and 0 + x = x. -/
theorem v22_eq (b : Fin 2) (h : Fin 16) (s : Fin 512) :
    val_main_v22 (F := Ideal) a0 a1 a2 a4 a5 a6 (ix3 b h s) = ∑ t : Fin 512, ex a0 a1 a2 a4 a5 a6 b h s t := by
  rw [val_main_v22_apply, val_main_cst_1_apply,
    show (FloatOps.ofBits (F := Ideal) .f32 0x00000000#32 : EReal) = 0 from Ideal.ofBits_zero_f32, zero_add]
  exact Finset.sum_congr rfl fun k _ => by
    rw [show idx_main_v22 (ix3 b h s) k = ix4 b h s k from eq_ix4 _, v21_eq]

theorem v25_eq (b : Fin 2) (h : Fin 16) (s t : Fin 512) :
    val_main_v25 (F := Ideal) a0 a1 a2 a4 a5 a6 (ix4 b h s t)
      = Ideal.div (ex a0 a1 a2 a4 a5 a6 b h s t) (∑ t' : Fin 512, ex a0 a1 a2 a4 a5 a6 b h s t') := by
  rw [val_main_v25_apply, v21_eq, val_main_v24_apply, val_main_v23_apply,
    show idx_main_v23 (idx_main_v24 (ix4 b h s t)) = ix3 b h s from eq_ix3 _, v22_eq]
  rfl

/-- Column e is lane e % 128 of head e / 128; the reference multiplies values by weights, the specification weights by values. -/
theorem v28_eq (b : Fin 2) (s : Fin 512) (e : Fin 2048) :
    val_main_v28 (F := Ideal) a0 a1 a2 a3 a4 a5 a6 (ix3 b s e)
      = refO (X a0) (Wdkv a1) (Wuk a2) (Wuv a3) (Wq a4) (Wqr a5) (Wkr a6) scale b s e := by
  have e1 : idx_main_v28 (ix3 b s e) = ix4 b s (hd e) (lane e) := by
    have := b.isLt; have := s.isLt; have := e.isLt
    funext a; apply Fin.ext
    match a with
    | ⟨0, _⟩ => show ((b.val * 512 + s.val) * 2048 + e.val) / 1048576 = b.val; omega
    | ⟨1, _⟩ => show ((b.val * 512 + s.val) * 2048 + e.val) / 2048 % 512 = s.val; omega
    | ⟨2, _⟩ => show ((b.val * 512 + s.val) * 2048 + e.val) / 128 % 16 = e.val / 128; omega
    | ⟨3, _⟩ => show ((b.val * 512 + s.val) * 2048 + e.val) % 128 = e.val % 128; omega
  rw [val_main_v28_apply, e1, val_main_v27_apply,
    show idx_main_v27 (ix4 b s (hd e) (lane e)) = ix4 b (hd e) (lane e) s from eq_ix4 _, val_main_v26_apply]
  unfold refO refAttn
  refine Finset.sum_congr rfl fun t _ => ?_
  rw [show lidx_main_v26 (ix4 b (hd e) (lane e) s) t = ix4 b t (hd e) (lane e) from eq_ix4 _,
    show ridx_main_v26 (ix4 b (hd e) (lane e) s) t = ix4 b (hd e) s t from eq_ix4 _, v4_eq, col128_hd_lane, v25_eq]
  exact mul_comm _ _

/-- The reference's result is the specification of its eight argument arrays read at their coordinates. -/
theorem ref_eq_spec (b : Fin 2) (s : Fin 512) (o : Fin 2048) :
    val_main_v29 (F := Ideal) a0 a1 a2 a3 a4 a5 a6 a7 (ix3 b s o)
      = refOut (X a0) (Wdkv a1) (Wuk a2) (Wuv a3) (Wq a4) (Wqr a5) (Wkr a6) (Wo a7) scale b s o := by
  rw [val_main_v29_apply]
  exact Finset.sum_congr rfl fun k _ => by
    rw [show lidx_main_v29 (ix3 b s o) k = ix3 b s k from eq_ix3 _, show ridx_main_v29 (ix3 b s o) k = ix2 k o from eq_ix2 _, v28_eq]

end Cert.MlaRef
-- ==== Proof.FiniteIn.lean ====
import proofs.«900571_g7700000000000572_dist_mla_v7x_i4_i_b2_s512_d2048_dc128_f32_1_alg».proof.Defs
import proofs.«900571_g7700000000000572_dist_mla_v7x_i4_i_b2_s512_d2048_dc128_f32_1_alg».proof.Proof.Gen.Pre_finite_inputs_Kernel
import Idealize.ShloMosaic.Lib.ReduceAll
import Idealize.ShloMosaic.Lib.ValueIdx

noncomputable section

namespace Cert.MlaFin

open Idealize.ShloMosaic Idealize.SL.Sem Idealize.ShloMosaic.ValueIdx

def AllReal {S : Shape} (x : S.Idx → EReal) : Prop := ∀ i, ∃ r : ℝ, x i = (r : EReal)

theorem AllReal.of_eq {S : Shape} {x y : S.Idx → EReal} (h : AllReal x) (e : x = y) : AllReal y := e ▸ h

instance : Subsingleton Pre_finite_inputs_Kernel.S_.Idx := ⟨fun a b => funext fun d => d.elim0⟩

/-- |x| < +∞ leaves only the real numbers. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h1 : Ideal.cmp .olt (max x (-x)) (Ideal.ofBits .f32 0x7F800000#32) = 1#1 := h
  rw [show Ideal.ofBits .f32 0x7F800000#32 = (⊤ : EReal) by simp [Ideal.ofBits, Ideal.ieee]] at h1
  have h2 : max x (-x) < ⊤ := by
    by_contra hc
    simp [Ideal.cmp, hc] at h1
  induction x using EReal.rec with
  | bot => simp at h2
  | top => simp at h2
  | coe r => exact ⟨r, rfl⟩

/-- An array whose conjunction of the tests |x| < +∞ is 1 has only real entries. -/
theorem allReal_of_test {S : Shape} (x : FVec Ideal S .f32)
    (hb : Pre_finite_inputs_Kernel.S_.BroadcastsInDim S (![] : Fin 0 → Fin S.rank))
    {axes : List (Fin S.rank)} (hr : S.ReducesTo axes Pre_finite_inputs_Kernel.S_)
    (hu : 0 < Pre_finite_inputs_Kernel.S_.numel)
    (e : Host.reduce IntOp.andi
        (cmpf .olt (Host.absf x)
          (broadcastInDim S ![] hb (constant (F := Ideal) Pre_finite_inputs_Kernel.S_ .f32 0x7F800000#32)))
        (constantI Pre_finite_inputs_Kernel.S_ 1 1#1) hr hu ix0 = 1#1) : AllReal x :=
  fun i => real_of_abs_lt (x i) (Host.reduce_andi_all _ _ hr hu ix0 e i)

theorem andi_ix0 (a b : IVec Pre_finite_inputs_Kernel.S_ 1) (h : andi a b ix0 = 1#1) :
    a ix0 = 1#1 ∧ b ix0 = 1#1 := IntOp.andi_eq_one.1 h

abbrev KMem : Type := (ℓ : Loc KernelIdeal.nD KernelIdeal.τ KernelIdeal.sig) → Buf (Elt Ideal) ℓ
abbrev RMem : Type := (ℓ : Loc ReferenceIdeal.nD ReferenceIdeal.τ ReferenceIdeal.sig) → Buf (Elt Ideal) ℓ

section Device

open KernelIdeal

variable (m : KMem) (c : Dev nD)

abbrev arg0 : FVec Ideal S2x512x2048 .f32 := m ((c.tc : Thread nD τ).loc main_arg0)
abbrev arg1 : FVec Ideal S2048x128 .f32 := m ((c.tc : Thread nD τ).loc main_arg1)
abbrev arg2 : FVec Ideal S128x2048 .f32 := m ((c.tc : Thread nD τ).loc main_arg2)
abbrev arg3 : FVec Ideal S128x2048 .f32 := m ((c.tc : Thread nD τ).loc main_arg3)
abbrev arg4 : FVec Ideal S2048x2048 .f32 := m ((c.tc : Thread nD τ).loc main_arg4)
abbrev arg5 : FVec Ideal S2048x512 .f32 := m ((c.tc : Thread nD τ).loc main_arg5)
abbrev arg6 : FVec Ideal S2048x32 .f32 := m ((c.tc : Thread nD τ).loc main_arg6)
abbrev arg7 : FVec Ideal S2048x2048 .f32 := m ((c.tc : Thread nD τ).loc main_arg7)

/-- The precondition is a conjunction of eight tests, one for each argument buffer of each device. -/
theorem fin_args (hpre : Pre_KernelIdeal m) :
    AllReal (arg0 m c) ∧ AllReal (arg1 m c) ∧ AllReal (arg2 m c) ∧ AllReal (arg3 m c) ∧
    AllReal (arg4 m c) ∧ AllReal (arg5 m c) ∧ AllReal (arg6 m c) ∧ AllReal (arg7 m c) := by
  have h0 := congrFun (hpre c) ix0
  dsimp only [Pre_finite_inputs_Kernel.fn, Pre_finite_inputs_Kernel.fn_part1,
    Pre_finite_inputs_Kernel.fn_part2] at h0
  obtain ⟨h33, h37⟩ := andi_ix0 _ _ h0
  obtain ⟨h28, h32⟩ := andi_ix0 _ _ h33
  obtain ⟨h23, h27⟩ := andi_ix0 _ _ h28
  obtain ⟨h18, h22⟩ := andi_ix0 _ _ h23
  obtain ⟨h13, h17⟩ := andi_ix0 _ _ h18
  obtain ⟨h8, h12⟩ := andi_ix0 _ _ h13
  obtain ⟨h3, h7⟩ := andi_ix0 _ _ h8
  exact ⟨allReal_of_test _ _ _ _ h3, allReal_of_test _ _ _ _ h7, allReal_of_test _ _ _ _ h12,
    allReal_of_test _ _ _ _ h17, allReal_of_test _ _ _ _ h22, allReal_of_test _ _ _ _ h27,
    allReal_of_test _ _ _ _ h32, allReal_of_test _ _ _ _ h37⟩

end Device

section Blocks

variable {α : Type}

/-- Entry (d, j) of column block c is entry (d, 128·c + j) of the whole. -/
theorem block_cols_apply (c : Fin 4) (W : KernelIdeal.S2048x512.Idx → α) (d : Fin 2048) (j : Fin 128) :
    (Layout.block ⟨2, ![2048, 128]⟩ ⟨2, ![2048, 512]⟩ 1 4 c W) (ix2 d j)
      = W (ix2 d ⟨128 * c.val + j.val, by omega⟩) := by
  show W _ = W _
  congr 1
  funext a
  match a with
  | ⟨0, _⟩ => exact Fin.ext rfl
  | ⟨1, _⟩ => exact Fin.ext (show c.val * 128 + j.val = 128 * c.val + j.val by omega)

/-- Entry (j, e) of row block c is entry (128·c + j, e) of the whole. -/
theorem block_rows_apply (c : Fin 4) (W : KernelIdeal.S512x2048.Idx → α) (j : Fin 128) (e : Fin 2048) :
    (Layout.block ⟨2, ![128, 2048]⟩ ⟨2, ![512, 2048]⟩ 0 4 c W) (ix2 j e)
      = W (ix2 ⟨128 * c.val + j.val, by omega⟩ e) := by
  show W _ = W _
  congr 1
  funext a
  match a with
  | ⟨0, _⟩ => exact Fin.ext (show c.val * 128 + j.val = 128 * c.val + j.val by omega)
  | ⟨1, _⟩ => exact Fin.ext rfl

/-- Column q of the whole lies in block q / 128 at q % 128. -/
theorem allReal_of_col_blocks (W : KernelIdeal.S2048x512.Idx → EReal)
    (h : ∀ c : Fin 4, AllReal (S := KernelIdeal.S2048x128) (Layout.block ⟨2, ![2048, 128]⟩ ⟨2, ![2048, 512]⟩ 1 4 c W)) :
    AllReal W := by
  intro i
  obtain ⟨d, q, rfl⟩ : ∃ (d : Fin 2048) (q : Fin 512), i = ix2 d q := ⟨i 0, i 1, eq_ix2 i⟩
  have hq : q.val < 512 := q.isLt
  obtain ⟨r, hr⟩ := h ⟨q.val / 128, by omega⟩ (ix2 d ⟨q.val % 128, Nat.mod_lt _ (by norm_num)⟩)
  refine ⟨r, ((block_cols_apply _ W _ _).symm.trans hr) ▸ ?_⟩
  congr 2
  exact Fin.ext (show q.val = 128 * (q.val / 128) + q.val % 128 by omega)

theorem allReal_of_row_blocks (W : KernelIdeal.S512x2048.Idx → EReal)
    (h : ∀ c : Fin 4, AllReal (S := KernelIdeal.S128x2048) (Layout.block ⟨2, ![128, 2048]⟩ ⟨2, ![512, 2048]⟩ 0 4 c W)) :
    AllReal W := by
  intro i
  obtain ⟨q, e, rfl⟩ : ∃ (q : Fin 512) (e : Fin 2048), i = ix2 q e := ⟨i 0, i 1, eq_ix2 i⟩
  have hq : q.val < 512 := q.isLt
  obtain ⟨r, hr⟩ := h ⟨q.val / 128, by omega⟩ (ix2 ⟨q.val % 128, Nat.mod_lt _ (by norm_num)⟩ e)
  refine ⟨r, ((block_rows_apply _ W _ _).symm.trans hr) ▸ ?_⟩
  congr 2
  exact Fin.ext (show q.val = 128 * (q.val / 128) + q.val % 128 by omega)

end Blocks

section Whole

open ReferenceIdeal

variable (m : KMem) (m' : RMem)

abbrev ref0 : FVec Ideal S2x512x2048 .f32 := m' (((0 : Dev nD).tc : Thread nD τ).loc main_arg0)
abbrev ref1 : FVec Ideal S2048x512 .f32 := m' (((0 : Dev nD).tc : Thread nD τ).loc main_arg1)
abbrev ref2 : FVec Ideal S512x2048 .f32 := m' (((0 : Dev nD).tc : Thread nD τ).loc main_arg2)
abbrev ref3 : FVec Ideal S512x2048 .f32 := m' (((0 : Dev nD).tc : Thread nD τ).loc main_arg3)
abbrev ref4 : FVec Ideal S2048x2048 .f32 := m' (((0 : Dev nD).tc : Thread nD τ).loc main_arg4)
abbrev ref5 : FVec Ideal S2048x512 .f32 := m' (((0 : Dev nD).tc : Thread nD τ).loc main_arg5)
abbrev ref6 : FVec Ideal S2048x32 .f32 := m' (((0 : Dev nD).tc : Thread nD τ).loc main_arg6)
abbrev ref7 : FVec Ideal S2048x2048 .f32 := m' (((0 : Dev nD).tc : Thread nD τ).loc main_arg7)

/-- The hypothesis of the algebraic claim: every device holds a copy, or its block, of each whole array. -/
abbrev Agree : Prop := ∀ c : Dev KernelIdeal.nD,
  arg0 m c = ref0 m'
  ∧ arg1 m c = Layout.block ⟨2, ![2048, 128]⟩ ⟨2, ![2048, 512]⟩ 1 4 c (ref1 m')
  ∧ arg2 m c = Layout.block ⟨2, ![128, 2048]⟩ ⟨2, ![512, 2048]⟩ 0 4 c (ref2 m')
  ∧ arg3 m c = Layout.block ⟨2, ![128, 2048]⟩ ⟨2, ![512, 2048]⟩ 0 4 c (ref3 m')
  ∧ arg4 m c = ref4 m' ∧ arg5 m c = ref5 m' ∧ arg6 m c = ref6 m' ∧ arg7 m c = ref7 m'

variable {m m'}

/-- A copied array is device 0's copy; a cut array is covered by the four devices' blocks. -/
theorem fin_ref (hpre : Pre_KernelIdeal m) (hagree : Agree m m') :
    AllReal (ref0 m') ∧ AllReal (ref1 m') ∧ AllReal (ref2 m') ∧ AllReal (ref3 m') ∧ AllReal (ref4 m')
      ∧ AllReal (ref5 m') ∧ AllReal (ref6 m') :=
  have f := fun c => fin_args m c hpre
  ⟨(f 0).1.of_eq (hagree 0).1,
   allReal_of_col_blocks (ref1 m') fun c => (f c).2.1.of_eq (hagree c).2.1,
   allReal_of_row_blocks (ref2 m') fun c => (f c).2.2.1.of_eq (hagree c).2.2.1,
   allReal_of_row_blocks (ref3 m') fun c => (f c).2.2.2.1.of_eq (hagree c).2.2.2.1,
   (f 0).2.2.2.2.1.of_eq (hagree 0).2.2.2.2.1, (f 0).2.2.2.2.2.1.of_eq (hagree 0).2.2.2.2.2.1,
   (f 0).2.2.2.2.2.2.1.of_eq (hagree 0).2.2.2.2.2.2.1⟩

end Whole

end Cert.MlaFin
-- ==== Proof.KVals.lean ====
import proofs.«900571_g7700000000000572_dist_mla_v7x_i4_i_b2_s512_d2048_dc128_f32_1_alg».proof.Proof.Gen.KernelIdeal.Skeleton

noncomputable section

namespace Cert.MlaKer

open Idealize.ShloMosaic Cert.KernelIdeal Cert.KernelIdeal.Gen

variable {F : FTy → Type} [FloatOps F]

/-- One device's argument arrays. -/
structure Ins (F : FTy → Type) where
  x : Vec F S2x512x2048 .f32
  wdkv : Vec F S2048x128 .f32
  wuk : Vec F S128x2048 .f32
  wuv : Vec F S128x2048 .f32
  wkr : Vec F S2048x32 .f32
  wqr : Vec F S2048x512 .f32
  wq : Vec F S2048x2048 .f32
  wo : Vec F S2048x2048 .f32

def rd {α : Type} {s : Shape} (A : s.Idx → α) (r : LoadRect s) : r.shape.Idx → α := fun j => A (r.idx j)

def wr {α : Type} {s : Shape} (A : s.Idx → α) (off size : Fin s.rank → Nat) (inb : ∀ a, off a + size a ≤ s.size a)
    (w : (Rect.unit off size inb).shape.Idx → α) : s.Idx → α :=
  updateSlice A w off ⟨rfl, inb⟩

/-- The device `r + 1` places before `c` on the ring of four. -/
def org (c : Dev nD) (r : Fin 3) : Dev nD := ⟨((c.val + 3) - r.val) % 4, Nat.mod_lt _ (by decide)⟩

abbrev colOff (g : Dev nD) : Fin 2 → Nat := ![0, 512 * g.val]
theorem colOff_inb : ∀ g : Dev nD, ∀ a, colOff g a + S128x512.size a ≤ S128x2048.size a := by decide +kernel

abbrev rowOff (g : Dev nD) : Fin 2 → Nat := ![512 * g.val, 0]
theorem rowOff_inb : ∀ g : Dev nD, ∀ a, rowOff g a + S512x2048.size a ≤ S2048x2048.size a := by decide +kernel

abbrev oOff (r : Fin 2) (h : Fin 4) : Fin 3 → Nat := ![0, 512 * r.val, 128 * h.val]
theorem oOff_inb : ∀ (r : Fin 2) (h : Fin 4), ∀ a, oOff r h a + S1x512x128.size a ≤ S1x1024x512.size a := by decide +kernel

section chain
variable (I : Dev nD → Ins F) (c : Dev nD)

def xbfFrom (f0 : Vec F S1024x2048 .bf16) : Vec F S1024x2048 .bf16 :=
  wr (wr f0 ![0, 0] S512x2048.size inb_S1024x2048_S512x2048_0_0
        (k0_pay1 (rd (I c).x (Rect.unit (s := S2x512x2048) ![0, 0, 0] S1x512x2048.size inb_S2x512x2048_S1x512x2048_0_0_0).toLoadRect)))
     ![512, 0] S512x2048.size inb_S1024x2048_S512x2048_512_0
        (k0_pay2 (rd (I c).x (Rect.unit (s := S2x512x2048) ![1, 0, 0] S1x512x2048.size inb_S2x512x2048_S1x512x2048_1_0_0).toLoadRect))

/-- The input rows, both batch elements stacked, in the narrow format. -/
def xbf : Vec F S1024x2048 .bf16 := xbfFrom I c (constant S1024x2048 .bf16 0)

/-- The device's block of the latent. -/
def cOwn : Vec F S1x1024x128 .bf16 := k0_pay3 (xbf I c) (I c).wdkv

def wukbf : Vec F S128x2048 .bf16 := k0_pay4 (I c).wuk
def wuvbf : Vec F S128x2048 .bf16 := k0_pay5 (I c).wuv

def wukCols (g : Dev nD) : Vec F S128x512 .bf16 :=
  rd (wukbf I c) (Rect.unit (s := S128x2048) (colOff g) S128x512.size (colOff_inb g)).toLoadRect
def wuvCols (g : Dev nD) : Vec F S128x512 .bf16 :=
  rd (wuvbf I c) (Rect.unit (s := S128x2048) (colOff g) S128x512.size (colOff_inb g)).toLoadRect

/-- Device `g`'s rows of the key up-projection, columns of head group `c`. -/
def wukSlot (g : Dev nD) : Vec F S1x128x512 .bf16 := k0_pay6 (wukCols I g c)
def wuvSlot (g : Dev nD) : Vec F S1x128x512 .bf16 := k0_pay7 (wuvCols I g c)

def kr : FVec F S1024x32 .bf16 := k0_pay8 (xbf I c) (I c).wkr

def qr : FVec F S1024x128 .bf16 :=
  k0_pay9 (xbf I c) (rd (I c).wqr (Rect.unit (s := S2048x512) (k0_off9 c) S2048x128.size (k0_off9_inb c)).toLoadRect)

def wqSt : Vec F S2048x512 .f32 :=
  rd (I c).wq (Rect.unit (s := S2048x2048) (k0_off1 c) S2048x512.size (k0_off1_inb c)).toLoadRect

def q : FVec F S1024x512 .bf16 := k0_pay10 (xbf I c) (wqSt I c)

def kAcc0 : FVec F S1024x512 .f32 := k0_pay11 (cOwn I c) (wukSlot I c c)
def vAcc0 : FVec F S1024x512 .f32 := k0_pay12 (cOwn I c) (wuvSlot I c c)
def kAcc1 : FVec F S1024x512 .f32 := k0_pay13 (kAcc0 I c) (cOwn I (org c 0)) (wukSlot I c (org c 0))
def vAcc1 : FVec F S1024x512 .f32 := k0_pay14 (vAcc0 I c) (cOwn I (org c 0)) (wuvSlot I c (org c 0))
def kAcc2 : FVec F S1024x512 .f32 := k0_pay15 (kAcc1 I c) (cOwn I (org c 1)) (wukSlot I c (org c 1))
def vAcc2 : FVec F S1024x512 .f32 := k0_pay16 (vAcc1 I c) (cOwn I (org c 1)) (wuvSlot I c (org c 1))
/-- The keys of the device's head group: the four latent blocks' contributions, own block first. -/
def kMy : FVec F S1024x512 .bf16 := k0_pay17 (kAcc2 I c) (cOwn I (org c 2)) (wukSlot I c (org c 2))
def vMy : FVec F S1024x512 .bf16 := k0_pay18 (vAcc2 I c) (cOwn I (org c 2)) (wuvSlot I c (org c 2))

def oB00 : FVec F S1x512x128 .bf16 :=
  k0_pay23 (k0_pay21 (vAcc2 I c) (cOwn I (org c 2)) (wuvSlot I c (org c 2)))
    (k0_pay22 (kr I c) (qr I c) (q I c) (kAcc2 I c) (cOwn I (org c 2)) (wukSlot I c (org c 2)))
def oB10 : FVec F S1x512x128 .bf16 :=
  k0_pay24 (k0_pay19 (qr I c) (q I c)) (k0_pay20 (kr I c) (kAcc2 I c) (cOwn I (org c 2)) (wukSlot I c (org c 2)))
    (k0_pay21 (vAcc2 I c) (cOwn I (org c 2)) (wuvSlot I c (org c 2)))
def oB01 : FVec F S1x512x128 .bf16 := k0_pay28 (kr I c) (qr I c) (q I c) (kMy I c) (vMy I c)
def oB11 : FVec F S1x512x128 .bf16 :=
  k0_pay32 (k0_pay30 (kr I c) (qr I c) (q I c) (kMy I c) (vMy I c)) (k0_pay31 (kr I c) (qr I c) (q I c) (kMy I c))
def oB02 : FVec F S1x512x128 .bf16 := k0_pay36 (kr I c) (qr I c) (q I c) (kMy I c) (vMy I c)
def oB12 : FVec F S1x512x128 .bf16 :=
  k0_pay39 (k0_pay35 (vMy I c)) (k0_pay37 (qr I c) (q I c)) (k0_pay38 (kr I c) (kMy I c))
def oB03 : FVec F S1x512x128 .bf16 :=
  k0_pay47 (k0_pay44 (kr I c) (qr I c) (q I c) (kMy I c)) (k0_pay45 (kr I c) (qr I c) (q I c) (kMy I c)) (k0_pay46 (vMy I c))
def oB13 : FVec F S1x512x128 .bf16 :=
  k0_pay48 (k0_pay40 (qr I c) (q I c)) (k0_pay41 (kr I c) (kMy I c)) (k0_pay42 (vMy I c))

/-- The attention output of batch element `r` and head `h` of the group. -/
def oBlk : Fin 2 → Fin 4 → FVec F S1x512x128 .bf16
  | 0, 0 => oB00 I c | 1, 0 => oB10 I c
  | 0, 1 => oB01 I c | 1, 1 => oB11 I c
  | 0, 2 => oB02 I c | 1, 2 => oB12 I c
  | 0, 3 => oB03 I c | 1, 3 => oB13 I c

def oOwnFrom (f0 : Vec F S1x1024x512 .bf16) : Vec F S1x1024x512 .bf16 :=
  wr (wr (wr (wr (wr (wr (wr (wr f0
    (oOff 0 0) S1x512x128.size (oOff_inb 0 0) (oB00 I c))
    (oOff 1 0) S1x512x128.size (oOff_inb 1 0) (oB10 I c))
    (oOff 0 1) S1x512x128.size (oOff_inb 0 1) (oB01 I c))
    (oOff 1 1) S1x512x128.size (oOff_inb 1 1) (oB11 I c))
    (oOff 0 2) S1x512x128.size (oOff_inb 0 2) (oB02 I c))
    (oOff 1 2) S1x512x128.size (oOff_inb 1 2) (oB12 I c))
    (oOff 0 3) S1x512x128.size (oOff_inb 0 3) (oB03 I c))
    (oOff 1 3) S1x512x128.size (oOff_inb 1 3) (oB13 I c)

/-- The device's slot of attention outputs. -/
def oOwn : Vec F S1x1024x512 .bf16 := oOwnFrom I c (constant S1x1024x512 .bf16 0)

def woSt (g : Dev nD) : Vec F S512x2048 .f32 :=
  rd (I c).wo (Rect.unit (s := S2048x2048) (rowOff g) S512x2048.size (rowOff_inb g)).toLoadRect

def outL0 : FVec F S2x512x1024 .f32 := k0_pay51 (woSt I c c) (oOwn I c)
def outR0 : FVec F S2x512x1024 .f32 := k0_pay52 (woSt I c c) (oOwn I c)
def outL1 : FVec F S2x512x1024 .f32 := k0_pay55 (woSt I c (org c 0)) (oOwn I (org c 0)) (outL0 I c)
def outR1 : FVec F S2x512x1024 .f32 := k0_pay56 (woSt I c (org c 0)) (oOwn I (org c 0)) (outR0 I c)
def outL2 : FVec F S2x512x1024 .f32 := k0_pay59 (woSt I c (org c 1)) (oOwn I (org c 1)) (outL1 I c)
def outR2 : FVec F S2x512x1024 .f32 := k0_pay60 (woSt I c (org c 1)) (oOwn I (org c 1)) (outR1 I c)
def outL3 : FVec F S2x512x1024 .f32 := k0_pay63 (woSt I c (org c 2)) (oOwn I (org c 2)) (outL2 I c)
def outR3 : FVec F S2x512x1024 .f32 := k0_pay64 (woSt I c (org c 2)) (oOwn I (org c 2)) (outR2 I c)

def outFrom (f0 : Vec F S2x512x2048 .f32) : Vec F S2x512x2048 .f32 :=
  wr (wr f0 ![0, 0, 0] S2x512x1024.size inb_S2x512x2048_S2x512x1024_0_0_0 (outL3 I c))
     ![0, 0, 1024] S2x512x1024.size inb_S2x512x2048_S2x512x1024_0_0_1024 (outR3 I c)

/-- The device's result: the four head groups' output-projection terms, own group first. -/
def out : Vec F S2x512x2048 .f32 := outFrom I c (constant S2x512x2048 .f32 0)

end chain

end Cert.MlaKer
-- ==== Proof.KGen.lean ====
import proofs.«900571_g7700000000000572_dist_mla_v7x_i4_i_b2_s512_d2048_dc128_f32_1_alg».proof.Proof.KVals
import Idealize.ShloMosaic.Lib.ValueIdx

noncomputable section

namespace Cert.MlaKer

open Idealize.ShloMosaic Idealize.ShloMosaic.ValueIdx Cert.KernelIdeal Cert.KernelIdeal.Gen

section Wr
variable {α : Type} {s : Shape}

/-- Inside the written rectangle the array reads the block. -/
theorem wr_of_mem (A : s.Idx → α) (off size : Fin s.rank → Nat) (inb : ∀ a, off a + size a ≤ s.size a)
    (w : (Rect.unit off size inb).shape.Idx → α) (i : s.Idx)
    (h : ∀ a, off a ≤ (i a).val ∧ (i a).val < off a + size a) :
    wr A off size inb w i = w (fun b => ⟨(i b).val - off b, by have := h b; show _ < size b; omega⟩) := by
  unfold wr updateSlice
  exact dif_pos h

theorem wr_of_not_mem (A : s.Idx → α) (off size : Fin s.rank → Nat) (inb : ∀ a, off a + size a ≤ s.size a)
    (w : (Rect.unit off size inb).shape.Idx → α) (i : s.Idx)
    (h : ¬ ∀ a, off a ≤ (i a).val ∧ (i a).val < off a + size a) :
    wr A off size inb w i = A i := by
  unfold wr updateSlice
  exact dif_neg h

/-- Two arrays with the same block written at the same place agree wherever they agreed outside it. -/
theorem wr_congr (A A' : s.Idx → α) (off size : Fin s.rank → Nat) (inb : ∀ a, off a + size a ≤ s.size a)
    (w : (Rect.unit off size inb).shape.Idx → α) (i : s.Idx)
    (h : (¬ ∀ a, off a ≤ (i a).val ∧ (i a).val < off a + size a) → A i = A' i) :
    wr A off size inb w i = wr A' off size inb w i := by
  by_cases hm : ∀ a, off a ≤ (i a).val ∧ (i a).val < off a + size a
  · rw [wr_of_mem _ _ _ _ _ _ hm, wr_of_mem _ _ _ _ _ _ hm]
  · rw [wr_of_not_mem _ _ _ _ _ _ hm, wr_of_not_mem _ _ _ _ _ _ hm, h hm]

end Wr

def flatRow (b : Fin 2) (s : Fin 512) : Fin 1024 :=
  ⟨b.val * 512 + s.val, by have := b.isLt; have := s.isLt; omega⟩

@[simp] theorem flatRow_val (b : Fin 2) (s : Fin 512) : (flatRow b s).val = b.val * 512 + s.val := rfl

theorem updateSlice_apply_in {α : Type} {s u : Shape} (x : s.Idx → α) (upd : u.Idx → α) (start : Fin s.rank → Nat)
    (h : s.Slices start u) (i : s.Idx) (j : u.Idx)
    (hj : ∀ a : Fin s.rank, (i a).val = start a + (j (a.cast h.1.symm)).val) :
    updateSlice x upd start h i = upd j := by
  unfold updateSlice
  rw [dif_pos (fun a => ⟨by rw [hj a]; exact Nat.le_add_right _ _, by
    rw [hj a]; exact Nat.add_lt_add_left (j (a.cast h.1.symm)).isLt _⟩)]
  refine congrArg upd (funext fun b => Fin.ext ?_)
  have hb := hj (b.cast h.1)
  have e : (b.cast h.1).cast h.1.symm = b := rfl
  rw [e] at hb
  show (i (b.cast h.1)).val - start (b.cast h.1) = (j b).val
  omega

theorem updateSlice_apply_out {α : Type} {s u : Shape} (x : s.Idx → α) (upd : u.Idx → α) (start : Fin s.rank → Nat)
    (h : s.Slices start u) (i : s.Idx) (a : Fin s.rank)
    (ha : ¬(start a ≤ (i a).val ∧ (i a).val < start a + u.size (a.cast h.1.symm))) :
    updateSlice x upd start h i = x i := by
  unfold updateSlice
  rw [dif_neg (fun hall => ha (hall a))]

section Generic
variable {F : FTy → Type} [FloatOps F] (I : Dev nD → Ins F) (c : Dev nD)

/-- The two written rectangles cover the array, so its earlier contents do not matter. -/
theorem xbfFrom_eq (f0 : Vec F S1024x2048 .bf16) : xbfFrom I c f0 = xbf I c := by
  funext i
  unfold xbf xbfFrom
  refine wr_congr _ _ _ _ _ _ i fun h2 => ?_
  refine wr_congr _ _ _ _ _ _ i fun h1 => ?_
  exfalso
  have hi0 : (i 0).val < 1024 := (i 0).isLt
  have hi1 : (i 1).val < 2048 := (i 1).isLt
  by_cases hlt : (i 0).val < 512
  · exact h1 (Fin.forall_fin_two.mpr ⟨⟨Nat.zero_le _, by show _ < 0 + 512; omega⟩, ⟨Nat.zero_le _, by show _ < 0 + 2048; omega⟩⟩)
  · exact h2 (Fin.forall_fin_two.mpr ⟨⟨by show 512 ≤ _; omega, by show _ < 512 + 512; omega⟩, ⟨Nat.zero_le _, by show _ < 0 + 2048; omega⟩⟩)

/-- The two halves of the columns cover the array. -/
theorem outFrom_eq (f0 : Vec F S2x512x2048 .f32) : outFrom I c f0 = out I c := by
  funext i
  unfold out outFrom
  refine wr_congr _ _ _ _ _ _ i fun h2 => ?_
  refine wr_congr _ _ _ _ _ _ i fun h1 => ?_
  exfalso
  have hi0 : (i 0).val < 2 := (i 0).isLt
  have hi1 : (i 1).val < 512 := (i 1).isLt
  have hi2 : (i 2).val < 2048 := (i 2).isLt
  by_cases hlt : (i 2).val < 1024
  · refine h1 fun a => ?_
    match a with
    | ⟨0, h0⟩ => exact ⟨Nat.zero_le _, by have hb : (i ⟨0, h0⟩).val < 2 := (i ⟨0, h0⟩).isLt; show _ < 0 + 2; omega⟩
    | ⟨1, h0⟩ => exact ⟨Nat.zero_le _, by have hb : (i ⟨1, h0⟩).val < 512 := (i ⟨1, h0⟩).isLt; show _ < 0 + 512; omega⟩
    | ⟨2, h0⟩ => exact ⟨Nat.zero_le _, by show (i 2).val < 0 + 1024; omega⟩
  · refine h2 fun a => ?_
    match a with
    | ⟨0, h0⟩ => exact ⟨Nat.zero_le _, by have hb : (i ⟨0, h0⟩).val < 2 := (i ⟨0, h0⟩).isLt; show _ < 0 + 2; omega⟩
    | ⟨1, h0⟩ => exact ⟨Nat.zero_le _, by have hb : (i ⟨1, h0⟩).val < 512 := (i ⟨1, h0⟩).isLt; show _ < 0 + 512; omega⟩
    | ⟨2, h0⟩ => exact ⟨by show 1024 ≤ (i 2).val; omega, by show (i 2).val < 1024 + 1024; omega⟩

end Generic

end Cert.MlaKer

/-- info: 'Cert.MlaKer.xbfFrom_eq' depends on axioms: [propext, Classical.choice, Quot.sound] -/
#guard_msgs in #print axioms Cert.MlaKer.xbfFrom_eq
/-- info: 'Cert.MlaKer.outFrom_eq' depends on axioms: [propext, Classical.choice, Quot.sound] -/
#guard_msgs in #print axioms Cert.MlaKer.outFrom_eq
-- ==== Proof.KLinMat.lean ====
import proofs.«900571_g7700000000000572_dist_mla_v7x_i4_i_b2_s512_d2048_dc128_f32_1_alg».proof.Proof.Gen.KernelIdeal
import Idealize.ShloMosaic.Lib.Pipeline.Value
import Idealize.ShloMosaic.Lib.ValueIdx
import Idealize.ShloMosaic.PureOps.Ideal.Laws

noncomputable section

namespace Cert.MlaKer

open Idealize.ShloMosaic Cert.KernelIdeal Cert.KernelIdeal.Gen

/-- A product with one contracted axis into the zero accumulator is the sum over that axis, re-indexed by its coordinate. -/
theorem mm_apply_of {sl sr so : Shape} {φ₁ φ₂ : FTy} (D : DotDims sl sr so) (n : Nat) (hr : D.contr.rank = 1)
    (hs : D.contr.size ⟨0, by omega⟩ = n) (A : FVec Ideal sl φ₁) (B : FVec Ideal sr φ₂) (j : so.Idx)
    (L : Fin n → sl.Idx) (R : Fin n → sr.Idx)
    (hl : ∀ k, D.lhsIdx j k = L (ValueIdx.contrEquiv1 D n hr hs k))
    (hR : ∀ k, D.rhsIdx j k = R (ValueIdx.contrEquiv1 D n hr hs k)) :
    matmul (F := Ideal) D none A B (constant so .f32 0x00000000#32) j = ∑ t, A (L t) * B (R t) := by
  unfold matmul
  rw [Ideal.matmul_constant_zero_apply]
  exact (Finset.sum_congr rfl fun k _ => by rw [hl, hR]).trans
    (Equiv.sum_comp (ValueIdx.contrEquiv1 D n hr hs) fun t => A (L t) * B (R t))

/-- Rows by columns: entry (p, q) is Σ_t A (p, t) · B (t, q). -/
theorem mm_apply {m k n : Nat} {φ₁ φ₂ : FTy} (A : FVec Ideal ⟨2, ![m, k]⟩ φ₁) (B : FVec Ideal ⟨2, ![k, n]⟩ φ₂)
    (p : Fin m) (q : Fin n) :
    matmul (F := Ideal) (DotDims.plain m k n) none A B (constant ⟨2, ![m, n]⟩ .f32 0x00000000#32) (ValueIdx.ix2 p q)
      = ∑ t : Fin k, A (ValueIdx.ix2 p t) * B (ValueIdx.ix2 t q) :=
  mm_apply_of (DotDims.plain m k n) k rfl rfl A B _ (fun t => ValueIdx.ix2 p t) (fun t => ValueIdx.ix2 t q)
    (fun _ => funext fun a => Fin.ext (by match a with | ⟨0, _⟩ => rfl | ⟨1, _⟩ => rfl))
    (fun _ => funext fun a => Fin.ext (by match a with | ⟨0, _⟩ => rfl | ⟨1, _⟩ => rfl))

theorem mm_xw128_apply {φ₁ φ₂ : FTy} (A : FVec Ideal S1024x2048 φ₁) (B : FVec Ideal S2048x128 φ₂) (p : Fin 1024) (q : Fin 128) :
    matmul (F := Ideal) dot_S1024x2048_S2048x128_S1024x128_1_0_0_1_n_n none A B (constant S1024x128 .f32 0x00000000#32) (ValueIdx.ix2 p q)
      = ∑ t : Fin 2048, A (ValueIdx.ix2 p t) * B (ValueIdx.ix2 t q) := mm_apply A B p q

theorem mm_xw32_apply {φ₁ φ₂ : FTy} (A : FVec Ideal S1024x2048 φ₁) (B : FVec Ideal S2048x32 φ₂) (p : Fin 1024) (q : Fin 32) :
    matmul (F := Ideal) dot_S1024x2048_S2048x32_S1024x32_1_0_0_1_n_n none A B (constant S1024x32 .f32 0x00000000#32) (ValueIdx.ix2 p q)
      = ∑ t : Fin 2048, A (ValueIdx.ix2 p t) * B (ValueIdx.ix2 t q) := mm_apply A B p q

theorem mm_xw512_apply {φ₁ φ₂ : FTy} (A : FVec Ideal S1024x2048 φ₁) (B : FVec Ideal S2048x512 φ₂) (p : Fin 1024) (q : Fin 512) :
    matmul (F := Ideal) dot_S1024x2048_S2048x512_S1024x512_1_0_0_1_n_n none A B (constant S1024x512 .f32 0x00000000#32) (ValueIdx.ix2 p q)
      = ∑ t : Fin 2048, A (ValueIdx.ix2 p t) * B (ValueIdx.ix2 t q) := mm_apply A B p q

theorem mm_cw512_apply {φ₁ φ₂ : FTy} (A : FVec Ideal S1024x128 φ₁) (B : FVec Ideal S128x512 φ₂) (p : Fin 1024) (q : Fin 512) :
    matmul (F := Ideal) dot_S1024x128_S128x512_S1024x512_1_0_0_1_n_n none A B (constant S1024x512 .f32 0x00000000#32) (ValueIdx.ix2 p q)
      = ∑ t : Fin 128, A (ValueIdx.ix2 p t) * B (ValueIdx.ix2 t q) := mm_apply A B p q

end Cert.MlaKer
-- ==== Proof.KProj.lean ====
import proofs.«900571_g7700000000000572_dist_mla_v7x_i4_i_b2_s512_d2048_dc128_f32_1_alg».proof.Proof.KGen
import proofs.«900571_g7700000000000572_dist_mla_v7x_i4_i_b2_s512_d2048_dc128_f32_1_alg».proof.Proof.KLinMat
import Idealize.ShloMosaic.Lib.ValueLayout

noncomputable section

namespace Cert.MlaKer

open Cert.KernelIdeal Cert.KernelIdeal.Gen Idealize.ShloMosaic Idealize.ShloMosaic.ValueIdx Idealize.SL.Sem
open scoped BigOperators

/-- One head group's term of the output projection at (b, s, o): Σ_e O (0, 512 b + s, e) · Wo (e, o). -/
def projTerm (wo : Vec Ideal S512x2048 .f32) (ob : Vec Ideal S1x1024x512 .bf16)
    (b : Fin 2) (s : Fin 512) (o : Fin 2048) : EReal :=
  ∑ e : Fin 512, ob (ix3 (0 : Fin 1) (flatRow b s) e) * wo (ix2 e o)

theorem projDot_apply (L : FVec Ideal S1024x512 .bf16) (R : FVec Ideal S512x1024 .bf16) (r c : Fin 1024) :
    matmul dot_S1024x512_S512x1024_S1024x1024_1_0_0_1_n_n none L R (constant (F := Ideal) S1024x1024 .f32 0x00000000#32) (ix2 r c)
      = ∑ k : Fin 512, L (ix2 r k) * R (ix2 k c) := mm_apply L R r c

def colLo (o : Fin 1024) : Fin 2048 := ⟨o.val, by have := o.isLt; omega⟩
def colHi (o : Fin 1024) : Fin 2048 := ⟨1024 + o.val, by have := o.isLt; omega⟩

@[simp] theorem colLo_val (o : Fin 1024) : (colLo o).val = o.val := rfl
@[simp] theorem colHi_val (o : Fin 1024) : (colHi o).val = 1024 + o.val := rfl

theorem prodCast_apply (X : FVec Ideal S1024x1024 .f32) (b : Fin 2) (s : Fin 512) (o : Fin 1024) :
    shapeCast S2x512x1024 X shapeCasts_S1024x1024_S2x512x1024 (ix3 b s o) = X (ix2 (flatRow b s) o) :=
  shapeCast_apply X shapeCasts_S1024x1024_S2x512x1024 _ _ (by
    rw [Shape.rowMajor_val_two, Shape.rowMajor_val_three]
    show (b.val * 512 + s.val) * 1024 + o.val = (b.val * 512 + s.val) * 1024 + o.val
    rfl)

theorem woLo_apply (W : FVec Ideal S512x2048 .bf16) (e : Fin 512) (o : Fin 1024) :
    extractStridedSlice S512x1024 ![0, 0] W slices_S512x2048_o0_0_S512x1024 (ix2 e o) = W (ix2 e (colLo o)) :=
  slice2_axis1_apply 0 W slices_S512x2048_o0_0_S512x1024 e o (colLo o) (by simp)

theorem woHi_apply (W : FVec Ideal S512x2048 .bf16) (e : Fin 512) (o : Fin 1024) :
    extractStridedSlice S512x1024 ![0, 1024] W slices_S512x2048_o0_1024_S512x1024 (ix2 e o) = W (ix2 e (colHi o)) :=
  slice2_axis1_apply 1024 W slices_S512x2048_o0_1024_S512x1024 e o (colHi o) (by simp)

theorem pay51_apply (wo : Vec Ideal S512x2048 .f32) (ob : Vec Ideal S1x1024x512 .bf16)
    (b : Fin 2) (s : Fin 512) (o : Fin 1024) :
    k0_pay51 (F := Ideal) wo ob (ix3 b s o) = projTerm wo ob b s (colLo o) := by
  unfold k0_pay51 k0_pay50 k0_pay49 projTerm
  rw [prodCast_apply, projDot_apply]
  refine Finset.sum_congr rfl fun e _ => ?_
  rw [shapeCast_1ab_ab_apply, woLo_apply, truncf_apply]

theorem pay52_apply (wo : Vec Ideal S512x2048 .f32) (ob : Vec Ideal S1x1024x512 .bf16)
    (b : Fin 2) (s : Fin 512) (o : Fin 1024) :
    k0_pay52 (F := Ideal) wo ob (ix3 b s o) = projTerm wo ob b s (colHi o) := by
  unfold k0_pay52 k0_pay50 k0_pay49 projTerm
  rw [prodCast_apply, projDot_apply]
  refine Finset.sum_congr rfl fun e _ => ?_
  rw [shapeCast_1ab_ab_apply, woHi_apply, truncf_apply]

/-- The later steps add the product onto what the half already holds; the three later steps are one function. -/
theorem pay55_apply (wo : Vec Ideal S512x2048 .f32) (ob : Vec Ideal S1x1024x512 .bf16)
    (prev : Vec Ideal S2x512x1024 .f32) (b : Fin 2) (s : Fin 512) (o : Fin 1024) :
    k0_pay55 (F := Ideal) wo ob prev (ix3 b s o) = prev (ix3 b s o) + projTerm wo ob b s (colLo o) := by
  unfold k0_pay55 k0_pay54 k0_pay53 projTerm
  rw [addf_apply, shapeCast_self, prodCast_apply, projDot_apply]
  refine congrArg (prev (ix3 b s o) + ·) (Finset.sum_congr rfl fun e _ => ?_)
  rw [shapeCast_1ab_ab_apply, woLo_apply, truncf_apply]

theorem pay56_apply (wo : Vec Ideal S512x2048 .f32) (ob : Vec Ideal S1x1024x512 .bf16)
    (prev : Vec Ideal S2x512x1024 .f32) (b : Fin 2) (s : Fin 512) (o : Fin 1024) :
    k0_pay56 (F := Ideal) wo ob prev (ix3 b s o) = prev (ix3 b s o) + projTerm wo ob b s (colHi o) := by
  unfold k0_pay56 k0_pay54 k0_pay53 projTerm
  rw [addf_apply, shapeCast_self, prodCast_apply, projDot_apply]
  refine congrArg (prev (ix3 b s o) + ·) (Finset.sum_congr rfl fun e _ => ?_)
  rw [shapeCast_1ab_ab_apply, woHi_apply, truncf_apply]

theorem projLo_four (wo0 wo1 wo2 wo3 : Vec Ideal S512x2048 .f32) (ob0 ob1 ob2 ob3 : Vec Ideal S1x1024x512 .bf16)
    (b : Fin 2) (s : Fin 512) (o : Fin 1024) :
    k0_pay63 (F := Ideal) wo3 ob3 (k0_pay59 (F := Ideal) wo2 ob2 (k0_pay55 (F := Ideal) wo1 ob1 (k0_pay51 (F := Ideal) wo0 ob0))) (ix3 b s o)
      = ((projTerm wo0 ob0 b s (colLo o) + projTerm wo1 ob1 b s (colLo o)) + projTerm wo2 ob2 b s (colLo o))
          + projTerm wo3 ob3 b s (colLo o) := by
  rw [show k0_pay63 (F := Ideal) = k0_pay55 from rfl, show k0_pay59 (F := Ideal) = k0_pay55 from rfl,
    pay55_apply, pay55_apply, pay55_apply, pay51_apply]

theorem projHi_four (wo0 wo1 wo2 wo3 : Vec Ideal S512x2048 .f32) (ob0 ob1 ob2 ob3 : Vec Ideal S1x1024x512 .bf16)
    (b : Fin 2) (s : Fin 512) (o : Fin 1024) :
    k0_pay64 (F := Ideal) wo3 ob3 (k0_pay60 (F := Ideal) wo2 ob2 (k0_pay56 (F := Ideal) wo1 ob1 (k0_pay52 (F := Ideal) wo0 ob0))) (ix3 b s o)
      = ((projTerm wo0 ob0 b s (colHi o) + projTerm wo1 ob1 b s (colHi o)) + projTerm wo2 ob2 b s (colHi o))
          + projTerm wo3 ob3 b s (colHi o) := by
  rw [show k0_pay64 (F := Ideal) = k0_pay56 from rfl, show k0_pay60 (F := Ideal) = k0_pay56 from rfl,
    pay56_apply, pay56_apply, pay56_apply, pay52_apply]

theorem col_cases (o : Fin 2048) : (∃ o' : Fin 1024, o = colLo o') ∨ (∃ o' : Fin 1024, o = colHi o') := by
  by_cases h : o.val < 1024
  · exact Or.inl ⟨⟨o.val, h⟩, Fin.ext rfl⟩
  · exact Or.inr ⟨⟨o.val - 1024, by have := o.isLt; omega⟩, Fin.ext (by show o.val = 1024 + (o.val - 1024); omega)⟩

end Cert.MlaKer

end
-- ==== Proof.MlaAlgebra.lean ====
import proofs.«900571_g7700000000000572_dist_mla_v7x_i4_i_b2_s512_d2048_dc128_f32_1_alg».proof.Proof.MlaSpec
import Mathlib.Data.Finset.Fold

noncomputable section

namespace Cert.MlaSpec

open Idealize.ShloMosaic
open scoped BigOperators

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.ne_top {x : EReal} (hx : IsReal x) : x ≠ ⊤ := by
  obtain ⟨a, rfl⟩ := hx; exact EReal.coe_ne_top a

theorem IsReal.ne_bot {x : EReal} (hx : IsReal x) : x ≠ ⊥ := by
  obtain ⟨a, rfl⟩ := hx; exact EReal.coe_ne_bot a

theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem IsReal.sum {ι : Type*} (s : Finset ι) (f : ι → EReal) (h : ∀ i ∈ s, IsReal (f i)) : IsReal (∑ i ∈ s, f i) :=
  Finset.sum_induction f IsReal (fun _ _ => IsReal.add) ⟨0, rfl⟩ h

/-- A contraction of real entries is real. -/
theorem isReal_dot {n : Nat} {f g : Fin n → EReal} (hf : ∀ k, IsReal (f k)) (hg : ∀ k, IsReal (g k)) :
    IsReal (∑ k, f k * g k) :=
  IsReal.sum _ _ fun k _ => (hf k).mul (hg k)

/-- The maximum of a nonempty row of reals is one of them, hence real. -/
theorem rowMax_isReal {n : Nat} [NeZero n] (sc : Fin n → EReal) (h : ∀ t, IsReal (sc t)) : IsReal (rowMax sc) :=
  have ht : rowMax sc ≠ ⊤ := ne_of_lt <|
    (Finset.fold_max_lt _).mpr ⟨bot_lt_top, fun t _ => lt_top_iff_ne_top.mpr (h t).ne_top⟩
  have hb : rowMax sc ≠ ⊥ := ne_of_gt <|
    (Finset.lt_fold_max _).mpr (Or.inr ⟨0, Finset.mem_univ _, bot_lt_iff_ne_bot.mpr (h 0).ne_bot⟩)
  ⟨_, (EReal.coe_toReal ht hb).symm⟩

theorem kerAttn_coe {n : Nat} [NeZero n] (σ ν : Fin n → ℝ) :
    kerAttn (fun t => (σ t : EReal)) (fun t => (ν t : EReal))
      = (((∑ t, Real.exp (σ t) * ν t) * (1 / ∑ t, Real.exp (σ t)) : ℝ) : EReal) := by
  have hD : (∑ t : Fin n, Real.exp (σ t)) ≠ 0 :=
    ne_of_gt (Finset.sum_pos (fun t _ => Real.exp_pos _) ⟨0, Finset.mem_univ _⟩)
  unfold kerAttn
  simp only [Ideal.exp_coe, ← EReal.coe_mul, ← coe_sum]
  rw [Ideal.div_coe hD, one_mul, ← EReal.coe_mul]

theorem refAttn_coe {n : Nat} [NeZero n] (σ ν : Fin n → ℝ) (μ : ℝ) (hμ : rowMax (fun t => (σ t : EReal)) = (μ : EReal)) :
    refAttn (fun t => (σ t : EReal)) (fun t => (ν t : EReal))
      = ((∑ t, Real.exp (σ t - μ) * (1 / ∑ t', Real.exp (σ t' - μ)) * ν t : ℝ) : EReal) := by
  have hD : (∑ t : Fin n, Real.exp (σ t - μ)) ≠ 0 :=
    ne_of_gt (Finset.sum_pos (fun t _ => Real.exp_pos _) ⟨0, Finset.mem_univ _⟩)
  unfold refAttn
  rw [hμ]
  simp only [← EReal.coe_sub, Ideal.exp_coe, ← coe_sum]
  simp only [Ideal.div_coe hD, ← EReal.coe_mul, ← coe_sum]

/-- exp (σ - μ) = exp σ / exp μ, and the common factor cancels between numerator and denominator. -/
theorem real_softmax_shift {n : Nat} [NeZero n] (σ ν : Fin n → ℝ) (μ : ℝ) :
    (∑ t, Real.exp (σ t) * ν t) * (1 / ∑ t, Real.exp (σ t))
      = ∑ t, Real.exp (σ t - μ) * (1 / ∑ t', Real.exp (σ t' - μ)) * ν t := by
  have hS : (∑ t : Fin n, Real.exp (σ t)) ≠ 0 :=
    ne_of_gt (Finset.sum_pos (fun t _ => Real.exp_pos _) ⟨0, Finset.mem_univ _⟩)
  have hE : Real.exp μ ≠ 0 := (Real.exp_pos μ).ne'
  simp only [Real.exp_sub]
  rw [← Finset.sum_div, Finset.sum_mul]
  refine Finset.sum_congr rfl fun t _ => ?_
  field_simp

theorem kerAttn_eq_refAttn {n : Nat} [NeZero n] (sc v : Fin n → EReal) (hs : ∀ t, IsReal (sc t)) (hv : ∀ t, IsReal (v t)) :
    kerAttn sc v = refAttn sc v := by
  obtain ⟨μ, hμ⟩ := rowMax_isReal sc hs
  choose σ hσ using hs
  choose ν hν using hv
  obtain rfl : sc = fun t => (σ t : EReal) := funext hσ
  obtain rfl : v = fun t => (ν t : EReal) := funext hν
  rw [kerAttn_coe, refAttn_coe σ ν μ hμ, real_softmax_shift σ ν μ]

section Finite

variable {X : Fin 2 → Fin 512 → Fin 2048 → EReal} {Wdkv : Fin 2048 → Fin 512 → EReal}
  {Wuk Wuv : Fin 512 → Fin 2048 → EReal} {Wq : Fin 2048 → Fin 2048 → EReal} {Wqr : Fin 2048 → Fin 512 → EReal}
  {Wkr : Fin 2048 → Fin 32 → EReal} {Wo : Fin 2048 → Fin 2048 → EReal} {scale : EReal}

/-- With real inputs every score and value is real, so the two attentions agree column by column. -/
theorem kerOut_eq_refOut (hX : ∀ b s d, IsReal (X b s d)) (hWdkv : ∀ d j, IsReal (Wdkv d j)) (hWuk : ∀ j e, IsReal (Wuk j e))
    (hWuv : ∀ j e, IsReal (Wuv j e)) (hWq : ∀ d e, IsReal (Wq d e)) (hWqr : ∀ d q, IsReal (Wqr d q))
    (hWkr : ∀ d r, IsReal (Wkr d r)) (hscale : IsReal scale) (b : Fin 2) (s : Fin 512) (o : Fin 2048) :
    kerOut X Wdkv Wuk Wuv Wq Wqr Wkr Wo scale b s o = refOut X Wdkv Wuk Wuv Wq Wqr Wkr Wo scale b s o :=
  have hc (s j) : IsReal (cLat X Wdkv b s j) := isReal_dot (hX b s) (hWdkv · j)
  Finset.sum_congr rfl fun e _ => congrArg (· * Wo e o) <| kerAttn_eq_refAttn _ _
    (fun t => ((isReal_dot (fun _ => isReal_dot (hX b s) (hWq · _)) fun _ => isReal_dot (hc t) (hWuk · _)).add
      (isReal_dot (fun _ => isReal_dot (hX b s) (hWqr · _)) fun r => isReal_dot (hX b t) (hWkr · r))).mul hscale)
    fun t => isReal_dot (hc t) (hWuv · e)

end Finite

theorem sum_blk128 {M : Type*} [AddCommMonoid M] (f : Fin 512 → M) :
    ∑ j : Fin 512, f j = ∑ g : Fin 4, ∑ j' : Fin 128, f (blk128 g j') := by
  have e : ∀ (g : Fin 4) (j' : Fin 128), blk128 g j' = (finProdFinEquiv (g, j') : Fin (4 * 128)) := fun g j' =>
    Fin.ext (by simp only [blk128, finProdFinEquiv, Equiv.coe_fn_mk]; omega)
  rw [← Equiv.sum_comp (finProdFinEquiv : Fin 4 × Fin 128 ≃ Fin (4 * 128)) f, Fintype.sum_prod_type]
  simp only [e]

def prevDev (c p : Fin 4) : Fin 4 := ⟨(c.val + 4 - p.val) % 4, Nat.mod_lt _ (by norm_num)⟩

/-- Going once round the ring from c visits all four devices. -/
theorem sum_ring_order {M : Type*} [AddCommMonoid M] (a : Fin 4 → M) (c : Fin 4) :
    ((a c + a (prevDev c 1)) + a (prevDev c 2)) + a (prevDev c 3) = ∑ g : Fin 4, a g := by
  rw [Fin.sum_univ_four]
  fin_cases c
  · show a 0 + a 3 + a 2 + a 1 = _; abel
  · show a 1 + a 0 + a 3 + a 2 = _; abel
  · show a 2 + a 1 + a 0 + a 3 = _; abel
  · show a 3 + a 2 + a 1 + a 0 = _; abel

theorem sum_blk128_ring {M : Type*} [AddCommMonoid M] (f : Fin 512 → M) (c : Fin 4) :
    ∑ j : Fin 512, f j
      = (((∑ j' : Fin 128, f (blk128 c j')) + ∑ j' : Fin 128, f (blk128 (prevDev c 1) j'))
          + ∑ j' : Fin 128, f (blk128 (prevDev c 2) j')) + ∑ j' : Fin 128, f (blk128 (prevDev c 3) j') := by
  rw [sum_blk128, ← sum_ring_order (fun g => ∑ j' : Fin 128, f (blk128 g j')) c]

/-- A float word whose exponent field is not all ones denotes a real. -/
theorem ieee_isReal (e m : Nat) {w : Nat} (b : BitVec w) (h : (b.extractLsb' m e).toNat ≠ 2 ^ e - 1) :
    IsReal (Ideal.ieee e m b) := by
  unfold Ideal.ieee
  simp only [if_neg h]
  split_ifs <;> exact ⟨_, rfl⟩

theorem scaleWord_isReal : IsReal (Ideal.ofBits .f32 0x3DA1E89B#32) :=
  show IsReal (Ideal.ieee 8 23 (0x3DA1E89B#32 : BitVec 32)) from ieee_isReal 8 23 _ (by decide)

end Cert.MlaSpec
-- ==== Proof.KLin.lean ====
import proofs.«900571_g7700000000000572_dist_mla_v7x_i4_i_b2_s512_d2048_dc128_f32_1_alg».proof.Proof.KGen
import proofs.«900571_g7700000000000572_dist_mla_v7x_i4_i_b2_s512_d2048_dc128_f32_1_alg».proof.Proof.KLinMat
import proofs.«900571_g7700000000000572_dist_mla_v7x_i4_i_b2_s512_d2048_dc128_f32_1_alg».proof.Proof.MlaAlgebra
import Idealize.ShloMosaic.Lib.ValueLayout

noncomputable section

namespace Cert.MlaKer

open Idealize.ShloMosaic Idealize.ShloMosaic.ValueIdx Cert.KernelIdeal Cert.KernelIdeal.Gen

section AtIdeal
variable (I : Dev nD → Ins Ideal) (c : Dev nD)

/-- Row `512 b + s` of the stacked rows is row `s` of batch element `b`. -/
theorem xbf_apply (b : Fin 2) (s : Fin 512) (d : Fin 2048) :
    xbf I c (ix2 (flatRow b s) d) = (I c).x (ix3 b s d) := by
  unfold xbf xbfFrom
  match b with
  | ⟨0, _⟩ =>
    rw [wr_of_not_mem _ _ _ _ _ _ (fun h => by have := (h 0).1; have hs := s.isLt; change 512 ≤ 0 * 512 + s.val at this; omega)]
    rw [wr_of_mem _ _ _ _ _ _ (Fin.forall_fin_two.mpr ⟨⟨Nat.zero_le _, by show 0 * 512 + s.val < 0 + 512; omega⟩, ⟨Nat.zero_le _, by show d.val < 0 + 2048; omega⟩⟩)]
    unfold k0_pay1
    rw [shapeCast_self, truncf_apply, shapeCast_dropUnit_apply ![512, 2048]]
    unfold rd
    refine congrArg (I c).x (funext fun a => Fin.ext ?_)
    match a with
    | ⟨0, _⟩ => rfl
    | ⟨1, _⟩ => show 0 + 1 * (0 * 512 + s.val - 0) = s.val; omega
    | ⟨2, _⟩ => show 0 + 1 * (d.val - 0) = d.val; omega
  | ⟨1, _⟩ =>
    rw [wr_of_mem _ _ _ _ _ _ (Fin.forall_fin_two.mpr ⟨⟨by show 512 ≤ 1 * 512 + s.val; omega, by show 1 * 512 + s.val < 512 + 512; omega⟩, ⟨Nat.zero_le _, by show d.val < 0 + 2048; omega⟩⟩)]
    unfold k0_pay2
    rw [shapeCast_self, truncf_apply, shapeCast_dropUnit_apply ![512, 2048]]
    unfold rd
    refine congrArg (I c).x (funext fun a => Fin.ext ?_)
    match a with
    | ⟨0, _⟩ => rfl
    | ⟨1, _⟩ => show 0 + 1 * (1 * 512 + s.val - 512) = s.val; omega
    | ⟨2, _⟩ => show 0 + 1 * (d.val - 0) = d.val; omega

theorem cOwn_apply (b : Fin 2) (s : Fin 512) (j : Fin 128) :
    cOwn I c (ix3 0 (flatRow b s) j) = ∑ d : Fin 2048, (I c).x (ix3 b s d) * (I c).wdkv (ix2 d j) := by
  unfold cOwn k0_pay3
  rw [shapeCast_ab_1ab_apply, truncf_apply, mm_xw128_apply]
  refine Finset.sum_congr rfl fun t _ => ?_
  rw [xbf_apply, truncf_apply, shapeCast_self]

theorem kr_apply (b : Fin 2) (s : Fin 512) (r : Fin 32) :
    kr I c (ix2 (flatRow b s) r) = ∑ d : Fin 2048, (I c).x (ix3 b s d) * (I c).wkr (ix2 d r) := by
  unfold kr k0_pay8
  rw [truncf_apply, mm_xw32_apply]
  refine Finset.sum_congr rfl fun t _ => ?_
  rw [xbf_apply, truncf_apply, shapeCast_self]

theorem qr_apply (b : Fin 2) (s : Fin 512) (e : Fin 128) :
    qr I c (ix2 (flatRow b s) e)
      = ∑ d : Fin 2048, (I c).x (ix3 b s d) * (I c).wqr (ix2 d ⟨128 * c.val + e.val, by have hc : c.val < 4 := c.isLt; omega⟩) := by
  unfold qr k0_pay9
  rw [truncf_apply, mm_xw128_apply]
  refine Finset.sum_congr rfl fun t _ => ?_
  rw [xbf_apply, truncf_apply, shapeCast_self]
  unfold rd
  refine congrArg _ (congrArg (I c).wqr (funext fun a => Fin.ext ?_))
  have h9 := k0_off9_eq c
  match a with
  | ⟨0, _⟩ => show k0_off9 c 0 + 1 * t.val = t.val; rw [h9]; show 0 + 1 * t.val = t.val; omega
  | ⟨1, _⟩ => show k0_off9 c 1 + 1 * e.val = 128 * c.val + e.val; rw [h9]; show 128 * c.val + 1 * e.val = _; omega

theorem q_apply (b : Fin 2) (s : Fin 512) (e : Fin 512) :
    q I c (ix2 (flatRow b s) e)
      = ∑ d : Fin 2048, (I c).x (ix3 b s d) * (I c).wq (ix2 d ⟨512 * c.val + e.val, by have hc : c.val < 4 := c.isLt; omega⟩) := by
  unfold q k0_pay10
  rw [truncf_apply, mm_xw512_apply]
  refine Finset.sum_congr rfl fun t _ => ?_
  rw [xbf_apply, truncf_apply]
  unfold wqSt rd
  refine congrArg _ (congrArg (I c).wq (funext fun a => Fin.ext ?_))
  have h1 := k0_off1_eq c
  match a with
  | ⟨0, _⟩ => show k0_off1 c 0 + 1 * t.val = t.val; rw [h1]; show 0 + 1 * t.val = t.val; omega
  | ⟨1, _⟩ => show k0_off1 c 1 + 1 * e.val = 512 * c.val + e.val; rw [h1]; show 512 * c.val + 1 * e.val = _; omega

theorem wukSlot_apply (g : Dev nD) (j : Fin 128) (e : Fin 512) :
    wukSlot I c g (ix3 0 j e) = (I g).wuk (ix2 j ⟨512 * c.val + e.val, by have hc : c.val < 4 := c.isLt; omega⟩) := by
  unfold wukSlot k0_pay6 wukCols
  rw [shapeCast_ab_1ab_apply]
  unfold rd wukbf k0_pay4
  dsimp only
  rw [shapeCast_self, truncf_apply, shapeCast_self]
  refine congrArg (I g).wuk (funext fun a => Fin.ext ?_)
  match a with
  | ⟨0, _⟩ => show 0 + 1 * j.val = j.val; omega
  | ⟨1, _⟩ => show 512 * c.val + 1 * e.val = 512 * c.val + e.val; omega

theorem slot_mm_apply (L : FVec Ideal S1x1024x128 .bf16) (W : FVec Ideal S1x128x512 .bf16) (r : Fin 1024) (e : Fin 512) :
    matmul (F := Ideal) dot_S1024x128_S128x512_S1024x512_1_0_0_1_n_n none
        (shapeCast S1024x128 L shapeCasts_S1x1024x128_S1024x128) (shapeCast S128x512 W shapeCasts_S1x128x512_S128x512)
        (constant S1024x512 .f32 0x00000000#32) (ix2 r e)
      = ∑ t : Fin 128, L (ix3 0 r t) * W (ix3 0 t e) := by
  rw [mm_cw512_apply]
  refine Finset.sum_congr rfl fun t _ => ?_
  rw [shapeCast_1ab_ab_apply, shapeCast_1ab_ab_apply]

def kTerm (g : Dev nD) (r : Fin 1024) (e : Fin 512) : EReal :=
  ∑ t : Fin 128, cOwn I g (ix3 0 r t) * wukSlot I c g (ix3 0 t e)

/-- The keys: the own latent block's term, then those of the three devices before it on the ring. -/
theorem kMy_apply (r : Fin 1024) (e : Fin 512) :
    kMy I c (ix2 r e)
      = ((kTerm I c c r e + kTerm I c (org c 0) r e) + kTerm I c (org c 1) r e) + kTerm I c (org c 2) r e := by
  unfold kMy k0_pay17 kAcc2 k0_pay15 kAcc1 k0_pay13 kAcc0 k0_pay11
  rw [truncf_apply, addf_apply, addf_apply, addf_apply, slot_mm_apply, slot_mm_apply, slot_mm_apply, slot_mm_apply]
  rfl

end AtIdeal

section Spec
open Cert.MlaSpec

theorem org_zero : ∀ c : Dev nD, org c 0 = prevDev c 1 := by decide
theorem org_one : ∀ c : Dev nD, org c 1 = prevDev c 2 := by decide
theorem org_two : ∀ c : Dev nD, org c 2 = prevDev c 3 := by decide

variable {I : Dev nD → Ins Ideal} {X : Fin 2 → Fin 512 → Fin 2048 → EReal}
  (hx : ∀ (g : Dev nD) (b : Fin 2) (s : Fin 512) (d : Fin 2048), (I g).x (ix3 b s d) = X b s d)
include hx

theorem kr_spec {Wkr : Fin 2048 → Fin 32 → EReal}
    (hwkr : ∀ (g : Dev nD) (d : Fin 2048) (r : Fin 32), (I g).wkr (ix2 d r) = Wkr d r)
    (c : Dev nD) (b : Fin 2) (s : Fin 512) (r : Fin 32) :
    kr I c (ix2 (flatRow b s) r) = Krp X Wkr b s r := by
  rw [kr_apply]
  unfold Krp
  exact Finset.sum_congr rfl fun d _ => by rw [hx, hwkr]

theorem qr_spec {Wqr : Fin 2048 → Fin 512 → EReal}
    (hwqr : ∀ (g : Dev nD) (d : Fin 2048) (q : Fin 512), (I g).wqr (ix2 d q) = Wqr d q)
    (c : Dev nD) (b : Fin 2) (s : Fin 512) (q : Fin 128) :
    qr I c (ix2 (flatRow b s) q) = Qrp X Wqr b s (blk128 c q) := by
  rw [qr_apply]
  unfold Qrp
  exact Finset.sum_congr rfl fun d _ => by rw [hx, hwqr]; rfl

theorem q_spec {Wq : Fin 2048 → Fin 2048 → EReal}
    (hwq : ∀ (g : Dev nD) (d : Fin 2048) (e : Fin 2048), (I g).wq (ix2 d e) = Wq d e)
    (c : Dev nD) (b : Fin 2) (s : Fin 512) (e : Fin 512) :
    q I c (ix2 (flatRow b s) e) = Qp X Wq b s (blk512 c e) := by
  rw [q_apply]
  unfold Qp
  exact Finset.sum_congr rfl fun d _ => by rw [hx, hwq]; rfl

variable {Wdkv : Fin 2048 → Fin 512 → EReal}
  (hwdkv : ∀ (g : Dev nD) (d : Fin 2048) (j : Fin 128), (I g).wdkv (ix2 d j) = Wdkv d (blk128 g j))
include hwdkv

/-- Device `g`'s latent block is the columns `[128 g, 128 g + 128)` of the latent. -/
theorem cOwn_spec (g : Dev nD) (b : Fin 2) (s : Fin 512) (j : Fin 128) :
    cOwn I g (ix3 0 (flatRow b s) j) = cLat X Wdkv b s (blk128 g j) := by
  rw [cOwn_apply]
  unfold cLat
  exact Finset.sum_congr rfl fun d _ => by rw [hx, hwdkv]

/-- The four latent blocks' terms, in ring order, are the whole contraction over the latent. -/
theorem kMy_spec {Wuk : Fin 512 → Fin 2048 → EReal}
    (hwuk : ∀ (g : Dev nD) (j : Fin 128) (e : Fin 2048), (I g).wuk (ix2 j e) = Wuk (blk128 g j) e)
    (c : Dev nD) (b : Fin 2) (s : Fin 512) (e : Fin 512) :
    kMy I c (ix2 (flatRow b s) e) = Kp X Wdkv Wuk b s (blk512 c e) := by
  have hT : ∀ g : Dev nD, kTerm I c g (flatRow b s) e
      = ∑ j' : Fin 128, cLat X Wdkv b s (blk128 g j') * Wuk (blk128 g j') (blk512 c e) := by
    intro g
    unfold kTerm
    exact Finset.sum_congr rfl fun t _ => by rw [cOwn_spec hx hwdkv, wukSlot_apply, hwuk]; rfl
  rw [kMy_apply, hT, hT, hT, hT, org_zero, org_one, org_two]
  unfold Kp
  exact (sum_blk128_ring (fun j => cLat X Wdkv b s j * Wuk j (blk512 c e)) c).symm

/-- The values are computed from the value up-projection exactly as the keys are from the key up-projection. -/
theorem vMy_spec {Wuv : Fin 512 → Fin 2048 → EReal}
    (hwuv : ∀ (g : Dev nD) (j : Fin 128) (e : Fin 2048), (I g).wuv (ix2 j e) = Wuv (blk128 g j) e)
    (c : Dev nD) (b : Fin 2) (s : Fin 512) (e : Fin 512) :
    vMy I c (ix2 (flatRow b s) e) = Vp X Wdkv Wuv b s (blk512 c e) :=
  kMy_spec (I := fun g => { I g with wuk := (I g).wuv }) hx hwdkv hwuv c b s e

end Spec

end Cert.MlaKer

/-- info: 'Cert.MlaKer.kMy_spec' depends on axioms: [propext, Classical.choice, Quot.sound] -/
#guard_msgs in #print axioms Cert.MlaKer.kMy_spec
/-- info: 'Cert.MlaKer.vMy_spec' depends on axioms: [propext, Classical.choice, Quot.sound] -/
#guard_msgs in #print axioms Cert.MlaKer.vMy_spec
/-- info: 'Cert.MlaKer.q_spec' depends on axioms: [propext, Classical.choice, Quot.sound] -/
#guard_msgs in #print axioms Cert.MlaKer.q_spec
-- ==== Proof.KAssemble.lean ====
import proofs.«900571_g7700000000000572_dist_mla_v7x_i4_i_b2_s512_d2048_dc128_f32_1_alg».proof.Proof.KProj
import proofs.«900571_g7700000000000572_dist_mla_v7x_i4_i_b2_s512_d2048_dc128_f32_1_alg».proof.Proof.KLin
import Mathlib.Algebra.BigOperators.Fin

noncomputable section

namespace Cert.MlaKer

open Cert.MlaSpec Cert.KernelIdeal Cert.KernelIdeal.Gen Idealize.ShloMosaic Idealize.ShloMosaic.ValueIdx
open scoped BigOperators

theorem halves_colLo (A : Vec Ideal S2x512x2048 .f32) (L R : FVec Ideal S2x512x1024 .f32)
    (b : Fin 2) (s : Fin 512) (o : Fin 1024) :
    wr (wr A ![0, 0, 0] S2x512x1024.size inb_S2x512x2048_S2x512x1024_0_0_0 L)
        ![0, 0, 1024] S2x512x1024.size inb_S2x512x2048_S2x512x1024_0_0_1024 R (ix3 b s (colLo o)) = L (ix3 b s o) := by
  unfold wr
  refine (updateSlice_apply_out (s := S2x512x2048) (u := S2x512x1024) _ R ![0, 0, 1024] _ (ix3 b s (colLo o)) (2 : Fin 3) (by
    show ¬(1024 ≤ o.val ∧ o.val < 1024 + 1024)
    have := o.isLt; omega)).trans ?_
  refine updateSlice_apply_in (s := S2x512x2048) (u := S2x512x1024) A L ![0, 0, 0] _ (ix3 b s (colLo o)) (ix3 b s o) (fun a => ?_)
  match a with
  | ⟨0, _⟩ | ⟨1, _⟩ | ⟨2, _⟩ => exact (Nat.zero_add _).symm

theorem halves_colHi (A : Vec Ideal S2x512x2048 .f32) (L R : FVec Ideal S2x512x1024 .f32)
    (b : Fin 2) (s : Fin 512) (o : Fin 1024) :
    wr (wr A ![0, 0, 0] S2x512x1024.size inb_S2x512x2048_S2x512x1024_0_0_0 L)
        ![0, 0, 1024] S2x512x1024.size inb_S2x512x2048_S2x512x1024_0_0_1024 R (ix3 b s (colHi o)) = R (ix3 b s o) := by
  unfold wr
  refine updateSlice_apply_in (s := S2x512x2048) (u := S2x512x1024) _ R ![0, 0, 1024] _ (ix3 b s (colHi o)) (ix3 b s o) (fun a => ?_)
  match a with
  | ⟨0, _⟩ => exact (Nat.zero_add _).symm
  | ⟨1, _⟩ => exact (Nat.zero_add _).symm
  | ⟨2, _⟩ => rfl

section
variable (I : Dev nD → Ins Ideal) (c : Dev nD)

theorem woSt_apply (g : Dev nD) (e : Fin 512) (o : Fin 2048) :
    woSt I c g (ix2 e o) = (I c).wo (ix2 (blk512 g e) o) := by
  unfold woSt rd
  refine congrArg (I c).wo (funext fun a => Fin.ext ?_)
  match a with
  | ⟨0, _⟩ => show 512 * g.val + 1 * e.val = 512 * g.val + e.val; omega
  | ⟨1, _⟩ => show 0 + 1 * o.val = o.val; omega

theorem out_colLo (b : Fin 2) (s : Fin 512) (o : Fin 1024) :
    out I c (ix3 b s (colLo o)) = outL3 I c (ix3 b s o) :=
  halves_colLo _ (outL3 I c) (outR3 I c) b s o

theorem out_colHi (b : Fin 2) (s : Fin 512) (o : Fin 1024) :
    out I c (ix3 b s (colHi o)) = outR3 I c (ix3 b s o) :=
  halves_colHi _ (outL3 I c) (outR3 I c) b s o

/-- Head group `g`'s term of device `c`'s output projection. -/
def groupTerm (g : Dev nD) (b : Fin 2) (s : Fin 512) (o : Fin 2048) : EReal :=
  projTerm (woSt I c g) (oOwn I g) b s o

theorem outL3_apply (b : Fin 2) (s : Fin 512) (o : Fin 1024) :
    outL3 I c (ix3 b s o)
      = ((groupTerm I c c b s (colLo o) + groupTerm I c (org c 0) b s (colLo o)) + groupTerm I c (org c 1) b s (colLo o))
          + groupTerm I c (org c 2) b s (colLo o) := by
  unfold outL3 outL2 outL1 outL0 groupTerm
  exact projLo_four _ _ _ _ _ _ _ _ b s o

theorem outR3_apply (b : Fin 2) (s : Fin 512) (o : Fin 1024) :
    outR3 I c (ix3 b s o)
      = ((groupTerm I c c b s (colHi o) + groupTerm I c (org c 0) b s (colHi o)) + groupTerm I c (org c 1) b s (colHi o))
          + groupTerm I c (org c 2) b s (colHi o) := by
  unfold outR3 outR2 outR1 outR0 groupTerm
  exact projHi_four _ _ _ _ _ _ _ _ b s o

theorem out_apply (b : Fin 2) (s : Fin 512) (o : Fin 2048) :
    out I c (ix3 b s o)
      = ((groupTerm I c c b s o + groupTerm I c (org c 0) b s o) + groupTerm I c (org c 1) b s o)
          + groupTerm I c (org c 2) b s o := by
  rcases col_cases o with ⟨o', rfl⟩ | ⟨o', rfl⟩
  · rw [out_colLo, outL3_apply]
  · rw [out_colHi, outR3_apply]

end

theorem sum_groups (f : Fin 2048 → EReal) :
    ∑ e : Fin 2048, f e = ∑ g : Fin 4, ∑ e' : Fin 512, f (blk512 g e') := by
  rw [← Fintype.sum_prod_type']
  refine (Fintype.sum_equiv (finProdFinEquiv (m := 4) (n := 512)) _ _ fun p => ?_).symm
  refine congrArg f (Fin.ext ?_)
  show 512 * p.1.val + p.2.val = p.2.val + 512 * p.1.val
  omega

/-- The ring order and the four blocks of 512 columns regroup into the sum over all 2048 columns. -/
theorem out_eq_spec (I : Dev nD → Ins Ideal)
    (X : Fin 2 → Fin 512 → Fin 2048 → EReal) (Wdkv : Fin 2048 → Fin 512 → EReal)
    (Wuk Wuv : Fin 512 → Fin 2048 → EReal) (Wq : Fin 2048 → Fin 2048 → EReal) (Wqr : Fin 2048 → Fin 512 → EReal)
    (Wkr : Fin 2048 → Fin 32 → EReal) (Wo : Fin 2048 → Fin 2048 → EReal) (scale : EReal)
    (hwo : ∀ (c : Dev nD) (e o : Fin 2048), (I c).wo (ix2 e o) = Wo e o)
    (hO : ∀ (g : Dev nD) (b : Fin 2) (s : Fin 512) (e : Fin 512),
      oOwn I g (ix3 (0 : Fin 1) (flatRow b s) e) = kerO X Wdkv Wuk Wuv Wq Wqr Wkr scale b s (blk512 g e))
    (c : Dev nD) (b : Fin 2) (s : Fin 512) (o : Fin 2048) :
    out I c (ix3 b s o) = kerOut X Wdkv Wuk Wuv Wq Wqr Wkr Wo scale b s o := by
  have hT : ∀ g : Dev nD, groupTerm I c g b s o
      = ∑ e' : Fin 512, kerO X Wdkv Wuk Wuv Wq Wqr Wkr scale b s (blk512 g e') * Wo (blk512 g e') o := fun g => by
    unfold groupTerm projTerm
    exact Finset.sum_congr rfl fun e' _ => by rw [hO, woSt_apply, hwo]
  rw [out_apply, org_zero, org_one, org_two, sum_ring_order (fun g => groupTerm I c g b s o) c]
  unfold kerOut
  rw [sum_groups (fun e => kerO X Wdkv Wuk Wuv Wq Wqr Wkr scale b s e * Wo e o)]
  exact Finset.sum_congr rfl fun g _ => hT g

end Cert.MlaKer

end
-- ==== Proof.KOwn.lean ====
import proofs.«900571_g7700000000000572_dist_mla_v7x_i4_i_b2_s512_d2048_dc128_f32_1_alg».proof.Proof.MlaSpec
import proofs.«900571_g7700000000000572_dist_mla_v7x_i4_i_b2_s512_d2048_dc128_f32_1_alg».proof.Proof.KGen
import Mathlib.Tactic.FinCases

noncomputable section

namespace Cert.MlaKer

open Cert.MlaSpec Cert.KernelIdeal Cert.KernelIdeal.Gen Idealize.ShloMosaic Idealize.ShloMosaic.ValueIdx

variable {F : FTy → Type} [FloatOps F]

/-- Reading inside the written rectangle gives the block. -/
theorem oWr_in (A : Vec F S1x1024x512 .bf16) (r : Fin 2) (h : Fin 4) (w : FVec F S1x512x128 .bf16)
    (s : Fin 512) (d : Fin 128) :
    wr A (oOff r h) S1x512x128.size (oOff_inb r h) w (ix3 (0 : Fin 1) (flatRow r s) (gcol128 h d)) = w (ix3 (0 : Fin 1) s d) := by
  unfold wr
  refine updateSlice_apply_in (s := S1x1024x512) (u := S1x512x128) A w (oOff r h) _ _ (ix3 (0 : Fin 1) s d) (fun a => ?_)
  match a with
  | ⟨0, _⟩ => rfl
  | ⟨1, _⟩ => show r.val * 512 + s.val = 512 * r.val + s.val; omega
  | ⟨2, _⟩ => show h.val * 128 + d.val = 128 * h.val + d.val; omega

/-- The rectangles of two different (batch, head) pairs are disjoint. -/
theorem oWr_out (A : Vec F S1x1024x512 .bf16) (r r' : Fin 2) (h h' : Fin 4) (hne : r ≠ r' ∨ h ≠ h')
    (w : FVec F S1x512x128 .bf16) (s : Fin 512) (d : Fin 128) :
    wr A (oOff r' h') S1x512x128.size (oOff_inb r' h') w (ix3 (0 : Fin 1) (flatRow r s) (gcol128 h d))
      = A (ix3 (0 : Fin 1) (flatRow r s) (gcol128 h d)) := by
  unfold wr
  rcases hne with hr | hh
  · refine updateSlice_apply_out (s := S1x1024x512) (u := S1x512x128) A w (oOff r' h') _ _ (1 : Fin 3) ?_
    show ¬(512 * r'.val ≤ r.val * 512 + s.val ∧ r.val * 512 + s.val < 512 * r'.val + 512)
    have hr' : r.val ≠ r'.val := fun e => hr (Fin.ext e)
    have := s.isLt
    omega
  · refine updateSlice_apply_out (s := S1x1024x512) (u := S1x512x128) A w (oOff r' h') _ _ (2 : Fin 3) ?_
    show ¬(128 * h'.val ≤ h.val * 128 + d.val ∧ h.val * 128 + d.val < 128 * h'.val + 128)
    have hh' : h.val ≠ h'.val := fun e => hh (Fin.ext e)
    have := d.isLt
    omega

section
variable (I : Dev nD → Ins F) (c : Dev nD)

/-- The eight rectangles are disjoint: reading inside the rectangle of (r, hh), every other store is skipped. -/
theorem oOwn_apply (r : Fin 2) (hh : Fin 4) (s : Fin 512) (d : Fin 128) :
    oOwn I c (ix3 (0 : Fin 1) (flatRow r s) (gcol128 hh d)) = oBlk I c r hh (ix3 (0 : Fin 1) s d) := by
  unfold oOwn oOwnFrom
  match r, hh with
  | 0, 0 | 1, 0 | 0, 1 | 1, 1 | 0, 2 | 1, 2 | 0, 3 | 1, 3 =>
    repeat first | exact oWr_in _ _ _ _ s d | refine (oWr_out _ _ _ _ _ (by decide) _ s d).trans ?_

theorem gcol128_cases (e : Fin 512) : ∃ (hh : Fin 4) (d : Fin 128), e = gcol128 hh d :=
  ⟨⟨e.val / 128, by have := e.isLt; omega⟩, ⟨e.val % 128, Nat.mod_lt _ (by decide)⟩,
    Fin.ext (by show e.val = e.val / 128 * 128 + e.val % 128; omega)⟩

end

end Cert.MlaKer

end
-- ==== Proof.KAttnCore.lean ====
import proofs.«900571_g7700000000000572_dist_mla_v7x_i4_i_b2_s512_d2048_dc128_f32_1_alg».proof.Proof.Gen.KernelIdeal.Skeleton
import proofs.«900571_g7700000000000572_dist_mla_v7x_i4_i_b2_s512_d2048_dc128_f32_1_alg».proof.Proof.KLinMat
import Idealize.ShloMosaic.Lib.ValueLayout
import Idealize.ShloMosaic.Lib.IdealHost

noncomputable section

namespace Cert.MlaKer.Attn

open Idealize.ShloMosaic Idealize.ShloMosaic.ValueIdx
open Cert.KernelIdeal Cert.KernelIdeal.Gen
open scoped BigOperators

/-- The scores' product contracts the second axis of both operands. -/
theorem matmulQK_apply (qh kh : FVec Ideal S512x160 .bf16) (s t : Fin 512) :
    matmul dot_S512x160_S512x160_S512x512_1_1_0_0_n_n none qh kh (constant S512x512 .f32 0x00000000#32) (ix2 s t)
      = ∑ j : Fin 160, qh (ix2 s j) * kh (ix2 t j) :=
  mm_apply_of _ 160 rfl rfl qh kh _ (fun j => ix2 s j) (fun j => ix2 t j)
    (fun _ => funext fun a => Fin.ext (by match a with | ⟨0, _⟩ => rfl | ⟨1, _⟩ => rfl))
    (fun _ => funext fun a => Fin.ext (by match a with | ⟨0, _⟩ => rfl | ⟨1, _⟩ => rfl))

theorem matmulPV_apply (p : FVec Ideal S512x512 .bf16) (vh : FVec Ideal S512x128 .bf16) (s : Fin 512) (dh : Fin 128) :
    matmul dot_S512x512_S512x128_S512x128_1_0_0_1_n_n none p vh (constant S512x128 .f32 0x00000000#32) (ix2 s dh)
      = ∑ t : Fin 512, p (ix2 s t) * vh (ix2 t dh) := mm_apply p vh s dh

theorem rowSum_apply (p : FVec Ideal S512x512 .f32) (hφ : FKind.Formats .f32)
    (hacc : (0x00000000#32 : BitVec 32) = 0x00000000#32) (s : Fin 512) :
    multiReduction .add [1] S512 p 0x00000000#32 reduces_S512x512_S512 hφ hacc (ix1 s) = ∑ t : Fin 512, p (ix2 s t) := by
  refine (Ideal.multiReduction_add_single p 0x00000000#32 reduces_S512x512_S512 hφ hacc (ix1 s)).trans ?_
  refine Finset.sum_congr rfl fun t _ => congrArg p ?_
  funext a
  match a with
  | ⟨0, _⟩ => rfl
  | ⟨1, _⟩ => rfl

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem exp_apply {s : Shape} {φ : FTy} (a : FVec Ideal s φ) (i : s.Idx) : exp a i = Ideal.exp (a i) := rfl

def scaleW : EReal := Ideal.ofBits .f32 0x3DA1E89B#32

/-- One head's attention over one batch element: scores, their scaled exponentials, the row sums, the weighted values, one division. -/
def core (qh kh : FVec Ideal S512x160 .bf16) (vh : FVec Ideal S512x128 .bf16) : FVec Ideal S1x512x128 .bf16 :=
  have sc : FVec Ideal S512x512 .f32 := matmul dot_S512x160_S512x160_S512x512_1_1_0_0_n_n none qh kh (constant S512x512 .f32 0x00000000#32)
  have p : FVec Ideal S512x512 .f32 := exp (mulf sc (broadcast S512x512 (Scalar.ofBits .f32 0x3DA1E89B#32)))
  have den : FVec Ideal S512x1 .f32 := shapeCast S512x1 (multiReduction .add [1] S512 p 0x00000000#32 reduces_S512x512_S512 (.inl rfl) rfl) shapeCasts_S512_S512x1
  have o : FVec Ideal S512x128 .f32 := matmul dot_S512x512_S512x128_S512x128_1_0_0_1_n_n none (truncf .bf16 p bitsLt_bf16_f32) vh (constant S512x128 .f32 0x00000000#32)
  have r : FVec Ideal S512x128 .f32 := broadcastTo S512x128 (divf (broadcast S512x1 (Scalar.ofBits .f32 0x3F800000#32)) den) broadcasts_S512x1_S512x128
  shapeCast S1x512x128 (truncf .bf16 (mulf o r) bitsLt_bf16_f32) shapeCasts_S512x128_S1x512x128

/-- The scaled exponential of the score of query row `s` against key row `t`. -/
def wgt (qh kh : FVec Ideal S512x160 .bf16) (s t : Fin 512) : EReal :=
  Ideal.exp ((∑ j : Fin 160, qh (ix2 s j) * kh (ix2 t j)) * scaleW)

/-- Entry (s, dh): the weighted sum of the values times the reciprocal of the sum of the weights. -/
theorem core_apply (qh kh : FVec Ideal S512x160 .bf16) (vh : FVec Ideal S512x128 .bf16) (s : Fin 512) (dh : Fin 128) :
    core qh kh vh (ix3 (0 : Fin 1) s dh)
      = (∑ t : Fin 512, wgt qh kh s t * vh (ix2 t dh)) * Ideal.div 1 (∑ t : Fin 512, wgt qh kh s t) := by
  unfold core
  rw [shapeCast_ab_1ab_apply, truncf_apply, mulf_apply, matmulPV_apply, broadcastTo_a1_ab_apply, divf_apply, broadcast_apply,
    shapeCast_a_a1_apply, rowSum_apply]
  have hw : ∀ t : Fin 512, exp (mulf (matmul dot_S512x160_S512x160_S512x512_1_1_0_0_n_n none qh kh (constant S512x512 .f32 0x00000000#32))
      (broadcast S512x512 (Scalar.ofBits .f32 0x3DA1E89B#32))) (ix2 s t) = wgt qh kh s t := fun t => by
    rw [exp_apply, mulf_apply, matmulQK_apply, broadcast_apply]; rfl
  simp only [truncf_apply, hw]
  rw [show (Scalar.ofBits .f32 0x3F800000#32 : Ideal .f32) = (1 : EReal) from Ideal.ofBits_one_f32]

end Cert.MlaKer.Attn
-- ==== Proof.KAttnOps.lean ====
import proofs.«900571_g7700000000000572_dist_mla_v7x_i4_i_b2_s512_d2048_dc128_f32_1_alg».proof.Proof.KAttnCore
import proofs.«900571_g7700000000000572_dist_mla_v7x_i4_i_b2_s512_d2048_dc128_f32_1_alg».proof.Proof.MlaSpec

noncomputable section

namespace Cert.MlaKer.Attn

open Idealize.ShloMosaic Idealize.ShloMosaic.ValueIdx
open Cert.KernelIdeal Cert.KernelIdeal.Gen
open Cert.MlaSpec (gcol128 gcol32 kerAttn)
open scoped BigOperators

def row (b : Fin 2) (s : Fin 512) : Fin 1024 := ⟨b.val * 512 + s.val, by omega⟩

section Layout
variable {α : Type}

theorem rowsCat_left (ob : ℕ) (x₁ : S1024x128.Idx → α) (x₂ : S1024x32.Idx → α)
    (hc : Shape.Concatenates [S1024x128, S1024x32] S1024x160 1) (hs : S1024x160.Slices ![ob, 0] S512x160)
    (s : Fin 512) (i : Fin 128) (k : Fin 1024) (hk : k.val = ob + s.val) :
    extractStridedSlice S512x160 ![ob, 0] (concatenate S1024x160 1 [⟨S1024x128, x₁⟩, ⟨S1024x32, x₂⟩] hc) hs
      (ix2 s (Fin.castAdd 32 i)) = x₁ (ix2 k i) := by
  refine (slice2_axis0_apply ob _ hs s (Fin.castAdd 32 i) k hk).trans ?_
  exact concatenate_pair_apply_left (t := S1024x160) (s₁ := S1024x128) (s₂ := S1024x32) (1 : Fin 2) x₁ x₂ hc _ rfl (ix2 k i) (by
    intro b
    match b with
    | ⟨0, _⟩ => rfl
    | ⟨1, _⟩ => rfl)

theorem rowsCat_right (ob : ℕ) (x₁ : S1024x128.Idx → α) (x₂ : S1024x32.Idx → α)
    (hc : Shape.Concatenates [S1024x128, S1024x32] S1024x160 1) (hs : S1024x160.Slices ![ob, 0] S512x160)
    (s : Fin 512) (r : Fin 32) (k : Fin 1024) (hk : k.val = ob + s.val) :
    extractStridedSlice S512x160 ![ob, 0] (concatenate S1024x160 1 [⟨S1024x128, x₁⟩, ⟨S1024x32, x₂⟩] hc) hs
      (ix2 s (Fin.natAdd 128 r)) = x₂ (ix2 k r) := by
  refine (slice2_axis0_apply ob _ hs s (Fin.natAdd 128 r) k hk).trans ?_
  exact concatenate_pair_apply_right (t := S1024x160) (s₁ := S1024x128) (s₂ := S1024x32) (1 : Fin 2) x₁ x₂ hc _ rfl rfl (ix2 k r) (by
    intro b hb
    match b with
    | ⟨0, _⟩ => rfl
    | ⟨1, _⟩ => exact absurd rfl hb) (by
    show r.val + 128 = 128 + r.val; omega)

theorem rowsLanes (ob oc : ℕ) (X : S1024x512.Idx → α) (hl : S1024x512.Slices ![0, oc] S1024x128)
    (hr : S1024x128.Slices ![ob, 0] S512x128) (s : Fin 512) (d : Fin 128) (k : Fin 1024) (c : Fin 512)
    (hk : k.val = ob + s.val) (hc : c.val = oc + d.val) :
    extractStridedSlice S512x128 ![ob, 0] (extractStridedSlice S1024x128 ![0, oc] X hl) hr (ix2 s d) = X (ix2 k c) :=
  (slice2_axis0_apply ob _ hr s d k hk).trans (slice2_axis1_apply oc X hl k d c hc)

end Layout

/-- The score of query row `s` against key row `t` in head `hh` of batch element `b`: the head's 128 lanes plus its 32 rotary lanes. -/
def qk (Q : FVec Ideal S1024x512 .bf16) (QR : FVec Ideal S1024x128 .bf16) (KR : FVec Ideal S1024x32 .bf16)
    (K : FVec Ideal S1024x512 .bf16) (hh : Fin 4) (b : Fin 2) (s t : Fin 512) : EReal :=
  (∑ i : Fin 128, Q (ix2 (row b s) (gcol128 hh i)) * K (ix2 (row b t) (gcol128 hh i)))
    + ∑ r : Fin 32, QR (ix2 (row b s) (gcol32 hh r)) * KR (ix2 (row b t) r)

/-- Entry (s, dh) of the attention output of head `hh` over batch element `b`. -/
def attnBlock (Q : FVec Ideal S1024x512 .bf16) (QR : FVec Ideal S1024x128 .bf16) (KR : FVec Ideal S1024x32 .bf16)
    (K V : FVec Ideal S1024x512 .bf16) (scale : EReal) (hh : Fin 4) (b : Fin 2) (s : Fin 512) (dh : Fin 128) : EReal :=
  (∑ t : Fin 512, Ideal.exp (qk Q QR KR K hh b s t * scale) * V (ix2 (row b t) (gcol128 hh dh)))
    * Ideal.div 1 (∑ t : Fin 512, Ideal.exp (qk Q QR KR K hh b s t * scale))

theorem attnBlock_eq_kerAttn (Q : FVec Ideal S1024x512 .bf16) (QR : FVec Ideal S1024x128 .bf16) (KR : FVec Ideal S1024x32 .bf16)
    (K V : FVec Ideal S1024x512 .bf16) (scale : EReal) (hh : Fin 4) (b : Fin 2) (s : Fin 512) (dh : Fin 128) :
    attnBlock Q QR KR K V scale hh b s dh
      = kerAttn (fun t => qk Q QR KR K hh b s t * scale) (fun t => V (ix2 (row b t) (gcol128 hh dh))) := rfl

/-- The three operands cut from the five arrays at the head's lane offsets and the batch element's row offset give that entry. -/
theorem block_apply (hh : Fin 4) (b : Fin 2) (oq orr ob : ℕ) (hoq : oq = hh.val * 128) (horr : orr = hh.val * 32) (hob : ob = b.val * 512)
    (Q : FVec Ideal S1024x512 .bf16) (QR : FVec Ideal S1024x128 .bf16) (KR : FVec Ideal S1024x32 .bf16)
    (K V : FVec Ideal S1024x512 .bf16)
    (hq : S1024x512.Slices ![0, oq] S1024x128) (hqr : S1024x128.Slices ![0, orr] S1024x32)
    (hc : Shape.Concatenates [S1024x128, S1024x32] S1024x160 1) (hs : S1024x160.Slices ![ob, 0] S512x160)
    (hv : S1024x128.Slices ![ob, 0] S512x128) (s : Fin 512) (dh : Fin 128) :
    core
      (extractStridedSlice S512x160 ![ob, 0] (concatenate S1024x160 1
        [⟨S1024x128, extractStridedSlice S1024x128 ![0, oq] Q hq⟩, ⟨S1024x32, extractStridedSlice S1024x32 ![0, orr] QR hqr⟩] hc) hs)
      (extractStridedSlice S512x160 ![ob, 0] (concatenate S1024x160 1
        [⟨S1024x128, extractStridedSlice S1024x128 ![0, oq] K hq⟩, ⟨S1024x32, KR⟩] hc) hs)
      (extractStridedSlice S512x128 ![ob, 0] (extractStridedSlice S1024x128 ![0, oq] V hq) hv)
      (ix3 (0 : Fin 1) s dh)
      = attnBlock Q QR KR K V scaleW hh b s dh := by
  have hrow : ∀ u : Fin 512, (row b u).val = ob + u.val := fun u => by rw [hob]; rfl
  have hcol : ∀ i : Fin 128, (gcol128 hh i).val = oq + i.val := fun i => by rw [hoq]; rfl
  have hcolr : ∀ r : Fin 32, (gcol32 hh r).val = orr + r.val := fun r => by rw [horr]; rfl
  have hw : ∀ t : Fin 512, wgt
      (extractStridedSlice S512x160 ![ob, 0] (concatenate S1024x160 1
        [⟨S1024x128, extractStridedSlice S1024x128 ![0, oq] Q hq⟩, ⟨S1024x32, extractStridedSlice S1024x32 ![0, orr] QR hqr⟩] hc) hs)
      (extractStridedSlice S512x160 ![ob, 0] (concatenate S1024x160 1
        [⟨S1024x128, extractStridedSlice S1024x128 ![0, oq] K hq⟩, ⟨S1024x32, KR⟩] hc) hs) s t
      = Ideal.exp (qk Q QR KR K hh b s t * scaleW) := fun t => by
    unfold wgt qk
    rw [Fin.sum_univ_add (M := EReal) (a := 128) (b := 32)]
    congr 2
    congr 1
    · refine Finset.sum_congr rfl fun i _ => ?_
      rw [rowsCat_left ob _ _ hc hs s i (row b s) (hrow s), rowsCat_left ob _ _ hc hs t i (row b t) (hrow t),
        slice2_axis1_apply oq Q hq (row b s) i (gcol128 hh i) (hcol i), slice2_axis1_apply oq K hq (row b t) i (gcol128 hh i) (hcol i)]
    · refine Finset.sum_congr rfl fun r _ => ?_
      rw [rowsCat_right ob _ _ hc hs s r (row b s) (hrow s), rowsCat_right ob _ _ hc hs t r (row b t) (hrow t),
        slice2_axis1_apply orr QR hqr (row b s) r (gcol32 hh r) (hcolr r)]
  rw [core_apply]
  unfold attnBlock
  simp only [hw]
  congr 1
  refine Finset.sum_congr rfl fun t _ => ?_
  rw [rowsLanes ob oq V hq hv t dh (row b t) (gcol128 hh dh) (hrow t) (hcol dh)]

end Cert.MlaKer.Attn
-- ==== Proof.KAttn.lean ====
import proofs.«900571_g7700000000000572_dist_mla_v7x_i4_i_b2_s512_d2048_dc128_f32_1_alg».proof.Proof.KAttnOps
import proofs.«900571_g7700000000000572_dist_mla_v7x_i4_i_b2_s512_d2048_dc128_f32_1_alg».proof.Proof.KProj

noncomputable section

namespace Cert.MlaKer.Attn

open Idealize.ShloMosaic Idealize.ShloMosaic.ValueIdx
open Cert.KernelIdeal Cert.KernelIdeal.Gen
open Cert.MlaSpec
open scoped BigOperators

/-- Each of the eight stored blocks is the one attention block at its head's lane offsets and its batch element's row offset. -/
theorem oBlk_apply (I : Dev nD → Ins Ideal) (c : Dev nD) (r : Fin 2) (hh : Fin 4) (s : Fin 512) (d : Fin 128) :
    oBlk I c r hh (ix3 (0 : Fin 1) s d)
      = attnBlock (q I c) (qr I c) (kr I c) (kMy I c) (vMy I c) scaleW hh r s d := by
  have key := fun hh b oq orr ob h1 h2 h3 hq hqr hs hv =>
    block_apply hh b oq orr ob h1 h2 h3 (q I c) (qr I c) (kr I c) (kMy I c) (vMy I c) hq hqr
      concatenates_S1024x128_S1024x32_S1024x160_d1 hs hv s d
  match r, hh with
  | 0, 0 =>
    exact key 0 0 0 0 0 rfl rfl rfl slices_S1024x512_o0_0_S1024x128 slices_S1024x128_o0_0_S1024x32
      slices_S1024x160_o0_0_S512x160 slices_S1024x128_o0_0_S512x128
  | 1, 0 =>
    exact key 0 1 0 0 512 rfl rfl rfl slices_S1024x512_o0_0_S1024x128 slices_S1024x128_o0_0_S1024x32
      slices_S1024x160_o512_0_S512x160 slices_S1024x128_o512_0_S512x128
  | 0, 1 =>
    exact key 1 0 128 32 0 rfl rfl rfl slices_S1024x512_o0_128_S1024x128 slices_S1024x128_o0_32_S1024x32
      slices_S1024x160_o0_0_S512x160 slices_S1024x128_o0_0_S512x128
  | 1, 1 =>
    exact key 1 1 128 32 512 rfl rfl rfl slices_S1024x512_o0_128_S1024x128 slices_S1024x128_o0_32_S1024x32
      slices_S1024x160_o512_0_S512x160 slices_S1024x128_o512_0_S512x128
  | 0, 2 =>
    exact key 2 0 256 64 0 rfl rfl rfl slices_S1024x512_o0_256_S1024x128 slices_S1024x128_o0_64_S1024x32
      slices_S1024x160_o0_0_S512x160 slices_S1024x128_o0_0_S512x128
  | 1, 2 =>
    exact key 2 1 256 64 512 rfl rfl rfl slices_S1024x512_o0_256_S1024x128 slices_S1024x128_o0_64_S1024x32
      slices_S1024x160_o512_0_S512x160 slices_S1024x128_o512_0_S512x128
  | 0, 3 =>
    exact key 3 0 384 96 0 rfl rfl rfl slices_S1024x512_o0_384_S1024x128 slices_S1024x128_o0_96_S1024x32
      slices_S1024x160_o0_0_S512x160 slices_S1024x128_o0_0_S512x128
  | 1, 3 =>
    exact key 3 1 384 96 512 rfl rfl rfl slices_S1024x512_o0_384_S1024x128 slices_S1024x128_o0_96_S1024x32
      slices_S1024x160_o512_0_S512x160 slices_S1024x128_o512_0_S512x128

/-- Over the projections restricted to head group `g`, head `hh`'s block is the specification's attention output of head `4 g + hh`. -/
theorem attnBlock_eq_kerO (g : Fin 4) (X : Fin 2 → Fin 512 → Fin 2048 → EReal) (Wdkv : Fin 2048 → Fin 512 → EReal)
    (Wuk Wuv : Fin 512 → Fin 2048 → EReal) (Wq : Fin 2048 → Fin 2048 → EReal) (Wqr : Fin 2048 → Fin 512 → EReal)
    (Wkr : Fin 2048 → Fin 32 → EReal) (scale : EReal)
    (Q : FVec Ideal S1024x512 .bf16) (QR : FVec Ideal S1024x128 .bf16) (KR : FVec Ideal S1024x32 .bf16)
    (K V : FVec Ideal S1024x512 .bf16)
    (hQ : ∀ (b : Fin 2) (s : Fin 512) (e : Fin 512), Q (ix2 (row b s) e) = Qp X Wq b s (blk512 g e))
    (hQR : ∀ (b : Fin 2) (s : Fin 512) (q : Fin 128), QR (ix2 (row b s) q) = Qrp X Wqr b s (blk128 g q))
    (hKR : ∀ (b : Fin 2) (s : Fin 512) (r : Fin 32), KR (ix2 (row b s) r) = Krp X Wkr b s r)
    (hK : ∀ (b : Fin 2) (s : Fin 512) (e : Fin 512), K (ix2 (row b s) e) = Kp X Wdkv Wuk b s (blk512 g e))
    (hV : ∀ (b : Fin 2) (s : Fin 512) (e : Fin 512), V (ix2 (row b s) e) = Vp X Wdkv Wuv b s (blk512 g e))
    (hh : Fin 4) (b : Fin 2) (s : Fin 512) (dh : Fin 128) :
    attnBlock Q QR KR K V scale hh b s dh
      = kerO X Wdkv Wuk Wuv Wq Wqr Wkr scale b s (blk512 g (gcol128 hh dh)) := by
  rw [attnBlock_eq_kerAttn]
  unfold kerO
  have hsc : (fun t => qk Q QR KR K hh b s t * scale)
      = fun t => score X Wdkv Wuk Wq Wqr Wkr scale b (hd (blk512 g (gcol128 hh dh))) s t := by
    funext t
    unfold qk score
    rw [hd_blk512]
    congr 2
    · refine Finset.sum_congr rfl fun i _ => ?_
      rw [hQ, hK, col128_head4]
    · refine Finset.sum_congr rfl fun r _ => ?_
      rw [hQR, hKR, col32_head4]
  have hv : (fun t => V (ix2 (row b t) (gcol128 hh dh))) = fun t => Vp X Wdkv Wuv b t (blk512 g (gcol128 hh dh)) := by
    funext t
    rw [hV]
  rw [hsc, hv]

end Cert.MlaKer.Attn
-- ==== Proof.KOwnSpec.lean ====
import proofs.«900571_g7700000000000572_dist_mla_v7x_i4_i_b2_s512_d2048_dc128_f32_1_alg».proof.Proof.KOwn
import proofs.«900571_g7700000000000572_dist_mla_v7x_i4_i_b2_s512_d2048_dc128_f32_1_alg».proof.Proof.KAttn

noncomputable section

namespace Cert.MlaKer

open Cert.MlaSpec Cert.KernelIdeal Cert.KernelIdeal.Gen Idealize.ShloMosaic Idealize.ShloMosaic.ValueIdx

/-- Every column of the group is a lane of one of its four heads, and the slot there holds that head's block. -/
theorem oOwn_eq_kerO (I : Dev nD → Ins Ideal) (g : Dev nD)
    (X : Fin 2 → Fin 512 → Fin 2048 → EReal) (Wdkv : Fin 2048 → Fin 512 → EReal)
    (Wuk Wuv : Fin 512 → Fin 2048 → EReal) (Wq : Fin 2048 → Fin 2048 → EReal) (Wqr : Fin 2048 → Fin 512 → EReal)
    (Wkr : Fin 2048 → Fin 32 → EReal)
    (hq : ∀ (b : Fin 2) (s : Fin 512) (e : Fin 512), q I g (ix2 (flatRow b s) e) = Qp X Wq b s (blk512 g e))
    (hqr : ∀ (b : Fin 2) (s : Fin 512) (j : Fin 128), qr I g (ix2 (flatRow b s) j) = Qrp X Wqr b s (blk128 g j))
    (hkr : ∀ (b : Fin 2) (s : Fin 512) (r : Fin 32), kr I g (ix2 (flatRow b s) r) = Krp X Wkr b s r)
    (hk : ∀ (b : Fin 2) (s : Fin 512) (e : Fin 512), kMy I g (ix2 (flatRow b s) e) = Kp X Wdkv Wuk b s (blk512 g e))
    (hv : ∀ (b : Fin 2) (s : Fin 512) (e : Fin 512), vMy I g (ix2 (flatRow b s) e) = Vp X Wdkv Wuv b s (blk512 g e))
    (b : Fin 2) (s : Fin 512) (e : Fin 512) :
    oOwn I g (ix3 (0 : Fin 1) (flatRow b s) e) = kerO X Wdkv Wuk Wuv Wq Wqr Wkr Attn.scaleW b s (blk512 g e) := by
  obtain ⟨hh, d, rfl⟩ := gcol128_cases e
  rw [oOwn_apply, Attn.oBlk_apply]
  exact Attn.attnBlock_eq_kerO g X Wdkv Wuk Wuv Wq Wqr Wkr Attn.scaleW (q I g) (qr I g) (kr I g) (kMy I g) (vMy I g)
    hq hqr hkr hk hv hh b s d

end Cert.MlaKer
-- ==== Proof.KFinal.lean ====
import proofs.«900571_g7700000000000572_dist_mla_v7x_i4_i_b2_s512_d2048_dc128_f32_1_alg».proof.Proof.KAssemble
import proofs.«900571_g7700000000000572_dist_mla_v7x_i4_i_b2_s512_d2048_dc128_f32_1_alg».proof.Proof.KOwnSpec

noncomputable section

namespace Cert.MlaKer

open Cert.MlaSpec Cert.KernelIdeal Cert.KernelIdeal.Gen Idealize.ShloMosaic Idealize.ShloMosaic.ValueIdx

/-- With each device's arrays the stated pieces of the whole arrays, every device's result is the specification's output. -/
theorem out_eq_kerOut (I : Dev nD → Ins Ideal)
    (X : Fin 2 → Fin 512 → Fin 2048 → EReal) (Wdkv : Fin 2048 → Fin 512 → EReal) (Wuk Wuv : Fin 512 → Fin 2048 → EReal)
    (Wq : Fin 2048 → Fin 2048 → EReal) (Wqr : Fin 2048 → Fin 512 → EReal) (Wkr : Fin 2048 → Fin 32 → EReal)
    (Wo : Fin 2048 → Fin 2048 → EReal)
    (hx : ∀ (c : Dev nD) (b : Fin 2) (s : Fin 512) (d : Fin 2048), (I c).x (ix3 b s d) = X b s d)
    (hwdkv : ∀ (c : Dev nD) (d : Fin 2048) (j : Fin 128), (I c).wdkv (ix2 d j) = Wdkv d (blk128 c j))
    (hwuk : ∀ (c : Dev nD) (j : Fin 128) (e : Fin 2048), (I c).wuk (ix2 j e) = Wuk (blk128 c j) e)
    (hwuv : ∀ (c : Dev nD) (j : Fin 128) (e : Fin 2048), (I c).wuv (ix2 j e) = Wuv (blk128 c j) e)
    (hwkr : ∀ (c : Dev nD) (d : Fin 2048) (r : Fin 32), (I c).wkr (ix2 d r) = Wkr d r)
    (hwqr : ∀ (c : Dev nD) (d : Fin 2048) (q : Fin 512), (I c).wqr (ix2 d q) = Wqr d q)
    (hwq : ∀ (c : Dev nD) (d e : Fin 2048), (I c).wq (ix2 d e) = Wq d e)
    (hwo : ∀ (c : Dev nD) (e o : Fin 2048), (I c).wo (ix2 e o) = Wo e o)
    (c : Dev nD) (b : Fin 2) (s : Fin 512) (o : Fin 2048) :
    out I c (ix3 b s o) = kerOut X Wdkv Wuk Wuv Wq Wqr Wkr Wo (Ideal.ofBits .f32 0x3DA1E89B#32) b s o :=
  out_eq_spec I X Wdkv Wuk Wuv Wq Wqr Wkr Wo (Ideal.ofBits .f32 0x3DA1E89B#32) hwo
    (fun g b s e => oOwn_eq_kerO I g X Wdkv Wuk Wuv Wq Wqr Wkr
      (fun b s e => q_spec hx hwq g b s e) (fun b s j => qr_spec hx hwqr g b s j) (fun b s r => kr_spec hx hwkr g b s r)
      (fun b s e => kMy_spec hx hwdkv hwuk g b s e) (fun b s e => vMy_spec hx hwdkv hwuv g b s e) b s e)
    c b s o

end Cert.MlaKer

end
-- ==== Proof.Proto.lean ====
import proofs.«900571_g7700000000000572_dist_mla_v7x_i4_i_b2_s512_d2048_dc128_f32_1_alg».proof.Proof.Gen.KernelIdeal.Skeleton
import proofs.«900571_g7700000000000572_dist_mla_v7x_i4_i_b2_s512_d2048_dc128_f32_1_alg».proof.Proof.Gen.KernelIdeal.Launch
import proofs.«900571_g7700000000000572_dist_mla_v7x_i4_i_b2_s512_d2048_dc128_f32_1_alg».proof.Proof.Gen.KernelIdeal.Points
import Idealize.ShloMosaic.Lib.Pipeline.Launch
import Idealize.ShloMosaic.Lib.Tactic
import Idealize.ShloMosaic.Lib.Transfers

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

instance ER_landsIn : (ER (F := F)).LandsIn (upEmb : UEmb _ (MT nD τ sig Unit (Elt F) ℕ UU ℕ)) := by unfold ER; infer_instance

-- Device `c` sends to `pe c p`, which is `p + 1` places on round the ring of four, and receives from `og c p`, `p + 1` places back.
def pe (c : Dev nD) (p : Fin 3) : Dev nD := ⟨(c.val + p.val + 1) % 4, Nat.mod_lt _ (by decide)⟩
def og (c : Dev nD) (p : Fin 3) : Dev nD := ⟨(c.val + 3 - p.val) % 4, Nat.mod_lt _ (by decide)⟩

theorem og_pe (c : Dev nD) (p : Fin 3) : og (pe c p) p = c := by revert c p; decide
theorem pe_og (c : Dev nD) (p : Fin 3) : pe (og c p) p = c := by revert c p; decide
theorem pe_inj (c : Dev nD) : Function.Injective (pe c) := by revert c; decide

abbrev A10 : Memref sig .tc .vmem S4x1024x128 .bf16 := Memref.whole cc0_scratch1
abbrev A11 : Memref sig .tc .vmem S128x2048 .bf16 := Memref.whole cc0_scratch2
abbrev A12 : Memref sig .tc .vmem S128x2048 .bf16 := Memref.whole cc0_scratch3
abbrev A13 : Memref sig .tc .vmem S4x128x512 .bf16 := Memref.whole cc0_scratch4
abbrev A14 : Memref sig .tc .vmem S4x128x512 .bf16 := Memref.whole cc0_scratch5
abbrev A15 : Memref sig .tc .vmem S4x1024x512 .bf16 := Memref.whole cc0_scratch6

def cM (d : Dev nD) : Memref sig .tc .vmem S1024x128 .bf16 :=
  (A10.slice (Rect.unit (s := S4x1024x128) (k0_off6 d) S1x1024x128.size (k0_off6_inb d)) (fun _ => rfl)).squeeze S1024x128 squeezes_S1x1024x128_S1024x128
def ukS (d : Dev nD) (p : Fin 3) : Memref sig .tc .vmem S128x512 .bf16 :=
  A11.slice (Rect.unit (s := S128x2048) (k0_off8 d (BitVec.ofNat 32 (1 + p.val))) S128x512.size (k0_off8_inb d p)) (fun _ => rfl)
def uvS (d : Dev nD) (p : Fin 3) : Memref sig .tc .vmem S128x512 .bf16 :=
  A12.slice (Rect.unit (s := S128x2048) (k0_off8 d (BitVec.ofNat 32 (1 + p.val))) S128x512.size (k0_off8_inb d p)) (fun _ => rfl)
def ukD (d : Dev nD) : Memref sig .tc .vmem S128x512 .bf16 :=
  (A13.slice (Rect.unit (s := S4x128x512) (k0_off7 d) S1x128x512.size (k0_off7_inb d)) (fun _ => rfl)).squeeze S128x512 squeezes_S1x128x512_S128x512
def uvD (d : Dev nD) : Memref sig .tc .vmem S128x512 .bf16 :=
  (A14.slice (Rect.unit (s := S4x128x512) (k0_off7 d) S1x128x512.size (k0_off7_inb d)) (fun _ => rfl)).squeeze S128x512 squeezes_S1x128x512_S128x512
def oM (d : Dev nD) : Fin 4 → Memref sig .tc .vmem S1024x128 .bf16
  | 0 => (A15.slice (Rect.unit (s := S4x1024x512) (k0_off14 d) S1x1024x128.size (k0_off14_inb d)) (fun _ => rfl)).squeeze S1024x128 squeezes_S1x1024x128_S1024x128
  | 1 => (A15.slice (Rect.unit (s := S4x1024x512) (k0_off17 d) S1x1024x128.size (k0_off17_inb d)) (fun _ => rfl)).squeeze S1024x128 squeezes_S1x1024x128_S1024x128
  | 2 => (A15.slice (Rect.unit (s := S4x1024x512) (k0_off20 d) S1x1024x128.size (k0_off20_inb d)) (fun _ => rfl)).squeeze S1024x128 squeezes_S1x1024x128_S1024x128
  | 3 => (A15.slice (Rect.unit (s := S4x1024x512) (k0_off23 d) S1x1024x128.size (k0_off23_inb d)) (fun _ => rfl)).squeeze S1024x128 squeezes_S1x1024x128_S1024x128

abbrev barS : Sem sig := (SemArray.scalar (sig.barrier 0 rfl) : Sems sig S_).sem

-- The cells of one device: its barrier cell and, per peer offset, a send and a receive cell for each of the three first-phase items and each of the four second-phase stripes.
inductive CK where
  | bar
  | ps (p t : Fin 3)
  | pr (p t : Fin 3)
  | os (p : Fin 3) (h : Fin 4)
  | orr (p : Fin 3) (h : Fin 4)
  deriving DecidableEq

def psS (p t : Fin 3) : DmaSem sig := ⟨7 + 3 * p.val + t.val, by have := p.isLt; have := t.isLt; decide +revert⟩
def prS (p t : Fin 3) : DmaSem sig := ⟨16 + 3 * p.val + t.val, by have := p.isLt; have := t.isLt; decide +revert⟩
def osS (p : Fin 3) (h : Fin 4) : DmaSem sig := ⟨25 + 4 * p.val + h.val, by have := p.isLt; have := h.isLt; decide +revert⟩
def orS (p : Fin 3) (h : Fin 4) : DmaSem sig := ⟨37 + 4 * p.val + h.val, by have := p.isLt; have := h.isLt; decide +revert⟩

def csem : CK → SemLoc sig
  | .bar => .reg barS
  | .ps p t => .dma (psS p t)
  | .pr p t => .dma (prS p t)
  | .os p h => .dma (osS p h)
  | .orr p h => .dma (orS p h)

def kindOf : SemLoc sig → Option CK
  | .reg s => if s = barS then some .bar else none
  | .dma s =>
    if h : 7 ≤ s.val ∧ s.val < 16 then some (.ps ⟨(s.val - 7) / 3, by omega⟩ ⟨(s.val - 7) % 3, by omega⟩)
    else if h : 16 ≤ s.val ∧ s.val < 25 then some (.pr ⟨(s.val - 16) / 3, by omega⟩ ⟨(s.val - 16) % 3, by omega⟩)
    else if h : 25 ≤ s.val ∧ s.val < 37 then some (.os ⟨(s.val - 25) / 4, by omega⟩ ⟨(s.val - 25) % 4, by omega⟩)
    else if h : 37 ≤ s.val ∧ s.val < 49 then some (.orr ⟨(s.val - 37) / 4, by omega⟩ ⟨(s.val - 37) % 4, by omega⟩)
    else none

theorem kindOf_csem (k : CK) : kindOf (csem k) = some k := by
  cases k with
  | bar => rfl
  | ps p t => revert p t; decide
  | pr p t => revert p t; decide
  | os p h => revert p h; decide
  | orr p h => revert p h; decide

theorem csem_injective : Function.Injective csem := fun a b h => Option.some.inj ((kindOf_csem a).symm.trans ((congrArg kindOf h).trans (kindOf_csem b)))

abbrev cell (c : Dev nD) (k : CK) : GSem nD τ sig := ((c : Thread nD τ), csem k)

structure PVals (F : FTy → Type) where
  cV : Dev nD → S1024x128.Idx → Elt F .bf16
  ukV : Dev nD → Fin 3 → S128x512.Idx → Elt F .bf16
  uvV : Dev nD → Fin 3 → S128x512.Idx → Elt F .bf16
  oV : Dev nD → Fin 4 → S1024x128.Idx → Elt F .bf16

variable (V : PVals F)

def slotAny (c : Dev nD) {s : Shape} (M : Memref sig .tc .vmem s .bf16) : sProp 𝕄 :=
  iprop(∃ f : Buf (Elt F) (M.view.loc (c : Thread nD τ)), M.view.loc (c : Thread nD τ) ↦[M.view.set]{fullShare} f)

def landing (s c : Dev nD) : sProp 𝕄 :=
  iprop(slotAny (F := F) s (cM c) ∗ slotAny (F := F) s (ukD c) ∗ slotAny (F := F) s (uvD c)
    ∗ slotAny (F := F) s (oM c 0) ∗ slotAny (F := F) s (oM c 1) ∗ slotAny (F := F) s (oM c 2) ∗ slotAny (F := F) s (oM c 3))

def qP : Fin 3 → PosShare TreeShare
  | 0 => fullShare.left.left
  | 1 => fullShare.left.right
  | 2 => fullShare.right.left
def qK : PosShare TreeShare := fullShare.right.right

-- What a duty hands over: a barrier unit gives the places its sender's transfers will fill, a send cell gives the lent share of the source back, a receive cell gives the filled place with the sender's value.
def payOf (c : Dev nD) : CK → Fin 3 → sProp 𝕄
  | .bar, p => landing (F := F) (og c p) c
  | .ps p 0, _ => owns (c : Thread nD τ) (cM c) (qP p) (V.cV c)
  | .ps p 1, _ => owns (c : Thread nD τ) (ukS c p) fullShare (V.ukV c p)
  | .ps p 2, _ => owns (c : Thread nD τ) (uvS c p) fullShare (V.uvV c p)
  | .pr p 0, _ => owns (c : Thread nD τ) (cM (og c p)) fullShare (V.cV (og c p))
  | .pr p 1, _ => owns (c : Thread nD τ) (ukD (og c p)) fullShare (V.ukV (og c p) p)
  | .pr p 2, _ => owns (c : Thread nD τ) (uvD (og c p)) fullShare (V.uvV (og c p) p)
  | .os p h, _ => owns (c : Thread nD τ) (oM c h) (qP p) (V.oV c h)
  | .orr p h, _ => owns (c : Thread nD τ) (oM (og c p) h) fullShare (V.oV (og c p) h)

abbrev NC : ℕ := (cM (0 : Dev nD)).view.dmaCredit
abbrev NU : ℕ := (ukD (0 : Dev nD)).view.dmaCredit
abbrev NO : ℕ := (oM (0 : Dev nD) 0).view.dmaCredit

def amtOf : CK → ℕ
  | .bar => 1
  | .ps _ 0 => NC | .ps _ _ => NU
  | .pr _ 0 => NC | .pr _ _ => NU
  | .os _ _ => NO | .orr _ _ => NO

def dutOf : CK → Finset (Fin 3)
  | .bar => Finset.univ
  | _ => {0}

-- Every cell is used for one round only.
def sched : Rounds.Schedule (GSem nD τ sig) (Fin 3) 𝕄 where
  duties g r := if r = 0 ∧ g.1.2 = .tc then (match kindOf g.2 with | some k => dutOf k | none => ∅) else ∅
  amount g _ _ := match kindOf g.2 with | some k => amtOf k | none => 1
  payload g _ d := match kindOf g.2 with | some k => payOf V g.1.1 k d | none => iprop(emp)
  amount_pos g _ _ _ := by
    cases hk : kindOf g.2 with
    | none => exact Nat.one_pos
    | some k =>
      cases k with
      | bar => exact Nat.one_pos
      | ps p t => fin_cases t <;> exact View.dmaCredit_pos _ (by decide)
      | pr p t => fin_cases t <;> exact View.dmaCredit_pos _ (by decide)
      | os p h => exact View.dmaCredit_pos _ (by decide)
      | orr p h => exact View.dmaCredit_pos _ (by decide)

end Cert.KernelIdealProof
end
-- ==== Proof.Data.lean ====
import proofs.«900571_g7700000000000572_dist_mla_v7x_i4_i_b2_s512_d2048_dc128_f32_1_alg».proof.Proof.Proto
import proofs.«900571_g7700000000000572_dist_mla_v7x_i4_i_b2_s512_d2048_dc128_f32_1_alg».proof.Proof.Gen.KernelIdeal.Frame

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (V : PVals F)
variable (outV : Dev nD → (cc0_stg6_0 : Ref sig .tc).ty.Contents (Elt F))

def s₀ : MemSt nD τ sig (Elt F) := ⟨m, fun _ => 0, ρ⟩

instance : Fintype CK :=
  Fintype.ofEquiv (Unit ⊕ (Fin 3 × Fin 3) ⊕ (Fin 3 × Fin 3) ⊕ (Fin 3 × Fin 4) ⊕ (Fin 3 × Fin 4))
    { toFun := fun
        | .inl _ => .bar
        | .inr (.inl (p, t)) => .ps p t
        | .inr (.inr (.inl (p, t))) => .pr p t
        | .inr (.inr (.inr (.inl (p, h)))) => .os p h
        | .inr (.inr (.inr (.inr (p, h)))) => .orr p h
      invFun := fun
        | .bar => .inl ()
        | .ps p t => .inr (.inl (p, t))
        | .pr p t => .inr (.inr (.inl (p, t)))
        | .os p h => .inr (.inr (.inr (.inl (p, h))))
        | .orr p h => .inr (.inr (.inr (.inr (p, h))))
      left_inv := fun x => by rcases x with _ | ⟨_, _⟩ | ⟨_, _⟩ | ⟨_, _⟩ | ⟨_, _⟩ <;> rfl
      right_inv := fun k => by cases k <;> rfl }

def Obar (c : Dev nD) : CellTallies nD τ sig Unit :=
  tallyAt (cell (pe c 0) .bar) () 1 + tallyAt (cell (pe c 1) .bar) () 1 + tallyAt (cell (pe c 2) .bar) () 1
def Op1 (c : Dev nD) (p : Fin 3) : CellTallies nD τ sig Unit :=
  tallyAt (cell (pe c p) (.pr p 0)) () NC + tallyAt (cell (pe c p) (.pr p 1)) () NU + tallyAt (cell (pe c p) (.pr p 2)) () NU
def Oo (c : Dev nD) (h : Fin 4) : CellTallies nD τ sig Unit :=
  tallyAt (cell (pe c 0) (.orr 0 h)) () NO + tallyAt (cell (pe c 1) (.orr 1 h)) () NO + tallyAt (cell (pe c 2) (.orr 2 h)) () NO
def Ooall (c : Dev nD) : CellTallies nD τ sig Unit := Oo c 0 + Oo c 1 + Oo c 2 + Oo c 3
-- What device `c` owes at launch: one unit to each peer's barrier cell and the credit of each of its 21 transfers to the cell that receives it.
def O₀ (c : Dev nD) : CellTallies nD τ sig Unit := Ooall c + (Op1 c 0 + Op1 c 1 + Op1 c 2) + Obar c

def L (g : GSem nD τ sig) : Finset Unit := if g.1.2 = .tc then {()} else ∅
-- The levels order the waits: barrier cells at 1, first-phase receive cells at 2, second-phase receive cells at 3, every other cell at 0.
def lv (g : GSem nD τ sig) (_ : Unit) : ℕ :=
  match kindOf g.2 with
  | some .bar => 1
  | some (.pr _ _) => 2
  | some (.orr _ _) => 3
  | _ => 0

-- Every protocol cell's invariant and the mark that its round 0 is reached: persistent, shared by all devices.
def records (K : Dev nD × CK → ℕ) : sProp 𝕄 :=
  iprop((bigSep Finset.univ fun ck : Dev nD × CK => cellInv ER (sched V) (K ck) (cell ck.1 ck.2))
    ∗ bigSep Finset.univ fun ck : Dev nD × CK => reached ER (cell ck.1 ck.2) 0)

instance records_persistent (K : Dev nD × CK → ℕ) : BI.Persistent (records (F := F) V K) := by unfold records; infer_instance

def payToks (c : Dev nD) : sProp 𝕄 :=
  iprop((bigSep Finset.univ fun p : Fin 3 => dutyTok ER (cell (pe c p) .bar) 0 p)
    ∗ (bigSep Finset.univ fun pt : Fin 3 × Fin 3 => dutyTok ER (cell (pe c pt.1) (.pr pt.1 pt.2)) 0 (0 : Fin 3))
    ∗ (bigSep Finset.univ fun ph : Fin 3 × Fin 4 => dutyTok ER (cell (pe c ph.1) (.orr ph.1 ph.2)) 0 (0 : Fin 3))
    ∗ (bigSep Finset.univ fun pt : Fin 3 × Fin 3 => dutyTok ER (cell c (.ps pt.1 pt.2)) 0 (0 : Fin 3))
    ∗ (bigSep Finset.univ fun ph : Fin 3 × Fin 4 => dutyTok ER (cell c (.os ph.1 ph.2)) 0 (0 : Fin 3)))

def linear (c : Dev nD) : sProp 𝕄 :=
  iprop((bigSep Finset.univ fun k : CK => atPos ER (cell c k) 0 ∅ 0) ∗ payToks (F := F) c)

def creds (c : Dev nD) : sProp 𝕄 :=
  iprop(cred (tallyAt (cell c .bar) () 3)
    ∗ (bigSep Finset.univ fun pt : Fin 3 × Fin 3 => cred (tallyAt (cell c (.pr pt.1 pt.2)) () (amtOf (.pr pt.1 pt.2))))
    ∗ (bigSep Finset.univ fun ph : Fin 3 × Fin 4 => cred (tallyAt (cell c (.orr ph.1 ph.2)) () NO)))

def start (c : Dev nD) : sProp 𝕄 :=
  iprop((∃ K, records V K ∗ linear (F := F) c) ∗ creds (F := F) c ∗ levAts L lv)

abbrev wqS : DmaSem sig := (cc0_scratch13 : DmaSems sig S_).sem
abbrev woS : DmaSem sig := (cc0_scratch14 : DmaSems sig S_).sem

abbrev osem : Fin 44 → SemLoc sig := fun k => .dma ⟨7 + k.val, by have := k.isLt; decide +revert⟩

def localSems (c : Dev nD) : sProp 𝕄 :=
  iprop(semVal ((c : Thread nD τ), .dma wqS) 0 ∗ semVal ((c : Thread nD τ), .dma woS) 0)

def hbmIn (c : Dev nD) : sProp 𝕄 :=
  iprop((((c : Thread nD τ).loc main_arg4) ↦{fullShare} m ((c : Thread nD τ).loc main_arg4))
    ∗ (((c : Thread nD τ).loc main_arg7) ↦{fullShare} m ((c : Thread nD τ).loc main_arg7)))

def scratchAny (c : Dev nD) : sProp 𝕄 :=
  Pipeline.scopedRest (Ix := Unit) (Name := ℕ) (U := UU) (Lvl := ℕ) (Val := Elt F) cfg0.spec c

def Φ₀ (c : Dev nD) : sProp 𝕄 := iprop(start V c ∗ localSems (F := F) c ∗ hbmIn m c ∗ scratchAny (F := F) c)
def Φ₁ (c : Dev nD) : sProp 𝕄 :=
  iprop(hbmIn m c ∗ scratchAny (F := F) c ∗ Pipeline.ownSems0 (Ix := Unit) (Name := ℕ) (U := UU) (Lvl := ℕ) (Val := Elt F) (τ := τ) osem c)

def dats (_ : Fin 1) (c : Dev nD) : Dat τ (Elt F) Unit ℕ UU ℕ cfg0 c where
  A w := (s₀ m ρ).mem ((cfg0.win w).arr.view.loc (c : Thread nD τ))
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outV c
  Φ t := match t with
    | ⟨0, _⟩ => Φ₀ m V c
    | ⟨_ + 1, _⟩ => Φ₁ m c
  q _ := fullShare
  owed t := match t with
    | ⟨0, _⟩ => O₀ c
    | ⟨_ + 1, _⟩ => 0

abbrev 𝒱₀ : Variants := Variants.none

end Cert.KernelIdealProof
end
-- ==== Proof.FinalArrays.lean ====
import proofs.«900571_g7700000000000572_dist_mla_v7x_i4_i_b2_s512_d2048_dc128_f32_1_alg».proof.Proof.Data
import Idealize.ShloMosaic.Lib.Pipeline.Cells

noncomputable section

namespace Cert.KernelIdealProof

open Cert.KernelIdeal Cert.KernelIdeal.Gen
open Idealize.ShloMosaic
open Idealize.ShloMosaic.TcCoe
open Idealize.SL Idealize.SL.Sem
open Idealize.ShloMosaic.Pipeline (Dat Cfg Window)

theorem finalA_in {F : FTy → Type} [FloatOps F] (m : (ℓ : Loc nD τ sig) → Buf (Elt F) ℓ) (ρ : Dev nD → PrngReg)
    (V : PVals F) (outV : Dev nD → (cc0_stg6_0 : Ref sig .tc).ty.Contents (Elt F))
    (c : Dev nD) (w : Fin cfg0.W) (hin : (cfg0.win w).isOut = false) :
    (dats m ρ V outV 0 c).arrAt w cfg0.N = m ((cfg0.win w).arr.view.loc (c : Thread nD τ)) :=
  (dats m ρ V outV 0 c).arrAt_in w hin cfg0.N

theorem finalA_out {F : FTy → Type} [FloatOps F] (m : (ℓ : Loc nD τ sig) → Buf (Elt F) ℓ) (ρ : Dev nD → PrngReg)
    (V : PVals F) (outV : Dev nD → (cc0_stg6_0 : Ref sig .tc).ty.Contents (Elt F)) (c : Dev nD) :
    (dats m ρ V outV 0 c).arrAt 6 cfg0.N = outV c := by
  have h1 := (dats m ρ V outV 0 c).arrAt_succ 6 t0_0
  rw [flush0_6 t0_0, if_pos rfl] at h1
  refine h1.trans ?_
  exact Memref.write_access_unit_zero_univ (Elt F) main_v1 (funext fun a => Nat.zero_mul _) _ _ _

theorem post_of {F : FTy → Type} [FloatOps F] (m : (ℓ : Loc nD τ sig) → Buf (Elt F) ℓ) (ρ : Dev nD → PrngReg)
    (V : PVals F) (outV : Dev nD → (cc0_stg6_0 : Ref sig .tc).ty.Contents (Elt F))
    (r : PUnit × MemSt nD τ sig (Elt F)) (c : Dev nD)
    (h : (∀ w : Fin cfg0.W, r.2.mem ((cfg0.win w).arr.view.loc (c : Thread nD τ)) = (dats m ρ V outV 0 c).arrAt w cfg0.N)
      ∧ r.2.mem ((c : Thread nD τ).loc main_arg4) = m ((c : Thread nD τ).loc main_arg4)
      ∧ r.2.mem ((c : Thread nD τ).loc main_arg7) = m ((c : Thread nD τ).loc main_arg7)) :
    r.2.mem ((c : Thread nD τ).loc main_v1) = outV c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) :=
  ⟨(h.1 6).trans (finalA_out m ρ V outV c),
    (h.1 0).trans (finalA_in m ρ V outV c 0 rfl),
    (h.1 1).trans (finalA_in m ρ V outV c 1 rfl),
    (h.1 2).trans (finalA_in m ρ V outV c 2 rfl),
    (h.1 3).trans (finalA_in m ρ V outV c 3 rfl),
    h.2.1,
    (h.1 5).trans (finalA_in m ρ V outV c 5 rfl),
    (h.1 4).trans (finalA_in m ρ V outV c 4 rfl),
    h.2.2⟩

end Cert.KernelIdealProof

end
-- ==== Proof.LaunchGhost.lean ====
import proofs.«900571_g7700000000000572_dist_mla_v7x_i4_i_b2_s512_d2048_dc128_f32_1_alg».proof.Proof.Data

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : PVals F)

abbrev kcell (ck : Dev nD × CK) : GSem nD τ sig := cell ck.1 ck.2

theorem kcell_injective : Function.Injective (kcell : Dev nD × CK → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

def protoCells : Finset (GSem nD τ sig) := Finset.univ.map ⟨kcell, kcell_injective⟩

abbrev TI : Type := Fin 3 ⊕ (Fin 3 × Fin 3) ⊕ (Fin 3 × Fin 4) ⊕ (Fin 3 × Fin 3) ⊕ (Fin 3 × Fin 4)

def tkK : TI → CK × Fin 3
  | .inl p => (.bar, p)
  | .inr (.inl pt) => (.pr pt.1 pt.2, 0)
  | .inr (.inr (.inl ph)) => (.orr ph.1 ph.2, 0)
  | .inr (.inr (.inr (.inl pt))) => (.ps pt.1 pt.2, 0)
  | .inr (.inr (.inr (.inr ph))) => (.os ph.1 ph.2, 0)

theorem tkK_injective : Function.Injective tkK := by
  rintro (a | ⟨a1, a2⟩ | ⟨a1, a2⟩ | ⟨a1, a2⟩ | ⟨a1, a2⟩) (b | ⟨b1, b2⟩ | ⟨b1, b2⟩ | ⟨b1, b2⟩ | ⟨b1, b2⟩) h <;> cases h <;> rfl

def tokOf (ci : Dev nD × TI) : GSem nD τ sig × ℕ × Fin 3 := (cell ci.1 (tkK ci.2).1, 0, (tkK ci.2).2)

theorem tokOf_injective : Function.Injective (tokOf : Dev nD × TI → GSem nD τ sig × ℕ × Fin 3) := by
  rintro ⟨c, i⟩ ⟨c', i'⟩ h
  have h1 : c = c' := congrArg (fun x : GSem nD τ sig × ℕ × Fin 3 => x.1.1.1) h
  subst h1
  have hk : (tkK i).1 = (tkK i').1 := csem_injective (congrArg (fun x : GSem nD τ sig × ℕ × Fin 3 => x.1.2) h)
  have hd : (tkK i).2 = (tkK i').2 := congrArg (fun x : GSem nD τ sig × ℕ × Fin 3 => x.2.2) h
  have h2 : i = i' := tkK_injective (Prod.ext hk hd)
  subst h2; rfl

def protoToks : Finset (GSem nD τ sig × ℕ × Fin 3) := Finset.univ.map ⟨tokOf, tokOf_injective⟩

def u₀ : UU :=
  (initOf (Pipeline.cells cfgs cellOf_inj) (Pipeline.launchToks cfgs cellOf_inj), (initOf protoCells protoToks, 1))

def toks (c : Dev nD) : sProp 𝕄 :=
  iprop((bigSep Finset.univ fun p : Fin 3 => dutyTok ER (cell c .bar) 0 p)
    ∗ (bigSep Finset.univ fun pt : Fin 3 × Fin 3 => dutyTok ER (cell c (.pr pt.1 pt.2)) 0 (0 : Fin 3))
    ∗ (bigSep Finset.univ fun ph : Fin 3 × Fin 4 => dutyTok ER (cell c (.orr ph.1 ph.2)) 0 (0 : Fin 3))
    ∗ (bigSep Finset.univ fun pt : Fin 3 × Fin 3 => dutyTok ER (cell c (.ps pt.1 pt.2)) 0 (0 : Fin 3))
    ∗ (bigSep Finset.univ fun ph : Fin 3 × Fin 4 => dutyTok ER (cell c (.os ph.1 ph.2)) 0 (0 : Fin 3)))

def G (c : Dev nD) : sProp 𝕄 :=
  iprop((bigSep Finset.univ fun k : CK => roundState ER (sched V) (cell c k) 0)
    ∗ (bigSep Finset.univ fun k : CK => iprop(atPos ER (cell c k) 0 ∅ 0 ∗ reached ER (cell c k) 0)) ∗ toks (F := F) c)

def G' (c : Dev nD) : sProp 𝕄 := iprop((∃ K, records V K ∗ linear (F := F) c) ∗ localSems (F := F) c)

theorem bigSep_cells (Φ : GSem nD τ sig → sProp 𝕄) :
    bigSep protoCells Φ = bigSep Finset.univ fun c : Dev nD => bigSep Finset.univ fun k : CK => Φ (cell c k) := by
  unfold protoCells; rw [bigSep_map, bigSep_univ_prod]; rfl

theorem bigSep_toks :
    bigSep protoToks (fun x => (dutyTok ER x.1 x.2.1 x.2.2 : sProp 𝕄)) = bigSep Finset.univ fun c : Dev nD => toks (F := F) c := by
  unfold protoToks; rw [bigSep_map, bigSep_univ_prod]
  exact bigSep_congr fun c _ => by
    unfold toks
    rw [bigSep_univ_sum, bigSep_univ_sum, bigSep_univ_sum, bigSep_univ_sum]
    rfl

theorem fund_proto : BI.own (ER (initOf protoCells protoToks)) ⊢ (|==> bigSep Finset.univ (G V) : sProp 𝕄) := by
  iintro HX
  imod (Rounds.fund ER (sched V) protoCells protoToks) $$ HX with ⟨Hst, Hr, Hat, Htok⟩
  imodintro
  ihave Hst' := (Entails.of_eq (bigSep_cells fun g => roundState ER (sched V) g 0)) $$ Hst
  ihave Hat' := (Entails.of_eq (bigSep_cells (F := F) fun g => atPos ER g 0 ∅ 0)) $$ Hat
  ihave Hr' := (Entails.of_eq (bigSep_cells (F := F) fun g => reached ER g 0)) $$ Hr
  ihave Htok' := (Entails.of_eq (bigSep_toks (F := F))) $$ Htok
  unfold G; simp only [bigSep_sep']
  iframe

instance slotAny_storable (c : Dev nD) {s : Shape} (M : Memref sig .tc .vmem s .bf16) :
    BI.Storable (upEmb : UEmb _ 𝕄) (slotAny (F := F) c M) := by unfold slotAny; infer_instance

instance landing_storable (s c : Dev nD) : BI.Storable (upEmb : UEmb _ 𝕄) (landing (F := F) s c) := by unfold landing; infer_instance

instance payOf_storable (c : Dev nD) (k : CK) (d : Fin 3) : BI.Storable (upEmb : UEmb _ 𝕄) (payOf V c k d) := by
  unfold payOf; split <;> infer_instance

instance sched_payload_storable (g : GSem nD τ sig) (r : ℕ) (d : Fin 3) :
    BI.Storable (upEmb : UEmb _ 𝕄) ((sched V).payload g r d) := by
  show BI.Storable upEmb (match kindOf g.2 with | some k => payOf V g.1.1 k d | none => iprop(emp))
  split <;> infer_instance

theorem ownSemFacts : Pipeline.OwnSemFacts cfg0.spec osem := by decide

theorem unscoped_eq : (Finset.univ.filter fun sm : SemLoc sig => ¬ sm.isScoped .tc) = {SemLoc.reg barS} := by decide

theorem sems_eq : insert (SemLoc.reg barS) (Finset.univ.map ⟨osem, ownSemFacts.inj⟩)
    = insert (SemLoc.dma wqS) (insert (SemLoc.dma woS) (Finset.univ.map ⟨csem, csem_injective⟩)) := by decide
theorem bar_notin : SemLoc.reg barS ∉ Finset.univ.map ⟨osem, ownSemFacts.inj⟩ := by decide
theorem wq_notin : SemLoc.dma wqS ∉ insert (SemLoc.dma woS) (Finset.univ.map ⟨csem, csem_injective⟩) := by decide
theorem wo_notin : SemLoc.dma woS ∉ Finset.univ.map ⟨csem, csem_injective⟩ := by decide

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CK => semVal (cell c k) 0) ∗ localSems (F := F) c) : sProp 𝕄) := by
  have key : (iprop(semVal ((c : Thread nD τ), SemLoc.reg barS) 0 ∗ bigSep Finset.univ fun k => semVal ((c : Thread nD τ), osem k) 0) : sProp 𝕄)
      = iprop(semVal ((c : Thread nD τ), SemLoc.dma wqS) 0 ∗ semVal ((c : Thread nD τ), SemLoc.dma woS) 0 ∗ bigSep Finset.univ fun k : CK => semVal (cell c k) 0) := by
    have e := congrArg (fun S => (bigSep S fun s => semVal ((c : Thread nD τ), s) 0 : sProp 𝕄)) sems_eq
    simp only [bigSep_insert bar_notin, bigSep_insert wq_notin, bigSep_insert wo_notin, bigSep_map] at e
    exact e
  unfold Pipeline.ownSems0 unscopedSems0 localSems
  rw [unscoped_eq, bigSep_singleton]
  iintro ⟨Ho, Hb⟩
  ihave H := (Entails.of_eq key) $$ [Ho Hb]
  · iframe
  icases H with ⟨Hq, Hw, Hc⟩
  iframe

theorem core_alloc (c : Dev nD) :
    iprop(Pipeline.ownSems0 (Ix := Unit) (Name := ℕ) (U := UU) (Lvl := ℕ) (Val := Elt F) (τ := τ) osem c ∗ unscopedSems0 c ∗ G V c)
      ⊢ |={Set.univ}=> iprop((bigSep Finset.univ fun k : CK => iprop(∃ κ : ℕ, cellInv ER (sched V) κ (cell c k)))
          ∗ (bigSep Finset.univ fun k : CK => iprop(atPos ER (cell c k) 0 ∅ 0 ∗ reached ER (cell c k) 0))
          ∗ toks (F := F) c ∗ localSems (F := F) c) := by
  unfold G
  iintro ⟨Hos, Hus, Hst, Hat, Htok⟩
  ihave Hv := (sems0_eq (F := F) c) $$ [Hos Hus]
  · iframe
  icases Hv with ⟨Hv, Hloc⟩
  imod (show iprop((bigSep Finset.univ fun k : CK => semVal (cell c k) 0) ∗ bigSep Finset.univ fun k : CK => roundState ER (sched V) (cell c k) 0)
      ⊢ (|={Set.univ}=> bigSep Finset.univ fun k : CK => iprop(∃ κ : ℕ, cellInv ER (sched V) κ (cell c k)) : sProp 𝕄) from by
        rw [← bigSep_sep']
        exact (bigSep_mono fun k _ => (Rounds.body_intro ER (sched V) (cell c k)).trans inv_alloc).trans (bigSep_fupd _ _)) $$ [Hv Hst] with Hinv
  · iframe
  imodintro
  iframe

def around {B : Type} (π : B → Fin 3) : Dev nD × B ≃ Dev nD × B where
  toFun x := (pe x.1 (π x.2), x.2)
  invFun x := (og x.1 (π x.2), x.2)
  left_inv x := by rcases x with ⟨c, b⟩; exact Prod.ext (og_pe c (π b)) rfl
  right_inv x := by rcases x with ⟨c, b⟩; exact Prod.ext (pe_og c (π b)) rfl

-- What each owner mints, summed over the owners, is what each device holds of the owner `π b` places on.
theorem deal {B : Type} [Fintype B] (π : B → Fin 3) (f : Dev nD → B → sProp 𝕄) :
    (bigSep Finset.univ fun c : Dev nD => bigSep Finset.univ fun b : B => f c b)
      = bigSep Finset.univ fun c : Dev nD => bigSep Finset.univ fun b : B => f (pe c (π b)) b := by
  rw [← bigSep_univ_prod (fun x : Dev nD × B => f x.1 x.2), bigSep_univ_equiv (around π), bigSep_univ_prod]; rfl

theorem toks_around : (bigSep Finset.univ fun c : Dev nD => (toks (F := F) c : sProp 𝕄)) ⊢ bigSep Finset.univ fun c : Dev nD => payToks (F := F) c := by
  unfold toks payToks
  rw [bigSep_sep', bigSep_sep', bigSep_sep', bigSep_sep', bigSep_sep', bigSep_sep', bigSep_sep', bigSep_sep',
    deal (fun p : Fin 3 => p) (fun c p => (dutyTok ER (cell c .bar) 0 p : sProp 𝕄)),
    deal (fun pt : Fin 3 × Fin 3 => pt.1) (fun c pt => (dutyTok ER (cell c (.pr pt.1 pt.2)) 0 (0 : Fin 3) : sProp 𝕄)),
    deal (fun ph : Fin 3 × Fin 4 => ph.1) (fun c ph => (dutyTok ER (cell c (.orr ph.1 ph.2)) 0 (0 : Fin 3) : sProp 𝕄))]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (sched V) κ (cell c k)))
          ∗ (bigSep Finset.univ fun k : CK => iprop(atPos ER (cell c k) 0 ∅ 0 ∗ reached ER (cell c k) 0))
          ∗ toks (F := F) c ∗ localSems (F := F) c) : sProp 𝕄)
      ⊢ bigSep Finset.univ (G' V) := by
  rw [bigSep_sep', bigSep_sep', bigSep_sep',
    ← bigSep_univ_prod (fun ck : Dev nD × CK => iprop(∃ κ : ℕ, cellInv ER (sched V) κ (cell ck.1 ck.2))),
    bigSep_congr (s := Finset.univ) (fun (c : Dev nD) _ => bigSep_sep' Finset.univ (fun k : CK => (atPos ER (cell c k) 0 ∅ 0 : sProp 𝕄)) (fun k => reached ER (cell c k) 0)),
    bigSep_sep', ← bigSep_univ_prod (fun ck : Dev nD × CK => (reached ER (cell ck.1 ck.2) 0 : sProp 𝕄))]
  iintro ⟨HI, ⟨Hat, #HR⟩, Htok, Hloc⟩
  ihave HK := (BI.bigSep_exists_pi Finset.univ (fun (ck : Dev nD × CK) (κ : ℕ) => (cellInv ER (sched V) κ (cell ck.1 ck.2) : sProp 𝕄))) $$ HI
  icases HK with ⟨%K, #HI⟩
  ihave Htk := (toks_around (F := F)) $$ Htok
  iapply (bigSep_with_persistent (R := records V K) (Φ := fun c : Dev nD => iprop(linear (F := F) c ∗ localSems (F := F) c)) fun c _ => by
    unfold G'
    iintro ⟨#HR, Hl, Hs⟩
    isplitl [Hl]
    · iexists K; isplitr; · iexact HR
      iexact Hl
    · iexact Hs)
  isplitr
  · unfold records; iframe #
  · unfold linear; rw [bigSep_sep', bigSep_sep']; iframe

-- Every cell's invariant is allocated from its semaphore at zero and its round state, and the tokens go to the devices that pay them.
theorem glob : (bigSep Finset.univ fun c => iprop(Pipeline.ownSems0 (Ix := Unit) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => core_alloc V c).trans (bigSep_fupd _ _)).trans (BI.fupd_mono (regroup V))

theorem launch_elem : (ownU u₀ : sProp 𝕄)
    ⊢ |={Set.univ}=> iprop(BI.own (EP (initOf (Pipeline.cells cfgs cellOf_inj) (Pipeline.launchToks cfgs cellOf_inj))) ∗ bigSep Finset.univ (G V)) := by
  unfold u₀
  iintro Hu
  ihave H := (ownU_pair _ _) $$ Hu
  icases H with ⟨HP, HX⟩
  ihave H2 := (own_pair_emb embR (initOf protoCells protoToks) (1 : Counters)) $$ HX
  icases H2 with ⟨HR, -⟩
  imod (fund_proto V) $$ HR with HG
  imodintro
  iframe

/-- info: 'Cert.KernelIdealProof.glob' depends on axioms: [propext, Classical.choice, Quot.sound] -/
#guard_msgs in #print axioms glob
/-- info: 'Cert.KernelIdealProof.launch_elem' depends on axioms: [propext, Classical.choice, Quot.sound] -/
#guard_msgs in #print axioms launch_elem

end Cert.KernelIdealProof
end
-- ==== Proof.LaunchCredit.lean ====
import proofs.«900571_g7700000000000572_dist_mla_v7x_i4_i_b2_s512_d2048_dc128_f32_1_alg».proof.Proof.Data

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def Op1all (c : Dev nD) : CellTallies nD τ sig Unit := Op1 c 0 + Op1 c 1 + Op1 c 2

theorem Obar_eq (c : Dev nD) : Obar c = ∑ p : Fin 3, tallyAt (cell (pe c p) .bar) () 1 := by
  rw [Fin.sum_univ_three]; rfl

theorem Op1all_eq (c : Dev nD) :
    Op1all c = ∑ pt : Fin 3 × Fin 3, tallyAt (cell (pe c pt.1) (.pr pt.1 pt.2)) () (amtOf (.pr pt.1 pt.2)) := by
  rw [Fintype.sum_prod_type, Fin.sum_univ_three]
  simp only [Fin.sum_univ_three]
  rfl

theorem Ooall_eq (c : Dev nD) :
    Ooall c = ∑ ph : Fin 3 × Fin 4, tallyAt (cell (pe c ph.1) (.orr ph.1 ph.2)) () NO := by
  rw [Fintype.sum_prod_type_right, Fin.sum_univ_four]
  simp only [Fin.sum_univ_three]
  rfl

theorem pos_add_left {A B : CellTallies nD τ sig Unit} {g : GSem nD τ sig} {u : Unit} (h : 0 < A g u) : 0 < (A + B) g u := by
  rw [Pi.add_apply, Finsupp.add_apply]; exact Nat.add_pos_left h _

theorem Ooall_pos_O₀ {c : Dev nD} {g : GSem nD τ sig} {u : Unit} (hg : 0 < Ooall c g u) : 0 < O₀ c g u :=
  pos_add_left (pos_add_left hg)

-- If every device owes `n` units to cell `k` of the device `p` places on, then device `c` is dealt `n` units of credit on its own cell `k`.
theorem launchCred_cell (k : CK) (p : Fin 3) (n : ℕ) (c : Dev nD) :
    (Pipeline.launchCred (fun d => tallyAt (cell (pe d p) k) () n) c : sProp 𝕄) ⊢ cred (tallyAt (cell c k) () n) :=
  Pipeline.launchCred_tallyAt (csem k) (fun d => pe d p) (fun c => og c p) (fun c => pe_og c p) (fun d => og_pe d p) () n c

theorem launchCred_Obar (c : Dev nD) : (Pipeline.launchCred Obar c : sProp 𝕄) ⊢ cred (tallyAt (cell c .bar) () 3) := by
  rw [show (Obar : Dev nD → CellTallies nD τ sig Unit) = fun d => ∑ p : Fin 3, tallyAt (cell (pe d p) .bar) () 1 from funext Obar_eq,
    Pipeline.launchCred_sum]
  refine (bigSep_mono fun p _ => launchCred_cell .bar p 1 c).trans ?_
  rw [← Pipeline.cred_finsetSum, Fin.sum_univ_three, tallyAt_add, tallyAt_add]
  exact Entails.refl _

theorem launchCred_Op1all (c : Dev nD) :
    (Pipeline.launchCred Op1all c : sProp 𝕄)
      ⊢ bigSep Finset.univ fun pt : Fin 3 × Fin 3 => cred (tallyAt (cell c (.pr pt.1 pt.2)) () (amtOf (.pr pt.1 pt.2))) := by
  rw [show (Op1all : Dev nD → CellTallies nD τ sig Unit)
      = fun d => ∑ pt : Fin 3 × Fin 3, tallyAt (cell (pe d pt.1) (.pr pt.1 pt.2)) () (amtOf (.pr pt.1 pt.2)) from funext Op1all_eq,
    Pipeline.launchCred_sum]
  exact bigSep_mono fun pt _ => launchCred_cell (.pr pt.1 pt.2) pt.1 _ c

theorem launchCred_Ooall (c : Dev nD) :
    (Pipeline.launchCred Ooall c : sProp 𝕄)
      ⊢ bigSep Finset.univ fun ph : Fin 3 × Fin 4 => cred (tallyAt (cell c (.orr ph.1 ph.2)) () NO) := by
  rw [show (Ooall : Dev nD → CellTallies nD τ sig Unit)
      = fun d => ∑ ph : Fin 3 × Fin 4, tallyAt (cell (pe d ph.1) (.orr ph.1 ph.2)) () NO from funext Ooall_eq,
    Pipeline.launchCred_sum]
  exact bigSep_mono fun ph _ => launchCred_cell (.orr ph.1 ph.2) ph.1 NO c

theorem launch_creds (c : Dev nD) : (Pipeline.launchCred O₀ c : sProp 𝕄) ⊢ creds (F := F) c := by
  rw [show (O₀ : Dev nD → CellTallies nD τ sig Unit) = fun d => (Ooall d + Op1all d) + Obar d from rfl,
    Pipeline.launchCred_add (fun d => Ooall d + Op1all d) Obar c, Pipeline.launchCred_add Ooall Op1all c]
  unfold creds
  iintro ⟨⟨Ho, Hp⟩, Hb⟩
  isplitl [Hb]; · iapply (launchCred_Obar (F := F) c); iexact Hb
  isplitl [Hp]; · iapply (launchCred_Op1all (F := F) c); iexact Hp
  iapply (launchCred_Ooall (F := F) c); iexact Ho

theorem L_of_ne (g : GSem nD τ sig) (h : g.1.2 ≠ .tc) : L g = ∅ := if_neg h
theorem L_tc (c : Dev nD) (sm : SemLoc sig) : L ((c : Thread nD τ), sm) = {()} := if_pos rfl

theorem lv_cell (d : Dev nD) (k : CK) (u : Unit) :
    lv (cell d k) u = match k with | .bar => 1 | .pr _ _ => 2 | .orr _ _ => 3 | _ => 0 := by
  unfold lv
  rw [show (cell d k).2 = csem k from rfl, kindOf_csem]
  cases k <;> rfl

-- A transfer semaphore that is no protocol cell is at level 0.
theorem lv_dma_other (t : Thread nD τ) (q : DmaSem sig) (hq : q.val < 7 ∨ 49 ≤ q.val) (u : Unit) : lv (t, .dma q) u = 0 := by
  have hk : kindOf (.dma q) = none := by
    dsimp only [kindOf]
    rw [dif_neg (show ¬ (7 ≤ q.val ∧ q.val < 16) by omega), dif_neg (show ¬ (16 ≤ q.val ∧ q.val < 25) by omega),
      dif_neg (show ¬ (25 ≤ q.val ∧ q.val < 37) by omega), dif_neg (show ¬ (37 ≤ q.val ∧ q.val < 49) by omega)]
  unfold lv
  rw [show ((t, SemLoc.dma q) : GSem nD τ sig).2 = .dma q from rfl, hk]

-- A positive sum of dues to cells `k i` of the devices `π i` places on sits on one of those cells, so above any level below all of theirs.
theorem sum_above {ι : Type} [Fintype ι] {π : ι → Fin 3} {k : ι → CK} {n : ι → ℕ} {c : Dev nD} {b : ℕ}
    (hb : ∀ i d u, b < lv (cell d (k i)) u) {g : GSem nD τ sig} {u : Unit}
    (h : 0 < (∑ i, tallyAt (cell (pe c (π i)) (k i)) () (n i)) g u) : g.1.2 = .tc ∧ b < lv g u := by
  obtain ⟨i, -, hi⟩ := Pipeline.sum_pos_exists h
  rw [(Pipeline.tallyAt_pos hi).1]; exact ⟨rfl, hb i _ _⟩

theorem Ooall_above {c : Dev nD} {g : GSem nD τ sig} {u : Unit} (h : 0 < Ooall c g u) : g.1.2 = .tc ∧ 2 < lv g u := by
  rw [Ooall_eq] at h; exact sum_above (fun _ _ _ => by rw [lv_cell]; exact Nat.lt_succ_self 2) h

theorem xfer_above {c : Dev nD} {g : GSem nD τ sig} {u : Unit} (h : 0 < (Ooall c + Op1all c) g u) : g.1.2 = .tc ∧ 1 < lv g u := by
  rcases Pipeline.add_pos_cases h with h | h
  · exact ⟨(Ooall_above h).1, Nat.lt_of_succ_lt (Ooall_above h).2⟩
  · rw [Op1all_eq] at h; exact sum_above (fun _ _ _ => by rw [lv_cell]; exact Nat.lt_succ_self 1) h

theorem O₀_above {c : Dev nD} {g : GSem nD τ sig} {u : Unit} (h : 0 < O₀ c g u) : g.1.2 = .tc ∧ 0 < lv g u := by
  rcases Pipeline.add_pos_cases (show 0 < ((Ooall c + Op1all c) + Obar c) g u from h) with h | h
  · exact ⟨(xfer_above h).1, Nat.lt_of_succ_lt (xfer_above h).2⟩
  · rw [Obar_eq] at h; exact sum_above (fun _ _ _ => by rw [lv_cell]; exact Nat.lt_succ_self 0) h

-- A device may wait on a cell at or below level `b` while all it owes sits on TensorCore cells above `b`.
theorem mayWait_cut (c : Dev nD) (s : SemLoc sig) (b : ℕ) (hs : lv ((c : Thread nD τ), s) () ≤ b)
    (O : CellTallies nD τ sig Unit) (hO : ∀ g u, 0 < O g u → g.1.2 = .tc ∧ b < lv g u) :
    (levAts L lv : sProp 𝕄) ⊢ MayWait (c : Thread nD τ) s () O :=
  MayOwe.of_cut (L := L) (lev := lv) b
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

theorem mayWait_low (c : Dev nD) (s : SemLoc sig) (hs : lv ((c : Thread nD τ), s) () = 0)
    (O : CellTallies nD τ sig Unit) (hO : ∀ g u, 0 < O g u → 0 < O₀ c g u) :
    (levAts L lv : sProp 𝕄) ⊢ MayWait (c : Thread nD τ) s () O :=
  mayWait_cut c s 0 (Nat.le_of_eq hs) O fun g u hg => O₀_above (hO g u hg)

theorem mayWait_bar (c : Dev nD) (O : CellTallies nD τ sig Unit) (hO : ∀ g u, 0 < O g u → 0 < (Ooall c + Op1all c) g u) :
    (levAts L lv : sProp 𝕄) ⊢ MayWait (c : Thread nD τ) (.reg barS) () O :=
  mayWait_cut c (.reg barS) 1 (Nat.le_of_eq (lv_cell c .bar ())) O fun g u hg => xfer_above (hO g u hg)

theorem mayWait_pr (c : Dev nD) (p t : Fin 3) (O : CellTallies nD τ sig Unit) (hO : ∀ g u, 0 < O g u → 0 < Ooall c g u) :
    (levAts L lv : sProp 𝕄) ⊢ MayWait (c : Thread nD τ) (csem (.pr p t)) () O :=
  mayWait_cut c (csem (.pr p t)) 2 (Nat.le_of_eq (lv_cell c (.pr p t) ())) O fun g u hg => Ooall_above (hO g u hg)

section Waits

variable (m : (ℓ : Loc nD τ sig) → Buf (Elt F) ℓ) (ρ : Dev nD → PrngReg) (V : PVals F)
variable (outV : Dev nD → (cc0_stg6_0 : Ref sig .tc).ty.Contents (Elt F))

-- The staging cells are at level 0: below all the device owes before the point, and it owes nothing after.
theorem waits (c : Dev nD) : (levAts L lv : sProp 𝕄) ⊢ Pipeline.cellsWaits cfgs (dats (F := F) m ρ V outV) () 0 c :=
  Pipeline.cellsWaits_intro cfgs (dats m ρ V outV) () 0 c fun w s t => by
    refine mayWait_low c _ (lv_dma_other _ _ (Or.inl (by fin_cases w <;> fin_cases s <;> decide)) ()) _ ?_
    rcases t with ⟨_ | _, ht⟩
    · exact fun g u hg => hg
    · intro g u hg; exact absurd hg (Nat.lt_irrefl 0)

end Waits

end Cert.KernelIdealProof
end
-- ==== Proof.Launch.lean ====
import proofs.«900571_g7700000000000572_dist_mla_v7x_i4_i_b2_s512_d2048_dc128_f32_1_alg».proof.Proof.LaunchGhost
import proofs.«900571_g7700000000000572_dist_mla_v7x_i4_i_b2_s512_d2048_dc128_f32_1_alg».proof.Proof.LaunchCredit

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (V : PVals F)
variable (outV : Dev nD → (cc0_stg6_0 : Ref sig .tc).ty.Contents (Elt F))

theorem share_eq (c : Dev nD) (w : Fin cfg0.W) : (dats m ρ V outV 0 c).share w = fullShare := by unfold Dat.share; split <;> rfl

def X (c : Dev nD) : sProp 𝕄 := iprop(start V c ∗ localSems (F := F) c ∗ hbmIn m c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' V c)
      ⊢ |={Set.univ}=> iprop(X m V c ∗ emp) := by
  rw [Pipeline.unscopedRestP_none, unscopedRest0_eq]
  iintro ⟨Hin, Hlev, Hcr, -, HG⟩
  ihave Hc := (launch_creds (F := F) c) $$ Hcr
  unfold G'
  icases HG with ⟨Hg, Hloc⟩
  imodintro
  unfold X start hbmIn
  iframe

theorem phi0_intro (c : Dev nD) :
    iprop(X m V c ∗ Pipeline.prefHeld Pipeline.Prefetch.none c (fun _ => fullShare.right) (fun k => k.elim0) ∗ Pipeline.scopedRest cfg0.spec c)
      ⊢ (dats m ρ V outV 0 c).Φ 0 := by
  rw [show (dats m ρ V outV 0 c).Φ 0 = Φ₀ m V c from rfl]
  unfold Φ₀ X scratchAny
  iintro ⟨⟨Hs, Hl, Hh⟩, -, Hr⟩
  iframe

theorem phi1_exit (c : Dev nD) :
    (dats m ρ V outV 0 c).Φ (Fin.last cfg0.N) ⊢ iprop(hbmIn m c ∗ Pipeline.ownSems0 osem c ∗ Pipeline.scopedRest cfg0.spec c) := by
  rw [show (dats m ρ V outV 0 c).Φ (Fin.last cfg0.N) = Φ₁ m c from rfl]
  unfold Φ₁ scratchAny
  iintro ⟨Hh, Hr, Ho⟩
  iframe

def QC : PUnit × MemSt nD τ sig (Elt F) → Prop := fun r =>
  ∀ c : Dev nD, (∀ w : Fin cfg0.W, r.2.mem ((cfg0.win w).arr.view.loc (c : Thread nD τ)) = (dats m ρ V outV 0 c).arrAt w cfg0.N)
    ∧ r.2.mem ((c : Thread nD τ).loc main_arg4) = m ((c : Thread nD τ).loc main_arg4)
    ∧ r.2.mem ((c : Thread nD τ).loc main_arg7) = m ((c : Thread nD τ).loc main_arg7)

set_option maxRecDepth 8000 in
theorem run_main (hbody : ∀ c : Dev nD, BodyObligation (dats (F := F) m ρ V outV 0 c) (defs₀ (F := F)) 𝒱₀ () Set.univ) :
    θ_run defs (onTc (τ := τ) (main (F := F))) (s₀ m ρ) (QC m ρ V outV) :=
  Pipeline.θ_run_region_owing_glob_pf (fun p => (cfgs p).toPCfg) (fun p => (cfgs p).toPCfg_adm) (dats m ρ V outV) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ V outV)
    (hdistinct := winFacts0.arr_inj)
    (O₀ := O₀) (howed₀ := fun _ => rfl) (howedN := fun _ => rfl)
    (L := L) (lv := lv) (hL := L_of_ne) (hwaits := waits m ρ V outV)
    (G := G V) (G' := G' V) (u₀ := u₀)
    (hu₀ := launch_elem V)
    (hglob := glob V)
    (hA := fun _ _ => rfl) (hpf := fun _ k => k.elim0)
    (X := X m V) (Y := hbmIn m) (Z := fun _ => iprop(emp))
    (hX := start_intro m ρ V) (hin := phi0_intro m ρ V outV) (hout := phi1_exit m ρ V outV)
    (QY := fun c s => s.mem ((c : Thread nD τ).loc main_arg4) = m ((c : Thread nD τ).loc main_arg4)
      ∧ s.mem ((c : Thread nD τ).loc main_arg7) = m ((c : Thread nD τ).loc main_arg7))
    (hY := fun c s' => by
      unfold hbmIn
      iintro ⟨⟨H4, H7⟩, -, HSI⟩
      icombine HSI H4 gives %h4
      icombine HSI H7 gives %h7
      imodintro
      isplitr; · ipureintro; exact ⟨Buf.eq_of_forall_mem_univ h4, Buf.eq_of_forall_mem_univ h7⟩
      iexact HSI)
    (hQ := fun _ h c => ⟨(h c).1, (h c).2.2.1, (h c).2.2.2⟩)

/-- info: 'Cert.KernelIdealProof.run_main' depends on axioms: [propext, Classical.choice, Quot.sound] -/
#guard_msgs in #print axioms run_main

end Cert.KernelIdealProof
end
-- ==== Proof.Tables.lean ====
import proofs.«900571_g7700000000000572_dist_mla_v7x_i4_i_b2_s512_d2048_dc128_f32_1_alg».proof.Proof.Proto

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : PVals F) (c : Dev nD)

-- The schedule's table read at a protocol cell: the entry of the cell's kind.
theorem duties_cell (k : CK) : (sched V).duties (cell c k) 0 = dutOf k := by
  dsimp only [sched]; rw [if_pos ⟨rfl, rfl⟩, kindOf_csem]

theorem duties_bar : (sched V).duties (cell c .bar) 0 = Finset.univ := duties_cell V c .bar
theorem duties_ps (p t : Fin 3) : (sched V).duties (cell c (.ps p t)) 0 = {0} := duties_cell V c (.ps p t)
theorem duties_pr (p t : Fin 3) : (sched V).duties (cell c (.pr p t)) 0 = {0} := duties_cell V c (.pr p t)
theorem duties_os (p : Fin 3) (h : Fin 4) : (sched V).duties (cell c (.os p h)) 0 = {0} := duties_cell V c (.os p h)
theorem duties_orr (p : Fin 3) (h : Fin 4) : (sched V).duties (cell c (.orr p h)) 0 = {0} := duties_cell V c (.orr p h)

theorem duties_later (g : GSem nD τ sig) : ∀ r, 1 ≤ r → (sched V).duties g r = ∅ :=
  fun r hr => by dsimp only [sched]; rw [if_neg fun h => by omega]

theorem mem_duties_bar (p : Fin 3) : p ∈ (sched V).duties (cell c .bar) 0 := by rw [duties_bar]; exact Finset.mem_univ p
theorem mem_duties_ps (p t : Fin 3) : (0 : Fin 3) ∈ (sched V).duties (cell c (.ps p t)) 0 := by rw [duties_ps]; exact Finset.mem_singleton_self 0
theorem mem_duties_pr (p t : Fin 3) : (0 : Fin 3) ∈ (sched V).duties (cell c (.pr p t)) 0 := by rw [duties_pr]; exact Finset.mem_singleton_self 0
theorem mem_duties_os (p : Fin 3) (h : Fin 4) : (0 : Fin 3) ∈ (sched V).duties (cell c (.os p h)) 0 := by rw [duties_os]; exact Finset.mem_singleton_self 0
theorem mem_duties_orr (p : Fin 3) (h : Fin 4) : (0 : Fin 3) ∈ (sched V).duties (cell c (.orr p h)) 0 := by rw [duties_orr]; exact Finset.mem_singleton_self 0

theorem amount_cell (k : CK) (d : Fin 3) : (sched V).amount (cell c k) 0 d = amtOf k := by
  dsimp only [sched]; rw [kindOf_csem]

theorem amount_bar (d : Fin 3) : (sched V).amount (cell c .bar) 0 d = 1 := amount_cell V c .bar d
theorem amount_ps0 (p d : Fin 3) : (sched V).amount (cell c (.ps p 0)) 0 d = NC := amount_cell V c (.ps p 0) d
theorem amount_ps1 (p d : Fin 3) : (sched V).amount (cell c (.ps p 1)) 0 d = NU := amount_cell V c (.ps p 1) d
theorem amount_ps2 (p d : Fin 3) : (sched V).amount (cell c (.ps p 2)) 0 d = NU := amount_cell V c (.ps p 2) d
theorem amount_pr0 (p d : Fin 3) : (sched V).amount (cell c (.pr p 0)) 0 d = NC := amount_cell V c (.pr p 0) d
theorem amount_pr1 (p d : Fin 3) : (sched V).amount (cell c (.pr p 1)) 0 d = NU := amount_cell V c (.pr p 1) d
theorem amount_pr2 (p d : Fin 3) : (sched V).amount (cell c (.pr p 2)) 0 d = NU := amount_cell V c (.pr p 2) d
theorem amount_os (p : Fin 3) (h : Fin 4) (d : Fin 3) : (sched V).amount (cell c (.os p h)) 0 d = NO := amount_cell V c (.os p h) d
theorem amount_orr (p : Fin 3) (h : Fin 4) (d : Fin 3) : (sched V).amount (cell c (.orr p h)) 0 d = NO := amount_cell V c (.orr p h) d

theorem expect_bar : (sched V).expect (cell c .bar) 0 = 3 := by
  unfold Schedule.expect Schedule.amountOf
  rw [duties_bar, Finset.sum_congr rfl fun d _ => amount_bar V c d, Finset.sum_const, Finset.card_univ, Fintype.card_fin, smul_eq_mul]

theorem expect_one (k : CK) (hk : dutOf k = {0}) : (sched V).expect (cell c k) 0 = amtOf k := by
  unfold Schedule.expect Schedule.amountOf; rw [duties_cell, hk, Finset.sum_singleton, amount_cell]

theorem expect_ps0 (p : Fin 3) : (sched V).expect (cell c (.ps p 0)) 0 = NC := expect_one V c (.ps p 0) rfl
theorem expect_ps1 (p : Fin 3) : (sched V).expect (cell c (.ps p 1)) 0 = NU := expect_one V c (.ps p 1) rfl
theorem expect_ps2 (p : Fin 3) : (sched V).expect (cell c (.ps p 2)) 0 = NU := expect_one V c (.ps p 2) rfl
theorem expect_pr0 (p : Fin 3) : (sched V).expect (cell c (.pr p 0)) 0 = NC := expect_one V c (.pr p 0) rfl
theorem expect_pr1 (p : Fin 3) : (sched V).expect (cell c (.pr p 1)) 0 = NU := expect_one V c (.pr p 1) rfl
theorem expect_pr2 (p : Fin 3) : (sched V).expect (cell c (.pr p 2)) 0 = NU := expect_one V c (.pr p 2) rfl
theorem expect_os (p : Fin 3) (h : Fin 4) : (sched V).expect (cell c (.os p h)) 0 = NO := expect_one V c (.os p h) rfl
theorem expect_orr (p : Fin 3) (h : Fin 4) : (sched V).expect (cell c (.orr p h)) 0 = NO := expect_one V c (.orr p h) rfl

theorem payload_cell (k : CK) (d : Fin 3) : (sched V).payload (cell c k) 0 d = payOf V c k d := by
  dsimp only [sched]; rw [kindOf_csem]

theorem payload_bar (p : Fin 3) : (sched V).payload (cell c .bar) 0 p = landing (F := F) (og c p) c := payload_cell V c .bar p
theorem payload_ps0 (p d : Fin 3) : (sched V).payload (cell c (.ps p 0)) 0 d = owns (c : Thread nD τ) (cM c) (qP p) (V.cV c) := payload_cell V c (.ps p 0) d
theorem payload_ps1 (p d : Fin 3) : (sched V).payload (cell c (.ps p 1)) 0 d = owns (c : Thread nD τ) (ukS c p) fullShare (V.ukV c p) := payload_cell V c (.ps p 1) d
theorem payload_ps2 (p d : Fin 3) : (sched V).payload (cell c (.ps p 2)) 0 d = owns (c : Thread nD τ) (uvS c p) fullShare (V.uvV c p) := payload_cell V c (.ps p 2) d
theorem payload_pr0 (p d : Fin 3) : (sched V).payload (cell c (.pr p 0)) 0 d = owns (c : Thread nD τ) (cM (og c p)) fullShare (V.cV (og c p)) := payload_cell V c (.pr p 0) d
theorem payload_pr1 (p d : Fin 3) : (sched V).payload (cell c (.pr p 1)) 0 d = owns (c : Thread nD τ) (ukD (og c p)) fullShare (V.ukV (og c p) p) := payload_cell V c (.pr p 1) d
theorem payload_pr2 (p d : Fin 3) : (sched V).payload (cell c (.pr p 2)) 0 d = owns (c : Thread nD τ) (uvD (og c p)) fullShare (V.uvV (og c p) p) := payload_cell V c (.pr p 2) d
theorem payload_os (p : Fin 3) (h : Fin 4) (d : Fin 3) : (sched V).payload (cell c (.os p h)) 0 d = owns (c : Thread nD τ) (oM c h) (qP p) (V.oV c h) := payload_cell V c (.os p h) d
theorem payload_orr (p : Fin 3) (h : Fin 4) (d : Fin 3) : (sched V).payload (cell c (.orr p h)) 0 d = owns (c : Thread nD τ) (oM (og c p) h) fullShare (V.oV (og c p) h) := payload_cell V c (.orr p h) d

theorem payload_bar_pe (p : Fin 3) : (sched V).payload (cell (pe c p) .bar) 0 p = landing (F := F) c (pe c p) := by
  rw [payload_bar, og_pe]
theorem payload_pr0_pe (p d : Fin 3) : (sched V).payload (cell (pe c p) (.pr p 0)) 0 d = owns (pe c p : Thread nD τ) (cM c) fullShare (V.cV c) := by
  rw [payload_pr0, og_pe]
theorem payload_pr1_pe (p d : Fin 3) : (sched V).payload (cell (pe c p) (.pr p 1)) 0 d = owns (pe c p : Thread nD τ) (ukD c) fullShare (V.ukV c p) := by
  rw [payload_pr1, og_pe]
theorem payload_pr2_pe (p d : Fin 3) : (sched V).payload (cell (pe c p) (.pr p 2)) 0 d = owns (pe c p : Thread nD τ) (uvD c) fullShare (V.uvV c p) := by
  rw [payload_pr2, og_pe]
theorem payload_orr_pe (p : Fin 3) (h : Fin 4) (d : Fin 3) : (sched V).payload (cell (pe c p) (.orr p h)) 0 d = owns (pe c p : Thread nD τ) (oM c h) fullShare (V.oV c h) := by
  rw [payload_orr, og_pe]

theorem rest_bar : bigSep ((sched V).duties (cell c .bar) 0 \ ∅) (fun d => (sched V).payload (cell c .bar) 0 d)
    = iprop(landing (F := F) (og c 0) c ∗ landing (F := F) (og c 1) c ∗ landing (F := F) (og c 2) c) := by
  rw [Finset.sdiff_empty, duties_bar, bigSep_univ_eq_bigSepL [0, 1, 2] (by decide) (by decide), bigSepL_cons_cons, bigSepL_cons_cons,
    bigSepL_singleton, payload_bar, payload_bar, payload_bar]
  rfl

theorem rest_one (k : CK) (hk : dutOf k = {0}) :
    bigSep ((sched V).duties (cell c k) 0 \ ∅) (fun d => (sched V).payload (cell c k) 0 d) = payOf V c k 0 := by
  rw [Finset.sdiff_empty, duties_cell, hk, bigSep_singleton, payload_cell]

theorem rest_ps0 (p : Fin 3) : bigSep ((sched V).duties (cell c (.ps p 0)) 0 \ ∅) (fun d => (sched V).payload (cell c (.ps p 0)) 0 d)
    = owns (c : Thread nD τ) (cM c) (qP p) (V.cV c) := rest_one V c (.ps p 0) rfl
theorem rest_ps1 (p : Fin 3) : bigSep ((sched V).duties (cell c (.ps p 1)) 0 \ ∅) (fun d => (sched V).payload (cell c (.ps p 1)) 0 d)
    = owns (c : Thread nD τ) (ukS c p) fullShare (V.ukV c p) := rest_one V c (.ps p 1) rfl
theorem rest_ps2 (p : Fin 3) : bigSep ((sched V).duties (cell c (.ps p 2)) 0 \ ∅) (fun d => (sched V).payload (cell c (.ps p 2)) 0 d)
    = owns (c : Thread nD τ) (uvS c p) fullShare (V.uvV c p) := rest_one V c (.ps p 2) rfl
theorem rest_pr0 (p : Fin 3) : bigSep ((sched V).duties (cell c (.pr p 0)) 0 \ ∅) (fun d => (sched V).payload (cell c (.pr p 0)) 0 d)
    = owns (c : Thread nD τ) (cM (og c p)) fullShare (V.cV (og c p)) := rest_one V c (.pr p 0) rfl
theorem rest_pr1 (p : Fin 3) : bigSep ((sched V).duties (cell c (.pr p 1)) 0 \ ∅) (fun d => (sched V).payload (cell c (.pr p 1)) 0 d)
    = owns (c : Thread nD τ) (ukD (og c p)) fullShare (V.ukV (og c p) p) := rest_one V c (.pr p 1) rfl
theorem rest_pr2 (p : Fin 3) : bigSep ((sched V).duties (cell c (.pr p 2)) 0 \ ∅) (fun d => (sched V).payload (cell c (.pr p 2)) 0 d)
    = owns (c : Thread nD τ) (uvD (og c p)) fullShare (V.uvV (og c p) p) := rest_one V c (.pr p 2) rfl
theorem rest_os (p : Fin 3) (h : Fin 4) : bigSep ((sched V).duties (cell c (.os p h)) 0 \ ∅) (fun d => (sched V).payload (cell c (.os p h)) 0 d)
    = owns (c : Thread nD τ) (oM c h) (qP p) (V.oV c h) := rest_one V c (.os p h) rfl
theorem rest_orr (p : Fin 3) (h : Fin 4) : bigSep ((sched V).duties (cell c (.orr p h)) 0 \ ∅) (fun d => (sched V).payload (cell c (.orr p h)) 0 d)
    = owns (c : Thread nD τ) (oM (og c p) h) fullShare (V.oV (og c p) h) := rest_one V c (.orr p h) rfl

theorem credit_cM (d : Dev nD) : (cM d).view.dmaCredit = NC := rfl
theorem credit_ukD (d : Dev nD) : (ukD d).view.dmaCredit = NU := rfl
theorem credit_uvD (d : Dev nD) : (uvD d).view.dmaCredit = NU := rfl
theorem credit_oM (d : Dev nD) (h : Fin 4) : (oM d h).view.dmaCredit = NO := by fin_cases h <;> rfl

end Cert.KernelIdealProof
end
-- ==== Proof.BodyRules.lean ====
import proofs.«900571_g7700000000000572_dist_mla_v7x_i4_i_b2_s512_d2048_dc128_f32_1_alg».proof.Proof.Tables
import proofs.«900571_g7700000000000572_dist_mla_v7x_i4_i_b2_s512_d2048_dc128_f32_1_alg».proof.Proof.LaunchGhost

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

-- A buffer whose view reads `X` is owned at `X`.
theorem owns_of_read (t : Thread nD τ) {sp : Space} {sh : Shape} {e : EltTy} (M : Memref sig t.2.kind sp sh e) (q : PosShare TreeShare)
    (f : M.view.ty.Contents (Elt F)) {X : sh.Idx → Elt F e} (h : M.view.read (Elt F) f = X) :
    (M.view.loc t ↦[M.view.set]{q} f : sProp 𝕄) ⊢ owns t M q X := h ▸ owns_intro t M q f

theorem send_c (V : PVals F) (K : Dev nD × CK → ℕ) (c n : Dev nD) (p : Fin 3) (hn : n = pe c p)
    {hsc : ((cM c : Memref sig (Dev.tc n : Thread nD τ).2.kind .vmem S1024x128 .bf16)).view.ref.isScScratch = false}
    {hsrc : (cM c).view.WordExact} {hdst : (cM c).view.WordExact}
    {hsem : DmaTarget.Typed .vmem (.dma (prS p 0)) (.remote (Dev.tc n : Thread nD τ) (cM c) (.dma (psS p 0)) hsc)}
    {α : Type} {Q : α → sProp 𝕄} {k : PUnit → Prog (TpuEff nD τ sig (Elt F) Λ₀ .tc) α}
    (fs : Buf (Elt F) ((cM c).view.loc (c : Thread nD τ))) (fd : Buf (Elt F) ((cM c).view.loc (pe c p : Thread nD τ)))
    (hfs : (cM c).view.read (Elt F) fs = V.cV c) (O : CellTallies nD τ sig Unit) (W : Waits sig Unit) :
    iprop(cellInv ER (sched V) (K (c, .ps p 0)) (cell c (.ps p 0)) ∗ cellInv ER (sched V) (K (pe c p, .pr p 0)) (cell (pe c p) (.pr p 0))
        ∗ ((cM c).view.loc (c : Thread nD τ) ↦[(cM c).view.set]{qP p} fs)
        ∗ ((cM c).view.loc (pe c p : Thread nD τ) ↦[(cM c).view.set]{fullShare} fd)
        ∗ owes (c : Thread nD τ) (O + tallyAt (cell (pe c p) (.pr p 0)) () NC) W
        ∗ dutyTok ER (cell c (.ps p 0)) 0 (0 : Fin 3) ∗ reached ER (cell c (.ps p 0)) 0
        ∗ dutyTok ER (cell (pe c p) (.pr p 0)) 0 (0 : Fin 3) ∗ reached ER (cell (pe c p) (.pr p 0)) 0)
      ⊢ iprop(((cred (tallyAt (cell c (.ps p 0)) () NC) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (cM c) (.remote (Dev.tc n : Thread nD τ) (cM c) (.dma (psS p 0)) hsc) (.dma (prS p 0)) hsrc hdst hsem) k) Q) := by
  subst hn
  refine Rounds.wp_send_pointsTo 𝒱₀ ER (sched V) (c : Thread nD τ) none (src := cM c) (dst := cM c) (q := qP p) (fs := fs) (fd := fd)
    (c' := (Dev.tc (pe c p) : Thread nD τ)) (r₁ := 0) (r₂ := 0) (d₁ := 0) (d₂ := 0)
    (κ₁ := K (c, .ps p 0)) (κ₂ := K (pe c p, .pr p 0))
    (mem_duties_ps V c p 0) (mem_duties_pr V (pe c p) p 0) () () NC (credit_cM c) (amount_ps0 V c p 0) (amount_pr0 V (pe c p) p 0)
    O rfl (W := W) ?_ ?_
  · rw [payload_ps0]; exact owns_of_read _ _ _ _ hfs
  · rw [payload_pr0_pe]; exact owns_of_read _ _ _ _ (by rw [View.read_write_univ]; exact hfs)

theorem send_uk (V : PVals F) (K : Dev nD × CK → ℕ) (c n : Dev nD) (p : Fin 3) (hn : n = pe c p)
    {hsc : ((ukD c : Memref sig (Dev.tc n : Thread nD τ).2.kind .vmem S128x512 .bf16)).view.ref.isScScratch = false}
    {hsrc : (ukS c p).view.WordExact} {hdst : (ukD c).view.WordExact}
    {hsem : DmaTarget.Typed .vmem (.dma (prS p 1)) (.remote (Dev.tc n : Thread nD τ) (ukD c) (.dma (psS p 1)) hsc)}
    {α : Type} {Q : α → sProp 𝕄} {k : PUnit → Prog (TpuEff nD τ sig (Elt F) Λ₀ .tc) α}
    (fs : Buf (Elt F) ((ukS c p).view.loc (c : Thread nD τ))) (fd : Buf (Elt F) ((ukD c).view.loc (pe c p : Thread nD τ)))
    (hfs : (ukS c p).view.read (Elt F) fs = V.ukV c p) (O : CellTallies nD τ sig Unit) (W : Waits sig Unit) :
    iprop(cellInv ER (sched V) (K (c, .ps p 1)) (cell c (.ps p 1)) ∗ cellInv ER (sched V) (K (pe c p, .pr p 1)) (cell (pe c p) (.pr p 1))
        ∗ ((ukS c p).view.loc (c : Thread nD τ) ↦[(ukS c p).view.set]{fullShare} fs)
        ∗ ((ukD c).view.loc (pe c p : Thread nD τ) ↦[(ukD c).view.set]{fullShare} fd)
        ∗ owes (c : Thread nD τ) (O + tallyAt (cell (pe c p) (.pr p 1)) () NU) W
        ∗ dutyTok ER (cell c (.ps p 1)) 0 (0 : Fin 3) ∗ reached ER (cell c (.ps p 1)) 0
        ∗ dutyTok ER (cell (pe c p) (.pr p 1)) 0 (0 : Fin 3) ∗ reached ER (cell (pe c p) (.pr p 1)) 0)
      ⊢ iprop(((cred (tallyAt (cell c (.ps p 1)) () NU) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ukS c p) (.remote (Dev.tc n : Thread nD τ) (ukD c) (.dma (psS p 1)) hsc) (.dma (prS p 1)) hsrc hdst hsem) k) Q) := by
  subst hn
  refine Rounds.wp_send_pointsTo 𝒱₀ ER (sched V) (c : Thread nD τ) none (src := ukS c p) (dst := ukD c) (q := fullShare) (fs := fs) (fd := fd)
    (c' := (Dev.tc (pe c p) : Thread nD τ)) (r₁ := 0) (r₂ := 0) (d₁ := 0) (d₂ := 0)
    (κ₁ := K (c, .ps p 1)) (κ₂ := K (pe c p, .pr p 1))
    (mem_duties_ps V c p 1) (mem_duties_pr V (pe c p) p 1) () () NU (credit_ukD c) (amount_ps1 V c p 0) (amount_pr1 V (pe c p) p 0)
    O rfl (W := W) ?_ ?_
  · rw [payload_ps1]; exact owns_of_read _ _ _ _ hfs
  · rw [payload_pr1_pe]; exact owns_of_read _ _ _ _ (by rw [View.read_write_univ]; exact hfs)

theorem send_uv (V : PVals F) (K : Dev nD × CK → ℕ) (c n : Dev nD) (p : Fin 3) (hn : n = pe c p)
    {hsc : ((uvD c : Memref sig (Dev.tc n : Thread nD τ).2.kind .vmem S128x512 .bf16)).view.ref.isScScratch = false}
    {hsrc : (uvS c p).view.WordExact} {hdst : (uvD c).view.WordExact}
    {hsem : DmaTarget.Typed .vmem (.dma (prS p 2)) (.remote (Dev.tc n : Thread nD τ) (uvD c) (.dma (psS p 2)) hsc)}
    {α : Type} {Q : α → sProp 𝕄} {k : PUnit → Prog (TpuEff nD τ sig (Elt F) Λ₀ .tc) α}
    (fs : Buf (Elt F) ((uvS c p).view.loc (c : Thread nD τ))) (fd : Buf (Elt F) ((uvD c).view.loc (pe c p : Thread nD τ)))
    (hfs : (uvS c p).view.read (Elt F) fs = V.uvV c p) (O : CellTallies nD τ sig Unit) (W : Waits sig Unit) :
    iprop(cellInv ER (sched V) (K (c, .ps p 2)) (cell c (.ps p 2)) ∗ cellInv ER (sched V) (K (pe c p, .pr p 2)) (cell (pe c p) (.pr p 2))
        ∗ ((uvS c p).view.loc (c : Thread nD τ) ↦[(uvS c p).view.set]{fullShare} fs)
        ∗ ((uvD c).view.loc (pe c p : Thread nD τ) ↦[(uvD c).view.set]{fullShare} fd)
        ∗ owes (c : Thread nD τ) (O + tallyAt (cell (pe c p) (.pr p 2)) () NU) W
        ∗ dutyTok ER (cell c (.ps p 2)) 0 (0 : Fin 3) ∗ reached ER (cell c (.ps p 2)) 0
        ∗ dutyTok ER (cell (pe c p) (.pr p 2)) 0 (0 : Fin 3) ∗ reached ER (cell (pe c p) (.pr p 2)) 0)
      ⊢ iprop(((cred (tallyAt (cell c (.ps p 2)) () NU) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (uvS c p) (.remote (Dev.tc n : Thread nD τ) (uvD c) (.dma (psS p 2)) hsc) (.dma (prS p 2)) hsrc hdst hsem) k) Q) := by
  subst hn
  refine Rounds.wp_send_pointsTo 𝒱₀ ER (sched V) (c : Thread nD τ) none (src := uvS c p) (dst := uvD c) (q := fullShare) (fs := fs) (fd := fd)
    (c' := (Dev.tc (pe c p) : Thread nD τ)) (r₁ := 0) (r₂ := 0) (d₁ := 0) (d₂ := 0)
    (κ₁ := K (c, .ps p 2)) (κ₂ := K (pe c p, .pr p 2))
    (mem_duties_ps V c p 2) (mem_duties_pr V (pe c p) p 2) () () NU (credit_uvD c) (amount_ps2 V c p 0) (amount_pr2 V (pe c p) p 0)
    O rfl (W := W) ?_ ?_
  · rw [payload_ps2]; exact owns_of_read _ _ _ _ hfs
  · rw [payload_pr2_pe]; exact owns_of_read _ _ _ _ (by rw [View.read_write_univ]; exact hfs)

theorem send_o (V : PVals F) (K : Dev nD × CK → ℕ) (c n : Dev nD) (p : Fin 3) (h : Fin 4) (hn : n = pe c p)
    {hsc : ((oM c h : Memref sig (Dev.tc n : Thread nD τ).2.kind .vmem S1024x128 .bf16)).view.ref.isScScratch = false}
    {hsrc : (oM c h).view.WordExact} {hdst : (oM c h).view.WordExact}
    {hsem : DmaTarget.Typed .vmem (.dma (orS p h)) (.remote (Dev.tc n : Thread nD τ) (oM c h) (.dma (osS p h)) hsc)}
    {α : Type} {Q : α → sProp 𝕄} {k : PUnit → Prog (TpuEff nD τ sig (Elt F) Λ₀ .tc) α}
    (fs : Buf (Elt F) ((oM c h).view.loc (c : Thread nD τ))) (fd : Buf (Elt F) ((oM c h).view.loc (pe c p : Thread nD τ)))
    (hfs : (oM c h).view.read (Elt F) fs = V.oV c h) (O : CellTallies nD τ sig Unit) (W : Waits sig Unit) :
    iprop(cellInv ER (sched V) (K (c, .os p h)) (cell c (.os p h)) ∗ cellInv ER (sched V) (K (pe c p, .orr p h)) (cell (pe c p) (.orr p h))
        ∗ ((oM c h).view.loc (c : Thread nD τ) ↦[(oM c h).view.set]{qP p} fs)
        ∗ ((oM c h).view.loc (pe c p : Thread nD τ) ↦[(oM c h).view.set]{fullShare} fd)
        ∗ owes (c : Thread nD τ) (O + tallyAt (cell (pe c p) (.orr p h)) () NO) W
        ∗ dutyTok ER (cell c (.os p h)) 0 (0 : Fin 3) ∗ reached ER (cell c (.os p h)) 0
        ∗ dutyTok ER (cell (pe c p) (.orr p h)) 0 (0 : Fin 3) ∗ reached ER (cell (pe c p) (.orr p h)) 0)
      ⊢ iprop(((cred (tallyAt (cell c (.os p h)) () NO) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM c h) (.remote (Dev.tc n : Thread nD τ) (oM c h) (.dma (osS p h)) hsc) (.dma (orS p h)) hsrc hdst hsem) k) Q) := by
  subst hn
  refine Rounds.wp_send_pointsTo 𝒱₀ ER (sched V) (c : Thread nD τ) none (src := oM c h) (dst := oM c h) (q := qP p) (fs := fs) (fd := fd)
    (c' := (Dev.tc (pe c p) : Thread nD τ)) (r₁ := 0) (r₂ := 0) (d₁ := 0) (d₂ := 0)
    (κ₁ := K (c, .os p h)) (κ₂ := K (pe c p, .orr p h))
    (mem_duties_os V c p h) (mem_duties_orr V (pe c p) p h) () () NO (credit_oM c h) (amount_os V c p h 0) (amount_orr V (pe c p) p h 0)
    O rfl (W := W) ?_ ?_
  · rw [payload_os]; exact owns_of_read _ _ _ _ hfs
  · rw [payload_orr_pe]; exact owns_of_read _ _ _ _ (by rw [View.read_write_univ]; exact hfs)

end Cert.KernelIdealProof
end

/-- info: 'Cert.KernelIdealProof.send_c' depends on axioms: [propext, Classical.choice, Quot.sound] -/
#guard_msgs in #print axioms Cert.KernelIdealProof.send_c
/-- info: 'Cert.KernelIdealProof.send_uk' depends on axioms: [propext, Classical.choice, Quot.sound] -/
#guard_msgs in #print axioms Cert.KernelIdealProof.send_uk
/-- info: 'Cert.KernelIdealProof.send_uv' depends on axioms: [propext, Classical.choice, Quot.sound] -/
#guard_msgs in #print axioms Cert.KernelIdealProof.send_uv
/-- info: 'Cert.KernelIdealProof.send_o' depends on axioms: [propext, Classical.choice, Quot.sound] -/
#guard_msgs in #print axioms Cert.KernelIdealProof.send_o
-- ==== Proof.Slots.lean ====
import proofs.«900571_g7700000000000572_dist_mla_v7x_i4_i_b2_s512_d2048_dc128_f32_1_alg».proof.Proof.Proto
import Idealize.ShloMosaic.Rules.PointsTo
import Idealize.ShloMosaic.Lib.Ring

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

-- A unit rectangle of a rank-3 buffer at offset (d, 0, k), one slot deep, all rows, w columns.
theorem mem_unit3 {n0 n1 n2 w : ℕ} {off : Fin 3 → ℕ} {inb} (i : Shape.Idx ⟨3, ![n0, n1, n2]⟩) (d k : ℕ)
    (ho : off = ![d, 0, k]) :
    i ∈ (Rect.unit (s := ⟨3, ![n0, n1, n2]⟩) off ![1, n1, w] inb).set
      ↔ (i 0).val = d ∧ k ≤ (i 2).val ∧ (i 2).val < k + w := by
  subst ho
  rw [Rect.mem_set_unit]
  constructor
  · intro h; have h0 := h 0; have h2 := h 2; simp at h0 h2; omega
  · intro h a
    have := (i a).isLt
    fin_cases a <;> simp_all <;> omega

theorem mem_slot3 {n0 n1 n2 : ℕ} {off : Fin 3 → ℕ} {inb} (i : Shape.Idx ⟨3, ![n0, n1, n2]⟩) (d : ℕ)
    (ho : off = ![d, 0, 0]) :
    i ∈ (Rect.unit (s := ⟨3, ![n0, n1, n2]⟩) off ![1, n1, n2] inb).set ↔ (i 0).val = d :=
  (mem_unit3 i d 0 ho).trans (and_iff_left ⟨Nat.zero_le _, by simpa using (i 2).isLt⟩)

theorem mem_stripe3 {n0 n1 n2 : ℕ} {off : Fin 3 → ℕ} {inb} (i : Shape.Idx ⟨3, ![n0, n1, n2]⟩) (d h : ℕ)
    (ho : off = ![d, 0, 128 * h]) :
    i ∈ (Rect.unit (s := ⟨3, ![n0, n1, n2]⟩) off ![1, n1, 128] inb).set ↔ (i 0).val = d ∧ (i 2).val / 128 = h :=
  (mem_unit3 i d (128 * h) ho).trans (by omega)

theorem mem_cM_set (d : Dev nD) (i : S4x1024x128.Idx) : i ∈ (cM d).view.set ↔ (i 0).val = d.val :=
  (Finset.ext_iff.mp ((View.set_reshape _ _).trans (View.set_slice_whole cc0_scratch1 _)) i).trans
    (mem_slot3 i d.val (k0_off6_eq d))
theorem mem_ukD_set (d : Dev nD) (i : S4x128x512.Idx) : i ∈ (ukD d).view.set ↔ (i 0).val = d.val :=
  (Finset.ext_iff.mp ((View.set_reshape _ _).trans (View.set_slice_whole cc0_scratch4 _)) i).trans
    (mem_slot3 i d.val (k0_off7_eq d))
theorem mem_uvD_set (d : Dev nD) (i : S4x128x512.Idx) : i ∈ (uvD d).view.set ↔ (i 0).val = d.val :=
  (Finset.ext_iff.mp ((View.set_reshape _ _).trans (View.set_slice_whole cc0_scratch5 _)) i).trans
    (mem_slot3 i d.val (k0_off7_eq d))

def oSet (d : Dev nD) : Fin 4 → Finset S4x1024x512.Idx
  | 0 => (oM d 0).view.set
  | 1 => (oM d 1).view.set
  | 2 => (oM d 2).view.set
  | 3 => (oM d 3).view.set

theorem mem_oSet (d : Dev nD) (h : Fin 4) (i : S4x1024x512.Idx) :
    i ∈ oSet d h ↔ (i 0).val = d.val ∧ (i 2).val / 128 = h.val := by
  match h with
  | 0 => exact (Finset.ext_iff.mp ((View.set_reshape _ _).trans (View.set_slice_whole cc0_scratch6 _)) i).trans (mem_stripe3 i d.val 0 (k0_off14_eq d))
  | 1 => exact (Finset.ext_iff.mp ((View.set_reshape _ _).trans (View.set_slice_whole cc0_scratch6 _)) i).trans (mem_stripe3 i d.val 1 (k0_off17_eq d))
  | 2 => exact (Finset.ext_iff.mp ((View.set_reshape _ _).trans (View.set_slice_whole cc0_scratch6 _)) i).trans (mem_stripe3 i d.val 2 (k0_off20_eq d))
  | 3 => exact (Finset.ext_iff.mp ((View.set_reshape _ _).trans (View.set_slice_whole cc0_scratch6 _)) i).trans (mem_stripe3 i d.val 3 (k0_off23_eq d))

section Part

variable {α B K : Type} [Fintype α] [DecidableEq α] [Fintype B] [DecidableEq B] (S : B → Finset α)

-- The parts are pairwise disjoint and cover everything.
def Tiles : Prop := (∀ b b', b ≠ b' → Disjoint (S b) (S b')) ∧ Finset.univ.biUnion S = Finset.univ

-- Parts told apart by a key whose values name the parts one to one are such a family.
theorem part_tiles (key : α → K) (v : B → K) (hv : Function.Injective v) (hs : ∀ i, ∃ b, v b = key i)
    (hm : ∀ b i, i ∈ S b ↔ key i = v b) : Tiles S :=
  ⟨fun b b' h => Finset.disjoint_left.mpr fun i hi hi' => h (hv (((hm b i).mp hi).symm.trans ((hm b' i).mp hi'))),
    Finset.eq_univ_iff_forall.mpr fun i => (hs i).elim fun b hb =>
      Finset.mem_biUnion.mpr ⟨b, Finset.mem_univ _, (hm b i).mpr hb.symm⟩⟩

variable {ℓ : Loc nD τ sig} {S : B → Finset (Idx ℓ)} (h : Tiles S)
include h

theorem tiles_blocks (q : PosShare TreeShare) (f : Buf (Elt F) ℓ) :
    (ℓ ↦{q} f : sProp 𝕄) = bigSep Finset.univ fun b => ℓ ↦[S b]{q} f :=
  Ring.pointsTo_blocks (Ix := Unit) (Val := Elt F) (Name := ℕ) (U := UU) (Lvl := ℕ) S h.1 h.2 f

theorem tiles_join :
    bigSep Finset.univ (fun b => iprop(∃ f, ℓ ↦[S b]{fullShare} f)) ⊢ (iprop(∃ f, ℓ ↦{fullShare} f) : sProp 𝕄) :=
  Ring.pointsTo_blocks_join_exists (Ix := Unit) (Val := Elt F) (Name := ℕ) (U := UU) (Lvl := ℕ) S h.1 h.2 fun _ => default

end Part

theorem bigSep_dev_ring {M : Type _} [URA M] (c : Dev nD) (Φ : Dev nD → sProp M) :
    bigSep Finset.univ Φ = iprop(Φ c ∗ Φ (pe c 0) ∗ Φ (pe c 1) ∗ Φ (pe c 2)) :=
  bigSep_univ_eq_bigSepL [c, pe c 0, pe c 1, pe c 2] (by revert c; decide) (by revert c; decide) Φ

theorem bigSep_fin4 {M : Type _} [URA M] (Φ : Fin 4 → sProp M) :
    bigSep Finset.univ Φ = iprop(Φ 0 ∗ Φ 1 ∗ Φ 2 ∗ Φ 3) :=
  bigSep_univ_eq_bigSepL [0, 1, 2, 3] (by decide) (by decide) Φ

section Dev

variable {ℓ : Loc nD τ sig} (c : Dev nD) {S : Dev nD → Finset (Idx ℓ)}

theorem dev_tiles (key : Idx ℓ → ℕ) (hk : ∀ i, key i < nD) (hm : ∀ d i, i ∈ S d ↔ key i = d.val) : Tiles S :=
  part_tiles S key Fin.val Fin.val_injective (fun i => ⟨⟨_, hk i⟩, rfl⟩) hm

-- One part per device, named by a coordinate: the buffer from device c outwards, split and rejoined.
theorem dev_split (f : Buf (Elt F) ℓ) (key : Idx ℓ → ℕ) (hk : ∀ i, key i < nD) (hm : ∀ d i, i ∈ S d ↔ key i = d.val) :
    (ℓ ↦{fullShare} f : sProp 𝕄)
      ⊢ iprop((ℓ ↦[S c]{fullShare} f) ∗ (ℓ ↦[S (pe c 0)]{fullShare} f) ∗ (ℓ ↦[S (pe c 1)]{fullShare} f)
          ∗ (ℓ ↦[S (pe c 2)]{fullShare} f)) :=
  .of_eq ((tiles_blocks (dev_tiles key hk hm) fullShare f).trans (bigSep_dev_ring c _))

theorem dev_join (key : Idx ℓ → ℕ) (hk : ∀ i, key i < nD) (hm : ∀ d i, i ∈ S d ↔ key i = d.val) :
    iprop((∃ f, ℓ ↦[S c]{fullShare} f) ∗ (∃ f, ℓ ↦[S (pe c 0)]{fullShare} f) ∗ (∃ f, ℓ ↦[S (pe c 1)]{fullShare} f)
        ∗ (∃ f, ℓ ↦[S (pe c 2)]{fullShare} f))
      ⊢ (iprop(∃ f, ℓ ↦{fullShare} f) : sProp 𝕄) :=
  (Entails.of_eq (bigSep_dev_ring c fun d => (iprop(∃ f, ℓ ↦[S d]{fullShare} f) : sProp 𝕄)).symm).trans
    (tiles_join (dev_tiles key hk hm))

end Dev

theorem oSet_tiles : Tiles fun p : Dev nD × Fin 4 => oSet p.1 p.2 :=
  part_tiles _ (fun i : S4x1024x512.Idx => ((i 0).val, (i 2).val / 128)) (fun p => (p.1.val, p.2.val))
    (fun _ _ h => Prod.ext (Fin.ext (congrArg Prod.fst h)) (Fin.ext (congrArg Prod.snd h)))
    (fun i => ⟨(⟨_, (i 0).isLt⟩, ⟨_, by have : (i 2).val < 512 := (i 2).isLt; omega⟩), rfl⟩)
    fun p i => (mem_oSet p.1 p.2 i).trans Prod.mk_inj.symm

section Chains

variable (c : Dev nD)

theorem split_c_ring (f : Buf (Elt F) ((c : Thread nD τ).loc cc0_scratch1)) :
    ((c : Thread nD τ).loc cc0_scratch1 ↦{fullShare} f : sProp 𝕄)
      ⊢ iprop(((cM c).view.loc (c : Thread nD τ) ↦[(cM c).view.set]{fullShare} f)
          ∗ ((cM (pe c 0)).view.loc (c : Thread nD τ) ↦[(cM (pe c 0)).view.set]{fullShare} f)
          ∗ ((cM (pe c 1)).view.loc (c : Thread nD τ) ↦[(cM (pe c 1)).view.set]{fullShare} f)
          ∗ ((cM (pe c 2)).view.loc (c : Thread nD τ) ↦[(cM (pe c 2)).view.set]{fullShare} f)) :=
  dev_split (ℓ := (c : Thread nD τ).loc cc0_scratch1) (S := fun d => (cM d).view.set) c f
    (fun i : S4x1024x128.Idx => (i 0).val) (fun i => (i 0).isLt) mem_cM_set

theorem split_uk_ring (f : Buf (Elt F) ((c : Thread nD τ).loc cc0_scratch4)) :
    ((c : Thread nD τ).loc cc0_scratch4 ↦{fullShare} f : sProp 𝕄)
      ⊢ iprop(((ukD c).view.loc (c : Thread nD τ) ↦[(ukD c).view.set]{fullShare} f)
          ∗ ((ukD (pe c 0)).view.loc (c : Thread nD τ) ↦[(ukD (pe c 0)).view.set]{fullShare} f)
          ∗ ((ukD (pe c 1)).view.loc (c : Thread nD τ) ↦[(ukD (pe c 1)).view.set]{fullShare} f)
          ∗ ((ukD (pe c 2)).view.loc (c : Thread nD τ) ↦[(ukD (pe c 2)).view.set]{fullShare} f)) :=
  dev_split (ℓ := (c : Thread nD τ).loc cc0_scratch4) (S := fun d => (ukD d).view.set) c f
    (fun i : S4x128x512.Idx => (i 0).val) (fun i => (i 0).isLt) mem_ukD_set

theorem split_uv_ring (f : Buf (Elt F) ((c : Thread nD τ).loc cc0_scratch5)) :
    ((c : Thread nD τ).loc cc0_scratch5 ↦{fullShare} f : sProp 𝕄)
      ⊢ iprop(((uvD c).view.loc (c : Thread nD τ) ↦[(uvD c).view.set]{fullShare} f)
          ∗ ((uvD (pe c 0)).view.loc (c : Thread nD τ) ↦[(uvD (pe c 0)).view.set]{fullShare} f)
          ∗ ((uvD (pe c 1)).view.loc (c : Thread nD τ) ↦[(uvD (pe c 1)).view.set]{fullShare} f)
          ∗ ((uvD (pe c 2)).view.loc (c : Thread nD τ) ↦[(uvD (pe c 2)).view.set]{fullShare} f)) :=
  dev_split (ℓ := (c : Thread nD τ).loc cc0_scratch5) (S := fun d => (uvD d).view.set) c f
    (fun i : S4x128x512.Idx => (i 0).val) (fun i => (i 0).isLt) mem_uvD_set

def oSlot (d : Dev nD) (f : Buf (Elt F) ((c : Thread nD τ).loc cc0_scratch6)) : sProp 𝕄 :=
  iprop(((oM d 0).view.loc (c : Thread nD τ) ↦[(oM d 0).view.set]{fullShare} f)
    ∗ ((oM d 1).view.loc (c : Thread nD τ) ↦[(oM d 1).view.set]{fullShare} f)
    ∗ ((oM d 2).view.loc (c : Thread nD τ) ↦[(oM d 2).view.set]{fullShare} f)
    ∗ ((oM d 3).view.loc (c : Thread nD τ) ↦[(oM d 3).view.set]{fullShare} f))

theorem split_o_ring (f : Buf (Elt F) ((c : Thread nD τ).loc cc0_scratch6)) :
    ((c : Thread nD τ).loc cc0_scratch6 ↦{fullShare} f : sProp 𝕄)
      ⊢ iprop(oSlot (F := F) c c f ∗ oSlot (F := F) c (pe c 0) f ∗ oSlot (F := F) c (pe c 1) f ∗ oSlot (F := F) c (pe c 2) f) := by
  rw [tiles_blocks oSet_tiles fullShare f, bigSep_univ_prod, bigSep_dev_ring c]
  simp only [bigSep_fin4]
  exact .of_eq rfl

theorem join_c_ring :
    iprop(slotAny (F := F) c (cM c) ∗ slotAny (F := F) c (cM (pe c 0)) ∗ slotAny (F := F) c (cM (pe c 1))
        ∗ slotAny (F := F) c (cM (pe c 2)))
      ⊢ (iprop(∃ f, (c : Thread nD τ).loc cc0_scratch1 ↦{fullShare} f) : sProp 𝕄) :=
  dev_join (F := F) (ℓ := (c : Thread nD τ).loc cc0_scratch1) (S := fun d => (cM d).view.set) c
    (fun i : S4x1024x128.Idx => (i 0).val) (fun i => (i 0).isLt) mem_cM_set

theorem join_uk_ring :
    iprop(slotAny (F := F) c (ukD c) ∗ slotAny (F := F) c (ukD (pe c 0)) ∗ slotAny (F := F) c (ukD (pe c 1))
        ∗ slotAny (F := F) c (ukD (pe c 2)))
      ⊢ (iprop(∃ f, (c : Thread nD τ).loc cc0_scratch4 ↦{fullShare} f) : sProp 𝕄) :=
  dev_join (F := F) (ℓ := (c : Thread nD τ).loc cc0_scratch4) (S := fun d => (ukD d).view.set) c
    (fun i : S4x128x512.Idx => (i 0).val) (fun i => (i 0).isLt) mem_ukD_set

theorem join_uv_ring :
    iprop(slotAny (F := F) c (uvD c) ∗ slotAny (F := F) c (uvD (pe c 0)) ∗ slotAny (F := F) c (uvD (pe c 1))
        ∗ slotAny (F := F) c (uvD (pe c 2)))
      ⊢ (iprop(∃ f, (c : Thread nD τ).loc cc0_scratch5 ↦{fullShare} f) : sProp 𝕄) :=
  dev_join (F := F) (ℓ := (c : Thread nD τ).loc cc0_scratch5) (S := fun d => (uvD d).view.set) c
    (fun i : S4x128x512.Idx => (i 0).val) (fun i => (i 0).isLt) mem_uvD_set

def oSlotAny (d : Dev nD) : sProp 𝕄 :=
  iprop(slotAny (F := F) c (oM d 0) ∗ slotAny (F := F) c (oM d 1) ∗ slotAny (F := F) c (oM d 2) ∗ slotAny (F := F) c (oM d 3))

theorem join_o_ring :
    iprop(oSlotAny (F := F) c c ∗ oSlotAny (F := F) c (pe c 0) ∗ oSlotAny (F := F) c (pe c 1) ∗ oSlotAny (F := F) c (pe c 2))
      ⊢ (iprop(∃ f, (c : Thread nD τ).loc cc0_scratch6 ↦{fullShare} f) : sProp 𝕄) := by
  refine (Entails.of_eq ?_).trans (tiles_join (F := F) (ℓ := (c : Thread nD τ).loc cc0_scratch6) oSet_tiles)
  rw [bigSep_univ_prod, bigSep_dev_ring c]
  simp only [bigSep_fin4]
  rfl

end Chains

-- The full share halves twice: three quarters to lend and one to keep.
theorem share_split4_eq {ℓ : Loc nD τ sig} (I : Finset (Idx ℓ)) (f : Buf (Elt F) ℓ) :
    (ℓ ↦[I]{fullShare} f : sProp 𝕄)
      = iprop((ℓ ↦[I]{qP 0} f) ∗ (ℓ ↦[I]{qP 1} f) ∗ (ℓ ↦[I]{qP 2} f) ∗ (ℓ ↦[I]{qK} f)) := by
  have h (q : PosShare TreeShare) : (ℓ ↦[I]{q} f : sProp 𝕄) = iprop((ℓ ↦[I]{q.left} f) ∗ ℓ ↦[I]{q.right} f) :=
    have e := pointsTo_share (Ix := Unit) (Val := Elt F) (Name := ℕ) (U := UU) (Lvl := ℕ) (ℓ := ℓ) (I := I) (f := f)
      (PosShare.mem_left_op_right q)
    BI.equiv_iff.mp ⟨e.1, e.2⟩
  rw [h fullShare, h fullShare.left, h fullShare.right]
  exact BI.equiv_iff.mp ⟨Idealize.SL.BI.sep_assoc, Idealize.SL.BI.sep_assoc'⟩

end Cert.KernelIdealProof
end
-- ==== Proof.Slots2.lean ====
import proofs.«900571_g7700000000000572_dist_mla_v7x_i4_i_b2_s512_d2048_dc128_f32_1_alg».proof.Proof.Slots

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem mem_unit8 (c : Dev nD) (p : Fin 3) (i : S128x2048.Idx) :
    i ∈ (Rect.unit (s := S128x2048) (k0_off8 c (BitVec.ofNat 32 (1 + p.val))) S128x512.size (k0_off8_inb c p)).set
      ↔ (i 1).val / 512 = (pe c p).val := by
  rw [Rect.mem_set_unit]
  simp only [k0_off8_eq, pe]
  constructor
  · intro h; have h1 := h 1; simp at h1; omega
  · intro h a
    have := (i a).isLt
    fin_cases a <;> simp_all <;> omega

theorem mem_ukS_set (c : Dev nD) (p : Fin 3) (i : S128x2048.Idx) : i ∈ (ukS c p).view.set ↔ (i 1).val / 512 = (pe c p).val :=
  (Finset.ext_iff.mp (View.set_slice_whole cc0_scratch2 _) i).trans (mem_unit8 c p i)
theorem mem_uvS_set (c : Dev nD) (p : Fin 3) (i : S128x2048.Idx) : i ∈ (uvS c p).view.set ↔ (i 1).val / 512 = (pe c p).val :=
  (Finset.ext_iff.mp (View.set_slice_whole cc0_scratch3 _) i).trans (mem_unit8 c p i)

def partDev (c : Dev nD) : Fin 4 → Dev nD
  | 0 => pe c 0
  | 1 => pe c 1
  | 2 => pe c 2
  | 3 => c

theorem partDev_inj (c : Dev nD) : Function.Injective (partDev c) := by revert c; decide
theorem partDev_surj (c : Dev nD) : ∀ d : Dev nD, ∃ k, partDev c k = d := by revert c; decide

section Weights

variable {ℓ : Loc nD τ sig} (c : Dev nD) (A : Fin 3 → Finset (Idx ℓ))

-- Three parts and what they leave of the buffer.
def wSet : Fin 4 → Finset (Idx ℓ)
  | 0 => A 0
  | 1 => A 1
  | 2 => A 2
  | 3 => Finset.univ \ (A 0 ∪ A 1 ∪ A 2)

variable {A} (col : Idx ℓ → ℕ) (hc : ∀ i, col i < 4) (hA : ∀ p i, i ∈ A p ↔ col i = (pe c p).val)
include hc hA

-- The three parts are the column groups of the other devices, so the rest is the device's own.
theorem wSet_tiles : Tiles (wSet A) := by
  refine part_tiles _ col (fun k => (partDev c k).val) (fun _ _ h => partDev_inj c (Fin.ext h))
    (fun i => (partDev_surj c ⟨_, hc i⟩).imp fun _ h => congrArg Fin.val h) fun k i => ?_
  match k with
  | 0 => exact hA 0 i
  | 1 => exact hA 1 i
  | 2 => exact hA 2 i
  | 3 =>
    have := hc i
    have : c.val < 4 := c.isLt
    have h0 : (pe c 0).val = (c.val + 1) % 4 := rfl
    have h1 : (pe c 1).val = (c.val + 1 + 1) % 4 := rfl
    have h2 : (pe c 2).val = (c.val + 2 + 1) % 4 := rfl
    simp only [wSet, partDev, Finset.mem_sdiff, Finset.mem_univ, true_and, Finset.mem_union, hA]
    omega

theorem w_blocks (q : PosShare TreeShare) (f : Buf (Elt F) ℓ) :
    (ℓ ↦{q} f : sProp 𝕄)
      = iprop((ℓ ↦[A 0]{q} f) ∗ (ℓ ↦[A 1]{q} f) ∗ (ℓ ↦[A 2]{q} f) ∗ (ℓ ↦[Finset.univ \ (A 0 ∪ A 1 ∪ A 2)]{q} f)) :=
  (tiles_blocks (wSet_tiles c col hc hA) q f).trans (bigSep_fin4 _)

theorem w_join :
    iprop((∃ f, ℓ ↦[A 0]{fullShare} f) ∗ (∃ f, ℓ ↦[A 1]{fullShare} f) ∗ (∃ f, ℓ ↦[A 2]{fullShare} f)
        ∗ (∃ f, ℓ ↦[Finset.univ \ (A 0 ∪ A 1 ∪ A 2)]{fullShare} f))
      ⊢ (iprop(∃ f, ℓ ↦{fullShare} f) : sProp 𝕄) :=
  (Entails.of_eq (bigSep_fin4 fun k => (iprop(∃ f, ℓ ↦[wSet A k]{fullShare} f) : sProp 𝕄)).symm).trans
    (tiles_join (wSet_tiles c col hc hA))

end Weights

theorem col_lt (i : S128x2048.Idx) : (i 1).val / 512 < 4 := by have : (i 1).val < 2048 := (i 1).isLt; omega

section WeightBufs

variable (c : Dev nD)

theorem wuk_split (f : Buf (Elt F) ((c : Thread nD τ).loc cc0_scratch2)) :
    ((c : Thread nD τ).loc cc0_scratch2 ↦{fullShare} f : sProp 𝕄)
      ⊢ iprop((View.loc (c : Thread nD τ) (Memref.view (ukS c 0)) ↦[View.set (Memref.view (ukS c 0))]{fullShare} f)
          ∗ (View.loc (c : Thread nD τ) (Memref.view (ukS c 1)) ↦[View.set (Memref.view (ukS c 1))]{fullShare} f)
          ∗ (View.loc (c : Thread nD τ) (Memref.view (ukS c 2)) ↦[View.set (Memref.view (ukS c 2))]{fullShare} f)
          ∗ ((c : Thread nD τ).loc cc0_scratch2
              ↦[(Finset.univ \ ((ukS c 0).view.set ∪ (ukS c 1).view.set ∪ (ukS c 2).view.set) : Finset S128x2048.Idx)]{fullShare} f)) :=
  .of_eq (w_blocks (ℓ := (c : Thread nD τ).loc cc0_scratch2) (A := fun p => (ukS c p).view.set) c (fun i : S128x2048.Idx => (i 1).val / 512)
    col_lt (mem_ukS_set c) fullShare f)

theorem wuk_join :
    iprop(slotAny (F := F) c (ukS c 0) ∗ slotAny (F := F) c (ukS c 1) ∗ slotAny (F := F) c (ukS c 2)
        ∗ (∃ f, (c : Thread nD τ).loc cc0_scratch2
              ↦[(Finset.univ \ ((ukS c 0).view.set ∪ (ukS c 1).view.set ∪ (ukS c 2).view.set) : Finset S128x2048.Idx)]{fullShare} f))
      ⊢ (iprop(∃ f, (c : Thread nD τ).loc cc0_scratch2 ↦{fullShare} f) : sProp 𝕄) :=
  w_join (F := F) (ℓ := (c : Thread nD τ).loc cc0_scratch2) (A := fun p => (ukS c p).view.set) c (fun i : S128x2048.Idx => (i 1).val / 512)
    col_lt (mem_ukS_set c)

theorem wuv_split (f : Buf (Elt F) ((c : Thread nD τ).loc cc0_scratch3)) :
    ((c : Thread nD τ).loc cc0_scratch3 ↦{fullShare} f : sProp 𝕄)
      ⊢ iprop((View.loc (c : Thread nD τ) (Memref.view (uvS c 0)) ↦[View.set (Memref.view (uvS c 0))]{fullShare} f)
          ∗ (View.loc (c : Thread nD τ) (Memref.view (uvS c 1)) ↦[View.set (Memref.view (uvS c 1))]{fullShare} f)
          ∗ (View.loc (c : Thread nD τ) (Memref.view (uvS c 2)) ↦[View.set (Memref.view (uvS c 2))]{fullShare} f)
          ∗ ((c : Thread nD τ).loc cc0_scratch3
              ↦[(Finset.univ \ ((uvS c 0).view.set ∪ (uvS c 1).view.set ∪ (uvS c 2).view.set) : Finset S128x2048.Idx)]{fullShare} f)) :=
  .of_eq (w_blocks (ℓ := (c : Thread nD τ).loc cc0_scratch3) (A := fun p => (uvS c p).view.set) c (fun i : S128x2048.Idx => (i 1).val / 512)
    col_lt (mem_uvS_set c) fullShare f)

theorem wuv_join :
    iprop(slotAny (F := F) c (uvS c 0) ∗ slotAny (F := F) c (uvS c 1) ∗ slotAny (F := F) c (uvS c 2)
        ∗ (∃ f, (c : Thread nD τ).loc cc0_scratch3
              ↦[(Finset.univ \ ((uvS c 0).view.set ∪ (uvS c 1).view.set ∪ (uvS c 2).view.set) : Finset S128x2048.Idx)]{fullShare} f))
      ⊢ (iprop(∃ f, (c : Thread nD τ).loc cc0_scratch3 ↦{fullShare} f) : sProp 𝕄) :=
  w_join (F := F) (ℓ := (c : Thread nD τ).loc cc0_scratch3) (A := fun p => (uvS c p).view.set) c (fun i : S128x2048.Idx => (i 1).val / 512)
    col_lt (mem_uvS_set c)

end WeightBufs

theorem oS_inb : ∀ d : Dev nD, ∀ a, (![d.val, 0, 0] : Fin 3 → Nat) a + S1x1024x512.size a ≤ S4x1024x512.size a := by
  decide

def oS (d : Dev nD) : Memref sig .tc .vmem S1x1024x512 .bf16 :=
  A15.slice (Rect.unit (s := S4x1024x512) ![d.val, 0, 0] S1x1024x512.size (oS_inb d)) (fun _ => rfl)
def oSown (c : Dev nD) : Memref sig .tc .vmem S1x1024x512 .bf16 :=
  A15.slice (Rect.unit (s := S4x1024x512) (k0_off24 c) S1x1024x512.size (k0_off24_inb c)) (fun _ => rfl)
def oSog (c : Dev nD) (p : Fin 3) : Memref sig .tc .vmem S1x1024x512 .bf16 :=
  A15.slice (Rect.unit (s := S4x1024x512) (k0_off26 c (BitVec.ofNat 32 (1 + p.val))) S1x1024x512.size (k0_off26_inb c p)) (fun _ => rfl)

theorem mem_oS_set (d : Dev nD) (i : S4x1024x512.Idx) : i ∈ (oS d).view.set ↔ (i 0).val = d.val :=
  (Finset.ext_iff.mp (View.set_slice_whole cc0_scratch6 _) i).trans (mem_slot3 i d.val rfl)

theorem oSown_set (c : Dev nD) : ((oSown c).view.set : Finset S4x1024x512.Idx) = (oS c).view.set :=
  Finset.ext fun i => ((Finset.ext_iff.mp (View.set_slice_whole cc0_scratch6 _) i).trans
    (mem_slot3 i c.val (k0_off24_eq c))).trans (mem_oS_set c i).symm
theorem oSog_set (c : Dev nD) (p : Fin 3) : ((oSog c p).view.set : Finset S4x1024x512.Idx) = (oS (og c p)).view.set :=
  Finset.ext fun i => ((Finset.ext_iff.mp (View.set_slice_whole cc0_scratch6 _) i).trans
    (mem_slot3 i (og c p).val (k0_off26_eq c p))).trans (mem_oS_set (og c p) i).symm

-- A slot's elements are those of its four stripes.
theorem oS_set_eq_biUnion (d : Dev nD) : ((oS d).view.set : Finset S4x1024x512.Idx) = Finset.univ.biUnion (oSet d) :=
  Finset.ext fun (i : S4x1024x512.Idx) =>
    ⟨fun hi => Finset.mem_biUnion.mpr
        ⟨⟨(i 2).val / 128, show (i 2).val / 128 < 4 by have : (i 2).val < 512 := (i 2).isLt; omega⟩, Finset.mem_univ _,
          (mem_oSet d _ i).mpr ⟨(mem_oS_set d i).mp hi, rfl⟩⟩,
      fun hi => by
        obtain ⟨h, -, hh⟩ := Finset.mem_biUnion.mp hi
        exact (mem_oS_set d i).mpr ((mem_oSet d h i).mp hh).1⟩

def glue4 (c : Dev nD) (f0 f1 f2 f3 : Buf (Elt F) ((c : Thread nD τ).loc cc0_scratch6)) :
    Buf (Elt F) ((c : Thread nD τ).loc cc0_scratch6) :=
  fun i => if ((i : S4x1024x512.Idx) 2).val / 128 = 0 then f0 i
    else if ((i : S4x1024x512.Idx) 2).val / 128 = 1 then f1 i
    else if ((i : S4x1024x512.Idx) 2).val / 128 = 2 then f2 i else f3 i

section Glue

variable (c d : Dev nD) (q : PosShare TreeShare) (f0 f1 f2 f3 : Buf (Elt F) ((c : Thread nD τ).loc cc0_scratch6))

-- On stripe h the glued contents are the h-th of the four.
theorem glue4_on : ∀ (h : Fin 4) (i : S4x1024x512.Idx), i ∈ oSet d h →
    glue4 (F := F) c f0 f1 f2 f3 i = ![f0, f1, f2, f3] h i
  | 0, i, hi => by simp only [glue4, show (i 2).val / 128 = 0 from ((mem_oSet d 0 i).mp hi).2, if_true] <;> rfl
  | 1, i, hi => by simp only [glue4, show (i 2).val / 128 = 1 from ((mem_oSet d 1 i).mp hi).2, if_true] <;> rfl
  | 2, i, hi => by simp only [glue4, show (i 2).val / 128 = 2 from ((mem_oSet d 2 i).mp hi).2, if_true] <;> rfl
  | 3, i, hi => by simp only [glue4, show (i 2).val / 128 = 3 from ((mem_oSet d 3 i).mp hi).2, if_true] <;> rfl

theorem stripes_glue_eq :
    (iprop(((oM d 0).view.loc (c : Thread nD τ) ↦[(oM d 0).view.set]{q} f0)
          ∗ ((oM d 1).view.loc (c : Thread nD τ) ↦[(oM d 1).view.set]{q} f1)
          ∗ ((oM d 2).view.loc (c : Thread nD τ) ↦[(oM d 2).view.set]{q} f2)
          ∗ ((oM d 3).view.loc (c : Thread nD τ) ↦[(oM d 3).view.set]{q} f3)) : sProp 𝕄)
      = (View.loc (c : Thread nD τ) (Memref.view (oS d)) ↦[View.set (Memref.view (oS d))]{q} glue4 (F := F) c f0 f1 f2 f3) := by
  have hs : (View.loc (c : Thread nD τ) (Memref.view (oS d)) ↦[View.set (Memref.view (oS d))]{q} glue4 (F := F) c f0 f1 f2 f3 : sProp 𝕄)
      = ((c : Thread nD τ).loc cc0_scratch6 ↦[Finset.univ.biUnion (oSet d)]{q} glue4 (F := F) c f0 f1 f2 f3) :=
    congrArg (fun I : Finset S4x1024x512.Idx => ((c : Thread nD τ).loc cc0_scratch6 ↦[I]{q} glue4 (F := F) c f0 f1 f2 f3 : sProp 𝕄))
      (oS_set_eq_biUnion d)
  rw [hs, pointsTo_biUnion (Ix := Unit) (Val := Elt F) (Name := ℕ) (U := UU) (Lvl := ℕ) (ℓ := (c : Thread nD τ).loc cc0_scratch6)
    (q := q) (f := glue4 (F := F) c f0 f1 f2 f3) Finset.univ (oSet d) fun h _ h' _ hne => oSet_tiles.1 (d, h) (d, h') fun e => hne (congrArg Prod.snd e),
    bigSep_fin4]
  exact congrArg₂ _ (pointsTo_congr fun i hi => (glue4_on c d f0 f1 f2 f3 0 i hi).symm)
    (congrArg₂ _ (pointsTo_congr fun i hi => (glue4_on c d f0 f1 f2 f3 1 i hi).symm)
      (congrArg₂ _ (pointsTo_congr fun i hi => (glue4_on c d f0 f1 f2 f3 2 i hi).symm)
        (pointsTo_congr fun i hi => (glue4_on c d f0 f1 f2 f3 3 i hi).symm)))

theorem read_glue4_0 : (oM d 0).view.read (Elt F) (glue4 (F := F) c f0 f1 f2 f3) = (oM d 0).view.read (Elt F) f0 :=
  View.read_congr fun i hi => glue4_on c d f0 f1 f2 f3 0 i hi
theorem read_glue4_1 : (oM d 1).view.read (Elt F) (glue4 (F := F) c f0 f1 f2 f3) = (oM d 1).view.read (Elt F) f1 :=
  View.read_congr fun i hi => glue4_on c d f0 f1 f2 f3 1 i hi
theorem read_glue4_2 : (oM d 2).view.read (Elt F) (glue4 (F := F) c f0 f1 f2 f3) = (oM d 2).view.read (Elt F) f2 :=
  View.read_congr fun i hi => glue4_on c d f0 f1 f2 f3 2 i hi
theorem read_glue4_3 : (oM d 3).view.read (Elt F) (glue4 (F := F) c f0 f1 f2 f3) = (oM d 3).view.read (Elt F) f3 :=
  View.read_congr fun i hi => glue4_on c d f0 f1 f2 f3 3 i hi

end Glue

end Cert.KernelIdealProof
end
-- ==== Proof.Slots4.lean ====
import proofs.«900571_g7700000000000572_dist_mla_v7x_i4_i_b2_s512_d2048_dc128_f32_1_alg».proof.Proof.Slots2
import Idealize.ShloMosaic.Lib.ValueLayout

noncomputable section

namespace Cert.KernelIdealProof

open Cert.KernelIdeal Cert.KernelIdeal.Gen
open Idealize.ShloMosaic
open Idealize.ShloMosaic.TcCoe

variable {F : FTy → Type} [FloatOps F]

/-- An element of a unit-stride box sits at the box's offset on an axis where the box has extent one. -/
theorem unit_row {s : Shape} {off size : Fin s.rank → Nat} {inb : ∀ a, off a + size a ≤ s.size a} {i : s.Idx}
    (a : Fin s.rank) (h1 : size a = 1) (hi : i ∈ (Rect.unit off size inb).set) : (i a).val = off a := by
  have := Rect.mem_set_unit.mp hi a
  omega

theorem incl_c (c : Dev nD) (p : Fin 3) :
    ((Memref.whole cc0_scratch1).access (Rect.unit (s := S4x1024x128) (k0_off10 c (BitVec.ofNat 32 (1 + p.val))) S1x1024x128.size (k0_off10_inb c p))).set
      ⊆ (cM (og c p)).view.set := fun i hi =>
  (mem_cM_set (og c p) i).mpr ((unit_row 0 rfl ((Finset.ext_iff.mp (View.set_slice_whole cc0_scratch1 _) i).mp hi)).trans
    (congrFun (k0_off10_eq c p) 0))

theorem incl_uk (c : Dev nD) (p : Fin 3) :
    ((Memref.whole cc0_scratch4).access (Rect.unit (s := S4x128x512) (k0_off11 c (BitVec.ofNat 32 (1 + p.val))) S1x128x512.size (k0_off11_inb c p))).set
      ⊆ (ukD (og c p)).view.set := fun i hi =>
  (mem_ukD_set (og c p) i).mpr ((unit_row 0 rfl ((Finset.ext_iff.mp (View.set_slice_whole cc0_scratch4 _) i).mp hi)).trans
    (congrFun (k0_off11_eq c p) 0))

theorem incl_uv (c : Dev nD) (p : Fin 3) :
    ((Memref.whole cc0_scratch5).access (Rect.unit (s := S4x128x512) (k0_off11 c (BitVec.ofNat 32 (1 + p.val))) S1x128x512.size (k0_off11_inb c p))).set
      ⊆ (uvD (og c p)).view.set := fun i hi =>
  (mem_uvD_set (og c p) i).mpr ((unit_row 0 rfl ((Finset.ext_iff.mp (View.set_slice_whole cc0_scratch5 _) i).mp hi)).trans
    (congrFun (k0_off11_eq c p) 0))

end Cert.KernelIdealProof
end
-- ==== Proof.Slots5.lean ====
import proofs.«900571_g7700000000000572_dist_mla_v7x_i4_i_b2_s512_d2048_dc128_f32_1_alg».proof.Proof.Slots4

noncomputable section

namespace Cert.KernelIdealProof

open Cert.KernelIdeal Cert.KernelIdeal.Gen
open Idealize.ShloMosaic
open Idealize.ShloMosaic.TcCoe

variable {F : FTy → Type} [FloatOps F]

theorem incl_o_own (c : Dev nD) :
    ((Memref.whole cc0_scratch6).access (Rect.unit (s := S4x1024x512) (k0_off24 c) S1x1024x512.size (k0_off24_inb c))).set
      ⊆ (oS c).view.set := Finset.subset_of_eq (oSown_set c)

theorem incl_o_og (c : Dev nD) (p : Fin 3) :
    ((Memref.whole cc0_scratch6).access (Rect.unit (s := S4x1024x512) (k0_off26 c (BitVec.ofNat 32 (1 + p.val))) S1x1024x512.size (k0_off26_inb c p))).set
      ⊆ (oS (og c p)).view.set := Finset.subset_of_eq (oSog_set c p)

theorem incl_o_og_1 (c : Dev nD) :
    ((Memref.whole cc0_scratch6).access (Rect.unit (s := S4x1024x512) (k0_off26 c 1#32) S1x1024x512.size (k0_off26_inb c 0))).set
      ⊆ (oS (og c 0)).view.set := incl_o_og c 0
theorem incl_o_og_2 (c : Dev nD) :
    ((Memref.whole cc0_scratch6).access (Rect.unit (s := S4x1024x512) (k0_off26 c 2#32) S1x1024x512.size (k0_off26_inb c 1))).set
      ⊆ (oS (og c 1)).view.set := incl_o_og c 1
theorem incl_o_og_3 (c : Dev nD) :
    ((Memref.whole cc0_scratch6).access (Rect.unit (s := S4x1024x512) (k0_off26 c 3#32) S1x1024x512.size (k0_off26_inb c 2))).set
      ⊆ (oS (og c 2)).view.set := incl_o_og c 2

end Cert.KernelIdealProof
end
-- ==== Proof.Slots6.lean ====
import proofs.«900571_g7700000000000572_dist_mla_v7x_i4_i_b2_s512_d2048_dc128_f32_1_alg».proof.Proof.Slots5

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Two shares of one region agree on its contents, so the one held at `g` may be held at `f` instead. -/
theorem share_rebase {ℓ : Loc nD τ sig} (I : Finset (Idx ℓ)) (q q' : PosShare TreeShare) (g f : Buf (Elt F) ℓ) :
    (iprop((ℓ ↦[I]{q} g) ∗ (ℓ ↦[I]{q'} f)) : sProp 𝕄) ⊢ iprop((ℓ ↦[I]{q} f) ∗ (ℓ ↦[I]{q'} f)) := by
  refine (persistent_entails_right pointsTo_agree).trans ?_
  iintro ⟨%hag, H, HK⟩
  rw [pointsTo_congr (f := g) (g := f) fun i hi => (hag i (Finset.mem_inter.mpr ⟨hi, hi⟩)).1]
  exact .rfl

theorem share_merge4 {ℓ : Loc nD τ sig} (I : Finset (Idx ℓ)) (f0 f1 f2 f : Buf (Elt F) ℓ) :
    (iprop((ℓ ↦[I]{qP 0} f0) ∗ (ℓ ↦[I]{qP 1} f1) ∗ (ℓ ↦[I]{qP 2} f2) ∗ (ℓ ↦[I]{qK} f)) : sProp 𝕄)
      ⊢ (ℓ ↦[I]{fullShare} f : sProp 𝕄) := by
  iintro ⟨H0, H1, H2, HK⟩
  ihave Ha := (share_rebase I (qP 0) qK f0 f) $$ [H0 HK]
  · iframe
  icases Ha with ⟨H0, HK⟩
  ihave Hb := (share_rebase I (qP 1) qK f1 f) $$ [H1 HK]
  · iframe
  icases Hb with ⟨H1, HK⟩
  ihave Hc := (share_rebase I (qP 2) qK f2 f) $$ [H2 HK]
  · iframe
  icases Hc with ⟨H2, HK⟩
  iapply (Entails.of_eq (share_split4_eq (F := F) I f).symm)
  iframe

theorem merge_any {ℓ : Loc nD τ sig} (I : Finset (Idx ℓ)) :
    (iprop((∃ f, ℓ ↦[I]{qP 0} f) ∗ (∃ f, ℓ ↦[I]{qP 1} f) ∗ (∃ f, ℓ ↦[I]{qP 2} f) ∗ (∃ f, ℓ ↦[I]{qK} f)) : sProp 𝕄)
      ⊢ (iprop(∃ g, ℓ ↦[I]{fullShare} g) : sProp 𝕄) := by
  iintro ⟨⟨%f0, H0⟩, ⟨%f1, H1⟩, ⟨%f2, H2⟩, ⟨%f, HK⟩⟩
  iexists f
  iapply (share_merge4 (F := F) I f0 f1 f2 f)
  iframe

end Cert.KernelIdealProof
end
-- ==== Proof.Exit.lean ====
import proofs.«900571_g7700000000000572_dist_mla_v7x_i4_i_b2_s512_d2048_dc128_f32_1_alg».proof.Proof.LaunchGhost
import proofs.«900571_g7700000000000572_dist_mla_v7x_i4_i_b2_s512_d2048_dc128_f32_1_alg».proof.Proof.Tables
import proofs.«900571_g7700000000000572_dist_mla_v7x_i4_i_b2_s512_d2048_dc128_f32_1_alg».proof.Proof.Slots

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : PVals F)

-- No later round of a cell has a duty, so a cell past round 0 is closed and its semaphore comes back at zero.
theorem close_one (κ : ℕ) (c : Dev nD) (k : CK) (hk : k ≠ .bar) :
    iprop(cellInv ER (sched V) κ (cell c k) ∗ atPos ER (cell c k) 1 ∅ 0) ⊢ (|={Set.univ}=> semVal (cell c k) 0 : sProp 𝕄) :=
  Rounds.cell_close ER (sched V) (Set.mem_univ κ) (fun h => h) (fun r hr => duties_later V (cell c k) r hr)

theorem both {A B A' B' : sProp 𝕄} (h1 : A ⊢ |={Set.univ}=> A') (h2 : B ⊢ |={Set.univ}=> B') :
    iprop(A ∗ B) ⊢ |={Set.univ}=> iprop(A' ∗ B') :=
  (BIClass.sep_mono h1 h2).trans fupd_sep

-- Going one, two, three places back round the ring of four meets the same devices as going three, two, one places on.
theorem ring_og (Φ : Dev nD → sProp 𝕄) (c : Dev nD) :
    iprop(Φ c ∗ Φ (og c 0) ∗ Φ (og c 1) ∗ Φ (og c 2)) ⊢ iprop(Φ c ∗ Φ (pe c 0) ∗ Φ (pe c 1) ∗ Φ (pe c 2)) := by
  rw [show og c 0 = pe c 2 by revert c; decide, show og c 1 = pe c 1 by revert c; decide, show og c 2 = pe c 0 by revert c; decide]
  iintro ⟨H, H2, H1, H0⟩
  iframe

-- The four slotted scratch buffers are whole again once the device's own slot and its three peers' are back.
theorem scratch_exit_og (c : Dev nD) :
    iprop((∃ f : Buf (Elt F) ((c : Thread nD τ).loc cc0_scratch0), ((c : Thread nD τ).loc cc0_scratch0) ↦{fullShare} f)
      ∗ (slotAny (F := F) c (cM c) ∗ slotAny (F := F) c (cM (og c 0)) ∗ slotAny (F := F) c (cM (og c 1)) ∗ slotAny (F := F) c (cM (og c 2)))
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ (slotAny (F := F) c (ukD c) ∗ slotAny (F := F) c (ukD (og c 0)) ∗ slotAny (F := F) c (ukD (og c 1)) ∗ slotAny (F := F) c (ukD (og c 2)))
      ∗ (slotAny (F := F) c (uvD c) ∗ slotAny (F := F) c (uvD (og c 0)) ∗ slotAny (F := F) c (uvD (og c 1)) ∗ slotAny (F := F) c (uvD (og c 2)))
      ∗ (oSlotAny (F := F) c c ∗ oSlotAny (F := F) c (og c 0) ∗ oSlotAny (F := F) c (og c 1) ∗ oSlotAny (F := F) c (og c 2))
      ∗ (∃ f : Buf (Elt F) ((c : Thread nD τ).loc cc0_scratch7), ((c : Thread nD τ).loc cc0_scratch7) ↦{fullShare} f)
      ∗ (∃ f : Buf (Elt F) ((c : Thread nD τ).loc cc0_scratch8), ((c : Thread nD τ).loc cc0_scratch8) ↦{fullShare} f))
    ⊢ scratchAny (F := F) c := by
  unfold scratchAny; rw [scopedRest0_eq]
  iintro ⟨H0, H1, H2, H3, H4, H5, H6, H7, H8⟩
  ihave J1 := ((ring_og (fun d => slotAny (F := F) c (cM d)) c).trans (join_c_ring c)) $$ H1
  ihave J4 := ((ring_og (fun d => slotAny (F := F) c (ukD d)) c).trans (join_uk_ring c)) $$ H4
  ihave J5 := ((ring_og (fun d => slotAny (F := F) c (uvD d)) c).trans (join_uv_ring c)) $$ H5
  ihave J6 := ((ring_og (fun d => oSlotAny (F := F) c d) c).trans (join_o_ring c)) $$ H6
  iframe

/-- info: 'Cert.KernelIdealProof.close_one' depends on axioms: [propext, Classical.choice, Quot.sound] -/
#guard_msgs in #print axioms close_one
/-- info: 'Cert.KernelIdealProof.scratch_exit_og' depends on axioms: [propext, Classical.choice, Quot.sound] -/
#guard_msgs in #print axioms scratch_exit_og

end Cert.KernelIdealProof
end
-- ==== Proof.ExitChain.lean ====
import proofs.«900571_g7700000000000572_dist_mla_v7x_i4_i_b2_s512_d2048_dc128_f32_1_alg».proof.Proof.Exit

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : PVals F)

-- Each of the 42 one-round cells gives its semaphore back at zero; together with the two local transfers' semaphores these are all the device's own.
theorem close_all (K : Dev nD × CK → ℕ) (c : Dev nD) :
    iprop((cellInv ER (sched V) (K (c, .ps 0 0)) (cell c (.ps 0 0)) ∗ atPos ER (cell c (.ps 0 0)) 1 ∅ 0)
      ∗ (cellInv ER (sched V) (K (c, .ps 0 1)) (cell c (.ps 0 1)) ∗ atPos ER (cell c (.ps 0 1)) 1 ∅ 0)
      ∗ (cellInv ER (sched V) (K (c, .ps 0 2)) (cell c (.ps 0 2)) ∗ atPos ER (cell c (.ps 0 2)) 1 ∅ 0)
      ∗ (cellInv ER (sched V) (K (c, .ps 1 0)) (cell c (.ps 1 0)) ∗ atPos ER (cell c (.ps 1 0)) 1 ∅ 0)
      ∗ (cellInv ER (sched V) (K (c, .ps 1 1)) (cell c (.ps 1 1)) ∗ atPos ER (cell c (.ps 1 1)) 1 ∅ 0)
      ∗ (cellInv ER (sched V) (K (c, .ps 1 2)) (cell c (.ps 1 2)) ∗ atPos ER (cell c (.ps 1 2)) 1 ∅ 0)
      ∗ (cellInv ER (sched V) (K (c, .ps 2 0)) (cell c (.ps 2 0)) ∗ atPos ER (cell c (.ps 2 0)) 1 ∅ 0)
      ∗ (cellInv ER (sched V) (K (c, .ps 2 1)) (cell c (.ps 2 1)) ∗ atPos ER (cell c (.ps 2 1)) 1 ∅ 0)
      ∗ (cellInv ER (sched V) (K (c, .ps 2 2)) (cell c (.ps 2 2)) ∗ atPos ER (cell c (.ps 2 2)) 1 ∅ 0)
      ∗ (cellInv ER (sched V) (K (c, .pr 0 0)) (cell c (.pr 0 0)) ∗ atPos ER (cell c (.pr 0 0)) 1 ∅ 0)
      ∗ (cellInv ER (sched V) (K (c, .pr 0 1)) (cell c (.pr 0 1)) ∗ atPos ER (cell c (.pr 0 1)) 1 ∅ 0)
      ∗ (cellInv ER (sched V) (K (c, .pr 0 2)) (cell c (.pr 0 2)) ∗ atPos ER (cell c (.pr 0 2)) 1 ∅ 0)
      ∗ (cellInv ER (sched V) (K (c, .pr 1 0)) (cell c (.pr 1 0)) ∗ atPos ER (cell c (.pr 1 0)) 1 ∅ 0)
      ∗ (cellInv ER (sched V) (K (c, .pr 1 1)) (cell c (.pr 1 1)) ∗ atPos ER (cell c (.pr 1 1)) 1 ∅ 0)
      ∗ (cellInv ER (sched V) (K (c, .pr 1 2)) (cell c (.pr 1 2)) ∗ atPos ER (cell c (.pr 1 2)) 1 ∅ 0)
      ∗ (cellInv ER (sched V) (K (c, .pr 2 0)) (cell c (.pr 2 0)) ∗ atPos ER (cell c (.pr 2 0)) 1 ∅ 0)
      ∗ (cellInv ER (sched V) (K (c, .pr 2 1)) (cell c (.pr 2 1)) ∗ atPos ER (cell c (.pr 2 1)) 1 ∅ 0)
      ∗ (cellInv ER (sched V) (K (c, .pr 2 2)) (cell c (.pr 2 2)) ∗ atPos ER (cell c (.pr 2 2)) 1 ∅ 0)
      ∗ (cellInv ER (sched V) (K (c, .os 0 0)) (cell c (.os 0 0)) ∗ atPos ER (cell c (.os 0 0)) 1 ∅ 0)
      ∗ (cellInv ER (sched V) (K (c, .os 0 1)) (cell c (.os 0 1)) ∗ atPos ER (cell c (.os 0 1)) 1 ∅ 0)
      ∗ (cellInv ER (sched V) (K (c, .os 0 2)) (cell c (.os 0 2)) ∗ atPos ER (cell c (.os 0 2)) 1 ∅ 0)
      ∗ (cellInv ER (sched V) (K (c, .os 0 3)) (cell c (.os 0 3)) ∗ atPos ER (cell c (.os 0 3)) 1 ∅ 0)
      ∗ (cellInv ER (sched V) (K (c, .os 1 0)) (cell c (.os 1 0)) ∗ atPos ER (cell c (.os 1 0)) 1 ∅ 0)
      ∗ (cellInv ER (sched V) (K (c, .os 1 1)) (cell c (.os 1 1)) ∗ atPos ER (cell c (.os 1 1)) 1 ∅ 0)
      ∗ (cellInv ER (sched V) (K (c, .os 1 2)) (cell c (.os 1 2)) ∗ atPos ER (cell c (.os 1 2)) 1 ∅ 0)
      ∗ (cellInv ER (sched V) (K (c, .os 1 3)) (cell c (.os 1 3)) ∗ atPos ER (cell c (.os 1 3)) 1 ∅ 0)
      ∗ (cellInv ER (sched V) (K (c, .os 2 0)) (cell c (.os 2 0)) ∗ atPos ER (cell c (.os 2 0)) 1 ∅ 0)
      ∗ (cellInv ER (sched V) (K (c, .os 2 1)) (cell c (.os 2 1)) ∗ atPos ER (cell c (.os 2 1)) 1 ∅ 0)
      ∗ (cellInv ER (sched V) (K (c, .os 2 2)) (cell c (.os 2 2)) ∗ atPos ER (cell c (.os 2 2)) 1 ∅ 0)
      ∗ (cellInv ER (sched V) (K (c, .os 2 3)) (cell c (.os 2 3)) ∗ atPos ER (cell c (.os 2 3)) 1 ∅ 0)
      ∗ (cellInv ER (sched V) (K (c, .orr 0 0)) (cell c (.orr 0 0)) ∗ atPos ER (cell c (.orr 0 0)) 1 ∅ 0)
      ∗ (cellInv ER (sched V) (K (c, .orr 0 1)) (cell c (.orr 0 1)) ∗ atPos ER (cell c (.orr 0 1)) 1 ∅ 0)
      ∗ (cellInv ER (sched V) (K (c, .orr 0 2)) (cell c (.orr 0 2)) ∗ atPos ER (cell c (.orr 0 2)) 1 ∅ 0)
      ∗ (cellInv ER (sched V) (K (c, .orr 0 3)) (cell c (.orr 0 3)) ∗ atPos ER (cell c (.orr 0 3)) 1 ∅ 0)
      ∗ (cellInv ER (sched V) (K (c, .orr 1 0)) (cell c (.orr 1 0)) ∗ atPos ER (cell c (.orr 1 0)) 1 ∅ 0)
      ∗ (cellInv ER (sched V) (K (c, .orr 1 1)) (cell c (.orr 1 1)) ∗ atPos ER (cell c (.orr 1 1)) 1 ∅ 0)
      ∗ (cellInv ER (sched V) (K (c, .orr 1 2)) (cell c (.orr 1 2)) ∗ atPos ER (cell c (.orr 1 2)) 1 ∅ 0)
      ∗ (cellInv ER (sched V) (K (c, .orr 1 3)) (cell c (.orr 1 3)) ∗ atPos ER (cell c (.orr 1 3)) 1 ∅ 0)
      ∗ (cellInv ER (sched V) (K (c, .orr 2 0)) (cell c (.orr 2 0)) ∗ atPos ER (cell c (.orr 2 0)) 1 ∅ 0)
      ∗ (cellInv ER (sched V) (K (c, .orr 2 1)) (cell c (.orr 2 1)) ∗ atPos ER (cell c (.orr 2 1)) 1 ∅ 0)
      ∗ (cellInv ER (sched V) (K (c, .orr 2 2)) (cell c (.orr 2 2)) ∗ atPos ER (cell c (.orr 2 2)) 1 ∅ 0)
      ∗ (cellInv ER (sched V) (K (c, .orr 2 3)) (cell c (.orr 2 3)) ∗ atPos ER (cell c (.orr 2 3)) 1 ∅ 0)
      ∗ semVal ((c : Thread nD τ), .dma wqS) 0 ∗ semVal ((c : Thread nD τ), .dma woS) 0)
    ⊢ (|={Set.univ}=> Pipeline.ownSems0 (Ix := Unit) (Name := ℕ) (U := UU) (Lvl := ℕ) (Val := Elt F) (τ := τ) osem c : sProp 𝕄) := by
  rw [Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43] (by decide) (by decide)]
  iterate 42 refine both (close_one V _ c _ (by decide)) ?_
  exact fupd_intro

/-- info: 'Cert.KernelIdealProof.close_all' depends on axioms: [propext, Classical.choice, Quot.sound] -/
#guard_msgs in #print axioms close_all

end Cert.KernelIdealProof
end
-- ==== Proof.BodyCtx.lean ====
import proofs.«900571_g7700000000000572_dist_mla_v7x_i4_i_b2_s512_d2048_dc128_f32_1_alg».proof.Proof.Data
import proofs.«900571_g7700000000000572_dist_mla_v7x_i4_i_b2_s512_d2048_dc128_f32_1_alg».proof.Proof.Tables
import proofs.«900571_g7700000000000572_dist_mla_v7x_i4_i_b2_s512_d2048_dc128_f32_1_alg».proof.Proof.Slots

noncomputable section

namespace Cert.KernelIdealProof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : PVals F)

def Bs0 : Memref sig .tc .vmem S2x512x2048 .f32 := Memref.whole cc0_stg0_0
def Bs1 : Memref sig .tc .vmem S2048x128 .f32 := Memref.whole cc0_stg1_0
def Bs2 : Memref sig .tc .vmem S128x2048 .f32 := Memref.whole cc0_stg2_0
def Bs3 : Memref sig .tc .vmem S128x2048 .f32 := Memref.whole cc0_stg3_0
def Bs4 : Memref sig .tc .vmem S2048x32 .f32 := Memref.whole cc0_stg4_0
def Bs5 : Memref sig .tc .vmem S2048x512 .f32 := Memref.whole cc0_stg5_0
def Bs6 : Memref sig .tc .vmem S2x512x2048 .f32 := Memref.whole cc0_stg6_0
def B4 : Memref sig .tc .hbm S2048x2048 .f32 := Memref.whole main_arg4
def B7 : Memref sig .tc .hbm S2048x2048 .f32 := Memref.whole main_arg7
def B9 : Memref sig .tc .vmem S1024x2048 .bf16 := Memref.whole cc0_scratch0
def B11 : Memref sig .tc .vmem S128x2048 .bf16 := Memref.whole cc0_scratch2
def B12 : Memref sig .tc .vmem S128x2048 .bf16 := Memref.whole cc0_scratch3
def B16 : Memref sig .tc .vmem S2048x512 .f32 := Memref.whole cc0_scratch7
def B17 : Memref sig .tc .vmem S512x2048 .f32 := Memref.whole cc0_scratch8

local notation "PT(" c ", " M ", " q ", " f ")" => (View.loc (c : Thread nD τ) (Memref.view M) ↦[View.set (Memref.view M)]{q} f)

def bodyCtx (K : Dev nD × CK → ℕ) (c : Dev nD) (W : Waits sig Unit)
    (X0 : Buf (Elt F) ((c : Thread nD τ).loc cc0_stg0_0)) (X1 : Buf (Elt F) ((c : Thread nD τ).loc cc0_stg1_0)) (X2 : Buf (Elt F) ((c : Thread nD τ).loc cc0_stg2_0))
    (X3 : Buf (Elt F) ((c : Thread nD τ).loc cc0_stg3_0)) (X4 : Buf (Elt F) ((c : Thread nD τ).loc cc0_stg4_0)) (X5 : Buf (Elt F) ((c : Thread nD τ).loc cc0_stg5_0))
    (X6 : Buf (Elt F) ((c : Thread nD τ).loc cc0_stg6_0))
    (m4 : Buf (Elt F) ((c : Thread nD τ).loc main_arg4)) (m7 : Buf (Elt F) ((c : Thread nD τ).loc main_arg7))
    (f9 : Buf (Elt F) ((c : Thread nD τ).loc cc0_scratch0)) (f10 : Buf (Elt F) ((c : Thread nD τ).loc cc0_scratch1))
    (f11 : Buf (Elt F) ((c : Thread nD τ).loc cc0_scratch2)) (f12 : Buf (Elt F) ((c : Thread nD τ).loc cc0_scratch3))
    (f13 : Buf (Elt F) ((c : Thread nD τ).loc cc0_scratch4)) (f14 : Buf (Elt F) ((c : Thread nD τ).loc cc0_scratch5))
    (f15 : Buf (Elt F) ((c : Thread nD τ).loc cc0_scratch6))
    (f16 : Buf (Elt F) ((c : Thread nD τ).loc cc0_scratch7)) (f17 : Buf (Elt F) ((c : Thread nD τ).loc cc0_scratch8)) : sProp 𝕄 :=
  iprop(cellInv ER (sched V) (K (c, CK.bar)) (cell c .bar)
    ∗ cellInv ER (sched V) (K (c, (CK.ps 0 0))) (cell c (.ps 0 0))
    ∗ cellInv ER (sched V) (K (c, (CK.ps 0 1))) (cell c (.ps 0 1))
    ∗ cellInv ER (sched V) (K (c, (CK.ps 0 2))) (cell c (.ps 0 2))
    ∗ cellInv ER (sched V) (K (c, (CK.ps 1 0))) (cell c (.ps 1 0))
    ∗ cellInv ER (sched V) (K (c, (CK.ps 1 1))) (cell c (.ps 1 1))
    ∗ cellInv ER (sched V) (K (c, (CK.ps 1 2))) (cell c (.ps 1 2))
    ∗ cellInv ER (sched V) (K (c, (CK.ps 2 0))) (cell c (.ps 2 0))
    ∗ cellInv ER (sched V) (K (c, (CK.ps 2 1))) (cell c (.ps 2 1))
    ∗ cellInv ER (sched V) (K (c, (CK.ps 2 2))) (cell c (.ps 2 2))
    ∗ cellInv ER (sched V) (K (c, (CK.pr 0 0))) (cell c (.pr 0 0))
    ∗ cellInv ER (sched V) (K (c, (CK.pr 0 1))) (cell c (.pr 0 1))
    ∗ cellInv ER (sched V) (K (c, (CK.pr 0 2))) (cell c (.pr 0 2))
    ∗ cellInv ER (sched V) (K (c, (CK.pr 1 0))) (cell c (.pr 1 0))
    ∗ cellInv ER (sched V) (K (c, (CK.pr 1 1))) (cell c (.pr 1 1))
    ∗ cellInv ER (sched V) (K (c, (CK.pr 1 2))) (cell c (.pr 1 2))
    ∗ cellInv ER (sched V) (K (c, (CK.pr 2 0))) (cell c (.pr 2 0))
    ∗ cellInv ER (sched V) (K (c, (CK.pr 2 1))) (cell c (.pr 2 1))
    ∗ cellInv ER (sched V) (K (c, (CK.pr 2 2))) (cell c (.pr 2 2))
    ∗ cellInv ER (sched V) (K (c, (CK.os 0 0))) (cell c (.os 0 0))
    ∗ cellInv ER (sched V) (K (c, (CK.os 0 1))) (cell c (.os 0 1))
    ∗ cellInv ER (sched V) (K (c, (CK.os 0 2))) (cell c (.os 0 2))
    ∗ cellInv ER (sched V) (K (c, (CK.os 0 3))) (cell c (.os 0 3))
    ∗ cellInv ER (sched V) (K (c, (CK.os 1 0))) (cell c (.os 1 0))
    ∗ cellInv ER (sched V) (K (c, (CK.os 1 1))) (cell c (.os 1 1))
    ∗ cellInv ER (sched V) (K (c, (CK.os 1 2))) (cell c (.os 1 2))
    ∗ cellInv ER (sched V) (K (c, (CK.os 1 3))) (cell c (.os 1 3))
    ∗ cellInv ER (sched V) (K (c, (CK.os 2 0))) (cell c (.os 2 0))
    ∗ cellInv ER (sched V) (K (c, (CK.os 2 1))) (cell c (.os 2 1))
    ∗ cellInv ER (sched V) (K (c, (CK.os 2 2))) (cell c (.os 2 2))
    ∗ cellInv ER (sched V) (K (c, (CK.os 2 3))) (cell c (.os 2 3))
    ∗ cellInv ER (sched V) (K (c, (CK.orr 0 0))) (cell c (.orr 0 0))
    ∗ cellInv ER (sched V) (K (c, (CK.orr 0 1))) (cell c (.orr 0 1))
    ∗ cellInv ER (sched V) (K (c, (CK.orr 0 2))) (cell c (.orr 0 2))
    ∗ cellInv ER (sched V) (K (c, (CK.orr 0 3))) (cell c (.orr 0 3))
    ∗ cellInv ER (sched V) (K (c, (CK.orr 1 0))) (cell c (.orr 1 0))
    ∗ cellInv ER (sched V) (K (c, (CK.orr 1 1))) (cell c (.orr 1 1))
    ∗ cellInv ER (sched V) (K (c, (CK.orr 1 2))) (cell c (.orr 1 2))
    ∗ cellInv ER (sched V) (K (c, (CK.orr 1 3))) (cell c (.orr 1 3))
    ∗ cellInv ER (sched V) (K (c, (CK.orr 2 0))) (cell c (.orr 2 0))
    ∗ cellInv ER (sched V) (K (c, (CK.orr 2 1))) (cell c (.orr 2 1))
    ∗ cellInv ER (sched V) (K (c, (CK.orr 2 2))) (cell c (.orr 2 2))
    ∗ cellInv ER (sched V) (K (c, (CK.orr 2 3))) (cell c (.orr 2 3))
    ∗ cellInv ER (sched V) (K (pe c 0, CK.bar)) (cell (pe c 0) .bar)
    ∗ cellInv ER (sched V) (K (pe c 1, CK.bar)) (cell (pe c 1) .bar)
    ∗ cellInv ER (sched V) (K (pe c 2, CK.bar)) (cell (pe c 2) .bar)
    ∗ cellInv ER (sched V) (K (pe c 0, (CK.pr 0 0))) (cell (pe c 0) (.pr 0 0))
    ∗ cellInv ER (sched V) (K (pe c 0, (CK.pr 0 1))) (cell (pe c 0) (.pr 0 1))
    ∗ cellInv ER (sched V) (K (pe c 0, (CK.pr 0 2))) (cell (pe c 0) (.pr 0 2))
    ∗ cellInv ER (sched V) (K (pe c 1, (CK.pr 1 0))) (cell (pe c 1) (.pr 1 0))
    ∗ cellInv ER (sched V) (K (pe c 1, (CK.pr 1 1))) (cell (pe c 1) (.pr 1 1))
    ∗ cellInv ER (sched V) (K (pe c 1, (CK.pr 1 2))) (cell (pe c 1) (.pr 1 2))
    ∗ cellInv ER (sched V) (K (pe c 2, (CK.pr 2 0))) (cell (pe c 2) (.pr 2 0))
    ∗ cellInv ER (sched V) (K (pe c 2, (CK.pr 2 1))) (cell (pe c 2) (.pr 2 1))
    ∗ cellInv ER (sched V) (K (pe c 2, (CK.pr 2 2))) (cell (pe c 2) (.pr 2 2))
    ∗ cellInv ER (sched V) (K (pe c 0, (CK.orr 0 0))) (cell (pe c 0) (.orr 0 0))
    ∗ cellInv ER (sched V) (K (pe c 0, (CK.orr 0 1))) (cell (pe c 0) (.orr 0 1))
    ∗ cellInv ER (sched V) (K (pe c 0, (CK.orr 0 2))) (cell (pe c 0) (.orr 0 2))
    ∗ cellInv ER (sched V) (K (pe c 0, (CK.orr 0 3))) (cell (pe c 0) (.orr 0 3))
    ∗ cellInv ER (sched V) (K (pe c 1, (CK.orr 1 0))) (cell (pe c 1) (.orr 1 0))
    ∗ cellInv ER (sched V) (K (pe c 1, (CK.orr 1 1))) (cell (pe c 1) (.orr 1 1))
    ∗ cellInv ER (sched V) (K (pe c 1, (CK.orr 1 2))) (cell (pe c 1) (.orr 1 2))
    ∗ cellInv ER (sched V) (K (pe c 1, (CK.orr 1 3))) (cell (pe c 1) (.orr 1 3))
    ∗ cellInv ER (sched V) (K (pe c 2, (CK.orr 2 0))) (cell (pe c 2) (.orr 2 0))
    ∗ cellInv ER (sched V) (K (pe c 2, (CK.orr 2 1))) (cell (pe c 2) (.orr 2 1))
    ∗ cellInv ER (sched V) (K (pe c 2, (CK.orr 2 2))) (cell (pe c 2) (.orr 2 2))
    ∗ cellInv ER (sched V) (K (pe c 2, (CK.orr 2 3))) (cell (pe c 2) (.orr 2 3))
    ∗ reached ER (cell c .bar) 0
    ∗ reached ER (cell c (.ps 0 0)) 0
    ∗ reached ER (cell c (.ps 0 1)) 0
    ∗ reached ER (cell c (.ps 0 2)) 0
    ∗ reached ER (cell c (.ps 1 0)) 0
    ∗ reached ER (cell c (.ps 1 1)) 0
    ∗ reached ER (cell c (.ps 1 2)) 0
    ∗ reached ER (cell c (.ps 2 0)) 0
    ∗ reached ER (cell c (.ps 2 1)) 0
    ∗ reached ER (cell c (.ps 2 2)) 0
    ∗ reached ER (cell c (.pr 0 0)) 0
    ∗ reached ER (cell c (.pr 0 1)) 0
    ∗ reached ER (cell c (.pr 0 2)) 0
    ∗ reached ER (cell c (.pr 1 0)) 0
    ∗ reached ER (cell c (.pr 1 1)) 0
    ∗ reached ER (cell c (.pr 1 2)) 0
    ∗ reached ER (cell c (.pr 2 0)) 0
    ∗ reached ER (cell c (.pr 2 1)) 0
    ∗ reached ER (cell c (.pr 2 2)) 0
    ∗ reached ER (cell c (.os 0 0)) 0
    ∗ reached ER (cell c (.os 0 1)) 0
    ∗ reached ER (cell c (.os 0 2)) 0
    ∗ reached ER (cell c (.os 0 3)) 0
    ∗ reached ER (cell c (.os 1 0)) 0
    ∗ reached ER (cell c (.os 1 1)) 0
    ∗ reached ER (cell c (.os 1 2)) 0
    ∗ reached ER (cell c (.os 1 3)) 0
    ∗ reached ER (cell c (.os 2 0)) 0
    ∗ reached ER (cell c (.os 2 1)) 0
    ∗ reached ER (cell c (.os 2 2)) 0
    ∗ reached ER (cell c (.os 2 3)) 0
    ∗ reached ER (cell c (.orr 0 0)) 0
    ∗ reached ER (cell c (.orr 0 1)) 0
    ∗ reached ER (cell c (.orr 0 2)) 0
    ∗ reached ER (cell c (.orr 0 3)) 0
    ∗ reached ER (cell c (.orr 1 0)) 0
    ∗ reached ER (cell c (.orr 1 1)) 0
    ∗ reached ER (cell c (.orr 1 2)) 0
    ∗ reached ER (cell c (.orr 1 3)) 0
    ∗ reached ER (cell c (.orr 2 0)) 0
    ∗ reached ER (cell c (.orr 2 1)) 0
    ∗ reached ER (cell c (.orr 2 2)) 0
    ∗ reached ER (cell c (.orr 2 3)) 0
    ∗ reached ER (cell (pe c 0) .bar) 0
    ∗ reached ER (cell (pe c 1) .bar) 0
    ∗ reached ER (cell (pe c 2) .bar) 0
    ∗ reached ER (cell (pe c 0) (.pr 0 0)) 0
    ∗ reached ER (cell (pe c 0) (.pr 0 1)) 0
    ∗ reached ER (cell (pe c 0) (.pr 0 2)) 0
    ∗ reached ER (cell (pe c 1) (.pr 1 0)) 0
    ∗ reached ER (cell (pe c 1) (.pr 1 1)) 0
    ∗ reached ER (cell (pe c 1) (.pr 1 2)) 0
    ∗ reached ER (cell (pe c 2) (.pr 2 0)) 0
    ∗ reached ER (cell (pe c 2) (.pr 2 1)) 0
    ∗ reached ER (cell (pe c 2) (.pr 2 2)) 0
    ∗ reached ER (cell (pe c 0) (.orr 0 0)) 0
    ∗ reached ER (cell (pe c 0) (.orr 0 1)) 0
    ∗ reached ER (cell (pe c 0) (.orr 0 2)) 0
    ∗ reached ER (cell (pe c 0) (.orr 0 3)) 0
    ∗ reached ER (cell (pe c 1) (.orr 1 0)) 0
    ∗ reached ER (cell (pe c 1) (.orr 1 1)) 0
    ∗ reached ER (cell (pe c 1) (.orr 1 2)) 0
    ∗ reached ER (cell (pe c 1) (.orr 1 3)) 0
    ∗ reached ER (cell (pe c 2) (.orr 2 0)) 0
    ∗ reached ER (cell (pe c 2) (.orr 2 1)) 0
    ∗ reached ER (cell (pe c 2) (.orr 2 2)) 0
    ∗ reached ER (cell (pe c 2) (.orr 2 3)) 0
    ∗ levAts L lv
    ∗ atPos ER (cell c .bar) 0 ∅ 0
    ∗ atPos ER (cell c (.ps 0 0)) 0 ∅ 0
    ∗ atPos ER (cell c (.ps 0 1)) 0 ∅ 0
    ∗ atPos ER (cell c (.ps 0 2)) 0 ∅ 0
    ∗ atPos ER (cell c (.ps 1 0)) 0 ∅ 0
    ∗ atPos ER (cell c (.ps 1 1)) 0 ∅ 0
    ∗ atPos ER (cell c (.ps 1 2)) 0 ∅ 0
    ∗ atPos ER (cell c (.ps 2 0)) 0 ∅ 0
    ∗ atPos ER (cell c (.ps 2 1)) 0 ∅ 0
    ∗ atPos ER (cell c (.ps 2 2)) 0 ∅ 0
    ∗ atPos ER (cell c (.pr 0 0)) 0 ∅ 0
    ∗ atPos ER (cell c (.pr 0 1)) 0 ∅ 0
    ∗ atPos ER (cell c (.pr 0 2)) 0 ∅ 0
    ∗ atPos ER (cell c (.pr 1 0)) 0 ∅ 0
    ∗ atPos ER (cell c (.pr 1 1)) 0 ∅ 0
    ∗ atPos ER (cell c (.pr 1 2)) 0 ∅ 0
    ∗ atPos ER (cell c (.pr 2 0)) 0 ∅ 0
    ∗ atPos ER (cell c (.pr 2 1)) 0 ∅ 0
    ∗ atPos ER (cell c (.pr 2 2)) 0 ∅ 0
    ∗ atPos ER (cell c (.os 0 0)) 0 ∅ 0
    ∗ atPos ER (cell c (.os 0 1)) 0 ∅ 0
    ∗ atPos ER (cell c (.os 0 2)) 0 ∅ 0
    ∗ atPos ER (cell c (.os 0 3)) 0 ∅ 0
    ∗ atPos ER (cell c (.os 1 0)) 0 ∅ 0
    ∗ atPos ER (cell c (.os 1 1)) 0 ∅ 0
    ∗ atPos ER (cell c (.os 1 2)) 0 ∅ 0
    ∗ atPos ER (cell c (.os 1 3)) 0 ∅ 0
    ∗ atPos ER (cell c (.os 2 0)) 0 ∅ 0
    ∗ atPos ER (cell c (.os 2 1)) 0 ∅ 0
    ∗ atPos ER (cell c (.os 2 2)) 0 ∅ 0
    ∗ atPos ER (cell c (.os 2 3)) 0 ∅ 0
    ∗ atPos ER (cell c (.orr 0 0)) 0 ∅ 0
    ∗ atPos ER (cell c (.orr 0 1)) 0 ∅ 0
    ∗ atPos ER (cell c (.orr 0 2)) 0 ∅ 0
    ∗ atPos ER (cell c (.orr 0 3)) 0 ∅ 0
    ∗ atPos ER (cell c (.orr 1 0)) 0 ∅ 0
    ∗ atPos ER (cell c (.orr 1 1)) 0 ∅ 0
    ∗ atPos ER (cell c (.orr 1 2)) 0 ∅ 0
    ∗ atPos ER (cell c (.orr 1 3)) 0 ∅ 0
    ∗ atPos ER (cell c (.orr 2 0)) 0 ∅ 0
    ∗ atPos ER (cell c (.orr 2 1)) 0 ∅ 0
    ∗ atPos ER (cell c (.orr 2 2)) 0 ∅ 0
    ∗ atPos ER (cell c (.orr 2 3)) 0 ∅ 0
    ∗ dutyTok ER (cell (pe c 0) .bar) 0 (0 : Fin 3)
    ∗ dutyTok ER (cell (pe c 1) .bar) 0 (1 : Fin 3)
    ∗ dutyTok ER (cell (pe c 2) .bar) 0 (2 : Fin 3)
    ∗ dutyTok ER (cell (pe c 0) (.pr 0 0)) 0 (0 : Fin 3)
    ∗ dutyTok ER (cell (pe c 0) (.pr 0 1)) 0 (0 : Fin 3)
    ∗ dutyTok ER (cell (pe c 0) (.pr 0 2)) 0 (0 : Fin 3)
    ∗ dutyTok ER (cell (pe c 1) (.pr 1 0)) 0 (0 : Fin 3)
    ∗ dutyTok ER (cell (pe c 1) (.pr 1 1)) 0 (0 : Fin 3)
    ∗ dutyTok ER (cell (pe c 1) (.pr 1 2)) 0 (0 : Fin 3)
    ∗ dutyTok ER (cell (pe c 2) (.pr 2 0)) 0 (0 : Fin 3)
    ∗ dutyTok ER (cell (pe c 2) (.pr 2 1)) 0 (0 : Fin 3)
    ∗ dutyTok ER (cell (pe c 2) (.pr 2 2)) 0 (0 : Fin 3)
    ∗ dutyTok ER (cell (pe c 0) (.orr 0 0)) 0 (0 : Fin 3)
    ∗ dutyTok ER (cell (pe c 0) (.orr 0 1)) 0 (0 : Fin 3)
    ∗ dutyTok ER (cell (pe c 0) (.orr 0 2)) 0 (0 : Fin 3)
    ∗ dutyTok ER (cell (pe c 0) (.orr 0 3)) 0 (0 : Fin 3)
    ∗ dutyTok ER (cell (pe c 1) (.orr 1 0)) 0 (0 : Fin 3)
    ∗ dutyTok ER (cell (pe c 1) (.orr 1 1)) 0 (0 : Fin 3)
    ∗ dutyTok ER (cell (pe c 1) (.orr 1 2)) 0 (0 : Fin 3)
    ∗ dutyTok ER (cell (pe c 1) (.orr 1 3)) 0 (0 : Fin 3)
    ∗ dutyTok ER (cell (pe c 2) (.orr 2 0)) 0 (0 : Fin 3)
    ∗ dutyTok ER (cell (pe c 2) (.orr 2 1)) 0 (0 : Fin 3)
    ∗ dutyTok ER (cell (pe c 2) (.orr 2 2)) 0 (0 : Fin 3)
    ∗ dutyTok ER (cell (pe c 2) (.orr 2 3)) 0 (0 : Fin 3)
    ∗ dutyTok ER (cell c (.ps 0 0)) 0 (0 : Fin 3)
    ∗ dutyTok ER (cell c (.ps 0 1)) 0 (0 : Fin 3)
    ∗ dutyTok ER (cell c (.ps 0 2)) 0 (0 : Fin 3)
    ∗ dutyTok ER (cell c (.ps 1 0)) 0 (0 : Fin 3)
    ∗ dutyTok ER (cell c (.ps 1 1)) 0 (0 : Fin 3)
    ∗ dutyTok ER (cell c (.ps 1 2)) 0 (0 : Fin 3)
    ∗ dutyTok ER (cell c (.ps 2 0)) 0 (0 : Fin 3)
    ∗ dutyTok ER (cell c (.ps 2 1)) 0 (0 : Fin 3)
    ∗ dutyTok ER (cell c (.ps 2 2)) 0 (0 : Fin 3)
    ∗ dutyTok ER (cell c (.os 0 0)) 0 (0 : Fin 3)
    ∗ dutyTok ER (cell c (.os 0 1)) 0 (0 : Fin 3)
    ∗ dutyTok ER (cell c (.os 0 2)) 0 (0 : Fin 3)
    ∗ dutyTok ER (cell c (.os 0 3)) 0 (0 : Fin 3)
    ∗ dutyTok ER (cell c (.os 1 0)) 0 (0 : Fin 3)
    ∗ dutyTok ER (cell c (.os 1 1)) 0 (0 : Fin 3)
    ∗ dutyTok ER (cell c (.os 1 2)) 0 (0 : Fin 3)
    ∗ dutyTok ER (cell c (.os 1 3)) 0 (0 : Fin 3)
    ∗ dutyTok ER (cell c (.os 2 0)) 0 (0 : Fin 3)
    ∗ dutyTok ER (cell c (.os 2 1)) 0 (0 : Fin 3)
    ∗ dutyTok ER (cell c (.os 2 2)) 0 (0 : Fin 3)
    ∗ dutyTok ER (cell c (.os 2 3)) 0 (0 : Fin 3)
    ∗ cred (tallyAt (cell c .bar) () 3)
    ∗ cred (tallyAt (cell c (.pr 0 0)) () NC)
    ∗ cred (tallyAt (cell c (.pr 0 1)) () NU)
    ∗ cred (tallyAt (cell c (.pr 0 2)) () NU)
    ∗ cred (tallyAt (cell c (.pr 1 0)) () NC)
    ∗ cred (tallyAt (cell c (.pr 1 1)) () NU)
    ∗ cred (tallyAt (cell c (.pr 1 2)) () NU)
    ∗ cred (tallyAt (cell c (.pr 2 0)) () NC)
    ∗ cred (tallyAt (cell c (.pr 2 1)) () NU)
    ∗ cred (tallyAt (cell c (.pr 2 2)) () NU)
    ∗ cred (tallyAt (cell c (.orr 0 0)) () NO)
    ∗ cred (tallyAt (cell c (.orr 0 1)) () NO)
    ∗ cred (tallyAt (cell c (.orr 0 2)) () NO)
    ∗ cred (tallyAt (cell c (.orr 0 3)) () NO)
    ∗ cred (tallyAt (cell c (.orr 1 0)) () NO)
    ∗ cred (tallyAt (cell c (.orr 1 1)) () NO)
    ∗ cred (tallyAt (cell c (.orr 1 2)) () NO)
    ∗ cred (tallyAt (cell c (.orr 1 3)) () NO)
    ∗ cred (tallyAt (cell c (.orr 2 0)) () NO)
    ∗ cred (tallyAt (cell c (.orr 2 1)) () NO)
    ∗ cred (tallyAt (cell c (.orr 2 2)) () NO)
    ∗ cred (tallyAt (cell c (.orr 2 3)) () NO)
    ∗ owes (c : Thread nD τ) (((((((((((((((((((((((tallyAt (cell (pe c 2) (.orr 2 3)) () NO + tallyAt (cell (pe c 1) (.orr 1 3)) () NO) + tallyAt (cell (pe c 0) (.orr 0 3)) () NO) + tallyAt (cell (pe c 2) (.orr 2 2)) () NO) + tallyAt (cell (pe c 1) (.orr 1 2)) () NO) + tallyAt (cell (pe c 0) (.orr 0 2)) () NO) + tallyAt (cell (pe c 2) (.orr 2 1)) () NO) + tallyAt (cell (pe c 1) (.orr 1 1)) () NO) + tallyAt (cell (pe c 0) (.orr 0 1)) () NO) + tallyAt (cell (pe c 2) (.orr 2 0)) () NO) + tallyAt (cell (pe c 1) (.orr 1 0)) () NO) + tallyAt (cell (pe c 0) (.orr 0 0)) () NO) + tallyAt (cell (pe c 2) (.pr 2 2)) () NU) + tallyAt (cell (pe c 2) (.pr 2 1)) () NU) + tallyAt (cell (pe c 2) (.pr 2 0)) () NC) + tallyAt (cell (pe c 1) (.pr 1 2)) () NU) + tallyAt (cell (pe c 1) (.pr 1 1)) () NU) + tallyAt (cell (pe c 1) (.pr 1 0)) () NC) + tallyAt (cell (pe c 0) (.pr 0 2)) () NU) + tallyAt (cell (pe c 0) (.pr 0 1)) () NU) + tallyAt (cell (pe c 0) (.pr 0 0)) () NC) + tallyAt (cell (pe c 2) .bar) () 1) + tallyAt (cell (pe c 1) .bar) () 1) + tallyAt (cell (pe c 0) .bar) () 1) W
    ∗ semVal ((c : Thread nD τ), .dma wqS) 0
    ∗ semVal ((c : Thread nD τ), .dma woS) 0
    ∗ PT(c, Bs0, fullShare, X0)
    ∗ PT(c, Bs1, fullShare, X1)
    ∗ PT(c, Bs2, fullShare, X2)
    ∗ PT(c, Bs3, fullShare, X3)
    ∗ PT(c, Bs4, fullShare, X4)
    ∗ PT(c, Bs5, fullShare, X5)
    ∗ PT(c, Bs6, fullShare, X6)
    ∗ (View.loc (c : Thread nD τ) (Memref.view B4) ↦{fullShare} m4)
    ∗ (View.loc (c : Thread nD τ) (Memref.view B7) ↦{fullShare} m7)
    ∗ PT(c, B9, fullShare, f9)
    ∗ PT(c, B11, fullShare, f11)
    ∗ PT(c, B12, fullShare, f12)
    ∗ PT(c, B16, fullShare, f16)
    ∗ PT(c, B17, fullShare, f17)
    ∗ PT(c, cM (pe c 0), fullShare, f10)
    ∗ PT(c, ukD (pe c 0), fullShare, f13)
    ∗ PT(c, uvD (pe c 0), fullShare, f14)
    ∗ PT(c, oM (pe c 0) 0, fullShare, f15)
    ∗ PT(c, oM (pe c 0) 1, fullShare, f15)
    ∗ PT(c, oM (pe c 0) 2, fullShare, f15)
    ∗ PT(c, oM (pe c 0) 3, fullShare, f15)
    ∗ PT(c, cM (pe c 1), fullShare, f10)
    ∗ PT(c, ukD (pe c 1), fullShare, f13)
    ∗ PT(c, uvD (pe c 1), fullShare, f14)
    ∗ PT(c, oM (pe c 1) 0, fullShare, f15)
    ∗ PT(c, oM (pe c 1) 1, fullShare, f15)
    ∗ PT(c, oM (pe c 1) 2, fullShare, f15)
    ∗ PT(c, oM (pe c 1) 3, fullShare, f15)
    ∗ PT(c, cM (pe c 2), fullShare, f10)
    ∗ PT(c, ukD (pe c 2), fullShare, f13)
    ∗ PT(c, uvD (pe c 2), fullShare, f14)
    ∗ PT(c, oM (pe c 2) 0, fullShare, f15)
    ∗ PT(c, oM (pe c 2) 1, fullShare, f15)
    ∗ PT(c, oM (pe c 2) 2, fullShare, f15)
    ∗ PT(c, oM (pe c 2) 3, fullShare, f15)
    ∗ PT(c, cM c, fullShare, f10)
    ∗ PT(c, ukD c, fullShare, f13)
    ∗ PT(c, uvD c, fullShare, f14)
    ∗ PT(c, oM c 0, fullShare, f15)
    ∗ PT(c, oM c 1, fullShare, f15)
    ∗ PT(c, oM c 2, fullShare, f15)
    ∗ PT(c, oM c 3, fullShare, f15))

end Cert.KernelIdealProof
end
-- ==== Proof.OwesOrder.lean ====
import proofs.«900571_g7700000000000572_dist_mla_v7x_i4_i_b2_s512_d2048_dc128_f32_1_alg».proof.Proof.LaunchCredit

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

-- Everything a device owes at launch, in the order it pays: the last summand is paid first.
def Oord (c : Dev nD) : CellTallies nD τ sig Unit :=
  tallyAt (cell (pe c 2) (.orr 2 3)) () NO + tallyAt (cell (pe c 1) (.orr 1 3)) () NO + tallyAt (cell (pe c 0) (.orr 0 3)) () NO
    + tallyAt (cell (pe c 2) (.orr 2 2)) () NO + tallyAt (cell (pe c 1) (.orr 1 2)) () NO + tallyAt (cell (pe c 0) (.orr 0 2)) () NO
    + tallyAt (cell (pe c 2) (.orr 2 1)) () NO + tallyAt (cell (pe c 1) (.orr 1 1)) () NO + tallyAt (cell (pe c 0) (.orr 0 1)) () NO
    + tallyAt (cell (pe c 2) (.orr 2 0)) () NO + tallyAt (cell (pe c 1) (.orr 1 0)) () NO + tallyAt (cell (pe c 0) (.orr 0 0)) () NO
    + tallyAt (cell (pe c 2) (.pr 2 2)) () NU + tallyAt (cell (pe c 2) (.pr 2 1)) () NU + tallyAt (cell (pe c 2) (.pr 2 0)) () NC
    + tallyAt (cell (pe c 1) (.pr 1 2)) () NU + tallyAt (cell (pe c 1) (.pr 1 1)) () NU + tallyAt (cell (pe c 1) (.pr 1 0)) () NC
    + tallyAt (cell (pe c 0) (.pr 0 2)) () NU + tallyAt (cell (pe c 0) (.pr 0 1)) () NU + tallyAt (cell (pe c 0) (.pr 0 0)) () NC
    + tallyAt (cell (pe c 2) .bar) () 1 + tallyAt (cell (pe c 1) .bar) () 1 + tallyAt (cell (pe c 0) .bar) () 1

theorem O₀_ord (c : Dev nD) : O₀ c = Oord c := by
  unfold O₀ Oord Ooall Oo Op1 Obar; ac_rfl

theorem pos_of_eq {A B : CellTallies nD τ sig Unit} (e : A = B) {g : GSem nD τ sig} {u : Unit} (h : 0 < A g u) : 0 < B g u := e ▸ h

theorem lv_wqS (c : Dev nD) : lv ((c : Thread nD τ), .dma wqS) () = 0 := lv_dma_other _ _ (Or.inr (by decide)) ()

-- The barrier wait, the entry signals paid: what is still owed is the arrivals of both phases, all above the barrier cell.
theorem mw_bar' (c : Dev nD) : (levAts L lv : sProp 𝕄) ⊢ MayWait (c : Thread nD τ) (.reg barS) ()
    (tallyAt (cell (pe c 2) (.orr 2 3)) () NO + tallyAt (cell (pe c 1) (.orr 1 3)) () NO + tallyAt (cell (pe c 0) (.orr 0 3)) () NO
    + tallyAt (cell (pe c 2) (.orr 2 2)) () NO + tallyAt (cell (pe c 1) (.orr 1 2)) () NO + tallyAt (cell (pe c 0) (.orr 0 2)) () NO
    + tallyAt (cell (pe c 2) (.orr 2 1)) () NO + tallyAt (cell (pe c 1) (.orr 1 1)) () NO + tallyAt (cell (pe c 0) (.orr 0 1)) () NO
    + tallyAt (cell (pe c 2) (.orr 2 0)) () NO + tallyAt (cell (pe c 1) (.orr 1 0)) () NO + tallyAt (cell (pe c 0) (.orr 0 0)) () NO
    + tallyAt (cell (pe c 2) (.pr 2 2)) () NU + tallyAt (cell (pe c 2) (.pr 2 1)) () NU + tallyAt (cell (pe c 2) (.pr 2 0)) () NC
    + tallyAt (cell (pe c 1) (.pr 1 2)) () NU + tallyAt (cell (pe c 1) (.pr 1 1)) () NU + tallyAt (cell (pe c 1) (.pr 1 0)) () NC
    + tallyAt (cell (pe c 0) (.pr 0 2)) () NU + tallyAt (cell (pe c 0) (.pr 0 1)) () NU + tallyAt (cell (pe c 0) (.pr 0 0)) () NC) :=
  mayWait_bar c _ fun _ _ => pos_of_eq (by unfold Ooall Oo Op1all Op1; ac_rfl)

-- A first-phase receive wait: what is still owed is the second phase's arrivals, all above it.
theorem mw_pr' (c : Dev nD) (p t : Fin 3) : (levAts L lv : sProp 𝕄) ⊢ MayWait (c : Thread nD τ) (csem (.pr p t)) ()
    (tallyAt (cell (pe c 2) (.orr 2 3)) () NO + tallyAt (cell (pe c 1) (.orr 1 3)) () NO + tallyAt (cell (pe c 0) (.orr 0 3)) () NO
    + tallyAt (cell (pe c 2) (.orr 2 2)) () NO + tallyAt (cell (pe c 1) (.orr 1 2)) () NO + tallyAt (cell (pe c 0) (.orr 0 2)) () NO
    + tallyAt (cell (pe c 2) (.orr 2 1)) () NO + tallyAt (cell (pe c 1) (.orr 1 1)) () NO + tallyAt (cell (pe c 0) (.orr 0 1)) () NO
    + tallyAt (cell (pe c 2) (.orr 2 0)) () NO + tallyAt (cell (pe c 1) (.orr 1 0)) () NO + tallyAt (cell (pe c 0) (.orr 0 0)) () NO) :=
  mayWait_pr c p t _ fun _ _ => pos_of_eq (by unfold Ooall Oo; ac_rfl)

-- A wait at level 0 with the second phase's arrivals still owed.
theorem mw_low' (c : Dev nD) (s : SemLoc sig) (hs : lv ((c : Thread nD τ), s) () = 0) :
    (levAts L lv : sProp 𝕄) ⊢ MayWait (c : Thread nD τ) s ()
    (tallyAt (cell (pe c 2) (.orr 2 3)) () NO + tallyAt (cell (pe c 1) (.orr 1 3)) () NO + tallyAt (cell (pe c 0) (.orr 0 3)) () NO
    + tallyAt (cell (pe c 2) (.orr 2 2)) () NO + tallyAt (cell (pe c 1) (.orr 1 2)) () NO + tallyAt (cell (pe c 0) (.orr 0 2)) () NO
    + tallyAt (cell (pe c 2) (.orr 2 1)) () NO + tallyAt (cell (pe c 1) (.orr 1 1)) () NO + tallyAt (cell (pe c 0) (.orr 0 1)) () NO
    + tallyAt (cell (pe c 2) (.orr 2 0)) () NO + tallyAt (cell (pe c 1) (.orr 1 0)) () NO + tallyAt (cell (pe c 0) (.orr 0 0)) () NO) :=
  mayWait_low c s hs _ fun _ _ h => Ooall_pos_O₀ (pos_of_eq (by unfold Ooall Oo; ac_rfl) h)

end Cert.KernelIdealProof
end
-- ==== Proof.UnpackParts.lean ====
import proofs.«900571_g7700000000000572_dist_mla_v7x_i4_i_b2_s512_d2048_dc128_f32_1_alg».proof.Proof.BodyCtx
import proofs.«900571_g7700000000000572_dist_mla_v7x_i4_i_b2_s512_d2048_dc128_f32_1_alg».proof.Proof.OwesOrder

noncomputable section

namespace Cert.KernelIdealProof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (V : PVals F)
variable (outV : Dev nD → (cc0_stg6_0 : Ref sig .tc).ty.Contents (Elt F))

local notation "PT(" c ", " M ", " q ", " f ")" => (View.loc (c : Thread nD τ) (Memref.view M) ↦[View.set (Memref.view M)]{q} f)

def ckList : List CK :=
  [CK.bar, .ps 0 0, .ps 0 1, .ps 0 2, .ps 1 0, .ps 1 1, .ps 1 2, .ps 2 0, .ps 2 1, .ps 2 2,
    .pr 0 0, .pr 0 1, .pr 0 2, .pr 1 0, .pr 1 1, .pr 1 2, .pr 2 0, .pr 2 1, .pr 2 2,
    .os 0 0, .os 0 1, .os 0 2, .os 0 3, .os 1 0, .os 1 1, .os 1 2, .os 1 3, .os 2 0, .os 2 1, .os 2 2, .os 2 3,
    .orr 0 0, .orr 0 1, .orr 0 2, .orr 0 3, .orr 1 0, .orr 1 1, .orr 1 2, .orr 1 3, .orr 2 0, .orr 2 1, .orr 2 2, .orr 2 3]

theorem bigSep_CK {M : Type _} [URA M] (Φ : CK → sProp M) :
    bigSep Finset.univ Φ = iprop(Φ .bar
      ∗ Φ (.ps 0 0) ∗ Φ (.ps 0 1) ∗ Φ (.ps 0 2) ∗ Φ (.ps 1 0) ∗ Φ (.ps 1 1) ∗ Φ (.ps 1 2) ∗ Φ (.ps 2 0) ∗ Φ (.ps 2 1) ∗ Φ (.ps 2 2)
      ∗ Φ (.pr 0 0) ∗ Φ (.pr 0 1) ∗ Φ (.pr 0 2) ∗ Φ (.pr 1 0) ∗ Φ (.pr 1 1) ∗ Φ (.pr 1 2) ∗ Φ (.pr 2 0) ∗ Φ (.pr 2 1) ∗ Φ (.pr 2 2)
      ∗ Φ (.os 0 0) ∗ Φ (.os 0 1) ∗ Φ (.os 0 2) ∗ Φ (.os 0 3) ∗ Φ (.os 1 0) ∗ Φ (.os 1 1) ∗ Φ (.os 1 2) ∗ Φ (.os 1 3)
      ∗ Φ (.os 2 0) ∗ Φ (.os 2 1) ∗ Φ (.os 2 2) ∗ Φ (.os 2 3)
      ∗ Φ (.orr 0 0) ∗ Φ (.orr 0 1) ∗ Φ (.orr 0 2) ∗ Φ (.orr 0 3) ∗ Φ (.orr 1 0) ∗ Φ (.orr 1 1) ∗ Φ (.orr 1 2) ∗ Φ (.orr 1 3)
      ∗ Φ (.orr 2 0) ∗ Φ (.orr 2 1) ∗ Φ (.orr 2 2) ∗ Φ (.orr 2 3)) :=
  bigSep_univ_eq_bigSepL ckList (by decide) (by decide) Φ

theorem bigSep_fin3 {M : Type _} [URA M] (Φ : Fin 3 → sProp M) : bigSep Finset.univ Φ = iprop(Φ 0 ∗ Φ 1 ∗ Φ 2) :=
  bigSep_univ_eq_bigSepL [0, 1, 2] (by decide) (by decide) Φ

theorem bigSep_fin33 {M : Type _} [URA M] (Φ : Fin 3 × Fin 3 → sProp M) :
    bigSep Finset.univ Φ = iprop(Φ (0, 0) ∗ Φ (0, 1) ∗ Φ (0, 2) ∗ Φ (1, 0) ∗ Φ (1, 1) ∗ Φ (1, 2) ∗ Φ (2, 0) ∗ Φ (2, 1) ∗ Φ (2, 2)) :=
  bigSep_univ_eq_bigSepL [(0, 0), (0, 1), (0, 2), (1, 0), (1, 1), (1, 2), (2, 0), (2, 1), (2, 2)] (by decide) (by decide) Φ

theorem bigSep_fin34 {M : Type _} [URA M] (Φ : Fin 3 × Fin 4 → sProp M) :
    bigSep Finset.univ Φ = iprop(Φ (0, 0) ∗ Φ (0, 1) ∗ Φ (0, 2) ∗ Φ (0, 3) ∗ Φ (1, 0) ∗ Φ (1, 1) ∗ Φ (1, 2) ∗ Φ (1, 3)
      ∗ Φ (2, 0) ∗ Φ (2, 1) ∗ Φ (2, 2) ∗ Φ (2, 3)) :=
  bigSep_univ_eq_bigSepL [(0, 0), (0, 1), (0, 2), (0, 3), (1, 0), (1, 1), (1, 2), (1, 3), (2, 0), (2, 1), (2, 2), (2, 3)]
    (by decide) (by decide) Φ

syntax "igives " (colGt ident)* : tactic
macro_rules
  | `(tactic| igives) => `(tactic| skip)
  | `(tactic| igives $h $hs*) => `(tactic| (isplitl [$h]; (· iexact $h); igives $hs*))

theorem inv_at (K : Dev nD × CK → ℕ) (d : Dev nD) (k : CK) :
    records V K ⊢ cellInv ER (sched V) (K (d, k)) (cell d k) := by
  unfold records
  have h : (bigSep Finset.univ fun ck : Dev nD × CK => cellInv ER (sched V) (K ck) (cell ck.1 ck.2))
      ⊢ cellInv ER (sched V) (K (d, k)) (cell d k) := BI.bigSep_elim (i := (d, k)) (Finset.mem_univ _)
  iintro ⟨H, -⟩
  iapply h
  iexact H

theorem reached_at (K : Dev nD × CK → ℕ) (d : Dev nD) (k : CK) :
    records V K ⊢ (reached ER (cell d k) 0 : sProp 𝕄) := by
  unfold records
  have h : (bigSep Finset.univ fun ck : Dev nD × CK => (reached ER (cell ck.1 ck.2) 0 : sProp 𝕄))
      ⊢ (reached ER (cell d k) 0 : sProp 𝕄) := BI.bigSep_elim (i := (d, k)) (Finset.mem_univ _)
  iintro ⟨-, H⟩
  iapply h
  iexact H

theorem pers_both {R A B : sProp 𝕄} [BI.Persistent R] (h1 : R ⊢ A) (h2 : R ⊢ B) : R ⊢ iprop(A ∗ B) := by
  iintro #H
  isplitl
  · iapply h1; iexact H
  · iapply h2; iexact H

theorem records_groups (K : Dev nD × CK → ℕ) (c : Dev nD) :
    records V K ⊢ iprop(
      (bigSep Finset.univ fun k : CK => cellInv ER (sched V) (K (c, k)) (cell c k))
      ∗ (bigSep Finset.univ fun p : Fin 3 => cellInv ER (sched V) (K (pe c p, CK.bar)) (cell (pe c p) .bar))
      ∗ (bigSep Finset.univ fun pt : Fin 3 × Fin 3 => cellInv ER (sched V) (K (pe c pt.1, CK.pr pt.1 pt.2)) (cell (pe c pt.1) (.pr pt.1 pt.2)))
      ∗ (bigSep Finset.univ fun ph : Fin 3 × Fin 4 => cellInv ER (sched V) (K (pe c ph.1, CK.orr ph.1 ph.2)) (cell (pe c ph.1) (.orr ph.1 ph.2)))
      ∗ (bigSep Finset.univ fun k : CK => (reached ER (cell c k) 0 : sProp 𝕄))
      ∗ (bigSep Finset.univ fun p : Fin 3 => (reached ER (cell (pe c p) .bar) 0 : sProp 𝕄))
      ∗ (bigSep Finset.univ fun pt : Fin 3 × Fin 3 => (reached ER (cell (pe c pt.1) (.pr pt.1 pt.2)) 0 : sProp 𝕄))
      ∗ (bigSep Finset.univ fun ph : Fin 3 × Fin 4 => (reached ER (cell (pe c ph.1) (.orr ph.1 ph.2)) 0 : sProp 𝕄))) :=
  pers_both (bigSep_intro_persistent fun k _ => inv_at V K c k) <|
  pers_both (bigSep_intro_persistent fun p _ => inv_at V K (pe c p) .bar) <|
  pers_both (bigSep_intro_persistent fun pt _ => inv_at V K (pe c pt.1) (.pr pt.1 pt.2)) <|
  pers_both (bigSep_intro_persistent fun ph _ => inv_at V K (pe c ph.1) (.orr ph.1 ph.2)) <|
  pers_both (bigSep_intro_persistent fun k _ => reached_at V K c k) <|
  pers_both (bigSep_intro_persistent fun p _ => reached_at V K (pe c p) .bar) <|
  pers_both (bigSep_intro_persistent fun pt _ => reached_at V K (pe c pt.1) (.pr pt.1 pt.2)) <|
  bigSep_intro_persistent fun ph _ => reached_at V K (pe c ph.1) (.orr ph.1 ph.2)

theorem before_0 (c : Dev nD) (d) : (dats m ρ V outV 0 c).before 0 t0_0 d = iblk m c 0 t0_0 :=
  ((dats m ρ V outV 0 c).before_in_eq_fetched 0 rfl (fun _ => rfl) (fun _ _ _ => rfl) (fun t => by rfl) t0_0 d).trans (by rfl)
theorem before_1 (c : Dev nD) (d) : (dats m ρ V outV 0 c).before 1 t0_0 d = iblk m c 1 t0_0 :=
  ((dats m ρ V outV 0 c).before_in_eq_fetched 1 rfl (fun _ => rfl) (fun _ _ _ => rfl) (fun t => by rfl) t0_0 d).trans (by rfl)
theorem before_2 (c : Dev nD) (d) : (dats m ρ V outV 0 c).before 2 t0_0 d = iblk m c 2 t0_0 :=
  ((dats m ρ V outV 0 c).before_in_eq_fetched 2 rfl (fun _ => rfl) (fun _ _ _ => rfl) (fun t => by rfl) t0_0 d).trans (by rfl)
theorem before_3 (c : Dev nD) (d) : (dats m ρ V outV 0 c).before 3 t0_0 d = iblk m c 3 t0_0 :=
  ((dats m ρ V outV 0 c).before_in_eq_fetched 3 rfl (fun _ => rfl) (fun _ _ _ => rfl) (fun t => by rfl) t0_0 d).trans (by rfl)
theorem before_4 (c : Dev nD) (d) : (dats m ρ V outV 0 c).before 4 t0_0 d = iblk m c 4 t0_0 :=
  ((dats m ρ V outV 0 c).before_in_eq_fetched 4 rfl (fun _ => rfl) (fun _ _ _ => rfl) (fun t => by rfl) t0_0 d).trans (by rfl)
theorem before_5 (c : Dev nD) (d) : (dats m ρ V outV 0 c).before 5 t0_0 d = iblk m c 5 t0_0 :=
  ((dats m ρ V outV 0 c).before_in_eq_fetched 5 rfl (fun _ => rfl) (fun _ _ _ => rfl) (fun t => by rfl) t0_0 d).trans (by rfl)

-- A whole buffer owned at `X` is its points-to, read through the memref of the whole buffer.
theorem pt_whole (c : Dev nD) (b : Ref sig .tc) (q : PosShare TreeShare) (X : b.ty.Contents (Elt F)) :
    (owns (c : Thread nD τ) (Memref.whole b) q X : sProp 𝕄) = PT(c, Memref.whole b, q, X) := by
  rw [owns_whole]; simp only [Memref.view_whole, View.set_whole]

theorem loc_pt (c : Dev nD) (b : Ref sig .tc) (q : PosShare TreeShare) (f : Buf (Elt F) ((c : Thread nD τ).loc b)) :
    (((c : Thread nD τ).loc b) ↦{q} f : sProp 𝕄) = PT(c, Memref.whole b, q, f) := by
  simp only [Memref.view_whole, View.set_whole]

theorem owes_unpack (c : Dev nD) :
    (dats m ρ V outV 0 c).owesAt () t0_0.castSucc ⊢ iprop(∃ W, owes (c : Thread nD τ) (Oord c) W) := by
  rw [← O₀_ord]
  iintro ⟨%W, -, H⟩
  iexists W
  iexact H

theorem creds_chain (c : Dev nD) :
    creds (F := F) c ⊢ iprop(cred (tallyAt (cell c .bar) () 3)
      ∗ (cred (tallyAt (cell c (.pr 0 0)) () NC) ∗ cred (tallyAt (cell c (.pr 0 1)) () NU) ∗ cred (tallyAt (cell c (.pr 0 2)) () NU)
        ∗ cred (tallyAt (cell c (.pr 1 0)) () NC) ∗ cred (tallyAt (cell c (.pr 1 1)) () NU) ∗ cred (tallyAt (cell c (.pr 1 2)) () NU)
        ∗ cred (tallyAt (cell c (.pr 2 0)) () NC) ∗ cred (tallyAt (cell c (.pr 2 1)) () NU) ∗ cred (tallyAt (cell c (.pr 2 2)) () NU))
      ∗ (cred (tallyAt (cell c (.orr 0 0)) () NO) ∗ cred (tallyAt (cell c (.orr 0 1)) () NO) ∗ cred (tallyAt (cell c (.orr 0 2)) () NO)
        ∗ cred (tallyAt (cell c (.orr 0 3)) () NO) ∗ cred (tallyAt (cell c (.orr 1 0)) () NO) ∗ cred (tallyAt (cell c (.orr 1 1)) () NO)
        ∗ cred (tallyAt (cell c (.orr 1 2)) () NO) ∗ cred (tallyAt (cell c (.orr 1 3)) () NO) ∗ cred (tallyAt (cell c (.orr 2 0)) () NO)
        ∗ cred (tallyAt (cell c (.orr 2 1)) () NO) ∗ cred (tallyAt (cell c (.orr 2 2)) () NO) ∗ cred (tallyAt (cell c (.orr 2 3)) () NO))) := by
  unfold creds
  rw [bigSep_fin33, bigSep_fin34]
  exact .rfl

end Cert.KernelIdealProof
end
-- ==== Proof.PackParts.lean ====
import proofs.«900571_g7700000000000572_dist_mla_v7x_i4_i_b2_s512_d2048_dc128_f32_1_alg».proof.Proof.UnpackParts

noncomputable section

namespace Cert.KernelIdealProof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (V : PVals F)
variable (outV : Dev nD → (cc0_stg6_0 : Ref sig .tc).ty.Contents (Elt F))

theorem owes_pack (c : Dev nD) (W : Waits sig Unit) :
    owes (c : Thread nD τ) (0 : CellTallies nD τ sig Unit) W ⊢ (dats m ρ V outV 0 c).owesAt () t0_0.succ := by
  iintro H
  iexists W
  isplitr
  · ipureintro; exact fun _ _ => Or.inl trivial
  · iexact H

end Cert.KernelIdealProof
end
-- ==== Proof.Unpack.lean ====
import proofs.«900571_g7700000000000572_dist_mla_v7x_i4_i_b2_s512_d2048_dc128_f32_1_alg».proof.Proof.UnpackParts

noncomputable section

namespace Cert.KernelIdealProof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (V : PVals F)
variable (outV : Dev nD → (cc0_stg6_0 : Ref sig .tc).ty.Contents (Elt F))

def bodyPre (c : Dev nD) : sProp 𝕄 :=
  iprop((dats m ρ V outV 0 c).Φ t0_0.castSucc ∗ (dats m ρ V outV 0 c).owesAt () t0_0.castSucc
    ∗ (∃ d, owns (c : Thread nD τ) (st0_0 t0_0) fullShare ((dats m ρ V outV 0 c).before 0 t0_0 d))
    ∗ (∃ d, owns (c : Thread nD τ) (st0_1 t0_0) fullShare ((dats m ρ V outV 0 c).before 1 t0_0 d))
    ∗ (∃ d, owns (c : Thread nD τ) (st0_2 t0_0) fullShare ((dats m ρ V outV 0 c).before 2 t0_0 d))
    ∗ (∃ d, owns (c : Thread nD τ) (st0_3 t0_0) fullShare ((dats m ρ V outV 0 c).before 3 t0_0 d))
    ∗ (∃ d, owns (c : Thread nD τ) (st0_4 t0_0) fullShare ((dats m ρ V outV 0 c).before 4 t0_0 d))
    ∗ (∃ d, owns (c : Thread nD τ) (st0_5 t0_0) fullShare ((dats m ρ V outV 0 c).before 5 t0_0 d))
    ∗ (∃ d, owns (c : Thread nD τ) (st0_6 t0_0) fullShare ((dats m ρ V outV 0 c).before 6 t0_0 d)))

set_option maxHeartbeats 4000000 in
theorem unpack (c : Dev nD) :
    bodyPre m ρ V outV c ⊢ iprop(∃ K W X6 f9 f10 f11 f12 f13 f14 f15 f16 f17,
      bodyCtx V K c W (iblk m c 0 t0_0) (iblk m c 1 t0_0) (iblk m c 2 t0_0) (iblk m c 3 t0_0) (iblk m c 4 t0_0) (iblk m c 5 t0_0) X6
        (m ((c : Thread nD τ).loc main_arg4)) (m ((c : Thread nD τ).loc main_arg7)) f9 f10 f11 f12 f13 f14 f15 f16 f17) := by
  have ho := owes_unpack m ρ V outV c
  unfold Oord at ho
  have hso : ∀ f15 : Buf (Elt F) ((c : Thread nD τ).loc cc0_scratch6), _ := fun f15 => split_o_ring (F := F) c f15
  unfold oSlot at hso
  unfold bodyPre
  rw [show (dats m ρ V outV 0 c).Φ t0_0.castSucc = Φ₀ m V c from rfl]
  simp only [before_0 m ρ V outV c, before_1 m ρ V outV c, before_2 m ρ V outV c, before_3 m ρ V outV c,
    before_4 m ρ V outV c, before_5 m ρ V outV c]
  unfold Φ₀ start linear payToks localSems hbmIn scratchAny
  rw [scopedRest0_eq, bigSep_CK, bigSep_fin3, bigSep_fin33, bigSep_fin34, bigSep_fin33, bigSep_fin34]
  iintro ⟨⟨⟨⟨%K, #Hrec, ⟨p0, p1, p2, p3, p4, p5, p6, p7, p8, p9, p10, p11, p12, p13, p14, p15, p16, p17, p18, p19, p20, p21, p22,
        p23, p24, p25, p26, p27, p28, p29, p30, p31, p32, p33, p34, p35, p36, p37, p38, p39, p40, p41, p42⟩,
      ⟨tb0, tb1, tb2⟩, ⟨tr0, tr1, tr2, tr3, tr4, tr5, tr6, tr7, tr8⟩,
      ⟨to0, to1, to2, to3, to4, to5, to6, to7, to8, to9, to10, to11⟩,
      ⟨ts0, ts1, ts2, ts3, ts4, ts5, ts6, ts7, ts8⟩,
      ⟨tz0, tz1, tz2, tz3, tz4, tz5, tz6, tz7, tz8, tz9, tz10, tz11⟩⟩, Hcr, Hlev⟩, ⟨Hwq, Hwo⟩, ⟨H4, H7⟩,
      ⟨%f9, S9⟩, ⟨%f10, S10⟩, ⟨%f11, S11⟩, ⟨%f12, S12⟩, ⟨%f13, S13⟩, ⟨%f14, S14⟩, ⟨%f15, S15⟩, ⟨%f16, S16⟩, ⟨%f17, S17⟩⟩,
    Ho0, ⟨%d0, W0⟩, ⟨%d1, W1⟩, ⟨%d2, W2⟩, ⟨%d3, W3⟩, ⟨%d4, W4⟩, ⟨%d5, W5⟩, ⟨%d6, W6⟩⟩
  have hg := records_groups V K c
  rw [bigSep_CK, bigSep_fin3, bigSep_fin33, bigSep_fin34, bigSep_CK, bigSep_fin3, bigSep_fin33, bigSep_fin34] at hg
  ihave ⟨⟨#i0, #i1, #i2, #i3, #i4, #i5, #i6, #i7, #i8, #i9, #i10, #i11, #i12, #i13, #i14, #i15, #i16, #i17, #i18, #i19, #i20, #i21,
      #i22, #i23, #i24, #i25, #i26, #i27, #i28, #i29, #i30, #i31, #i32, #i33, #i34, #i35, #i36, #i37, #i38, #i39, #i40, #i41, #i42⟩,
    ⟨#ib0, #ib1, #ib2⟩, ⟨#ip0, #ip1, #ip2, #ip3, #ip4, #ip5, #ip6, #ip7, #ip8⟩,
    ⟨#io0, #io1, #io2, #io3, #io4, #io5, #io6, #io7, #io8, #io9, #io10, #io11⟩,
    ⟨#r0, #r1, #r2, #r3, #r4, #r5, #r6, #r7, #r8, #r9, #r10, #r11, #r12, #r13, #r14, #r15, #r16, #r17, #r18, #r19, #r20, #r21,
      #r22, #r23, #r24, #r25, #r26, #r27, #r28, #r29, #r30, #r31, #r32, #r33, #r34, #r35, #r36, #r37, #r38, #r39, #r40, #r41, #r42⟩,
    ⟨#rb0, #rb1, #rb2⟩, ⟨#rp0, #rp1, #rp2, #rp3, #rp4, #rp5, #rp6, #rp7, #rp8⟩,
    ⟨#ro0, #ro1, #ro2, #ro3, #ro4, #ro5, #ro6, #ro7, #ro8, #ro9, #ro10, #ro11⟩⟩ := hg $$ Hrec
  ihave ⟨cb, ⟨cr0, cr1, cr2, cr3, cr4, cr5, cr6, cr7, cr8⟩,
    ⟨co0, co1, co2, co3, co4, co5, co6, co7, co8, co9, co10, co11⟩⟩ := (creds_chain (F := F) c) $$ Hcr
  ihave ⟨%W, Ho⟩ := ho $$ Ho0
  ihave P0 := (Entails.of_eq (pt_whole (F := F) c cc0_stg0_0 _ _)) $$ W0
  ihave P1 := (Entails.of_eq (pt_whole (F := F) c cc0_stg1_0 _ _)) $$ W1
  ihave P2 := (Entails.of_eq (pt_whole (F := F) c cc0_stg2_0 _ _)) $$ W2
  ihave P3 := (Entails.of_eq (pt_whole (F := F) c cc0_stg3_0 _ _)) $$ W3
  ihave P4 := (Entails.of_eq (pt_whole (F := F) c cc0_stg4_0 _ _)) $$ W4
  ihave P5 := (Entails.of_eq (pt_whole (F := F) c cc0_stg5_0 _ _)) $$ W5
  ihave P6 := (Entails.of_eq (pt_whole (F := F) c cc0_stg6_0 _ _)) $$ W6
  ihave Q9 := (Entails.of_eq (loc_pt (F := F) c cc0_scratch0 _ f9)) $$ S9
  ihave Q11 := (Entails.of_eq (loc_pt (F := F) c cc0_scratch2 _ f11)) $$ S11
  ihave Q12 := (Entails.of_eq (loc_pt (F := F) c cc0_scratch3 _ f12)) $$ S12
  ihave Q16 := (Entails.of_eq (loc_pt (F := F) c cc0_scratch7 _ f16)) $$ S16
  ihave Q17 := (Entails.of_eq (loc_pt (F := F) c cc0_scratch8 _ f17)) $$ S17
  ihave ⟨Cc, Cc0, Cc1, Cc2⟩ := (split_c_ring (F := F) c f10) $$ S10
  ihave ⟨Ck, Ck0, Ck1, Ck2⟩ := (split_uk_ring (F := F) c f13) $$ S13
  ihave ⟨Cv, Cv0, Cv1, Cv2⟩ := (split_uv_ring (F := F) c f14) $$ S14
  ihave ⟨⟨Oa0, Oa1, Oa2, Oa3⟩, ⟨Ob0, Ob1, Ob2, Ob3⟩, ⟨Oc0, Oc1, Oc2, Oc3⟩, ⟨Od0, Od1, Od2, Od3⟩⟩ := (hso f15) $$ S15
  iexists K, W, ((dats m ρ V outV 0 c).before 6 t0_0 d6), f9, f10, f11, f12, f13, f14, f15, f16, f17
  unfold bodyCtx
  iframe # ∗
  igives P0 P1 P2 P3 P4 P5 P6 H4 H7 Q9 Q11 Q12 Q16
  iexact Q17

def bodyPost (c : Dev nD) : sProp 𝕄 :=
  iprop((dats m ρ V outV 0 c).Φ t0_0.succ ∗ (dats m ρ V outV 0 c).owesAt () t0_0.succ
    ∗ owns (c : Thread nD τ) (st0_0 t0_0) fullShare ((dats m ρ V outV 0 c).after 0 t0_0)
    ∗ owns (c : Thread nD τ) (st0_1 t0_0) fullShare ((dats m ρ V outV 0 c).after 1 t0_0)
    ∗ owns (c : Thread nD τ) (st0_2 t0_0) fullShare ((dats m ρ V outV 0 c).after 2 t0_0)
    ∗ owns (c : Thread nD τ) (st0_3 t0_0) fullShare ((dats m ρ V outV 0 c).after 3 t0_0)
    ∗ owns (c : Thread nD τ) (st0_4 t0_0) fullShare ((dats m ρ V outV 0 c).after 4 t0_0)
    ∗ owns (c : Thread nD τ) (st0_5 t0_0) fullShare ((dats m ρ V outV 0 c).after 5 t0_0)
    ∗ owns (c : Thread nD τ) (st0_6 t0_0) fullShare ((dats m ρ V outV 0 c).after 6 t0_0))

theorem body_obligation_of (c : Dev nD)
    (h : bodyPre m ρ V outV c ⊢ wp frame (wpE (defs₀ (F := F)) 𝒱₀ c none) Set.univ (bodyAt0 t0_0) (fun _ => bodyPost m ρ V outV c)) :
    BodyObligation (dats (F := F) m ρ V outV 0 c) (defs₀ (F := F)) 𝒱₀ () Set.univ := fun t => by
  rw [fin_N0 t, bigSep_W0, bigSep_W0]
  exact h

end Cert.KernelIdealProof
end
-- ==== Proof.Pack.lean ====
import proofs.«900571_g7700000000000572_dist_mla_v7x_i4_i_b2_s512_d2048_dc128_f32_1_alg».proof.Proof.PackParts
import proofs.«900571_g7700000000000572_dist_mla_v7x_i4_i_b2_s512_d2048_dc128_f32_1_alg».proof.Proof.Unpack

noncomputable section

namespace Cert.KernelIdealProof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (V : PVals F)
variable (outV : Dev nD → (cc0_stg6_0 : Ref sig .tc).ty.Contents (Elt F))

local notation "PT(" c ", " M ", " q ", " f ")" => (View.loc (c : Thread nD τ) (Memref.view M) ↦[View.set (Memref.view M)]{q} f)

def endCtx (c : Dev nD) (W' : Waits sig Unit) : sProp 𝕄 :=
  iprop(PT(c, Bs0, fullShare, iblk m c 0 t0_0) ∗ PT(c, Bs1, fullShare, iblk m c 1 t0_0) ∗ PT(c, Bs2, fullShare, iblk m c 2 t0_0)
    ∗ PT(c, Bs3, fullShare, iblk m c 3 t0_0) ∗ PT(c, Bs4, fullShare, iblk m c 4 t0_0) ∗ PT(c, Bs5, fullShare, iblk m c 5 t0_0)
    ∗ PT(c, Bs6, fullShare, outV c)
    ∗ (View.loc (c : Thread nD τ) (Memref.view B4) ↦{fullShare} m ((c : Thread nD τ).loc main_arg4))
    ∗ (View.loc (c : Thread nD τ) (Memref.view B7) ↦{fullShare} m ((c : Thread nD τ).loc main_arg7))
    ∗ scratchAny (F := F) c
    ∗ Pipeline.ownSems0 (Ix := Unit) (Name := ℕ) (U := UU) (Lvl := ℕ) (Val := Elt F) (τ := τ) osem c
    ∗ owes (c : Thread nD τ) 0 W')

theorem pack_endCtx (c : Dev nD) (W' : Waits sig Unit) : endCtx m outV c W' ⊢ bodyPost m ρ V outV c := by
  unfold endCtx bodyPost
  rw [show (dats m ρ V outV 0 c).Φ t0_0.succ = Φ₁ m c from rfl]
  dsimp only [dats]
  unfold Φ₁ hbmIn
  iintro ⟨P0, P1, P2, P3, P4, P5, P6, Q4, Q7, Hs, Hsem, Ho⟩
  isplitl [Q4 Q7 Hs Hsem]
  · isplitl [Q4 Q7]
    · isplitl [Q4]
      · iexact Q4
      · iexact Q7
    isplitl [Hs]; · iexact Hs
    iexact Hsem
  isplitl [Ho]; · iapply (owes_pack m ρ V outV c W'); iexact Ho
  isplitl [P0]; · iapply (Entails.of_eq (pt_whole (F := F) c cc0_stg0_0 _ _).symm); iexact P0
  isplitl [P1]; · iapply (Entails.of_eq (pt_whole (F := F) c cc0_stg1_0 _ _).symm); iexact P1
  isplitl [P2]; · iapply (Entails.of_eq (pt_whole (F := F) c cc0_stg2_0 _ _).symm); iexact P2
  isplitl [P3]; · iapply (Entails.of_eq (pt_whole (F := F) c cc0_stg3_0 _ _).symm); iexact P3
  isplitl [P4]; · iapply (Entails.of_eq (pt_whole (F := F) c cc0_stg4_0 _ _).symm); iexact P4
  isplitl [P5]; · iapply (Entails.of_eq (pt_whole (F := F) c cc0_stg5_0 _ _).symm); iexact P5
  iapply (Entails.of_eq (pt_whole (F := F) c cc0_stg6_0 _ _).symm); iexact P6

end Cert.KernelIdealProof
end
-- ==== Proof.SlotViews.lean ====
import proofs.«900571_g7700000000000572_dist_mla_v7x_i4_i_b2_s512_d2048_dc128_f32_1_alg».proof.Proof.Proto
import Idealize.ShloMosaic.Lib.Pipeline.Value
import Idealize.ShloMosaic.Lib.ValueIdx

noncomputable section

namespace Cert.KernelIdealProof

open Cert.KernelIdeal Cert.KernelIdeal.Gen
open Idealize.ShloMosaic
open Idealize.ShloMosaic.TcCoe
open Idealize.ShloMosaic.ValueIdx

variable {F : FTy → Type} [FloatOps F]

section Generic
variable {κ : Kind} {Val : EltTy → Type}

theorem read_reshape_slice_whole (b : Ref sig κ) (r : Rect b.ty.shape) (s' : Shape) (h : s'.numel = r.shape.numel)
    (g : b.ty.Contents Val) (j : s'.Idx) :
    (((View.whole b).slice r).reshape s' h).read Val g j = (View.whole b).read Val g (r.emb (Shape.reshapeEquiv h j)) := rfl

/-- Two unit-stride boxes send two indices to one element when offset plus coordinate agree on every axis. -/
theorem emb_unit_eq {s : Shape} {off size off' size' o o' : Fin s.rank → Nat} {inb : ∀ a, off a + size a ≤ s.size a}
    {inb' : ∀ a, off' a + size' a ≤ s.size a} (ho : off = o) (ho' : off' = o') (y : (Rect.unit off size inb).shape.Idx)
    (y' : (Rect.unit off' size' inb').shape.Idx) (h : ∀ a, o a + (y a).val = o' a + (y' a).val) :
    (Rect.unit off size inb).emb y = (Rect.unit off' size' inb').emb y' := by
  subst ho ho'
  funext a
  apply Fin.ext
  show off a + 1 * (y a).val = off' a + 1 * (y' a).val
  rw [Nat.one_mul, Nat.one_mul]
  exact h a

theorem read_slice_writes_box (b : Ref sig κ) (r B : Rect b.ty.shape) (f : b.ty.Contents Val) (w : B.shape.Idx → Val b.ty.elt)
    (j : r.shape.Idx) (x : B.shape.Idx) (hidx : r.emb j = B.emb x) :
    ((View.whole b).slice r).read Val ((View.whole b).writes Val f [⟨B, w⟩]) j = w x := by
  show (View.whole b).read Val (((View.whole b).slice B).write Val f w Finset.univ) (r.emb j) = w x
  rw [hidx]
  exact View.read_slice_write_emb (v := View.whole b) B f w (Finset.mem_univ x)

/-- A load through one unit-stride box agrees with the read through another, reshaped to `s'`, where both land on one element. -/
theorem readAt_unit_eq_read_reshape (b : Ref sig κ) {off size off' size' o' : Fin b.ty.shape.rank → Nat}
    (inb : ∀ a, off a + size a ≤ b.ty.shape.size a) (inb' : ∀ a, off' a + size' a ≤ b.ty.shape.size a) (ho' : off' = o')
    (s' : Shape) (h : s'.numel = (Rect.unit off' size' inb').shape.numel) (g : b.ty.Contents Val)
    (y : (Rect.unit off size inb).shape.Idx) (j : s'.Idx) {j' : (Rect.unit off' size' inb').shape.Idx}
    (hj : Shape.reshapeEquiv h j = j') (hidx : ∀ a, off a + (y a).val = o' a + (j' a).val) :
    (View.whole b).readAt Val (Rect.unit off size inb).toLoadRect g y
      = (((View.whole b).slice (Rect.unit off' size' inb')).reshape s' h).read Val g j := by
  subst hj
  rw [read_reshape_slice_whole, View.readAt_apply]
  exact congrArg ((View.whole b).read Val g) (emb_unit_eq rfl ho' y _ hidx)

end Generic

theorem reshapeEquiv_addUnit {n1 n2 : Nat} (h : (⟨2, ![n1, n2]⟩ : Shape).numel = (⟨3, ![1, n1, n2]⟩ : Shape).numel)
    (p : Fin n1) (q : Fin n2) :
    Shape.reshapeEquiv h (ix2 p q) = ix3 (0 : Fin 1) p q := by
  refine Shape.reshapeEquiv_eq_of_rowMajor h ?_
  have e3 := Shape.rowMajor_val_three (d := ![1, n1, n2]) (ix3 (0 : Fin 1) p q)
  have e2 := Shape.rowMajor_val_two (d := ![n1, n2]) (ix2 p q)
  rw [e3, e2]
  show (0 * n1 + p.val) * n2 + q.val = p.val * n2 + q.val
  rw [Nat.zero_mul, Nat.zero_add]

theorem read_cM_write (c : Dev nD) (f10 : Buf (Elt F) ((c : Thread nD τ).loc cc0_scratch1)) (w : FVec F S1x1024x128 .bf16) :
    (cM c).view.read (Elt F)
        (((Memref.whole cc0_scratch1).access (Rect.unit (s := S4x1024x128) (k0_off3 c) S1x1024x128.size (k0_off3_inb c))).write
          (Elt F) f10 w Finset.univ)
      = fun j => w (ix3 0 (j 0) (j 1)) := by
  funext j
  refine read_slice_writes_box (Val := Elt F) cc0_scratch1 (Rect.unit (s := S4x1024x128) (k0_off6 c) S1x1024x128.size (k0_off6_inb c))
    (Rect.unit (s := S4x1024x128) (k0_off3 c) S1x1024x128.size (k0_off3_inb c)) f10 w
    (Shape.reshapeEquiv squeezes_S1x1024x128_S1024x128.numel_eq j) (ix3 0 (j 0) (j 1))
    (emb_unit_eq (k0_off6_eq c) (k0_off3_eq c) _ _ fun a => ?_)
  exact congrArg (fun i : S1x1024x128.Idx => (![c.val, 0, 0] : Fin 3 → Nat) a + (i a).val)
    ((congrArg (Shape.reshapeEquiv squeezes_S1x1024x128_S1024x128.numel_eq) (eq_ix2 j)).trans (reshapeEquiv_addUnit _ (j 0) (j 1)))

def sentCol (c : Dev nD) (p : Fin 3) (q : Fin 512) : Fin 2048 :=
  ⟨512 * (pe c p).val + q.val, by have h2 : (pe c p).val < 4 := (pe c p).isLt; omega⟩

theorem sent_box_emb (c : Dev nD) (p : Fin 3) (a : Fin 128) (q : Fin 512) :
    (Rect.unit (s := S128x2048) (k0_off8 c (BitVec.ofNat 32 (1 + p.val))) S128x512.size (k0_off8_inb c p)).emb (ix2 a q)
      = (Rect.unit (s := S128x2048) ![0, 0] S128x2048.size inb_S128x2048_S128x2048_0_0).emb (ix2 a (sentCol c p q)) := by
  refine emb_unit_eq (k0_off8_eq c p) rfl _ _ fun x => ?_
  match x with
  | ⟨0, _⟩ => rfl
  | ⟨1, _⟩ => exact (Nat.zero_add _).symm

theorem read_ukS_writes (c : Dev nD) (p : Fin 3) (f : Buf (Elt F) ((c : Thread nD τ).loc cc0_scratch2)) (w : FVec F S128x2048 .bf16)
    (a : Fin 128) (q : Fin 512) :
    (ukS c p).view.read (Elt F)
        (A11.view.writes (Elt F) f
          [⟨Rect.unit (s := S128x2048) ![0, 0] S128x2048.size inb_S128x2048_S128x2048_0_0, w⟩]) (ix2 a q)
      = w (ix2 a (sentCol c p q)) :=
  read_slice_writes_box (Val := Elt F) cc0_scratch2
    (Rect.unit (s := S128x2048) (k0_off8 c (BitVec.ofNat 32 (1 + p.val))) S128x512.size (k0_off8_inb c p))
    (Rect.unit (s := S128x2048) ![0, 0] S128x2048.size inb_S128x2048_S128x2048_0_0) f w (ix2 a q) (ix2 a (sentCol c p q)) (sent_box_emb c p a q)

theorem read_uvS_writes (c : Dev nD) (p : Fin 3) (f : Buf (Elt F) ((c : Thread nD τ).loc cc0_scratch3)) (w : FVec F S128x2048 .bf16)
    (a : Fin 128) (q : Fin 512) :
    (uvS c p).view.read (Elt F)
        (A12.view.writes (Elt F) f
          [⟨Rect.unit (s := S128x2048) ![0, 0] S128x2048.size inb_S128x2048_S128x2048_0_0, w⟩]) (ix2 a q)
      = w (ix2 a (sentCol c p q)) :=
  read_slice_writes_box (Val := Elt F) cc0_scratch3
    (Rect.unit (s := S128x2048) (k0_off8 c (BitVec.ofNat 32 (1 + p.val))) S128x512.size (k0_off8_inb c p))
    (Rect.unit (s := S128x2048) ![0, 0] S128x2048.size inb_S128x2048_S128x2048_0_0) f w (ix2 a q) (ix2 a (sentCol c p q)) (sent_box_emb c p a q)

theorem readAt_cM (d : Dev nD) {off : Fin 3 → Nat} (hoff : off = ![d.val, 0, 0])
    (inb : ∀ a, off a + S1x1024x128.size a ≤ S4x1024x128.size a) {c : Dev nD}
    (g : Buf (Elt F) ((c : Thread nD τ).loc cc0_scratch1)) (r : Fin 1024) (t : Fin 128) :
    (Memref.whole cc0_scratch1).view.readAt (Elt F) (Rect.unit (s := S4x1024x128) off S1x1024x128.size inb).toLoadRect g (ix3 0 r t)
      = (cM d).view.read (Elt F) g (ix2 r t) := by
  subst hoff
  exact readAt_unit_eq_read_reshape (Val := Elt F) cc0_scratch1 inb (k0_off6_inb d) (k0_off6_eq d) S1024x128
    squeezes_S1x1024x128_S1024x128.numel_eq g (ix3 (0 : Fin 1) r t) (ix2 r t) (reshapeEquiv_addUnit _ r t) fun a => rfl

theorem readAt_ukD (d : Dev nD) {off : Fin 3 → Nat} (hoff : off = ![d.val, 0, 0])
    (inb : ∀ a, off a + S1x128x512.size a ≤ S4x128x512.size a) {c : Dev nD}
    (g : Buf (Elt F) ((c : Thread nD τ).loc cc0_scratch4)) (r : Fin 128) (t : Fin 512) :
    (Memref.whole cc0_scratch4).view.readAt (Elt F) (Rect.unit (s := S4x128x512) off S1x128x512.size inb).toLoadRect g (ix3 0 r t)
      = (ukD d).view.read (Elt F) g (ix2 r t) := by
  subst hoff
  exact readAt_unit_eq_read_reshape (Val := Elt F) cc0_scratch4 inb (k0_off7_inb d) (k0_off7_eq d) S128x512
    squeezes_S1x128x512_S128x512.numel_eq g (ix3 (0 : Fin 1) r t) (ix2 r t) (reshapeEquiv_addUnit _ r t) fun a => rfl

theorem readAt_uvD (d : Dev nD) {off : Fin 3 → Nat} (hoff : off = ![d.val, 0, 0])
    (inb : ∀ a, off a + S1x128x512.size a ≤ S4x128x512.size a) {c : Dev nD}
    (g : Buf (Elt F) ((c : Thread nD τ).loc cc0_scratch5)) (r : Fin 128) (t : Fin 512) :
    (Memref.whole cc0_scratch5).view.readAt (Elt F) (Rect.unit (s := S4x128x512) off S1x128x512.size inb).toLoadRect g (ix3 0 r t)
      = (uvD d).view.read (Elt F) g (ix2 r t) := by
  subst hoff
  exact readAt_unit_eq_read_reshape (Val := Elt F) cc0_scratch5 inb (k0_off7_inb d) (k0_off7_eq d) S128x512
    squeezes_S1x128x512_S128x512.numel_eq g (ix3 (0 : Fin 1) r t) (ix2 r t) (reshapeEquiv_addUnit _ r t) fun a => rfl

theorem readAt_oM0 (d : Dev nD) {off : Fin 3 → Nat} (hoff : off = ![d.val, 0, 0])
    (inb : ∀ a, off a + S1x1024x512.size a ≤ S4x1024x512.size a) {c : Dev nD}
    (g : Buf (Elt F) ((c : Thread nD τ).loc cc0_scratch6)) (r : Fin 1024) (e : Fin 128) :
    (Memref.whole cc0_scratch6).view.readAt (Elt F) (Rect.unit (s := S4x1024x512) off S1x1024x512.size inb).toLoadRect g
        (ix3 0 r ⟨0 + e.val, by omega⟩)
      = (oM d 0).view.read (Elt F) g (ix2 r e) := by
  subst hoff
  exact readAt_unit_eq_read_reshape (Val := Elt F) cc0_scratch6 inb (k0_off14_inb d) (k0_off14_eq d) S1024x128
    squeezes_S1x1024x128_S1024x128.numel_eq g (ix3 (0 : Fin 1) r (⟨0 + e.val, by omega⟩ : Fin 512)) (ix2 r e) (reshapeEquiv_addUnit _ r e)
    fun a => match a with | ⟨0, _⟩ | ⟨1, _⟩ => rfl | ⟨2, _⟩ => Nat.zero_add _

theorem readAt_oM1 (d : Dev nD) {off : Fin 3 → Nat} (hoff : off = ![d.val, 0, 0])
    (inb : ∀ a, off a + S1x1024x512.size a ≤ S4x1024x512.size a) {c : Dev nD}
    (g : Buf (Elt F) ((c : Thread nD τ).loc cc0_scratch6)) (r : Fin 1024) (e : Fin 128) :
    (Memref.whole cc0_scratch6).view.readAt (Elt F) (Rect.unit (s := S4x1024x512) off S1x1024x512.size inb).toLoadRect g
        (ix3 0 r ⟨128 + e.val, by omega⟩)
      = (oM d 1).view.read (Elt F) g (ix2 r e) := by
  subst hoff
  exact readAt_unit_eq_read_reshape (Val := Elt F) cc0_scratch6 inb (k0_off17_inb d) (k0_off17_eq d) S1024x128
    squeezes_S1x1024x128_S1024x128.numel_eq g (ix3 (0 : Fin 1) r (⟨128 + e.val, by omega⟩ : Fin 512)) (ix2 r e) (reshapeEquiv_addUnit _ r e)
    fun a => match a with | ⟨0, _⟩ | ⟨1, _⟩ => rfl | ⟨2, _⟩ => Nat.zero_add _

theorem readAt_oM2 (d : Dev nD) {off : Fin 3 → Nat} (hoff : off = ![d.val, 0, 0])
    (inb : ∀ a, off a + S1x1024x512.size a ≤ S4x1024x512.size a) {c : Dev nD}
    (g : Buf (Elt F) ((c : Thread nD τ).loc cc0_scratch6)) (r : Fin 1024) (e : Fin 128) :
    (Memref.whole cc0_scratch6).view.readAt (Elt F) (Rect.unit (s := S4x1024x512) off S1x1024x512.size inb).toLoadRect g
        (ix3 0 r ⟨256 + e.val, by omega⟩)
      = (oM d 2).view.read (Elt F) g (ix2 r e) := by
  subst hoff
  exact readAt_unit_eq_read_reshape (Val := Elt F) cc0_scratch6 inb (k0_off20_inb d) (k0_off20_eq d) S1024x128
    squeezes_S1x1024x128_S1024x128.numel_eq g (ix3 (0 : Fin 1) r (⟨256 + e.val, by omega⟩ : Fin 512)) (ix2 r e) (reshapeEquiv_addUnit _ r e)
    fun a => match a with | ⟨0, _⟩ | ⟨1, _⟩ => rfl | ⟨2, _⟩ => Nat.zero_add _

theorem readAt_oM3 (d : Dev nD) {off : Fin 3 → Nat} (hoff : off = ![d.val, 0, 0])
    (inb : ∀ a, off a + S1x1024x512.size a ≤ S4x1024x512.size a) {c : Dev nD}
    (g : Buf (Elt F) ((c : Thread nD τ).loc cc0_scratch6)) (r : Fin 1024) (e : Fin 128) :
    (Memref.whole cc0_scratch6).view.readAt (Elt F) (Rect.unit (s := S4x1024x512) off S1x1024x512.size inb).toLoadRect g
        (ix3 0 r ⟨384 + e.val, by omega⟩)
      = (oM d 3).view.read (Elt F) g (ix2 r e) := by
  subst hoff
  exact readAt_unit_eq_read_reshape (Val := Elt F) cc0_scratch6 inb (k0_off23_inb d) (k0_off23_eq d) S1024x128
    squeezes_S1x1024x128_S1024x128.numel_eq g (ix3 (0 : Fin 1) r (⟨384 + e.val, by omega⟩ : Fin 512)) (ix2 r e) (reshapeEquiv_addUnit _ r e)
    fun a => match a with | ⟨0, _⟩ | ⟨1, _⟩ => rfl | ⟨2, _⟩ => Nat.zero_add _

end Cert.KernelIdealProof
end
-- ==== Proof.VDef.lean ====
import proofs.«900571_g7700000000000572_dist_mla_v7x_i4_i_b2_s512_d2048_dc128_f32_1_alg».proof.Proof.KVals
import proofs.«900571_g7700000000000572_dist_mla_v7x_i4_i_b2_s512_d2048_dc128_f32_1_alg».proof.Proof.SlotViews
import proofs.«900571_g7700000000000572_dist_mla_v7x_i4_i_b2_s512_d2048_dc128_f32_1_alg».proof.Proof.Gen.KernelIdeal.Frame

noncomputable section

namespace Cert.KernelIdealProof

open Cert.KernelIdeal Cert.KernelIdeal.Gen
open Idealize.ShloMosaic Idealize.ShloMosaic.ValueIdx
open Idealize.ShloMosaic.TcCoe
open Idealize.SL.Sem
open Cert.MlaKer

variable {F : FTy → Type} [FloatOps F]
variable (m : (ℓ : Loc nD τ sig) → Buf (Elt F) ℓ)

def insAt (d : Dev nD) : Ins F where
  x := iblk m d 0 t0_0
  wdkv := iblk m d 1 t0_0
  wuk := iblk m d 2 t0_0
  wuv := iblk m d 3 t0_0
  wkr := iblk m d 4 t0_0
  wqr := iblk m d 5 t0_0
  wq := m ((d : Thread nD τ).loc main_arg4)
  wo := m ((d : Thread nD τ).loc main_arg7)

def oCol (h : Fin 4) (l : Fin 128) : Fin 512 := ⟨128 * h.val + l.val, by have := h.isLt; have := l.isLt; omega⟩

def VOf : PVals F where
  cV d := fun j => cOwn (insAt m) d (ix3 0 (j 0) (j 1))
  ukV d p := fun j => wukbf (insAt m) d (ix2 (j 0) (sentCol d p (j 1)))
  uvV d p := fun j => wuvbf (insAt m) d (ix2 (j 0) (sentCol d p (j 1)))
  oV d h := fun j => oOwn (insAt m) d (ix3 0 (j 0) (oCol h (j 1)))

def outOf (c : Dev nD) : (cc0_stg6_0 : Ref sig .tc).ty.Contents (Elt F) := out (insAt m) c

end Cert.KernelIdealProof
end
-- ==== Proof.GlueP1.lean ====
import proofs.«900571_g7700000000000572_dist_mla_v7x_i4_i_b2_s512_d2048_dc128_f32_1_alg».proof.Proof.BodyCtx
import proofs.«900571_g7700000000000572_dist_mla_v7x_i4_i_b2_s512_d2048_dc128_f32_1_alg».proof.Proof.VDef
import proofs.«900571_g7700000000000572_dist_mla_v7x_i4_i_b2_s512_d2048_dc128_f32_1_alg».proof.Proof.KGen

noncomputable section

namespace Cert.KernelIdealProof

open Cert.KernelIdeal Cert.KernelIdeal.Gen
open Idealize.ShloMosaic Idealize.ShloMosaic.ValueIdx
open Idealize.ShloMosaic.TcCoe
open Cert.MlaKer

variable {F : FTy → Type} [FloatOps F]

section Generic
variable {κ : Kind} {Val : EltTy → Type}

-- A load of all of a whole array returns its contents.
theorem readAt_whole_zero (b : Ref sig κ) {off : Fin b.ty.shape.rank → Nat} (h : off = fun _ => 0)
    (inb : ∀ a, off a + b.ty.shape.size a ≤ b.ty.shape.size a) (f : b.ty.Contents Val) :
    (View.whole b).readAt Val (Rect.unit off b.ty.shape.size inb).toLoadRect f = f :=
  Memref.readAt_unit_zero Val b h inb f

-- Two stores through boxes of a whole array are the two block writes, the later one outermost.
theorem writes_two_whole (b : Ref sig κ) {o1 s1 o2 s2 : Fin b.ty.shape.rank → Nat}
    (i1 : ∀ a, o1 a + s1 a ≤ b.ty.shape.size a) (i2 : ∀ a, o2 a + s2 a ≤ b.ty.shape.size a) (f : b.ty.Contents Val)
    (w1 : (Rect.unit o1 s1 i1).shape.Idx → Val b.ty.elt) (w2 : (Rect.unit o2 s2 i2).shape.Idx → Val b.ty.elt) :
    (View.whole b).writes Val f [⟨Rect.unit o2 s2 i2, w2⟩, ⟨Rect.unit o1 s1 i1, w1⟩] = wr (wr f o1 s1 i1 w1) o2 s2 i2 w2 := by
  rw [View.writes_cons, View.writes_singleton, View.write_whole_slice_unit, View.write_whole_slice_unit]
  rfl

end Generic

theorem vec2_zero : (![0, 0] : Fin 2 → Nat) = fun _ => 0 := funext fun a => by match a with | ⟨0, _⟩ => rfl | ⟨1, _⟩ => rfl

def gV32 (c : Dev nD) (X0 : Buf (Elt F) ((c : Thread nD τ).loc cc0_stg0_0)) :
    (Rect.unit (s := S1024x2048) ![0, 0] S1024x2048.size inb_S1024x2048_S1024x2048_0_0).shape.Idx → Elt F .bf16 :=
  B9.view.readCov
    [⟨Rect.unit (s := S1024x2048) ![512, 0] S512x2048.size inb_S1024x2048_S512x2048_512_0,
        k0_pay2 (Bs0.view.readAt (Elt F)
          (Rect.unit (s := S2x512x2048) ![1, 0, 0] S1x512x2048.size inb_S2x512x2048_S1x512x2048_1_0_0).toLoadRect X0)⟩,
      ⟨Rect.unit (s := S1024x2048) ![0, 0] S512x2048.size inb_S1024x2048_S512x2048_0_0,
        k0_pay1 (Bs0.view.readAt (Elt F)
          (Rect.unit (s := S2x512x2048) ![0, 0, 0] S1x512x2048.size inb_S2x512x2048_S1x512x2048_0_0_0).toLoadRect X0)⟩]
    (Rect.unit (s := S1024x2048) ![0, 0] S1024x2048.size inb_S1024x2048_S1024x2048_0_0).toLoadRect

-- The two half stores of the cast rows, loaded back whole, give the cast input.
theorem gV32_eq (I : Dev nD → Ins F) (c : Dev nD) : gV32 c (I c).x = xbf I c := by
  unfold gV32 View.readCov
  refine (congrArg (fun g => (View.whole cc0_scratch0).readAt (Elt F)
      (Rect.unit (s := S1024x2048) ![0, 0] S1024x2048.size inb_S1024x2048_S1024x2048_0_0).toLoadRect g)
    ((writes_two_whole (Val := Elt F) cc0_scratch0 _ _ _ _ _).trans (xbfFrom_eq I c _))).trans ?_
  exact readAt_whole_zero (Val := Elt F) cc0_scratch0 vec2_zero inb_S1024x2048_S1024x2048_0_0 (xbf I c)

def gWd (c : Dev nD) (X1 : Buf (Elt F) ((c : Thread nD τ).loc cc0_stg1_0)) : (Rect.unit (s := S2048x128) ![0, 0] S2048x128.size inb_S2048x128_S2048x128_0_0).shape.Idx → Elt F .f32 :=
  Bs1.view.readAt (Elt F) (Rect.unit (s := S2048x128) ![0, 0] S2048x128.size inb_S2048x128_S2048x128_0_0).toLoadRect X1

theorem gWd_eq (I : Dev nD → Ins F) (c : Dev nD) : gWd c (I c).wdkv = (I c).wdkv :=
  readAt_whole_zero (Val := Elt F) cc0_stg1_0 vec2_zero inb_S2048x128_S2048x128_0_0 (I c).wdkv

theorem cOwn_glue (I : Dev nD → Ins F) (c : Dev nD) : k0_pay3 (gV32 c (I c).x) (gWd c (I c).wdkv) = cOwn I c := by
  rw [gV32_eq, gWd_eq]; rfl

theorem Fc_glue (I : Dev nD → Ins F) (c : Dev nD) (f10 : Buf (Elt F) ((c : Thread nD τ).loc cc0_scratch1)) :
    (cM c).view.read (Elt F)
        (((Memref.whole cc0_scratch1).access (Rect.unit (s := S4x1024x128) (k0_off3 c) S1x1024x128.size (k0_off3_inb c))).write
          (Elt F) f10 (k0_pay3 (gV32 c (I c).x) (gWd c (I c).wdkv)) Finset.univ)
      = fun j => cOwn I c (ix3 0 (j 0) (j 1)) := by
  rw [read_cM_write, cOwn_glue]

def gKr (c : Dev nD) (X0 : Buf (Elt F) ((c : Thread nD τ).loc cc0_stg0_0)) (X4 : Buf (Elt F) ((c : Thread nD τ).loc cc0_stg4_0)) : FVec F S1024x32 .bf16 :=
  k0_pay8 (gV32 c X0)
    (Bs4.view.readAt (Elt F) (Rect.unit (s := S2048x32) ![0, 0] S2048x32.size inb_S2048x32_S2048x32_0_0).toLoadRect X4)

theorem gKr_eq (I : Dev nD → Ins F) (c : Dev nD) : gKr c (I c).x (I c).wkr = kr I c := by
  unfold gKr
  exact congr (congrArg k0_pay8 (gV32_eq I c)) (readAt_whole_zero (Val := Elt F) cc0_stg4_0 vec2_zero inb_S2048x32_S2048x32_0_0 (I c).wkr)

def gQr (c : Dev nD) (X0 : Buf (Elt F) ((c : Thread nD τ).loc cc0_stg0_0)) (X5 : Buf (Elt F) ((c : Thread nD τ).loc cc0_stg5_0)) : FVec F S1024x128 .bf16 :=
  k0_pay9 (gV32 c X0)
    (Bs5.view.readAt (Elt F) (Rect.unit (s := S2048x512) (k0_off9 c) S2048x128.size (k0_off9_inb c)).toLoadRect X5)

theorem gQr_eq (I : Dev nD → Ins F) (c : Dev nD) : gQr c (I c).x (I c).wqr = qr I c := by
  unfold gQr
  rw [gV32_eq]
  rfl

def gV178 (c : Dev nD) (m4 : Buf (Elt F) ((c : Thread nD τ).loc main_arg4)) :
    (Rect.unit (s := S2048x512) ![0, 0] S2048x512.size inb_S2048x512_S2048x512_0_0).shape.Idx → Elt F .f32 :=
  B16.view.readCov
    [⟨Rect.whole S2048x512, ReadAs.same.apply
        (View.read (Elt F) ((Memref.whole main_arg4).slice (Rect.unit (s := S2048x2048) (k0_off1 c) S2048x512.size (k0_off1_inb c)) (fun _ => rfl)).view m4)⟩]
    (Rect.unit (s := S2048x512) ![0, 0] S2048x512.size inb_S2048x512_S2048x512_0_0).toLoadRect

theorem gV178_eq (I : Dev nD → Ins F) (c : Dev nD) : gV178 c (I c).wq = wqSt I c := by
  funext j
  refine read_slice_writes_box (Val := Elt F) cc0_scratch7
    (Rect.unit (s := S2048x512) ![0, 0] S2048x512.size inb_S2048x512_S2048x512_0_0) (Rect.whole S2048x512) _ _ j j ?_
  funext a
  apply Fin.ext
  match a with
  | ⟨0, _⟩ => rfl
  | ⟨1, _⟩ => rfl

def gQ (c : Dev nD) (X0 : Buf (Elt F) ((c : Thread nD τ).loc cc0_stg0_0)) (m4 : Buf (Elt F) ((c : Thread nD τ).loc main_arg4)) : FVec F S1024x512 .bf16 :=
  k0_pay10 (gV32 c X0) (gV178 c m4)

theorem gQ_eq (I : Dev nD → Ins F) (c : Dev nD) : gQ c (I c).x (I c).wq = q I c := by
  unfold gQ
  rw [gV32_eq, gV178_eq]
  rfl

-- The device's own column box is columns 512 c onward of the whole block.
theorem ownCols_emb (c : Dev nD) (j : (Rect.unit (s := S128x2048) (k0_off4 c) S128x512.size (k0_off4_inb c)).shape.Idx) :
    (Rect.unit (s := S128x2048) (k0_off4 c) S128x512.size (k0_off4_inb c)).emb j = (Rect.unit (s := S128x2048) ![0, 0] S128x2048.size inb_S128x2048_S128x2048_0_0).emb ((Rect.unit (s := S128x2048) (colOff c) S128x512.size (colOff_inb c)).emb j) := by
  have h4 := k0_off4_eq c
  funext a
  apply Fin.ext
  match a with
  | ⟨0, _⟩ =>
    have h40 : k0_off4 c 0 = 0 := congrFun h4 0
    show k0_off4 c 0 + 1 * (j 0).val = 0 + 1 * (0 + 1 * (j 0).val)
    omega
  | ⟨1, _⟩ =>
    have h41 : k0_off4 c 1 = 512 * c.val := congrFun h4 1
    show k0_off4 c 1 + 1 * (j 1).val = 0 + 1 * (512 * c.val + 1 * (j 1).val)
    omega

theorem rdWuk (I : Dev nD → Ins F) (c : Dev nD) :
    Bs2.view.readAt (Elt F) (Rect.unit (s := S128x2048) ![0, 0] S128x2048.size inb_S128x2048_S128x2048_0_0).toLoadRect (I c).wuk = (I c).wuk :=
  readAt_whole_zero (Val := Elt F) cc0_stg2_0 vec2_zero inb_S128x2048_S128x2048_0_0 (I c).wuk

def gV60 (c : Dev nD) (X : Buf (Elt F) ((c : Thread nD τ).loc cc0_stg2_0)) : S1x128x512.Idx → F .bf16 :=
  k0_pay6 (B11.view.readAt (Elt F) (Rect.unit (s := S128x2048) (k0_off4 c) S128x512.size (k0_off4_inb c)).toLoadRect
    (B11.view.writes (Elt F) B11.view.junk
      [⟨(Rect.unit (s := S128x2048) ![0, 0] S128x2048.size inb_S128x2048_S128x2048_0_0), k0_pay4 (Bs2.view.readAt (Elt F) (Rect.unit (s := S128x2048) ![0, 0] S128x2048.size inb_S128x2048_S128x2048_0_0).toLoadRect X)⟩]))

theorem gV60_eq (I : Dev nD → Ins F) (c : Dev nD) : gV60 c (I c).wuk = wukSlot I c c := by
  unfold gV60
  rw [rdWuk]
  exact congrArg (k0_pay6 (F := F)) (funext fun j => (read_slice_writes_box (Val := Elt F) cc0_scratch2 (Rect.unit (s := S128x2048) (k0_off4 c) S128x512.size (k0_off4_inb c)) (Rect.unit (s := S128x2048) ![0, 0] S128x2048.size inb_S128x2048_S128x2048_0_0)
    _ (k0_pay4 (I c).wuk) j _ (ownCols_emb c j)).trans rfl)

theorem Fk_glue (I : Dev nD → Ins F) (c : Dev nD) (p : Fin 3) (f : Buf (Elt F) ((c : Thread nD τ).loc cc0_scratch2)) :
    (ukS c p).view.read (Elt F)
        (B11.view.writes (Elt F) f
          [⟨(Rect.unit (s := S128x2048) ![0, 0] S128x2048.size inb_S128x2048_S128x2048_0_0), k0_pay4 (Bs2.view.readAt (Elt F) (Rect.unit (s := S128x2048) ![0, 0] S128x2048.size inb_S128x2048_S128x2048_0_0).toLoadRect (I c).wuk)⟩])
      = fun j => wukbf I c (ix2 (j 0) (sentCol c p (j 1))) := by
  rw [rdWuk]
  funext j
  exact (congrArg _ (eq_ix2 j)).trans (read_ukS_writes c p f (k0_pay4 (I c).wuk) (j 0) (j 1))

theorem rdWuv (I : Dev nD → Ins F) (c : Dev nD) :
    Bs3.view.readAt (Elt F) (Rect.unit (s := S128x2048) ![0, 0] S128x2048.size inb_S128x2048_S128x2048_0_0).toLoadRect (I c).wuv = (I c).wuv :=
  readAt_whole_zero (Val := Elt F) cc0_stg3_0 vec2_zero inb_S128x2048_S128x2048_0_0 (I c).wuv

def gV67 (c : Dev nD) (X : Buf (Elt F) ((c : Thread nD τ).loc cc0_stg3_0)) : S1x128x512.Idx → F .bf16 :=
  k0_pay7 (B12.view.readAt (Elt F) (Rect.unit (s := S128x2048) (k0_off4 c) S128x512.size (k0_off4_inb c)).toLoadRect
    (B12.view.writes (Elt F) B12.view.junk
      [⟨(Rect.unit (s := S128x2048) ![0, 0] S128x2048.size inb_S128x2048_S128x2048_0_0), k0_pay5 (Bs3.view.readAt (Elt F) (Rect.unit (s := S128x2048) ![0, 0] S128x2048.size inb_S128x2048_S128x2048_0_0).toLoadRect X)⟩]))

theorem gV67_eq (I : Dev nD → Ins F) (c : Dev nD) : gV67 c (I c).wuv = wuvSlot I c c := by
  unfold gV67
  rw [rdWuv]
  exact congrArg (k0_pay7 (F := F)) (funext fun j => (read_slice_writes_box (Val := Elt F) cc0_scratch3 (Rect.unit (s := S128x2048) (k0_off4 c) S128x512.size (k0_off4_inb c)) (Rect.unit (s := S128x2048) ![0, 0] S128x2048.size inb_S128x2048_S128x2048_0_0)
    _ (k0_pay5 (I c).wuv) j _ (ownCols_emb c j)).trans rfl)

theorem Fv_glue (I : Dev nD → Ins F) (c : Dev nD) (p : Fin 3) (f : Buf (Elt F) ((c : Thread nD τ).loc cc0_scratch3)) :
    (uvS c p).view.read (Elt F)
        (B12.view.writes (Elt F) f
          [⟨(Rect.unit (s := S128x2048) ![0, 0] S128x2048.size inb_S128x2048_S128x2048_0_0), k0_pay5 (Bs3.view.readAt (Elt F) (Rect.unit (s := S128x2048) ![0, 0] S128x2048.size inb_S128x2048_S128x2048_0_0).toLoadRect (I c).wuv)⟩])
      = fun j => wuvbf I c (ix2 (j 0) (sentCol c p (j 1))) := by
  rw [rdWuv]
  funext j
  exact (congrArg _ (eq_ix2 j)).trans (read_uvS_writes c p f (k0_pay5 (I c).wuv) (j 0) (j 1))

theorem ix3_tail {n0 n1 n2 : Nat} (a : Fin n0) (p : Fin n1) (q : Fin n2) :
    (fun x : Fin 2 => (ix3 a p q) x.succ) = ix2 p q :=
  funext fun x => by match x with | ⟨0, _⟩ => rfl | ⟨1, _⟩ => rfl

theorem congr3 {α β γ δ : Sort _} (f : α → β → γ → δ) {a a' : α} {b b' : β} {c c' : γ} (ha : a = a') (hb : b = b') (hc : c = c') :
    f a b c = f a' b' c' := by subst ha hb hc; rfl

def gRc (c : Dev nD) (p : Fin 3) (g : BufTy.Contents (Elt F) (cM (og c p)).view.ty) :
    (Rect.unit (s := S4x1024x128) (k0_off10 c (BitVec.ofNat 32 (1 + p.val))) S1x1024x128.size (k0_off10_inb c p)).shape.Idx → Elt F .bf16 :=
  (Memref.whole cc0_scratch1).view.readAt (Elt F)
    (Rect.unit (s := S4x1024x128) (k0_off10 c (BitVec.ofNat 32 (1 + p.val))) S1x1024x128.size (k0_off10_inb c p)).toLoadRect g

-- A received latent slot, read at the sender's offset, is the sender's latent block.
theorem gRc_eq (I : Dev nD → Ins F) (c : Dev nD) (p : Fin 3) (g : BufTy.Contents (Elt F) (cM (og c p)).view.ty)
    (h : (cM (og c p)).view.read (Elt F) g = fun j => cOwn I (og c p) (ix3 0 (j 0) (j 1))) :
    gRc c p g = cOwn I (og c p) := by
  funext y
  have hy : y = ix3 (y 0) (y 1) (y 2) := eq_ix3 y
  have h0 : y 0 = (0 : Fin 1) := Subsingleton.elim (α := Fin 1) _ _
  rw [hy, h0]
  exact (readAt_cM (og c p) (k0_off10_eq c p) (k0_off10_inb c p) (c := c) g (y 1) (y 2)).trans (congrFun h (ix2 (y 1) (y 2)))

def gRk (c : Dev nD) (p : Fin 3) (g : BufTy.Contents (Elt F) (ukD (og c p)).view.ty) :
    (Rect.unit (s := S4x128x512) (k0_off11 c (BitVec.ofNat 32 (1 + p.val))) S1x128x512.size (k0_off11_inb c p)).shape.Idx → Elt F .bf16 :=
  (Memref.whole cc0_scratch4).view.readAt (Elt F)
    (Rect.unit (s := S4x128x512) (k0_off11 c (BitVec.ofNat 32 (1 + p.val))) S1x128x512.size (k0_off11_inb c p)).toLoadRect g

def gRv (c : Dev nD) (p : Fin 3) (g : BufTy.Contents (Elt F) (uvD (og c p)).view.ty) :
    (Rect.unit (s := S4x128x512) (k0_off11 c (BitVec.ofNat 32 (1 + p.val))) S1x128x512.size (k0_off11_inb c p)).shape.Idx → Elt F .bf16 :=
  (Memref.whole cc0_scratch5).view.readAt (Elt F)
    (Rect.unit (s := S4x128x512) (k0_off11 c (BitVec.ofNat 32 (1 + p.val))) S1x128x512.size (k0_off11_inb c p)).toLoadRect g

-- Column 512 c + t of the sender's block is the column it sends to c at t.
theorem colBox_idx (c : Dev nD) (p : Fin 3) (a : Fin 128) (t : Fin 512) :
    (Rect.unit (s := S128x2048) (colOff c) S128x512.size (colOff_inb c)).toLoadRect.idx (ix2 a t) = ix2 a (sentCol (og c p) p t) := by
  funext x
  apply Fin.ext
  match x with
  | ⟨0, _⟩ => show 0 + 1 * a.val = a.val; omega
  | ⟨1, _⟩ =>
    have hpe : (pe (og c p) p).val = c.val := congrArg Fin.val (pe_og c p)
    show 512 * c.val + 1 * t.val = 512 * (pe (og c p) p).val + t.val
    omega

theorem wukSlot_ix (I : Dev nD → Ins F) (c d : Dev nD) (r : Fin 128) (t : Fin 512) :
    wukSlot I c d (ix3 (0 : Fin 1) r t)
      = wukbf I d ((Rect.unit (s := S128x2048) (colOff c) S128x512.size (colOff_inb c)).toLoadRect.idx (ix2 r t)) := by
  unfold wukSlot k0_pay6
  rw [shapeCast_addUnit_apply ![128, 512], ix3_tail]
  rfl

theorem wuvSlot_ix (I : Dev nD → Ins F) (c d : Dev nD) (r : Fin 128) (t : Fin 512) :
    wuvSlot I c d (ix3 (0 : Fin 1) r t)
      = wuvbf I d ((Rect.unit (s := S128x2048) (colOff c) S128x512.size (colOff_inb c)).toLoadRect.idx (ix2 r t)) := by
  unfold wuvSlot k0_pay7
  rw [shapeCast_addUnit_apply ![128, 512], ix3_tail]
  rfl

theorem gRk_eq (I : Dev nD → Ins F) (c : Dev nD) (p : Fin 3) (g : BufTy.Contents (Elt F) (ukD (og c p)).view.ty)
    (h : (ukD (og c p)).view.read (Elt F) g = fun j => wukbf I (og c p) (ix2 (j 0) (sentCol (og c p) p (j 1)))) :
    gRk c p g = wukSlot I c (og c p) := by
  funext y
  have hy : y = ix3 (y 0) (y 1) (y 2) := eq_ix3 y
  have h0 : y 0 = (0 : Fin 1) := Subsingleton.elim (α := Fin 1) _ _
  rw [hy, h0]
  refine ((readAt_ukD (og c p) (k0_off11_eq c p) (k0_off11_inb c p) (c := c) g (y 1) (y 2)).trans
    (congrFun h (ix2 (y 1) (y 2)))).trans ?_
  exact ((wukSlot_ix I c (og c p) (y 1) (y 2)).trans (congrArg (wukbf I (og c p)) (colBox_idx c p (y 1) (y 2)))).symm

theorem gRv_eq (I : Dev nD → Ins F) (c : Dev nD) (p : Fin 3) (g : BufTy.Contents (Elt F) (uvD (og c p)).view.ty)
    (h : (uvD (og c p)).view.read (Elt F) g = fun j => wuvbf I (og c p) (ix2 (j 0) (sentCol (og c p) p (j 1)))) :
    gRv c p g = wuvSlot I c (og c p) := by
  funext y
  have hy : y = ix3 (y 0) (y 1) (y 2) := eq_ix3 y
  have h0 : y 0 = (0 : Fin 1) := Subsingleton.elim (α := Fin 1) _ _
  rw [hy, h0]
  refine ((readAt_uvD (og c p) (k0_off11_eq c p) (k0_off11_inb c p) (c := c) g (y 1) (y 2)).trans
    (congrFun h (ix2 (y 1) (y 2)))).trans ?_
  exact ((wuvSlot_ix I c (og c p) (y 1) (y 2)).trans (congrArg (wuvbf I (og c p)) (colBox_idx c p (y 1) (y 2)))).symm

def gK0 (c : Dev nD) (X0 : Buf (Elt F) ((c : Thread nD τ).loc cc0_stg0_0)) (X1 : Buf (Elt F) ((c : Thread nD τ).loc cc0_stg1_0)) (X2 : Buf (Elt F) ((c : Thread nD τ).loc cc0_stg2_0)) : FVec F S1024x512 .f32 :=
  k0_pay11 (k0_pay3 (gV32 c X0) (gWd c X1)) (gV60 c X2)
def gV0 (c : Dev nD) (X0 : Buf (Elt F) ((c : Thread nD τ).loc cc0_stg0_0)) (X1 : Buf (Elt F) ((c : Thread nD τ).loc cc0_stg1_0)) (X3 : Buf (Elt F) ((c : Thread nD τ).loc cc0_stg3_0)) : FVec F S1024x512 .f32 :=
  k0_pay12 (k0_pay3 (gV32 c X0) (gWd c X1)) (gV67 c X3)

theorem gK0_eq (I : Dev nD → Ins F) (c : Dev nD) : gK0 c (I c).x (I c).wdkv (I c).wuk = kAcc0 I c :=
  congr (congrArg k0_pay11 (cOwn_glue I c)) (gV60_eq I c)
theorem gV0_eq (I : Dev nD → Ins F) (c : Dev nD) : gV0 c (I c).x (I c).wdkv (I c).wuv = vAcc0 I c :=
  congr (congrArg k0_pay12 (cOwn_glue I c)) (gV67_eq I c)

def gK1 (c : Dev nD) (X0 : Buf (Elt F) ((c : Thread nD τ).loc cc0_stg0_0)) (X1 : Buf (Elt F) ((c : Thread nD τ).loc cc0_stg1_0)) (X2 : Buf (Elt F) ((c : Thread nD τ).loc cc0_stg2_0))
    (rc0 : BufTy.Contents (Elt F) (cM (og c 0)).view.ty) (rk0 : BufTy.Contents (Elt F) (ukD (og c 0)).view.ty) : FVec F S1024x512 .f32 :=
  k0_pay13 (gK0 c X0 X1 X2) (gRc c 0 rc0) (gRk c 0 rk0)
def gV1 (c : Dev nD) (X0 : Buf (Elt F) ((c : Thread nD τ).loc cc0_stg0_0)) (X1 : Buf (Elt F) ((c : Thread nD τ).loc cc0_stg1_0)) (X3 : Buf (Elt F) ((c : Thread nD τ).loc cc0_stg3_0))
    (rc0 : BufTy.Contents (Elt F) (cM (og c 0)).view.ty) (rv0 : BufTy.Contents (Elt F) (uvD (og c 0)).view.ty) : FVec F S1024x512 .f32 :=
  k0_pay14 (gV0 c X0 X1 X3) (gRc c 0 rc0) (gRv c 0 rv0)
def gK2 (c : Dev nD) (X0 : Buf (Elt F) ((c : Thread nD τ).loc cc0_stg0_0)) (X1 : Buf (Elt F) ((c : Thread nD τ).loc cc0_stg1_0)) (X2 : Buf (Elt F) ((c : Thread nD τ).loc cc0_stg2_0))
    (rc0 : BufTy.Contents (Elt F) (cM (og c 0)).view.ty) (rk0 : BufTy.Contents (Elt F) (ukD (og c 0)).view.ty)
    (rc1 : BufTy.Contents (Elt F) (cM (og c 1)).view.ty) (rk1 : BufTy.Contents (Elt F) (ukD (og c 1)).view.ty) : FVec F S1024x512 .f32 :=
  k0_pay15 (gK1 c X0 X1 X2 rc0 rk0) (gRc c 1 rc1) (gRk c 1 rk1)
def gV2 (c : Dev nD) (X0 : Buf (Elt F) ((c : Thread nD τ).loc cc0_stg0_0)) (X1 : Buf (Elt F) ((c : Thread nD τ).loc cc0_stg1_0)) (X3 : Buf (Elt F) ((c : Thread nD τ).loc cc0_stg3_0))
    (rc0 : BufTy.Contents (Elt F) (cM (og c 0)).view.ty) (rv0 : BufTy.Contents (Elt F) (uvD (og c 0)).view.ty)
    (rc1 : BufTy.Contents (Elt F) (cM (og c 1)).view.ty) (rv1 : BufTy.Contents (Elt F) (uvD (og c 1)).view.ty) : FVec F S1024x512 .f32 :=
  k0_pay16 (gV1 c X0 X1 X3 rc0 rv0) (gRc c 1 rc1) (gRv c 1 rv1)
def gKMy (c : Dev nD) (X0 : Buf (Elt F) ((c : Thread nD τ).loc cc0_stg0_0)) (X1 : Buf (Elt F) ((c : Thread nD τ).loc cc0_stg1_0)) (X2 : Buf (Elt F) ((c : Thread nD τ).loc cc0_stg2_0))
    (rc0 : BufTy.Contents (Elt F) (cM (og c 0)).view.ty) (rk0 : BufTy.Contents (Elt F) (ukD (og c 0)).view.ty)
    (rc1 : BufTy.Contents (Elt F) (cM (og c 1)).view.ty) (rk1 : BufTy.Contents (Elt F) (ukD (og c 1)).view.ty)
    (rc2 : BufTy.Contents (Elt F) (cM (og c 2)).view.ty) (rk2 : BufTy.Contents (Elt F) (ukD (og c 2)).view.ty) : FVec F S1024x512 .bf16 :=
  k0_pay17 (gK2 c X0 X1 X2 rc0 rk0 rc1 rk1) (gRc c 2 rc2) (gRk c 2 rk2)
def gVMy (c : Dev nD) (X0 : Buf (Elt F) ((c : Thread nD τ).loc cc0_stg0_0)) (X1 : Buf (Elt F) ((c : Thread nD τ).loc cc0_stg1_0)) (X3 : Buf (Elt F) ((c : Thread nD τ).loc cc0_stg3_0))
    (rc0 : BufTy.Contents (Elt F) (cM (og c 0)).view.ty) (rv0 : BufTy.Contents (Elt F) (uvD (og c 0)).view.ty)
    (rc1 : BufTy.Contents (Elt F) (cM (og c 1)).view.ty) (rv1 : BufTy.Contents (Elt F) (uvD (og c 1)).view.ty)
    (rc2 : BufTy.Contents (Elt F) (cM (og c 2)).view.ty) (rv2 : BufTy.Contents (Elt F) (uvD (og c 2)).view.ty) : FVec F S1024x512 .bf16 :=
  k0_pay18 (gV2 c X0 X1 X3 rc0 rv0 rc1 rv1) (gRc c 2 rc2) (gRv c 2 rv2)

end Cert.KernelIdealProof
end
-- ==== Proof.GlueO2.lean ====
import proofs.«900571_g7700000000000572_dist_mla_v7x_i4_i_b2_s512_d2048_dc128_f32_1_alg».proof.Proof.SlotViews
import proofs.«900571_g7700000000000572_dist_mla_v7x_i4_i_b2_s512_d2048_dc128_f32_1_alg».proof.Proof.KGen

noncomputable section

namespace Cert.KernelIdealProof

open Cert.KernelIdeal Cert.KernelIdeal.Gen
open Idealize.ShloMosaic
open Idealize.ShloMosaic.TcCoe
open Idealize.ShloMosaic.ValueIdx
open Cert.MlaKer

variable {F : FTy → Type} [FloatOps F]

section Generic
variable {κ : Kind} {Val : EltTy → Type}

-- After two stores a reshaped box reads the first store where the first box reaches and the second does not,
theorem read_reshape_two_writes_first (b : Ref sig κ) (RS R1 R2 : Rect b.ty.shape) (s' : Shape) (h : s'.numel = RS.shape.numel)
    (f : b.ty.Contents Val) (w0 : R1.shape.Idx → Val b.ty.elt) (w1 : R2.shape.Idx → Val b.ty.elt) (j : s'.Idx) (x : R1.shape.Idx)
    (he : RS.emb (Shape.reshapeEquiv h j) = R1.emb x) (hn : RS.emb (Shape.reshapeEquiv h j) ∉ Finset.univ.map R2.emb) :
    (((View.whole b).slice RS).reshape s' h).read Val
        (((View.whole b).slice R2).write Val (((View.whole b).slice R1).write Val f w0 Finset.univ) w1 Finset.univ) j
      = w0 x := by
  rw [read_reshape_slice_whole]
  refine (View.read_slice_write_of_not_mem (v := View.whole b) R2 _ w1 Finset.univ hn).trans ?_
  rw [he]
  exact View.read_slice_write_emb (v := View.whole b) R1 f w0 (Finset.mem_univ x)

-- and the second store where the second box reaches.
theorem read_reshape_two_writes_second (b : Ref sig κ) (RS R1 R2 : Rect b.ty.shape) (s' : Shape) (h : s'.numel = RS.shape.numel)
    (f : b.ty.Contents Val) (w0 : R1.shape.Idx → Val b.ty.elt) (w1 : R2.shape.Idx → Val b.ty.elt) (j : s'.Idx) (x : R2.shape.Idx)
    (he : RS.emb (Shape.reshapeEquiv h j) = R2.emb x) :
    (((View.whole b).slice RS).reshape s' h).read Val
        (((View.whole b).slice R2).write Val (((View.whole b).slice R1).write Val f w0 Finset.univ) w1 Finset.univ) j
      = w1 x := by
  rw [read_reshape_slice_whole, he]
  exact View.read_slice_write_emb (v := View.whole b) R2 _ w1 (Finset.mem_univ x)

end Generic

theorem stripe_emb_top (c : Dev nD) (col : Nat)
    (inbS : ∀ a, (![c.val, 0, col] : Fin 3 → Nat) a + S1x1024x128.size a ≤ S4x1024x512.size a)
    (inb1 : ∀ a, (![c.val, 0, col] : Fin 3 → Nat) a + S1x512x128.size a ≤ S4x1024x512.size a) (s : Fin 512) (l : Fin 128) :
    (Rect.unit (s := S4x1024x512) ![c.val, 0, col] S1x1024x128.size inbS).emb (ix3 (0 : Fin 1) (flatRow 0 s) l)
      = (Rect.unit (s := S4x1024x512) ![c.val, 0, col] S1x512x128.size inb1).emb (ix3 (0 : Fin 1) s l) := by
  funext a
  apply Fin.ext
  match a with
  | ⟨0, _⟩ => show c.val + 1 * 0 = c.val + 1 * 0; rfl
  | ⟨1, _⟩ => show 0 + 1 * (0 * 512 + s.val) = 0 + 1 * s.val; omega
  | ⟨2, _⟩ => show col + 1 * l.val = col + 1 * l.val; rfl

theorem stripe_emb_bot (c : Dev nD) (col : Nat)
    (inbS : ∀ a, (![c.val, 0, col] : Fin 3 → Nat) a + S1x1024x128.size a ≤ S4x1024x512.size a)
    (inb2 : ∀ a, (![c.val, 512, col] : Fin 3 → Nat) a + S1x512x128.size a ≤ S4x1024x512.size a) (s : Fin 512) (l : Fin 128) :
    (Rect.unit (s := S4x1024x512) ![c.val, 0, col] S1x1024x128.size inbS).emb (ix3 (0 : Fin 1) (flatRow 1 s) l)
      = (Rect.unit (s := S4x1024x512) ![c.val, 512, col] S1x512x128.size inb2).emb (ix3 (0 : Fin 1) s l) := by
  funext a
  apply Fin.ext
  match a with
  | ⟨0, _⟩ => show c.val + 1 * 0 = c.val + 1 * 0; rfl
  | ⟨1, _⟩ => show 0 + 1 * (1 * 512 + s.val) = 512 + 1 * s.val; omega
  | ⟨2, _⟩ => show col + 1 * l.val = col + 1 * l.val; rfl

theorem stripe_top_not_bot (c : Dev nD) (col : Nat)
    (inbS : ∀ a, (![c.val, 0, col] : Fin 3 → Nat) a + S1x1024x128.size a ≤ S4x1024x512.size a)
    (inb2 : ∀ a, (![c.val, 512, col] : Fin 3 → Nat) a + S1x512x128.size a ≤ S4x1024x512.size a) (s : Fin 512) (l : Fin 128) :
    (Rect.unit (s := S4x1024x512) ![c.val, 0, col] S1x1024x128.size inbS).emb (ix3 (0 : Fin 1) (flatRow 0 s) l)
      ∉ Finset.univ.map (Rect.unit (s := S4x1024x512) ![c.val, 512, col] S1x512x128.size inb2).emb := by
  intro hm
  obtain ⟨x, -, hx⟩ := Finset.mem_map.mp hm
  have h' : 512 + 1 * (x 1).val = 0 + 1 * (0 * 512 + s.val) := congrArg (fun i : S4x1024x512.Idx => (i 1).val) hx
  have := s.isLt
  omega

-- A stripe read after its two row-half stores returns the first block on its upper half,
theorem read_stripe_top (c : Dev nD) (col : Nat) {offS off1 off2 : Fin 3 → Nat}
    (hS : offS = ![c.val, 0, col]) (h1 : off1 = ![c.val, 0, col]) (h2 : off2 = ![c.val, 512, col])
    (inbS : ∀ a, offS a + S1x1024x128.size a ≤ S4x1024x512.size a)
    (inb1 : ∀ a, off1 a + S1x512x128.size a ≤ S4x1024x512.size a)
    (inb2 : ∀ a, off2 a + S1x512x128.size a ≤ S4x1024x512.size a)
    (f : (cc0_scratch6 : Ref sig .tc).ty.Contents (Elt F)) (w0 w1 : FVec F S1x512x128 .bf16) (s : Fin 512) (l : Fin 128) :
    (((View.whole cc0_scratch6).slice (Rect.unit (s := S4x1024x512) offS S1x1024x128.size inbS)).reshape S1024x128
          squeezes_S1x1024x128_S1024x128.numel_eq).read (Elt F)
        (((View.whole cc0_scratch6).slice (Rect.unit (s := S4x1024x512) off2 S1x512x128.size inb2)).write (Elt F)
          (((View.whole cc0_scratch6).slice (Rect.unit (s := S4x1024x512) off1 S1x512x128.size inb1)).write (Elt F) f w0 Finset.univ)
          w1 Finset.univ)
        (ix2 (flatRow 0 s) l)
      = w0 (ix3 (0 : Fin 1) s l) := by
  subst hS h1 h2
  have hr := reshapeEquiv_addUnit squeezes_S1x1024x128_S1024x128.numel_eq (flatRow 0 s) l
  exact read_reshape_two_writes_first (Val := Elt F) cc0_scratch6
    (Rect.unit (s := S4x1024x512) ![c.val, 0, col] S1x1024x128.size inbS)
    (Rect.unit (s := S4x1024x512) ![c.val, 0, col] S1x512x128.size inb1)
    (Rect.unit (s := S4x1024x512) ![c.val, 512, col] S1x512x128.size inb2)
    S1024x128 squeezes_S1x1024x128_S1024x128.numel_eq f w0 w1 (ix2 (flatRow 0 s) l) (ix3 (0 : Fin 1) s l)
    (hr ▸ stripe_emb_top c col inbS inb1 s l) (hr ▸ stripe_top_not_bot c col inbS inb2 s l)

-- and the second block on its lower half.
theorem read_stripe_bot (c : Dev nD) (col : Nat) {offS off1 off2 : Fin 3 → Nat}
    (hS : offS = ![c.val, 0, col]) (h1 : off1 = ![c.val, 0, col]) (h2 : off2 = ![c.val, 512, col])
    (inbS : ∀ a, offS a + S1x1024x128.size a ≤ S4x1024x512.size a)
    (inb1 : ∀ a, off1 a + S1x512x128.size a ≤ S4x1024x512.size a)
    (inb2 : ∀ a, off2 a + S1x512x128.size a ≤ S4x1024x512.size a)
    (f : (cc0_scratch6 : Ref sig .tc).ty.Contents (Elt F)) (w0 w1 : FVec F S1x512x128 .bf16) (s : Fin 512) (l : Fin 128) :
    (((View.whole cc0_scratch6).slice (Rect.unit (s := S4x1024x512) offS S1x1024x128.size inbS)).reshape S1024x128
          squeezes_S1x1024x128_S1024x128.numel_eq).read (Elt F)
        (((View.whole cc0_scratch6).slice (Rect.unit (s := S4x1024x512) off2 S1x512x128.size inb2)).write (Elt F)
          (((View.whole cc0_scratch6).slice (Rect.unit (s := S4x1024x512) off1 S1x512x128.size inb1)).write (Elt F) f w0 Finset.univ)
          w1 Finset.univ)
        (ix2 (flatRow 1 s) l)
      = w1 (ix3 (0 : Fin 1) s l) := by
  subst hS h1 h2
  have hr := reshapeEquiv_addUnit squeezes_S1x1024x128_S1024x128.numel_eq (flatRow 1 s) l
  exact read_reshape_two_writes_second (Val := Elt F) cc0_scratch6
    (Rect.unit (s := S4x1024x512) ![c.val, 0, col] S1x1024x128.size inbS)
    (Rect.unit (s := S4x1024x512) ![c.val, 0, col] S1x512x128.size inb1)
    (Rect.unit (s := S4x1024x512) ![c.val, 512, col] S1x512x128.size inb2)
    S1024x128 squeezes_S1x1024x128_S1024x128.numel_eq f w0 w1 (ix2 (flatRow 1 s) l) (ix3 (0 : Fin 1) s l)
    (hr ▸ stripe_emb_bot c col inbS inb2 s l)

end Cert.KernelIdealProof
end
-- ==== Proof.GlueO.lean ====
import proofs.«900571_g7700000000000572_dist_mla_v7x_i4_i_b2_s512_d2048_dc128_f32_1_alg».proof.Proof.GlueO2
import proofs.«900571_g7700000000000572_dist_mla_v7x_i4_i_b2_s512_d2048_dc128_f32_1_alg».proof.Proof.Slots2
import Idealize.ShloMosaic.Lib.ValueLayout
import proofs.«900571_g7700000000000572_dist_mla_v7x_i4_i_b2_s512_d2048_dc128_f32_1_alg».proof.Proof.KOwn
import proofs.«900571_g7700000000000572_dist_mla_v7x_i4_i_b2_s512_d2048_dc128_f32_1_alg».proof.Proof.VDef

noncomputable section

namespace Cert.KernelIdealProof

open Cert.KernelIdeal Cert.KernelIdeal.Gen
open Idealize.ShloMosaic
open Idealize.ShloMosaic.TcCoe
open Idealize.ShloMosaic.ValueIdx
open Cert.MlaKer Cert.MlaSpec

variable {F : FTy → Type} [FloatOps F]

-- A stripe that reads, on each row half, that half's attention block is the own slot on the stripe's columns.
theorem stripe_of_halves (I : Dev nD → Ins F) (c : Dev nD) (h : Fin 4) (R : Vec F S1024x128 .bf16)
    (htop : ∀ (s : Fin 512) (l : Fin 128), R (ix2 (flatRow 0 s) l) = oBlk I c 0 h (ix3 (0 : Fin 1) s l))
    (hbot : ∀ (s : Fin 512) (l : Fin 128), R (ix2 (flatRow 1 s) l) = oBlk I c 1 h (ix3 (0 : Fin 1) s l)) :
    R = fun j => oOwn I c (ix3 (0 : Fin 1) (j 0) (oCol h (j 1))) := by
  funext j
  obtain ⟨r, l, rfl⟩ : ∃ (r : Fin 1024) (l : Fin 128), j = ix2 r l := ⟨j 0, j 1, eq_ix2 j⟩
  have hcol : oCol h l = gcol128 h l := Fin.ext (by show 128 * h.val + l.val = h.val * 128 + l.val; omega)
  show _ = oOwn I c (ix3 (0 : Fin 1) r (oCol h l))
  rw [hcol]
  by_cases hr : r.val < 512
  · obtain ⟨s, rfl⟩ : ∃ s : Fin 512, r = flatRow 0 s := ⟨⟨r.val, hr⟩, Fin.ext (by show r.val = 0 * 512 + r.val; omega)⟩
    rw [htop, oOwn_apply]
  · have hr' : r.val - 512 < 512 := by have := r.isLt; omega
    obtain ⟨s, rfl⟩ : ∃ s : Fin 512, r = flatRow 1 s := ⟨⟨r.val - 512, hr'⟩, Fin.ext (by show r.val = 1 * 512 + (r.val - 512); omega)⟩
    rw [hbot, oOwn_apply]

end Cert.KernelIdealProof
end
-- ==== Proof.GlueORun.lean ====
import proofs.«900571_g7700000000000572_dist_mla_v7x_i4_i_b2_s512_d2048_dc128_f32_1_alg».proof.Proof.GlueP1
import proofs.«900571_g7700000000000572_dist_mla_v7x_i4_i_b2_s512_d2048_dc128_f32_1_alg».proof.Proof.GlueO

noncomputable section

namespace Cert.KernelIdealProof

open Cert.KernelIdeal Cert.KernelIdeal.Gen
open Idealize.ShloMosaic
open Idealize.ShloMosaic.TcCoe
open Idealize.ShloMosaic.ValueIdx
open Cert.MlaKer Cert.MlaSpec

variable {F : FTy → Type} [FloatOps F]

-- Any head stripe after its two block stores reads the device's own attention output on its columns.
theorem stripe_run (I : Dev nD → Ins F) (c : Dev nD) (h : Fin 4) (col : Nat) {offS off1 off2 : Fin 3 → Nat}
    (hS : offS = ![c.val, 0, col]) (h1 : off1 = ![c.val, 0, col]) (h2 : off2 = ![c.val, 512, col])
    (inbS : ∀ a, offS a + S1x1024x128.size a ≤ S4x1024x512.size a)
    (inb1 : ∀ a, off1 a + S1x512x128.size a ≤ S4x1024x512.size a)
    (inb2 : ∀ a, off2 a + S1x512x128.size a ≤ S4x1024x512.size a)
    (f : (cc0_scratch6 : Ref sig .tc).ty.Contents (Elt F)) (w0 w1 : FVec F S1x512x128 .bf16)
    (hw0 : w0 = oBlk I c 0 h) (hw1 : w1 = oBlk I c 1 h) :
    (((View.whole cc0_scratch6).slice (Rect.unit (s := S4x1024x512) offS S1x1024x128.size inbS)).reshape S1024x128
          squeezes_S1x1024x128_S1024x128.numel_eq).read (Elt F)
        (((View.whole cc0_scratch6).slice (Rect.unit (s := S4x1024x512) off2 S1x512x128.size inb2)).write (Elt F)
          (((View.whole cc0_scratch6).slice (Rect.unit (s := S4x1024x512) off1 S1x512x128.size inb1)).write (Elt F) f w0 Finset.univ)
          w1 Finset.univ)
      = fun j => oOwn I c (ix3 (0 : Fin 1) (j 0) (oCol h (j 1))) := by
  subst hw0 hw1
  exact stripe_of_halves I c h _ (fun s l => read_stripe_top c col hS h1 h2 inbS inb1 inb2 f _ _ s l)
    (fun s l => read_stripe_bot c col hS h1 h2 inbS inb1 inb2 f _ _ s l)

section Run

variable (I : Dev nD → Ins F) (c : Dev nD) (f15 : Buf (Elt F) ((c : Thread nD τ).loc cc0_scratch6))
  (rc0 : BufTy.Contents (Elt F) (cM (og c 0)).view.ty) (rk0 : BufTy.Contents (Elt F) (ukD (og c 0)).view.ty) (rv0 : BufTy.Contents (Elt F) (uvD (og c 0)).view.ty)
  (rc1 : BufTy.Contents (Elt F) (cM (og c 1)).view.ty) (rk1 : BufTy.Contents (Elt F) (ukD (og c 1)).view.ty) (rv1 : BufTy.Contents (Elt F) (uvD (og c 1)).view.ty)
  (rc2 : BufTy.Contents (Elt F) (cM (og c 2)).view.ty) (rk2 : BufTy.Contents (Elt F) (ukD (og c 2)).view.ty) (rv2 : BufTy.Contents (Elt F) (uvD (og c 2)).view.ty)
  (hc0 : (cM (og c 0)).view.read (Elt F) rc0 = fun j => cOwn I (og c 0) (ix3 0 (j 0) (j 1)))
  (hc1 : (cM (og c 1)).view.read (Elt F) rc1 = fun j => cOwn I (og c 1) (ix3 0 (j 0) (j 1)))
  (hc2 : (cM (og c 2)).view.read (Elt F) rc2 = fun j => cOwn I (og c 2) (ix3 0 (j 0) (j 1)))
  (hk0 : (ukD (og c 0)).view.read (Elt F) rk0 = fun j => wukbf I (og c 0) (ix2 (j 0) (sentCol (og c 0) 0 (j 1))))
  (hk1 : (ukD (og c 1)).view.read (Elt F) rk1 = fun j => wukbf I (og c 1) (ix2 (j 0) (sentCol (og c 1) 1 (j 1))))
  (hk2 : (ukD (og c 2)).view.read (Elt F) rk2 = fun j => wukbf I (og c 2) (ix2 (j 0) (sentCol (og c 2) 2 (j 1))))
  (hv0 : (uvD (og c 0)).view.read (Elt F) rv0 = fun j => wuvbf I (og c 0) (ix2 (j 0) (sentCol (og c 0) 0 (j 1))))
  (hv1 : (uvD (og c 1)).view.read (Elt F) rv1 = fun j => wuvbf I (og c 1) (ix2 (j 0) (sentCol (og c 1) 1 (j 1))))
  (hv2 : (uvD (og c 2)).view.read (Elt F) rv2 = fun j => wuvbf I (og c 2) (ix2 (j 0) (sentCol (og c 2) 2 (j 1))))

include hc0 hk0 hc1 hk1 in
theorem k2_eq : gK2 c (I c).x (I c).wdkv (I c).wuk rc0 rk0 rc1 rk1 = kAcc2 I c :=
  congr3 k0_pay15 (congr3 k0_pay13 (gK0_eq I c) (gRc_eq I c 0 rc0 hc0) (gRk_eq I c 0 rk0 hk0)) (gRc_eq I c 1 rc1 hc1) (gRk_eq I c 1 rk1 hk1)
include hc0 hv0 hc1 hv1 in
theorem v2_eq : gV2 c (I c).x (I c).wdkv (I c).wuv rc0 rv0 rc1 rv1 = vAcc2 I c :=
  congr3 k0_pay16 (congr3 k0_pay14 (gV0_eq I c) (gRc_eq I c 0 rc0 hc0) (gRv_eq I c 0 rv0 hv0)) (gRc_eq I c 1 rc1 hc1) (gRv_eq I c 1 rv1 hv1)
include hc0 hk0 hc1 hk1 hc2 hk2 in
-- The keys accumulated over the own block and the three received ones.
theorem kMy_eq : gKMy c (I c).x (I c).wdkv (I c).wuk rc0 rk0 rc1 rk1 rc2 rk2 = kMy I c :=
  congr3 k0_pay17 (k2_eq I c rc0 rk0 rc1 rk1 hc0 hc1 hk0 hk1) (gRc_eq I c 2 rc2 hc2) (gRk_eq I c 2 rk2 hk2)
include hc0 hv0 hc1 hv1 hc2 hv2 in
theorem vMy_eq : gVMy c (I c).x (I c).wdkv (I c).wuv rc0 rv0 rc1 rv1 rc2 rv2 = vMy I c :=
  congr3 k0_pay18 (v2_eq I c rc0 rv0 rc1 rv1 hc0 hc1 hv0 hv1) (gRc_eq I c 2 rc2 hc2) (gRv_eq I c 2 rv2 hv2)

include hc0 hc1 hc2 hk0 hk1 hk2 hv0 hv1 hv2 in
theorem stripe0_run :
    (oM c 0).view.read (Elt F)
        (View.write (Elt F) ((Memref.whole cc0_scratch6).access (Rect.unit (s := S4x1024x512) (k0_off13 c) S1x512x128.size (k0_off13_inb c)))
          (View.write (Elt F) ((Memref.whole cc0_scratch6).access (Rect.unit (s := S4x1024x512) (k0_off12 c) S1x512x128.size (k0_off12_inb c))) f15
            (k0_pay23 (k0_pay21 (gV2 c (I c).x (I c).wdkv (I c).wuv rc0 rv0 rc1 rv1) (gRc c 2 rc2) (gRv c 2 rv2)) (k0_pay22 (gKr c (I c).x (I c).wkr) (gQr c (I c).x (I c).wqr) (gQ c (I c).x (I c).wq) (gK2 c (I c).x (I c).wdkv (I c).wuk rc0 rk0 rc1 rk1) (gRc c 2 rc2) (gRk c 2 rk2))) Finset.univ)
          (k0_pay24 (k0_pay19 (gQr c (I c).x (I c).wqr) (gQ c (I c).x (I c).wq)) (k0_pay20 (gKr c (I c).x (I c).wkr) (gK2 c (I c).x (I c).wdkv (I c).wuk rc0 rk0 rc1 rk1) (gRc c 2 rc2) (gRk c 2 rk2)) (k0_pay21 (gV2 c (I c).x (I c).wdkv (I c).wuv rc0 rv0 rc1 rv1) (gRc c 2 rc2) (gRv c 2 rv2))) Finset.univ)
      = fun j => oOwn I c (ix3 (0 : Fin 1) (j 0) (oCol 0 (j 1))) := by
  rw [gKr_eq I c, gQr_eq I c, gQ_eq I c, k2_eq I c rc0 rk0 rc1 rk1 hc0 hc1 hk0 hk1, v2_eq I c rc0 rv0 rc1 rv1 hc0 hc1 hv0 hv1,
    gRc_eq I c 2 rc2 hc2, gRk_eq I c 2 rk2 hk2, gRv_eq I c 2 rv2 hv2]
  exact stripe_run I c 0 0 (k0_off14_eq c) (k0_off12_eq c) (k0_off13_eq c) _ _ _ f15 _ _ rfl rfl

include hc0 hc1 hc2 hk0 hk1 hk2 hv0 hv1 hv2 in
theorem stripe1_run :
    (oM c 1).view.read (Elt F)
        (View.write (Elt F) ((Memref.whole cc0_scratch6).access (Rect.unit (s := S4x1024x512) (k0_off16 c) S1x512x128.size (k0_off16_inb c)))
          (View.write (Elt F) ((Memref.whole cc0_scratch6).access (Rect.unit (s := S4x1024x512) (k0_off15 c) S1x512x128.size (k0_off15_inb c))) f15
            (k0_pay28 (gKr c (I c).x (I c).wkr) (gQr c (I c).x (I c).wqr) (gQ c (I c).x (I c).wq) (gKMy c (I c).x (I c).wdkv (I c).wuk rc0 rk0 rc1 rk1 rc2 rk2) (gVMy c (I c).x (I c).wdkv (I c).wuv rc0 rv0 rc1 rv1 rc2 rv2)) Finset.univ)
          (k0_pay32 (k0_pay30 (gKr c (I c).x (I c).wkr) (gQr c (I c).x (I c).wqr) (gQ c (I c).x (I c).wq) (gKMy c (I c).x (I c).wdkv (I c).wuk rc0 rk0 rc1 rk1 rc2 rk2) (gVMy c (I c).x (I c).wdkv (I c).wuv rc0 rv0 rc1 rv1 rc2 rv2)) (k0_pay31 (gKr c (I c).x (I c).wkr) (gQr c (I c).x (I c).wqr) (gQ c (I c).x (I c).wq) (gKMy c (I c).x (I c).wdkv (I c).wuk rc0 rk0 rc1 rk1 rc2 rk2))) Finset.univ)
      = fun j => oOwn I c (ix3 (0 : Fin 1) (j 0) (oCol 1 (j 1))) := by
  rw [gKr_eq I c, gQr_eq I c, gQ_eq I c, kMy_eq I c rc0 rk0 rc1 rk1 rc2 rk2 hc0 hc1 hc2 hk0 hk1 hk2,
    vMy_eq I c rc0 rv0 rc1 rv1 rc2 rv2 hc0 hc1 hc2 hv0 hv1 hv2]
  exact stripe_run I c 1 128 (k0_off17_eq c) (k0_off15_eq c) (k0_off16_eq c) _ _ _ f15 _ _ rfl rfl

include hc0 hc1 hc2 hk0 hk1 hk2 hv0 hv1 hv2 in
theorem stripe2_run :
    (oM c 2).view.read (Elt F)
        (View.write (Elt F) ((Memref.whole cc0_scratch6).access (Rect.unit (s := S4x1024x512) (k0_off19 c) S1x512x128.size (k0_off19_inb c)))
          (View.write (Elt F) ((Memref.whole cc0_scratch6).access (Rect.unit (s := S4x1024x512) (k0_off18 c) S1x512x128.size (k0_off18_inb c))) f15
            (k0_pay36 (gKr c (I c).x (I c).wkr) (gQr c (I c).x (I c).wqr) (gQ c (I c).x (I c).wq) (gKMy c (I c).x (I c).wdkv (I c).wuk rc0 rk0 rc1 rk1 rc2 rk2) (gVMy c (I c).x (I c).wdkv (I c).wuv rc0 rv0 rc1 rv1 rc2 rv2)) Finset.univ)
          (k0_pay39 (k0_pay35 (gVMy c (I c).x (I c).wdkv (I c).wuv rc0 rv0 rc1 rv1 rc2 rv2)) (k0_pay37 (gQr c (I c).x (I c).wqr) (gQ c (I c).x (I c).wq)) (k0_pay38 (gKr c (I c).x (I c).wkr) (gKMy c (I c).x (I c).wdkv (I c).wuk rc0 rk0 rc1 rk1 rc2 rk2))) Finset.univ)
      = fun j => oOwn I c (ix3 (0 : Fin 1) (j 0) (oCol 2 (j 1))) := by
  rw [gKr_eq I c, gQr_eq I c, gQ_eq I c, kMy_eq I c rc0 rk0 rc1 rk1 rc2 rk2 hc0 hc1 hc2 hk0 hk1 hk2,
    vMy_eq I c rc0 rv0 rc1 rv1 rc2 rv2 hc0 hc1 hc2 hv0 hv1 hv2]
  exact stripe_run I c 2 256 (k0_off20_eq c) (k0_off18_eq c) (k0_off19_eq c) _ _ _ f15 _ _ rfl rfl

include hc0 hc1 hc2 hk0 hk1 hk2 hv0 hv1 hv2 in
theorem stripe3_run :
    (oM c 3).view.read (Elt F)
        (View.write (Elt F) ((Memref.whole cc0_scratch6).access (Rect.unit (s := S4x1024x512) (k0_off22 c) S1x512x128.size (k0_off22_inb c)))
          (View.write (Elt F) ((Memref.whole cc0_scratch6).access (Rect.unit (s := S4x1024x512) (k0_off21 c) S1x512x128.size (k0_off21_inb c))) f15
            (k0_pay47 (k0_pay44 (gKr c (I c).x (I c).wkr) (gQr c (I c).x (I c).wqr) (gQ c (I c).x (I c).wq) (gKMy c (I c).x (I c).wdkv (I c).wuk rc0 rk0 rc1 rk1 rc2 rk2)) (k0_pay45 (gKr c (I c).x (I c).wkr) (gQr c (I c).x (I c).wqr) (gQ c (I c).x (I c).wq) (gKMy c (I c).x (I c).wdkv (I c).wuk rc0 rk0 rc1 rk1 rc2 rk2)) (k0_pay46 (gVMy c (I c).x (I c).wdkv (I c).wuv rc0 rv0 rc1 rv1 rc2 rv2))) Finset.univ)
          (k0_pay48 (k0_pay40 (gQr c (I c).x (I c).wqr) (gQ c (I c).x (I c).wq)) (k0_pay41 (gKr c (I c).x (I c).wkr) (gKMy c (I c).x (I c).wdkv (I c).wuk rc0 rk0 rc1 rk1 rc2 rk2)) (k0_pay42 (gVMy c (I c).x (I c).wdkv (I c).wuv rc0 rv0 rc1 rv1 rc2 rv2))) Finset.univ)
      = fun j => oOwn I c (ix3 (0 : Fin 1) (j 0) (oCol 3 (j 1))) := by
  rw [gKr_eq I c, gQr_eq I c, gQ_eq I c, kMy_eq I c rc0 rk0 rc1 rk1 rc2 rk2 hc0 hc1 hc2 hk0 hk1 hk2,
    vMy_eq I c rc0 rv0 rc1 rv1 rc2 rv2 hc0 hc1 hc2 hv0 hv1 hv2]
  exact stripe_run I c 3 384 (k0_off23_eq c) (k0_off21_eq c) (k0_off22_eq c) _ _ _ f15 _ _ rfl rfl

end Run

end Cert.KernelIdealProof
end
-- ==== Proof.GlueOS.lean ====
import proofs.«900571_g7700000000000572_dist_mla_v7x_i4_i_b2_s512_d2048_dc128_f32_1_alg».proof.Proof.Slots2
import Idealize.ShloMosaic.Lib.ValueLayout
import proofs.«900571_g7700000000000572_dist_mla_v7x_i4_i_b2_s512_d2048_dc128_f32_1_alg».proof.Proof.VDef

noncomputable section

namespace Cert.KernelIdealProof

open Cert.KernelIdeal Cert.KernelIdeal.Gen
open Idealize.ShloMosaic
open Idealize.ShloMosaic.TcCoe
open Idealize.ShloMosaic.ValueIdx
open Cert.MlaKer

variable {F : FTy → Type} [FloatOps F]

-- Each of the 512 columns lies in one of the four 128-column stripes.
theorem oCol_cases (e : Fin 512) : ∃ (k : Fin 4) (l : Fin 128), e = oCol k l :=
  ⟨⟨e.val / 128, by have := e.isLt; omega⟩, ⟨e.val % 128, Nat.mod_lt _ (by decide)⟩,
    Fin.ext (by show e.val = 128 * (e.val / 128) + e.val % 128; omega)⟩

-- A slot whose four stripes read the four column groups of O loads whole as O.
theorem readAt_slot_glue4 (c d : Dev nD) {off : Fin 3 → Nat} (hoff : off = ![d.val, 0, 0])
    (inb : ∀ a, off a + S1x1024x512.size a ≤ S4x1024x512.size a)
    (f0 f1 f2 f3 : Buf (Elt F) ((c : Thread nD τ).loc cc0_scratch6)) (O : Vec F S1x1024x512 .bf16)
    (h0 : (oM d 0).view.read (Elt F) f0 = fun j => O (ix3 0 (j 0) (oCol 0 (j 1))))
    (h1 : (oM d 1).view.read (Elt F) f1 = fun j => O (ix3 0 (j 0) (oCol 1 (j 1))))
    (h2 : (oM d 2).view.read (Elt F) f2 = fun j => O (ix3 0 (j 0) (oCol 2 (j 1))))
    (h3 : (oM d 3).view.read (Elt F) f3 = fun j => O (ix3 0 (j 0) (oCol 3 (j 1)))) :
    (Memref.whole cc0_scratch6).view.readAt (Elt F) (Rect.unit (s := S4x1024x512) off S1x1024x512.size inb).toLoadRect
        (glue4 (F := F) c f0 f1 f2 f3)
      = O := by
  funext y
  have hy : y = ix3 (0 : Fin 1) (y 1) (y 2) :=
    (eq_ix3 y).trans (congrArg (ix3 · (y 1) (y 2)) (Subsingleton.elim (α := Fin 1) (y 0) 0))
  obtain ⟨k, l, hkl⟩ := oCol_cases (y 2)
  rw [hy, hkl]
  match k with
  | 0 =>
    refine (readAt_oM0 (F := F) d hoff inb _ (y 1) l).trans ?_
    rw [read_glue4_0 c d f0 f1 f2 f3, h0]; rfl
  | 1 =>
    refine (readAt_oM1 (F := F) d hoff inb _ (y 1) l).trans ?_
    rw [read_glue4_1 c d f0 f1 f2 f3, h1]; rfl
  | 2 =>
    refine (readAt_oM2 (F := F) d hoff inb _ (y 1) l).trans ?_
    rw [read_glue4_2 c d f0 f1 f2 f3, h2]; rfl
  | 3 =>
    refine (readAt_oM3 (F := F) d hoff inb _ (y 1) l).trans ?_
    rw [read_glue4_3 c d f0 f1 f2 f3, h3]; rfl

section Loads

variable (I : Dev nD → Ins F) (c : Dev nD)

theorem own_slot_load (fo0 fo1 fo2 fo3 : Buf (Elt F) ((c : Thread nD τ).loc cc0_scratch6))
    (h0 : (oM c 0).view.read (Elt F) fo0 = fun j => oOwn I c (ix3 0 (j 0) (oCol 0 (j 1))))
    (h1 : (oM c 1).view.read (Elt F) fo1 = fun j => oOwn I c (ix3 0 (j 0) (oCol 1 (j 1))))
    (h2 : (oM c 2).view.read (Elt F) fo2 = fun j => oOwn I c (ix3 0 (j 0) (oCol 2 (j 1))))
    (h3 : (oM c 3).view.read (Elt F) fo3 = fun j => oOwn I c (ix3 0 (j 0) (oCol 3 (j 1)))) :
    (Memref.whole cc0_scratch6).view.readAt (Elt F)
        (Rect.unit (s := S4x1024x512) (k0_off24 c) S1x1024x512.size (k0_off24_inb c)).toLoadRect (glue4 (F := F) c fo0 fo1 fo2 fo3)
      = oOwn I c :=
  readAt_slot_glue4 c c (k0_off24_eq c) (k0_off24_inb c) fo0 fo1 fo2 fo3 _ h0 h1 h2 h3

-- The slot received from the device p + 1 places back, loaded whole, is that device's attention output.
theorem og_slot_load (p : Fin 3) (ro0 ro1 ro2 ro3 : Buf (Elt F) ((c : Thread nD τ).loc cc0_scratch6))
    (h0 : (oM (og c p) 0).view.read (Elt F) ro0 = fun j => oOwn I (og c p) (ix3 0 (j 0) (oCol 0 (j 1))))
    (h1 : (oM (og c p) 1).view.read (Elt F) ro1 = fun j => oOwn I (og c p) (ix3 0 (j 0) (oCol 1 (j 1))))
    (h2 : (oM (og c p) 2).view.read (Elt F) ro2 = fun j => oOwn I (og c p) (ix3 0 (j 0) (oCol 2 (j 1))))
    (h3 : (oM (og c p) 3).view.read (Elt F) ro3 = fun j => oOwn I (og c p) (ix3 0 (j 0) (oCol 3 (j 1)))) :
    (Memref.whole cc0_scratch6).view.readAt (Elt F)
        (Rect.unit (s := S4x1024x512) (k0_off26 c (BitVec.ofNat 32 (1 + p.val))) S1x1024x512.size (k0_off26_inb c p)).toLoadRect
        (glue4 (F := F) c ro0 ro1 ro2 ro3)
      = oOwn I (og c p) :=
  readAt_slot_glue4 c (og c p) (k0_off26_eq c p) (k0_off26_inb c p) ro0 ro1 ro2 ro3 _ h0 h1 h2 h3

end Loads

end Cert.KernelIdealProof
end
-- ==== Proof.GlueOut.lean ====
import proofs.«900571_g7700000000000572_dist_mla_v7x_i4_i_b2_s512_d2048_dc128_f32_1_alg».proof.Proof.VDef
import proofs.«900571_g7700000000000572_dist_mla_v7x_i4_i_b2_s512_d2048_dc128_f32_1_alg».proof.Proof.KGen

noncomputable section

namespace Cert.KernelIdealProof

open Cert.KernelIdeal Cert.KernelIdeal.Gen
open Idealize.ShloMosaic Idealize.ShloMosaic.ValueIdx
open Idealize.ShloMosaic.TcCoe
open Idealize.SL.Sem
open Cert.MlaKer

variable {F : FTy → Type} [FloatOps F]

-- A load of the whole array after a store of the whole array reads what was stored.
theorem readCov_whole_head {sg : RefSig} {κ : Kind} {sp : Space} {S : Shape} {e : EltTy}
    (v : View sg κ sp S e) (w : (Rect.whole S).shape.Idx → Elt F e) (L : List (View.Piece (Elt F) S e))
    {off : Fin S.rank → Nat} (h : off = fun _ => 0) (inb : ∀ a, off a + S.size a ≤ S.size a) :
    v.readCov (⟨Rect.whole S, w⟩ :: L) (Rect.unit off S.size inb).toLoadRect = w := by
  subst h
  exact View.readCov_cons_toLoadRect v (Rect.whole S) w L

def woRows (c : Dev nD) (m7 : Buf (Elt F) ((c : Thread nD τ).loc main_arg7)) (off : Fin 2 → Nat)
    (inb : ∀ a, off a + S512x2048.size a ≤ S2048x2048.size a) : S512x2048.Idx → Elt F .f32 :=
  ReadAs.same.apply
    (View.read (Elt F) ((Memref.whole main_arg7).slice (Rect.unit (s := S2048x2048) off S512x2048.size inb) (fun _ => rfl)).view m7)

abbrev RLo : Rect S2x512x2048 := Rect.unit ![0, 0, 0] S2x512x1024.size inb_S2x512x2048_S2x512x1024_0_0_0
abbrev RHi : Rect S2x512x2048 := Rect.unit ![0, 0, 1024] S2x512x1024.size inb_S2x512x2048_S2x512x1024_0_0_1024

-- Columns [0, 1024) and [1024, 2048) do not meet.
theorem halves_disjoint : Disjoint RLo.set RHi.set := by
  refine Finset.disjoint_left.mpr fun i hl hr => ?_
  have h1 := (Rect.mem_set_unit.mp hl (2 : Fin 3)).2
  have h2 := (Rect.mem_set_unit.mp hr (2 : Fin 3)).1
  have h1' : (i 2).val < 0 + 1024 := h1
  have h2' : 1024 ≤ (i 2).val := h2
  omega

theorem readCov_hi_lo {sg : RefSig} {κ : Kind} {sp : Space} (v : View sg κ sp S2x512x2048 .f32)
    (wR : RHi.shape.Idx → Elt F .f32) (wL : RLo.shape.Idx → Elt F .f32) (L : List (View.Piece (Elt F) S2x512x2048 .f32)) :
    v.readCov (⟨RHi, wR⟩ :: ⟨RLo, wL⟩ :: L) RLo.toLoadRect = wL := by
  rw [View.readCov_cons_of_disjoint v ⟨RHi, wR⟩ _ RLo.toLoadRect halves_disjoint.symm]
  exact View.readCov_cons_toLoadRect v RLo wL L

theorem readCov_lo_hi {sg : RefSig} {κ : Kind} {sp : Space} (v : View sg κ sp S2x512x2048 .f32)
    (wL : RLo.shape.Idx → Elt F .f32) (wR : RHi.shape.Idx → Elt F .f32) (L : List (View.Piece (Elt F) S2x512x2048 .f32)) :
    v.readCov (⟨RLo, wL⟩ :: ⟨RHi, wR⟩ :: L) RHi.toLoadRect = wR := by
  rw [View.readCov_cons_of_disjoint v ⟨RLo, wL⟩ _ RHi.toLoadRect halves_disjoint]
  exact View.readCov_cons_toLoadRect v RHi wR L

theorem writes_halves (c : Dev nD) (X : Buf (Elt F) ((c : Thread nD τ).loc cc0_stg6_0))
    (wR : RHi.shape.Idx → Elt F .f32) (wL : RLo.shape.Idx → Elt F .f32) (L : List (View.Piece (Elt F) S2x512x2048 .f32)) :
    (Memref.whole cc0_stg6_0).view.writes (Elt F) X (⟨RHi, wR⟩ :: ⟨RLo, wL⟩ :: L)
      = wr (wr ((Memref.whole cc0_stg6_0).view.writes (Elt F) X L) ![0, 0, 0] S2x512x1024.size inb_S2x512x2048_S2x512x1024_0_0_0 wL)
          ![0, 0, 1024] S2x512x1024.size inb_S2x512x2048_S2x512x1024_0_0_1024 wR := by
  rw [View.writes_cons, View.writes_cons]
  unfold wr
  rw [← View.write_whole_slice_unit cc0_stg6_0 ![0, 0, 0] S2x512x1024.size inb_S2x512x2048_S2x512x1024_0_0_0,
    ← View.write_whole_slice_unit cc0_stg6_0 ![0, 0, 1024] S2x512x1024.size inb_S2x512x2048_S2x512x1024_0_0_1024]

section Pieces

variable (v : View sig .tc .vmem S2x512x2048 .f32)
variable (w0 w1 w2 w3 : Vec F S512x2048 .f32) (o0 o1 o2 o3 : Vec F S1x1024x512 .bf16)

def oP2 : List (View.Piece (Elt F) S2x512x2048 .f32) :=
  [⟨RHi, k0_pay52 w0 o0⟩, ⟨RLo, k0_pay51 w0 o0⟩]
def oP3 : List (View.Piece (Elt F) S2x512x2048 .f32) :=
  ⟨RLo, k0_pay55 w1 o1 (v.readCov (oP2 w0 o0) RLo.toLoadRect)⟩ :: oP2 w0 o0
def oP4 : List (View.Piece (Elt F) S2x512x2048 .f32) :=
  ⟨RHi, k0_pay56 w1 o1 (v.readCov (oP3 v w0 w1 o0 o1) RHi.toLoadRect)⟩ :: oP3 v w0 w1 o0 o1
def oP5 : List (View.Piece (Elt F) S2x512x2048 .f32) :=
  ⟨RLo, k0_pay59 w2 o2 (v.readCov (oP4 v w0 w1 o0 o1) RLo.toLoadRect)⟩ :: oP4 v w0 w1 o0 o1
def oP6 : List (View.Piece (Elt F) S2x512x2048 .f32) :=
  ⟨RHi, k0_pay60 w2 o2 (v.readCov (oP5 v w0 w1 w2 o0 o1 o2) RHi.toLoadRect)⟩ :: oP5 v w0 w1 w2 o0 o1 o2
def oP7 : List (View.Piece (Elt F) S2x512x2048 .f32) :=
  ⟨RLo, k0_pay63 w3 o3 (v.readCov (oP6 v w0 w1 w2 o0 o1 o2) RLo.toLoadRect)⟩ :: oP6 v w0 w1 w2 o0 o1 o2
def oP8 : List (View.Piece (Elt F) S2x512x2048 .f32) :=
  ⟨RHi, k0_pay64 w3 o3 (v.readCov (oP7 v w0 w1 w2 w3 o0 o1 o2 o3) RHi.toLoadRect)⟩ :: oP7 v w0 w1 w2 w3 o0 o1 o2 o3

end Pieces

-- Each step loads back what the step before stored in that half, so the last two stores carry the four-step sums.
theorem writes_oP8 (I : Dev nD → Ins F) (c : Dev nD) (X6 : Buf (Elt F) ((c : Thread nD τ).loc cc0_stg6_0))
    (w0 w1 w2 w3 : Vec F S512x2048 .f32) (o0 o1 o2 o3 : Vec F S1x1024x512 .bf16)
    (hw0 : w0 = woSt I c c) (hw1 : w1 = woSt I c (org c 0)) (hw2 : w2 = woSt I c (org c 1)) (hw3 : w3 = woSt I c (org c 2))
    (ho0 : o0 = oOwn I c) (ho1 : o1 = oOwn I (org c 0)) (ho2 : o2 = oOwn I (org c 1)) (ho3 : o3 = oOwn I (org c 2)) :
    (Memref.whole cc0_stg6_0).view.writes (Elt F) X6 (oP8 (Memref.whole cc0_stg6_0).view w0 w1 w2 w3 o0 o1 o2 o3) = out I c := by
  subst hw0 hw1 hw2 hw3 ho0 ho1 ho2 ho3
  unfold oP8 oP7
  rw [writes_halves]
  unfold oP6 oP5 oP4 oP3 oP2
  rw [readCov_lo_hi, readCov_hi_lo, readCov_lo_hi, readCov_hi_lo, readCov_lo_hi, readCov_hi_lo]
  exact outFrom_eq I c _

theorem zeroOff2 : (![0, 0] : Fin 2 → Nat) = fun _ => 0 := funext fun a => by match a with | ⟨0, _⟩ => rfl | ⟨1, _⟩ => rfl

-- The load after a whole-array store of rows [512 g, 512 g + 512) of the projection matrix reads those rows.
theorem woLoad (I : Dev nD → Ins F) (c g : Dev nD) {off : Fin 2 → Nat} (hoff : off = rowOff g)
    (inb : ∀ a, off a + S512x2048.size a ≤ S2048x2048.size a) (L : List (View.Piece (Elt F) S512x2048 .f32)) :
    (Memref.whole cc0_scratch8).view.readCov (⟨Rect.whole S512x2048, woRows c (I c).wo off inb⟩ :: L)
        (Rect.unit ![0, 0] S512x2048.size inb_S512x2048_S512x2048_0_0).toLoadRect
      = woSt I c g := by
  subst hoff
  exact readCov_whole_head (F := F) _ _ L zeroOff2 inb_S512x2048_S512x2048_0_0

theorem glue_out (I : Dev nD → Ins F) (c : Dev nD) (X6 : Buf (Elt F) ((c : Thread nD τ).loc cc0_stg6_0))
    (o0 o1 o2 o3 : Vec F S1x1024x512 .bf16)
    (ho0 : o0 = oOwn I c) (ho1 : o1 = oOwn I (og c 0)) (ho2 : o2 = oOwn I (og c 1)) (ho3 : o3 = oOwn I (og c 2)) :
    (Memref.whole cc0_stg6_0).view.writes (Elt F) X6
        (oP8 (Memref.whole cc0_stg6_0).view
          ((Memref.whole cc0_scratch8).view.readCov [⟨Rect.whole S512x2048, woRows c (I c).wo (k0_off2 c) (k0_off2_inb c)⟩] (Rect.unit ![0, 0] S512x2048.size inb_S512x2048_S512x2048_0_0).toLoadRect)
          ((Memref.whole cc0_scratch8).view.readCov [⟨Rect.whole S512x2048, woRows c (I c).wo (k0_off25 c 1#32) (k0_off25_inb c 0)⟩, ⟨Rect.whole S512x2048, woRows c (I c).wo (k0_off2 c) (k0_off2_inb c)⟩] (Rect.unit ![0, 0] S512x2048.size inb_S512x2048_S512x2048_0_0).toLoadRect)
          ((Memref.whole cc0_scratch8).view.readCov [⟨Rect.whole S512x2048, woRows c (I c).wo (k0_off25 c 2#32) (k0_off25_inb c 1)⟩, ⟨Rect.whole S512x2048, woRows c (I c).wo (k0_off25 c 1#32) (k0_off25_inb c 0)⟩, ⟨Rect.whole S512x2048, woRows c (I c).wo (k0_off2 c) (k0_off2_inb c)⟩] (Rect.unit ![0, 0] S512x2048.size inb_S512x2048_S512x2048_0_0).toLoadRect)
          ((Memref.whole cc0_scratch8).view.readCov [⟨Rect.whole S512x2048, woRows c (I c).wo (k0_off25 c 3#32) (k0_off25_inb c 2)⟩, ⟨Rect.whole S512x2048, woRows c (I c).wo (k0_off25 c 2#32) (k0_off25_inb c 1)⟩, ⟨Rect.whole S512x2048, woRows c (I c).wo (k0_off25 c 1#32) (k0_off25_inb c 0)⟩, ⟨Rect.whole S512x2048, woRows c (I c).wo (k0_off2 c) (k0_off2_inb c)⟩] (Rect.unit ![0, 0] S512x2048.size inb_S512x2048_S512x2048_0_0).toLoadRect)
          o0 o1 o2 o3)
      = out I c :=
  writes_oP8 I c X6 _ _ _ _ _ _ _ _ (woLoad I c c (k0_off2_eq c) _ _) (woLoad I c (org c 0) (k0_off25_eq c 0) _ _)
    (woLoad I c (org c 1) (k0_off25_eq c 1) _ _) (woLoad I c (org c 2) (k0_off25_eq c 2) _ _) ho0 ho1 ho2 ho3

end Cert.KernelIdealProof

end
-- ==== Proof.Body.lean ====
import proofs.«900571_g7700000000000572_dist_mla_v7x_i4_i_b2_s512_d2048_dc128_f32_1_alg».proof.Proof.BodyRules
import proofs.«900571_g7700000000000572_dist_mla_v7x_i4_i_b2_s512_d2048_dc128_f32_1_alg».proof.Proof.Slots6
import proofs.«900571_g7700000000000572_dist_mla_v7x_i4_i_b2_s512_d2048_dc128_f32_1_alg».proof.Proof.ExitChain
import proofs.«900571_g7700000000000572_dist_mla_v7x_i4_i_b2_s512_d2048_dc128_f32_1_alg».proof.Proof.Pack
import proofs.«900571_g7700000000000572_dist_mla_v7x_i4_i_b2_s512_d2048_dc128_f32_1_alg».proof.Proof.GlueORun
import proofs.«900571_g7700000000000572_dist_mla_v7x_i4_i_b2_s512_d2048_dc128_f32_1_alg».proof.Proof.GlueOS
import proofs.«900571_g7700000000000572_dist_mla_v7x_i4_i_b2_s512_d2048_dc128_f32_1_alg».proof.Proof.GlueOut

noncomputable section

namespace Cert.KernelIdealProof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : PVals F)

theorem dev1_eq (c : Dev nD) : (⟨k0_dev1 c, k0_dev1_lt c⟩ : Dev nD) = pe c 0 := by revert c; decide
theorem dev2_eq (c : Dev nD) : (⟨k0_dev2 c, k0_dev2_lt c⟩ : Dev nD) = pe c 1 := by revert c; decide
theorem dev3_eq (c : Dev nD) : (⟨k0_dev3 c, k0_dev3_lt c⟩ : Dev nD) = pe c 2 := by revert c; decide
theorem dev4_eq (c : Dev nD) : (⟨k0_dev4 c, k0_dev4_lt c⟩ : Dev nD) = pe c 0 := by revert c; decide
theorem dev5_eq (c : Dev nD) : (⟨k0_dev5 c, k0_dev5_lt c⟩ : Dev nD) = pe c 0 := by revert c; decide
theorem dev6_eq (c : Dev nD) : (⟨k0_dev6 c, k0_dev6_lt c⟩ : Dev nD) = pe c 0 := by revert c; decide
theorem dev7_eq (c : Dev nD) : (⟨k0_dev7 c, k0_dev7_lt c⟩ : Dev nD) = pe c 1 := by revert c; decide
theorem dev8_eq (c : Dev nD) : (⟨k0_dev8 c, k0_dev8_lt c⟩ : Dev nD) = pe c 1 := by revert c; decide
theorem dev9_eq (c : Dev nD) : (⟨k0_dev9 c, k0_dev9_lt c⟩ : Dev nD) = pe c 1 := by revert c; decide
theorem dev10_eq (c : Dev nD) : (⟨k0_dev10 c, k0_dev10_lt c⟩ : Dev nD) = pe c 2 := by revert c; decide
theorem dev11_eq (c : Dev nD) : (⟨k0_dev11 c, k0_dev11_lt c⟩ : Dev nD) = pe c 2 := by revert c; decide
theorem dev12_eq (c : Dev nD) : (⟨k0_dev12 c, k0_dev12_lt c⟩ : Dev nD) = pe c 2 := by revert c; decide
theorem dev13_eq (c : Dev nD) : (⟨k0_dev13 c, k0_dev13_lt c⟩ : Dev nD) = pe c 0 := by revert c; decide
theorem dev14_eq (c : Dev nD) : (⟨k0_dev14 c, k0_dev14_lt c⟩ : Dev nD) = pe c 1 := by revert c; decide
theorem dev15_eq (c : Dev nD) : (⟨k0_dev15 c, k0_dev15_lt c⟩ : Dev nD) = pe c 2 := by revert c; decide
theorem dev16_eq (c : Dev nD) : (⟨k0_dev16 c, k0_dev16_lt c⟩ : Dev nD) = pe c 0 := by revert c; decide
theorem dev17_eq (c : Dev nD) : (⟨k0_dev17 c, k0_dev17_lt c⟩ : Dev nD) = pe c 1 := by revert c; decide
theorem dev18_eq (c : Dev nD) : (⟨k0_dev18 c, k0_dev18_lt c⟩ : Dev nD) = pe c 2 := by revert c; decide
theorem dev19_eq (c : Dev nD) : (⟨k0_dev19 c, k0_dev19_lt c⟩ : Dev nD) = pe c 0 := by revert c; decide
theorem dev20_eq (c : Dev nD) : (⟨k0_dev20 c, k0_dev20_lt c⟩ : Dev nD) = pe c 1 := by revert c; decide
theorem dev21_eq (c : Dev nD) : (⟨k0_dev21 c, k0_dev21_lt c⟩ : Dev nD) = pe c 2 := by revert c; decide
theorem dev22_eq (c : Dev nD) : (⟨k0_dev22 c, k0_dev22_lt c⟩ : Dev nD) = pe c 0 := by revert c; decide
theorem dev23_eq (c : Dev nD) : (⟨k0_dev23 c, k0_dev23_lt c⟩ : Dev nD) = pe c 1 := by revert c; decide
theorem dev24_eq (c : Dev nD) : (⟨k0_dev24 c, k0_dev24_lt c⟩ : Dev nD) = pe c 2 := by revert c; decide
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq

local notation "PT(" c ", " M ", " q ", " f ")" => (View.loc (c : Thread nD τ) (Memref.view M) ↦[View.set (Memref.view M)]{q} f)

theorem landing_eq (s c : Dev nD) : landing (F := F) s c = iprop((∃ f, PT(s, cM c, fullShare, f)) ∗ (∃ f, PT(s, ukD c, fullShare, f)) ∗ (∃ f, PT(s, uvD c, fullShare, f))
    ∗ (∃ f, PT(s, oM c 0, fullShare, f)) ∗ (∃ f, PT(s, oM c 1, fullShare, f)) ∗ (∃ f, PT(s, oM c 2, fullShare, f)) ∗ (∃ f, PT(s, oM c 3, fullShare, f))) := rfl

attribute [local sl_rounds] duties_bar amount_bar payload_bar expect_bar rest_bar og_pe landing_eq
  duties_ps duties_pr duties_os duties_orr amount_ps0 amount_ps1 amount_ps2 amount_pr0 amount_pr1 amount_pr2 amount_os amount_orr
  expect_ps0 expect_ps1 expect_ps2 expect_pr0 expect_pr1 expect_pr2 expect_os expect_orr
  payload_ps0 payload_ps1 payload_ps2 payload_pr0 payload_pr1 payload_pr2 payload_os payload_orr
  rest_ps0 rest_ps1 rest_ps2 rest_pr0 rest_pr1 rest_pr2 rest_os rest_orr

theorem og2_eq (c : Dev nD) : og c 2 = pe c 0 := by revert c; decide
theorem og1_eq (c : Dev nD) : og c 1 = pe c 1 := by revert c; decide
theorem og0_eq (c : Dev nD) : og c 0 = pe c 2 := by revert c; decide
omit [FloatOps F] in
theorem bigSep_fin3' (Φ : Fin 3 → sProp 𝕄) : bigSep Finset.univ Φ = iprop(Φ 0 ∗ Φ 1 ∗ Φ 2) := bigSep_univ_eq_bigSepL [0, 1, 2] (by decide) (by decide) Φ

omit [FloatOps F] in
theorem B11_eq (c : Dev nD) (f : Buf (Elt F) ((c : Thread nD τ).loc cc0_scratch2)) :
    (PT(c, B11, fullShare, f) : sProp 𝕄) = (((c : Thread nD τ).loc cc0_scratch2) ↦{fullShare} f) := by
  unfold B11; simp only [Memref.view_whole, View.set_whole]
omit [FloatOps F] in
theorem B12_eq (c : Dev nD) (f : Buf (Elt F) ((c : Thread nD τ).loc cc0_scratch3)) :
    (PT(c, B12, fullShare, f) : sProp 𝕄) = (((c : Thread nD τ).loc cc0_scratch3) ↦{fullShare} f) := by
  unfold B12; simp only [Memref.view_whole, View.set_whole]

open Lean Meta Elab Tactic in
open Idealize.SL.ProofMode in
elab "igrab " h:ident " as " x:ident ", " hx:ident : tactic => withMainContext do
  let g ← getMainGoal
  let ty ← instantiateMVars (← g.getType)
  let some ig := parseIrisGoal? ty | throwError "igrab: not a proof-mode goal"
  for (n, _, t) in Idealize.ShloMosaic.Tactic.Exec.leaves ig.hyps do
    if n == h.getId then
      let t ← instantiateMVars t
      let f := t.consumeMData.appArg!
      let (_, g') ← g.generalize #[{ expr := f, xName? := some x.getId, hName? := some hx.getId }]
      replaceMainGoal [g']
      return
  throwError "igrab: no hypothesis {h.getId}"

theorem owns_any (c : Dev nD) {s : Shape} (M : Memref sig .tc .vmem s .bf16) (q : PosShare TreeShare) (X : s.Idx → Elt F .bf16) :
    owns (c : Thread nD τ) M q X ⊢ (iprop(∃ f, M.view.loc (c : Thread nD τ) ↦[M.view.set]{q} f) : sProp 𝕄) := by
  unfold owns
  iintro ⟨%f, -, H⟩
  iexists f
  iexact H

-- a slot at known contents is a slot at some contents, so such a points-to cancels against `slotAny`
@[ipm_backtrack]
local instance frame_slotAny (p : Bool) (c : Dev nD) {s : Shape} (M : Memref sig .tc .vmem s .bf16) (f : Buf (Elt F) (M.view.loc (c : Thread nD τ))) :
    Frame p (PT(c, M, fullShare, f) : sProp 𝕄) (slotAny (F := F) c M) iprop(emp) where
  frame := sep_emp.1.trans (intuitionisticallyIf_elim.trans (exists_intro f))

theorem slot_of_owns (c : Dev nD) {s : Shape} (M : Memref sig .tc .vmem s .bf16) (X : s.Idx → Elt F .bf16) :
    owns (c : Thread nD τ) M fullShare X ⊢ slotAny (F := F) c M := by
  unfold slotAny
  exact owns_any c M fullShare X

theorem slot_merge (c : Dev nD) {s : Shape} (M : Memref sig .tc .vmem s .bf16) (V0 V1 V2 : s.Idx → Elt F .bf16)
    (f : Buf (Elt F) (M.view.loc (c : Thread nD τ))) :
    iprop(owns (c : Thread nD τ) M (qP 0) V0 ∗ owns (c : Thread nD τ) M (qP 1) V1 ∗ owns (c : Thread nD τ) M (qP 2) V2 ∗ PT(c, M, qK, f))
      ⊢ slotAny (F := F) c M := by
  unfold slotAny
  iintro ⟨H0, H1, H2, HK⟩
  ihave E0 := (owns_any c M (qP 0) V0) $$ H0
  ihave E1 := (owns_any c M (qP 1) V1) $$ H1
  ihave E2 := (owns_any c M (qP 2) V2) $$ H2
  iapply (merge_any (F := F) (ℓ := M.view.loc (c : Thread nD τ)) M.view.set) $$ [E0 E1 E2 HK]
  · iframe E0 E1 E2; iexists f; iexact HK

theorem ex_B9 (c : Dev nD) (f : Buf (Elt F) ((c : Thread nD τ).loc cc0_scratch0)) :
    (PT(c, B9, fullShare, f) : sProp 𝕄) ⊢ iprop(∃ f : Buf (Elt F) ((c : Thread nD τ).loc cc0_scratch0), ((c : Thread nD τ).loc cc0_scratch0) ↦{fullShare} f) := by
  unfold B9; simp only [Memref.view_whole, View.set_whole]
  iintro H; iexists f; iexact H
theorem ex_B16 (c : Dev nD) (f : Buf (Elt F) ((c : Thread nD τ).loc cc0_scratch7)) :
    (PT(c, B16, fullShare, f) : sProp 𝕄) ⊢ iprop(∃ f : Buf (Elt F) ((c : Thread nD τ).loc cc0_scratch7), ((c : Thread nD τ).loc cc0_scratch7) ↦{fullShare} f) := by
  unfold B16; simp only [Memref.view_whole, View.set_whole]
  iintro H; iexists f; iexact H
theorem ex_B17 (c : Dev nD) (f : Buf (Elt F) ((c : Thread nD τ).loc cc0_scratch8)) :
    (PT(c, B17, fullShare, f) : sProp 𝕄) ⊢ iprop(∃ f : Buf (Elt F) ((c : Thread nD τ).loc cc0_scratch8), ((c : Thread nD τ).loc cc0_scratch8) ↦{fullShare} f) := by
  unfold B17; simp only [Memref.view_whole, View.set_whole]
  iintro H; iexists f; iexact H

-- from its starting context the body runs to its return and hands back the end context with the device's result
set_option maxHeartbeats 0 in
set_option sl_exec.stepHeartbeats 1000000 in
theorem sound_body (m : (ℓ : Loc nD τ sig) → Buf (Elt F) ℓ) (K : Dev nD × CK → ℕ) (c : Dev nD) (W : Waits sig Unit)
    (X6 : Buf (Elt F) ((c : Thread nD τ).loc cc0_stg6_0))
    (f9 : Buf (Elt F) ((c : Thread nD τ).loc cc0_scratch0)) (f10 : Buf (Elt F) ((c : Thread nD τ).loc cc0_scratch1))
    (f11 : Buf (Elt F) ((c : Thread nD τ).loc cc0_scratch2)) (f12 : Buf (Elt F) ((c : Thread nD τ).loc cc0_scratch3))
    (f13 : Buf (Elt F) ((c : Thread nD τ).loc cc0_scratch4)) (f14 : Buf (Elt F) ((c : Thread nD τ).loc cc0_scratch5))
    (f15 : Buf (Elt F) ((c : Thread nD τ).loc cc0_scratch6))
    (f16 : Buf (Elt F) ((c : Thread nD τ).loc cc0_scratch7)) (f17 : Buf (Elt F) ((c : Thread nD τ).loc cc0_scratch8))
    (Kt : PUnit → sProp 𝕄) :
    iprop(bodyCtx (VOf m) K c W (iblk m c 0 t0_0) (iblk m c 1 t0_0) (iblk m c 2 t0_0) (iblk m c 3 t0_0) (iblk m c 4 t0_0) (iblk m c 5 t0_0) X6
          (m ((c : Thread nD τ).loc main_arg4)) (m ((c : Thread nD τ).loc main_arg7)) f9 f10 f11 f12 f13 f14 f15 f16 f17
        ∗ ((∃ W', endCtx m (outOf m) c W') -∗ Kt ⟨⟩))
      ⊢ wp frame (wpE (defs₀ (F := F)) 𝒱₀ (c : Thread nD τ) none) Set.univ (bodyAt0 (F := F) t0_0) Kt := by
  generalize hV : VOf m = V
  unfold bodyCtx bodyAt0
  simp only [cc0__fused_body_eq_skeleton]; unfold cc0__fused_body_skel
  iintro ⟨⟨#HIb, #HIps00, #HIps01, #HIps02, #HIps10, #HIps11, #HIps12, #HIps20, #HIps21, #HIps22, #HIpr00, #HIpr01, #HIpr02, #HIpr10, #HIpr11, #HIpr12, #HIpr20, #HIpr21, #HIpr22, #HIos00, #HIos01, #HIos02, #HIos03, #HIos10, #HIos11, #HIos12, #HIos13, #HIos20, #HIos21, #HIos22, #HIos23, #HIor00, #HIor01, #HIor02, #HIor03, #HIor10, #HIor11, #HIor12, #HIor13, #HIor20, #HIor21, #HIor22, #HIor23, #HIpb0, #HIpb1, #HIpb2, #HIppr00, #HIppr01, #HIppr02, #HIppr10, #HIppr11, #HIppr12, #HIppr20, #HIppr21, #HIppr22, #HIpor00, #HIpor01, #HIpor02, #HIpor03, #HIpor10, #HIpor11, #HIpor12, #HIpor13, #HIpor20, #HIpor21, #HIpor22, #HIpor23, #Hrb, #Hrps00, #Hrps01, #Hrps02, #Hrps10, #Hrps11, #Hrps12, #Hrps20, #Hrps21, #Hrps22, #Hrpr00, #Hrpr01, #Hrpr02, #Hrpr10, #Hrpr11, #Hrpr12, #Hrpr20, #Hrpr21, #Hrpr22, #Hros00, #Hros01, #Hros02, #Hros03, #Hros10, #Hros11, #Hros12, #Hros13, #Hros20, #Hros21, #Hros22, #Hros23, #Hror00, #Hror01, #Hror02, #Hror03, #Hror10, #Hror11, #Hror12, #Hror13, #Hror20, #Hror21, #Hror22, #Hror23, #Hrpb0, #Hrpb1, #Hrpb2, #Hrppr00, #Hrppr01, #Hrppr02, #Hrppr10, #Hrppr11, #Hrppr12, #Hrppr20, #Hrppr21, #Hrppr22, #Hrpor00, #Hrpor01, #Hrpor02, #Hrpor03, #Hrpor10, #Hrpor11, #Hrpor12, #Hrpor13, #Hrpor20, #Hrpor21, #Hrpor22, #Hrpor23, #Hlev, Hatb, Hatps00, Hatps01, Hatps02, Hatps10, Hatps11, Hatps12, Hatps20, Hatps21, Hatps22, Hatpr00, Hatpr01, Hatpr02, Hatpr10, Hatpr11, Hatpr12, Hatpr20, Hatpr21, Hatpr22, Hatos00, Hatos01, Hatos02, Hatos03, Hatos10, Hatos11, Hatos12, Hatos13, Hatos20, Hatos21, Hatos22, Hatos23, Hator00, Hator01, Hator02, Hator03, Hator10, Hator11, Hator12, Hator13, Hator20, Hator21, Hator22, Hator23, Htpb0, Htpb1, Htpb2, Htppr00, Htppr01, Htppr02, Htppr10, Htppr11, Htppr12, Htppr20, Htppr21, Htppr22, Htpor00, Htpor01, Htpor02, Htpor03, Htpor10, Htpor11, Htpor12, Htpor13, Htpor20, Htpor21, Htpor22, Htpor23, Htps00, Htps01, Htps02, Htps10, Htps11, Htps12, Htps20, Htps21, Htps22, Htos00, Htos01, Htos02, Htos03, Htos10, Htos11, Htos12, Htos13, Htos20, Htos21, Htos22, Htos23, Hcb, Hcpr00, Hcpr01, Hcpr02, Hcpr10, Hcpr11, Hcpr12, Hcpr20, Hcpr21, Hcpr22, Hcor00, Hcor01, Hcor02, Hcor03, Hcor10, Hcor11, Hcor12, Hcor13, Hcor20, Hcor21, Hcor22, Hcor23, HO, Hwq, Hwo, Hs0, Hs1, Hs2, Hs3, Hs4, Hs5, Hs6, H4, H7, H9, H11, H12, H16, H17, Hc0, Hk0, Hv0, Ho0_0, Ho0_1, Ho0_2, Ho0_3, Hc1, Hk1, Hv1, Ho1_0, Ho1_1, Ho1_2, Ho1_3, Hc2, Hk2, Hv2, Ho2_0, Ho2_1, Ho2_2, Ho2_3, Hc, Hk, Hv, Ho0, Ho1, Ho2, Ho3⟩, HK⟩
  have hmwb := mw_bar' (F := F) c
  have hmwpr := fun p t => mw_pr' (F := F) c p t
  have hmwq := mw_low' (F := F) c (.dma wqS) (lv_wqS c)
  sl_exec_parts
  ihave Hpay := (Entails.of_eq (bigSep_fin3' _)) $$ Hatb_pay1
  simp only [og0_eq, og1_eq, og2_eq]
  icases Hpay with ⟨⟨⟨%dc2, Hdc2⟩, ⟨%dk2, Hdk2⟩, ⟨%dv2, Hdv2⟩, ⟨%do20, Hdo20⟩, ⟨%do21, Hdo21⟩, ⟨%do22, Hdo22⟩, ⟨%do23, Hdo23⟩⟩,
    ⟨⟨%dc1, Hdc1⟩, ⟨%dk1, Hdk1⟩, ⟨%dv1, Hdv1⟩, ⟨%do10, Hdo10⟩, ⟨%do11, Hdo11⟩, ⟨%do12, Hdo12⟩, ⟨%do13, Hdo13⟩⟩,
    ⟨⟨%dc0, Hdc0⟩, ⟨%dk0, Hdk0⟩, ⟨%dv0, Hdv0⟩, ⟨%do00, Hdo00⟩, ⟨%do01, Hdo01⟩, ⟨%do02, Hdo02⟩, ⟨%do03, Hdo03⟩⟩⟩
  ihave Hc4 := (Entails.of_eq (share_split4_eq (F := F) (ℓ := View.loc (c : Thread nD τ) (cM c).view) ((cM c).view.set) (sound_body.sl.Hc_w1 m c f10))) $$ Hc
  icases Hc4 with ⟨Hcq0, Hcq1, Hcq2, HcK⟩
  igrab H11 as fu, hfu
  ihave H11a := (Entails.of_eq (B11_eq c fu)) $$ H11
  ihave H11b := (wuk_split c fu) $$ H11a
  icases H11b with ⟨Hu0, Hu1, Hu2, Hurest⟩
  igrab H12 as fw, hfw
  ihave H12a := (Entails.of_eq (B12_eq c fw)) $$ H12
  ihave H12b := (wuv_split c fw) $$ H12a
  icases H12b with ⟨Hw0, Hw1, Hw2, Hwrest⟩
  have hfs_c : (cM c).view.read (Elt F) (sound_body.sl.Hc_w1 m c f10) = V.cV c := by subst hV; exact Fc_glue (insAt m) c f10
  have hfs_k (p) : (ukS c p).view.read (Elt F) fu = V.ukV c p := by subst hV; rw [← hfu]; exact Fk_glue (insAt m) c p _
  have hfs_v (p) : (uvS c p).view.read (Elt F) fw = V.uvV c p := by subst hV; rw [← hfw]; exact Fv_glue (insAt m) c p _
  iapply (send_c V K c _ 0 (dev4_eq c) (sound_body.sl.Hc_w1 m c f10) dc0 hfs_c _ _) $$ [HO Htps00 Htppr00 Hcq0 Hdc0]
  · iframe # ∗; iexact Hdc0
  iintro ⟨Hcps00, HO⟩
  sl_exec_parts
  iapply (send_uk V K c _ 0 (dev5_eq c) fu dk0 (hfs_k 0) _ _) $$ [HO Htps01 Htppr01 Hu0 Hdk0]
  · iframe # ∗; iexact Hdk0
  iintro ⟨Hcps01, HO⟩
  sl_exec_parts
  iapply (send_uv V K c _ 0 (dev6_eq c) fw dv0 (hfs_v 0) _ _) $$ [HO Htps02 Htppr02 Hw0 Hdv0]
  · iframe # ∗; iexact Hdv0
  iintro ⟨Hcps02, HO⟩
  sl_exec_parts
  iapply (send_c V K c _ 1 (dev7_eq c) (sound_body.sl.Hc_w1 m c f10) dc1 hfs_c _ _) $$ [HO Htps10 Htppr10 Hcq1 Hdc1]
  · iframe # ∗; iexact Hdc1
  iintro ⟨Hcps10, HO⟩
  sl_exec_parts
  iapply (send_uk V K c _ 1 (dev8_eq c) fu dk1 (hfs_k 1) _ _) $$ [HO Htps11 Htppr11 Hu1 Hdk1]
  · iframe # ∗; iexact Hdk1
  iintro ⟨Hcps11, HO⟩
  sl_exec_parts
  iapply (send_uv V K c _ 1 (dev9_eq c) fw dv1 (hfs_v 1) _ _) $$ [HO Htps12 Htppr12 Hw1 Hdv1]
  · iframe # ∗; iexact Hdv1
  iintro ⟨Hcps12, HO⟩
  sl_exec_parts
  iapply (send_c V K c _ 2 (dev10_eq c) (sound_body.sl.Hc_w1 m c f10) dc2 hfs_c _ _) $$ [HO Htps20 Htppr20 Hcq2 Hdc2]
  · iframe # ∗; iexact Hdc2
  iintro ⟨Hcps20, HO⟩
  sl_exec_parts
  iapply (send_uk V K c _ 2 (dev11_eq c) fu dk2 (hfs_k 2) _ _) $$ [HO Htps21 Htppr21 Hu2 Hdk2]
  · iframe # ∗; iexact Hdk2
  iintro ⟨Hcps21, HO⟩
  sl_exec_parts
  iapply (send_uv V K c _ 2 (dev12_eq c) fw dv2 (hfs_v 2) _ _) $$ [HO Htps22 Htppr22 Hw2 Hdv2]
  · iframe # ∗; iexact Hdv2
  iintro ⟨Hcps22, HO⟩
  sl_exec_parts
  unfold owns
  icases Hatpr00_pay1 with ⟨%rc0, %hrc0, Hrc0⟩
  icases Hatpr01_pay1 with ⟨%rk0, %hrk0, Hrk0⟩
  icases Hatpr02_pay1 with ⟨%rv0, %hrv0, Hrv0⟩
  have hic0 : ((Memref.whole cc0_scratch1).access (Rect.unit (s := S4x1024x128) (k0_off10 c 1#32) S1x1024x128.size (k0_off10_inb c 0))).set ⊆ (cM (og c 0)).view.set := incl_c c 0
  have hik0 : ((Memref.whole cc0_scratch4).access (Rect.unit (s := S4x128x512) (k0_off11 c 1#32) S1x128x512.size (k0_off11_inb c 0))).set ⊆ (ukD (og c 0)).view.set := incl_uk c 0
  have hiv0 : ((Memref.whole cc0_scratch5).access (Rect.unit (s := S4x128x512) (k0_off11 c 1#32) S1x128x512.size (k0_off11_inb c 0))).set ⊆ (uvD (og c 0)).view.set := incl_uv c 0
  sl_exec_parts
  unfold owns
  icases Hatpr10_pay1 with ⟨%rc1, %hrc1, Hrc1⟩
  icases Hatpr11_pay1 with ⟨%rk1, %hrk1, Hrk1⟩
  icases Hatpr12_pay1 with ⟨%rv1, %hrv1, Hrv1⟩
  have hic1 : ((Memref.whole cc0_scratch1).access (Rect.unit (s := S4x1024x128) (k0_off10 c 2#32) S1x1024x128.size (k0_off10_inb c 1))).set ⊆ (cM (og c 1)).view.set := incl_c c 1
  have hik1 : ((Memref.whole cc0_scratch4).access (Rect.unit (s := S4x128x512) (k0_off11 c 2#32) S1x128x512.size (k0_off11_inb c 1))).set ⊆ (ukD (og c 1)).view.set := incl_uk c 1
  have hiv1 : ((Memref.whole cc0_scratch5).access (Rect.unit (s := S4x128x512) (k0_off11 c 2#32) S1x128x512.size (k0_off11_inb c 1))).set ⊆ (uvD (og c 1)).view.set := incl_uv c 1
  sl_exec_parts
  unfold owns
  icases Hatpr20_pay1 with ⟨%rc2, %hrc2, Hrc2⟩
  icases Hatpr21_pay1 with ⟨%rk2, %hrk2, Hrk2⟩
  icases Hatpr22_pay1 with ⟨%rv2, %hrv2, Hrv2⟩
  have hic2 : ((Memref.whole cc0_scratch1).access (Rect.unit (s := S4x1024x128) (k0_off10 c 3#32) S1x1024x128.size (k0_off10_inb c 2))).set ⊆ (cM (og c 2)).view.set := incl_c c 2
  have hik2 : ((Memref.whole cc0_scratch4).access (Rect.unit (s := S4x128x512) (k0_off11 c 3#32) S1x128x512.size (k0_off11_inb c 2))).set ⊆ (ukD (og c 2)).view.set := incl_uk c 2
  have hiv2 : ((Memref.whole cc0_scratch5).access (Rect.unit (s := S4x128x512) (k0_off11 c 3#32) S1x128x512.size (k0_off11_inb c 2))).set ⊆ (uvD (og c 2)).view.set := incl_uv c 2
  sl_exec_parts
  igrab Ho0 as fo0, hfo0
  have hFo0 : (oM c 0).view.read (Elt F) fo0 = V.oV c 0 := by subst hV; rw [← hfo0]; exact stripe0_run (insAt m) c f15 rc0 rk0 rv0 rc1 rk1 rv1 rc2 rk2 rv2 hrc0 hrc1 hrc2 hrk0 hrk1 hrk2 hrv0 hrv1 hrv2
  ihave Ho0s := (Entails.of_eq (share_split4_eq (F := F) (ℓ := View.loc (c : Thread nD τ) (oM c 0).view) ((oM c 0).view.set) fo0)) $$ Ho0
  icases Ho0s with ⟨Ho0q0, Ho0q1, Ho0q2, Ho0K⟩
  iapply (send_o V K c _ 0 0 (dev13_eq c) fo0 do00 hFo0 _ _) $$ [HO Htos00 Htpor00 Ho0q0 Hdo00]
  · iframe # ∗; iexact Hdo00
  iintro ⟨Hcos00, HO⟩
  sl_exec_parts
  iapply (send_o V K c _ 1 0 (dev14_eq c) fo0 do10 hFo0 _ _) $$ [HO Htos10 Htpor10 Ho0q1 Hdo10]
  · iframe # ∗; iexact Hdo10
  iintro ⟨Hcos10, HO⟩
  sl_exec_parts
  iapply (send_o V K c _ 2 0 (dev15_eq c) fo0 do20 hFo0 _ _) $$ [HO Htos20 Htpor20 Ho0q2 Hdo20]
  · iframe # ∗; iexact Hdo20
  iintro ⟨Hcos20, HO⟩
  sl_exec_parts
  igrab Ho1 as fo1, hfo1
  have hFo1 : (oM c 1).view.read (Elt F) fo1 = V.oV c 1 := by subst hV; rw [← hfo1]; exact stripe1_run (insAt m) c f15 rc0 rk0 rv0 rc1 rk1 rv1 rc2 rk2 rv2 hrc0 hrc1 hrc2 hrk0 hrk1 hrk2 hrv0 hrv1 hrv2
  ihave Ho1s := (Entails.of_eq (share_split4_eq (F := F) (ℓ := View.loc (c : Thread nD τ) (oM c 1).view) ((oM c 1).view.set) fo1)) $$ Ho1
  icases Ho1s with ⟨Ho1q0, Ho1q1, Ho1q2, Ho1K⟩
  iapply (send_o V K c _ 0 1 (dev16_eq c) fo1 do01 hFo1 _ _) $$ [HO Htos01 Htpor01 Ho1q0 Hdo01]
  · iframe # ∗; iexact Hdo01
  iintro ⟨Hcos01, HO⟩
  sl_exec_parts
  iapply (send_o V K c _ 1 1 (dev17_eq c) fo1 do11 hFo1 _ _) $$ [HO Htos11 Htpor11 Ho1q1 Hdo11]
  · iframe # ∗; iexact Hdo11
  iintro ⟨Hcos11, HO⟩
  sl_exec_parts
  iapply (send_o V K c _ 2 1 (dev18_eq c) fo1 do21 hFo1 _ _) $$ [HO Htos21 Htpor21 Ho1q2 Hdo21]
  · iframe # ∗; iexact Hdo21
  iintro ⟨Hcos21, HO⟩
  sl_exec_parts
  igrab Ho2 as fo2, hfo2
  have hFo2 : (oM c 2).view.read (Elt F) fo2 = V.oV c 2 := by subst hV; rw [← hfo2]; exact stripe2_run (insAt m) c f15 rc0 rk0 rv0 rc1 rk1 rv1 rc2 rk2 rv2 hrc0 hrc1 hrc2 hrk0 hrk1 hrk2 hrv0 hrv1 hrv2
  ihave Ho2s := (Entails.of_eq (share_split4_eq (F := F) (ℓ := View.loc (c : Thread nD τ) (oM c 2).view) ((oM c 2).view.set) fo2)) $$ Ho2
  icases Ho2s with ⟨Ho2q0, Ho2q1, Ho2q2, Ho2K⟩
  iapply (send_o V K c _ 0 2 (dev19_eq c) fo2 do02 hFo2 _ _) $$ [HO Htos02 Htpor02 Ho2q0 Hdo02]
  · iframe # ∗; iexact Hdo02
  iintro ⟨Hcos02, HO⟩
  sl_exec_parts
  iapply (send_o V K c _ 1 2 (dev20_eq c) fo2 do12 hFo2 _ _) $$ [HO Htos12 Htpor12 Ho2q1 Hdo12]
  · iframe # ∗; iexact Hdo12
  iintro ⟨Hcos12, HO⟩
  sl_exec_parts
  iapply (send_o V K c _ 2 2 (dev21_eq c) fo2 do22 hFo2 _ _) $$ [HO Htos22 Htpor22 Ho2q2 Hdo22]
  · iframe # ∗; iexact Hdo22
  iintro ⟨Hcos22, HO⟩
  sl_exec_parts
  igrab Ho3 as fo3, hfo3
  have hFo3 : (oM c 3).view.read (Elt F) fo3 = V.oV c 3 := by subst hV; rw [← hfo3]; exact stripe3_run (insAt m) c f15 rc0 rk0 rv0 rc1 rk1 rv1 rc2 rk2 rv2 hrc0 hrc1 hrc2 hrk0 hrk1 hrk2 hrv0 hrv1 hrv2
  ihave Ho3s := (Entails.of_eq (share_split4_eq (F := F) (ℓ := View.loc (c : Thread nD τ) (oM c 3).view) ((oM c 3).view.set) fo3)) $$ Ho3
  icases Ho3s with ⟨Ho3q0, Ho3q1, Ho3q2, Ho3K⟩
  iapply (send_o V K c _ 0 3 (dev22_eq c) fo3 do03 hFo3 _ _) $$ [HO Htos03 Htpor03 Ho3q0 Hdo03]
  · iframe # ∗; iexact Hdo03
  iintro ⟨Hcos03, HO⟩
  sl_exec_parts
  iapply (send_o V K c _ 1 3 (dev23_eq c) fo3 do13 hFo3 _ _) $$ [HO Htos13 Htpor13 Ho3q1 Hdo13]
  · iframe # ∗; iexact Hdo13
  iintro ⟨Hcos13, HO⟩
  sl_exec_parts
  iapply (send_o V K c _ 2 3 (dev24_eq c) fo3 do23 hFo3 0 _) $$ [HO Htos23 Htpor23 Ho3q2 Hdo23]
  · rw [zero_add]; iframe # ∗; iexact Hdo23
  iintro ⟨Hcos23, HO⟩
  sl_exec_parts
  ihave HoSown := (Entails.of_eq (stripes_glue_eq (F := F) c c qK fo0 fo1 fo2 fo3)) $$ [Ho0K Ho1K Ho2K Ho3K]
  · iframe
  have hio := incl_o_own c
  sl_exec_parts
  unfold owns
  icases Hator00_pay1 with ⟨%ro00, %hro00, Hro00⟩
  icases Hator01_pay1 with ⟨%ro01, %hro01, Hro01⟩
  icases Hator02_pay1 with ⟨%ro02, %hro02, Hro02⟩
  icases Hator03_pay1 with ⟨%ro03, %hro03, Hro03⟩
  ihave HoS0 := (Entails.of_eq (stripes_glue_eq (F := F) c (og c 0) fullShare ro00 ro01 ro02 ro03)) $$ [Hro00 Hro01 Hro02 Hro03]
  · iframe
  have hio0 := incl_o_og_1 c
  sl_exec_parts
  unfold owns
  icases Hator10_pay1 with ⟨%ro10, %hro10, Hro10⟩
  icases Hator11_pay1 with ⟨%ro11, %hro11, Hro11⟩
  icases Hator12_pay1 with ⟨%ro12, %hro12, Hro12⟩
  icases Hator13_pay1 with ⟨%ro13, %hro13, Hro13⟩
  ihave HoS1 := (Entails.of_eq (stripes_glue_eq (F := F) c (og c 1) fullShare ro10 ro11 ro12 ro13)) $$ [Hro10 Hro11 Hro12 Hro13]
  · iframe
  have hio1 := incl_o_og_2 c
  sl_exec_parts
  unfold owns
  icases Hator20_pay1 with ⟨%ro20, %hro20, Hro20⟩
  icases Hator21_pay1 with ⟨%ro21, %hro21, Hro21⟩
  icases Hator22_pay1 with ⟨%ro22, %hro22, Hro22⟩
  icases Hator23_pay1 with ⟨%ro23, %hro23, Hro23⟩
  ihave HoS2 := (Entails.of_eq (stripes_glue_eq (F := F) c (og c 2) fullShare ro20 ro21 ro22 ro23)) $$ [Hro20 Hro21 Hro22 Hro23]
  · iframe
  have hio2 := incl_o_og_3 c
  sl_exec_parts
  imod (close_all V K c) $$ [Hatps00 Hatps01 Hatps02 Hatps10 Hatps11 Hatps12 Hatps20 Hatps21 Hatps22 Hatpr00 Hatpr01 Hatpr02 Hatpr10 Hatpr11 Hatpr12 Hatpr20 Hatpr21 Hatpr22 Hatos00 Hatos01 Hatos02 Hatos03 Hatos10 Hatos11 Hatos12 Hatos13 Hatos20 Hatos21 Hatos22 Hatos23 Hator00 Hator01 Hator02 Hator03 Hator10 Hator11 Hator12 Hator13 Hator20 Hator21 Hator22 Hator23 Hwq Hwo] with Hsems
  · iframe # ∗
    isplitl [Hwq]; · iexact Hwq
    iexact Hwo
  igrab HcK as fcK, hfcK
  igrab H9 as f9', hf9
  igrab H16 as f16', hf16
  igrab H17 as f17', hf17
  igrab Hurest as fur, hfur
  igrab Hwrest as fwr, hfwr
  igrab Hs6 as fout, hfout
  ihave Hown4 := (Entails.of_eq (stripes_glue_eq (F := F) c c qK fo0 fo1 fo2 fo3).symm) $$ HoSown
  icases Hown4 with ⟨Ho0K, Ho1K, Ho2K, Ho3K⟩
  ihave Hrs0 := (Entails.of_eq (stripes_glue_eq (F := F) c (og c 0) fullShare ro00 ro01 ro02 ro03).symm) $$ HoS0
  icases Hrs0 with ⟨Hro00, Hro01, Hro02, Hro03⟩
  ihave Hrs1 := (Entails.of_eq (stripes_glue_eq (F := F) c (og c 1) fullShare ro10 ro11 ro12 ro13).symm) $$ HoS1
  icases Hrs1 with ⟨Hro10, Hro11, Hro12, Hro13⟩
  ihave Hrs2 := (Entails.of_eq (stripes_glue_eq (F := F) c (og c 2) fullShare ro20 ro21 ro22 ro23).symm) $$ HoS2
  icases Hrs2 with ⟨Hro20, Hro21, Hro22, Hro23⟩
  ihave Sc := (slot_merge (F := F) c (cM c) (V.cV c) (V.cV c) (V.cV c) fcK) $$ [Hatps00_pay1 Hatps10_pay1 Hatps20_pay1 HcK]
  · iframe
  ihave Suk0 := (slot_of_owns (F := F) c (ukS c 0) (V.ukV c 0)) $$ Hatps01_pay1
  ihave Suv0 := (slot_of_owns (F := F) c (uvS c 0) (V.uvV c 0)) $$ Hatps02_pay1
  ihave Suk1 := (slot_of_owns (F := F) c (ukS c 1) (V.ukV c 1)) $$ Hatps11_pay1
  ihave Suv1 := (slot_of_owns (F := F) c (uvS c 1) (V.uvV c 1)) $$ Hatps12_pay1
  ihave Suk2 := (slot_of_owns (F := F) c (ukS c 2) (V.ukV c 2)) $$ Hatps21_pay1
  ihave Suv2 := (slot_of_owns (F := F) c (uvS c 2) (V.uvV c 2)) $$ Hatps22_pay1
  ihave So0 := (slot_merge (F := F) c (oM c 0) (V.oV c 0) (V.oV c 0) (V.oV c 0) fo0) $$ [Hatos00_pay1 Hatos10_pay1 Hatos20_pay1 Ho0K]
  · iframe
  ihave So1 := (slot_merge (F := F) c (oM c 1) (V.oV c 1) (V.oV c 1) (V.oV c 1) fo1) $$ [Hatos01_pay1 Hatos11_pay1 Hatos21_pay1 Ho1K]
  · iframe
  ihave So2 := (slot_merge (F := F) c (oM c 2) (V.oV c 2) (V.oV c 2) (V.oV c 2) fo2) $$ [Hatos02_pay1 Hatos12_pay1 Hatos22_pay1 Ho2K]
  · iframe
  ihave So3 := (slot_merge (F := F) c (oM c 3) (V.oV c 3) (V.oV c 3) (V.oV c 3) fo3) $$ [Hatos03_pay1 Hatos13_pay1 Hatos23_pay1 Ho3K]
  · iframe
  ihave S2 := (wuk_join (F := F) c) $$ [Suk0 Suk1 Suk2 Hurest]
  · iframe Suk0 Suk1 Suk2; iexists fur; iexact Hurest
  ihave S3 := (wuv_join (F := F) c) $$ [Suv0 Suv1 Suv2 Hwrest]
  · iframe Suv0 Suv1 Suv2; iexists fwr; iexact Hwrest
  ihave S0 := (ex_B9 (F := F) c f9') $$ H9
  ihave S7 := (ex_B16 (F := F) c f16') $$ H16
  ihave S8 := (ex_B17 (F := F) c f17') $$ H17
  ihave Hscr := (scratch_exit_og (F := F) c) $$ [S0 Sc Hrc0 Hrc1 Hrc2 S2 S3 Hk Hrk0 Hrk1 Hrk2 Hv Hrv0 Hrv1 Hrv2 So0 So1 So2 So3 Hro00 Hro01 Hro02 Hro03 Hro10 Hro11 Hro12 Hro13 Hro20 Hro21 Hro22 Hro23 S7 S8]
  · unfold oSlotAny; iframe; unfold slotAny
    isplitl [Hk]; · iexists _; iexact Hk
    iexists _; iexact Hv
  have hout : fout = outOf m c := by
    subst hV
    rw [← hfout]
    exact glue_out (insAt m) c X6 _ _ _ _ (own_slot_load (insAt m) c fo0 fo1 fo2 fo3 hFo0 hFo1 hFo2 hFo3)
      (og_slot_load (insAt m) c 0 ro00 ro01 ro02 ro03 hro00 hro01 hro02 hro03)
      (og_slot_load (insAt m) c 1 ro10 ro11 ro12 ro13 hro10 hro11 hro12 hro13)
      (og_slot_load (insAt m) c 2 ro20 ro21 ro22 ro23 hro20 hro21 hro22 hro23)
  subst hout
  sl_step
  iapply HK
  iexists _
  unfold endCtx
  iframe

/-- info: 'Cert.KernelIdealProof.sound_body' depends on axioms: [propext, Classical.choice, Quot.sound] -/
#guard_msgs in #print axioms sound_body

end Cert.KernelIdealProof
end
-- ==== Proof.BodyOb.lean ====
import proofs.«900571_g7700000000000572_dist_mla_v7x_i4_i_b2_s512_d2048_dc128_f32_1_alg».proof.Proof.Body

noncomputable section

namespace Cert.KernelIdealProof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem body_obligation (m : (ℓ : Loc nD τ sig) → Buf (Elt F) ℓ) (ρ : Dev nD → PrngReg) (c : Dev nD) :
    BodyObligation (dats (F := F) m ρ (VOf m) (outOf m) 0 c) (defs₀ (F := F)) 𝒱₀ () Set.univ :=
  body_obligation_of m ρ (VOf m) (outOf m) c (by
    refine (unpack m ρ (VOf m) (outOf m) c).trans ?_
    iintro ⟨%K, %W, %X6, %f9, %f10, %f11, %f12, %f13, %f14, %f15, %f16, %f17, H⟩
    iapply (sound_body m K c W X6 f9 f10 f11 f12 f13 f14 f15 f16 f17 (fun _ => bodyPost m ρ (VOf m) (outOf m) c))
    isplitl [H]; · iexact H
    iintro ⟨%W', Hp⟩
    iapply (pack_endCtx m ρ (VOf m) (outOf m) c W')
    iexact Hp)

end Cert.KernelIdealProof
end
-- ==== Proof.Bits.Proto.lean ====
import proofs.«900571_g7700000000000572_dist_mla_v7x_i4_i_b2_s512_d2048_dc128_f32_1_alg».proof.Proof.Gen.Kernel.Skeleton
import proofs.«900571_g7700000000000572_dist_mla_v7x_i4_i_b2_s512_d2048_dc128_f32_1_alg».proof.Proof.Gen.Kernel.Launch
import proofs.«900571_g7700000000000572_dist_mla_v7x_i4_i_b2_s512_d2048_dc128_f32_1_alg».proof.Proof.Gen.Kernel.Points
import Idealize.ShloMosaic.Lib.Pipeline.Launch
import Idealize.ShloMosaic.Lib.Tactic
import Idealize.ShloMosaic.Lib.Transfers

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

instance ER_landsIn : (ER (F := F)).LandsIn (upEmb : UEmb _ (MT nD τ sig Unit (Elt F) ℕ UU ℕ)) := by unfold ER; infer_instance

-- Device `c` sends to `pe c p`, which is `p + 1` places on round the ring of four, and receives from `og c p`, `p + 1` places back.
def pe (c : Dev nD) (p : Fin 3) : Dev nD := ⟨(c.val + p.val + 1) % 4, Nat.mod_lt _ (by decide)⟩
def og (c : Dev nD) (p : Fin 3) : Dev nD := ⟨(c.val + 3 - p.val) % 4, Nat.mod_lt _ (by decide)⟩

theorem og_pe (c : Dev nD) (p : Fin 3) : og (pe c p) p = c := by revert c p; decide
theorem pe_og (c : Dev nD) (p : Fin 3) : pe (og c p) p = c := by revert c p; decide
theorem pe_inj (c : Dev nD) : Function.Injective (pe c) := by revert c; decide

abbrev A10 : Memref sig .tc .vmem S4x1024x128 .bf16 := Memref.whole cc0_scratch1
abbrev A11 : Memref sig .tc .vmem S128x2048 .bf16 := Memref.whole cc0_scratch2
abbrev A12 : Memref sig .tc .vmem S128x2048 .bf16 := Memref.whole cc0_scratch3
abbrev A13 : Memref sig .tc .vmem S4x128x512 .bf16 := Memref.whole cc0_scratch4
abbrev A14 : Memref sig .tc .vmem S4x128x512 .bf16 := Memref.whole cc0_scratch5
abbrev A15 : Memref sig .tc .vmem S4x1024x512 .bf16 := Memref.whole cc0_scratch6

def cM (d : Dev nD) : Memref sig .tc .vmem S1024x128 .bf16 :=
  (A10.slice (Rect.unit (s := S4x1024x128) (k0_off6 d) S1x1024x128.size (k0_off6_inb d)) (fun _ => rfl)).squeeze S1024x128 squeezes_S1x1024x128_S1024x128
def ukS (d : Dev nD) (p : Fin 3) : Memref sig .tc .vmem S128x512 .bf16 :=
  A11.slice (Rect.unit (s := S128x2048) (k0_off8 d (BitVec.ofNat 32 (1 + p.val))) S128x512.size (k0_off8_inb d p)) (fun _ => rfl)
def uvS (d : Dev nD) (p : Fin 3) : Memref sig .tc .vmem S128x512 .bf16 :=
  A12.slice (Rect.unit (s := S128x2048) (k0_off8 d (BitVec.ofNat 32 (1 + p.val))) S128x512.size (k0_off8_inb d p)) (fun _ => rfl)
def ukD (d : Dev nD) : Memref sig .tc .vmem S128x512 .bf16 :=
  (A13.slice (Rect.unit (s := S4x128x512) (k0_off7 d) S1x128x512.size (k0_off7_inb d)) (fun _ => rfl)).squeeze S128x512 squeezes_S1x128x512_S128x512
def uvD (d : Dev nD) : Memref sig .tc .vmem S128x512 .bf16 :=
  (A14.slice (Rect.unit (s := S4x128x512) (k0_off7 d) S1x128x512.size (k0_off7_inb d)) (fun _ => rfl)).squeeze S128x512 squeezes_S1x128x512_S128x512
def oM (d : Dev nD) : Fin 4 → Memref sig .tc .vmem S1024x128 .bf16
  | 0 => (A15.slice (Rect.unit (s := S4x1024x512) (k0_off14 d) S1x1024x128.size (k0_off14_inb d)) (fun _ => rfl)).squeeze S1024x128 squeezes_S1x1024x128_S1024x128
  | 1 => (A15.slice (Rect.unit (s := S4x1024x512) (k0_off17 d) S1x1024x128.size (k0_off17_inb d)) (fun _ => rfl)).squeeze S1024x128 squeezes_S1x1024x128_S1024x128
  | 2 => (A15.slice (Rect.unit (s := S4x1024x512) (k0_off20 d) S1x1024x128.size (k0_off20_inb d)) (fun _ => rfl)).squeeze S1024x128 squeezes_S1x1024x128_S1024x128
  | 3 => (A15.slice (Rect.unit (s := S4x1024x512) (k0_off23 d) S1x1024x128.size (k0_off23_inb d)) (fun _ => rfl)).squeeze S1024x128 squeezes_S1x1024x128_S1024x128

abbrev barS : Sem sig := (SemArray.scalar (sig.barrier 0 rfl) : Sems sig S_).sem

-- The cells of one device: its barrier cell and, per peer offset, a send and a receive cell for each of the three first-phase items and each of the four second-phase stripes.
inductive CK where
  | bar
  | ps (p t : Fin 3)
  | pr (p t : Fin 3)
  | os (p : Fin 3) (h : Fin 4)
  | orr (p : Fin 3) (h : Fin 4)
  deriving DecidableEq

def psS (p t : Fin 3) : DmaSem sig := ⟨7 + 3 * p.val + t.val, by have := p.isLt; have := t.isLt; decide +revert⟩
def prS (p t : Fin 3) : DmaSem sig := ⟨16 + 3 * p.val + t.val, by have := p.isLt; have := t.isLt; decide +revert⟩
def osS (p : Fin 3) (h : Fin 4) : DmaSem sig := ⟨25 + 4 * p.val + h.val, by have := p.isLt; have := h.isLt; decide +revert⟩
def orS (p : Fin 3) (h : Fin 4) : DmaSem sig := ⟨37 + 4 * p.val + h.val, by have := p.isLt; have := h.isLt; decide +revert⟩

def csem : CK → SemLoc sig
  | .bar => .reg barS
  | .ps p t => .dma (psS p t)
  | .pr p t => .dma (prS p t)
  | .os p h => .dma (osS p h)
  | .orr p h => .dma (orS p h)

def kindOf : SemLoc sig → Option CK
  | .reg s => if s = barS then some .bar else none
  | .dma s =>
    if h : 7 ≤ s.val ∧ s.val < 16 then some (.ps ⟨(s.val - 7) / 3, by omega⟩ ⟨(s.val - 7) % 3, by omega⟩)
    else if h : 16 ≤ s.val ∧ s.val < 25 then some (.pr ⟨(s.val - 16) / 3, by omega⟩ ⟨(s.val - 16) % 3, by omega⟩)
    else if h : 25 ≤ s.val ∧ s.val < 37 then some (.os ⟨(s.val - 25) / 4, by omega⟩ ⟨(s.val - 25) % 4, by omega⟩)
    else if h : 37 ≤ s.val ∧ s.val < 49 then some (.orr ⟨(s.val - 37) / 4, by omega⟩ ⟨(s.val - 37) % 4, by omega⟩)
    else none

theorem kindOf_csem (k : CK) : kindOf (csem k) = some k := by
  cases k with
  | bar => rfl
  | ps p t => revert p t; decide
  | pr p t => revert p t; decide
  | os p h => revert p h; decide
  | orr p h => revert p h; decide

theorem csem_injective : Function.Injective csem := fun a b h => Option.some.inj ((kindOf_csem a).symm.trans ((congrArg kindOf h).trans (kindOf_csem b)))

abbrev cell (c : Dev nD) (k : CK) : GSem nD τ sig := ((c : Thread nD τ), csem k)

structure PVals (F : FTy → Type) where
  cV : Dev nD → S1024x128.Idx → Elt F .bf16
  ukV : Dev nD → Fin 3 → S128x512.Idx → Elt F .bf16
  uvV : Dev nD → Fin 3 → S128x512.Idx → Elt F .bf16
  oV : Dev nD → Fin 4 → S1024x128.Idx → Elt F .bf16

variable (V : PVals F)

def slotAny (c : Dev nD) {s : Shape} (M : Memref sig .tc .vmem s .bf16) : sProp 𝕄 :=
  iprop(∃ f : Buf (Elt F) (M.view.loc (c : Thread nD τ)), M.view.loc (c : Thread nD τ) ↦[M.view.set]{fullShare} f)

def landing (s c : Dev nD) : sProp 𝕄 :=
  iprop(slotAny (F := F) s (cM c) ∗ slotAny (F := F) s (ukD c) ∗ slotAny (F := F) s (uvD c)
    ∗ slotAny (F := F) s (oM c 0) ∗ slotAny (F := F) s (oM c 1) ∗ slotAny (F := F) s (oM c 2) ∗ slotAny (F := F) s (oM c 3))

def qP : Fin 3 → PosShare TreeShare
  | 0 => fullShare.left.left
  | 1 => fullShare.left.right
  | 2 => fullShare.right.left
def qK : PosShare TreeShare := fullShare.right.right

-- What a duty hands over: a barrier unit gives the places its sender's transfers will fill, a send cell gives the lent share of the source back, a receive cell gives the filled place with the sender's value.
def payOf (c : Dev nD) : CK → Fin 3 → sProp 𝕄
  | .bar, p => landing (F := F) (og c p) c
  | .ps p 0, _ => owns (c : Thread nD τ) (cM c) (qP p) (V.cV c)
  | .ps p 1, _ => owns (c : Thread nD τ) (ukS c p) fullShare (V.ukV c p)
  | .ps p 2, _ => owns (c : Thread nD τ) (uvS c p) fullShare (V.uvV c p)
  | .pr p 0, _ => owns (c : Thread nD τ) (cM (og c p)) fullShare (V.cV (og c p))
  | .pr p 1, _ => owns (c : Thread nD τ) (ukD (og c p)) fullShare (V.ukV (og c p) p)
  | .pr p 2, _ => owns (c : Thread nD τ) (uvD (og c p)) fullShare (V.uvV (og c p) p)
  | .os p h, _ => owns (c : Thread nD τ) (oM c h) (qP p) (V.oV c h)
  | .orr p h, _ => owns (c : Thread nD τ) (oM (og c p) h) fullShare (V.oV (og c p) h)

abbrev NC : ℕ := (cM (0 : Dev nD)).view.dmaCredit
abbrev NU : ℕ := (ukD (0 : Dev nD)).view.dmaCredit
abbrev NO : ℕ := (oM (0 : Dev nD) 0).view.dmaCredit

def amtOf : CK → ℕ
  | .bar => 1
  | .ps _ 0 => NC | .ps _ _ => NU
  | .pr _ 0 => NC | .pr _ _ => NU
  | .os _ _ => NO | .orr _ _ => NO

def dutOf : CK → Finset (Fin 3)
  | .bar => Finset.univ
  | _ => {0}

-- Every cell is used for one round only.
def sched : Rounds.Schedule (GSem nD τ sig) (Fin 3) 𝕄 where
  duties g r := if r = 0 ∧ g.1.2 = .tc then (match kindOf g.2 with | some k => dutOf k | none => ∅) else ∅
  amount g _ _ := match kindOf g.2 with | some k => amtOf k | none => 1
  payload g _ d := match kindOf g.2 with | some k => payOf V g.1.1 k d | none => iprop(emp)
  amount_pos g _ _ _ := by
    cases hk : kindOf g.2 with
    | none => exact Nat.one_pos
    | some k =>
      cases k with
      | bar => exact Nat.one_pos
      | ps p t => fin_cases t <;> exact View.dmaCredit_pos _ (by decide)
      | pr p t => fin_cases t <;> exact View.dmaCredit_pos _ (by decide)
      | os p h => exact View.dmaCredit_pos _ (by decide)
      | orr p h => exact View.dmaCredit_pos _ (by decide)

end Cert.KernelProof
end
-- ==== Proof.Bits.Data.lean ====
import proofs.«900571_g7700000000000572_dist_mla_v7x_i4_i_b2_s512_d2048_dc128_f32_1_alg».proof.Proof.Bits.Proto
import proofs.«900571_g7700000000000572_dist_mla_v7x_i4_i_b2_s512_d2048_dc128_f32_1_alg».proof.Proof.Gen.Kernel.Frame

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (V : PVals F)
variable (outV : Dev nD → (cc0_stg6_0 : Ref sig .tc).ty.Contents (Elt F))

def s₀ : MemSt nD τ sig (Elt F) := ⟨m, fun _ => 0, ρ⟩

instance : Fintype CK :=
  Fintype.ofEquiv (Unit ⊕ (Fin 3 × Fin 3) ⊕ (Fin 3 × Fin 3) ⊕ (Fin 3 × Fin 4) ⊕ (Fin 3 × Fin 4))
    { toFun := fun
        | .inl _ => .bar
        | .inr (.inl (p, t)) => .ps p t
        | .inr (.inr (.inl (p, t))) => .pr p t
        | .inr (.inr (.inr (.inl (p, h)))) => .os p h
        | .inr (.inr (.inr (.inr (p, h)))) => .orr p h
      invFun := fun
        | .bar => .inl ()
        | .ps p t => .inr (.inl (p, t))
        | .pr p t => .inr (.inr (.inl (p, t)))
        | .os p h => .inr (.inr (.inr (.inl (p, h))))
        | .orr p h => .inr (.inr (.inr (.inr (p, h))))
      left_inv := fun x => by rcases x with _ | ⟨_, _⟩ | ⟨_, _⟩ | ⟨_, _⟩ | ⟨_, _⟩ <;> rfl
      right_inv := fun k => by cases k <;> rfl }

def Obar (c : Dev nD) : CellTallies nD τ sig Unit :=
  tallyAt (cell (pe c 0) .bar) () 1 + tallyAt (cell (pe c 1) .bar) () 1 + tallyAt (cell (pe c 2) .bar) () 1
def Op1 (c : Dev nD) (p : Fin 3) : CellTallies nD τ sig Unit :=
  tallyAt (cell (pe c p) (.pr p 0)) () NC + tallyAt (cell (pe c p) (.pr p 1)) () NU + tallyAt (cell (pe c p) (.pr p 2)) () NU
def Oo (c : Dev nD) (h : Fin 4) : CellTallies nD τ sig Unit :=
  tallyAt (cell (pe c 0) (.orr 0 h)) () NO + tallyAt (cell (pe c 1) (.orr 1 h)) () NO + tallyAt (cell (pe c 2) (.orr 2 h)) () NO
def Ooall (c : Dev nD) : CellTallies nD τ sig Unit := Oo c 0 + Oo c 1 + Oo c 2 + Oo c 3
-- What device `c` owes at launch: one unit to each peer's barrier cell and the credit of each of its 21 transfers to the cell that receives it.
def O₀ (c : Dev nD) : CellTallies nD τ sig Unit := Ooall c + (Op1 c 0 + Op1 c 1 + Op1 c 2) + Obar c

def L (g : GSem nD τ sig) : Finset Unit := if g.1.2 = .tc then {()} else ∅
-- The levels order the waits: barrier cells at 1, first-phase receive cells at 2, second-phase receive cells at 3, every other cell at 0.
def lv (g : GSem nD τ sig) (_ : Unit) : ℕ :=
  match kindOf g.2 with
  | some .bar => 1
  | some (.pr _ _) => 2
  | some (.orr _ _) => 3
  | _ => 0

-- Every protocol cell's invariant and the mark that its round 0 is reached: persistent, shared by all devices.
def records (K : Dev nD × CK → ℕ) : sProp 𝕄 :=
  iprop((bigSep Finset.univ fun ck : Dev nD × CK => cellInv ER (sched V) (K ck) (cell ck.1 ck.2))
    ∗ bigSep Finset.univ fun ck : Dev nD × CK => reached ER (cell ck.1 ck.2) 0)

instance records_persistent (K : Dev nD × CK → ℕ) : BI.Persistent (records (F := F) V K) := by unfold records; infer_instance

def payToks (c : Dev nD) : sProp 𝕄 :=
  iprop((bigSep Finset.univ fun p : Fin 3 => dutyTok ER (cell (pe c p) .bar) 0 p)
    ∗ (bigSep Finset.univ fun pt : Fin 3 × Fin 3 => dutyTok ER (cell (pe c pt.1) (.pr pt.1 pt.2)) 0 (0 : Fin 3))
    ∗ (bigSep Finset.univ fun ph : Fin 3 × Fin 4 => dutyTok ER (cell (pe c ph.1) (.orr ph.1 ph.2)) 0 (0 : Fin 3))
    ∗ (bigSep Finset.univ fun pt : Fin 3 × Fin 3 => dutyTok ER (cell c (.ps pt.1 pt.2)) 0 (0 : Fin 3))
    ∗ (bigSep Finset.univ fun ph : Fin 3 × Fin 4 => dutyTok ER (cell c (.os ph.1 ph.2)) 0 (0 : Fin 3)))

def linear (c : Dev nD) : sProp 𝕄 :=
  iprop((bigSep Finset.univ fun k : CK => atPos ER (cell c k) 0 ∅ 0) ∗ payToks (F := F) c)

def creds (c : Dev nD) : sProp 𝕄 :=
  iprop(cred (tallyAt (cell c .bar) () 3)
    ∗ (bigSep Finset.univ fun pt : Fin 3 × Fin 3 => cred (tallyAt (cell c (.pr pt.1 pt.2)) () (amtOf (.pr pt.1 pt.2))))
    ∗ (bigSep Finset.univ fun ph : Fin 3 × Fin 4 => cred (tallyAt (cell c (.orr ph.1 ph.2)) () NO)))

def start (c : Dev nD) : sProp 𝕄 :=
  iprop((∃ K, records V K ∗ linear (F := F) c) ∗ creds (F := F) c ∗ levAts L lv)

abbrev wqS : DmaSem sig := (cc0_scratch13 : DmaSems sig S_).sem
abbrev woS : DmaSem sig := (cc0_scratch14 : DmaSems sig S_).sem

abbrev osem : Fin 44 → SemLoc sig := fun k => .dma ⟨7 + k.val, by have := k.isLt; decide +revert⟩

def localSems (c : Dev nD) : sProp 𝕄 :=
  iprop(semVal ((c : Thread nD τ), .dma wqS) 0 ∗ semVal ((c : Thread nD τ), .dma woS) 0)

def hbmIn (c : Dev nD) : sProp 𝕄 :=
  iprop((((c : Thread nD τ).loc main_arg4) ↦{fullShare} m ((c : Thread nD τ).loc main_arg4))
    ∗ (((c : Thread nD τ).loc main_arg7) ↦{fullShare} m ((c : Thread nD τ).loc main_arg7)))

def scratchAny (c : Dev nD) : sProp 𝕄 :=
  Pipeline.scopedRest (Ix := Unit) (Name := ℕ) (U := UU) (Lvl := ℕ) (Val := Elt F) cfg0.spec c

def Φ₀ (c : Dev nD) : sProp 𝕄 := iprop(start V c ∗ localSems (F := F) c ∗ hbmIn m c ∗ scratchAny (F := F) c)
def Φ₁ (c : Dev nD) : sProp 𝕄 :=
  iprop(hbmIn m c ∗ scratchAny (F := F) c ∗ Pipeline.ownSems0 (Ix := Unit) (Name := ℕ) (U := UU) (Lvl := ℕ) (Val := Elt F) (τ := τ) osem c)

def dats (_ : Fin 1) (c : Dev nD) : Dat τ (Elt F) Unit ℕ UU ℕ cfg0 c where
  A w := (s₀ m ρ).mem ((cfg0.win w).arr.view.loc (c : Thread nD τ))
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outV c
  Φ t := match t with
    | ⟨0, _⟩ => Φ₀ m V c
    | ⟨_ + 1, _⟩ => Φ₁ m c
  q _ := fullShare
  owed t := match t with
    | ⟨0, _⟩ => O₀ c
    | ⟨_ + 1, _⟩ => 0

abbrev 𝒱₀ : Variants := Variants.none

end Cert.KernelProof
end
-- ==== Proof.Bits.FinalArrays.lean ====
import proofs.«900571_g7700000000000572_dist_mla_v7x_i4_i_b2_s512_d2048_dc128_f32_1_alg».proof.Proof.Bits.Data
import Idealize.ShloMosaic.Lib.Pipeline.Cells

noncomputable section

namespace Cert.KernelProof

open Cert.Kernel Cert.Kernel.Gen
open Idealize.ShloMosaic
open Idealize.ShloMosaic.TcCoe
open Idealize.SL Idealize.SL.Sem
open Idealize.ShloMosaic.Pipeline (Dat Cfg Window)

theorem finalA_in {F : FTy → Type} [FloatOps F] (m : (ℓ : Loc nD τ sig) → Buf (Elt F) ℓ) (ρ : Dev nD → PrngReg)
    (V : PVals F) (outV : Dev nD → (cc0_stg6_0 : Ref sig .tc).ty.Contents (Elt F))
    (c : Dev nD) (w : Fin cfg0.W) (hin : (cfg0.win w).isOut = false) :
    (dats m ρ V outV 0 c).arrAt w cfg0.N = m ((cfg0.win w).arr.view.loc (c : Thread nD τ)) :=
  (dats m ρ V outV 0 c).arrAt_in w hin cfg0.N

theorem finalA_out {F : FTy → Type} [FloatOps F] (m : (ℓ : Loc nD τ sig) → Buf (Elt F) ℓ) (ρ : Dev nD → PrngReg)
    (V : PVals F) (outV : Dev nD → (cc0_stg6_0 : Ref sig .tc).ty.Contents (Elt F)) (c : Dev nD) :
    (dats m ρ V outV 0 c).arrAt 6 cfg0.N = outV c := by
  have h1 := (dats m ρ V outV 0 c).arrAt_succ 6 t0_0
  rw [flush0_6 t0_0, if_pos rfl] at h1
  refine h1.trans ?_
  exact Memref.write_access_unit_zero_univ (Elt F) main_v1 (funext fun a => Nat.zero_mul _) _ _ _

theorem post_of {F : FTy → Type} [FloatOps F] (m : (ℓ : Loc nD τ sig) → Buf (Elt F) ℓ) (ρ : Dev nD → PrngReg)
    (V : PVals F) (outV : Dev nD → (cc0_stg6_0 : Ref sig .tc).ty.Contents (Elt F))
    (r : PUnit × MemSt nD τ sig (Elt F)) (c : Dev nD)
    (h : (∀ w : Fin cfg0.W, r.2.mem ((cfg0.win w).arr.view.loc (c : Thread nD τ)) = (dats m ρ V outV 0 c).arrAt w cfg0.N)
      ∧ r.2.mem ((c : Thread nD τ).loc main_arg4) = m ((c : Thread nD τ).loc main_arg4)
      ∧ r.2.mem ((c : Thread nD τ).loc main_arg7) = m ((c : Thread nD τ).loc main_arg7)) :
    r.2.mem ((c : Thread nD τ).loc main_v1) = outV c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) :=
  ⟨(h.1 6).trans (finalA_out m ρ V outV c),
    (h.1 0).trans (finalA_in m ρ V outV c 0 rfl),
    (h.1 1).trans (finalA_in m ρ V outV c 1 rfl),
    (h.1 2).trans (finalA_in m ρ V outV c 2 rfl),
    (h.1 3).trans (finalA_in m ρ V outV c 3 rfl),
    h.2.1,
    (h.1 5).trans (finalA_in m ρ V outV c 5 rfl),
    (h.1 4).trans (finalA_in m ρ V outV c 4 rfl),
    h.2.2⟩

end Cert.KernelProof

end
-- ==== Proof.Bits.LaunchGhost.lean ====
import proofs.«900571_g7700000000000572_dist_mla_v7x_i4_i_b2_s512_d2048_dc128_f32_1_alg».proof.Proof.Bits.Data

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : PVals F)

abbrev kcell (ck : Dev nD × CK) : GSem nD τ sig := cell ck.1 ck.2

theorem kcell_injective : Function.Injective (kcell : Dev nD × CK → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

def protoCells : Finset (GSem nD τ sig) := Finset.univ.map ⟨kcell, kcell_injective⟩

abbrev TI : Type := Fin 3 ⊕ (Fin 3 × Fin 3) ⊕ (Fin 3 × Fin 4) ⊕ (Fin 3 × Fin 3) ⊕ (Fin 3 × Fin 4)

def tkK : TI → CK × Fin 3
  | .inl p => (.bar, p)
  | .inr (.inl pt) => (.pr pt.1 pt.2, 0)
  | .inr (.inr (.inl ph)) => (.orr ph.1 ph.2, 0)
  | .inr (.inr (.inr (.inl pt))) => (.ps pt.1 pt.2, 0)
  | .inr (.inr (.inr (.inr ph))) => (.os ph.1 ph.2, 0)

theorem tkK_injective : Function.Injective tkK := by
  rintro (a | ⟨a1, a2⟩ | ⟨a1, a2⟩ | ⟨a1, a2⟩ | ⟨a1, a2⟩) (b | ⟨b1, b2⟩ | ⟨b1, b2⟩ | ⟨b1, b2⟩ | ⟨b1, b2⟩) h <;> cases h <;> rfl

def tokOf (ci : Dev nD × TI) : GSem nD τ sig × ℕ × Fin 3 := (cell ci.1 (tkK ci.2).1, 0, (tkK ci.2).2)

theorem tokOf_injective : Function.Injective (tokOf : Dev nD × TI → GSem nD τ sig × ℕ × Fin 3) := by
  rintro ⟨c, i⟩ ⟨c', i'⟩ h
  have h1 : c = c' := congrArg (fun x : GSem nD τ sig × ℕ × Fin 3 => x.1.1.1) h
  subst h1
  have hk : (tkK i).1 = (tkK i').1 := csem_injective (congrArg (fun x : GSem nD τ sig × ℕ × Fin 3 => x.1.2) h)
  have hd : (tkK i).2 = (tkK i').2 := congrArg (fun x : GSem nD τ sig × ℕ × Fin 3 => x.2.2) h
  have h2 : i = i' := tkK_injective (Prod.ext hk hd)
  subst h2; rfl

def protoToks : Finset (GSem nD τ sig × ℕ × Fin 3) := Finset.univ.map ⟨tokOf, tokOf_injective⟩

def u₀ : UU :=
  (initOf (Pipeline.cells cfgs cellOf_inj) (Pipeline.launchToks cfgs cellOf_inj), (initOf protoCells protoToks, 1))

def toks (c : Dev nD) : sProp 𝕄 :=
  iprop((bigSep Finset.univ fun p : Fin 3 => dutyTok ER (cell c .bar) 0 p)
    ∗ (bigSep Finset.univ fun pt : Fin 3 × Fin 3 => dutyTok ER (cell c (.pr pt.1 pt.2)) 0 (0 : Fin 3))
    ∗ (bigSep Finset.univ fun ph : Fin 3 × Fin 4 => dutyTok ER (cell c (.orr ph.1 ph.2)) 0 (0 : Fin 3))
    ∗ (bigSep Finset.univ fun pt : Fin 3 × Fin 3 => dutyTok ER (cell c (.ps pt.1 pt.2)) 0 (0 : Fin 3))
    ∗ (bigSep Finset.univ fun ph : Fin 3 × Fin 4 => dutyTok ER (cell c (.os ph.1 ph.2)) 0 (0 : Fin 3)))

def G (c : Dev nD) : sProp 𝕄 :=
  iprop((bigSep Finset.univ fun k : CK => roundState ER (sched V) (cell c k) 0)
    ∗ (bigSep Finset.univ fun k : CK => iprop(atPos ER (cell c k) 0 ∅ 0 ∗ reached ER (cell c k) 0)) ∗ toks (F := F) c)

def G' (c : Dev nD) : sProp 𝕄 := iprop((∃ K, records V K ∗ linear (F := F) c) ∗ localSems (F := F) c)

theorem bigSep_cells (Φ : GSem nD τ sig → sProp 𝕄) :
    bigSep protoCells Φ = bigSep Finset.univ fun c : Dev nD => bigSep Finset.univ fun k : CK => Φ (cell c k) := by
  unfold protoCells; rw [bigSep_map, bigSep_univ_prod]; rfl

theorem bigSep_toks :
    bigSep protoToks (fun x => (dutyTok ER x.1 x.2.1 x.2.2 : sProp 𝕄)) = bigSep Finset.univ fun c : Dev nD => toks (F := F) c := by
  unfold protoToks; rw [bigSep_map, bigSep_univ_prod]
  exact bigSep_congr fun c _ => by
    unfold toks
    rw [bigSep_univ_sum, bigSep_univ_sum, bigSep_univ_sum, bigSep_univ_sum]
    rfl

theorem fund_proto : BI.own (ER (initOf protoCells protoToks)) ⊢ (|==> bigSep Finset.univ (G V) : sProp 𝕄) := by
  iintro HX
  imod (Rounds.fund ER (sched V) protoCells protoToks) $$ HX with ⟨Hst, Hr, Hat, Htok⟩
  imodintro
  ihave Hst' := (Entails.of_eq (bigSep_cells fun g => roundState ER (sched V) g 0)) $$ Hst
  ihave Hat' := (Entails.of_eq (bigSep_cells (F := F) fun g => atPos ER g 0 ∅ 0)) $$ Hat
  ihave Hr' := (Entails.of_eq (bigSep_cells (F := F) fun g => reached ER g 0)) $$ Hr
  ihave Htok' := (Entails.of_eq (bigSep_toks (F := F))) $$ Htok
  unfold G; simp only [bigSep_sep']
  iframe

instance slotAny_storable (c : Dev nD) {s : Shape} (M : Memref sig .tc .vmem s .bf16) :
    BI.Storable (upEmb : UEmb _ 𝕄) (slotAny (F := F) c M) := by unfold slotAny; infer_instance

instance landing_storable (s c : Dev nD) : BI.Storable (upEmb : UEmb _ 𝕄) (landing (F := F) s c) := by unfold landing; infer_instance

instance payOf_storable (c : Dev nD) (k : CK) (d : Fin 3) : BI.Storable (upEmb : UEmb _ 𝕄) (payOf V c k d) := by
  unfold payOf; split <;> infer_instance

instance sched_payload_storable (g : GSem nD τ sig) (r : ℕ) (d : Fin 3) :
    BI.Storable (upEmb : UEmb _ 𝕄) ((sched V).payload g r d) := by
  show BI.Storable upEmb (match kindOf g.2 with | some k => payOf V g.1.1 k d | none => iprop(emp))
  split <;> infer_instance

theorem ownSemFacts : Pipeline.OwnSemFacts cfg0.spec osem := by decide

theorem unscoped_eq : (Finset.univ.filter fun sm : SemLoc sig => ¬ sm.isScoped .tc) = {SemLoc.reg barS} := by decide

theorem sems_eq : insert (SemLoc.reg barS) (Finset.univ.map ⟨osem, ownSemFacts.inj⟩)
    = insert (SemLoc.dma wqS) (insert (SemLoc.dma woS) (Finset.univ.map ⟨csem, csem_injective⟩)) := by decide
theorem bar_notin : SemLoc.reg barS ∉ Finset.univ.map ⟨osem, ownSemFacts.inj⟩ := by decide
theorem wq_notin : SemLoc.dma wqS ∉ insert (SemLoc.dma woS) (Finset.univ.map ⟨csem, csem_injective⟩) := by decide
theorem wo_notin : SemLoc.dma woS ∉ Finset.univ.map ⟨csem, csem_injective⟩ := by decide

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CK => semVal (cell c k) 0) ∗ localSems (F := F) c) : sProp 𝕄) := by
  have key : (iprop(semVal ((c : Thread nD τ), SemLoc.reg barS) 0 ∗ bigSep Finset.univ fun k => semVal ((c : Thread nD τ), osem k) 0) : sProp 𝕄)
      = iprop(semVal ((c : Thread nD τ), SemLoc.dma wqS) 0 ∗ semVal ((c : Thread nD τ), SemLoc.dma woS) 0 ∗ bigSep Finset.univ fun k : CK => semVal (cell c k) 0) := by
    have e := congrArg (fun S => (bigSep S fun s => semVal ((c : Thread nD τ), s) 0 : sProp 𝕄)) sems_eq
    simp only [bigSep_insert bar_notin, bigSep_insert wq_notin, bigSep_insert wo_notin, bigSep_map] at e
    exact e
  unfold Pipeline.ownSems0 unscopedSems0 localSems
  rw [unscoped_eq, bigSep_singleton]
  iintro ⟨Ho, Hb⟩
  ihave H := (Entails.of_eq key) $$ [Ho Hb]
  · iframe
  icases H with ⟨Hq, Hw, Hc⟩
  iframe

theorem core_alloc (c : Dev nD) :
    iprop(Pipeline.ownSems0 (Ix := Unit) (Name := ℕ) (U := UU) (Lvl := ℕ) (Val := Elt F) (τ := τ) osem c ∗ unscopedSems0 c ∗ G V c)
      ⊢ |={Set.univ}=> iprop((bigSep Finset.univ fun k : CK => iprop(∃ κ : ℕ, cellInv ER (sched V) κ (cell c k)))
          ∗ (bigSep Finset.univ fun k : CK => iprop(atPos ER (cell c k) 0 ∅ 0 ∗ reached ER (cell c k) 0))
          ∗ toks (F := F) c ∗ localSems (F := F) c) := by
  unfold G
  iintro ⟨Hos, Hus, Hst, Hat, Htok⟩
  ihave Hv := (sems0_eq (F := F) c) $$ [Hos Hus]
  · iframe
  icases Hv with ⟨Hv, Hloc⟩
  imod (show iprop((bigSep Finset.univ fun k : CK => semVal (cell c k) 0) ∗ bigSep Finset.univ fun k : CK => roundState ER (sched V) (cell c k) 0)
      ⊢ (|={Set.univ}=> bigSep Finset.univ fun k : CK => iprop(∃ κ : ℕ, cellInv ER (sched V) κ (cell c k)) : sProp 𝕄) from by
        rw [← bigSep_sep']
        exact (bigSep_mono fun k _ => (Rounds.body_intro ER (sched V) (cell c k)).trans inv_alloc).trans (bigSep_fupd _ _)) $$ [Hv Hst] with Hinv
  · iframe
  imodintro
  iframe

def around {B : Type} (π : B → Fin 3) : Dev nD × B ≃ Dev nD × B where
  toFun x := (pe x.1 (π x.2), x.2)
  invFun x := (og x.1 (π x.2), x.2)
  left_inv x := by rcases x with ⟨c, b⟩; exact Prod.ext (og_pe c (π b)) rfl
  right_inv x := by rcases x with ⟨c, b⟩; exact Prod.ext (pe_og c (π b)) rfl

-- What each owner mints, summed over the owners, is what each device holds of the owner `π b` places on.
theorem deal {B : Type} [Fintype B] (π : B → Fin 3) (f : Dev nD → B → sProp 𝕄) :
    (bigSep Finset.univ fun c : Dev nD => bigSep Finset.univ fun b : B => f c b)
      = bigSep Finset.univ fun c : Dev nD => bigSep Finset.univ fun b : B => f (pe c (π b)) b := by
  rw [← bigSep_univ_prod (fun x : Dev nD × B => f x.1 x.2), bigSep_univ_equiv (around π), bigSep_univ_prod]; rfl

theorem toks_around : (bigSep Finset.univ fun c : Dev nD => (toks (F := F) c : sProp 𝕄)) ⊢ bigSep Finset.univ fun c : Dev nD => payToks (F := F) c := by
  unfold toks payToks
  rw [bigSep_sep', bigSep_sep', bigSep_sep', bigSep_sep', bigSep_sep', bigSep_sep', bigSep_sep', bigSep_sep',
    deal (fun p : Fin 3 => p) (fun c p => (dutyTok ER (cell c .bar) 0 p : sProp 𝕄)),
    deal (fun pt : Fin 3 × Fin 3 => pt.1) (fun c pt => (dutyTok ER (cell c (.pr pt.1 pt.2)) 0 (0 : Fin 3) : sProp 𝕄)),
    deal (fun ph : Fin 3 × Fin 4 => ph.1) (fun c ph => (dutyTok ER (cell c (.orr ph.1 ph.2)) 0 (0 : Fin 3) : sProp 𝕄))]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (sched V) κ (cell c k)))
          ∗ (bigSep Finset.univ fun k : CK => iprop(atPos ER (cell c k) 0 ∅ 0 ∗ reached ER (cell c k) 0))
          ∗ toks (F := F) c ∗ localSems (F := F) c) : sProp 𝕄)
      ⊢ bigSep Finset.univ (G' V) := by
  rw [bigSep_sep', bigSep_sep', bigSep_sep',
    ← bigSep_univ_prod (fun ck : Dev nD × CK => iprop(∃ κ : ℕ, cellInv ER (sched V) κ (cell ck.1 ck.2))),
    bigSep_congr (s := Finset.univ) (fun (c : Dev nD) _ => bigSep_sep' Finset.univ (fun k : CK => (atPos ER (cell c k) 0 ∅ 0 : sProp 𝕄)) (fun k => reached ER (cell c k) 0)),
    bigSep_sep', ← bigSep_univ_prod (fun ck : Dev nD × CK => (reached ER (cell ck.1 ck.2) 0 : sProp 𝕄))]
  iintro ⟨HI, ⟨Hat, #HR⟩, Htok, Hloc⟩
  ihave HK := (BI.bigSep_exists_pi Finset.univ (fun (ck : Dev nD × CK) (κ : ℕ) => (cellInv ER (sched V) κ (cell ck.1 ck.2) : sProp 𝕄))) $$ HI
  icases HK with ⟨%K, #HI⟩
  ihave Htk := (toks_around (F := F)) $$ Htok
  iapply (bigSep_with_persistent (R := records V K) (Φ := fun c : Dev nD => iprop(linear (F := F) c ∗ localSems (F := F) c)) fun c _ => by
    unfold G'
    iintro ⟨#HR, Hl, Hs⟩
    isplitl [Hl]
    · iexists K; isplitr; · iexact HR
      iexact Hl
    · iexact Hs)
  isplitr
  · unfold records; iframe #
  · unfold linear; rw [bigSep_sep', bigSep_sep']; iframe

-- Every cell's invariant is allocated from its semaphore at zero and its round state, and the tokens go to the devices that pay them.
theorem glob : (bigSep Finset.univ fun c => iprop(Pipeline.ownSems0 (Ix := Unit) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => core_alloc V c).trans (bigSep_fupd _ _)).trans (BI.fupd_mono (regroup V))

theorem launch_elem : (ownU u₀ : sProp 𝕄)
    ⊢ |={Set.univ}=> iprop(BI.own (EP (initOf (Pipeline.cells cfgs cellOf_inj) (Pipeline.launchToks cfgs cellOf_inj))) ∗ bigSep Finset.univ (G V)) := by
  unfold u₀
  iintro Hu
  ihave H := (ownU_pair _ _) $$ Hu
  icases H with ⟨HP, HX⟩
  ihave H2 := (own_pair_emb embR (initOf protoCells protoToks) (1 : Counters)) $$ HX
  icases H2 with ⟨HR, -⟩
  imod (fund_proto V) $$ HR with HG
  imodintro
  iframe

/-- info: 'Cert.KernelProof.glob' depends on axioms: [propext, Classical.choice, Quot.sound] -/
#guard_msgs in #print axioms glob
/-- info: 'Cert.KernelProof.launch_elem' depends on axioms: [propext, Classical.choice, Quot.sound] -/
#guard_msgs in #print axioms launch_elem

end Cert.KernelProof
end
-- ==== Proof.Bits.LaunchCredit.lean ====
import proofs.«900571_g7700000000000572_dist_mla_v7x_i4_i_b2_s512_d2048_dc128_f32_1_alg».proof.Proof.Bits.Data

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def Op1all (c : Dev nD) : CellTallies nD τ sig Unit := Op1 c 0 + Op1 c 1 + Op1 c 2

theorem Obar_eq (c : Dev nD) : Obar c = ∑ p : Fin 3, tallyAt (cell (pe c p) .bar) () 1 := by
  rw [Fin.sum_univ_three]; rfl

theorem Op1all_eq (c : Dev nD) :
    Op1all c = ∑ pt : Fin 3 × Fin 3, tallyAt (cell (pe c pt.1) (.pr pt.1 pt.2)) () (amtOf (.pr pt.1 pt.2)) := by
  rw [Fintype.sum_prod_type, Fin.sum_univ_three]
  simp only [Fin.sum_univ_three]
  rfl

theorem Ooall_eq (c : Dev nD) :
    Ooall c = ∑ ph : Fin 3 × Fin 4, tallyAt (cell (pe c ph.1) (.orr ph.1 ph.2)) () NO := by
  rw [Fintype.sum_prod_type_right, Fin.sum_univ_four]
  simp only [Fin.sum_univ_three]
  rfl

theorem pos_add_left {A B : CellTallies nD τ sig Unit} {g : GSem nD τ sig} {u : Unit} (h : 0 < A g u) : 0 < (A + B) g u := by
  rw [Pi.add_apply, Finsupp.add_apply]; exact Nat.add_pos_left h _

theorem Ooall_pos_O₀ {c : Dev nD} {g : GSem nD τ sig} {u : Unit} (hg : 0 < Ooall c g u) : 0 < O₀ c g u :=
  pos_add_left (pos_add_left hg)

-- If every device owes `n` units to cell `k` of the device `p` places on, then device `c` is dealt `n` units of credit on its own cell `k`.
theorem launchCred_cell (k : CK) (p : Fin 3) (n : ℕ) (c : Dev nD) :
    (Pipeline.launchCred (fun d => tallyAt (cell (pe d p) k) () n) c : sProp 𝕄) ⊢ cred (tallyAt (cell c k) () n) :=
  Pipeline.launchCred_tallyAt (csem k) (fun d => pe d p) (fun c => og c p) (fun c => pe_og c p) (fun d => og_pe d p) () n c

theorem launchCred_Obar (c : Dev nD) : (Pipeline.launchCred Obar c : sProp 𝕄) ⊢ cred (tallyAt (cell c .bar) () 3) := by
  rw [show (Obar : Dev nD → CellTallies nD τ sig Unit) = fun d => ∑ p : Fin 3, tallyAt (cell (pe d p) .bar) () 1 from funext Obar_eq,
    Pipeline.launchCred_sum]
  refine (bigSep_mono fun p _ => launchCred_cell .bar p 1 c).trans ?_
  rw [← Pipeline.cred_finsetSum, Fin.sum_univ_three, tallyAt_add, tallyAt_add]
  exact Entails.refl _

theorem launchCred_Op1all (c : Dev nD) :
    (Pipeline.launchCred Op1all c : sProp 𝕄)
      ⊢ bigSep Finset.univ fun pt : Fin 3 × Fin 3 => cred (tallyAt (cell c (.pr pt.1 pt.2)) () (amtOf (.pr pt.1 pt.2))) := by
  rw [show (Op1all : Dev nD → CellTallies nD τ sig Unit)
      = fun d => ∑ pt : Fin 3 × Fin 3, tallyAt (cell (pe d pt.1) (.pr pt.1 pt.2)) () (amtOf (.pr pt.1 pt.2)) from funext Op1all_eq,
    Pipeline.launchCred_sum]
  exact bigSep_mono fun pt _ => launchCred_cell (.pr pt.1 pt.2) pt.1 _ c

theorem launchCred_Ooall (c : Dev nD) :
    (Pipeline.launchCred Ooall c : sProp 𝕄)
      ⊢ bigSep Finset.univ fun ph : Fin 3 × Fin 4 => cred (tallyAt (cell c (.orr ph.1 ph.2)) () NO) := by
  rw [show (Ooall : Dev nD → CellTallies nD τ sig Unit)
      = fun d => ∑ ph : Fin 3 × Fin 4, tallyAt (cell (pe d ph.1) (.orr ph.1 ph.2)) () NO from funext Ooall_eq,
    Pipeline.launchCred_sum]
  exact bigSep_mono fun ph _ => launchCred_cell (.orr ph.1 ph.2) ph.1 NO c

theorem launch_creds (c : Dev nD) : (Pipeline.launchCred O₀ c : sProp 𝕄) ⊢ creds (F := F) c := by
  rw [show (O₀ : Dev nD → CellTallies nD τ sig Unit) = fun d => (Ooall d + Op1all d) + Obar d from rfl,
    Pipeline.launchCred_add (fun d => Ooall d + Op1all d) Obar c, Pipeline.launchCred_add Ooall Op1all c]
  unfold creds
  iintro ⟨⟨Ho, Hp⟩, Hb⟩
  isplitl [Hb]; · iapply (launchCred_Obar (F := F) c); iexact Hb
  isplitl [Hp]; · iapply (launchCred_Op1all (F := F) c); iexact Hp
  iapply (launchCred_Ooall (F := F) c); iexact Ho

theorem L_of_ne (g : GSem nD τ sig) (h : g.1.2 ≠ .tc) : L g = ∅ := if_neg h
theorem L_tc (c : Dev nD) (sm : SemLoc sig) : L ((c : Thread nD τ), sm) = {()} := if_pos rfl

theorem lv_cell (d : Dev nD) (k : CK) (u : Unit) :
    lv (cell d k) u = match k with | .bar => 1 | .pr _ _ => 2 | .orr _ _ => 3 | _ => 0 := by
  unfold lv
  rw [show (cell d k).2 = csem k from rfl, kindOf_csem]
  cases k <;> rfl

-- A transfer semaphore that is no protocol cell is at level 0.
theorem lv_dma_other (t : Thread nD τ) (q : DmaSem sig) (hq : q.val < 7 ∨ 49 ≤ q.val) (u : Unit) : lv (t, .dma q) u = 0 := by
  have hk : kindOf (.dma q) = none := by
    dsimp only [kindOf]
    rw [dif_neg (show ¬ (7 ≤ q.val ∧ q.val < 16) by omega), dif_neg (show ¬ (16 ≤ q.val ∧ q.val < 25) by omega),
      dif_neg (show ¬ (25 ≤ q.val ∧ q.val < 37) by omega), dif_neg (show ¬ (37 ≤ q.val ∧ q.val < 49) by omega)]
  unfold lv
  rw [show ((t, SemLoc.dma q) : GSem nD τ sig).2 = .dma q from rfl, hk]

-- A positive sum of dues to cells `k i` of the devices `π i` places on sits on one of those cells, so above any level below all of theirs.
theorem sum_above {ι : Type} [Fintype ι] {π : ι → Fin 3} {k : ι → CK} {n : ι → ℕ} {c : Dev nD} {b : ℕ}
    (hb : ∀ i d u, b < lv (cell d (k i)) u) {g : GSem nD τ sig} {u : Unit}
    (h : 0 < (∑ i, tallyAt (cell (pe c (π i)) (k i)) () (n i)) g u) : g.1.2 = .tc ∧ b < lv g u := by
  obtain ⟨i, -, hi⟩ := Pipeline.sum_pos_exists h
  rw [(Pipeline.tallyAt_pos hi).1]; exact ⟨rfl, hb i _ _⟩

theorem Ooall_above {c : Dev nD} {g : GSem nD τ sig} {u : Unit} (h : 0 < Ooall c g u) : g.1.2 = .tc ∧ 2 < lv g u := by
  rw [Ooall_eq] at h; exact sum_above (fun _ _ _ => by rw [lv_cell]; exact Nat.lt_succ_self 2) h

theorem xfer_above {c : Dev nD} {g : GSem nD τ sig} {u : Unit} (h : 0 < (Ooall c + Op1all c) g u) : g.1.2 = .tc ∧ 1 < lv g u := by
  rcases Pipeline.add_pos_cases h with h | h
  · exact ⟨(Ooall_above h).1, Nat.lt_of_succ_lt (Ooall_above h).2⟩
  · rw [Op1all_eq] at h; exact sum_above (fun _ _ _ => by rw [lv_cell]; exact Nat.lt_succ_self 1) h

theorem O₀_above {c : Dev nD} {g : GSem nD τ sig} {u : Unit} (h : 0 < O₀ c g u) : g.1.2 = .tc ∧ 0 < lv g u := by
  rcases Pipeline.add_pos_cases (show 0 < ((Ooall c + Op1all c) + Obar c) g u from h) with h | h
  · exact ⟨(xfer_above h).1, Nat.lt_of_succ_lt (xfer_above h).2⟩
  · rw [Obar_eq] at h; exact sum_above (fun _ _ _ => by rw [lv_cell]; exact Nat.lt_succ_self 0) h

-- A device may wait on a cell at or below level `b` while all it owes sits on TensorCore cells above `b`.
theorem mayWait_cut (c : Dev nD) (s : SemLoc sig) (b : ℕ) (hs : lv ((c : Thread nD τ), s) () ≤ b)
    (O : CellTallies nD τ sig Unit) (hO : ∀ g u, 0 < O g u → g.1.2 = .tc ∧ b < lv g u) :
    (levAts L lv : sProp 𝕄) ⊢ MayWait (c : Thread nD τ) s () O :=
  MayOwe.of_cut (L := L) (lev := lv) b
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

theorem mayWait_low (c : Dev nD) (s : SemLoc sig) (hs : lv ((c : Thread nD τ), s) () = 0)
    (O : CellTallies nD τ sig Unit) (hO : ∀ g u, 0 < O g u → 0 < O₀ c g u) :
    (levAts L lv : sProp 𝕄) ⊢ MayWait (c : Thread nD τ) s () O :=
  mayWait_cut c s 0 (Nat.le_of_eq hs) O fun g u hg => O₀_above (hO g u hg)

theorem mayWait_bar (c : Dev nD) (O : CellTallies nD τ sig Unit) (hO : ∀ g u, 0 < O g u → 0 < (Ooall c + Op1all c) g u) :
    (levAts L lv : sProp 𝕄) ⊢ MayWait (c : Thread nD τ) (.reg barS) () O :=
  mayWait_cut c (.reg barS) 1 (Nat.le_of_eq (lv_cell c .bar ())) O fun g u hg => xfer_above (hO g u hg)

theorem mayWait_pr (c : Dev nD) (p t : Fin 3) (O : CellTallies nD τ sig Unit) (hO : ∀ g u, 0 < O g u → 0 < Ooall c g u) :
    (levAts L lv : sProp 𝕄) ⊢ MayWait (c : Thread nD τ) (csem (.pr p t)) () O :=
  mayWait_cut c (csem (.pr p t)) 2 (Nat.le_of_eq (lv_cell c (.pr p t) ())) O fun g u hg => Ooall_above (hO g u hg)

section Waits

variable (m : (ℓ : Loc nD τ sig) → Buf (Elt F) ℓ) (ρ : Dev nD → PrngReg) (V : PVals F)
variable (outV : Dev nD → (cc0_stg6_0 : Ref sig .tc).ty.Contents (Elt F))

-- The staging cells are at level 0: below all the device owes before the point, and it owes nothing after.
theorem waits (c : Dev nD) : (levAts L lv : sProp 𝕄) ⊢ Pipeline.cellsWaits cfgs (dats (F := F) m ρ V outV) () 0 c :=
  Pipeline.cellsWaits_intro cfgs (dats m ρ V outV) () 0 c fun w s t => by
    refine mayWait_low c _ (lv_dma_other _ _ (Or.inl (by fin_cases w <;> fin_cases s <;> decide)) ()) _ ?_
    rcases t with ⟨_ | _, ht⟩
    · exact fun g u hg => hg
    · intro g u hg; exact absurd hg (Nat.lt_irrefl 0)

end Waits

end Cert.KernelProof
end
-- ==== Proof.Bits.Launch.lean ====
import proofs.«900571_g7700000000000572_dist_mla_v7x_i4_i_b2_s512_d2048_dc128_f32_1_alg».proof.Proof.Bits.LaunchGhost
import proofs.«900571_g7700000000000572_dist_mla_v7x_i4_i_b2_s512_d2048_dc128_f32_1_alg».proof.Proof.Bits.LaunchCredit

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (V : PVals F)
variable (outV : Dev nD → (cc0_stg6_0 : Ref sig .tc).ty.Contents (Elt F))

theorem share_eq (c : Dev nD) (w : Fin cfg0.W) : (dats m ρ V outV 0 c).share w = fullShare := by unfold Dat.share; split <;> rfl

def X (c : Dev nD) : sProp 𝕄 := iprop(start V c ∗ localSems (F := F) c ∗ hbmIn m c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' V c)
      ⊢ |={Set.univ}=> iprop(X m V c ∗ emp) := by
  rw [Pipeline.unscopedRestP_none, unscopedRest0_eq]
  iintro ⟨Hin, Hlev, Hcr, -, HG⟩
  ihave Hc := (launch_creds (F := F) c) $$ Hcr
  unfold G'
  icases HG with ⟨Hg, Hloc⟩
  imodintro
  unfold X start hbmIn
  iframe

theorem phi0_intro (c : Dev nD) :
    iprop(X m V c ∗ Pipeline.prefHeld Pipeline.Prefetch.none c (fun _ => fullShare.right) (fun k => k.elim0) ∗ Pipeline.scopedRest cfg0.spec c)
      ⊢ (dats m ρ V outV 0 c).Φ 0 := by
  rw [show (dats m ρ V outV 0 c).Φ 0 = Φ₀ m V c from rfl]
  unfold Φ₀ X scratchAny
  iintro ⟨⟨Hs, Hl, Hh⟩, -, Hr⟩
  iframe

theorem phi1_exit (c : Dev nD) :
    (dats m ρ V outV 0 c).Φ (Fin.last cfg0.N) ⊢ iprop(hbmIn m c ∗ Pipeline.ownSems0 osem c ∗ Pipeline.scopedRest cfg0.spec c) := by
  rw [show (dats m ρ V outV 0 c).Φ (Fin.last cfg0.N) = Φ₁ m c from rfl]
  unfold Φ₁ scratchAny
  iintro ⟨Hh, Hr, Ho⟩
  iframe

def QC : PUnit × MemSt nD τ sig (Elt F) → Prop := fun r =>
  ∀ c : Dev nD, (∀ w : Fin cfg0.W, r.2.mem ((cfg0.win w).arr.view.loc (c : Thread nD τ)) = (dats m ρ V outV 0 c).arrAt w cfg0.N)
    ∧ r.2.mem ((c : Thread nD τ).loc main_arg4) = m ((c : Thread nD τ).loc main_arg4)
    ∧ r.2.mem ((c : Thread nD τ).loc main_arg7) = m ((c : Thread nD τ).loc main_arg7)

set_option maxRecDepth 8000 in
theorem run_main (hbody : ∀ c : Dev nD, BodyObligation (dats (F := F) m ρ V outV 0 c) (defs₀ (F := F)) 𝒱₀ () Set.univ) :
    θ_run defs (onTc (τ := τ) (main (F := F))) (s₀ m ρ) (QC m ρ V outV) :=
  Pipeline.θ_run_region_owing_glob_pf (fun p => (cfgs p).toPCfg) (fun p => (cfgs p).toPCfg_adm) (dats m ρ V outV) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ V outV)
    (hdistinct := winFacts0.arr_inj)
    (O₀ := O₀) (howed₀ := fun _ => rfl) (howedN := fun _ => rfl)
    (L := L) (lv := lv) (hL := L_of_ne) (hwaits := waits m ρ V outV)
    (G := G V) (G' := G' V) (u₀ := u₀)
    (hu₀ := launch_elem V)
    (hglob := glob V)
    (hA := fun _ _ => rfl) (hpf := fun _ k => k.elim0)
    (X := X m V) (Y := hbmIn m) (Z := fun _ => iprop(emp))
    (hX := start_intro m ρ V) (hin := phi0_intro m ρ V outV) (hout := phi1_exit m ρ V outV)
    (QY := fun c s => s.mem ((c : Thread nD τ).loc main_arg4) = m ((c : Thread nD τ).loc main_arg4)
      ∧ s.mem ((c : Thread nD τ).loc main_arg7) = m ((c : Thread nD τ).loc main_arg7))
    (hY := fun c s' => by
      unfold hbmIn
      iintro ⟨⟨H4, H7⟩, -, HSI⟩
      icombine HSI H4 gives %h4
      icombine HSI H7 gives %h7
      imodintro
      isplitr; · ipureintro; exact ⟨Buf.eq_of_forall_mem_univ h4, Buf.eq_of_forall_mem_univ h7⟩
      iexact HSI)
    (hQ := fun _ h c => ⟨(h c).1, (h c).2.2.1, (h c).2.2.2⟩)

/-- info: 'Cert.KernelProof.run_main' depends on axioms: [propext, Classical.choice, Quot.sound] -/
#guard_msgs in #print axioms run_main

end Cert.KernelProof
end
-- ==== Proof.Bits.Tables.lean ====
import proofs.«900571_g7700000000000572_dist_mla_v7x_i4_i_b2_s512_d2048_dc128_f32_1_alg».proof.Proof.Bits.Proto

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : PVals F) (c : Dev nD)

-- The schedule's table read at a protocol cell: the entry of the cell's kind.
theorem duties_cell (k : CK) : (sched V).duties (cell c k) 0 = dutOf k := by
  dsimp only [sched]; rw [if_pos ⟨rfl, rfl⟩, kindOf_csem]

theorem duties_bar : (sched V).duties (cell c .bar) 0 = Finset.univ := duties_cell V c .bar
theorem duties_ps (p t : Fin 3) : (sched V).duties (cell c (.ps p t)) 0 = {0} := duties_cell V c (.ps p t)
theorem duties_pr (p t : Fin 3) : (sched V).duties (cell c (.pr p t)) 0 = {0} := duties_cell V c (.pr p t)
theorem duties_os (p : Fin 3) (h : Fin 4) : (sched V).duties (cell c (.os p h)) 0 = {0} := duties_cell V c (.os p h)
theorem duties_orr (p : Fin 3) (h : Fin 4) : (sched V).duties (cell c (.orr p h)) 0 = {0} := duties_cell V c (.orr p h)

theorem duties_later (g : GSem nD τ sig) : ∀ r, 1 ≤ r → (sched V).duties g r = ∅ :=
  fun r hr => by dsimp only [sched]; rw [if_neg fun h => by omega]

theorem mem_duties_bar (p : Fin 3) : p ∈ (sched V).duties (cell c .bar) 0 := by rw [duties_bar]; exact Finset.mem_univ p
theorem mem_duties_ps (p t : Fin 3) : (0 : Fin 3) ∈ (sched V).duties (cell c (.ps p t)) 0 := by rw [duties_ps]; exact Finset.mem_singleton_self 0
theorem mem_duties_pr (p t : Fin 3) : (0 : Fin 3) ∈ (sched V).duties (cell c (.pr p t)) 0 := by rw [duties_pr]; exact Finset.mem_singleton_self 0
theorem mem_duties_os (p : Fin 3) (h : Fin 4) : (0 : Fin 3) ∈ (sched V).duties (cell c (.os p h)) 0 := by rw [duties_os]; exact Finset.mem_singleton_self 0
theorem mem_duties_orr (p : Fin 3) (h : Fin 4) : (0 : Fin 3) ∈ (sched V).duties (cell c (.orr p h)) 0 := by rw [duties_orr]; exact Finset.mem_singleton_self 0

theorem amount_cell (k : CK) (d : Fin 3) : (sched V).amount (cell c k) 0 d = amtOf k := by
  dsimp only [sched]; rw [kindOf_csem]

theorem amount_bar (d : Fin 3) : (sched V).amount (cell c .bar) 0 d = 1 := amount_cell V c .bar d
theorem amount_ps0 (p d : Fin 3) : (sched V).amount (cell c (.ps p 0)) 0 d = NC := amount_cell V c (.ps p 0) d
theorem amount_ps1 (p d : Fin 3) : (sched V).amount (cell c (.ps p 1)) 0 d = NU := amount_cell V c (.ps p 1) d
theorem amount_ps2 (p d : Fin 3) : (sched V).amount (cell c (.ps p 2)) 0 d = NU := amount_cell V c (.ps p 2) d
theorem amount_pr0 (p d : Fin 3) : (sched V).amount (cell c (.pr p 0)) 0 d = NC := amount_cell V c (.pr p 0) d
theorem amount_pr1 (p d : Fin 3) : (sched V).amount (cell c (.pr p 1)) 0 d = NU := amount_cell V c (.pr p 1) d
theorem amount_pr2 (p d : Fin 3) : (sched V).amount (cell c (.pr p 2)) 0 d = NU := amount_cell V c (.pr p 2) d
theorem amount_os (p : Fin 3) (h : Fin 4) (d : Fin 3) : (sched V).amount (cell c (.os p h)) 0 d = NO := amount_cell V c (.os p h) d
theorem amount_orr (p : Fin 3) (h : Fin 4) (d : Fin 3) : (sched V).amount (cell c (.orr p h)) 0 d = NO := amount_cell V c (.orr p h) d

theorem expect_bar : (sched V).expect (cell c .bar) 0 = 3 := by
  unfold Schedule.expect Schedule.amountOf
  rw [duties_bar, Finset.sum_congr rfl fun d _ => amount_bar V c d, Finset.sum_const, Finset.card_univ, Fintype.card_fin, smul_eq_mul]

theorem expect_one (k : CK) (hk : dutOf k = {0}) : (sched V).expect (cell c k) 0 = amtOf k := by
  unfold Schedule.expect Schedule.amountOf; rw [duties_cell, hk, Finset.sum_singleton, amount_cell]

theorem expect_ps0 (p : Fin 3) : (sched V).expect (cell c (.ps p 0)) 0 = NC := expect_one V c (.ps p 0) rfl
theorem expect_ps1 (p : Fin 3) : (sched V).expect (cell c (.ps p 1)) 0 = NU := expect_one V c (.ps p 1) rfl
theorem expect_ps2 (p : Fin 3) : (sched V).expect (cell c (.ps p 2)) 0 = NU := expect_one V c (.ps p 2) rfl
theorem expect_pr0 (p : Fin 3) : (sched V).expect (cell c (.pr p 0)) 0 = NC := expect_one V c (.pr p 0) rfl
theorem expect_pr1 (p : Fin 3) : (sched V).expect (cell c (.pr p 1)) 0 = NU := expect_one V c (.pr p 1) rfl
theorem expect_pr2 (p : Fin 3) : (sched V).expect (cell c (.pr p 2)) 0 = NU := expect_one V c (.pr p 2) rfl
theorem expect_os (p : Fin 3) (h : Fin 4) : (sched V).expect (cell c (.os p h)) 0 = NO := expect_one V c (.os p h) rfl
theorem expect_orr (p : Fin 3) (h : Fin 4) : (sched V).expect (cell c (.orr p h)) 0 = NO := expect_one V c (.orr p h) rfl

theorem payload_cell (k : CK) (d : Fin 3) : (sched V).payload (cell c k) 0 d = payOf V c k d := by
  dsimp only [sched]; rw [kindOf_csem]

theorem payload_bar (p : Fin 3) : (sched V).payload (cell c .bar) 0 p = landing (F := F) (og c p) c := payload_cell V c .bar p
theorem payload_ps0 (p d : Fin 3) : (sched V).payload (cell c (.ps p 0)) 0 d = owns (c : Thread nD τ) (cM c) (qP p) (V.cV c) := payload_cell V c (.ps p 0) d
theorem payload_ps1 (p d : Fin 3) : (sched V).payload (cell c (.ps p 1)) 0 d = owns (c : Thread nD τ) (ukS c p) fullShare (V.ukV c p) := payload_cell V c (.ps p 1) d
theorem payload_ps2 (p d : Fin 3) : (sched V).payload (cell c (.ps p 2)) 0 d = owns (c : Thread nD τ) (uvS c p) fullShare (V.uvV c p) := payload_cell V c (.ps p 2) d
theorem payload_pr0 (p d : Fin 3) : (sched V).payload (cell c (.pr p 0)) 0 d = owns (c : Thread nD τ) (cM (og c p)) fullShare (V.cV (og c p)) := payload_cell V c (.pr p 0) d
theorem payload_pr1 (p d : Fin 3) : (sched V).payload (cell c (.pr p 1)) 0 d = owns (c : Thread nD τ) (ukD (og c p)) fullShare (V.ukV (og c p) p) := payload_cell V c (.pr p 1) d
theorem payload_pr2 (p d : Fin 3) : (sched V).payload (cell c (.pr p 2)) 0 d = owns (c : Thread nD τ) (uvD (og c p)) fullShare (V.uvV (og c p) p) := payload_cell V c (.pr p 2) d
theorem payload_os (p : Fin 3) (h : Fin 4) (d : Fin 3) : (sched V).payload (cell c (.os p h)) 0 d = owns (c : Thread nD τ) (oM c h) (qP p) (V.oV c h) := payload_cell V c (.os p h) d
theorem payload_orr (p : Fin 3) (h : Fin 4) (d : Fin 3) : (sched V).payload (cell c (.orr p h)) 0 d = owns (c : Thread nD τ) (oM (og c p) h) fullShare (V.oV (og c p) h) := payload_cell V c (.orr p h) d

theorem payload_bar_pe (p : Fin 3) : (sched V).payload (cell (pe c p) .bar) 0 p = landing (F := F) c (pe c p) := by
  rw [payload_bar, og_pe]
theorem payload_pr0_pe (p d : Fin 3) : (sched V).payload (cell (pe c p) (.pr p 0)) 0 d = owns (pe c p : Thread nD τ) (cM c) fullShare (V.cV c) := by
  rw [payload_pr0, og_pe]
theorem payload_pr1_pe (p d : Fin 3) : (sched V).payload (cell (pe c p) (.pr p 1)) 0 d = owns (pe c p : Thread nD τ) (ukD c) fullShare (V.ukV c p) := by
  rw [payload_pr1, og_pe]
theorem payload_pr2_pe (p d : Fin 3) : (sched V).payload (cell (pe c p) (.pr p 2)) 0 d = owns (pe c p : Thread nD τ) (uvD c) fullShare (V.uvV c p) := by
  rw [payload_pr2, og_pe]
theorem payload_orr_pe (p : Fin 3) (h : Fin 4) (d : Fin 3) : (sched V).payload (cell (pe c p) (.orr p h)) 0 d = owns (pe c p : Thread nD τ) (oM c h) fullShare (V.oV c h) := by
  rw [payload_orr, og_pe]

theorem rest_bar : bigSep ((sched V).duties (cell c .bar) 0 \ ∅) (fun d => (sched V).payload (cell c .bar) 0 d)
    = iprop(landing (F := F) (og c 0) c ∗ landing (F := F) (og c 1) c ∗ landing (F := F) (og c 2) c) := by
  rw [Finset.sdiff_empty, duties_bar, bigSep_univ_eq_bigSepL [0, 1, 2] (by decide) (by decide), bigSepL_cons_cons, bigSepL_cons_cons,
    bigSepL_singleton, payload_bar, payload_bar, payload_bar]
  rfl

theorem rest_one (k : CK) (hk : dutOf k = {0}) :
    bigSep ((sched V).duties (cell c k) 0 \ ∅) (fun d => (sched V).payload (cell c k) 0 d) = payOf V c k 0 := by
  rw [Finset.sdiff_empty, duties_cell, hk, bigSep_singleton, payload_cell]

theorem rest_ps0 (p : Fin 3) : bigSep ((sched V).duties (cell c (.ps p 0)) 0 \ ∅) (fun d => (sched V).payload (cell c (.ps p 0)) 0 d)
    = owns (c : Thread nD τ) (cM c) (qP p) (V.cV c) := rest_one V c (.ps p 0) rfl
theorem rest_ps1 (p : Fin 3) : bigSep ((sched V).duties (cell c (.ps p 1)) 0 \ ∅) (fun d => (sched V).payload (cell c (.ps p 1)) 0 d)
    = owns (c : Thread nD τ) (ukS c p) fullShare (V.ukV c p) := rest_one V c (.ps p 1) rfl
theorem rest_ps2 (p : Fin 3) : bigSep ((sched V).duties (cell c (.ps p 2)) 0 \ ∅) (fun d => (sched V).payload (cell c (.ps p 2)) 0 d)
    = owns (c : Thread nD τ) (uvS c p) fullShare (V.uvV c p) := rest_one V c (.ps p 2) rfl
theorem rest_pr0 (p : Fin 3) : bigSep ((sched V).duties (cell c (.pr p 0)) 0 \ ∅) (fun d => (sched V).payload (cell c (.pr p 0)) 0 d)
    = owns (c : Thread nD τ) (cM (og c p)) fullShare (V.cV (og c p)) := rest_one V c (.pr p 0) rfl
theorem rest_pr1 (p : Fin 3) : bigSep ((sched V).duties (cell c (.pr p 1)) 0 \ ∅) (fun d => (sched V).payload (cell c (.pr p 1)) 0 d)
    = owns (c : Thread nD τ) (ukD (og c p)) fullShare (V.ukV (og c p) p) := rest_one V c (.pr p 1) rfl
theorem rest_pr2 (p : Fin 3) : bigSep ((sched V).duties (cell c (.pr p 2)) 0 \ ∅) (fun d => (sched V).payload (cell c (.pr p 2)) 0 d)
    = owns (c : Thread nD τ) (uvD (og c p)) fullShare (V.uvV (og c p) p) := rest_one V c (.pr p 2) rfl
theorem rest_os (p : Fin 3) (h : Fin 4) : bigSep ((sched V).duties (cell c (.os p h)) 0 \ ∅) (fun d => (sched V).payload (cell c (.os p h)) 0 d)
    = owns (c : Thread nD τ) (oM c h) (qP p) (V.oV c h) := rest_one V c (.os p h) rfl
theorem rest_orr (p : Fin 3) (h : Fin 4) : bigSep ((sched V).duties (cell c (.orr p h)) 0 \ ∅) (fun d => (sched V).payload (cell c (.orr p h)) 0 d)
    = owns (c : Thread nD τ) (oM (og c p) h) fullShare (V.oV (og c p) h) := rest_one V c (.orr p h) rfl

theorem credit_cM (d : Dev nD) : (cM d).view.dmaCredit = NC := rfl
theorem credit_ukD (d : Dev nD) : (ukD d).view.dmaCredit = NU := rfl
theorem credit_uvD (d : Dev nD) : (uvD d).view.dmaCredit = NU := rfl
theorem credit_oM (d : Dev nD) (h : Fin 4) : (oM d h).view.dmaCredit = NO := by fin_cases h <;> rfl

end Cert.KernelProof
end
-- ==== Proof.Bits.BodyRules.lean ====
import proofs.«900571_g7700000000000572_dist_mla_v7x_i4_i_b2_s512_d2048_dc128_f32_1_alg».proof.Proof.Bits.Tables
import proofs.«900571_g7700000000000572_dist_mla_v7x_i4_i_b2_s512_d2048_dc128_f32_1_alg».proof.Proof.Bits.LaunchGhost

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

-- A buffer whose view reads `X` is owned at `X`.
theorem owns_of_read (t : Thread nD τ) {sp : Space} {sh : Shape} {e : EltTy} (M : Memref sig t.2.kind sp sh e) (q : PosShare TreeShare)
    (f : M.view.ty.Contents (Elt F)) {X : sh.Idx → Elt F e} (h : M.view.read (Elt F) f = X) :
    (M.view.loc t ↦[M.view.set]{q} f : sProp 𝕄) ⊢ owns t M q X := h ▸ owns_intro t M q f

theorem send_c (V : PVals F) (K : Dev nD × CK → ℕ) (c n : Dev nD) (p : Fin 3) (hn : n = pe c p)
    {hsc : ((cM c : Memref sig (Dev.tc n : Thread nD τ).2.kind .vmem S1024x128 .bf16)).view.ref.isScScratch = false}
    {hsrc : (cM c).view.WordExact} {hdst : (cM c).view.WordExact}
    {hsem : DmaTarget.Typed .vmem (.dma (prS p 0)) (.remote (Dev.tc n : Thread nD τ) (cM c) (.dma (psS p 0)) hsc)}
    {α : Type} {Q : α → sProp 𝕄} {k : PUnit → Prog (TpuEff nD τ sig (Elt F) Λ₀ .tc) α}
    (fs : Buf (Elt F) ((cM c).view.loc (c : Thread nD τ))) (fd : Buf (Elt F) ((cM c).view.loc (pe c p : Thread nD τ)))
    (hfs : (cM c).view.read (Elt F) fs = V.cV c) (O : CellTallies nD τ sig Unit) (W : Waits sig Unit) :
    iprop(cellInv ER (sched V) (K (c, .ps p 0)) (cell c (.ps p 0)) ∗ cellInv ER (sched V) (K (pe c p, .pr p 0)) (cell (pe c p) (.pr p 0))
        ∗ ((cM c).view.loc (c : Thread nD τ) ↦[(cM c).view.set]{qP p} fs)
        ∗ ((cM c).view.loc (pe c p : Thread nD τ) ↦[(cM c).view.set]{fullShare} fd)
        ∗ owes (c : Thread nD τ) (O + tallyAt (cell (pe c p) (.pr p 0)) () NC) W
        ∗ dutyTok ER (cell c (.ps p 0)) 0 (0 : Fin 3) ∗ reached ER (cell c (.ps p 0)) 0
        ∗ dutyTok ER (cell (pe c p) (.pr p 0)) 0 (0 : Fin 3) ∗ reached ER (cell (pe c p) (.pr p 0)) 0)
      ⊢ iprop(((cred (tallyAt (cell c (.ps p 0)) () NC) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (cM c) (.remote (Dev.tc n : Thread nD τ) (cM c) (.dma (psS p 0)) hsc) (.dma (prS p 0)) hsrc hdst hsem) k) Q) := by
  subst hn
  refine Rounds.wp_send_pointsTo 𝒱₀ ER (sched V) (c : Thread nD τ) none (src := cM c) (dst := cM c) (q := qP p) (fs := fs) (fd := fd)
    (c' := (Dev.tc (pe c p) : Thread nD τ)) (r₁ := 0) (r₂ := 0) (d₁ := 0) (d₂ := 0)
    (κ₁ := K (c, .ps p 0)) (κ₂ := K (pe c p, .pr p 0))
    (mem_duties_ps V c p 0) (mem_duties_pr V (pe c p) p 0) () () NC (credit_cM c) (amount_ps0 V c p 0) (amount_pr0 V (pe c p) p 0)
    O rfl (W := W) ?_ ?_
  · rw [payload_ps0]; exact owns_of_read _ _ _ _ hfs
  · rw [payload_pr0_pe]; exact owns_of_read _ _ _ _ (by rw [View.read_write_univ]; exact hfs)

theorem send_uk (V : PVals F) (K : Dev nD × CK → ℕ) (c n : Dev nD) (p : Fin 3) (hn : n = pe c p)
    {hsc : ((ukD c : Memref sig (Dev.tc n : Thread nD τ).2.kind .vmem S128x512 .bf16)).view.ref.isScScratch = false}
    {hsrc : (ukS c p).view.WordExact} {hdst : (ukD c).view.WordExact}
    {hsem : DmaTarget.Typed .vmem (.dma (prS p 1)) (.remote (Dev.tc n : Thread nD τ) (ukD c) (.dma (psS p 1)) hsc)}
    {α : Type} {Q : α → sProp 𝕄} {k : PUnit → Prog (TpuEff nD τ sig (Elt F) Λ₀ .tc) α}
    (fs : Buf (Elt F) ((ukS c p).view.loc (c : Thread nD τ))) (fd : Buf (Elt F) ((ukD c).view.loc (pe c p : Thread nD τ)))
    (hfs : (ukS c p).view.read (Elt F) fs = V.ukV c p) (O : CellTallies nD τ sig Unit) (W : Waits sig Unit) :
    iprop(cellInv ER (sched V) (K (c, .ps p 1)) (cell c (.ps p 1)) ∗ cellInv ER (sched V) (K (pe c p, .pr p 1)) (cell (pe c p) (.pr p 1))
        ∗ ((ukS c p).view.loc (c : Thread nD τ) ↦[(ukS c p).view.set]{fullShare} fs)
        ∗ ((ukD c).view.loc (pe c p : Thread nD τ) ↦[(ukD c).view.set]{fullShare} fd)
        ∗ owes (c : Thread nD τ) (O + tallyAt (cell (pe c p) (.pr p 1)) () NU) W
        ∗ dutyTok ER (cell c (.ps p 1)) 0 (0 : Fin 3) ∗ reached ER (cell c (.ps p 1)) 0
        ∗ dutyTok ER (cell (pe c p) (.pr p 1)) 0 (0 : Fin 3) ∗ reached ER (cell (pe c p) (.pr p 1)) 0)
      ⊢ iprop(((cred (tallyAt (cell c (.ps p 1)) () NU) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ukS c p) (.remote (Dev.tc n : Thread nD τ) (ukD c) (.dma (psS p 1)) hsc) (.dma (prS p 1)) hsrc hdst hsem) k) Q) := by
  subst hn
  refine Rounds.wp_send_pointsTo 𝒱₀ ER (sched V) (c : Thread nD τ) none (src := ukS c p) (dst := ukD c) (q := fullShare) (fs := fs) (fd := fd)
    (c' := (Dev.tc (pe c p) : Thread nD τ)) (r₁ := 0) (r₂ := 0) (d₁ := 0) (d₂ := 0)
    (κ₁ := K (c, .ps p 1)) (κ₂ := K (pe c p, .pr p 1))
    (mem_duties_ps V c p 1) (mem_duties_pr V (pe c p) p 1) () () NU (credit_ukD c) (amount_ps1 V c p 0) (amount_pr1 V (pe c p) p 0)
    O rfl (W := W) ?_ ?_
  · rw [payload_ps1]; exact owns_of_read _ _ _ _ hfs
  · rw [payload_pr1_pe]; exact owns_of_read _ _ _ _ (by rw [View.read_write_univ]; exact hfs)

theorem send_uv (V : PVals F) (K : Dev nD × CK → ℕ) (c n : Dev nD) (p : Fin 3) (hn : n = pe c p)
    {hsc : ((uvD c : Memref sig (Dev.tc n : Thread nD τ).2.kind .vmem S128x512 .bf16)).view.ref.isScScratch = false}
    {hsrc : (uvS c p).view.WordExact} {hdst : (uvD c).view.WordExact}
    {hsem : DmaTarget.Typed .vmem (.dma (prS p 2)) (.remote (Dev.tc n : Thread nD τ) (uvD c) (.dma (psS p 2)) hsc)}
    {α : Type} {Q : α → sProp 𝕄} {k : PUnit → Prog (TpuEff nD τ sig (Elt F) Λ₀ .tc) α}
    (fs : Buf (Elt F) ((uvS c p).view.loc (c : Thread nD τ))) (fd : Buf (Elt F) ((uvD c).view.loc (pe c p : Thread nD τ)))
    (hfs : (uvS c p).view.read (Elt F) fs = V.uvV c p) (O : CellTallies nD τ sig Unit) (W : Waits sig Unit) :
    iprop(cellInv ER (sched V) (K (c, .ps p 2)) (cell c (.ps p 2)) ∗ cellInv ER (sched V) (K (pe c p, .pr p 2)) (cell (pe c p) (.pr p 2))
        ∗ ((uvS c p).view.loc (c : Thread nD τ) ↦[(uvS c p).view.set]{fullShare} fs)
        ∗ ((uvD c).view.loc (pe c p : Thread nD τ) ↦[(uvD c).view.set]{fullShare} fd)
        ∗ owes (c : Thread nD τ) (O + tallyAt (cell (pe c p) (.pr p 2)) () NU) W
        ∗ dutyTok ER (cell c (.ps p 2)) 0 (0 : Fin 3) ∗ reached ER (cell c (.ps p 2)) 0
        ∗ dutyTok ER (cell (pe c p) (.pr p 2)) 0 (0 : Fin 3) ∗ reached ER (cell (pe c p) (.pr p 2)) 0)
      ⊢ iprop(((cred (tallyAt (cell c (.ps p 2)) () NU) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (uvS c p) (.remote (Dev.tc n : Thread nD τ) (uvD c) (.dma (psS p 2)) hsc) (.dma (prS p 2)) hsrc hdst hsem) k) Q) := by
  subst hn
  refine Rounds.wp_send_pointsTo 𝒱₀ ER (sched V) (c : Thread nD τ) none (src := uvS c p) (dst := uvD c) (q := fullShare) (fs := fs) (fd := fd)
    (c' := (Dev.tc (pe c p) : Thread nD τ)) (r₁ := 0) (r₂ := 0) (d₁ := 0) (d₂ := 0)
    (κ₁ := K (c, .ps p 2)) (κ₂ := K (pe c p, .pr p 2))
    (mem_duties_ps V c p 2) (mem_duties_pr V (pe c p) p 2) () () NU (credit_uvD c) (amount_ps2 V c p 0) (amount_pr2 V (pe c p) p 0)
    O rfl (W := W) ?_ ?_
  · rw [payload_ps2]; exact owns_of_read _ _ _ _ hfs
  · rw [payload_pr2_pe]; exact owns_of_read _ _ _ _ (by rw [View.read_write_univ]; exact hfs)

theorem send_o (V : PVals F) (K : Dev nD × CK → ℕ) (c n : Dev nD) (p : Fin 3) (h : Fin 4) (hn : n = pe c p)
    {hsc : ((oM c h : Memref sig (Dev.tc n : Thread nD τ).2.kind .vmem S1024x128 .bf16)).view.ref.isScScratch = false}
    {hsrc : (oM c h).view.WordExact} {hdst : (oM c h).view.WordExact}
    {hsem : DmaTarget.Typed .vmem (.dma (orS p h)) (.remote (Dev.tc n : Thread nD τ) (oM c h) (.dma (osS p h)) hsc)}
    {α : Type} {Q : α → sProp 𝕄} {k : PUnit → Prog (TpuEff nD τ sig (Elt F) Λ₀ .tc) α}
    (fs : Buf (Elt F) ((oM c h).view.loc (c : Thread nD τ))) (fd : Buf (Elt F) ((oM c h).view.loc (pe c p : Thread nD τ)))
    (hfs : (oM c h).view.read (Elt F) fs = V.oV c h) (O : CellTallies nD τ sig Unit) (W : Waits sig Unit) :
    iprop(cellInv ER (sched V) (K (c, .os p h)) (cell c (.os p h)) ∗ cellInv ER (sched V) (K (pe c p, .orr p h)) (cell (pe c p) (.orr p h))
        ∗ ((oM c h).view.loc (c : Thread nD τ) ↦[(oM c h).view.set]{qP p} fs)
        ∗ ((oM c h).view.loc (pe c p : Thread nD τ) ↦[(oM c h).view.set]{fullShare} fd)
        ∗ owes (c : Thread nD τ) (O + tallyAt (cell (pe c p) (.orr p h)) () NO) W
        ∗ dutyTok ER (cell c (.os p h)) 0 (0 : Fin 3) ∗ reached ER (cell c (.os p h)) 0
        ∗ dutyTok ER (cell (pe c p) (.orr p h)) 0 (0 : Fin 3) ∗ reached ER (cell (pe c p) (.orr p h)) 0)
      ⊢ iprop(((cred (tallyAt (cell c (.os p h)) () NO) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM c h) (.remote (Dev.tc n : Thread nD τ) (oM c h) (.dma (osS p h)) hsc) (.dma (orS p h)) hsrc hdst hsem) k) Q) := by
  subst hn
  refine Rounds.wp_send_pointsTo 𝒱₀ ER (sched V) (c : Thread nD τ) none (src := oM c h) (dst := oM c h) (q := qP p) (fs := fs) (fd := fd)
    (c' := (Dev.tc (pe c p) : Thread nD τ)) (r₁ := 0) (r₂ := 0) (d₁ := 0) (d₂ := 0)
    (κ₁ := K (c, .os p h)) (κ₂ := K (pe c p, .orr p h))
    (mem_duties_os V c p h) (mem_duties_orr V (pe c p) p h) () () NO (credit_oM c h) (amount_os V c p h 0) (amount_orr V (pe c p) p h 0)
    O rfl (W := W) ?_ ?_
  · rw [payload_os]; exact owns_of_read _ _ _ _ hfs
  · rw [payload_orr_pe]; exact owns_of_read _ _ _ _ (by rw [View.read_write_univ]; exact hfs)

end Cert.KernelProof
end

/-- info: 'Cert.KernelProof.send_c' depends on axioms: [propext, Classical.choice, Quot.sound] -/
#guard_msgs in #print axioms Cert.KernelProof.send_c
/-- info: 'Cert.KernelProof.send_uk' depends on axioms: [propext, Classical.choice, Quot.sound] -/
#guard_msgs in #print axioms Cert.KernelProof.send_uk
/-- info: 'Cert.KernelProof.send_uv' depends on axioms: [propext, Classical.choice, Quot.sound] -/
#guard_msgs in #print axioms Cert.KernelProof.send_uv
/-- info: 'Cert.KernelProof.send_o' depends on axioms: [propext, Classical.choice, Quot.sound] -/
#guard_msgs in #print axioms Cert.KernelProof.send_o
-- ==== Proof.Bits.Slots.lean ====
import proofs.«900571_g7700000000000572_dist_mla_v7x_i4_i_b2_s512_d2048_dc128_f32_1_alg».proof.Proof.Bits.Proto
import Idealize.ShloMosaic.Rules.PointsTo
import Idealize.ShloMosaic.Lib.Ring

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

-- A unit rectangle of a rank-3 buffer at offset (d, 0, k), one slot deep, all rows, w columns.
theorem mem_unit3 {n0 n1 n2 w : ℕ} {off : Fin 3 → ℕ} {inb} (i : Shape.Idx ⟨3, ![n0, n1, n2]⟩) (d k : ℕ)
    (ho : off = ![d, 0, k]) :
    i ∈ (Rect.unit (s := ⟨3, ![n0, n1, n2]⟩) off ![1, n1, w] inb).set
      ↔ (i 0).val = d ∧ k ≤ (i 2).val ∧ (i 2).val < k + w := by
  subst ho
  rw [Rect.mem_set_unit]
  constructor
  · intro h; have h0 := h 0; have h2 := h 2; simp at h0 h2; omega
  · intro h a
    have := (i a).isLt
    fin_cases a <;> simp_all <;> omega

theorem mem_slot3 {n0 n1 n2 : ℕ} {off : Fin 3 → ℕ} {inb} (i : Shape.Idx ⟨3, ![n0, n1, n2]⟩) (d : ℕ)
    (ho : off = ![d, 0, 0]) :
    i ∈ (Rect.unit (s := ⟨3, ![n0, n1, n2]⟩) off ![1, n1, n2] inb).set ↔ (i 0).val = d :=
  (mem_unit3 i d 0 ho).trans (and_iff_left ⟨Nat.zero_le _, by simpa using (i 2).isLt⟩)

theorem mem_stripe3 {n0 n1 n2 : ℕ} {off : Fin 3 → ℕ} {inb} (i : Shape.Idx ⟨3, ![n0, n1, n2]⟩) (d h : ℕ)
    (ho : off = ![d, 0, 128 * h]) :
    i ∈ (Rect.unit (s := ⟨3, ![n0, n1, n2]⟩) off ![1, n1, 128] inb).set ↔ (i 0).val = d ∧ (i 2).val / 128 = h :=
  (mem_unit3 i d (128 * h) ho).trans (by omega)

theorem mem_cM_set (d : Dev nD) (i : S4x1024x128.Idx) : i ∈ (cM d).view.set ↔ (i 0).val = d.val :=
  (Finset.ext_iff.mp ((View.set_reshape _ _).trans (View.set_slice_whole cc0_scratch1 _)) i).trans
    (mem_slot3 i d.val (k0_off6_eq d))
theorem mem_ukD_set (d : Dev nD) (i : S4x128x512.Idx) : i ∈ (ukD d).view.set ↔ (i 0).val = d.val :=
  (Finset.ext_iff.mp ((View.set_reshape _ _).trans (View.set_slice_whole cc0_scratch4 _)) i).trans
    (mem_slot3 i d.val (k0_off7_eq d))
theorem mem_uvD_set (d : Dev nD) (i : S4x128x512.Idx) : i ∈ (uvD d).view.set ↔ (i 0).val = d.val :=
  (Finset.ext_iff.mp ((View.set_reshape _ _).trans (View.set_slice_whole cc0_scratch5 _)) i).trans
    (mem_slot3 i d.val (k0_off7_eq d))

def oSet (d : Dev nD) : Fin 4 → Finset S4x1024x512.Idx
  | 0 => (oM d 0).view.set
  | 1 => (oM d 1).view.set
  | 2 => (oM d 2).view.set
  | 3 => (oM d 3).view.set

theorem mem_oSet (d : Dev nD) (h : Fin 4) (i : S4x1024x512.Idx) :
    i ∈ oSet d h ↔ (i 0).val = d.val ∧ (i 2).val / 128 = h.val := by
  match h with
  | 0 => exact (Finset.ext_iff.mp ((View.set_reshape _ _).trans (View.set_slice_whole cc0_scratch6 _)) i).trans (mem_stripe3 i d.val 0 (k0_off14_eq d))
  | 1 => exact (Finset.ext_iff.mp ((View.set_reshape _ _).trans (View.set_slice_whole cc0_scratch6 _)) i).trans (mem_stripe3 i d.val 1 (k0_off17_eq d))
  | 2 => exact (Finset.ext_iff.mp ((View.set_reshape _ _).trans (View.set_slice_whole cc0_scratch6 _)) i).trans (mem_stripe3 i d.val 2 (k0_off20_eq d))
  | 3 => exact (Finset.ext_iff.mp ((View.set_reshape _ _).trans (View.set_slice_whole cc0_scratch6 _)) i).trans (mem_stripe3 i d.val 3 (k0_off23_eq d))

section Part

variable {α B K : Type} [Fintype α] [DecidableEq α] [Fintype B] [DecidableEq B] (S : B → Finset α)

-- The parts are pairwise disjoint and cover everything.
def Tiles : Prop := (∀ b b', b ≠ b' → Disjoint (S b) (S b')) ∧ Finset.univ.biUnion S = Finset.univ

-- Parts told apart by a key whose values name the parts one to one are such a family.
theorem part_tiles (key : α → K) (v : B → K) (hv : Function.Injective v) (hs : ∀ i, ∃ b, v b = key i)
    (hm : ∀ b i, i ∈ S b ↔ key i = v b) : Tiles S :=
  ⟨fun b b' h => Finset.disjoint_left.mpr fun i hi hi' => h (hv (((hm b i).mp hi).symm.trans ((hm b' i).mp hi'))),
    Finset.eq_univ_iff_forall.mpr fun i => (hs i).elim fun b hb =>
      Finset.mem_biUnion.mpr ⟨b, Finset.mem_univ _, (hm b i).mpr hb.symm⟩⟩

variable {ℓ : Loc nD τ sig} {S : B → Finset (Idx ℓ)} (h : Tiles S)
include h

theorem tiles_blocks (q : PosShare TreeShare) (f : Buf (Elt F) ℓ) :
    (ℓ ↦{q} f : sProp 𝕄) = bigSep Finset.univ fun b => ℓ ↦[S b]{q} f :=
  Ring.pointsTo_blocks (Ix := Unit) (Val := Elt F) (Name := ℕ) (U := UU) (Lvl := ℕ) S h.1 h.2 f

theorem tiles_join :
    bigSep Finset.univ (fun b => iprop(∃ f, ℓ ↦[S b]{fullShare} f)) ⊢ (iprop(∃ f, ℓ ↦{fullShare} f) : sProp 𝕄) :=
  Ring.pointsTo_blocks_join_exists (Ix := Unit) (Val := Elt F) (Name := ℕ) (U := UU) (Lvl := ℕ) S h.1 h.2 fun _ => default

end Part

theorem bigSep_dev_ring {M : Type _} [URA M] (c : Dev nD) (Φ : Dev nD → sProp M) :
    bigSep Finset.univ Φ = iprop(Φ c ∗ Φ (pe c 0) ∗ Φ (pe c 1) ∗ Φ (pe c 2)) :=
  bigSep_univ_eq_bigSepL [c, pe c 0, pe c 1, pe c 2] (by revert c; decide) (by revert c; decide) Φ

theorem bigSep_fin4 {M : Type _} [URA M] (Φ : Fin 4 → sProp M) :
    bigSep Finset.univ Φ = iprop(Φ 0 ∗ Φ 1 ∗ Φ 2 ∗ Φ 3) :=
  bigSep_univ_eq_bigSepL [0, 1, 2, 3] (by decide) (by decide) Φ

section Dev

variable {ℓ : Loc nD τ sig} (c : Dev nD) {S : Dev nD → Finset (Idx ℓ)}

theorem dev_tiles (key : Idx ℓ → ℕ) (hk : ∀ i, key i < nD) (hm : ∀ d i, i ∈ S d ↔ key i = d.val) : Tiles S :=
  part_tiles S key Fin.val Fin.val_injective (fun i => ⟨⟨_, hk i⟩, rfl⟩) hm

-- One part per device, named by a coordinate: the buffer from device c outwards, split and rejoined.
theorem dev_split (f : Buf (Elt F) ℓ) (key : Idx ℓ → ℕ) (hk : ∀ i, key i < nD) (hm : ∀ d i, i ∈ S d ↔ key i = d.val) :
    (ℓ ↦{fullShare} f : sProp 𝕄)
      ⊢ iprop((ℓ ↦[S c]{fullShare} f) ∗ (ℓ ↦[S (pe c 0)]{fullShare} f) ∗ (ℓ ↦[S (pe c 1)]{fullShare} f)
          ∗ (ℓ ↦[S (pe c 2)]{fullShare} f)) :=
  .of_eq ((tiles_blocks (dev_tiles key hk hm) fullShare f).trans (bigSep_dev_ring c _))

theorem dev_join (key : Idx ℓ → ℕ) (hk : ∀ i, key i < nD) (hm : ∀ d i, i ∈ S d ↔ key i = d.val) :
    iprop((∃ f, ℓ ↦[S c]{fullShare} f) ∗ (∃ f, ℓ ↦[S (pe c 0)]{fullShare} f) ∗ (∃ f, ℓ ↦[S (pe c 1)]{fullShare} f)
        ∗ (∃ f, ℓ ↦[S (pe c 2)]{fullShare} f))
      ⊢ (iprop(∃ f, ℓ ↦{fullShare} f) : sProp 𝕄) :=
  (Entails.of_eq (bigSep_dev_ring c fun d => (iprop(∃ f, ℓ ↦[S d]{fullShare} f) : sProp 𝕄)).symm).trans
    (tiles_join (dev_tiles key hk hm))

end Dev

theorem oSet_tiles : Tiles fun p : Dev nD × Fin 4 => oSet p.1 p.2 :=
  part_tiles _ (fun i : S4x1024x512.Idx => ((i 0).val, (i 2).val / 128)) (fun p => (p.1.val, p.2.val))
    (fun _ _ h => Prod.ext (Fin.ext (congrArg Prod.fst h)) (Fin.ext (congrArg Prod.snd h)))
    (fun i => ⟨(⟨_, (i 0).isLt⟩, ⟨_, by have : (i 2).val < 512 := (i 2).isLt; omega⟩), rfl⟩)
    fun p i => (mem_oSet p.1 p.2 i).trans Prod.mk_inj.symm

section Chains

variable (c : Dev nD)

theorem split_c_ring (f : Buf (Elt F) ((c : Thread nD τ).loc cc0_scratch1)) :
    ((c : Thread nD τ).loc cc0_scratch1 ↦{fullShare} f : sProp 𝕄)
      ⊢ iprop(((cM c).view.loc (c : Thread nD τ) ↦[(cM c).view.set]{fullShare} f)
          ∗ ((cM (pe c 0)).view.loc (c : Thread nD τ) ↦[(cM (pe c 0)).view.set]{fullShare} f)
          ∗ ((cM (pe c 1)).view.loc (c : Thread nD τ) ↦[(cM (pe c 1)).view.set]{fullShare} f)
          ∗ ((cM (pe c 2)).view.loc (c : Thread nD τ) ↦[(cM (pe c 2)).view.set]{fullShare} f)) :=
  dev_split (ℓ := (c : Thread nD τ).loc cc0_scratch1) (S := fun d => (cM d).view.set) c f
    (fun i : S4x1024x128.Idx => (i 0).val) (fun i => (i 0).isLt) mem_cM_set

theorem split_uk_ring (f : Buf (Elt F) ((c : Thread nD τ).loc cc0_scratch4)) :
    ((c : Thread nD τ).loc cc0_scratch4 ↦{fullShare} f : sProp 𝕄)
      ⊢ iprop(((ukD c).view.loc (c : Thread nD τ) ↦[(ukD c).view.set]{fullShare} f)
          ∗ ((ukD (pe c 0)).view.loc (c : Thread nD τ) ↦[(ukD (pe c 0)).view.set]{fullShare} f)
          ∗ ((ukD (pe c 1)).view.loc (c : Thread nD τ) ↦[(ukD (pe c 1)).view.set]{fullShare} f)
          ∗ ((ukD (pe c 2)).view.loc (c : Thread nD τ) ↦[(ukD (pe c 2)).view.set]{fullShare} f)) :=
  dev_split (ℓ := (c : Thread nD τ).loc cc0_scratch4) (S := fun d => (ukD d).view.set) c f
    (fun i : S4x128x512.Idx => (i 0).val) (fun i => (i 0).isLt) mem_ukD_set

theorem split_uv_ring (f : Buf (Elt F) ((c : Thread nD τ).loc cc0_scratch5)) :
    ((c : Thread nD τ).loc cc0_scratch5 ↦{fullShare} f : sProp 𝕄)
      ⊢ iprop(((uvD c).view.loc (c : Thread nD τ) ↦[(uvD c).view.set]{fullShare} f)
          ∗ ((uvD (pe c 0)).view.loc (c : Thread nD τ) ↦[(uvD (pe c 0)).view.set]{fullShare} f)
          ∗ ((uvD (pe c 1)).view.loc (c : Thread nD τ) ↦[(uvD (pe c 1)).view.set]{fullShare} f)
          ∗ ((uvD (pe c 2)).view.loc (c : Thread nD τ) ↦[(uvD (pe c 2)).view.set]{fullShare} f)) :=
  dev_split (ℓ := (c : Thread nD τ).loc cc0_scratch5) (S := fun d => (uvD d).view.set) c f
    (fun i : S4x128x512.Idx => (i 0).val) (fun i => (i 0).isLt) mem_uvD_set

def oSlot (d : Dev nD) (f : Buf (Elt F) ((c : Thread nD τ).loc cc0_scratch6)) : sProp 𝕄 :=
  iprop(((oM d 0).view.loc (c : Thread nD τ) ↦[(oM d 0).view.set]{fullShare} f)
    ∗ ((oM d 1).view.loc (c : Thread nD τ) ↦[(oM d 1).view.set]{fullShare} f)
    ∗ ((oM d 2).view.loc (c : Thread nD τ) ↦[(oM d 2).view.set]{fullShare} f)
    ∗ ((oM d 3).view.loc (c : Thread nD τ) ↦[(oM d 3).view.set]{fullShare} f))

theorem split_o_ring (f : Buf (Elt F) ((c : Thread nD τ).loc cc0_scratch6)) :
    ((c : Thread nD τ).loc cc0_scratch6 ↦{fullShare} f : sProp 𝕄)
      ⊢ iprop(oSlot (F := F) c c f ∗ oSlot (F := F) c (pe c 0) f ∗ oSlot (F := F) c (pe c 1) f ∗ oSlot (F := F) c (pe c 2) f) := by
  rw [tiles_blocks oSet_tiles fullShare f, bigSep_univ_prod, bigSep_dev_ring c]
  simp only [bigSep_fin4]
  exact .of_eq rfl

theorem join_c_ring :
    iprop(slotAny (F := F) c (cM c) ∗ slotAny (F := F) c (cM (pe c 0)) ∗ slotAny (F := F) c (cM (pe c 1))
        ∗ slotAny (F := F) c (cM (pe c 2)))
      ⊢ (iprop(∃ f, (c : Thread nD τ).loc cc0_scratch1 ↦{fullShare} f) : sProp 𝕄) :=
  dev_join (F := F) (ℓ := (c : Thread nD τ).loc cc0_scratch1) (S := fun d => (cM d).view.set) c
    (fun i : S4x1024x128.Idx => (i 0).val) (fun i => (i 0).isLt) mem_cM_set

theorem join_uk_ring :
    iprop(slotAny (F := F) c (ukD c) ∗ slotAny (F := F) c (ukD (pe c 0)) ∗ slotAny (F := F) c (ukD (pe c 1))
        ∗ slotAny (F := F) c (ukD (pe c 2)))
      ⊢ (iprop(∃ f, (c : Thread nD τ).loc cc0_scratch4 ↦{fullShare} f) : sProp 𝕄) :=
  dev_join (F := F) (ℓ := (c : Thread nD τ).loc cc0_scratch4) (S := fun d => (ukD d).view.set) c
    (fun i : S4x128x512.Idx => (i 0).val) (fun i => (i 0).isLt) mem_ukD_set

theorem join_uv_ring :
    iprop(slotAny (F := F) c (uvD c) ∗ slotAny (F := F) c (uvD (pe c 0)) ∗ slotAny (F := F) c (uvD (pe c 1))
        ∗ slotAny (F := F) c (uvD (pe c 2)))
      ⊢ (iprop(∃ f, (c : Thread nD τ).loc cc0_scratch5 ↦{fullShare} f) : sProp 𝕄) :=
  dev_join (F := F) (ℓ := (c : Thread nD τ).loc cc0_scratch5) (S := fun d => (uvD d).view.set) c
    (fun i : S4x128x512.Idx => (i 0).val) (fun i => (i 0).isLt) mem_uvD_set

def oSlotAny (d : Dev nD) : sProp 𝕄 :=
  iprop(slotAny (F := F) c (oM d 0) ∗ slotAny (F := F) c (oM d 1) ∗ slotAny (F := F) c (oM d 2) ∗ slotAny (F := F) c (oM d 3))

theorem join_o_ring :
    iprop(oSlotAny (F := F) c c ∗ oSlotAny (F := F) c (pe c 0) ∗ oSlotAny (F := F) c (pe c 1) ∗ oSlotAny (F := F) c (pe c 2))
      ⊢ (iprop(∃ f, (c : Thread nD τ).loc cc0_scratch6 ↦{fullShare} f) : sProp 𝕄) := by
  refine (Entails.of_eq ?_).trans (tiles_join (F := F) (ℓ := (c : Thread nD τ).loc cc0_scratch6) oSet_tiles)
  rw [bigSep_univ_prod, bigSep_dev_ring c]
  simp only [bigSep_fin4]
  rfl

end Chains

-- The full share halves twice: three quarters to lend and one to keep.
theorem share_split4_eq {ℓ : Loc nD τ sig} (I : Finset (Idx ℓ)) (f : Buf (Elt F) ℓ) :
    (ℓ ↦[I]{fullShare} f : sProp 𝕄)
      = iprop((ℓ ↦[I]{qP 0} f) ∗ (ℓ ↦[I]{qP 1} f) ∗ (ℓ ↦[I]{qP 2} f) ∗ (ℓ ↦[I]{qK} f)) := by
  have h (q : PosShare TreeShare) : (ℓ ↦[I]{q} f : sProp 𝕄) = iprop((ℓ ↦[I]{q.left} f) ∗ ℓ ↦[I]{q.right} f) :=
    have e := pointsTo_share (Ix := Unit) (Val := Elt F) (Name := ℕ) (U := UU) (Lvl := ℕ) (ℓ := ℓ) (I := I) (f := f)
      (PosShare.mem_left_op_right q)
    BI.equiv_iff.mp ⟨e.1, e.2⟩
  rw [h fullShare, h fullShare.left, h fullShare.right]
  exact BI.equiv_iff.mp ⟨Idealize.SL.BI.sep_assoc, Idealize.SL.BI.sep_assoc'⟩

end Cert.KernelProof
end
-- ==== Proof.Bits.Slots2.lean ====
import proofs.«900571_g7700000000000572_dist_mla_v7x_i4_i_b2_s512_d2048_dc128_f32_1_alg».proof.Proof.Bits.Slots

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem mem_unit8 (c : Dev nD) (p : Fin 3) (i : S128x2048.Idx) :
    i ∈ (Rect.unit (s := S128x2048) (k0_off8 c (BitVec.ofNat 32 (1 + p.val))) S128x512.size (k0_off8_inb c p)).set
      ↔ (i 1).val / 512 = (pe c p).val := by
  rw [Rect.mem_set_unit]
  simp only [k0_off8_eq, pe]
  constructor
  · intro h; have h1 := h 1; simp at h1; omega
  · intro h a
    have := (i a).isLt
    fin_cases a <;> simp_all <;> omega

theorem mem_ukS_set (c : Dev nD) (p : Fin 3) (i : S128x2048.Idx) : i ∈ (ukS c p).view.set ↔ (i 1).val / 512 = (pe c p).val :=
  (Finset.ext_iff.mp (View.set_slice_whole cc0_scratch2 _) i).trans (mem_unit8 c p i)
theorem mem_uvS_set (c : Dev nD) (p : Fin 3) (i : S128x2048.Idx) : i ∈ (uvS c p).view.set ↔ (i 1).val / 512 = (pe c p).val :=
  (Finset.ext_iff.mp (View.set_slice_whole cc0_scratch3 _) i).trans (mem_unit8 c p i)

def partDev (c : Dev nD) : Fin 4 → Dev nD
  | 0 => pe c 0
  | 1 => pe c 1
  | 2 => pe c 2
  | 3 => c

theorem partDev_inj (c : Dev nD) : Function.Injective (partDev c) := by revert c; decide
theorem partDev_surj (c : Dev nD) : ∀ d : Dev nD, ∃ k, partDev c k = d := by revert c; decide

section Weights

variable {ℓ : Loc nD τ sig} (c : Dev nD) (A : Fin 3 → Finset (Idx ℓ))

-- Three parts and what they leave of the buffer.
def wSet : Fin 4 → Finset (Idx ℓ)
  | 0 => A 0
  | 1 => A 1
  | 2 => A 2
  | 3 => Finset.univ \ (A 0 ∪ A 1 ∪ A 2)

variable {A} (col : Idx ℓ → ℕ) (hc : ∀ i, col i < 4) (hA : ∀ p i, i ∈ A p ↔ col i = (pe c p).val)
include hc hA

-- The three parts are the column groups of the other devices, so the rest is the device's own.
theorem wSet_tiles : Tiles (wSet A) := by
  refine part_tiles _ col (fun k => (partDev c k).val) (fun _ _ h => partDev_inj c (Fin.ext h))
    (fun i => (partDev_surj c ⟨_, hc i⟩).imp fun _ h => congrArg Fin.val h) fun k i => ?_
  match k with
  | 0 => exact hA 0 i
  | 1 => exact hA 1 i
  | 2 => exact hA 2 i
  | 3 =>
    have := hc i
    have : c.val < 4 := c.isLt
    have h0 : (pe c 0).val = (c.val + 1) % 4 := rfl
    have h1 : (pe c 1).val = (c.val + 1 + 1) % 4 := rfl
    have h2 : (pe c 2).val = (c.val + 2 + 1) % 4 := rfl
    simp only [wSet, partDev, Finset.mem_sdiff, Finset.mem_univ, true_and, Finset.mem_union, hA]
    omega

theorem w_blocks (q : PosShare TreeShare) (f : Buf (Elt F) ℓ) :
    (ℓ ↦{q} f : sProp 𝕄)
      = iprop((ℓ ↦[A 0]{q} f) ∗ (ℓ ↦[A 1]{q} f) ∗ (ℓ ↦[A 2]{q} f) ∗ (ℓ ↦[Finset.univ \ (A 0 ∪ A 1 ∪ A 2)]{q} f)) :=
  (tiles_blocks (wSet_tiles c col hc hA) q f).trans (bigSep_fin4 _)

theorem w_join :
    iprop((∃ f, ℓ ↦[A 0]{fullShare} f) ∗ (∃ f, ℓ ↦[A 1]{fullShare} f) ∗ (∃ f, ℓ ↦[A 2]{fullShare} f)
        ∗ (∃ f, ℓ ↦[Finset.univ \ (A 0 ∪ A 1 ∪ A 2)]{fullShare} f))
      ⊢ (iprop(∃ f, ℓ ↦{fullShare} f) : sProp 𝕄) :=
  (Entails.of_eq (bigSep_fin4 fun k => (iprop(∃ f, ℓ ↦[wSet A k]{fullShare} f) : sProp 𝕄)).symm).trans
    (tiles_join (wSet_tiles c col hc hA))

end Weights

theorem col_lt (i : S128x2048.Idx) : (i 1).val / 512 < 4 := by have : (i 1).val < 2048 := (i 1).isLt; omega

section WeightBufs

variable (c : Dev nD)

theorem wuk_split (f : Buf (Elt F) ((c : Thread nD τ).loc cc0_scratch2)) :
    ((c : Thread nD τ).loc cc0_scratch2 ↦{fullShare} f : sProp 𝕄)
      ⊢ iprop((View.loc (c : Thread nD τ) (Memref.view (ukS c 0)) ↦[View.set (Memref.view (ukS c 0))]{fullShare} f)
          ∗ (View.loc (c : Thread nD τ) (Memref.view (ukS c 1)) ↦[View.set (Memref.view (ukS c 1))]{fullShare} f)
          ∗ (View.loc (c : Thread nD τ) (Memref.view (ukS c 2)) ↦[View.set (Memref.view (ukS c 2))]{fullShare} f)
          ∗ ((c : Thread nD τ).loc cc0_scratch2
              ↦[(Finset.univ \ ((ukS c 0).view.set ∪ (ukS c 1).view.set ∪ (ukS c 2).view.set) : Finset S128x2048.Idx)]{fullShare} f)) :=
  .of_eq (w_blocks (ℓ := (c : Thread nD τ).loc cc0_scratch2) (A := fun p => (ukS c p).view.set) c (fun i : S128x2048.Idx => (i 1).val / 512)
    col_lt (mem_ukS_set c) fullShare f)

theorem wuk_join :
    iprop(slotAny (F := F) c (ukS c 0) ∗ slotAny (F := F) c (ukS c 1) ∗ slotAny (F := F) c (ukS c 2)
        ∗ (∃ f, (c : Thread nD τ).loc cc0_scratch2
              ↦[(Finset.univ \ ((ukS c 0).view.set ∪ (ukS c 1).view.set ∪ (ukS c 2).view.set) : Finset S128x2048.Idx)]{fullShare} f))
      ⊢ (iprop(∃ f, (c : Thread nD τ).loc cc0_scratch2 ↦{fullShare} f) : sProp 𝕄) :=
  w_join (F := F) (ℓ := (c : Thread nD τ).loc cc0_scratch2) (A := fun p => (ukS c p).view.set) c (fun i : S128x2048.Idx => (i 1).val / 512)
    col_lt (mem_ukS_set c)

theorem wuv_split (f : Buf (Elt F) ((c : Thread nD τ).loc cc0_scratch3)) :
    ((c : Thread nD τ).loc cc0_scratch3 ↦{fullShare} f : sProp 𝕄)
      ⊢ iprop((View.loc (c : Thread nD τ) (Memref.view (uvS c 0)) ↦[View.set (Memref.view (uvS c 0))]{fullShare} f)
          ∗ (View.loc (c : Thread nD τ) (Memref.view (uvS c 1)) ↦[View.set (Memref.view (uvS c 1))]{fullShare} f)
          ∗ (View.loc (c : Thread nD τ) (Memref.view (uvS c 2)) ↦[View.set (Memref.view (uvS c 2))]{fullShare} f)
          ∗ ((c : Thread nD τ).loc cc0_scratch3
              ↦[(Finset.univ \ ((uvS c 0).view.set ∪ (uvS c 1).view.set ∪ (uvS c 2).view.set) : Finset S128x2048.Idx)]{fullShare} f)) :=
  .of_eq (w_blocks (ℓ := (c : Thread nD τ).loc cc0_scratch3) (A := fun p => (uvS c p).view.set) c (fun i : S128x2048.Idx => (i 1).val / 512)
    col_lt (mem_uvS_set c) fullShare f)

theorem wuv_join :
    iprop(slotAny (F := F) c (uvS c 0) ∗ slotAny (F := F) c (uvS c 1) ∗ slotAny (F := F) c (uvS c 2)
        ∗ (∃ f, (c : Thread nD τ).loc cc0_scratch3
              ↦[(Finset.univ \ ((uvS c 0).view.set ∪ (uvS c 1).view.set ∪ (uvS c 2).view.set) : Finset S128x2048.Idx)]{fullShare} f))
      ⊢ (iprop(∃ f, (c : Thread nD τ).loc cc0_scratch3 ↦{fullShare} f) : sProp 𝕄) :=
  w_join (F := F) (ℓ := (c : Thread nD τ).loc cc0_scratch3) (A := fun p => (uvS c p).view.set) c (fun i : S128x2048.Idx => (i 1).val / 512)
    col_lt (mem_uvS_set c)

end WeightBufs

theorem oS_inb : ∀ d : Dev nD, ∀ a, (![d.val, 0, 0] : Fin 3 → Nat) a + S1x1024x512.size a ≤ S4x1024x512.size a := by
  decide

def oS (d : Dev nD) : Memref sig .tc .vmem S1x1024x512 .bf16 :=
  A15.slice (Rect.unit (s := S4x1024x512) ![d.val, 0, 0] S1x1024x512.size (oS_inb d)) (fun _ => rfl)
def oSown (c : Dev nD) : Memref sig .tc .vmem S1x1024x512 .bf16 :=
  A15.slice (Rect.unit (s := S4x1024x512) (k0_off24 c) S1x1024x512.size (k0_off24_inb c)) (fun _ => rfl)
def oSog (c : Dev nD) (p : Fin 3) : Memref sig .tc .vmem S1x1024x512 .bf16 :=
  A15.slice (Rect.unit (s := S4x1024x512) (k0_off26 c (BitVec.ofNat 32 (1 + p.val))) S1x1024x512.size (k0_off26_inb c p)) (fun _ => rfl)

theorem mem_oS_set (d : Dev nD) (i : S4x1024x512.Idx) : i ∈ (oS d).view.set ↔ (i 0).val = d.val :=
  (Finset.ext_iff.mp (View.set_slice_whole cc0_scratch6 _) i).trans (mem_slot3 i d.val rfl)

theorem oSown_set (c : Dev nD) : ((oSown c).view.set : Finset S4x1024x512.Idx) = (oS c).view.set :=
  Finset.ext fun i => ((Finset.ext_iff.mp (View.set_slice_whole cc0_scratch6 _) i).trans
    (mem_slot3 i c.val (k0_off24_eq c))).trans (mem_oS_set c i).symm
theorem oSog_set (c : Dev nD) (p : Fin 3) : ((oSog c p).view.set : Finset S4x1024x512.Idx) = (oS (og c p)).view.set :=
  Finset.ext fun i => ((Finset.ext_iff.mp (View.set_slice_whole cc0_scratch6 _) i).trans
    (mem_slot3 i (og c p).val (k0_off26_eq c p))).trans (mem_oS_set (og c p) i).symm

-- A slot's elements are those of its four stripes.
theorem oS_set_eq_biUnion (d : Dev nD) : ((oS d).view.set : Finset S4x1024x512.Idx) = Finset.univ.biUnion (oSet d) :=
  Finset.ext fun (i : S4x1024x512.Idx) =>
    ⟨fun hi => Finset.mem_biUnion.mpr
        ⟨⟨(i 2).val / 128, show (i 2).val / 128 < 4 by have : (i 2).val < 512 := (i 2).isLt; omega⟩, Finset.mem_univ _,
          (mem_oSet d _ i).mpr ⟨(mem_oS_set d i).mp hi, rfl⟩⟩,
      fun hi => by
        obtain ⟨h, -, hh⟩ := Finset.mem_biUnion.mp hi
        exact (mem_oS_set d i).mpr ((mem_oSet d h i).mp hh).1⟩

def glue4 (c : Dev nD) (f0 f1 f2 f3 : Buf (Elt F) ((c : Thread nD τ).loc cc0_scratch6)) :
    Buf (Elt F) ((c : Thread nD τ).loc cc0_scratch6) :=
  fun i => if ((i : S4x1024x512.Idx) 2).val / 128 = 0 then f0 i
    else if ((i : S4x1024x512.Idx) 2).val / 128 = 1 then f1 i
    else if ((i : S4x1024x512.Idx) 2).val / 128 = 2 then f2 i else f3 i

section Glue

variable (c d : Dev nD) (q : PosShare TreeShare) (f0 f1 f2 f3 : Buf (Elt F) ((c : Thread nD τ).loc cc0_scratch6))

-- On stripe h the glued contents are the h-th of the four.
theorem glue4_on : ∀ (h : Fin 4) (i : S4x1024x512.Idx), i ∈ oSet d h →
    glue4 (F := F) c f0 f1 f2 f3 i = ![f0, f1, f2, f3] h i
  | 0, i, hi => by simp only [glue4, show (i 2).val / 128 = 0 from ((mem_oSet d 0 i).mp hi).2, if_true] <;> rfl
  | 1, i, hi => by simp only [glue4, show (i 2).val / 128 = 1 from ((mem_oSet d 1 i).mp hi).2, if_true] <;> rfl
  | 2, i, hi => by simp only [glue4, show (i 2).val / 128 = 2 from ((mem_oSet d 2 i).mp hi).2, if_true] <;> rfl
  | 3, i, hi => by simp only [glue4, show (i 2).val / 128 = 3 from ((mem_oSet d 3 i).mp hi).2, if_true] <;> rfl

theorem stripes_glue_eq :
    (iprop(((oM d 0).view.loc (c : Thread nD τ) ↦[(oM d 0).view.set]{q} f0)
          ∗ ((oM d 1).view.loc (c : Thread nD τ) ↦[(oM d 1).view.set]{q} f1)
          ∗ ((oM d 2).view.loc (c : Thread nD τ) ↦[(oM d 2).view.set]{q} f2)
          ∗ ((oM d 3).view.loc (c : Thread nD τ) ↦[(oM d 3).view.set]{q} f3)) : sProp 𝕄)
      = (View.loc (c : Thread nD τ) (Memref.view (oS d)) ↦[View.set (Memref.view (oS d))]{q} glue4 (F := F) c f0 f1 f2 f3) := by
  have hs : (View.loc (c : Thread nD τ) (Memref.view (oS d)) ↦[View.set (Memref.view (oS d))]{q} glue4 (F := F) c f0 f1 f2 f3 : sProp 𝕄)
      = ((c : Thread nD τ).loc cc0_scratch6 ↦[Finset.univ.biUnion (oSet d)]{q} glue4 (F := F) c f0 f1 f2 f3) :=
    congrArg (fun I : Finset S4x1024x512.Idx => ((c : Thread nD τ).loc cc0_scratch6 ↦[I]{q} glue4 (F := F) c f0 f1 f2 f3 : sProp 𝕄))
      (oS_set_eq_biUnion d)
  rw [hs, pointsTo_biUnion (Ix := Unit) (Val := Elt F) (Name := ℕ) (U := UU) (Lvl := ℕ) (ℓ := (c : Thread nD τ).loc cc0_scratch6)
    (q := q) (f := glue4 (F := F) c f0 f1 f2 f3) Finset.univ (oSet d) fun h _ h' _ hne => oSet_tiles.1 (d, h) (d, h') fun e => hne (congrArg Prod.snd e),
    bigSep_fin4]
  exact congrArg₂ _ (pointsTo_congr fun i hi => (glue4_on c d f0 f1 f2 f3 0 i hi).symm)
    (congrArg₂ _ (pointsTo_congr fun i hi => (glue4_on c d f0 f1 f2 f3 1 i hi).symm)
      (congrArg₂ _ (pointsTo_congr fun i hi => (glue4_on c d f0 f1 f2 f3 2 i hi).symm)
        (pointsTo_congr fun i hi => (glue4_on c d f0 f1 f2 f3 3 i hi).symm)))

theorem read_glue4_0 : (oM d 0).view.read (Elt F) (glue4 (F := F) c f0 f1 f2 f3) = (oM d 0).view.read (Elt F) f0 :=
  View.read_congr fun i hi => glue4_on c d f0 f1 f2 f3 0 i hi
theorem read_glue4_1 : (oM d 1).view.read (Elt F) (glue4 (F := F) c f0 f1 f2 f3) = (oM d 1).view.read (Elt F) f1 :=
  View.read_congr fun i hi => glue4_on c d f0 f1 f2 f3 1 i hi
theorem read_glue4_2 : (oM d 2).view.read (Elt F) (glue4 (F := F) c f0 f1 f2 f3) = (oM d 2).view.read (Elt F) f2 :=
  View.read_congr fun i hi => glue4_on c d f0 f1 f2 f3 2 i hi
theorem read_glue4_3 : (oM d 3).view.read (Elt F) (glue4 (F := F) c f0 f1 f2 f3) = (oM d 3).view.read (Elt F) f3 :=
  View.read_congr fun i hi => glue4_on c d f0 f1 f2 f3 3 i hi

end Glue

end Cert.KernelProof
end
-- ==== Proof.Bits.Slots4.lean ====
import proofs.«900571_g7700000000000572_dist_mla_v7x_i4_i_b2_s512_d2048_dc128_f32_1_alg».proof.Proof.Bits.Slots2
import Idealize.ShloMosaic.Lib.ValueLayout

noncomputable section

namespace Cert.KernelProof

open Cert.Kernel Cert.Kernel.Gen
open Idealize.ShloMosaic
open Idealize.ShloMosaic.TcCoe

variable {F : FTy → Type} [FloatOps F]

/-- An element of a unit-stride box sits at the box's offset on an axis where the box has extent one. -/
theorem unit_row {s : Shape} {off size : Fin s.rank → Nat} {inb : ∀ a, off a + size a ≤ s.size a} {i : s.Idx}
    (a : Fin s.rank) (h1 : size a = 1) (hi : i ∈ (Rect.unit off size inb).set) : (i a).val = off a := by
  have := Rect.mem_set_unit.mp hi a
  omega

theorem incl_c (c : Dev nD) (p : Fin 3) :
    ((Memref.whole cc0_scratch1).access (Rect.unit (s := S4x1024x128) (k0_off10 c (BitVec.ofNat 32 (1 + p.val))) S1x1024x128.size (k0_off10_inb c p))).set
      ⊆ (cM (og c p)).view.set := fun i hi =>
  (mem_cM_set (og c p) i).mpr ((unit_row 0 rfl ((Finset.ext_iff.mp (View.set_slice_whole cc0_scratch1 _) i).mp hi)).trans
    (congrFun (k0_off10_eq c p) 0))

theorem incl_uk (c : Dev nD) (p : Fin 3) :
    ((Memref.whole cc0_scratch4).access (Rect.unit (s := S4x128x512) (k0_off11 c (BitVec.ofNat 32 (1 + p.val))) S1x128x512.size (k0_off11_inb c p))).set
      ⊆ (ukD (og c p)).view.set := fun i hi =>
  (mem_ukD_set (og c p) i).mpr ((unit_row 0 rfl ((Finset.ext_iff.mp (View.set_slice_whole cc0_scratch4 _) i).mp hi)).trans
    (congrFun (k0_off11_eq c p) 0))

theorem incl_uv (c : Dev nD) (p : Fin 3) :
    ((Memref.whole cc0_scratch5).access (Rect.unit (s := S4x128x512) (k0_off11 c (BitVec.ofNat 32 (1 + p.val))) S1x128x512.size (k0_off11_inb c p))).set
      ⊆ (uvD (og c p)).view.set := fun i hi =>
  (mem_uvD_set (og c p) i).mpr ((unit_row 0 rfl ((Finset.ext_iff.mp (View.set_slice_whole cc0_scratch5 _) i).mp hi)).trans
    (congrFun (k0_off11_eq c p) 0))

end Cert.KernelProof
end
-- ==== Proof.Bits.Slots5.lean ====
import proofs.«900571_g7700000000000572_dist_mla_v7x_i4_i_b2_s512_d2048_dc128_f32_1_alg».proof.Proof.Bits.Slots4

noncomputable section

namespace Cert.KernelProof

open Cert.Kernel Cert.Kernel.Gen
open Idealize.ShloMosaic
open Idealize.ShloMosaic.TcCoe

variable {F : FTy → Type} [FloatOps F]

theorem incl_o_own (c : Dev nD) :
    ((Memref.whole cc0_scratch6).access (Rect.unit (s := S4x1024x512) (k0_off24 c) S1x1024x512.size (k0_off24_inb c))).set
      ⊆ (oS c).view.set := Finset.subset_of_eq (oSown_set c)

theorem incl_o_og (c : Dev nD) (p : Fin 3) :
    ((Memref.whole cc0_scratch6).access (Rect.unit (s := S4x1024x512) (k0_off26 c (BitVec.ofNat 32 (1 + p.val))) S1x1024x512.size (k0_off26_inb c p))).set
      ⊆ (oS (og c p)).view.set := Finset.subset_of_eq (oSog_set c p)

theorem incl_o_og_1 (c : Dev nD) :
    ((Memref.whole cc0_scratch6).access (Rect.unit (s := S4x1024x512) (k0_off26 c 1#32) S1x1024x512.size (k0_off26_inb c 0))).set
      ⊆ (oS (og c 0)).view.set := incl_o_og c 0
theorem incl_o_og_2 (c : Dev nD) :
    ((Memref.whole cc0_scratch6).access (Rect.unit (s := S4x1024x512) (k0_off26 c 2#32) S1x1024x512.size (k0_off26_inb c 1))).set
      ⊆ (oS (og c 1)).view.set := incl_o_og c 1
theorem incl_o_og_3 (c : Dev nD) :
    ((Memref.whole cc0_scratch6).access (Rect.unit (s := S4x1024x512) (k0_off26 c 3#32) S1x1024x512.size (k0_off26_inb c 2))).set
      ⊆ (oS (og c 2)).view.set := incl_o_og c 2

end Cert.KernelProof
end
-- ==== Proof.Bits.Slots6.lean ====
import proofs.«900571_g7700000000000572_dist_mla_v7x_i4_i_b2_s512_d2048_dc128_f32_1_alg».proof.Proof.Bits.Slots5

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Two shares of one region agree on its contents, so the one held at `g` may be held at `f` instead. -/
theorem share_rebase {ℓ : Loc nD τ sig} (I : Finset (Idx ℓ)) (q q' : PosShare TreeShare) (g f : Buf (Elt F) ℓ) :
    (iprop((ℓ ↦[I]{q} g) ∗ (ℓ ↦[I]{q'} f)) : sProp 𝕄) ⊢ iprop((ℓ ↦[I]{q} f) ∗ (ℓ ↦[I]{q'} f)) := by
  refine (persistent_entails_right pointsTo_agree).trans ?_
  iintro ⟨%hag, H, HK⟩
  rw [pointsTo_congr (f := g) (g := f) fun i hi => (hag i (Finset.mem_inter.mpr ⟨hi, hi⟩)).1]
  exact .rfl

theorem share_merge4 {ℓ : Loc nD τ sig} (I : Finset (Idx ℓ)) (f0 f1 f2 f : Buf (Elt F) ℓ) :
    (iprop((ℓ ↦[I]{qP 0} f0) ∗ (ℓ ↦[I]{qP 1} f1) ∗ (ℓ ↦[I]{qP 2} f2) ∗ (ℓ ↦[I]{qK} f)) : sProp 𝕄)
      ⊢ (ℓ ↦[I]{fullShare} f : sProp 𝕄) := by
  iintro ⟨H0, H1, H2, HK⟩
  ihave Ha := (share_rebase I (qP 0) qK f0 f) $$ [H0 HK]
  · iframe
  icases Ha with ⟨H0, HK⟩
  ihave Hb := (share_rebase I (qP 1) qK f1 f) $$ [H1 HK]
  · iframe
  icases Hb with ⟨H1, HK⟩
  ihave Hc := (share_rebase I (qP 2) qK f2 f) $$ [H2 HK]
  · iframe
  icases Hc with ⟨H2, HK⟩
  iapply (Entails.of_eq (share_split4_eq (F := F) I f).symm)
  iframe

theorem merge_any {ℓ : Loc nD τ sig} (I : Finset (Idx ℓ)) :
    (iprop((∃ f, ℓ ↦[I]{qP 0} f) ∗ (∃ f, ℓ ↦[I]{qP 1} f) ∗ (∃ f, ℓ ↦[I]{qP 2} f) ∗ (∃ f, ℓ ↦[I]{qK} f)) : sProp 𝕄)
      ⊢ (iprop(∃ g, ℓ ↦[I]{fullShare} g) : sProp 𝕄) := by
  iintro ⟨⟨%f0, H0⟩, ⟨%f1, H1⟩, ⟨%f2, H2⟩, ⟨%f, HK⟩⟩
  iexists f
  iapply (share_merge4 (F := F) I f0 f1 f2 f)
  iframe

end Cert.KernelProof
end
-- ==== Proof.Bits.Exit.lean ====
import proofs.«900571_g7700000000000572_dist_mla_v7x_i4_i_b2_s512_d2048_dc128_f32_1_alg».proof.Proof.Bits.LaunchGhost
import proofs.«900571_g7700000000000572_dist_mla_v7x_i4_i_b2_s512_d2048_dc128_f32_1_alg».proof.Proof.Bits.Tables
import proofs.«900571_g7700000000000572_dist_mla_v7x_i4_i_b2_s512_d2048_dc128_f32_1_alg».proof.Proof.Bits.Slots

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : PVals F)

-- No later round of a cell has a duty, so a cell past round 0 is closed and its semaphore comes back at zero.
theorem close_one (κ : ℕ) (c : Dev nD) (k : CK) (hk : k ≠ .bar) :
    iprop(cellInv ER (sched V) κ (cell c k) ∗ atPos ER (cell c k) 1 ∅ 0) ⊢ (|={Set.univ}=> semVal (cell c k) 0 : sProp 𝕄) :=
  Rounds.cell_close ER (sched V) (Set.mem_univ κ) (fun h => h) (fun r hr => duties_later V (cell c k) r hr)

theorem both {A B A' B' : sProp 𝕄} (h1 : A ⊢ |={Set.univ}=> A') (h2 : B ⊢ |={Set.univ}=> B') :
    iprop(A ∗ B) ⊢ |={Set.univ}=> iprop(A' ∗ B') :=
  (BIClass.sep_mono h1 h2).trans fupd_sep

-- Going one, two, three places back round the ring of four meets the same devices as going three, two, one places on.
theorem ring_og (Φ : Dev nD → sProp 𝕄) (c : Dev nD) :
    iprop(Φ c ∗ Φ (og c 0) ∗ Φ (og c 1) ∗ Φ (og c 2)) ⊢ iprop(Φ c ∗ Φ (pe c 0) ∗ Φ (pe c 1) ∗ Φ (pe c 2)) := by
  rw [show og c 0 = pe c 2 by revert c; decide, show og c 1 = pe c 1 by revert c; decide, show og c 2 = pe c 0 by revert c; decide]
  iintro ⟨H, H2, H1, H0⟩
  iframe

-- The four slotted scratch buffers are whole again once the device's own slot and its three peers' are back.
theorem scratch_exit_og (c : Dev nD) :
    iprop((∃ f : Buf (Elt F) ((c : Thread nD τ).loc cc0_scratch0), ((c : Thread nD τ).loc cc0_scratch0) ↦{fullShare} f)
      ∗ (slotAny (F := F) c (cM c) ∗ slotAny (F := F) c (cM (og c 0)) ∗ slotAny (F := F) c (cM (og c 1)) ∗ slotAny (F := F) c (cM (og c 2)))
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ (slotAny (F := F) c (ukD c) ∗ slotAny (F := F) c (ukD (og c 0)) ∗ slotAny (F := F) c (ukD (og c 1)) ∗ slotAny (F := F) c (ukD (og c 2)))
      ∗ (slotAny (F := F) c (uvD c) ∗ slotAny (F := F) c (uvD (og c 0)) ∗ slotAny (F := F) c (uvD (og c 1)) ∗ slotAny (F := F) c (uvD (og c 2)))
      ∗ (oSlotAny (F := F) c c ∗ oSlotAny (F := F) c (og c 0) ∗ oSlotAny (F := F) c (og c 1) ∗ oSlotAny (F := F) c (og c 2))
      ∗ (∃ f : Buf (Elt F) ((c : Thread nD τ).loc cc0_scratch7), ((c : Thread nD τ).loc cc0_scratch7) ↦{fullShare} f)
      ∗ (∃ f : Buf (Elt F) ((c : Thread nD τ).loc cc0_scratch8), ((c : Thread nD τ).loc cc0_scratch8) ↦{fullShare} f))
    ⊢ scratchAny (F := F) c := by
  unfold scratchAny; rw [scopedRest0_eq]
  iintro ⟨H0, H1, H2, H3, H4, H5, H6, H7, H8⟩
  ihave J1 := ((ring_og (fun d => slotAny (F := F) c (cM d)) c).trans (join_c_ring c)) $$ H1
  ihave J4 := ((ring_og (fun d => slotAny (F := F) c (ukD d)) c).trans (join_uk_ring c)) $$ H4
  ihave J5 := ((ring_og (fun d => slotAny (F := F) c (uvD d)) c).trans (join_uv_ring c)) $$ H5
  ihave J6 := ((ring_og (fun d => oSlotAny (F := F) c d) c).trans (join_o_ring c)) $$ H6
  iframe

/-- info: 'Cert.KernelProof.close_one' depends on axioms: [propext, Classical.choice, Quot.sound] -/
#guard_msgs in #print axioms close_one
/-- info: 'Cert.KernelProof.scratch_exit_og' depends on axioms: [propext, Classical.choice, Quot.sound] -/
#guard_msgs in #print axioms scratch_exit_og

end Cert.KernelProof
end
-- ==== Proof.Bits.ExitChain.lean ====
import proofs.«900571_g7700000000000572_dist_mla_v7x_i4_i_b2_s512_d2048_dc128_f32_1_alg».proof.Proof.Bits.Exit

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : PVals F)

-- Each of the 42 one-round cells gives its semaphore back at zero; together with the two local transfers' semaphores these are all the device's own.
theorem close_all (K : Dev nD × CK → ℕ) (c : Dev nD) :
    iprop((cellInv ER (sched V) (K (c, .ps 0 0)) (cell c (.ps 0 0)) ∗ atPos ER (cell c (.ps 0 0)) 1 ∅ 0)
      ∗ (cellInv ER (sched V) (K (c, .ps 0 1)) (cell c (.ps 0 1)) ∗ atPos ER (cell c (.ps 0 1)) 1 ∅ 0)
      ∗ (cellInv ER (sched V) (K (c, .ps 0 2)) (cell c (.ps 0 2)) ∗ atPos ER (cell c (.ps 0 2)) 1 ∅ 0)
      ∗ (cellInv ER (sched V) (K (c, .ps 1 0)) (cell c (.ps 1 0)) ∗ atPos ER (cell c (.ps 1 0)) 1 ∅ 0)
      ∗ (cellInv ER (sched V) (K (c, .ps 1 1)) (cell c (.ps 1 1)) ∗ atPos ER (cell c (.ps 1 1)) 1 ∅ 0)
      ∗ (cellInv ER (sched V) (K (c, .ps 1 2)) (cell c (.ps 1 2)) ∗ atPos ER (cell c (.ps 1 2)) 1 ∅ 0)
      ∗ (cellInv ER (sched V) (K (c, .ps 2 0)) (cell c (.ps 2 0)) ∗ atPos ER (cell c (.ps 2 0)) 1 ∅ 0)
      ∗ (cellInv ER (sched V) (K (c, .ps 2 1)) (cell c (.ps 2 1)) ∗ atPos ER (cell c (.ps 2 1)) 1 ∅ 0)
      ∗ (cellInv ER (sched V) (K (c, .ps 2 2)) (cell c (.ps 2 2)) ∗ atPos ER (cell c (.ps 2 2)) 1 ∅ 0)
      ∗ (cellInv ER (sched V) (K (c, .pr 0 0)) (cell c (.pr 0 0)) ∗ atPos ER (cell c (.pr 0 0)) 1 ∅ 0)
      ∗ (cellInv ER (sched V) (K (c, .pr 0 1)) (cell c (.pr 0 1)) ∗ atPos ER (cell c (.pr 0 1)) 1 ∅ 0)
      ∗ (cellInv ER (sched V) (K (c, .pr 0 2)) (cell c (.pr 0 2)) ∗ atPos ER (cell c (.pr 0 2)) 1 ∅ 0)
      ∗ (cellInv ER (sched V) (K (c, .pr 1 0)) (cell c (.pr 1 0)) ∗ atPos ER (cell c (.pr 1 0)) 1 ∅ 0)
      ∗ (cellInv ER (sched V) (K (c, .pr 1 1)) (cell c (.pr 1 1)) ∗ atPos ER (cell c (.pr 1 1)) 1 ∅ 0)
      ∗ (cellInv ER (sched V) (K (c, .pr 1 2)) (cell c (.pr 1 2)) ∗ atPos ER (cell c (.pr 1 2)) 1 ∅ 0)
      ∗ (cellInv ER (sched V) (K (c, .pr 2 0)) (cell c (.pr 2 0)) ∗ atPos ER (cell c (.pr 2 0)) 1 ∅ 0)
      ∗ (cellInv ER (sched V) (K (c, .pr 2 1)) (cell c (.pr 2 1)) ∗ atPos ER (cell c (.pr 2 1)) 1 ∅ 0)
      ∗ (cellInv ER (sched V) (K (c, .pr 2 2)) (cell c (.pr 2 2)) ∗ atPos ER (cell c (.pr 2 2)) 1 ∅ 0)
      ∗ (cellInv ER (sched V) (K (c, .os 0 0)) (cell c (.os 0 0)) ∗ atPos ER (cell c (.os 0 0)) 1 ∅ 0)
      ∗ (cellInv ER (sched V) (K (c, .os 0 1)) (cell c (.os 0 1)) ∗ atPos ER (cell c (.os 0 1)) 1 ∅ 0)
      ∗ (cellInv ER (sched V) (K (c, .os 0 2)) (cell c (.os 0 2)) ∗ atPos ER (cell c (.os 0 2)) 1 ∅ 0)
      ∗ (cellInv ER (sched V) (K (c, .os 0 3)) (cell c (.os 0 3)) ∗ atPos ER (cell c (.os 0 3)) 1 ∅ 0)
      ∗ (cellInv ER (sched V) (K (c, .os 1 0)) (cell c (.os 1 0)) ∗ atPos ER (cell c (.os 1 0)) 1 ∅ 0)
      ∗ (cellInv ER (sched V) (K (c, .os 1 1)) (cell c (.os 1 1)) ∗ atPos ER (cell c (.os 1 1)) 1 ∅ 0)
      ∗ (cellInv ER (sched V) (K (c, .os 1 2)) (cell c (.os 1 2)) ∗ atPos ER (cell c (.os 1 2)) 1 ∅ 0)
      ∗ (cellInv ER (sched V) (K (c, .os 1 3)) (cell c (.os 1 3)) ∗ atPos ER (cell c (.os 1 3)) 1 ∅ 0)
      ∗ (cellInv ER (sched V) (K (c, .os 2 0)) (cell c (.os 2 0)) ∗ atPos ER (cell c (.os 2 0)) 1 ∅ 0)
      ∗ (cellInv ER (sched V) (K (c, .os 2 1)) (cell c (.os 2 1)) ∗ atPos ER (cell c (.os 2 1)) 1 ∅ 0)
      ∗ (cellInv ER (sched V) (K (c, .os 2 2)) (cell c (.os 2 2)) ∗ atPos ER (cell c (.os 2 2)) 1 ∅ 0)
      ∗ (cellInv ER (sched V) (K (c, .os 2 3)) (cell c (.os 2 3)) ∗ atPos ER (cell c (.os 2 3)) 1 ∅ 0)
      ∗ (cellInv ER (sched V) (K (c, .orr 0 0)) (cell c (.orr 0 0)) ∗ atPos ER (cell c (.orr 0 0)) 1 ∅ 0)
      ∗ (cellInv ER (sched V) (K (c, .orr 0 1)) (cell c (.orr 0 1)) ∗ atPos ER (cell c (.orr 0 1)) 1 ∅ 0)
      ∗ (cellInv ER (sched V) (K (c, .orr 0 2)) (cell c (.orr 0 2)) ∗ atPos ER (cell c (.orr 0 2)) 1 ∅ 0)
      ∗ (cellInv ER (sched V) (K (c, .orr 0 3)) (cell c (.orr 0 3)) ∗ atPos ER (cell c (.orr 0 3)) 1 ∅ 0)
      ∗ (cellInv ER (sched V) (K (c, .orr 1 0)) (cell c (.orr 1 0)) ∗ atPos ER (cell c (.orr 1 0)) 1 ∅ 0)
      ∗ (cellInv ER (sched V) (K (c, .orr 1 1)) (cell c (.orr 1 1)) ∗ atPos ER (cell c (.orr 1 1)) 1 ∅ 0)
      ∗ (cellInv ER (sched V) (K (c, .orr 1 2)) (cell c (.orr 1 2)) ∗ atPos ER (cell c (.orr 1 2)) 1 ∅ 0)
      ∗ (cellInv ER (sched V) (K (c, .orr 1 3)) (cell c (.orr 1 3)) ∗ atPos ER (cell c (.orr 1 3)) 1 ∅ 0)
      ∗ (cellInv ER (sched V) (K (c, .orr 2 0)) (cell c (.orr 2 0)) ∗ atPos ER (cell c (.orr 2 0)) 1 ∅ 0)
      ∗ (cellInv ER (sched V) (K (c, .orr 2 1)) (cell c (.orr 2 1)) ∗ atPos ER (cell c (.orr 2 1)) 1 ∅ 0)
      ∗ (cellInv ER (sched V) (K (c, .orr 2 2)) (cell c (.orr 2 2)) ∗ atPos ER (cell c (.orr 2 2)) 1 ∅ 0)
      ∗ (cellInv ER (sched V) (K (c, .orr 2 3)) (cell c (.orr 2 3)) ∗ atPos ER (cell c (.orr 2 3)) 1 ∅ 0)
      ∗ semVal ((c : Thread nD τ), .dma wqS) 0 ∗ semVal ((c : Thread nD τ), .dma woS) 0)
    ⊢ (|={Set.univ}=> Pipeline.ownSems0 (Ix := Unit) (Name := ℕ) (U := UU) (Lvl := ℕ) (Val := Elt F) (τ := τ) osem c : sProp 𝕄) := by
  rw [Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43] (by decide) (by decide)]
  iterate 42 refine both (close_one V _ c _ (by decide)) ?_
  exact fupd_intro

/-- info: 'Cert.KernelProof.close_all' depends on axioms: [propext, Classical.choice, Quot.sound] -/
#guard_msgs in #print axioms close_all

end Cert.KernelProof
end
-- ==== Proof.Bits.BodyCtx.lean ====
import proofs.«900571_g7700000000000572_dist_mla_v7x_i4_i_b2_s512_d2048_dc128_f32_1_alg».proof.Proof.Bits.Data
import proofs.«900571_g7700000000000572_dist_mla_v7x_i4_i_b2_s512_d2048_dc128_f32_1_alg».proof.Proof.Bits.Tables
import proofs.«900571_g7700000000000572_dist_mla_v7x_i4_i_b2_s512_d2048_dc128_f32_1_alg».proof.Proof.Bits.Slots

noncomputable section

namespace Cert.KernelProof

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : PVals F)

def Bs0 : Memref sig .tc .vmem S2x512x2048 .f32 := Memref.whole cc0_stg0_0
def Bs1 : Memref sig .tc .vmem S2048x128 .f32 := Memref.whole cc0_stg1_0
def Bs2 : Memref sig .tc .vmem S128x2048 .f32 := Memref.whole cc0_stg2_0
def Bs3 : Memref sig .tc .vmem S128x2048 .f32 := Memref.whole cc0_stg3_0
def Bs4 : Memref sig .tc .vmem S2048x32 .f32 := Memref.whole cc0_stg4_0
def Bs5 : Memref sig .tc .vmem S2048x512 .f32 := Memref.whole cc0_stg5_0
def Bs6 : Memref sig .tc .vmem S2x512x2048 .f32 := Memref.whole cc0_stg6_0
def B4 : Memref sig .tc .hbm S2048x2048 .f32 := Memref.whole main_arg4
def B7 : Memref sig .tc .hbm S2048x2048 .f32 := Memref.whole main_arg7
def B9 : Memref sig .tc .vmem S1024x2048 .bf16 := Memref.whole cc0_scratch0
def B11 : Memref sig .tc .vmem S128x2048 .bf16 := Memref.whole cc0_scratch2
def B12 : Memref sig .tc .vmem S128x2048 .bf16 := Memref.whole cc0_scratch3
def B16 : Memref sig .tc .vmem S2048x512 .f32 := Memref.whole cc0_scratch7
def B17 : Memref sig .tc .vmem S512x2048 .f32 := Memref.whole cc0_scratch8

local notation "PT(" c ", " M ", " q ", " f ")" => (View.loc (c : Thread nD τ) (Memref.view M) ↦[View.set (Memref.view M)]{q} f)

def bodyCtx (K : Dev nD × CK → ℕ) (c : Dev nD) (W : Waits sig Unit)
    (X0 : Buf (Elt F) ((c : Thread nD τ).loc cc0_stg0_0)) (X1 : Buf (Elt F) ((c : Thread nD τ).loc cc0_stg1_0)) (X2 : Buf (Elt F) ((c : Thread nD τ).loc cc0_stg2_0))
    (X3 : Buf (Elt F) ((c : Thread nD τ).loc cc0_stg3_0)) (X4 : Buf (Elt F) ((c : Thread nD τ).loc cc0_stg4_0)) (X5 : Buf (Elt F) ((c : Thread nD τ).loc cc0_stg5_0))
    (X6 : Buf (Elt F) ((c : Thread nD τ).loc cc0_stg6_0))
    (m4 : Buf (Elt F) ((c : Thread nD τ).loc main_arg4)) (m7 : Buf (Elt F) ((c : Thread nD τ).loc main_arg7))
    (f9 : Buf (Elt F) ((c : Thread nD τ).loc cc0_scratch0)) (f10 : Buf (Elt F) ((c : Thread nD τ).loc cc0_scratch1))
    (f11 : Buf (Elt F) ((c : Thread nD τ).loc cc0_scratch2)) (f12 : Buf (Elt F) ((c : Thread nD τ).loc cc0_scratch3))
    (f13 : Buf (Elt F) ((c : Thread nD τ).loc cc0_scratch4)) (f14 : Buf (Elt F) ((c : Thread nD τ).loc cc0_scratch5))
    (f15 : Buf (Elt F) ((c : Thread nD τ).loc cc0_scratch6))
    (f16 : Buf (Elt F) ((c : Thread nD τ).loc cc0_scratch7)) (f17 : Buf (Elt F) ((c : Thread nD τ).loc cc0_scratch8)) : sProp 𝕄 :=
  iprop(cellInv ER (sched V) (K (c, CK.bar)) (cell c .bar)
    ∗ cellInv ER (sched V) (K (c, (CK.ps 0 0))) (cell c (.ps 0 0))
    ∗ cellInv ER (sched V) (K (c, (CK.ps 0 1))) (cell c (.ps 0 1))
    ∗ cellInv ER (sched V) (K (c, (CK.ps 0 2))) (cell c (.ps 0 2))
    ∗ cellInv ER (sched V) (K (c, (CK.ps 1 0))) (cell c (.ps 1 0))
    ∗ cellInv ER (sched V) (K (c, (CK.ps 1 1))) (cell c (.ps 1 1))
    ∗ cellInv ER (sched V) (K (c, (CK.ps 1 2))) (cell c (.ps 1 2))
    ∗ cellInv ER (sched V) (K (c, (CK.ps 2 0))) (cell c (.ps 2 0))
    ∗ cellInv ER (sched V) (K (c, (CK.ps 2 1))) (cell c (.ps 2 1))
    ∗ cellInv ER (sched V) (K (c, (CK.ps 2 2))) (cell c (.ps 2 2))
    ∗ cellInv ER (sched V) (K (c, (CK.pr 0 0))) (cell c (.pr 0 0))
    ∗ cellInv ER (sched V) (K (c, (CK.pr 0 1))) (cell c (.pr 0 1))
    ∗ cellInv ER (sched V) (K (c, (CK.pr 0 2))) (cell c (.pr 0 2))
    ∗ cellInv ER (sched V) (K (c, (CK.pr 1 0))) (cell c (.pr 1 0))
    ∗ cellInv ER (sched V) (K (c, (CK.pr 1 1))) (cell c (.pr 1 1))
    ∗ cellInv ER (sched V) (K (c, (CK.pr 1 2))) (cell c (.pr 1 2))
    ∗ cellInv ER (sched V) (K (c, (CK.pr 2 0))) (cell c (.pr 2 0))
    ∗ cellInv ER (sched V) (K (c, (CK.pr 2 1))) (cell c (.pr 2 1))
    ∗ cellInv ER (sched V) (K (c, (CK.pr 2 2))) (cell c (.pr 2 2))
    ∗ cellInv ER (sched V) (K (c, (CK.os 0 0))) (cell c (.os 0 0))
    ∗ cellInv ER (sched V) (K (c, (CK.os 0 1))) (cell c (.os 0 1))
    ∗ cellInv ER (sched V) (K (c, (CK.os 0 2))) (cell c (.os 0 2))
    ∗ cellInv ER (sched V) (K (c, (CK.os 0 3))) (cell c (.os 0 3))
    ∗ cellInv ER (sched V) (K (c, (CK.os 1 0))) (cell c (.os 1 0))
    ∗ cellInv ER (sched V) (K (c, (CK.os 1 1))) (cell c (.os 1 1))
    ∗ cellInv ER (sched V) (K (c, (CK.os 1 2))) (cell c (.os 1 2))
    ∗ cellInv ER (sched V) (K (c, (CK.os 1 3))) (cell c (.os 1 3))
    ∗ cellInv ER (sched V) (K (c, (CK.os 2 0))) (cell c (.os 2 0))
    ∗ cellInv ER (sched V) (K (c, (CK.os 2 1))) (cell c (.os 2 1))
    ∗ cellInv ER (sched V) (K (c, (CK.os 2 2))) (cell c (.os 2 2))
    ∗ cellInv ER (sched V) (K (c, (CK.os 2 3))) (cell c (.os 2 3))
    ∗ cellInv ER (sched V) (K (c, (CK.orr 0 0))) (cell c (.orr 0 0))
    ∗ cellInv ER (sched V) (K (c, (CK.orr 0 1))) (cell c (.orr 0 1))
    ∗ cellInv ER (sched V) (K (c, (CK.orr 0 2))) (cell c (.orr 0 2))
    ∗ cellInv ER (sched V) (K (c, (CK.orr 0 3))) (cell c (.orr 0 3))
    ∗ cellInv ER (sched V) (K (c, (CK.orr 1 0))) (cell c (.orr 1 0))
    ∗ cellInv ER (sched V) (K (c, (CK.orr 1 1))) (cell c (.orr 1 1))
    ∗ cellInv ER (sched V) (K (c, (CK.orr 1 2))) (cell c (.orr 1 2))
    ∗ cellInv ER (sched V) (K (c, (CK.orr 1 3))) (cell c (.orr 1 3))
    ∗ cellInv ER (sched V) (K (c, (CK.orr 2 0))) (cell c (.orr 2 0))
    ∗ cellInv ER (sched V) (K (c, (CK.orr 2 1))) (cell c (.orr 2 1))
    ∗ cellInv ER (sched V) (K (c, (CK.orr 2 2))) (cell c (.orr 2 2))
    ∗ cellInv ER (sched V) (K (c, (CK.orr 2 3))) (cell c (.orr 2 3))
    ∗ cellInv ER (sched V) (K (pe c 0, CK.bar)) (cell (pe c 0) .bar)
    ∗ cellInv ER (sched V) (K (pe c 1, CK.bar)) (cell (pe c 1) .bar)
    ∗ cellInv ER (sched V) (K (pe c 2, CK.bar)) (cell (pe c 2) .bar)
    ∗ cellInv ER (sched V) (K (pe c 0, (CK.pr 0 0))) (cell (pe c 0) (.pr 0 0))
    ∗ cellInv ER (sched V) (K (pe c 0, (CK.pr 0 1))) (cell (pe c 0) (.pr 0 1))
    ∗ cellInv ER (sched V) (K (pe c 0, (CK.pr 0 2))) (cell (pe c 0) (.pr 0 2))
    ∗ cellInv ER (sched V) (K (pe c 1, (CK.pr 1 0))) (cell (pe c 1) (.pr 1 0))
    ∗ cellInv ER (sched V) (K (pe c 1, (CK.pr 1 1))) (cell (pe c 1) (.pr 1 1))
    ∗ cellInv ER (sched V) (K (pe c 1, (CK.pr 1 2))) (cell (pe c 1) (.pr 1 2))
    ∗ cellInv ER (sched V) (K (pe c 2, (CK.pr 2 0))) (cell (pe c 2) (.pr 2 0))
    ∗ cellInv ER (sched V) (K (pe c 2, (CK.pr 2 1))) (cell (pe c 2) (.pr 2 1))
    ∗ cellInv ER (sched V) (K (pe c 2, (CK.pr 2 2))) (cell (pe c 2) (.pr 2 2))
    ∗ cellInv ER (sched V) (K (pe c 0, (CK.orr 0 0))) (cell (pe c 0) (.orr 0 0))
    ∗ cellInv ER (sched V) (K (pe c 0, (CK.orr 0 1))) (cell (pe c 0) (.orr 0 1))
    ∗ cellInv ER (sched V) (K (pe c 0, (CK.orr 0 2))) (cell (pe c 0) (.orr 0 2))
    ∗ cellInv ER (sched V) (K (pe c 0, (CK.orr 0 3))) (cell (pe c 0) (.orr 0 3))
    ∗ cellInv ER (sched V) (K (pe c 1, (CK.orr 1 0))) (cell (pe c 1) (.orr 1 0))
    ∗ cellInv ER (sched V) (K (pe c 1, (CK.orr 1 1))) (cell (pe c 1) (.orr 1 1))
    ∗ cellInv ER (sched V) (K (pe c 1, (CK.orr 1 2))) (cell (pe c 1) (.orr 1 2))
    ∗ cellInv ER (sched V) (K (pe c 1, (CK.orr 1 3))) (cell (pe c 1) (.orr 1 3))
    ∗ cellInv ER (sched V) (K (pe c 2, (CK.orr 2 0))) (cell (pe c 2) (.orr 2 0))
    ∗ cellInv ER (sched V) (K (pe c 2, (CK.orr 2 1))) (cell (pe c 2) (.orr 2 1))
    ∗ cellInv ER (sched V) (K (pe c 2, (CK.orr 2 2))) (cell (pe c 2) (.orr 2 2))
    ∗ cellInv ER (sched V) (K (pe c 2, (CK.orr 2 3))) (cell (pe c 2) (.orr 2 3))
    ∗ reached ER (cell c .bar) 0
    ∗ reached ER (cell c (.ps 0 0)) 0
    ∗ reached ER (cell c (.ps 0 1)) 0
    ∗ reached ER (cell c (.ps 0 2)) 0
    ∗ reached ER (cell c (.ps 1 0)) 0
    ∗ reached ER (cell c (.ps 1 1)) 0
    ∗ reached ER (cell c (.ps 1 2)) 0
    ∗ reached ER (cell c (.ps 2 0)) 0
    ∗ reached ER (cell c (.ps 2 1)) 0
    ∗ reached ER (cell c (.ps 2 2)) 0
    ∗ reached ER (cell c (.pr 0 0)) 0
    ∗ reached ER (cell c (.pr 0 1)) 0
    ∗ reached ER (cell c (.pr 0 2)) 0
    ∗ reached ER (cell c (.pr 1 0)) 0
    ∗ reached ER (cell c (.pr 1 1)) 0
    ∗ reached ER (cell c (.pr 1 2)) 0
    ∗ reached ER (cell c (.pr 2 0)) 0
    ∗ reached ER (cell c (.pr 2 1)) 0
    ∗ reached ER (cell c (.pr 2 2)) 0
    ∗ reached ER (cell c (.os 0 0)) 0
    ∗ reached ER (cell c (.os 0 1)) 0
    ∗ reached ER (cell c (.os 0 2)) 0
    ∗ reached ER (cell c (.os 0 3)) 0
    ∗ reached ER (cell c (.os 1 0)) 0
    ∗ reached ER (cell c (.os 1 1)) 0
    ∗ reached ER (cell c (.os 1 2)) 0
    ∗ reached ER (cell c (.os 1 3)) 0
    ∗ reached ER (cell c (.os 2 0)) 0
    ∗ reached ER (cell c (.os 2 1)) 0
    ∗ reached ER (cell c (.os 2 2)) 0
    ∗ reached ER (cell c (.os 2 3)) 0
    ∗ reached ER (cell c (.orr 0 0)) 0
    ∗ reached ER (cell c (.orr 0 1)) 0
    ∗ reached ER (cell c (.orr 0 2)) 0
    ∗ reached ER (cell c (.orr 0 3)) 0
    ∗ reached ER (cell c (.orr 1 0)) 0
    ∗ reached ER (cell c (.orr 1 1)) 0
    ∗ reached ER (cell c (.orr 1 2)) 0
    ∗ reached ER (cell c (.orr 1 3)) 0
    ∗ reached ER (cell c (.orr 2 0)) 0
    ∗ reached ER (cell c (.orr 2 1)) 0
    ∗ reached ER (cell c (.orr 2 2)) 0
    ∗ reached ER (cell c (.orr 2 3)) 0
    ∗ reached ER (cell (pe c 0) .bar) 0
    ∗ reached ER (cell (pe c 1) .bar) 0
    ∗ reached ER (cell (pe c 2) .bar) 0
    ∗ reached ER (cell (pe c 0) (.pr 0 0)) 0
    ∗ reached ER (cell (pe c 0) (.pr 0 1)) 0
    ∗ reached ER (cell (pe c 0) (.pr 0 2)) 0
    ∗ reached ER (cell (pe c 1) (.pr 1 0)) 0
    ∗ reached ER (cell (pe c 1) (.pr 1 1)) 0
    ∗ reached ER (cell (pe c 1) (.pr 1 2)) 0
    ∗ reached ER (cell (pe c 2) (.pr 2 0)) 0
    ∗ reached ER (cell (pe c 2) (.pr 2 1)) 0
    ∗ reached ER (cell (pe c 2) (.pr 2 2)) 0
    ∗ reached ER (cell (pe c 0) (.orr 0 0)) 0
    ∗ reached ER (cell (pe c 0) (.orr 0 1)) 0
    ∗ reached ER (cell (pe c 0) (.orr 0 2)) 0
    ∗ reached ER (cell (pe c 0) (.orr 0 3)) 0
    ∗ reached ER (cell (pe c 1) (.orr 1 0)) 0
    ∗ reached ER (cell (pe c 1) (.orr 1 1)) 0
    ∗ reached ER (cell (pe c 1) (.orr 1 2)) 0
    ∗ reached ER (cell (pe c 1) (.orr 1 3)) 0
    ∗ reached ER (cell (pe c 2) (.orr 2 0)) 0
    ∗ reached ER (cell (pe c 2) (.orr 2 1)) 0
    ∗ reached ER (cell (pe c 2) (.orr 2 2)) 0
    ∗ reached ER (cell (pe c 2) (.orr 2 3)) 0
    ∗ levAts L lv
    ∗ atPos ER (cell c .bar) 0 ∅ 0
    ∗ atPos ER (cell c (.ps 0 0)) 0 ∅ 0
    ∗ atPos ER (cell c (.ps 0 1)) 0 ∅ 0
    ∗ atPos ER (cell c (.ps 0 2)) 0 ∅ 0
    ∗ atPos ER (cell c (.ps 1 0)) 0 ∅ 0
    ∗ atPos ER (cell c (.ps 1 1)) 0 ∅ 0
    ∗ atPos ER (cell c (.ps 1 2)) 0 ∅ 0
    ∗ atPos ER (cell c (.ps 2 0)) 0 ∅ 0
    ∗ atPos ER (cell c (.ps 2 1)) 0 ∅ 0
    ∗ atPos ER (cell c (.ps 2 2)) 0 ∅ 0
    ∗ atPos ER (cell c (.pr 0 0)) 0 ∅ 0
    ∗ atPos ER (cell c (.pr 0 1)) 0 ∅ 0
    ∗ atPos ER (cell c (.pr 0 2)) 0 ∅ 0
    ∗ atPos ER (cell c (.pr 1 0)) 0 ∅ 0
    ∗ atPos ER (cell c (.pr 1 1)) 0 ∅ 0
    ∗ atPos ER (cell c (.pr 1 2)) 0 ∅ 0
    ∗ atPos ER (cell c (.pr 2 0)) 0 ∅ 0
    ∗ atPos ER (cell c (.pr 2 1)) 0 ∅ 0
    ∗ atPos ER (cell c (.pr 2 2)) 0 ∅ 0
    ∗ atPos ER (cell c (.os 0 0)) 0 ∅ 0
    ∗ atPos ER (cell c (.os 0 1)) 0 ∅ 0
    ∗ atPos ER (cell c (.os 0 2)) 0 ∅ 0
    ∗ atPos ER (cell c (.os 0 3)) 0 ∅ 0
    ∗ atPos ER (cell c (.os 1 0)) 0 ∅ 0
    ∗ atPos ER (cell c (.os 1 1)) 0 ∅ 0
    ∗ atPos ER (cell c (.os 1 2)) 0 ∅ 0
    ∗ atPos ER (cell c (.os 1 3)) 0 ∅ 0
    ∗ atPos ER (cell c (.os 2 0)) 0 ∅ 0
    ∗ atPos ER (cell c (.os 2 1)) 0 ∅ 0
    ∗ atPos ER (cell c (.os 2 2)) 0 ∅ 0
    ∗ atPos ER (cell c (.os 2 3)) 0 ∅ 0
    ∗ atPos ER (cell c (.orr 0 0)) 0 ∅ 0
    ∗ atPos ER (cell c (.orr 0 1)) 0 ∅ 0
    ∗ atPos ER (cell c (.orr 0 2)) 0 ∅ 0
    ∗ atPos ER (cell c (.orr 0 3)) 0 ∅ 0
    ∗ atPos ER (cell c (.orr 1 0)) 0 ∅ 0
    ∗ atPos ER (cell c (.orr 1 1)) 0 ∅ 0
    ∗ atPos ER (cell c (.orr 1 2)) 0 ∅ 0
    ∗ atPos ER (cell c (.orr 1 3)) 0 ∅ 0
    ∗ atPos ER (cell c (.orr 2 0)) 0 ∅ 0
    ∗ atPos ER (cell c (.orr 2 1)) 0 ∅ 0
    ∗ atPos ER (cell c (.orr 2 2)) 0 ∅ 0
    ∗ atPos ER (cell c (.orr 2 3)) 0 ∅ 0
    ∗ dutyTok ER (cell (pe c 0) .bar) 0 (0 : Fin 3)
    ∗ dutyTok ER (cell (pe c 1) .bar) 0 (1 : Fin 3)
    ∗ dutyTok ER (cell (pe c 2) .bar) 0 (2 : Fin 3)
    ∗ dutyTok ER (cell (pe c 0) (.pr 0 0)) 0 (0 : Fin 3)
    ∗ dutyTok ER (cell (pe c 0) (.pr 0 1)) 0 (0 : Fin 3)
    ∗ dutyTok ER (cell (pe c 0) (.pr 0 2)) 0 (0 : Fin 3)
    ∗ dutyTok ER (cell (pe c 1) (.pr 1 0)) 0 (0 : Fin 3)
    ∗ dutyTok ER (cell (pe c 1) (.pr 1 1)) 0 (0 : Fin 3)
    ∗ dutyTok ER (cell (pe c 1) (.pr 1 2)) 0 (0 : Fin 3)
    ∗ dutyTok ER (cell (pe c 2) (.pr 2 0)) 0 (0 : Fin 3)
    ∗ dutyTok ER (cell (pe c 2) (.pr 2 1)) 0 (0 : Fin 3)
    ∗ dutyTok ER (cell (pe c 2) (.pr 2 2)) 0 (0 : Fin 3)
    ∗ dutyTok ER (cell (pe c 0) (.orr 0 0)) 0 (0 : Fin 3)
    ∗ dutyTok ER (cell (pe c 0) (.orr 0 1)) 0 (0 : Fin 3)
    ∗ dutyTok ER (cell (pe c 0) (.orr 0 2)) 0 (0 : Fin 3)
    ∗ dutyTok ER (cell (pe c 0) (.orr 0 3)) 0 (0 : Fin 3)
    ∗ dutyTok ER (cell (pe c 1) (.orr 1 0)) 0 (0 : Fin 3)
    ∗ dutyTok ER (cell (pe c 1) (.orr 1 1)) 0 (0 : Fin 3)
    ∗ dutyTok ER (cell (pe c 1) (.orr 1 2)) 0 (0 : Fin 3)
    ∗ dutyTok ER (cell (pe c 1) (.orr 1 3)) 0 (0 : Fin 3)
    ∗ dutyTok ER (cell (pe c 2) (.orr 2 0)) 0 (0 : Fin 3)
    ∗ dutyTok ER (cell (pe c 2) (.orr 2 1)) 0 (0 : Fin 3)
    ∗ dutyTok ER (cell (pe c 2) (.orr 2 2)) 0 (0 : Fin 3)
    ∗ dutyTok ER (cell (pe c 2) (.orr 2 3)) 0 (0 : Fin 3)
    ∗ dutyTok ER (cell c (.ps 0 0)) 0 (0 : Fin 3)
    ∗ dutyTok ER (cell c (.ps 0 1)) 0 (0 : Fin 3)
    ∗ dutyTok ER (cell c (.ps 0 2)) 0 (0 : Fin 3)
    ∗ dutyTok ER (cell c (.ps 1 0)) 0 (0 : Fin 3)
    ∗ dutyTok ER (cell c (.ps 1 1)) 0 (0 : Fin 3)
    ∗ dutyTok ER (cell c (.ps 1 2)) 0 (0 : Fin 3)
    ∗ dutyTok ER (cell c (.ps 2 0)) 0 (0 : Fin 3)
    ∗ dutyTok ER (cell c (.ps 2 1)) 0 (0 : Fin 3)
    ∗ dutyTok ER (cell c (.ps 2 2)) 0 (0 : Fin 3)
    ∗ dutyTok ER (cell c (.os 0 0)) 0 (0 : Fin 3)
    ∗ dutyTok ER (cell c (.os 0 1)) 0 (0 : Fin 3)
    ∗ dutyTok ER (cell c (.os 0 2)) 0 (0 : Fin 3)
    ∗ dutyTok ER (cell c (.os 0 3)) 0 (0 : Fin 3)
    ∗ dutyTok ER (cell c (.os 1 0)) 0 (0 : Fin 3)
    ∗ dutyTok ER (cell c (.os 1 1)) 0 (0 : Fin 3)
    ∗ dutyTok ER (cell c (.os 1 2)) 0 (0 : Fin 3)
    ∗ dutyTok ER (cell c (.os 1 3)) 0 (0 : Fin 3)
    ∗ dutyTok ER (cell c (.os 2 0)) 0 (0 : Fin 3)
    ∗ dutyTok ER (cell c (.os 2 1)) 0 (0 : Fin 3)
    ∗ dutyTok ER (cell c (.os 2 2)) 0 (0 : Fin 3)
    ∗ dutyTok ER (cell c (.os 2 3)) 0 (0 : Fin 3)
    ∗ cred (tallyAt (cell c .bar) () 3)
    ∗ cred (tallyAt (cell c (.pr 0 0)) () NC)
    ∗ cred (tallyAt (cell c (.pr 0 1)) () NU)
    ∗ cred (tallyAt (cell c (.pr 0 2)) () NU)
    ∗ cred (tallyAt (cell c (.pr 1 0)) () NC)
    ∗ cred (tallyAt (cell c (.pr 1 1)) () NU)
    ∗ cred (tallyAt (cell c (.pr 1 2)) () NU)
    ∗ cred (tallyAt (cell c (.pr 2 0)) () NC)
    ∗ cred (tallyAt (cell c (.pr 2 1)) () NU)
    ∗ cred (tallyAt (cell c (.pr 2 2)) () NU)
    ∗ cred (tallyAt (cell c (.orr 0 0)) () NO)
    ∗ cred (tallyAt (cell c (.orr 0 1)) () NO)
    ∗ cred (tallyAt (cell c (.orr 0 2)) () NO)
    ∗ cred (tallyAt (cell c (.orr 0 3)) () NO)
    ∗ cred (tallyAt (cell c (.orr 1 0)) () NO)
    ∗ cred (tallyAt (cell c (.orr 1 1)) () NO)
    ∗ cred (tallyAt (cell c (.orr 1 2)) () NO)
    ∗ cred (tallyAt (cell c (.orr 1 3)) () NO)
    ∗ cred (tallyAt (cell c (.orr 2 0)) () NO)
    ∗ cred (tallyAt (cell c (.orr 2 1)) () NO)
    ∗ cred (tallyAt (cell c (.orr 2 2)) () NO)
    ∗ cred (tallyAt (cell c (.orr 2 3)) () NO)
    ∗ owes (c : Thread nD τ) (((((((((((((((((((((((tallyAt (cell (pe c 2) (.orr 2 3)) () NO + tallyAt (cell (pe c 1) (.orr 1 3)) () NO) + tallyAt (cell (pe c 0) (.orr 0 3)) () NO) + tallyAt (cell (pe c 2) (.orr 2 2)) () NO) + tallyAt (cell (pe c 1) (.orr 1 2)) () NO) + tallyAt (cell (pe c 0) (.orr 0 2)) () NO) + tallyAt (cell (pe c 2) (.orr 2 1)) () NO) + tallyAt (cell (pe c 1) (.orr 1 1)) () NO) + tallyAt (cell (pe c 0) (.orr 0 1)) () NO) + tallyAt (cell (pe c 2) (.orr 2 0)) () NO) + tallyAt (cell (pe c 1) (.orr 1 0)) () NO) + tallyAt (cell (pe c 0) (.orr 0 0)) () NO) + tallyAt (cell (pe c 2) (.pr 2 2)) () NU) + tallyAt (cell (pe c 2) (.pr 2 1)) () NU) + tallyAt (cell (pe c 2) (.pr 2 0)) () NC) + tallyAt (cell (pe c 1) (.pr 1 2)) () NU) + tallyAt (cell (pe c 1) (.pr 1 1)) () NU) + tallyAt (cell (pe c 1) (.pr 1 0)) () NC) + tallyAt (cell (pe c 0) (.pr 0 2)) () NU) + tallyAt (cell (pe c 0) (.pr 0 1)) () NU) + tallyAt (cell (pe c 0) (.pr 0 0)) () NC) + tallyAt (cell (pe c 2) .bar) () 1) + tallyAt (cell (pe c 1) .bar) () 1) + tallyAt (cell (pe c 0) .bar) () 1) W
    ∗ semVal ((c : Thread nD τ), .dma wqS) 0
    ∗ semVal ((c : Thread nD τ), .dma woS) 0
    ∗ PT(c, Bs0, fullShare, X0)
    ∗ PT(c, Bs1, fullShare, X1)
    ∗ PT(c, Bs2, fullShare, X2)
    ∗ PT(c, Bs3, fullShare, X3)
    ∗ PT(c, Bs4, fullShare, X4)
    ∗ PT(c, Bs5, fullShare, X5)
    ∗ PT(c, Bs6, fullShare, X6)
    ∗ (View.loc (c : Thread nD τ) (Memref.view B4) ↦{fullShare} m4)
    ∗ (View.loc (c : Thread nD τ) (Memref.view B7) ↦{fullShare} m7)
    ∗ PT(c, B9, fullShare, f9)
    ∗ PT(c, B11, fullShare, f11)
    ∗ PT(c, B12, fullShare, f12)
    ∗ PT(c, B16, fullShare, f16)
    ∗ PT(c, B17, fullShare, f17)
    ∗ PT(c, cM (pe c 0), fullShare, f10)
    ∗ PT(c, ukD (pe c 0), fullShare, f13)
    ∗ PT(c, uvD (pe c 0), fullShare, f14)
    ∗ PT(c, oM (pe c 0) 0, fullShare, f15)
    ∗ PT(c, oM (pe c 0) 1, fullShare, f15)
    ∗ PT(c, oM (pe c 0) 2, fullShare, f15)
    ∗ PT(c, oM (pe c 0) 3, fullShare, f15)
    ∗ PT(c, cM (pe c 1), fullShare, f10)
    ∗ PT(c, ukD (pe c 1), fullShare, f13)
    ∗ PT(c, uvD (pe c 1), fullShare, f14)
    ∗ PT(c, oM (pe c 1) 0, fullShare, f15)
    ∗ PT(c, oM (pe c 1) 1, fullShare, f15)
    ∗ PT(c, oM (pe c 1) 2, fullShare, f15)
    ∗ PT(c, oM (pe c 1) 3, fullShare, f15)
    ∗ PT(c, cM (pe c 2), fullShare, f10)
    ∗ PT(c, ukD (pe c 2), fullShare, f13)
    ∗ PT(c, uvD (pe c 2), fullShare, f14)
    ∗ PT(c, oM (pe c 2) 0, fullShare, f15)
    ∗ PT(c, oM (pe c 2) 1, fullShare, f15)
    ∗ PT(c, oM (pe c 2) 2, fullShare, f15)
    ∗ PT(c, oM (pe c 2) 3, fullShare, f15)
    ∗ PT(c, cM c, fullShare, f10)
    ∗ PT(c, ukD c, fullShare, f13)
    ∗ PT(c, uvD c, fullShare, f14)
    ∗ PT(c, oM c 0, fullShare, f15)
    ∗ PT(c, oM c 1, fullShare, f15)
    ∗ PT(c, oM c 2, fullShare, f15)
    ∗ PT(c, oM c 3, fullShare, f15))

end Cert.KernelProof
end
-- ==== Proof.Bits.OwesOrder.lean ====
import proofs.«900571_g7700000000000572_dist_mla_v7x_i4_i_b2_s512_d2048_dc128_f32_1_alg».proof.Proof.Bits.LaunchCredit

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

-- Everything a device owes at launch, in the order it pays: the last summand is paid first.
def Oord (c : Dev nD) : CellTallies nD τ sig Unit :=
  tallyAt (cell (pe c 2) (.orr 2 3)) () NO + tallyAt (cell (pe c 1) (.orr 1 3)) () NO + tallyAt (cell (pe c 0) (.orr 0 3)) () NO
    + tallyAt (cell (pe c 2) (.orr 2 2)) () NO + tallyAt (cell (pe c 1) (.orr 1 2)) () NO + tallyAt (cell (pe c 0) (.orr 0 2)) () NO
    + tallyAt (cell (pe c 2) (.orr 2 1)) () NO + tallyAt (cell (pe c 1) (.orr 1 1)) () NO + tallyAt (cell (pe c 0) (.orr 0 1)) () NO
    + tallyAt (cell (pe c 2) (.orr 2 0)) () NO + tallyAt (cell (pe c 1) (.orr 1 0)) () NO + tallyAt (cell (pe c 0) (.orr 0 0)) () NO
    + tallyAt (cell (pe c 2) (.pr 2 2)) () NU + tallyAt (cell (pe c 2) (.pr 2 1)) () NU + tallyAt (cell (pe c 2) (.pr 2 0)) () NC
    + tallyAt (cell (pe c 1) (.pr 1 2)) () NU + tallyAt (cell (pe c 1) (.pr 1 1)) () NU + tallyAt (cell (pe c 1) (.pr 1 0)) () NC
    + tallyAt (cell (pe c 0) (.pr 0 2)) () NU + tallyAt (cell (pe c 0) (.pr 0 1)) () NU + tallyAt (cell (pe c 0) (.pr 0 0)) () NC
    + tallyAt (cell (pe c 2) .bar) () 1 + tallyAt (cell (pe c 1) .bar) () 1 + tallyAt (cell (pe c 0) .bar) () 1

theorem O₀_ord (c : Dev nD) : O₀ c = Oord c := by
  unfold O₀ Oord Ooall Oo Op1 Obar; ac_rfl

theorem pos_of_eq {A B : CellTallies nD τ sig Unit} (e : A = B) {g : GSem nD τ sig} {u : Unit} (h : 0 < A g u) : 0 < B g u := e ▸ h

theorem lv_wqS (c : Dev nD) : lv ((c : Thread nD τ), .dma wqS) () = 0 := lv_dma_other _ _ (Or.inr (by decide)) ()

-- The barrier wait, the entry signals paid: what is still owed is the arrivals of both phases, all above the barrier cell.
theorem mw_bar' (c : Dev nD) : (levAts L lv : sProp 𝕄) ⊢ MayWait (c : Thread nD τ) (.reg barS) ()
    (tallyAt (cell (pe c 2) (.orr 2 3)) () NO + tallyAt (cell (pe c 1) (.orr 1 3)) () NO + tallyAt (cell (pe c 0) (.orr 0 3)) () NO
    + tallyAt (cell (pe c 2) (.orr 2 2)) () NO + tallyAt (cell (pe c 1) (.orr 1 2)) () NO + tallyAt (cell (pe c 0) (.orr 0 2)) () NO
    + tallyAt (cell (pe c 2) (.orr 2 1)) () NO + tallyAt (cell (pe c 1) (.orr 1 1)) () NO + tallyAt (cell (pe c 0) (.orr 0 1)) () NO
    + tallyAt (cell (pe c 2) (.orr 2 0)) () NO + tallyAt (cell (pe c 1) (.orr 1 0)) () NO + tallyAt (cell (pe c 0) (.orr 0 0)) () NO
    + tallyAt (cell (pe c 2) (.pr 2 2)) () NU + tallyAt (cell (pe c 2) (.pr 2 1)) () NU + tallyAt (cell (pe c 2) (.pr 2 0)) () NC
    + tallyAt (cell (pe c 1) (.pr 1 2)) () NU + tallyAt (cell (pe c 1) (.pr 1 1)) () NU + tallyAt (cell (pe c 1) (.pr 1 0)) () NC
    + tallyAt (cell (pe c 0) (.pr 0 2)) () NU + tallyAt (cell (pe c 0) (.pr 0 1)) () NU + tallyAt (cell (pe c 0) (.pr 0 0)) () NC) :=
  mayWait_bar c _ fun _ _ => pos_of_eq (by unfold Ooall Oo Op1all Op1; ac_rfl)

-- A first-phase receive wait: what is still owed is the second phase's arrivals, all above it.
theorem mw_pr' (c : Dev nD) (p t : Fin 3) : (levAts L lv : sProp 𝕄) ⊢ MayWait (c : Thread nD τ) (csem (.pr p t)) ()
    (tallyAt (cell (pe c 2) (.orr 2 3)) () NO + tallyAt (cell (pe c 1) (.orr 1 3)) () NO + tallyAt (cell (pe c 0) (.orr 0 3)) () NO
    + tallyAt (cell (pe c 2) (.orr 2 2)) () NO + tallyAt (cell (pe c 1) (.orr 1 2)) () NO + tallyAt (cell (pe c 0) (.orr 0 2)) () NO
    + tallyAt (cell (pe c 2) (.orr 2 1)) () NO + tallyAt (cell (pe c 1) (.orr 1 1)) () NO + tallyAt (cell (pe c 0) (.orr 0 1)) () NO
    + tallyAt (cell (pe c 2) (.orr 2 0)) () NO + tallyAt (cell (pe c 1) (.orr 1 0)) () NO + tallyAt (cell (pe c 0) (.orr 0 0)) () NO) :=
  mayWait_pr c p t _ fun _ _ => pos_of_eq (by unfold Ooall Oo; ac_rfl)

-- A wait at level 0 with the second phase's arrivals still owed.
theorem mw_low' (c : Dev nD) (s : SemLoc sig) (hs : lv ((c : Thread nD τ), s) () = 0) :
    (levAts L lv : sProp 𝕄) ⊢ MayWait (c : Thread nD τ) s ()
    (tallyAt (cell (pe c 2) (.orr 2 3)) () NO + tallyAt (cell (pe c 1) (.orr 1 3)) () NO + tallyAt (cell (pe c 0) (.orr 0 3)) () NO
    + tallyAt (cell (pe c 2) (.orr 2 2)) () NO + tallyAt (cell (pe c 1) (.orr 1 2)) () NO + tallyAt (cell (pe c 0) (.orr 0 2)) () NO
    + tallyAt (cell (pe c 2) (.orr 2 1)) () NO + tallyAt (cell (pe c 1) (.orr 1 1)) () NO + tallyAt (cell (pe c 0) (.orr 0 1)) () NO
    + tallyAt (cell (pe c 2) (.orr 2 0)) () NO + tallyAt (cell (pe c 1) (.orr 1 0)) () NO + tallyAt (cell (pe c 0) (.orr 0 0)) () NO) :=
  mayWait_low c s hs _ fun _ _ h => Ooall_pos_O₀ (pos_of_eq (by unfold Ooall Oo; ac_rfl) h)

end Cert.KernelProof
end
-- ==== Proof.Bits.UnpackParts.lean ====
import proofs.«900571_g7700000000000572_dist_mla_v7x_i4_i_b2_s512_d2048_dc128_f32_1_alg».proof.Proof.Bits.BodyCtx
import proofs.«900571_g7700000000000572_dist_mla_v7x_i4_i_b2_s512_d2048_dc128_f32_1_alg».proof.Proof.Bits.OwesOrder

noncomputable section

namespace Cert.KernelProof

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (V : PVals F)
variable (outV : Dev nD → (cc0_stg6_0 : Ref sig .tc).ty.Contents (Elt F))

local notation "PT(" c ", " M ", " q ", " f ")" => (View.loc (c : Thread nD τ) (Memref.view M) ↦[View.set (Memref.view M)]{q} f)

def ckList : List CK :=
  [CK.bar, .ps 0 0, .ps 0 1, .ps 0 2, .ps 1 0, .ps 1 1, .ps 1 2, .ps 2 0, .ps 2 1, .ps 2 2,
    .pr 0 0, .pr 0 1, .pr 0 2, .pr 1 0, .pr 1 1, .pr 1 2, .pr 2 0, .pr 2 1, .pr 2 2,
    .os 0 0, .os 0 1, .os 0 2, .os 0 3, .os 1 0, .os 1 1, .os 1 2, .os 1 3, .os 2 0, .os 2 1, .os 2 2, .os 2 3,
    .orr 0 0, .orr 0 1, .orr 0 2, .orr 0 3, .orr 1 0, .orr 1 1, .orr 1 2, .orr 1 3, .orr 2 0, .orr 2 1, .orr 2 2, .orr 2 3]

theorem bigSep_CK {M : Type _} [URA M] (Φ : CK → sProp M) :
    bigSep Finset.univ Φ = iprop(Φ .bar
      ∗ Φ (.ps 0 0) ∗ Φ (.ps 0 1) ∗ Φ (.ps 0 2) ∗ Φ (.ps 1 0) ∗ Φ (.ps 1 1) ∗ Φ (.ps 1 2) ∗ Φ (.ps 2 0) ∗ Φ (.ps 2 1) ∗ Φ (.ps 2 2)
      ∗ Φ (.pr 0 0) ∗ Φ (.pr 0 1) ∗ Φ (.pr 0 2) ∗ Φ (.pr 1 0) ∗ Φ (.pr 1 1) ∗ Φ (.pr 1 2) ∗ Φ (.pr 2 0) ∗ Φ (.pr 2 1) ∗ Φ (.pr 2 2)
      ∗ Φ (.os 0 0) ∗ Φ (.os 0 1) ∗ Φ (.os 0 2) ∗ Φ (.os 0 3) ∗ Φ (.os 1 0) ∗ Φ (.os 1 1) ∗ Φ (.os 1 2) ∗ Φ (.os 1 3)
      ∗ Φ (.os 2 0) ∗ Φ (.os 2 1) ∗ Φ (.os 2 2) ∗ Φ (.os 2 3)
      ∗ Φ (.orr 0 0) ∗ Φ (.orr 0 1) ∗ Φ (.orr 0 2) ∗ Φ (.orr 0 3) ∗ Φ (.orr 1 0) ∗ Φ (.orr 1 1) ∗ Φ (.orr 1 2) ∗ Φ (.orr 1 3)
      ∗ Φ (.orr 2 0) ∗ Φ (.orr 2 1) ∗ Φ (.orr 2 2) ∗ Φ (.orr 2 3)) :=
  bigSep_univ_eq_bigSepL ckList (by decide) (by decide) Φ

theorem bigSep_fin3 {M : Type _} [URA M] (Φ : Fin 3 → sProp M) : bigSep Finset.univ Φ = iprop(Φ 0 ∗ Φ 1 ∗ Φ 2) :=
  bigSep_univ_eq_bigSepL [0, 1, 2] (by decide) (by decide) Φ

theorem bigSep_fin33 {M : Type _} [URA M] (Φ : Fin 3 × Fin 3 → sProp M) :
    bigSep Finset.univ Φ = iprop(Φ (0, 0) ∗ Φ (0, 1) ∗ Φ (0, 2) ∗ Φ (1, 0) ∗ Φ (1, 1) ∗ Φ (1, 2) ∗ Φ (2, 0) ∗ Φ (2, 1) ∗ Φ (2, 2)) :=
  bigSep_univ_eq_bigSepL [(0, 0), (0, 1), (0, 2), (1, 0), (1, 1), (1, 2), (2, 0), (2, 1), (2, 2)] (by decide) (by decide) Φ

theorem bigSep_fin34 {M : Type _} [URA M] (Φ : Fin 3 × Fin 4 → sProp M) :
    bigSep Finset.univ Φ = iprop(Φ (0, 0) ∗ Φ (0, 1) ∗ Φ (0, 2) ∗ Φ (0, 3) ∗ Φ (1, 0) ∗ Φ (1, 1) ∗ Φ (1, 2) ∗ Φ (1, 3)
      ∗ Φ (2, 0) ∗ Φ (2, 1) ∗ Φ (2, 2) ∗ Φ (2, 3)) :=
  bigSep_univ_eq_bigSepL [(0, 0), (0, 1), (0, 2), (0, 3), (1, 0), (1, 1), (1, 2), (1, 3), (2, 0), (2, 1), (2, 2), (2, 3)]
    (by decide) (by decide) Φ

syntax "igives " (colGt ident)* : tactic
macro_rules
  | `(tactic| igives) => `(tactic| skip)
  | `(tactic| igives $h $hs*) => `(tactic| (isplitl [$h]; (· iexact $h); igives $hs*))

theorem inv_at (K : Dev nD × CK → ℕ) (d : Dev nD) (k : CK) :
    records V K ⊢ cellInv ER (sched V) (K (d, k)) (cell d k) := by
  unfold records
  have h : (bigSep Finset.univ fun ck : Dev nD × CK => cellInv ER (sched V) (K ck) (cell ck.1 ck.2))
      ⊢ cellInv ER (sched V) (K (d, k)) (cell d k) := BI.bigSep_elim (i := (d, k)) (Finset.mem_univ _)
  iintro ⟨H, -⟩
  iapply h
  iexact H

theorem reached_at (K : Dev nD × CK → ℕ) (d : Dev nD) (k : CK) :
    records V K ⊢ (reached ER (cell d k) 0 : sProp 𝕄) := by
  unfold records
  have h : (bigSep Finset.univ fun ck : Dev nD × CK => (reached ER (cell ck.1 ck.2) 0 : sProp 𝕄))
      ⊢ (reached ER (cell d k) 0 : sProp 𝕄) := BI.bigSep_elim (i := (d, k)) (Finset.mem_univ _)
  iintro ⟨-, H⟩
  iapply h
  iexact H

theorem pers_both {R A B : sProp 𝕄} [BI.Persistent R] (h1 : R ⊢ A) (h2 : R ⊢ B) : R ⊢ iprop(A ∗ B) := by
  iintro #H
  isplitl
  · iapply h1; iexact H
  · iapply h2; iexact H

theorem records_groups (K : Dev nD × CK → ℕ) (c : Dev nD) :
    records V K ⊢ iprop(
      (bigSep Finset.univ fun k : CK => cellInv ER (sched V) (K (c, k)) (cell c k))
      ∗ (bigSep Finset.univ fun p : Fin 3 => cellInv ER (sched V) (K (pe c p, CK.bar)) (cell (pe c p) .bar))
      ∗ (bigSep Finset.univ fun pt : Fin 3 × Fin 3 => cellInv ER (sched V) (K (pe c pt.1, CK.pr pt.1 pt.2)) (cell (pe c pt.1) (.pr pt.1 pt.2)))
      ∗ (bigSep Finset.univ fun ph : Fin 3 × Fin 4 => cellInv ER (sched V) (K (pe c ph.1, CK.orr ph.1 ph.2)) (cell (pe c ph.1) (.orr ph.1 ph.2)))
      ∗ (bigSep Finset.univ fun k : CK => (reached ER (cell c k) 0 : sProp 𝕄))
      ∗ (bigSep Finset.univ fun p : Fin 3 => (reached ER (cell (pe c p) .bar) 0 : sProp 𝕄))
      ∗ (bigSep Finset.univ fun pt : Fin 3 × Fin 3 => (reached ER (cell (pe c pt.1) (.pr pt.1 pt.2)) 0 : sProp 𝕄))
      ∗ (bigSep Finset.univ fun ph : Fin 3 × Fin 4 => (reached ER (cell (pe c ph.1) (.orr ph.1 ph.2)) 0 : sProp 𝕄))) :=
  pers_both (bigSep_intro_persistent fun k _ => inv_at V K c k) <|
  pers_both (bigSep_intro_persistent fun p _ => inv_at V K (pe c p) .bar) <|
  pers_both (bigSep_intro_persistent fun pt _ => inv_at V K (pe c pt.1) (.pr pt.1 pt.2)) <|
  pers_both (bigSep_intro_persistent fun ph _ => inv_at V K (pe c ph.1) (.orr ph.1 ph.2)) <|
  pers_both (bigSep_intro_persistent fun k _ => reached_at V K c k) <|
  pers_both (bigSep_intro_persistent fun p _ => reached_at V K (pe c p) .bar) <|
  pers_both (bigSep_intro_persistent fun pt _ => reached_at V K (pe c pt.1) (.pr pt.1 pt.2)) <|
  bigSep_intro_persistent fun ph _ => reached_at V K (pe c ph.1) (.orr ph.1 ph.2)

theorem before_0 (c : Dev nD) (d) : (dats m ρ V outV 0 c).before 0 t0_0 d = iblk m c 0 t0_0 :=
  ((dats m ρ V outV 0 c).before_in_eq_fetched 0 rfl (fun _ => rfl) (fun _ _ _ => rfl) (fun t => by rfl) t0_0 d).trans (by rfl)
theorem before_1 (c : Dev nD) (d) : (dats m ρ V outV 0 c).before 1 t0_0 d = iblk m c 1 t0_0 :=
  ((dats m ρ V outV 0 c).before_in_eq_fetched 1 rfl (fun _ => rfl) (fun _ _ _ => rfl) (fun t => by rfl) t0_0 d).trans (by rfl)
theorem before_2 (c : Dev nD) (d) : (dats m ρ V outV 0 c).before 2 t0_0 d = iblk m c 2 t0_0 :=
  ((dats m ρ V outV 0 c).before_in_eq_fetched 2 rfl (fun _ => rfl) (fun _ _ _ => rfl) (fun t => by rfl) t0_0 d).trans (by rfl)
theorem before_3 (c : Dev nD) (d) : (dats m ρ V outV 0 c).before 3 t0_0 d = iblk m c 3 t0_0 :=
  ((dats m ρ V outV 0 c).before_in_eq_fetched 3 rfl (fun _ => rfl) (fun _ _ _ => rfl) (fun t => by rfl) t0_0 d).trans (by rfl)
theorem before_4 (c : Dev nD) (d) : (dats m ρ V outV 0 c).before 4 t0_0 d = iblk m c 4 t0_0 :=
  ((dats m ρ V outV 0 c).before_in_eq_fetched 4 rfl (fun _ => rfl) (fun _ _ _ => rfl) (fun t => by rfl) t0_0 d).trans (by rfl)
theorem before_5 (c : Dev nD) (d) : (dats m ρ V outV 0 c).before 5 t0_0 d = iblk m c 5 t0_0 :=
  ((dats m ρ V outV 0 c).before_in_eq_fetched 5 rfl (fun _ => rfl) (fun _ _ _ => rfl) (fun t => by rfl) t0_0 d).trans (by rfl)

-- A whole buffer owned at `X` is its points-to, read through the memref of the whole buffer.
theorem pt_whole (c : Dev nD) (b : Ref sig .tc) (q : PosShare TreeShare) (X : b.ty.Contents (Elt F)) :
    (owns (c : Thread nD τ) (Memref.whole b) q X : sProp 𝕄) = PT(c, Memref.whole b, q, X) := by
  rw [owns_whole]; simp only [Memref.view_whole, View.set_whole]

theorem loc_pt (c : Dev nD) (b : Ref sig .tc) (q : PosShare TreeShare) (f : Buf (Elt F) ((c : Thread nD τ).loc b)) :
    (((c : Thread nD τ).loc b) ↦{q} f : sProp 𝕄) = PT(c, Memref.whole b, q, f) := by
  simp only [Memref.view_whole, View.set_whole]

theorem owes_unpack (c : Dev nD) :
    (dats m ρ V outV 0 c).owesAt () t0_0.castSucc ⊢ iprop(∃ W, owes (c : Thread nD τ) (Oord c) W) := by
  rw [← O₀_ord]
  iintro ⟨%W, -, H⟩
  iexists W
  iexact H

theorem creds_chain (c : Dev nD) :
    creds (F := F) c ⊢ iprop(cred (tallyAt (cell c .bar) () 3)
      ∗ (cred (tallyAt (cell c (.pr 0 0)) () NC) ∗ cred (tallyAt (cell c (.pr 0 1)) () NU) ∗ cred (tallyAt (cell c (.pr 0 2)) () NU)
        ∗ cred (tallyAt (cell c (.pr 1 0)) () NC) ∗ cred (tallyAt (cell c (.pr 1 1)) () NU) ∗ cred (tallyAt (cell c (.pr 1 2)) () NU)
        ∗ cred (tallyAt (cell c (.pr 2 0)) () NC) ∗ cred (tallyAt (cell c (.pr 2 1)) () NU) ∗ cred (tallyAt (cell c (.pr 2 2)) () NU))
      ∗ (cred (tallyAt (cell c (.orr 0 0)) () NO) ∗ cred (tallyAt (cell c (.orr 0 1)) () NO) ∗ cred (tallyAt (cell c (.orr 0 2)) () NO)
        ∗ cred (tallyAt (cell c (.orr 0 3)) () NO) ∗ cred (tallyAt (cell c (.orr 1 0)) () NO) ∗ cred (tallyAt (cell c (.orr 1 1)) () NO)
        ∗ cred (tallyAt (cell c (.orr 1 2)) () NO) ∗ cred (tallyAt (cell c (.orr 1 3)) () NO) ∗ cred (tallyAt (cell c (.orr 2 0)) () NO)
        ∗ cred (tallyAt (cell c (.orr 2 1)) () NO) ∗ cred (tallyAt (cell c (.orr 2 2)) () NO) ∗ cred (tallyAt (cell c (.orr 2 3)) () NO))) := by
  unfold creds
  rw [bigSep_fin33, bigSep_fin34]
  exact .rfl

end Cert.KernelProof
end
-- ==== Proof.Bits.PackParts.lean ====
import proofs.«900571_g7700000000000572_dist_mla_v7x_i4_i_b2_s512_d2048_dc128_f32_1_alg».proof.Proof.Bits.UnpackParts

noncomputable section

namespace Cert.KernelProof

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (V : PVals F)
variable (outV : Dev nD → (cc0_stg6_0 : Ref sig .tc).ty.Contents (Elt F))

theorem owes_pack (c : Dev nD) (W : Waits sig Unit) :
    owes (c : Thread nD τ) (0 : CellTallies nD τ sig Unit) W ⊢ (dats m ρ V outV 0 c).owesAt () t0_0.succ := by
  iintro H
  iexists W
  isplitr
  · ipureintro; exact fun _ _ => Or.inl trivial
  · iexact H

end Cert.KernelProof
end
-- ==== Proof.Bits.Unpack.lean ====
import proofs.«900571_g7700000000000572_dist_mla_v7x_i4_i_b2_s512_d2048_dc128_f32_1_alg».proof.Proof.Bits.UnpackParts

noncomputable section

namespace Cert.KernelProof

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (V : PVals F)
variable (outV : Dev nD → (cc0_stg6_0 : Ref sig .tc).ty.Contents (Elt F))

def bodyPre (c : Dev nD) : sProp 𝕄 :=
  iprop((dats m ρ V outV 0 c).Φ t0_0.castSucc ∗ (dats m ρ V outV 0 c).owesAt () t0_0.castSucc
    ∗ (∃ d, owns (c : Thread nD τ) (st0_0 t0_0) fullShare ((dats m ρ V outV 0 c).before 0 t0_0 d))
    ∗ (∃ d, owns (c : Thread nD τ) (st0_1 t0_0) fullShare ((dats m ρ V outV 0 c).before 1 t0_0 d))
    ∗ (∃ d, owns (c : Thread nD τ) (st0_2 t0_0) fullShare ((dats m ρ V outV 0 c).before 2 t0_0 d))
    ∗ (∃ d, owns (c : Thread nD τ) (st0_3 t0_0) fullShare ((dats m ρ V outV 0 c).before 3 t0_0 d))
    ∗ (∃ d, owns (c : Thread nD τ) (st0_4 t0_0) fullShare ((dats m ρ V outV 0 c).before 4 t0_0 d))
    ∗ (∃ d, owns (c : Thread nD τ) (st0_5 t0_0) fullShare ((dats m ρ V outV 0 c).before 5 t0_0 d))
    ∗ (∃ d, owns (c : Thread nD τ) (st0_6 t0_0) fullShare ((dats m ρ V outV 0 c).before 6 t0_0 d)))

set_option maxHeartbeats 4000000 in
theorem unpack (c : Dev nD) :
    bodyPre m ρ V outV c ⊢ iprop(∃ K W X6 f9 f10 f11 f12 f13 f14 f15 f16 f17,
      bodyCtx V K c W (iblk m c 0 t0_0) (iblk m c 1 t0_0) (iblk m c 2 t0_0) (iblk m c 3 t0_0) (iblk m c 4 t0_0) (iblk m c 5 t0_0) X6
        (m ((c : Thread nD τ).loc main_arg4)) (m ((c : Thread nD τ).loc main_arg7)) f9 f10 f11 f12 f13 f14 f15 f16 f17) := by
  have ho := owes_unpack m ρ V outV c
  unfold Oord at ho
  have hso : ∀ f15 : Buf (Elt F) ((c : Thread nD τ).loc cc0_scratch6), _ := fun f15 => split_o_ring (F := F) c f15
  unfold oSlot at hso
  unfold bodyPre
  rw [show (dats m ρ V outV 0 c).Φ t0_0.castSucc = Φ₀ m V c from rfl]
  simp only [before_0 m ρ V outV c, before_1 m ρ V outV c, before_2 m ρ V outV c, before_3 m ρ V outV c,
    before_4 m ρ V outV c, before_5 m ρ V outV c]
  unfold Φ₀ start linear payToks localSems hbmIn scratchAny
  rw [scopedRest0_eq, bigSep_CK, bigSep_fin3, bigSep_fin33, bigSep_fin34, bigSep_fin33, bigSep_fin34]
  iintro ⟨⟨⟨⟨%K, #Hrec, ⟨p0, p1, p2, p3, p4, p5, p6, p7, p8, p9, p10, p11, p12, p13, p14, p15, p16, p17, p18, p19, p20, p21, p22,
        p23, p24, p25, p26, p27, p28, p29, p30, p31, p32, p33, p34, p35, p36, p37, p38, p39, p40, p41, p42⟩,
      ⟨tb0, tb1, tb2⟩, ⟨tr0, tr1, tr2, tr3, tr4, tr5, tr6, tr7, tr8⟩,
      ⟨to0, to1, to2, to3, to4, to5, to6, to7, to8, to9, to10, to11⟩,
      ⟨ts0, ts1, ts2, ts3, ts4, ts5, ts6, ts7, ts8⟩,
      ⟨tz0, tz1, tz2, tz3, tz4, tz5, tz6, tz7, tz8, tz9, tz10, tz11⟩⟩, Hcr, Hlev⟩, ⟨Hwq, Hwo⟩, ⟨H4, H7⟩,
      ⟨%f9, S9⟩, ⟨%f10, S10⟩, ⟨%f11, S11⟩, ⟨%f12, S12⟩, ⟨%f13, S13⟩, ⟨%f14, S14⟩, ⟨%f15, S15⟩, ⟨%f16, S16⟩, ⟨%f17, S17⟩⟩,
    Ho0, ⟨%d0, W0⟩, ⟨%d1, W1⟩, ⟨%d2, W2⟩, ⟨%d3, W3⟩, ⟨%d4, W4⟩, ⟨%d5, W5⟩, ⟨%d6, W6⟩⟩
  have hg := records_groups V K c
  rw [bigSep_CK, bigSep_fin3, bigSep_fin33, bigSep_fin34, bigSep_CK, bigSep_fin3, bigSep_fin33, bigSep_fin34] at hg
  ihave ⟨⟨#i0, #i1, #i2, #i3, #i4, #i5, #i6, #i7, #i8, #i9, #i10, #i11, #i12, #i13, #i14, #i15, #i16, #i17, #i18, #i19, #i20, #i21,
      #i22, #i23, #i24, #i25, #i26, #i27, #i28, #i29, #i30, #i31, #i32, #i33, #i34, #i35, #i36, #i37, #i38, #i39, #i40, #i41, #i42⟩,
    ⟨#ib0, #ib1, #ib2⟩, ⟨#ip0, #ip1, #ip2, #ip3, #ip4, #ip5, #ip6, #ip7, #ip8⟩,
    ⟨#io0, #io1, #io2, #io3, #io4, #io5, #io6, #io7, #io8, #io9, #io10, #io11⟩,
    ⟨#r0, #r1, #r2, #r3, #r4, #r5, #r6, #r7, #r8, #r9, #r10, #r11, #r12, #r13, #r14, #r15, #r16, #r17, #r18, #r19, #r20, #r21,
      #r22, #r23, #r24, #r25, #r26, #r27, #r28, #r29, #r30, #r31, #r32, #r33, #r34, #r35, #r36, #r37, #r38, #r39, #r40, #r41, #r42⟩,
    ⟨#rb0, #rb1, #rb2⟩, ⟨#rp0, #rp1, #rp2, #rp3, #rp4, #rp5, #rp6, #rp7, #rp8⟩,
    ⟨#ro0, #ro1, #ro2, #ro3, #ro4, #ro5, #ro6, #ro7, #ro8, #ro9, #ro10, #ro11⟩⟩ := hg $$ Hrec
  ihave ⟨cb, ⟨cr0, cr1, cr2, cr3, cr4, cr5, cr6, cr7, cr8⟩,
    ⟨co0, co1, co2, co3, co4, co5, co6, co7, co8, co9, co10, co11⟩⟩ := (creds_chain (F := F) c) $$ Hcr
  ihave ⟨%W, Ho⟩ := ho $$ Ho0
  ihave P0 := (Entails.of_eq (pt_whole (F := F) c cc0_stg0_0 _ _)) $$ W0
  ihave P1 := (Entails.of_eq (pt_whole (F := F) c cc0_stg1_0 _ _)) $$ W1
  ihave P2 := (Entails.of_eq (pt_whole (F := F) c cc0_stg2_0 _ _)) $$ W2
  ihave P3 := (Entails.of_eq (pt_whole (F := F) c cc0_stg3_0 _ _)) $$ W3
  ihave P4 := (Entails.of_eq (pt_whole (F := F) c cc0_stg4_0 _ _)) $$ W4
  ihave P5 := (Entails.of_eq (pt_whole (F := F) c cc0_stg5_0 _ _)) $$ W5
  ihave P6 := (Entails.of_eq (pt_whole (F := F) c cc0_stg6_0 _ _)) $$ W6
  ihave Q9 := (Entails.of_eq (loc_pt (F := F) c cc0_scratch0 _ f9)) $$ S9
  ihave Q11 := (Entails.of_eq (loc_pt (F := F) c cc0_scratch2 _ f11)) $$ S11
  ihave Q12 := (Entails.of_eq (loc_pt (F := F) c cc0_scratch3 _ f12)) $$ S12
  ihave Q16 := (Entails.of_eq (loc_pt (F := F) c cc0_scratch7 _ f16)) $$ S16
  ihave Q17 := (Entails.of_eq (loc_pt (F := F) c cc0_scratch8 _ f17)) $$ S17
  ihave ⟨Cc, Cc0, Cc1, Cc2⟩ := (split_c_ring (F := F) c f10) $$ S10
  ihave ⟨Ck, Ck0, Ck1, Ck2⟩ := (split_uk_ring (F := F) c f13) $$ S13
  ihave ⟨Cv, Cv0, Cv1, Cv2⟩ := (split_uv_ring (F := F) c f14) $$ S14
  ihave ⟨⟨Oa0, Oa1, Oa2, Oa3⟩, ⟨Ob0, Ob1, Ob2, Ob3⟩, ⟨Oc0, Oc1, Oc2, Oc3⟩, ⟨Od0, Od1, Od2, Od3⟩⟩ := (hso f15) $$ S15
  iexists K, W, ((dats m ρ V outV 0 c).before 6 t0_0 d6), f9, f10, f11, f12, f13, f14, f15, f16, f17
  unfold bodyCtx
  iframe # ∗
  igives P0 P1 P2 P3 P4 P5 P6 H4 H7 Q9 Q11 Q12 Q16
  iexact Q17

def bodyPost (c : Dev nD) : sProp 𝕄 :=
  iprop((dats m ρ V outV 0 c).Φ t0_0.succ ∗ (dats m ρ V outV 0 c).owesAt () t0_0.succ
    ∗ owns (c : Thread nD τ) (st0_0 t0_0) fullShare ((dats m ρ V outV 0 c).after 0 t0_0)
    ∗ owns (c : Thread nD τ) (st0_1 t0_0) fullShare ((dats m ρ V outV 0 c).after 1 t0_0)
    ∗ owns (c : Thread nD τ) (st0_2 t0_0) fullShare ((dats m ρ V outV 0 c).after 2 t0_0)
    ∗ owns (c : Thread nD τ) (st0_3 t0_0) fullShare ((dats m ρ V outV 0 c).after 3 t0_0)
    ∗ owns (c : Thread nD τ) (st0_4 t0_0) fullShare ((dats m ρ V outV 0 c).after 4 t0_0)
    ∗ owns (c : Thread nD τ) (st0_5 t0_0) fullShare ((dats m ρ V outV 0 c).after 5 t0_0)
    ∗ owns (c : Thread nD τ) (st0_6 t0_0) fullShare ((dats m ρ V outV 0 c).after 6 t0_0))

theorem body_obligation_of (c : Dev nD)
    (h : bodyPre m ρ V outV c ⊢ wp frame (wpE (defs₀ (F := F)) 𝒱₀ c none) Set.univ (bodyAt0 t0_0) (fun _ => bodyPost m ρ V outV c)) :
    BodyObligation (dats (F := F) m ρ V outV 0 c) (defs₀ (F := F)) 𝒱₀ () Set.univ := fun t => by
  rw [fin_N0 t, bigSep_W0, bigSep_W0]
  exact h

end Cert.KernelProof
end
-- ==== Proof.Bits.Pack.lean ====
import proofs.«900571_g7700000000000572_dist_mla_v7x_i4_i_b2_s512_d2048_dc128_f32_1_alg».proof.Proof.Bits.PackParts
import proofs.«900571_g7700000000000572_dist_mla_v7x_i4_i_b2_s512_d2048_dc128_f32_1_alg».proof.Proof.Bits.Unpack

noncomputable section

namespace Cert.KernelProof

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (V : PVals F)
variable (outV : Dev nD → (cc0_stg6_0 : Ref sig .tc).ty.Contents (Elt F))

local notation "PT(" c ", " M ", " q ", " f ")" => (View.loc (c : Thread nD τ) (Memref.view M) ↦[View.set (Memref.view M)]{q} f)

def endCtx (c : Dev nD) (W' : Waits sig Unit) : sProp 𝕄 :=
  iprop(PT(c, Bs0, fullShare, iblk m c 0 t0_0) ∗ PT(c, Bs1, fullShare, iblk m c 1 t0_0) ∗ PT(c, Bs2, fullShare, iblk m c 2 t0_0)
    ∗ PT(c, Bs3, fullShare, iblk m c 3 t0_0) ∗ PT(c, Bs4, fullShare, iblk m c 4 t0_0) ∗ PT(c, Bs5, fullShare, iblk m c 5 t0_0)
    ∗ PT(c, Bs6, fullShare, outV c)
    ∗ (View.loc (c : Thread nD τ) (Memref.view B4) ↦{fullShare} m ((c : Thread nD τ).loc main_arg4))
    ∗ (View.loc (c : Thread nD τ) (Memref.view B7) ↦{fullShare} m ((c : Thread nD τ).loc main_arg7))
    ∗ scratchAny (F := F) c
    ∗ Pipeline.ownSems0 (Ix := Unit) (Name := ℕ) (U := UU) (Lvl := ℕ) (Val := Elt F) (τ := τ) osem c
    ∗ owes (c : Thread nD τ) 0 W')

theorem pack_endCtx (c : Dev nD) (W' : Waits sig Unit) : endCtx m outV c W' ⊢ bodyPost m ρ V outV c := by
  unfold endCtx bodyPost
  rw [show (dats m ρ V outV 0 c).Φ t0_0.succ = Φ₁ m c from rfl]
  dsimp only [dats]
  unfold Φ₁ hbmIn
  iintro ⟨P0, P1, P2, P3, P4, P5, P6, Q4, Q7, Hs, Hsem, Ho⟩
  isplitl [Q4 Q7 Hs Hsem]
  · isplitl [Q4 Q7]
    · isplitl [Q4]
      · iexact Q4
      · iexact Q7
    isplitl [Hs]; · iexact Hs
    iexact Hsem
  isplitl [Ho]; · iapply (owes_pack m ρ V outV c W'); iexact Ho
  isplitl [P0]; · iapply (Entails.of_eq (pt_whole (F := F) c cc0_stg0_0 _ _).symm); iexact P0
  isplitl [P1]; · iapply (Entails.of_eq (pt_whole (F := F) c cc0_stg1_0 _ _).symm); iexact P1
  isplitl [P2]; · iapply (Entails.of_eq (pt_whole (F := F) c cc0_stg2_0 _ _).symm); iexact P2
  isplitl [P3]; · iapply (Entails.of_eq (pt_whole (F := F) c cc0_stg3_0 _ _).symm); iexact P3
  isplitl [P4]; · iapply (Entails.of_eq (pt_whole (F := F) c cc0_stg4_0 _ _).symm); iexact P4
  isplitl [P5]; · iapply (Entails.of_eq (pt_whole (F := F) c cc0_stg5_0 _ _).symm); iexact P5
  iapply (Entails.of_eq (pt_whole (F := F) c cc0_stg6_0 _ _).symm); iexact P6

end Cert.KernelProof
end
-- ==== Proof.Bits.KVals.lean ====
import proofs.«900571_g7700000000000572_dist_mla_v7x_i4_i_b2_s512_d2048_dc128_f32_1_alg».proof.Proof.Gen.Kernel.Skeleton

noncomputable section

namespace Cert.MlaKerBits

open Idealize.ShloMosaic Cert.Kernel Cert.Kernel.Gen

variable {F : FTy → Type} [FloatOps F]

/-- One device's argument arrays. -/
structure Ins (F : FTy → Type) where
  x : Vec F S2x512x2048 .f32
  wdkv : Vec F S2048x128 .f32
  wuk : Vec F S128x2048 .f32
  wuv : Vec F S128x2048 .f32
  wkr : Vec F S2048x32 .f32
  wqr : Vec F S2048x512 .f32
  wq : Vec F S2048x2048 .f32
  wo : Vec F S2048x2048 .f32

def rd {α : Type} {s : Shape} (A : s.Idx → α) (r : LoadRect s) : r.shape.Idx → α := fun j => A (r.idx j)

def wr {α : Type} {s : Shape} (A : s.Idx → α) (off size : Fin s.rank → Nat) (inb : ∀ a, off a + size a ≤ s.size a)
    (w : (Rect.unit off size inb).shape.Idx → α) : s.Idx → α :=
  updateSlice A w off ⟨rfl, inb⟩

/-- The device `r + 1` places before `c` on the ring of four. -/
def org (c : Dev nD) (r : Fin 3) : Dev nD := ⟨((c.val + 3) - r.val) % 4, Nat.mod_lt _ (by decide)⟩

abbrev colOff (g : Dev nD) : Fin 2 → Nat := ![0, 512 * g.val]
theorem colOff_inb : ∀ g : Dev nD, ∀ a, colOff g a + S128x512.size a ≤ S128x2048.size a := by decide +kernel

abbrev rowOff (g : Dev nD) : Fin 2 → Nat := ![512 * g.val, 0]
theorem rowOff_inb : ∀ g : Dev nD, ∀ a, rowOff g a + S512x2048.size a ≤ S2048x2048.size a := by decide +kernel

abbrev oOff (r : Fin 2) (h : Fin 4) : Fin 3 → Nat := ![0, 512 * r.val, 128 * h.val]
theorem oOff_inb : ∀ (r : Fin 2) (h : Fin 4), ∀ a, oOff r h a + S1x512x128.size a ≤ S1x1024x512.size a := by decide +kernel

section chain
variable (I : Dev nD → Ins F) (c : Dev nD)

def xbfFrom (f0 : Vec F S1024x2048 .bf16) : Vec F S1024x2048 .bf16 :=
  wr (wr f0 ![0, 0] S512x2048.size inb_S1024x2048_S512x2048_0_0
        (k0_pay1 (rd (I c).x (Rect.unit (s := S2x512x2048) ![0, 0, 0] S1x512x2048.size inb_S2x512x2048_S1x512x2048_0_0_0).toLoadRect)))
     ![512, 0] S512x2048.size inb_S1024x2048_S512x2048_512_0
        (k0_pay2 (rd (I c).x (Rect.unit (s := S2x512x2048) ![1, 0, 0] S1x512x2048.size inb_S2x512x2048_S1x512x2048_1_0_0).toLoadRect))

/-- The input rows, both batch elements stacked, in the narrow format. -/
def xbf : Vec F S1024x2048 .bf16 := xbfFrom I c (constant S1024x2048 .bf16 0)

/-- The device's block of the latent. -/
def cOwn : Vec F S1x1024x128 .bf16 := k0_pay3 (xbf I c) (I c).wdkv

def wukbf : Vec F S128x2048 .bf16 := k0_pay4 (I c).wuk
def wuvbf : Vec F S128x2048 .bf16 := k0_pay5 (I c).wuv

def wukCols (g : Dev nD) : Vec F S128x512 .bf16 :=
  rd (wukbf I c) (Rect.unit (s := S128x2048) (colOff g) S128x512.size (colOff_inb g)).toLoadRect
def wuvCols (g : Dev nD) : Vec F S128x512 .bf16 :=
  rd (wuvbf I c) (Rect.unit (s := S128x2048) (colOff g) S128x512.size (colOff_inb g)).toLoadRect

/-- Device `g`'s rows of the key up-projection, columns of head group `c`. -/
def wukSlot (g : Dev nD) : Vec F S1x128x512 .bf16 := k0_pay6 (wukCols I g c)
def wuvSlot (g : Dev nD) : Vec F S1x128x512 .bf16 := k0_pay7 (wuvCols I g c)

def kr : FVec F S1024x32 .bf16 := k0_pay8 (xbf I c) (I c).wkr

def qr : FVec F S1024x128 .bf16 :=
  k0_pay9 (xbf I c) (rd (I c).wqr (Rect.unit (s := S2048x512) (k0_off9 c) S2048x128.size (k0_off9_inb c)).toLoadRect)

def wqSt : Vec F S2048x512 .f32 :=
  rd (I c).wq (Rect.unit (s := S2048x2048) (k0_off1 c) S2048x512.size (k0_off1_inb c)).toLoadRect

def q : FVec F S1024x512 .bf16 := k0_pay10 (xbf I c) (wqSt I c)

def kAcc0 : FVec F S1024x512 .f32 := k0_pay11 (cOwn I c) (wukSlot I c c)
def vAcc0 : FVec F S1024x512 .f32 := k0_pay12 (cOwn I c) (wuvSlot I c c)
def kAcc1 : FVec F S1024x512 .f32 := k0_pay13 (kAcc0 I c) (cOwn I (org c 0)) (wukSlot I c (org c 0))
def vAcc1 : FVec F S1024x512 .f32 := k0_pay14 (vAcc0 I c) (cOwn I (org c 0)) (wuvSlot I c (org c 0))
def kAcc2 : FVec F S1024x512 .f32 := k0_pay15 (kAcc1 I c) (cOwn I (org c 1)) (wukSlot I c (org c 1))
def vAcc2 : FVec F S1024x512 .f32 := k0_pay16 (vAcc1 I c) (cOwn I (org c 1)) (wuvSlot I c (org c 1))
/-- The keys of the device's head group: the four latent blocks' contributions, own block first. -/
def kMy : FVec F S1024x512 .bf16 := k0_pay17 (kAcc2 I c) (cOwn I (org c 2)) (wukSlot I c (org c 2))
def vMy : FVec F S1024x512 .bf16 := k0_pay18 (vAcc2 I c) (cOwn I (org c 2)) (wuvSlot I c (org c 2))

def oB00 : FVec F S1x512x128 .bf16 :=
  k0_pay23 (k0_pay21 (vAcc2 I c) (cOwn I (org c 2)) (wuvSlot I c (org c 2)))
    (k0_pay22 (kr I c) (qr I c) (q I c) (kAcc2 I c) (cOwn I (org c 2)) (wukSlot I c (org c 2)))
def oB10 : FVec F S1x512x128 .bf16 :=
  k0_pay24 (k0_pay19 (qr I c) (q I c)) (k0_pay20 (kr I c) (kAcc2 I c) (cOwn I (org c 2)) (wukSlot I c (org c 2)))
    (k0_pay21 (vAcc2 I c) (cOwn I (org c 2)) (wuvSlot I c (org c 2)))
def oB01 : FVec F S1x512x128 .bf16 := k0_pay28 (kr I c) (qr I c) (q I c) (kMy I c) (vMy I c)
def oB11 : FVec F S1x512x128 .bf16 :=
  k0_pay32 (k0_pay30 (kr I c) (qr I c) (q I c) (kMy I c) (vMy I c)) (k0_pay31 (kr I c) (qr I c) (q I c) (kMy I c))
def oB02 : FVec F S1x512x128 .bf16 := k0_pay36 (kr I c) (qr I c) (q I c) (kMy I c) (vMy I c)
def oB12 : FVec F S1x512x128 .bf16 :=
  k0_pay39 (k0_pay35 (vMy I c)) (k0_pay37 (qr I c) (q I c)) (k0_pay38 (kr I c) (kMy I c))
def oB03 : FVec F S1x512x128 .bf16 :=
  k0_pay47 (k0_pay44 (kr I c) (qr I c) (q I c) (kMy I c)) (k0_pay45 (kr I c) (qr I c) (q I c) (kMy I c)) (k0_pay46 (vMy I c))
def oB13 : FVec F S1x512x128 .bf16 :=
  k0_pay48 (k0_pay40 (qr I c) (q I c)) (k0_pay41 (kr I c) (kMy I c)) (k0_pay42 (vMy I c))

/-- The attention output of batch element `r` and head `h` of the group. -/
def oBlk : Fin 2 → Fin 4 → FVec F S1x512x128 .bf16
  | 0, 0 => oB00 I c | 1, 0 => oB10 I c
  | 0, 1 => oB01 I c | 1, 1 => oB11 I c
  | 0, 2 => oB02 I c | 1, 2 => oB12 I c
  | 0, 3 => oB03 I c | 1, 3 => oB13 I c

def oOwnFrom (f0 : Vec F S1x1024x512 .bf16) : Vec F S1x1024x512 .bf16 :=
  wr (wr (wr (wr (wr (wr (wr (wr f0
    (oOff 0 0) S1x512x128.size (oOff_inb 0 0) (oB00 I c))
    (oOff 1 0) S1x512x128.size (oOff_inb 1 0) (oB10 I c))
    (oOff 0 1) S1x512x128.size (oOff_inb 0 1) (oB01 I c))
    (oOff 1 1) S1x512x128.size (oOff_inb 1 1) (oB11 I c))
    (oOff 0 2) S1x512x128.size (oOff_inb 0 2) (oB02 I c))
    (oOff 1 2) S1x512x128.size (oOff_inb 1 2) (oB12 I c))
    (oOff 0 3) S1x512x128.size (oOff_inb 0 3) (oB03 I c))
    (oOff 1 3) S1x512x128.size (oOff_inb 1 3) (oB13 I c)

/-- The device's slot of attention outputs. -/
def oOwn : Vec F S1x1024x512 .bf16 := oOwnFrom I c (constant S1x1024x512 .bf16 0)

def woSt (g : Dev nD) : Vec F S512x2048 .f32 :=
  rd (I c).wo (Rect.unit (s := S2048x2048) (rowOff g) S512x2048.size (rowOff_inb g)).toLoadRect

def outL0 : FVec F S2x512x1024 .f32 := k0_pay51 (woSt I c c) (oOwn I c)
def outR0 : FVec F S2x512x1024 .f32 := k0_pay52 (woSt I c c) (oOwn I c)
def outL1 : FVec F S2x512x1024 .f32 := k0_pay55 (woSt I c (org c 0)) (oOwn I (org c 0)) (outL0 I c)
def outR1 : FVec F S2x512x1024 .f32 := k0_pay56 (woSt I c (org c 0)) (oOwn I (org c 0)) (outR0 I c)
def outL2 : FVec F S2x512x1024 .f32 := k0_pay59 (woSt I c (org c 1)) (oOwn I (org c 1)) (outL1 I c)
def outR2 : FVec F S2x512x1024 .f32 := k0_pay60 (woSt I c (org c 1)) (oOwn I (org c 1)) (outR1 I c)
def outL3 : FVec F S2x512x1024 .f32 := k0_pay63 (woSt I c (org c 2)) (oOwn I (org c 2)) (outL2 I c)
def outR3 : FVec F S2x512x1024 .f32 := k0_pay64 (woSt I c (org c 2)) (oOwn I (org c 2)) (outR2 I c)

def outFrom (f0 : Vec F S2x512x2048 .f32) : Vec F S2x512x2048 .f32 :=
  wr (wr f0 ![0, 0, 0] S2x512x1024.size inb_S2x512x2048_S2x512x1024_0_0_0 (outL3 I c))
     ![0, 0, 1024] S2x512x1024.size inb_S2x512x2048_S2x512x1024_0_0_1024 (outR3 I c)

/-- The device's result: the four head groups' output-projection terms, own group first. -/
def out : Vec F S2x512x2048 .f32 := outFrom I c (constant S2x512x2048 .f32 0)

end chain

end Cert.MlaKerBits
-- ==== Proof.Bits.SlotViews.lean ====
import proofs.«900571_g7700000000000572_dist_mla_v7x_i4_i_b2_s512_d2048_dc128_f32_1_alg».proof.Proof.Bits.Proto
import Idealize.ShloMosaic.Lib.Pipeline.Value
import Idealize.ShloMosaic.Lib.ValueIdx

noncomputable section

namespace Cert.KernelProof

open Cert.Kernel Cert.Kernel.Gen
open Idealize.ShloMosaic
open Idealize.ShloMosaic.TcCoe
open Idealize.ShloMosaic.ValueIdx

variable {F : FTy → Type} [FloatOps F]

section Generic
variable {κ : Kind} {Val : EltTy → Type}

theorem read_reshape_slice_whole (b : Ref sig κ) (r : Rect b.ty.shape) (s' : Shape) (h : s'.numel = r.shape.numel)
    (g : b.ty.Contents Val) (j : s'.Idx) :
    (((View.whole b).slice r).reshape s' h).read Val g j = (View.whole b).read Val g (r.emb (Shape.reshapeEquiv h j)) := rfl

/-- Two unit-stride boxes send two indices to one element when offset plus coordinate agree on every axis. -/
theorem emb_unit_eq {s : Shape} {off size off' size' o o' : Fin s.rank → Nat} {inb : ∀ a, off a + size a ≤ s.size a}
    {inb' : ∀ a, off' a + size' a ≤ s.size a} (ho : off = o) (ho' : off' = o') (y : (Rect.unit off size inb).shape.Idx)
    (y' : (Rect.unit off' size' inb').shape.Idx) (h : ∀ a, o a + (y a).val = o' a + (y' a).val) :
    (Rect.unit off size inb).emb y = (Rect.unit off' size' inb').emb y' := by
  subst ho ho'
  funext a
  apply Fin.ext
  show off a + 1 * (y a).val = off' a + 1 * (y' a).val
  rw [Nat.one_mul, Nat.one_mul]
  exact h a

theorem read_slice_writes_box (b : Ref sig κ) (r B : Rect b.ty.shape) (f : b.ty.Contents Val) (w : B.shape.Idx → Val b.ty.elt)
    (j : r.shape.Idx) (x : B.shape.Idx) (hidx : r.emb j = B.emb x) :
    ((View.whole b).slice r).read Val ((View.whole b).writes Val f [⟨B, w⟩]) j = w x := by
  show (View.whole b).read Val (((View.whole b).slice B).write Val f w Finset.univ) (r.emb j) = w x
  rw [hidx]
  exact View.read_slice_write_emb (v := View.whole b) B f w (Finset.mem_univ x)

/-- A load through one unit-stride box agrees with the read through another, reshaped to `s'`, where both land on one element. -/
theorem readAt_unit_eq_read_reshape (b : Ref sig κ) {off size off' size' o' : Fin b.ty.shape.rank → Nat}
    (inb : ∀ a, off a + size a ≤ b.ty.shape.size a) (inb' : ∀ a, off' a + size' a ≤ b.ty.shape.size a) (ho' : off' = o')
    (s' : Shape) (h : s'.numel = (Rect.unit off' size' inb').shape.numel) (g : b.ty.Contents Val)
    (y : (Rect.unit off size inb).shape.Idx) (j : s'.Idx) {j' : (Rect.unit off' size' inb').shape.Idx}
    (hj : Shape.reshapeEquiv h j = j') (hidx : ∀ a, off a + (y a).val = o' a + (j' a).val) :
    (View.whole b).readAt Val (Rect.unit off size inb).toLoadRect g y
      = (((View.whole b).slice (Rect.unit off' size' inb')).reshape s' h).read Val g j := by
  subst hj
  rw [read_reshape_slice_whole, View.readAt_apply]
  exact congrArg ((View.whole b).read Val g) (emb_unit_eq rfl ho' y _ hidx)

end Generic

theorem reshapeEquiv_addUnit {n1 n2 : Nat} (h : (⟨2, ![n1, n2]⟩ : Shape).numel = (⟨3, ![1, n1, n2]⟩ : Shape).numel)
    (p : Fin n1) (q : Fin n2) :
    Shape.reshapeEquiv h (ix2 p q) = ix3 (0 : Fin 1) p q := by
  refine Shape.reshapeEquiv_eq_of_rowMajor h ?_
  have e3 := Shape.rowMajor_val_three (d := ![1, n1, n2]) (ix3 (0 : Fin 1) p q)
  have e2 := Shape.rowMajor_val_two (d := ![n1, n2]) (ix2 p q)
  rw [e3, e2]
  show (0 * n1 + p.val) * n2 + q.val = p.val * n2 + q.val
  rw [Nat.zero_mul, Nat.zero_add]

theorem read_cM_write (c : Dev nD) (f10 : Buf (Elt F) ((c : Thread nD τ).loc cc0_scratch1)) (w : FVec F S1x1024x128 .bf16) :
    (cM c).view.read (Elt F)
        (((Memref.whole cc0_scratch1).access (Rect.unit (s := S4x1024x128) (k0_off3 c) S1x1024x128.size (k0_off3_inb c))).write
          (Elt F) f10 w Finset.univ)
      = fun j => w (ix3 0 (j 0) (j 1)) := by
  funext j
  refine read_slice_writes_box (Val := Elt F) cc0_scratch1 (Rect.unit (s := S4x1024x128) (k0_off6 c) S1x1024x128.size (k0_off6_inb c))
    (Rect.unit (s := S4x1024x128) (k0_off3 c) S1x1024x128.size (k0_off3_inb c)) f10 w
    (Shape.reshapeEquiv squeezes_S1x1024x128_S1024x128.numel_eq j) (ix3 0 (j 0) (j 1))
    (emb_unit_eq (k0_off6_eq c) (k0_off3_eq c) _ _ fun a => ?_)
  exact congrArg (fun i : S1x1024x128.Idx => (![c.val, 0, 0] : Fin 3 → Nat) a + (i a).val)
    ((congrArg (Shape.reshapeEquiv squeezes_S1x1024x128_S1024x128.numel_eq) (eq_ix2 j)).trans (reshapeEquiv_addUnit _ (j 0) (j 1)))

def sentCol (c : Dev nD) (p : Fin 3) (q : Fin 512) : Fin 2048 :=
  ⟨512 * (pe c p).val + q.val, by have h2 : (pe c p).val < 4 := (pe c p).isLt; omega⟩

theorem sent_box_emb (c : Dev nD) (p : Fin 3) (a : Fin 128) (q : Fin 512) :
    (Rect.unit (s := S128x2048) (k0_off8 c (BitVec.ofNat 32 (1 + p.val))) S128x512.size (k0_off8_inb c p)).emb (ix2 a q)
      = (Rect.unit (s := S128x2048) ![0, 0] S128x2048.size inb_S128x2048_S128x2048_0_0).emb (ix2 a (sentCol c p q)) := by
  refine emb_unit_eq (k0_off8_eq c p) rfl _ _ fun x => ?_
  match x with
  | ⟨0, _⟩ => rfl
  | ⟨1, _⟩ => exact (Nat.zero_add _).symm

theorem read_ukS_writes (c : Dev nD) (p : Fin 3) (f : Buf (Elt F) ((c : Thread nD τ).loc cc0_scratch2)) (w : FVec F S128x2048 .bf16)
    (a : Fin 128) (q : Fin 512) :
    (ukS c p).view.read (Elt F)
        (A11.view.writes (Elt F) f
          [⟨Rect.unit (s := S128x2048) ![0, 0] S128x2048.size inb_S128x2048_S128x2048_0_0, w⟩]) (ix2 a q)
      = w (ix2 a (sentCol c p q)) :=
  read_slice_writes_box (Val := Elt F) cc0_scratch2
    (Rect.unit (s := S128x2048) (k0_off8 c (BitVec.ofNat 32 (1 + p.val))) S128x512.size (k0_off8_inb c p))
    (Rect.unit (s := S128x2048) ![0, 0] S128x2048.size inb_S128x2048_S128x2048_0_0) f w (ix2 a q) (ix2 a (sentCol c p q)) (sent_box_emb c p a q)

theorem read_uvS_writes (c : Dev nD) (p : Fin 3) (f : Buf (Elt F) ((c : Thread nD τ).loc cc0_scratch3)) (w : FVec F S128x2048 .bf16)
    (a : Fin 128) (q : Fin 512) :
    (uvS c p).view.read (Elt F)
        (A12.view.writes (Elt F) f
          [⟨Rect.unit (s := S128x2048) ![0, 0] S128x2048.size inb_S128x2048_S128x2048_0_0, w⟩]) (ix2 a q)
      = w (ix2 a (sentCol c p q)) :=
  read_slice_writes_box (Val := Elt F) cc0_scratch3
    (Rect.unit (s := S128x2048) (k0_off8 c (BitVec.ofNat 32 (1 + p.val))) S128x512.size (k0_off8_inb c p))
    (Rect.unit (s := S128x2048) ![0, 0] S128x2048.size inb_S128x2048_S128x2048_0_0) f w (ix2 a q) (ix2 a (sentCol c p q)) (sent_box_emb c p a q)

theorem readAt_cM (d : Dev nD) {off : Fin 3 → Nat} (hoff : off = ![d.val, 0, 0])
    (inb : ∀ a, off a + S1x1024x128.size a ≤ S4x1024x128.size a) {c : Dev nD}
    (g : Buf (Elt F) ((c : Thread nD τ).loc cc0_scratch1)) (r : Fin 1024) (t : Fin 128) :
    (Memref.whole cc0_scratch1).view.readAt (Elt F) (Rect.unit (s := S4x1024x128) off S1x1024x128.size inb).toLoadRect g (ix3 0 r t)
      = (cM d).view.read (Elt F) g (ix2 r t) := by
  subst hoff
  exact readAt_unit_eq_read_reshape (Val := Elt F) cc0_scratch1 inb (k0_off6_inb d) (k0_off6_eq d) S1024x128
    squeezes_S1x1024x128_S1024x128.numel_eq g (ix3 (0 : Fin 1) r t) (ix2 r t) (reshapeEquiv_addUnit _ r t) fun a => rfl

theorem readAt_ukD (d : Dev nD) {off : Fin 3 → Nat} (hoff : off = ![d.val, 0, 0])
    (inb : ∀ a, off a + S1x128x512.size a ≤ S4x128x512.size a) {c : Dev nD}
    (g : Buf (Elt F) ((c : Thread nD τ).loc cc0_scratch4)) (r : Fin 128) (t : Fin 512) :
    (Memref.whole cc0_scratch4).view.readAt (Elt F) (Rect.unit (s := S4x128x512) off S1x128x512.size inb).toLoadRect g (ix3 0 r t)
      = (ukD d).view.read (Elt F) g (ix2 r t) := by
  subst hoff
  exact readAt_unit_eq_read_reshape (Val := Elt F) cc0_scratch4 inb (k0_off7_inb d) (k0_off7_eq d) S128x512
    squeezes_S1x128x512_S128x512.numel_eq g (ix3 (0 : Fin 1) r t) (ix2 r t) (reshapeEquiv_addUnit _ r t) fun a => rfl

theorem readAt_uvD (d : Dev nD) {off : Fin 3 → Nat} (hoff : off = ![d.val, 0, 0])
    (inb : ∀ a, off a + S1x128x512.size a ≤ S4x128x512.size a) {c : Dev nD}
    (g : Buf (Elt F) ((c : Thread nD τ).loc cc0_scratch5)) (r : Fin 128) (t : Fin 512) :
    (Memref.whole cc0_scratch5).view.readAt (Elt F) (Rect.unit (s := S4x128x512) off S1x128x512.size inb).toLoadRect g (ix3 0 r t)
      = (uvD d).view.read (Elt F) g (ix2 r t) := by
  subst hoff
  exact readAt_unit_eq_read_reshape (Val := Elt F) cc0_scratch5 inb (k0_off7_inb d) (k0_off7_eq d) S128x512
    squeezes_S1x128x512_S128x512.numel_eq g (ix3 (0 : Fin 1) r t) (ix2 r t) (reshapeEquiv_addUnit _ r t) fun a => rfl

theorem readAt_oM0 (d : Dev nD) {off : Fin 3 → Nat} (hoff : off = ![d.val, 0, 0])
    (inb : ∀ a, off a + S1x1024x512.size a ≤ S4x1024x512.size a) {c : Dev nD}
    (g : Buf (Elt F) ((c : Thread nD τ).loc cc0_scratch6)) (r : Fin 1024) (e : Fin 128) :
    (Memref.whole cc0_scratch6).view.readAt (Elt F) (Rect.unit (s := S4x1024x512) off S1x1024x512.size inb).toLoadRect g
        (ix3 0 r ⟨0 + e.val, by omega⟩)
      = (oM d 0).view.read (Elt F) g (ix2 r e) := by
  subst hoff
  exact readAt_unit_eq_read_reshape (Val := Elt F) cc0_scratch6 inb (k0_off14_inb d) (k0_off14_eq d) S1024x128
    squeezes_S1x1024x128_S1024x128.numel_eq g (ix3 (0 : Fin 1) r (⟨0 + e.val, by omega⟩ : Fin 512)) (ix2 r e) (reshapeEquiv_addUnit _ r e)
    fun a => match a with | ⟨0, _⟩ | ⟨1, _⟩ => rfl | ⟨2, _⟩ => Nat.zero_add _

theorem readAt_oM1 (d : Dev nD) {off : Fin 3 → Nat} (hoff : off = ![d.val, 0, 0])
    (inb : ∀ a, off a + S1x1024x512.size a ≤ S4x1024x512.size a) {c : Dev nD}
    (g : Buf (Elt F) ((c : Thread nD τ).loc cc0_scratch6)) (r : Fin 1024) (e : Fin 128) :
    (Memref.whole cc0_scratch6).view.readAt (Elt F) (Rect.unit (s := S4x1024x512) off S1x1024x512.size inb).toLoadRect g
        (ix3 0 r ⟨128 + e.val, by omega⟩)
      = (oM d 1).view.read (Elt F) g (ix2 r e) := by
  subst hoff
  exact readAt_unit_eq_read_reshape (Val := Elt F) cc0_scratch6 inb (k0_off17_inb d) (k0_off17_eq d) S1024x128
    squeezes_S1x1024x128_S1024x128.numel_eq g (ix3 (0 : Fin 1) r (⟨128 + e.val, by omega⟩ : Fin 512)) (ix2 r e) (reshapeEquiv_addUnit _ r e)
    fun a => match a with | ⟨0, _⟩ | ⟨1, _⟩ => rfl | ⟨2, _⟩ => Nat.zero_add _

theorem readAt_oM2 (d : Dev nD) {off : Fin 3 → Nat} (hoff : off = ![d.val, 0, 0])
    (inb : ∀ a, off a + S1x1024x512.size a ≤ S4x1024x512.size a) {c : Dev nD}
    (g : Buf (Elt F) ((c : Thread nD τ).loc cc0_scratch6)) (r : Fin 1024) (e : Fin 128) :
    (Memref.whole cc0_scratch6).view.readAt (Elt F) (Rect.unit (s := S4x1024x512) off S1x1024x512.size inb).toLoadRect g
        (ix3 0 r ⟨256 + e.val, by omega⟩)
      = (oM d 2).view.read (Elt F) g (ix2 r e) := by
  subst hoff
  exact readAt_unit_eq_read_reshape (Val := Elt F) cc0_scratch6 inb (k0_off20_inb d) (k0_off20_eq d) S1024x128
    squeezes_S1x1024x128_S1024x128.numel_eq g (ix3 (0 : Fin 1) r (⟨256 + e.val, by omega⟩ : Fin 512)) (ix2 r e) (reshapeEquiv_addUnit _ r e)
    fun a => match a with | ⟨0, _⟩ | ⟨1, _⟩ => rfl | ⟨2, _⟩ => Nat.zero_add _

theorem readAt_oM3 (d : Dev nD) {off : Fin 3 → Nat} (hoff : off = ![d.val, 0, 0])
    (inb : ∀ a, off a + S1x1024x512.size a ≤ S4x1024x512.size a) {c : Dev nD}
    (g : Buf (Elt F) ((c : Thread nD τ).loc cc0_scratch6)) (r : Fin 1024) (e : Fin 128) :
    (Memref.whole cc0_scratch6).view.readAt (Elt F) (Rect.unit (s := S4x1024x512) off S1x1024x512.size inb).toLoadRect g
        (ix3 0 r ⟨384 + e.val, by omega⟩)
      = (oM d 3).view.read (Elt F) g (ix2 r e) := by
  subst hoff
  exact readAt_unit_eq_read_reshape (Val := Elt F) cc0_scratch6 inb (k0_off23_inb d) (k0_off23_eq d) S1024x128
    squeezes_S1x1024x128_S1024x128.numel_eq g (ix3 (0 : Fin 1) r (⟨384 + e.val, by omega⟩ : Fin 512)) (ix2 r e) (reshapeEquiv_addUnit _ r e)
    fun a => match a with | ⟨0, _⟩ | ⟨1, _⟩ => rfl | ⟨2, _⟩ => Nat.zero_add _

end Cert.KernelProof
end
-- ==== Proof.Bits.VDef.lean ====
import proofs.«900571_g7700000000000572_dist_mla_v7x_i4_i_b2_s512_d2048_dc128_f32_1_alg».proof.Proof.Bits.KVals
import proofs.«900571_g7700000000000572_dist_mla_v7x_i4_i_b2_s512_d2048_dc128_f32_1_alg».proof.Proof.Bits.SlotViews
import proofs.«900571_g7700000000000572_dist_mla_v7x_i4_i_b2_s512_d2048_dc128_f32_1_alg».proof.Proof.Gen.Kernel.Frame

noncomputable section

namespace Cert.KernelProof

open Cert.Kernel Cert.Kernel.Gen
open Idealize.ShloMosaic Idealize.ShloMosaic.ValueIdx
open Idealize.ShloMosaic.TcCoe
open Idealize.SL.Sem
open Cert.MlaKerBits

variable {F : FTy → Type} [FloatOps F]
variable (m : (ℓ : Loc nD τ sig) → Buf (Elt F) ℓ)

def insAt (d : Dev nD) : Ins F where
  x := iblk m d 0 t0_0
  wdkv := iblk m d 1 t0_0
  wuk := iblk m d 2 t0_0
  wuv := iblk m d 3 t0_0
  wkr := iblk m d 4 t0_0
  wqr := iblk m d 5 t0_0
  wq := m ((d : Thread nD τ).loc main_arg4)
  wo := m ((d : Thread nD τ).loc main_arg7)

def oCol (h : Fin 4) (l : Fin 128) : Fin 512 := ⟨128 * h.val + l.val, by have := h.isLt; have := l.isLt; omega⟩

def VOf : PVals F where
  cV d := fun j => cOwn (insAt m) d (ix3 0 (j 0) (j 1))
  ukV d p := fun j => wukbf (insAt m) d (ix2 (j 0) (sentCol d p (j 1)))
  uvV d p := fun j => wuvbf (insAt m) d (ix2 (j 0) (sentCol d p (j 1)))
  oV d h := fun j => oOwn (insAt m) d (ix3 0 (j 0) (oCol h (j 1)))

def outOf (c : Dev nD) : (cc0_stg6_0 : Ref sig .tc).ty.Contents (Elt F) := out (insAt m) c

end Cert.KernelProof
end
-- ==== Proof.Bits.KGen.lean ====
import proofs.«900571_g7700000000000572_dist_mla_v7x_i4_i_b2_s512_d2048_dc128_f32_1_alg».proof.Proof.Bits.KVals
import Idealize.ShloMosaic.Lib.ValueIdx

noncomputable section

namespace Cert.MlaKerBits

open Idealize.ShloMosaic Idealize.ShloMosaic.ValueIdx Cert.Kernel Cert.Kernel.Gen

section Wr
variable {α : Type} {s : Shape}

/-- Inside the written rectangle the array reads the block. -/
theorem wr_of_mem (A : s.Idx → α) (off size : Fin s.rank → Nat) (inb : ∀ a, off a + size a ≤ s.size a)
    (w : (Rect.unit off size inb).shape.Idx → α) (i : s.Idx)
    (h : ∀ a, off a ≤ (i a).val ∧ (i a).val < off a + size a) :
    wr A off size inb w i = w (fun b => ⟨(i b).val - off b, by have := h b; show _ < size b; omega⟩) := by
  unfold wr updateSlice
  exact dif_pos h

theorem wr_of_not_mem (A : s.Idx → α) (off size : Fin s.rank → Nat) (inb : ∀ a, off a + size a ≤ s.size a)
    (w : (Rect.unit off size inb).shape.Idx → α) (i : s.Idx)
    (h : ¬ ∀ a, off a ≤ (i a).val ∧ (i a).val < off a + size a) :
    wr A off size inb w i = A i := by
  unfold wr updateSlice
  exact dif_neg h

/-- Two arrays with the same block written at the same place agree wherever they agreed outside it. -/
theorem wr_congr (A A' : s.Idx → α) (off size : Fin s.rank → Nat) (inb : ∀ a, off a + size a ≤ s.size a)
    (w : (Rect.unit off size inb).shape.Idx → α) (i : s.Idx)
    (h : (¬ ∀ a, off a ≤ (i a).val ∧ (i a).val < off a + size a) → A i = A' i) :
    wr A off size inb w i = wr A' off size inb w i := by
  by_cases hm : ∀ a, off a ≤ (i a).val ∧ (i a).val < off a + size a
  · rw [wr_of_mem _ _ _ _ _ _ hm, wr_of_mem _ _ _ _ _ _ hm]
  · rw [wr_of_not_mem _ _ _ _ _ _ hm, wr_of_not_mem _ _ _ _ _ _ hm, h hm]

end Wr

def flatRow (b : Fin 2) (s : Fin 512) : Fin 1024 :=
  ⟨b.val * 512 + s.val, by have := b.isLt; have := s.isLt; omega⟩

@[simp] theorem flatRow_val (b : Fin 2) (s : Fin 512) : (flatRow b s).val = b.val * 512 + s.val := rfl

theorem updateSlice_apply_in {α : Type} {s u : Shape} (x : s.Idx → α) (upd : u.Idx → α) (start : Fin s.rank → Nat)
    (h : s.Slices start u) (i : s.Idx) (j : u.Idx)
    (hj : ∀ a : Fin s.rank, (i a).val = start a + (j (a.cast h.1.symm)).val) :
    updateSlice x upd start h i = upd j := by
  unfold updateSlice
  rw [dif_pos (fun a => ⟨by rw [hj a]; exact Nat.le_add_right _ _, by
    rw [hj a]; exact Nat.add_lt_add_left (j (a.cast h.1.symm)).isLt _⟩)]
  refine congrArg upd (funext fun b => Fin.ext ?_)
  have hb := hj (b.cast h.1)
  have e : (b.cast h.1).cast h.1.symm = b := rfl
  rw [e] at hb
  show (i (b.cast h.1)).val - start (b.cast h.1) = (j b).val
  omega

theorem updateSlice_apply_out {α : Type} {s u : Shape} (x : s.Idx → α) (upd : u.Idx → α) (start : Fin s.rank → Nat)
    (h : s.Slices start u) (i : s.Idx) (a : Fin s.rank)
    (ha : ¬(start a ≤ (i a).val ∧ (i a).val < start a + u.size (a.cast h.1.symm))) :
    updateSlice x upd start h i = x i := by
  unfold updateSlice
  rw [dif_neg (fun hall => ha (hall a))]

section Generic
variable {F : FTy → Type} [FloatOps F] (I : Dev nD → Ins F) (c : Dev nD)

/-- The two written rectangles cover the array, so its earlier contents do not matter. -/
theorem xbfFrom_eq (f0 : Vec F S1024x2048 .bf16) : xbfFrom I c f0 = xbf I c := by
  funext i
  unfold xbf xbfFrom
  refine wr_congr _ _ _ _ _ _ i fun h2 => ?_
  refine wr_congr _ _ _ _ _ _ i fun h1 => ?_
  exfalso
  have hi0 : (i 0).val < 1024 := (i 0).isLt
  have hi1 : (i 1).val < 2048 := (i 1).isLt
  by_cases hlt : (i 0).val < 512
  · exact h1 (Fin.forall_fin_two.mpr ⟨⟨Nat.zero_le _, by show _ < 0 + 512; omega⟩, ⟨Nat.zero_le _, by show _ < 0 + 2048; omega⟩⟩)
  · exact h2 (Fin.forall_fin_two.mpr ⟨⟨by show 512 ≤ _; omega, by show _ < 512 + 512; omega⟩, ⟨Nat.zero_le _, by show _ < 0 + 2048; omega⟩⟩)

/-- The two halves of the columns cover the array. -/
theorem outFrom_eq (f0 : Vec F S2x512x2048 .f32) : outFrom I c f0 = out I c := by
  funext i
  unfold out outFrom
  refine wr_congr _ _ _ _ _ _ i fun h2 => ?_
  refine wr_congr _ _ _ _ _ _ i fun h1 => ?_
  exfalso
  have hi0 : (i 0).val < 2 := (i 0).isLt
  have hi1 : (i 1).val < 512 := (i 1).isLt
  have hi2 : (i 2).val < 2048 := (i 2).isLt
  by_cases hlt : (i 2).val < 1024
  · refine h1 fun a => ?_
    match a with
    | ⟨0, h0⟩ => exact ⟨Nat.zero_le _, by have hb : (i ⟨0, h0⟩).val < 2 := (i ⟨0, h0⟩).isLt; show _ < 0 + 2; omega⟩
    | ⟨1, h0⟩ => exact ⟨Nat.zero_le _, by have hb : (i ⟨1, h0⟩).val < 512 := (i ⟨1, h0⟩).isLt; show _ < 0 + 512; omega⟩
    | ⟨2, h0⟩ => exact ⟨Nat.zero_le _, by show (i 2).val < 0 + 1024; omega⟩
  · refine h2 fun a => ?_
    match a with
    | ⟨0, h0⟩ => exact ⟨Nat.zero_le _, by have hb : (i ⟨0, h0⟩).val < 2 := (i ⟨0, h0⟩).isLt; show _ < 0 + 2; omega⟩
    | ⟨1, h0⟩ => exact ⟨Nat.zero_le _, by have hb : (i ⟨1, h0⟩).val < 512 := (i ⟨1, h0⟩).isLt; show _ < 0 + 512; omega⟩
    | ⟨2, h0⟩ => exact ⟨by show 1024 ≤ (i 2).val; omega, by show (i 2).val < 1024 + 1024; omega⟩

end Generic

end Cert.MlaKerBits

/-- info: 'Cert.MlaKerBits.xbfFrom_eq' depends on axioms: [propext, Classical.choice, Quot.sound] -/
#guard_msgs in #print axioms Cert.MlaKerBits.xbfFrom_eq
/-- info: 'Cert.MlaKerBits.outFrom_eq' depends on axioms: [propext, Classical.choice, Quot.sound] -/
#guard_msgs in #print axioms Cert.MlaKerBits.outFrom_eq
-- ==== Proof.Bits.GlueP1.lean ====
import proofs.«900571_g7700000000000572_dist_mla_v7x_i4_i_b2_s512_d2048_dc128_f32_1_alg».proof.Proof.Bits.BodyCtx
import proofs.«900571_g7700000000000572_dist_mla_v7x_i4_i_b2_s512_d2048_dc128_f32_1_alg».proof.Proof.Bits.VDef
import proofs.«900571_g7700000000000572_dist_mla_v7x_i4_i_b2_s512_d2048_dc128_f32_1_alg».proof.Proof.Bits.KGen

noncomputable section

namespace Cert.KernelProof

open Cert.Kernel Cert.Kernel.Gen
open Idealize.ShloMosaic Idealize.ShloMosaic.ValueIdx
open Idealize.ShloMosaic.TcCoe
open Cert.MlaKerBits

variable {F : FTy → Type} [FloatOps F]

section Generic
variable {κ : Kind} {Val : EltTy → Type}

-- A load of all of a whole array returns its contents.
theorem readAt_whole_zero (b : Ref sig κ) {off : Fin b.ty.shape.rank → Nat} (h : off = fun _ => 0)
    (inb : ∀ a, off a + b.ty.shape.size a ≤ b.ty.shape.size a) (f : b.ty.Contents Val) :
    (View.whole b).readAt Val (Rect.unit off b.ty.shape.size inb).toLoadRect f = f :=
  Memref.readAt_unit_zero Val b h inb f

-- Two stores through boxes of a whole array are the two block writes, the later one outermost.
theorem writes_two_whole (b : Ref sig κ) {o1 s1 o2 s2 : Fin b.ty.shape.rank → Nat}
    (i1 : ∀ a, o1 a + s1 a ≤ b.ty.shape.size a) (i2 : ∀ a, o2 a + s2 a ≤ b.ty.shape.size a) (f : b.ty.Contents Val)
    (w1 : (Rect.unit o1 s1 i1).shape.Idx → Val b.ty.elt) (w2 : (Rect.unit o2 s2 i2).shape.Idx → Val b.ty.elt) :
    (View.whole b).writes Val f [⟨Rect.unit o2 s2 i2, w2⟩, ⟨Rect.unit o1 s1 i1, w1⟩] = wr (wr f o1 s1 i1 w1) o2 s2 i2 w2 := by
  rw [View.writes_cons, View.writes_singleton, View.write_whole_slice_unit, View.write_whole_slice_unit]
  rfl

end Generic

theorem vec2_zero : (![0, 0] : Fin 2 → Nat) = fun _ => 0 := funext fun a => by match a with | ⟨0, _⟩ => rfl | ⟨1, _⟩ => rfl

def gV32 (c : Dev nD) (X0 : Buf (Elt F) ((c : Thread nD τ).loc cc0_stg0_0)) :
    (Rect.unit (s := S1024x2048) ![0, 0] S1024x2048.size inb_S1024x2048_S1024x2048_0_0).shape.Idx → Elt F .bf16 :=
  B9.view.readCov
    [⟨Rect.unit (s := S1024x2048) ![512, 0] S512x2048.size inb_S1024x2048_S512x2048_512_0,
        k0_pay2 (Bs0.view.readAt (Elt F)
          (Rect.unit (s := S2x512x2048) ![1, 0, 0] S1x512x2048.size inb_S2x512x2048_S1x512x2048_1_0_0).toLoadRect X0)⟩,
      ⟨Rect.unit (s := S1024x2048) ![0, 0] S512x2048.size inb_S1024x2048_S512x2048_0_0,
        k0_pay1 (Bs0.view.readAt (Elt F)
          (Rect.unit (s := S2x512x2048) ![0, 0, 0] S1x512x2048.size inb_S2x512x2048_S1x512x2048_0_0_0).toLoadRect X0)⟩]
    (Rect.unit (s := S1024x2048) ![0, 0] S1024x2048.size inb_S1024x2048_S1024x2048_0_0).toLoadRect

-- The two half stores of the cast rows, loaded back whole, give the cast input.
theorem gV32_eq (I : Dev nD → Ins F) (c : Dev nD) : gV32 c (I c).x = xbf I c := by
  unfold gV32 View.readCov
  refine (congrArg (fun g => (View.whole cc0_scratch0).readAt (Elt F)
      (Rect.unit (s := S1024x2048) ![0, 0] S1024x2048.size inb_S1024x2048_S1024x2048_0_0).toLoadRect g)
    ((writes_two_whole (Val := Elt F) cc0_scratch0 _ _ _ _ _).trans (xbfFrom_eq I c _))).trans ?_
  exact readAt_whole_zero (Val := Elt F) cc0_scratch0 vec2_zero inb_S1024x2048_S1024x2048_0_0 (xbf I c)

def gWd (c : Dev nD) (X1 : Buf (Elt F) ((c : Thread nD τ).loc cc0_stg1_0)) : (Rect.unit (s := S2048x128) ![0, 0] S2048x128.size inb_S2048x128_S2048x128_0_0).shape.Idx → Elt F .f32 :=
  Bs1.view.readAt (Elt F) (Rect.unit (s := S2048x128) ![0, 0] S2048x128.size inb_S2048x128_S2048x128_0_0).toLoadRect X1

theorem gWd_eq (I : Dev nD → Ins F) (c : Dev nD) : gWd c (I c).wdkv = (I c).wdkv :=
  readAt_whole_zero (Val := Elt F) cc0_stg1_0 vec2_zero inb_S2048x128_S2048x128_0_0 (I c).wdkv

theorem cOwn_glue (I : Dev nD → Ins F) (c : Dev nD) : k0_pay3 (gV32 c (I c).x) (gWd c (I c).wdkv) = cOwn I c := by
  rw [gV32_eq, gWd_eq]; rfl

theorem Fc_glue (I : Dev nD → Ins F) (c : Dev nD) (f10 : Buf (Elt F) ((c : Thread nD τ).loc cc0_scratch1)) :
    (cM c).view.read (Elt F)
        (((Memref.whole cc0_scratch1).access (Rect.unit (s := S4x1024x128) (k0_off3 c) S1x1024x128.size (k0_off3_inb c))).write
          (Elt F) f10 (k0_pay3 (gV32 c (I c).x) (gWd c (I c).wdkv)) Finset.univ)
      = fun j => cOwn I c (ix3 0 (j 0) (j 1)) := by
  rw [read_cM_write, cOwn_glue]

def gKr (c : Dev nD) (X0 : Buf (Elt F) ((c : Thread nD τ).loc cc0_stg0_0)) (X4 : Buf (Elt F) ((c : Thread nD τ).loc cc0_stg4_0)) : FVec F S1024x32 .bf16 :=
  k0_pay8 (gV32 c X0)
    (Bs4.view.readAt (Elt F) (Rect.unit (s := S2048x32) ![0, 0] S2048x32.size inb_S2048x32_S2048x32_0_0).toLoadRect X4)

theorem gKr_eq (I : Dev nD → Ins F) (c : Dev nD) : gKr c (I c).x (I c).wkr = kr I c := by
  unfold gKr
  exact congr (congrArg k0_pay8 (gV32_eq I c)) (readAt_whole_zero (Val := Elt F) cc0_stg4_0 vec2_zero inb_S2048x32_S2048x32_0_0 (I c).wkr)

def gQr (c : Dev nD) (X0 : Buf (Elt F) ((c : Thread nD τ).loc cc0_stg0_0)) (X5 : Buf (Elt F) ((c : Thread nD τ).loc cc0_stg5_0)) : FVec F S1024x128 .bf16 :=
  k0_pay9 (gV32 c X0)
    (Bs5.view.readAt (Elt F) (Rect.unit (s := S2048x512) (k0_off9 c) S2048x128.size (k0_off9_inb c)).toLoadRect X5)

theorem gQr_eq (I : Dev nD → Ins F) (c : Dev nD) : gQr c (I c).x (I c).wqr = qr I c := by
  unfold gQr
  rw [gV32_eq]
  rfl

def gV178 (c : Dev nD) (m4 : Buf (Elt F) ((c : Thread nD τ).loc main_arg4)) :
    (Rect.unit (s := S2048x512) ![0, 0] S2048x512.size inb_S2048x512_S2048x512_0_0).shape.Idx → Elt F .f32 :=
  B16.view.readCov
    [⟨Rect.whole S2048x512, ReadAs.same.apply
        (View.read (Elt F) ((Memref.whole main_arg4).slice (Rect.unit (s := S2048x2048) (k0_off1 c) S2048x512.size (k0_off1_inb c)) (fun _ => rfl)).view m4)⟩]
    (Rect.unit (s := S2048x512) ![0, 0] S2048x512.size inb_S2048x512_S2048x512_0_0).toLoadRect

theorem gV178_eq (I : Dev nD → Ins F) (c : Dev nD) : gV178 c (I c).wq = wqSt I c := by
  funext j
  refine read_slice_writes_box (Val := Elt F) cc0_scratch7
    (Rect.unit (s := S2048x512) ![0, 0] S2048x512.size inb_S2048x512_S2048x512_0_0) (Rect.whole S2048x512) _ _ j j ?_
  funext a
  apply Fin.ext
  match a with
  | ⟨0, _⟩ => rfl
  | ⟨1, _⟩ => rfl

def gQ (c : Dev nD) (X0 : Buf (Elt F) ((c : Thread nD τ).loc cc0_stg0_0)) (m4 : Buf (Elt F) ((c : Thread nD τ).loc main_arg4)) : FVec F S1024x512 .bf16 :=
  k0_pay10 (gV32 c X0) (gV178 c m4)

theorem gQ_eq (I : Dev nD → Ins F) (c : Dev nD) : gQ c (I c).x (I c).wq = q I c := by
  unfold gQ
  rw [gV32_eq, gV178_eq]
  rfl

-- The device's own column box is columns 512 c onward of the whole block.
theorem ownCols_emb (c : Dev nD) (j : (Rect.unit (s := S128x2048) (k0_off4 c) S128x512.size (k0_off4_inb c)).shape.Idx) :
    (Rect.unit (s := S128x2048) (k0_off4 c) S128x512.size (k0_off4_inb c)).emb j = (Rect.unit (s := S128x2048) ![0, 0] S128x2048.size inb_S128x2048_S128x2048_0_0).emb ((Rect.unit (s := S128x2048) (colOff c) S128x512.size (colOff_inb c)).emb j) := by
  have h4 := k0_off4_eq c
  funext a
  apply Fin.ext
  match a with
  | ⟨0, _⟩ =>
    have h40 : k0_off4 c 0 = 0 := congrFun h4 0
    show k0_off4 c 0 + 1 * (j 0).val = 0 + 1 * (0 + 1 * (j 0).val)
    omega
  | ⟨1, _⟩ =>
    have h41 : k0_off4 c 1 = 512 * c.val := congrFun h4 1
    show k0_off4 c 1 + 1 * (j 1).val = 0 + 1 * (512 * c.val + 1 * (j 1).val)
    omega

theorem rdWuk (I : Dev nD → Ins F) (c : Dev nD) :
    Bs2.view.readAt (Elt F) (Rect.unit (s := S128x2048) ![0, 0] S128x2048.size inb_S128x2048_S128x2048_0_0).toLoadRect (I c).wuk = (I c).wuk :=
  readAt_whole_zero (Val := Elt F) cc0_stg2_0 vec2_zero inb_S128x2048_S128x2048_0_0 (I c).wuk

def gV60 (c : Dev nD) (X : Buf (Elt F) ((c : Thread nD τ).loc cc0_stg2_0)) : S1x128x512.Idx → F .bf16 :=
  k0_pay6 (B11.view.readAt (Elt F) (Rect.unit (s := S128x2048) (k0_off4 c) S128x512.size (k0_off4_inb c)).toLoadRect
    (B11.view.writes (Elt F) B11.view.junk
      [⟨(Rect.unit (s := S128x2048) ![0, 0] S128x2048.size inb_S128x2048_S128x2048_0_0), k0_pay4 (Bs2.view.readAt (Elt F) (Rect.unit (s := S128x2048) ![0, 0] S128x2048.size inb_S128x2048_S128x2048_0_0).toLoadRect X)⟩]))

theorem gV60_eq (I : Dev nD → Ins F) (c : Dev nD) : gV60 c (I c).wuk = wukSlot I c c := by
  unfold gV60
  rw [rdWuk]
  exact congrArg (k0_pay6 (F := F)) (funext fun j => (read_slice_writes_box (Val := Elt F) cc0_scratch2 (Rect.unit (s := S128x2048) (k0_off4 c) S128x512.size (k0_off4_inb c)) (Rect.unit (s := S128x2048) ![0, 0] S128x2048.size inb_S128x2048_S128x2048_0_0)
    _ (k0_pay4 (I c).wuk) j _ (ownCols_emb c j)).trans rfl)

theorem Fk_glue (I : Dev nD → Ins F) (c : Dev nD) (p : Fin 3) (f : Buf (Elt F) ((c : Thread nD τ).loc cc0_scratch2)) :
    (ukS c p).view.read (Elt F)
        (B11.view.writes (Elt F) f
          [⟨(Rect.unit (s := S128x2048) ![0, 0] S128x2048.size inb_S128x2048_S128x2048_0_0), k0_pay4 (Bs2.view.readAt (Elt F) (Rect.unit (s := S128x2048) ![0, 0] S128x2048.size inb_S128x2048_S128x2048_0_0).toLoadRect (I c).wuk)⟩])
      = fun j => wukbf I c (ix2 (j 0) (sentCol c p (j 1))) := by
  rw [rdWuk]
  funext j
  exact (congrArg _ (eq_ix2 j)).trans (read_ukS_writes c p f (k0_pay4 (I c).wuk) (j 0) (j 1))

theorem rdWuv (I : Dev nD → Ins F) (c : Dev nD) :
    Bs3.view.readAt (Elt F) (Rect.unit (s := S128x2048) ![0, 0] S128x2048.size inb_S128x2048_S128x2048_0_0).toLoadRect (I c).wuv = (I c).wuv :=
  readAt_whole_zero (Val := Elt F) cc0_stg3_0 vec2_zero inb_S128x2048_S128x2048_0_0 (I c).wuv

def gV67 (c : Dev nD) (X : Buf (Elt F) ((c : Thread nD τ).loc cc0_stg3_0)) : S1x128x512.Idx → F .bf16 :=
  k0_pay7 (B12.view.readAt (Elt F) (Rect.unit (s := S128x2048) (k0_off4 c) S128x512.size (k0_off4_inb c)).toLoadRect
    (B12.view.writes (Elt F) B12.view.junk
      [⟨(Rect.unit (s := S128x2048) ![0, 0] S128x2048.size inb_S128x2048_S128x2048_0_0), k0_pay5 (Bs3.view.readAt (Elt F) (Rect.unit (s := S128x2048) ![0, 0] S128x2048.size inb_S128x2048_S128x2048_0_0).toLoadRect X)⟩]))

theorem gV67_eq (I : Dev nD → Ins F) (c : Dev nD) : gV67 c (I c).wuv = wuvSlot I c c := by
  unfold gV67
  rw [rdWuv]
  exact congrArg (k0_pay7 (F := F)) (funext fun j => (read_slice_writes_box (Val := Elt F) cc0_scratch3 (Rect.unit (s := S128x2048) (k0_off4 c) S128x512.size (k0_off4_inb c)) (Rect.unit (s := S128x2048) ![0, 0] S128x2048.size inb_S128x2048_S128x2048_0_0)
    _ (k0_pay5 (I c).wuv) j _ (ownCols_emb c j)).trans rfl)

theorem Fv_glue (I : Dev nD → Ins F) (c : Dev nD) (p : Fin 3) (f : Buf (Elt F) ((c : Thread nD τ).loc cc0_scratch3)) :
    (uvS c p).view.read (Elt F)
        (B12.view.writes (Elt F) f
          [⟨(Rect.unit (s := S128x2048) ![0, 0] S128x2048.size inb_S128x2048_S128x2048_0_0), k0_pay5 (Bs3.view.readAt (Elt F) (Rect.unit (s := S128x2048) ![0, 0] S128x2048.size inb_S128x2048_S128x2048_0_0).toLoadRect (I c).wuv)⟩])
      = fun j => wuvbf I c (ix2 (j 0) (sentCol c p (j 1))) := by
  rw [rdWuv]
  funext j
  exact (congrArg _ (eq_ix2 j)).trans (read_uvS_writes c p f (k0_pay5 (I c).wuv) (j 0) (j 1))

theorem ix3_tail {n0 n1 n2 : Nat} (a : Fin n0) (p : Fin n1) (q : Fin n2) :
    (fun x : Fin 2 => (ix3 a p q) x.succ) = ix2 p q :=
  funext fun x => by match x with | ⟨0, _⟩ => rfl | ⟨1, _⟩ => rfl

theorem congr3 {α β γ δ : Sort _} (f : α → β → γ → δ) {a a' : α} {b b' : β} {c c' : γ} (ha : a = a') (hb : b = b') (hc : c = c') :
    f a b c = f a' b' c' := by subst ha hb hc; rfl

def gRc (c : Dev nD) (p : Fin 3) (g : BufTy.Contents (Elt F) (cM (og c p)).view.ty) :
    (Rect.unit (s := S4x1024x128) (k0_off10 c (BitVec.ofNat 32 (1 + p.val))) S1x1024x128.size (k0_off10_inb c p)).shape.Idx → Elt F .bf16 :=
  (Memref.whole cc0_scratch1).view.readAt (Elt F)
    (Rect.unit (s := S4x1024x128) (k0_off10 c (BitVec.ofNat 32 (1 + p.val))) S1x1024x128.size (k0_off10_inb c p)).toLoadRect g

-- A received latent slot, read at the sender's offset, is the sender's latent block.
theorem gRc_eq (I : Dev nD → Ins F) (c : Dev nD) (p : Fin 3) (g : BufTy.Contents (Elt F) (cM (og c p)).view.ty)
    (h : (cM (og c p)).view.read (Elt F) g = fun j => cOwn I (og c p) (ix3 0 (j 0) (j 1))) :
    gRc c p g = cOwn I (og c p) := by
  funext y
  have hy : y = ix3 (y 0) (y 1) (y 2) := eq_ix3 y
  have h0 : y 0 = (0 : Fin 1) := Subsingleton.elim (α := Fin 1) _ _
  rw [hy, h0]
  exact (readAt_cM (og c p) (k0_off10_eq c p) (k0_off10_inb c p) (c := c) g (y 1) (y 2)).trans (congrFun h (ix2 (y 1) (y 2)))

def gRk (c : Dev nD) (p : Fin 3) (g : BufTy.Contents (Elt F) (ukD (og c p)).view.ty) :
    (Rect.unit (s := S4x128x512) (k0_off11 c (BitVec.ofNat 32 (1 + p.val))) S1x128x512.size (k0_off11_inb c p)).shape.Idx → Elt F .bf16 :=
  (Memref.whole cc0_scratch4).view.readAt (Elt F)
    (Rect.unit (s := S4x128x512) (k0_off11 c (BitVec.ofNat 32 (1 + p.val))) S1x128x512.size (k0_off11_inb c p)).toLoadRect g

def gRv (c : Dev nD) (p : Fin 3) (g : BufTy.Contents (Elt F) (uvD (og c p)).view.ty) :
    (Rect.unit (s := S4x128x512) (k0_off11 c (BitVec.ofNat 32 (1 + p.val))) S1x128x512.size (k0_off11_inb c p)).shape.Idx → Elt F .bf16 :=
  (Memref.whole cc0_scratch5).view.readAt (Elt F)
    (Rect.unit (s := S4x128x512) (k0_off11 c (BitVec.ofNat 32 (1 + p.val))) S1x128x512.size (k0_off11_inb c p)).toLoadRect g

-- Column 512 c + t of the sender's block is the column it sends to c at t.
theorem colBox_idx (c : Dev nD) (p : Fin 3) (a : Fin 128) (t : Fin 512) :
    (Rect.unit (s := S128x2048) (colOff c) S128x512.size (colOff_inb c)).toLoadRect.idx (ix2 a t) = ix2 a (sentCol (og c p) p t) := by
  funext x
  apply Fin.ext
  match x with
  | ⟨0, _⟩ => show 0 + 1 * a.val = a.val; omega
  | ⟨1, _⟩ =>
    have hpe : (pe (og c p) p).val = c.val := congrArg Fin.val (pe_og c p)
    show 512 * c.val + 1 * t.val = 512 * (pe (og c p) p).val + t.val
    omega

theorem wukSlot_ix (I : Dev nD → Ins F) (c d : Dev nD) (r : Fin 128) (t : Fin 512) :
    wukSlot I c d (ix3 (0 : Fin 1) r t)
      = wukbf I d ((Rect.unit (s := S128x2048) (colOff c) S128x512.size (colOff_inb c)).toLoadRect.idx (ix2 r t)) := by
  unfold wukSlot k0_pay6
  rw [shapeCast_addUnit_apply ![128, 512], ix3_tail]
  rfl

theorem wuvSlot_ix (I : Dev nD → Ins F) (c d : Dev nD) (r : Fin 128) (t : Fin 512) :
    wuvSlot I c d (ix3 (0 : Fin 1) r t)
      = wuvbf I d ((Rect.unit (s := S128x2048) (colOff c) S128x512.size (colOff_inb c)).toLoadRect.idx (ix2 r t)) := by
  unfold wuvSlot k0_pay7
  rw [shapeCast_addUnit_apply ![128, 512], ix3_tail]
  rfl

theorem gRk_eq (I : Dev nD → Ins F) (c : Dev nD) (p : Fin 3) (g : BufTy.Contents (Elt F) (ukD (og c p)).view.ty)
    (h : (ukD (og c p)).view.read (Elt F) g = fun j => wukbf I (og c p) (ix2 (j 0) (sentCol (og c p) p (j 1)))) :
    gRk c p g = wukSlot I c (og c p) := by
  funext y
  have hy : y = ix3 (y 0) (y 1) (y 2) := eq_ix3 y
  have h0 : y 0 = (0 : Fin 1) := Subsingleton.elim (α := Fin 1) _ _
  rw [hy, h0]
  refine ((readAt_ukD (og c p) (k0_off11_eq c p) (k0_off11_inb c p) (c := c) g (y 1) (y 2)).trans
    (congrFun h (ix2 (y 1) (y 2)))).trans ?_
  exact ((wukSlot_ix I c (og c p) (y 1) (y 2)).trans (congrArg (wukbf I (og c p)) (colBox_idx c p (y 1) (y 2)))).symm

theorem gRv_eq (I : Dev nD → Ins F) (c : Dev nD) (p : Fin 3) (g : BufTy.Contents (Elt F) (uvD (og c p)).view.ty)
    (h : (uvD (og c p)).view.read (Elt F) g = fun j => wuvbf I (og c p) (ix2 (j 0) (sentCol (og c p) p (j 1)))) :
    gRv c p g = wuvSlot I c (og c p) := by
  funext y
  have hy : y = ix3 (y 0) (y 1) (y 2) := eq_ix3 y
  have h0 : y 0 = (0 : Fin 1) := Subsingleton.elim (α := Fin 1) _ _
  rw [hy, h0]
  refine ((readAt_uvD (og c p) (k0_off11_eq c p) (k0_off11_inb c p) (c := c) g (y 1) (y 2)).trans
    (congrFun h (ix2 (y 1) (y 2)))).trans ?_
  exact ((wuvSlot_ix I c (og c p) (y 1) (y 2)).trans (congrArg (wuvbf I (og c p)) (colBox_idx c p (y 1) (y 2)))).symm

def gK0 (c : Dev nD) (X0 : Buf (Elt F) ((c : Thread nD τ).loc cc0_stg0_0)) (X1 : Buf (Elt F) ((c : Thread nD τ).loc cc0_stg1_0)) (X2 : Buf (Elt F) ((c : Thread nD τ).loc cc0_stg2_0)) : FVec F S1024x512 .f32 :=
  k0_pay11 (k0_pay3 (gV32 c X0) (gWd c X1)) (gV60 c X2)
def gV0 (c : Dev nD) (X0 : Buf (Elt F) ((c : Thread nD τ).loc cc0_stg0_0)) (X1 : Buf (Elt F) ((c : Thread nD τ).loc cc0_stg1_0)) (X3 : Buf (Elt F) ((c : Thread nD τ).loc cc0_stg3_0)) : FVec F S1024x512 .f32 :=
  k0_pay12 (k0_pay3 (gV32 c X0) (gWd c X1)) (gV67 c X3)

theorem gK0_eq (I : Dev nD → Ins F) (c : Dev nD) : gK0 c (I c).x (I c).wdkv (I c).wuk = kAcc0 I c :=
  congr (congrArg k0_pay11 (cOwn_glue I c)) (gV60_eq I c)
theorem gV0_eq (I : Dev nD → Ins F) (c : Dev nD) : gV0 c (I c).x (I c).wdkv (I c).wuv = vAcc0 I c :=
  congr (congrArg k0_pay12 (cOwn_glue I c)) (gV67_eq I c)

def gK1 (c : Dev nD) (X0 : Buf (Elt F) ((c : Thread nD τ).loc cc0_stg0_0)) (X1 : Buf (Elt F) ((c : Thread nD τ).loc cc0_stg1_0)) (X2 : Buf (Elt F) ((c : Thread nD τ).loc cc0_stg2_0))
    (rc0 : BufTy.Contents (Elt F) (cM (og c 0)).view.ty) (rk0 : BufTy.Contents (Elt F) (ukD (og c 0)).view.ty) : FVec F S1024x512 .f32 :=
  k0_pay13 (gK0 c X0 X1 X2) (gRc c 0 rc0) (gRk c 0 rk0)
def gV1 (c : Dev nD) (X0 : Buf (Elt F) ((c : Thread nD τ).loc cc0_stg0_0)) (X1 : Buf (Elt F) ((c : Thread nD τ).loc cc0_stg1_0)) (X3 : Buf (Elt F) ((c : Thread nD τ).loc cc0_stg3_0))
    (rc0 : BufTy.Contents (Elt F) (cM (og c 0)).view.ty) (rv0 : BufTy.Contents (Elt F) (uvD (og c 0)).view.ty) : FVec F S1024x512 .f32 :=
  k0_pay14 (gV0 c X0 X1 X3) (gRc c 0 rc0) (gRv c 0 rv0)
def gK2 (c : Dev nD) (X0 : Buf (Elt F) ((c : Thread nD τ).loc cc0_stg0_0)) (X1 : Buf (Elt F) ((c : Thread nD τ).loc cc0_stg1_0)) (X2 : Buf (Elt F) ((c : Thread nD τ).loc cc0_stg2_0))
    (rc0 : BufTy.Contents (Elt F) (cM (og c 0)).view.ty) (rk0 : BufTy.Contents (Elt F) (ukD (og c 0)).view.ty)
    (rc1 : BufTy.Contents (Elt F) (cM (og c 1)).view.ty) (rk1 : BufTy.Contents (Elt F) (ukD (og c 1)).view.ty) : FVec F S1024x512 .f32 :=
  k0_pay15 (gK1 c X0 X1 X2 rc0 rk0) (gRc c 1 rc1) (gRk c 1 rk1)
def gV2 (c : Dev nD) (X0 : Buf (Elt F) ((c : Thread nD τ).loc cc0_stg0_0)) (X1 : Buf (Elt F) ((c : Thread nD τ).loc cc0_stg1_0)) (X3 : Buf (Elt F) ((c : Thread nD τ).loc cc0_stg3_0))
    (rc0 : BufTy.Contents (Elt F) (cM (og c 0)).view.ty) (rv0 : BufTy.Contents (Elt F) (uvD (og c 0)).view.ty)
    (rc1 : BufTy.Contents (Elt F) (cM (og c 1)).view.ty) (rv1 : BufTy.Contents (Elt F) (uvD (og c 1)).view.ty) : FVec F S1024x512 .f32 :=
  k0_pay16 (gV1 c X0 X1 X3 rc0 rv0) (gRc c 1 rc1) (gRv c 1 rv1)
def gKMy (c : Dev nD) (X0 : Buf (Elt F) ((c : Thread nD τ).loc cc0_stg0_0)) (X1 : Buf (Elt F) ((c : Thread nD τ).loc cc0_stg1_0)) (X2 : Buf (Elt F) ((c : Thread nD τ).loc cc0_stg2_0))
    (rc0 : BufTy.Contents (Elt F) (cM (og c 0)).view.ty) (rk0 : BufTy.Contents (Elt F) (ukD (og c 0)).view.ty)
    (rc1 : BufTy.Contents (Elt F) (cM (og c 1)).view.ty) (rk1 : BufTy.Contents (Elt F) (ukD (og c 1)).view.ty)
    (rc2 : BufTy.Contents (Elt F) (cM (og c 2)).view.ty) (rk2 : BufTy.Contents (Elt F) (ukD (og c 2)).view.ty) : FVec F S1024x512 .bf16 :=
  k0_pay17 (gK2 c X0 X1 X2 rc0 rk0 rc1 rk1) (gRc c 2 rc2) (gRk c 2 rk2)
def gVMy (c : Dev nD) (X0 : Buf (Elt F) ((c : Thread nD τ).loc cc0_stg0_0)) (X1 : Buf (Elt F) ((c : Thread nD τ).loc cc0_stg1_0)) (X3 : Buf (Elt F) ((c : Thread nD τ).loc cc0_stg3_0))
    (rc0 : BufTy.Contents (Elt F) (cM (og c 0)).view.ty) (rv0 : BufTy.Contents (Elt F) (uvD (og c 0)).view.ty)
    (rc1 : BufTy.Contents (Elt F) (cM (og c 1)).view.ty) (rv1 : BufTy.Contents (Elt F) (uvD (og c 1)).view.ty)
    (rc2 : BufTy.Contents (Elt F) (cM (og c 2)).view.ty) (rv2 : BufTy.Contents (Elt F) (uvD (og c 2)).view.ty) : FVec F S1024x512 .bf16 :=
  k0_pay18 (gV2 c X0 X1 X3 rc0 rv0 rc1 rv1) (gRc c 2 rc2) (gRv c 2 rv2)

end Cert.KernelProof
end
-- ==== Proof.Bits.GlueO2.lean ====
import proofs.«900571_g7700000000000572_dist_mla_v7x_i4_i_b2_s512_d2048_dc128_f32_1_alg».proof.Proof.Bits.SlotViews
import proofs.«900571_g7700000000000572_dist_mla_v7x_i4_i_b2_s512_d2048_dc128_f32_1_alg».proof.Proof.Bits.KGen

noncomputable section

namespace Cert.KernelProof

open Cert.Kernel Cert.Kernel.Gen
open Idealize.ShloMosaic
open Idealize.ShloMosaic.TcCoe
open Idealize.ShloMosaic.ValueIdx
open Cert.MlaKerBits

variable {F : FTy → Type} [FloatOps F]

section Generic
variable {κ : Kind} {Val : EltTy → Type}

-- After two stores a reshaped box reads the first store where the first box reaches and the second does not,
theorem read_reshape_two_writes_first (b : Ref sig κ) (RS R1 R2 : Rect b.ty.shape) (s' : Shape) (h : s'.numel = RS.shape.numel)
    (f : b.ty.Contents Val) (w0 : R1.shape.Idx → Val b.ty.elt) (w1 : R2.shape.Idx → Val b.ty.elt) (j : s'.Idx) (x : R1.shape.Idx)
    (he : RS.emb (Shape.reshapeEquiv h j) = R1.emb x) (hn : RS.emb (Shape.reshapeEquiv h j) ∉ Finset.univ.map R2.emb) :
    (((View.whole b).slice RS).reshape s' h).read Val
        (((View.whole b).slice R2).write Val (((View.whole b).slice R1).write Val f w0 Finset.univ) w1 Finset.univ) j
      = w0 x := by
  rw [read_reshape_slice_whole]
  refine (View.read_slice_write_of_not_mem (v := View.whole b) R2 _ w1 Finset.univ hn).trans ?_
  rw [he]
  exact View.read_slice_write_emb (v := View.whole b) R1 f w0 (Finset.mem_univ x)

-- and the second store where the second box reaches.
theorem read_reshape_two_writes_second (b : Ref sig κ) (RS R1 R2 : Rect b.ty.shape) (s' : Shape) (h : s'.numel = RS.shape.numel)
    (f : b.ty.Contents Val) (w0 : R1.shape.Idx → Val b.ty.elt) (w1 : R2.shape.Idx → Val b.ty.elt) (j : s'.Idx) (x : R2.shape.Idx)
    (he : RS.emb (Shape.reshapeEquiv h j) = R2.emb x) :
    (((View.whole b).slice RS).reshape s' h).read Val
        (((View.whole b).slice R2).write Val (((View.whole b).slice R1).write Val f w0 Finset.univ) w1 Finset.univ) j
      = w1 x := by
  rw [read_reshape_slice_whole, he]
  exact View.read_slice_write_emb (v := View.whole b) R2 _ w1 (Finset.mem_univ x)

end Generic

theorem stripe_emb_top (c : Dev nD) (col : Nat)
    (inbS : ∀ a, (![c.val, 0, col] : Fin 3 → Nat) a + S1x1024x128.size a ≤ S4x1024x512.size a)
    (inb1 : ∀ a, (![c.val, 0, col] : Fin 3 → Nat) a + S1x512x128.size a ≤ S4x1024x512.size a) (s : Fin 512) (l : Fin 128) :
    (Rect.unit (s := S4x1024x512) ![c.val, 0, col] S1x1024x128.size inbS).emb (ix3 (0 : Fin 1) (flatRow 0 s) l)
      = (Rect.unit (s := S4x1024x512) ![c.val, 0, col] S1x512x128.size inb1).emb (ix3 (0 : Fin 1) s l) := by
  funext a
  apply Fin.ext
  match a with
  | ⟨0, _⟩ => show c.val + 1 * 0 = c.val + 1 * 0; rfl
  | ⟨1, _⟩ => show 0 + 1 * (0 * 512 + s.val) = 0 + 1 * s.val; omega
  | ⟨2, _⟩ => show col + 1 * l.val = col + 1 * l.val; rfl

theorem stripe_emb_bot (c : Dev nD) (col : Nat)
    (inbS : ∀ a, (![c.val, 0, col] : Fin 3 → Nat) a + S1x1024x128.size a ≤ S4x1024x512.size a)
    (inb2 : ∀ a, (![c.val, 512, col] : Fin 3 → Nat) a + S1x512x128.size a ≤ S4x1024x512.size a) (s : Fin 512) (l : Fin 128) :
    (Rect.unit (s := S4x1024x512) ![c.val, 0, col] S1x1024x128.size inbS).emb (ix3 (0 : Fin 1) (flatRow 1 s) l)
      = (Rect.unit (s := S4x1024x512) ![c.val, 512, col] S1x512x128.size inb2).emb (ix3 (0 : Fin 1) s l) := by
  funext a
  apply Fin.ext
  match a with
  | ⟨0, _⟩ => show c.val + 1 * 0 = c.val + 1 * 0; rfl
  | ⟨1, _⟩ => show 0 + 1 * (1 * 512 + s.val) = 512 + 1 * s.val; omega
  | ⟨2, _⟩ => show col + 1 * l.val = col + 1 * l.val; rfl

theorem stripe_top_not_bot (c : Dev nD) (col : Nat)
    (inbS : ∀ a, (![c.val, 0, col] : Fin 3 → Nat) a + S1x1024x128.size a ≤ S4x1024x512.size a)
    (inb2 : ∀ a, (![c.val, 512, col] : Fin 3 → Nat) a + S1x512x128.size a ≤ S4x1024x512.size a) (s : Fin 512) (l : Fin 128) :
    (Rect.unit (s := S4x1024x512) ![c.val, 0, col] S1x1024x128.size inbS).emb (ix3 (0 : Fin 1) (flatRow 0 s) l)
      ∉ Finset.univ.map (Rect.unit (s := S4x1024x512) ![c.val, 512, col] S1x512x128.size inb2).emb := by
  intro hm
  obtain ⟨x, -, hx⟩ := Finset.mem_map.mp hm
  have h' : 512 + 1 * (x 1).val = 0 + 1 * (0 * 512 + s.val) := congrArg (fun i : S4x1024x512.Idx => (i 1).val) hx
  have := s.isLt
  omega

-- A stripe read after its two row-half stores returns the first block on its upper half,
theorem read_stripe_top (c : Dev nD) (col : Nat) {offS off1 off2 : Fin 3 → Nat}
    (hS : offS = ![c.val, 0, col]) (h1 : off1 = ![c.val, 0, col]) (h2 : off2 = ![c.val, 512, col])
    (inbS : ∀ a, offS a + S1x1024x128.size a ≤ S4x1024x512.size a)
    (inb1 : ∀ a, off1 a + S1x512x128.size a ≤ S4x1024x512.size a)
    (inb2 : ∀ a, off2 a + S1x512x128.size a ≤ S4x1024x512.size a)
    (f : (cc0_scratch6 : Ref sig .tc).ty.Contents (Elt F)) (w0 w1 : FVec F S1x512x128 .bf16) (s : Fin 512) (l : Fin 128) :
    (((View.whole cc0_scratch6).slice (Rect.unit (s := S4x1024x512) offS S1x1024x128.size inbS)).reshape S1024x128
          squeezes_S1x1024x128_S1024x128.numel_eq).read (Elt F)
        (((View.whole cc0_scratch6).slice (Rect.unit (s := S4x1024x512) off2 S1x512x128.size inb2)).write (Elt F)
          (((View.whole cc0_scratch6).slice (Rect.unit (s := S4x1024x512) off1 S1x512x128.size inb1)).write (Elt F) f w0 Finset.univ)
          w1 Finset.univ)
        (ix2 (flatRow 0 s) l)
      = w0 (ix3 (0 : Fin 1) s l) := by
  subst hS h1 h2
  have hr := reshapeEquiv_addUnit squeezes_S1x1024x128_S1024x128.numel_eq (flatRow 0 s) l
  exact read_reshape_two_writes_first (Val := Elt F) cc0_scratch6
    (Rect.unit (s := S4x1024x512) ![c.val, 0, col] S1x1024x128.size inbS)
    (Rect.unit (s := S4x1024x512) ![c.val, 0, col] S1x512x128.size inb1)
    (Rect.unit (s := S4x1024x512) ![c.val, 512, col] S1x512x128.size inb2)
    S1024x128 squeezes_S1x1024x128_S1024x128.numel_eq f w0 w1 (ix2 (flatRow 0 s) l) (ix3 (0 : Fin 1) s l)
    (hr ▸ stripe_emb_top c col inbS inb1 s l) (hr ▸ stripe_top_not_bot c col inbS inb2 s l)

-- and the second block on its lower half.
theorem read_stripe_bot (c : Dev nD) (col : Nat) {offS off1 off2 : Fin 3 → Nat}
    (hS : offS = ![c.val, 0, col]) (h1 : off1 = ![c.val, 0, col]) (h2 : off2 = ![c.val, 512, col])
    (inbS : ∀ a, offS a + S1x1024x128.size a ≤ S4x1024x512.size a)
    (inb1 : ∀ a, off1 a + S1x512x128.size a ≤ S4x1024x512.size a)
    (inb2 : ∀ a, off2 a + S1x512x128.size a ≤ S4x1024x512.size a)
    (f : (cc0_scratch6 : Ref sig .tc).ty.Contents (Elt F)) (w0 w1 : FVec F S1x512x128 .bf16) (s : Fin 512) (l : Fin 128) :
    (((View.whole cc0_scratch6).slice (Rect.unit (s := S4x1024x512) offS S1x1024x128.size inbS)).reshape S1024x128
          squeezes_S1x1024x128_S1024x128.numel_eq).read (Elt F)
        (((View.whole cc0_scratch6).slice (Rect.unit (s := S4x1024x512) off2 S1x512x128.size inb2)).write (Elt F)
          (((View.whole cc0_scratch6).slice (Rect.unit (s := S4x1024x512) off1 S1x512x128.size inb1)).write (Elt F) f w0 Finset.univ)
          w1 Finset.univ)
        (ix2 (flatRow 1 s) l)
      = w1 (ix3 (0 : Fin 1) s l) := by
  subst hS h1 h2
  have hr := reshapeEquiv_addUnit squeezes_S1x1024x128_S1024x128.numel_eq (flatRow 1 s) l
  exact read_reshape_two_writes_second (Val := Elt F) cc0_scratch6
    (Rect.unit (s := S4x1024x512) ![c.val, 0, col] S1x1024x128.size inbS)
    (Rect.unit (s := S4x1024x512) ![c.val, 0, col] S1x512x128.size inb1)
    (Rect.unit (s := S4x1024x512) ![c.val, 512, col] S1x512x128.size inb2)
    S1024x128 squeezes_S1x1024x128_S1024x128.numel_eq f w0 w1 (ix2 (flatRow 1 s) l) (ix3 (0 : Fin 1) s l)
    (hr ▸ stripe_emb_bot c col inbS inb2 s l)

end Cert.KernelProof
end
-- ==== Proof.Bits.KOwn.lean ====
import proofs.«900571_g7700000000000572_dist_mla_v7x_i4_i_b2_s512_d2048_dc128_f32_1_alg».proof.Proof.MlaSpec
import proofs.«900571_g7700000000000572_dist_mla_v7x_i4_i_b2_s512_d2048_dc128_f32_1_alg».proof.Proof.Bits.KGen
import Mathlib.Tactic.FinCases

noncomputable section

namespace Cert.MlaKerBits

open Cert.MlaSpec Cert.Kernel Cert.Kernel.Gen Idealize.ShloMosaic Idealize.ShloMosaic.ValueIdx

variable {F : FTy → Type} [FloatOps F]

/-- Reading inside the written rectangle gives the block. -/
theorem oWr_in (A : Vec F S1x1024x512 .bf16) (r : Fin 2) (h : Fin 4) (w : FVec F S1x512x128 .bf16)
    (s : Fin 512) (d : Fin 128) :
    wr A (oOff r h) S1x512x128.size (oOff_inb r h) w (ix3 (0 : Fin 1) (flatRow r s) (gcol128 h d)) = w (ix3 (0 : Fin 1) s d) := by
  unfold wr
  refine updateSlice_apply_in (s := S1x1024x512) (u := S1x512x128) A w (oOff r h) _ _ (ix3 (0 : Fin 1) s d) (fun a => ?_)
  match a with
  | ⟨0, _⟩ => rfl
  | ⟨1, _⟩ => show r.val * 512 + s.val = 512 * r.val + s.val; omega
  | ⟨2, _⟩ => show h.val * 128 + d.val = 128 * h.val + d.val; omega

/-- The rectangles of two different (batch, head) pairs are disjoint. -/
theorem oWr_out (A : Vec F S1x1024x512 .bf16) (r r' : Fin 2) (h h' : Fin 4) (hne : r ≠ r' ∨ h ≠ h')
    (w : FVec F S1x512x128 .bf16) (s : Fin 512) (d : Fin 128) :
    wr A (oOff r' h') S1x512x128.size (oOff_inb r' h') w (ix3 (0 : Fin 1) (flatRow r s) (gcol128 h d))
      = A (ix3 (0 : Fin 1) (flatRow r s) (gcol128 h d)) := by
  unfold wr
  rcases hne with hr | hh
  · refine updateSlice_apply_out (s := S1x1024x512) (u := S1x512x128) A w (oOff r' h') _ _ (1 : Fin 3) ?_
    show ¬(512 * r'.val ≤ r.val * 512 + s.val ∧ r.val * 512 + s.val < 512 * r'.val + 512)
    have hr' : r.val ≠ r'.val := fun e => hr (Fin.ext e)
    have := s.isLt
    omega
  · refine updateSlice_apply_out (s := S1x1024x512) (u := S1x512x128) A w (oOff r' h') _ _ (2 : Fin 3) ?_
    show ¬(128 * h'.val ≤ h.val * 128 + d.val ∧ h.val * 128 + d.val < 128 * h'.val + 128)
    have hh' : h.val ≠ h'.val := fun e => hh (Fin.ext e)
    have := d.isLt
    omega

section
variable (I : Dev nD → Ins F) (c : Dev nD)

/-- The eight rectangles are disjoint: reading inside the rectangle of (r, hh), every other store is skipped. -/
theorem oOwn_apply (r : Fin 2) (hh : Fin 4) (s : Fin 512) (d : Fin 128) :
    oOwn I c (ix3 (0 : Fin 1) (flatRow r s) (gcol128 hh d)) = oBlk I c r hh (ix3 (0 : Fin 1) s d) := by
  unfold oOwn oOwnFrom
  match r, hh with
  | 0, 0 | 1, 0 | 0, 1 | 1, 1 | 0, 2 | 1, 2 | 0, 3 | 1, 3 =>
    repeat first | exact oWr_in _ _ _ _ s d | refine (oWr_out _ _ _ _ _ (by decide) _ s d).trans ?_

theorem gcol128_cases (e : Fin 512) : ∃ (hh : Fin 4) (d : Fin 128), e = gcol128 hh d :=
  ⟨⟨e.val / 128, by have := e.isLt; omega⟩, ⟨e.val % 128, Nat.mod_lt _ (by decide)⟩,
    Fin.ext (by show e.val = e.val / 128 * 128 + e.val % 128; omega)⟩

end

end Cert.MlaKerBits

end
-- ==== Proof.Bits.GlueO.lean ====
import proofs.«900571_g7700000000000572_dist_mla_v7x_i4_i_b2_s512_d2048_dc128_f32_1_alg».proof.Proof.Bits.GlueO2
import proofs.«900571_g7700000000000572_dist_mla_v7x_i4_i_b2_s512_d2048_dc128_f32_1_alg».proof.Proof.Bits.Slots2
import Idealize.ShloMosaic.Lib.ValueLayout
import proofs.«900571_g7700000000000572_dist_mla_v7x_i4_i_b2_s512_d2048_dc128_f32_1_alg».proof.Proof.Bits.KOwn
import proofs.«900571_g7700000000000572_dist_mla_v7x_i4_i_b2_s512_d2048_dc128_f32_1_alg».proof.Proof.Bits.VDef

noncomputable section

namespace Cert.KernelProof

open Cert.Kernel Cert.Kernel.Gen
open Idealize.ShloMosaic
open Idealize.ShloMosaic.TcCoe
open Idealize.ShloMosaic.ValueIdx
open Cert.MlaKerBits Cert.MlaSpec

variable {F : FTy → Type} [FloatOps F]

-- A stripe that reads, on each row half, that half's attention block is the own slot on the stripe's columns.
theorem stripe_of_halves (I : Dev nD → Ins F) (c : Dev nD) (h : Fin 4) (R : Vec F S1024x128 .bf16)
    (htop : ∀ (s : Fin 512) (l : Fin 128), R (ix2 (flatRow 0 s) l) = oBlk I c 0 h (ix3 (0 : Fin 1) s l))
    (hbot : ∀ (s : Fin 512) (l : Fin 128), R (ix2 (flatRow 1 s) l) = oBlk I c 1 h (ix3 (0 : Fin 1) s l)) :
    R = fun j => oOwn I c (ix3 (0 : Fin 1) (j 0) (oCol h (j 1))) := by
  funext j
  obtain ⟨r, l, rfl⟩ : ∃ (r : Fin 1024) (l : Fin 128), j = ix2 r l := ⟨j 0, j 1, eq_ix2 j⟩
  have hcol : oCol h l = gcol128 h l := Fin.ext (by show 128 * h.val + l.val = h.val * 128 + l.val; omega)
  show _ = oOwn I c (ix3 (0 : Fin 1) r (oCol h l))
  rw [hcol]
  by_cases hr : r.val < 512
  · obtain ⟨s, rfl⟩ : ∃ s : Fin 512, r = flatRow 0 s := ⟨⟨r.val, hr⟩, Fin.ext (by show r.val = 0 * 512 + r.val; omega)⟩
    rw [htop, oOwn_apply]
  · have hr' : r.val - 512 < 512 := by have := r.isLt; omega
    obtain ⟨s, rfl⟩ : ∃ s : Fin 512, r = flatRow 1 s := ⟨⟨r.val - 512, hr'⟩, Fin.ext (by show r.val = 1 * 512 + (r.val - 512); omega)⟩
    rw [hbot, oOwn_apply]

end Cert.KernelProof
end
-- ==== Proof.Bits.GlueORun.lean ====
import proofs.«900571_g7700000000000572_dist_mla_v7x_i4_i_b2_s512_d2048_dc128_f32_1_alg».proof.Proof.Bits.GlueP1
import proofs.«900571_g7700000000000572_dist_mla_v7x_i4_i_b2_s512_d2048_dc128_f32_1_alg».proof.Proof.Bits.GlueO

noncomputable section

namespace Cert.KernelProof

open Cert.Kernel Cert.Kernel.Gen
open Idealize.ShloMosaic
open Idealize.ShloMosaic.TcCoe
open Idealize.ShloMosaic.ValueIdx
open Cert.MlaKerBits Cert.MlaSpec

variable {F : FTy → Type} [FloatOps F]

-- Any head stripe after its two block stores reads the device's own attention output on its columns.
theorem stripe_run (I : Dev nD → Ins F) (c : Dev nD) (h : Fin 4) (col : Nat) {offS off1 off2 : Fin 3 → Nat}
    (hS : offS = ![c.val, 0, col]) (h1 : off1 = ![c.val, 0, col]) (h2 : off2 = ![c.val, 512, col])
    (inbS : ∀ a, offS a + S1x1024x128.size a ≤ S4x1024x512.size a)
    (inb1 : ∀ a, off1 a + S1x512x128.size a ≤ S4x1024x512.size a)
    (inb2 : ∀ a, off2 a + S1x512x128.size a ≤ S4x1024x512.size a)
    (f : (cc0_scratch6 : Ref sig .tc).ty.Contents (Elt F)) (w0 w1 : FVec F S1x512x128 .bf16)
    (hw0 : w0 = oBlk I c 0 h) (hw1 : w1 = oBlk I c 1 h) :
    (((View.whole cc0_scratch6).slice (Rect.unit (s := S4x1024x512) offS S1x1024x128.size inbS)).reshape S1024x128
          squeezes_S1x1024x128_S1024x128.numel_eq).read (Elt F)
        (((View.whole cc0_scratch6).slice (Rect.unit (s := S4x1024x512) off2 S1x512x128.size inb2)).write (Elt F)
          (((View.whole cc0_scratch6).slice (Rect.unit (s := S4x1024x512) off1 S1x512x128.size inb1)).write (Elt F) f w0 Finset.univ)
          w1 Finset.univ)
      = fun j => oOwn I c (ix3 (0 : Fin 1) (j 0) (oCol h (j 1))) := by
  subst hw0 hw1
  exact stripe_of_halves I c h _ (fun s l => read_stripe_top c col hS h1 h2 inbS inb1 inb2 f _ _ s l)
    (fun s l => read_stripe_bot c col hS h1 h2 inbS inb1 inb2 f _ _ s l)

section Run

variable (I : Dev nD → Ins F) (c : Dev nD) (f15 : Buf (Elt F) ((c : Thread nD τ).loc cc0_scratch6))
  (rc0 : BufTy.Contents (Elt F) (cM (og c 0)).view.ty) (rk0 : BufTy.Contents (Elt F) (ukD (og c 0)).view.ty) (rv0 : BufTy.Contents (Elt F) (uvD (og c 0)).view.ty)
  (rc1 : BufTy.Contents (Elt F) (cM (og c 1)).view.ty) (rk1 : BufTy.Contents (Elt F) (ukD (og c 1)).view.ty) (rv1 : BufTy.Contents (Elt F) (uvD (og c 1)).view.ty)
  (rc2 : BufTy.Contents (Elt F) (cM (og c 2)).view.ty) (rk2 : BufTy.Contents (Elt F) (ukD (og c 2)).view.ty) (rv2 : BufTy.Contents (Elt F) (uvD (og c 2)).view.ty)
  (hc0 : (cM (og c 0)).view.read (Elt F) rc0 = fun j => cOwn I (og c 0) (ix3 0 (j 0) (j 1)))
  (hc1 : (cM (og c 1)).view.read (Elt F) rc1 = fun j => cOwn I (og c 1) (ix3 0 (j 0) (j 1)))
  (hc2 : (cM (og c 2)).view.read (Elt F) rc2 = fun j => cOwn I (og c 2) (ix3 0 (j 0) (j 1)))
  (hk0 : (ukD (og c 0)).view.read (Elt F) rk0 = fun j => wukbf I (og c 0) (ix2 (j 0) (sentCol (og c 0) 0 (j 1))))
  (hk1 : (ukD (og c 1)).view.read (Elt F) rk1 = fun j => wukbf I (og c 1) (ix2 (j 0) (sentCol (og c 1) 1 (j 1))))
  (hk2 : (ukD (og c 2)).view.read (Elt F) rk2 = fun j => wukbf I (og c 2) (ix2 (j 0) (sentCol (og c 2) 2 (j 1))))
  (hv0 : (uvD (og c 0)).view.read (Elt F) rv0 = fun j => wuvbf I (og c 0) (ix2 (j 0) (sentCol (og c 0) 0 (j 1))))
  (hv1 : (uvD (og c 1)).view.read (Elt F) rv1 = fun j => wuvbf I (og c 1) (ix2 (j 0) (sentCol (og c 1) 1 (j 1))))
  (hv2 : (uvD (og c 2)).view.read (Elt F) rv2 = fun j => wuvbf I (og c 2) (ix2 (j 0) (sentCol (og c 2) 2 (j 1))))

include hc0 hk0 hc1 hk1 in
theorem k2_eq : gK2 c (I c).x (I c).wdkv (I c).wuk rc0 rk0 rc1 rk1 = kAcc2 I c :=
  congr3 k0_pay15 (congr3 k0_pay13 (gK0_eq I c) (gRc_eq I c 0 rc0 hc0) (gRk_eq I c 0 rk0 hk0)) (gRc_eq I c 1 rc1 hc1) (gRk_eq I c 1 rk1 hk1)
include hc0 hv0 hc1 hv1 in
theorem v2_eq : gV2 c (I c).x (I c).wdkv (I c).wuv rc0 rv0 rc1 rv1 = vAcc2 I c :=
  congr3 k0_pay16 (congr3 k0_pay14 (gV0_eq I c) (gRc_eq I c 0 rc0 hc0) (gRv_eq I c 0 rv0 hv0)) (gRc_eq I c 1 rc1 hc1) (gRv_eq I c 1 rv1 hv1)
include hc0 hk0 hc1 hk1 hc2 hk2 in
-- The keys accumulated over the own block and the three received ones.
theorem kMy_eq : gKMy c (I c).x (I c).wdkv (I c).wuk rc0 rk0 rc1 rk1 rc2 rk2 = kMy I c :=
  congr3 k0_pay17 (k2_eq I c rc0 rk0 rc1 rk1 hc0 hc1 hk0 hk1) (gRc_eq I c 2 rc2 hc2) (gRk_eq I c 2 rk2 hk2)
include hc0 hv0 hc1 hv1 hc2 hv2 in
theorem vMy_eq : gVMy c (I c).x (I c).wdkv (I c).wuv rc0 rv0 rc1 rv1 rc2 rv2 = vMy I c :=
  congr3 k0_pay18 (v2_eq I c rc0 rv0 rc1 rv1 hc0 hc1 hv0 hv1) (gRc_eq I c 2 rc2 hc2) (gRv_eq I c 2 rv2 hv2)

include hc0 hc1 hc2 hk0 hk1 hk2 hv0 hv1 hv2 in
theorem stripe0_run :
    (oM c 0).view.read (Elt F)
        (View.write (Elt F) ((Memref.whole cc0_scratch6).access (Rect.unit (s := S4x1024x512) (k0_off13 c) S1x512x128.size (k0_off13_inb c)))
          (View.write (Elt F) ((Memref.whole cc0_scratch6).access (Rect.unit (s := S4x1024x512) (k0_off12 c) S1x512x128.size (k0_off12_inb c))) f15
            (k0_pay23 (k0_pay21 (gV2 c (I c).x (I c).wdkv (I c).wuv rc0 rv0 rc1 rv1) (gRc c 2 rc2) (gRv c 2 rv2)) (k0_pay22 (gKr c (I c).x (I c).wkr) (gQr c (I c).x (I c).wqr) (gQ c (I c).x (I c).wq) (gK2 c (I c).x (I c).wdkv (I c).wuk rc0 rk0 rc1 rk1) (gRc c 2 rc2) (gRk c 2 rk2))) Finset.univ)
          (k0_pay24 (k0_pay19 (gQr c (I c).x (I c).wqr) (gQ c (I c).x (I c).wq)) (k0_pay20 (gKr c (I c).x (I c).wkr) (gK2 c (I c).x (I c).wdkv (I c).wuk rc0 rk0 rc1 rk1) (gRc c 2 rc2) (gRk c 2 rk2)) (k0_pay21 (gV2 c (I c).x (I c).wdkv (I c).wuv rc0 rv0 rc1 rv1) (gRc c 2 rc2) (gRv c 2 rv2))) Finset.univ)
      = fun j => oOwn I c (ix3 (0 : Fin 1) (j 0) (oCol 0 (j 1))) := by
  rw [gKr_eq I c, gQr_eq I c, gQ_eq I c, k2_eq I c rc0 rk0 rc1 rk1 hc0 hc1 hk0 hk1, v2_eq I c rc0 rv0 rc1 rv1 hc0 hc1 hv0 hv1,
    gRc_eq I c 2 rc2 hc2, gRk_eq I c 2 rk2 hk2, gRv_eq I c 2 rv2 hv2]
  exact stripe_run I c 0 0 (k0_off14_eq c) (k0_off12_eq c) (k0_off13_eq c) _ _ _ f15 _ _ rfl rfl

include hc0 hc1 hc2 hk0 hk1 hk2 hv0 hv1 hv2 in
theorem stripe1_run :
    (oM c 1).view.read (Elt F)
        (View.write (Elt F) ((Memref.whole cc0_scratch6).access (Rect.unit (s := S4x1024x512) (k0_off16 c) S1x512x128.size (k0_off16_inb c)))
          (View.write (Elt F) ((Memref.whole cc0_scratch6).access (Rect.unit (s := S4x1024x512) (k0_off15 c) S1x512x128.size (k0_off15_inb c))) f15
            (k0_pay28 (gKr c (I c).x (I c).wkr) (gQr c (I c).x (I c).wqr) (gQ c (I c).x (I c).wq) (gKMy c (I c).x (I c).wdkv (I c).wuk rc0 rk0 rc1 rk1 rc2 rk2) (gVMy c (I c).x (I c).wdkv (I c).wuv rc0 rv0 rc1 rv1 rc2 rv2)) Finset.univ)
          (k0_pay32 (k0_pay30 (gKr c (I c).x (I c).wkr) (gQr c (I c).x (I c).wqr) (gQ c (I c).x (I c).wq) (gKMy c (I c).x (I c).wdkv (I c).wuk rc0 rk0 rc1 rk1 rc2 rk2) (gVMy c (I c).x (I c).wdkv (I c).wuv rc0 rv0 rc1 rv1 rc2 rv2)) (k0_pay31 (gKr c (I c).x (I c).wkr) (gQr c (I c).x (I c).wqr) (gQ c (I c).x (I c).wq) (gKMy c (I c).x (I c).wdkv (I c).wuk rc0 rk0 rc1 rk1 rc2 rk2))) Finset.univ)
      = fun j => oOwn I c (ix3 (0 : Fin 1) (j 0) (oCol 1 (j 1))) := by
  rw [gKr_eq I c, gQr_eq I c, gQ_eq I c, kMy_eq I c rc0 rk0 rc1 rk1 rc2 rk2 hc0 hc1 hc2 hk0 hk1 hk2,
    vMy_eq I c rc0 rv0 rc1 rv1 rc2 rv2 hc0 hc1 hc2 hv0 hv1 hv2]
  exact stripe_run I c 1 128 (k0_off17_eq c) (k0_off15_eq c) (k0_off16_eq c) _ _ _ f15 _ _ rfl rfl

include hc0 hc1 hc2 hk0 hk1 hk2 hv0 hv1 hv2 in
theorem stripe2_run :
    (oM c 2).view.read (Elt F)
        (View.write (Elt F) ((Memref.whole cc0_scratch6).access (Rect.unit (s := S4x1024x512) (k0_off19 c) S1x512x128.size (k0_off19_inb c)))
          (View.write (Elt F) ((Memref.whole cc0_scratch6).access (Rect.unit (s := S4x1024x512) (k0_off18 c) S1x512x128.size (k0_off18_inb c))) f15
            (k0_pay36 (gKr c (I c).x (I c).wkr) (gQr c (I c).x (I c).wqr) (gQ c (I c).x (I c).wq) (gKMy c (I c).x (I c).wdkv (I c).wuk rc0 rk0 rc1 rk1 rc2 rk2) (gVMy c (I c).x (I c).wdkv (I c).wuv rc0 rv0 rc1 rv1 rc2 rv2)) Finset.univ)
          (k0_pay39 (k0_pay35 (gVMy c (I c).x (I c).wdkv (I c).wuv rc0 rv0 rc1 rv1 rc2 rv2)) (k0_pay37 (gQr c (I c).x (I c).wqr) (gQ c (I c).x (I c).wq)) (k0_pay38 (gKr c (I c).x (I c).wkr) (gKMy c (I c).x (I c).wdkv (I c).wuk rc0 rk0 rc1 rk1 rc2 rk2))) Finset.univ)
      = fun j => oOwn I c (ix3 (0 : Fin 1) (j 0) (oCol 2 (j 1))) := by
  rw [gKr_eq I c, gQr_eq I c, gQ_eq I c, kMy_eq I c rc0 rk0 rc1 rk1 rc2 rk2 hc0 hc1 hc2 hk0 hk1 hk2,
    vMy_eq I c rc0 rv0 rc1 rv1 rc2 rv2 hc0 hc1 hc2 hv0 hv1 hv2]
  exact stripe_run I c 2 256 (k0_off20_eq c) (k0_off18_eq c) (k0_off19_eq c) _ _ _ f15 _ _ rfl rfl

include hc0 hc1 hc2 hk0 hk1 hk2 hv0 hv1 hv2 in
theorem stripe3_run :
    (oM c 3).view.read (Elt F)
        (View.write (Elt F) ((Memref.whole cc0_scratch6).access (Rect.unit (s := S4x1024x512) (k0_off22 c) S1x512x128.size (k0_off22_inb c)))
          (View.write (Elt F) ((Memref.whole cc0_scratch6).access (Rect.unit (s := S4x1024x512) (k0_off21 c) S1x512x128.size (k0_off21_inb c))) f15
            (k0_pay47 (k0_pay44 (gKr c (I c).x (I c).wkr) (gQr c (I c).x (I c).wqr) (gQ c (I c).x (I c).wq) (gKMy c (I c).x (I c).wdkv (I c).wuk rc0 rk0 rc1 rk1 rc2 rk2)) (k0_pay45 (gKr c (I c).x (I c).wkr) (gQr c (I c).x (I c).wqr) (gQ c (I c).x (I c).wq) (gKMy c (I c).x (I c).wdkv (I c).wuk rc0 rk0 rc1 rk1 rc2 rk2)) (k0_pay46 (gVMy c (I c).x (I c).wdkv (I c).wuv rc0 rv0 rc1 rv1 rc2 rv2))) Finset.univ)
          (k0_pay48 (k0_pay40 (gQr c (I c).x (I c).wqr) (gQ c (I c).x (I c).wq)) (k0_pay41 (gKr c (I c).x (I c).wkr) (gKMy c (I c).x (I c).wdkv (I c).wuk rc0 rk0 rc1 rk1 rc2 rk2)) (k0_pay42 (gVMy c (I c).x (I c).wdkv (I c).wuv rc0 rv0 rc1 rv1 rc2 rv2))) Finset.univ)
      = fun j => oOwn I c (ix3 (0 : Fin 1) (j 0) (oCol 3 (j 1))) := by
  rw [gKr_eq I c, gQr_eq I c, gQ_eq I c, kMy_eq I c rc0 rk0 rc1 rk1 rc2 rk2 hc0 hc1 hc2 hk0 hk1 hk2,
    vMy_eq I c rc0 rv0 rc1 rv1 rc2 rv2 hc0 hc1 hc2 hv0 hv1 hv2]
  exact stripe_run I c 3 384 (k0_off23_eq c) (k0_off21_eq c) (k0_off22_eq c) _ _ _ f15 _ _ rfl rfl

end Run

end Cert.KernelProof
end
-- ==== Proof.Bits.GlueOS.lean ====
import proofs.«900571_g7700000000000572_dist_mla_v7x_i4_i_b2_s512_d2048_dc128_f32_1_alg».proof.Proof.Bits.Slots2
import Idealize.ShloMosaic.Lib.ValueLayout
import proofs.«900571_g7700000000000572_dist_mla_v7x_i4_i_b2_s512_d2048_dc128_f32_1_alg».proof.Proof.Bits.VDef

noncomputable section

namespace Cert.KernelProof

open Cert.Kernel Cert.Kernel.Gen
open Idealize.ShloMosaic
open Idealize.ShloMosaic.TcCoe
open Idealize.ShloMosaic.ValueIdx
open Cert.MlaKerBits

variable {F : FTy → Type} [FloatOps F]

-- Each of the 512 columns lies in one of the four 128-column stripes.
theorem oCol_cases (e : Fin 512) : ∃ (k : Fin 4) (l : Fin 128), e = oCol k l :=
  ⟨⟨e.val / 128, by have := e.isLt; omega⟩, ⟨e.val % 128, Nat.mod_lt _ (by decide)⟩,
    Fin.ext (by show e.val = 128 * (e.val / 128) + e.val % 128; omega)⟩

-- A slot whose four stripes read the four column groups of O loads whole as O.
theorem readAt_slot_glue4 (c d : Dev nD) {off : Fin 3 → Nat} (hoff : off = ![d.val, 0, 0])
    (inb : ∀ a, off a + S1x1024x512.size a ≤ S4x1024x512.size a)
    (f0 f1 f2 f3 : Buf (Elt F) ((c : Thread nD τ).loc cc0_scratch6)) (O : Vec F S1x1024x512 .bf16)
    (h0 : (oM d 0).view.read (Elt F) f0 = fun j => O (ix3 0 (j 0) (oCol 0 (j 1))))
    (h1 : (oM d 1).view.read (Elt F) f1 = fun j => O (ix3 0 (j 0) (oCol 1 (j 1))))
    (h2 : (oM d 2).view.read (Elt F) f2 = fun j => O (ix3 0 (j 0) (oCol 2 (j 1))))
    (h3 : (oM d 3).view.read (Elt F) f3 = fun j => O (ix3 0 (j 0) (oCol 3 (j 1)))) :
    (Memref.whole cc0_scratch6).view.readAt (Elt F) (Rect.unit (s := S4x1024x512) off S1x1024x512.size inb).toLoadRect
        (glue4 (F := F) c f0 f1 f2 f3)
      = O := by
  funext y
  have hy : y = ix3 (0 : Fin 1) (y 1) (y 2) :=
    (eq_ix3 y).trans (congrArg (ix3 · (y 1) (y 2)) (Subsingleton.elim (α := Fin 1) (y 0) 0))
  obtain ⟨k, l, hkl⟩ := oCol_cases (y 2)
  rw [hy, hkl]
  match k with
  | 0 =>
    refine (readAt_oM0 (F := F) d hoff inb _ (y 1) l).trans ?_
    rw [read_glue4_0 c d f0 f1 f2 f3, h0]; rfl
  | 1 =>
    refine (readAt_oM1 (F := F) d hoff inb _ (y 1) l).trans ?_
    rw [read_glue4_1 c d f0 f1 f2 f3, h1]; rfl
  | 2 =>
    refine (readAt_oM2 (F := F) d hoff inb _ (y 1) l).trans ?_
    rw [read_glue4_2 c d f0 f1 f2 f3, h2]; rfl
  | 3 =>
    refine (readAt_oM3 (F := F) d hoff inb _ (y 1) l).trans ?_
    rw [read_glue4_3 c d f0 f1 f2 f3, h3]; rfl

section Loads

variable (I : Dev nD → Ins F) (c : Dev nD)

theorem own_slot_load (fo0 fo1 fo2 fo3 : Buf (Elt F) ((c : Thread nD τ).loc cc0_scratch6))
    (h0 : (oM c 0).view.read (Elt F) fo0 = fun j => oOwn I c (ix3 0 (j 0) (oCol 0 (j 1))))
    (h1 : (oM c 1).view.read (Elt F) fo1 = fun j => oOwn I c (ix3 0 (j 0) (oCol 1 (j 1))))
    (h2 : (oM c 2).view.read (Elt F) fo2 = fun j => oOwn I c (ix3 0 (j 0) (oCol 2 (j 1))))
    (h3 : (oM c 3).view.read (Elt F) fo3 = fun j => oOwn I c (ix3 0 (j 0) (oCol 3 (j 1)))) :
    (Memref.whole cc0_scratch6).view.readAt (Elt F)
        (Rect.unit (s := S4x1024x512) (k0_off24 c) S1x1024x512.size (k0_off24_inb c)).toLoadRect (glue4 (F := F) c fo0 fo1 fo2 fo3)
      = oOwn I c :=
  readAt_slot_glue4 c c (k0_off24_eq c) (k0_off24_inb c) fo0 fo1 fo2 fo3 _ h0 h1 h2 h3

-- The slot received from the device p + 1 places back, loaded whole, is that device's attention output.
theorem og_slot_load (p : Fin 3) (ro0 ro1 ro2 ro3 : Buf (Elt F) ((c : Thread nD τ).loc cc0_scratch6))
    (h0 : (oM (og c p) 0).view.read (Elt F) ro0 = fun j => oOwn I (og c p) (ix3 0 (j 0) (oCol 0 (j 1))))
    (h1 : (oM (og c p) 1).view.read (Elt F) ro1 = fun j => oOwn I (og c p) (ix3 0 (j 0) (oCol 1 (j 1))))
    (h2 : (oM (og c p) 2).view.read (Elt F) ro2 = fun j => oOwn I (og c p) (ix3 0 (j 0) (oCol 2 (j 1))))
    (h3 : (oM (og c p) 3).view.read (Elt F) ro3 = fun j => oOwn I (og c p) (ix3 0 (j 0) (oCol 3 (j 1)))) :
    (Memref.whole cc0_scratch6).view.readAt (Elt F)
        (Rect.unit (s := S4x1024x512) (k0_off26 c (BitVec.ofNat 32 (1 + p.val))) S1x1024x512.size (k0_off26_inb c p)).toLoadRect
        (glue4 (F := F) c ro0 ro1 ro2 ro3)
      = oOwn I (og c p) :=
  readAt_slot_glue4 c (og c p) (k0_off26_eq c p) (k0_off26_inb c p) ro0 ro1 ro2 ro3 _ h0 h1 h2 h3

end Loads

end Cert.KernelProof
end
-- ==== Proof.Bits.GlueOut.lean ====
import proofs.«900571_g7700000000000572_dist_mla_v7x_i4_i_b2_s512_d2048_dc128_f32_1_alg».proof.Proof.Bits.VDef
import proofs.«900571_g7700000000000572_dist_mla_v7x_i4_i_b2_s512_d2048_dc128_f32_1_alg».proof.Proof.Bits.KGen

noncomputable section

namespace Cert.KernelProof

open Cert.Kernel Cert.Kernel.Gen
open Idealize.ShloMosaic Idealize.ShloMosaic.ValueIdx
open Idealize.ShloMosaic.TcCoe
open Idealize.SL.Sem
open Cert.MlaKerBits

variable {F : FTy → Type} [FloatOps F]

-- A load of the whole array after a store of the whole array reads what was stored.
theorem readCov_whole_head {sg : RefSig} {κ : Kind} {sp : Space} {S : Shape} {e : EltTy}
    (v : View sg κ sp S e) (w : (Rect.whole S).shape.Idx → Elt F e) (L : List (View.Piece (Elt F) S e))
    {off : Fin S.rank → Nat} (h : off = fun _ => 0) (inb : ∀ a, off a + S.size a ≤ S.size a) :
    v.readCov (⟨Rect.whole S, w⟩ :: L) (Rect.unit off S.size inb).toLoadRect = w := by
  subst h
  exact View.readCov_cons_toLoadRect v (Rect.whole S) w L

def woRows (c : Dev nD) (m7 : Buf (Elt F) ((c : Thread nD τ).loc main_arg7)) (off : Fin 2 → Nat)
    (inb : ∀ a, off a + S512x2048.size a ≤ S2048x2048.size a) : S512x2048.Idx → Elt F .f32 :=
  ReadAs.same.apply
    (View.read (Elt F) ((Memref.whole main_arg7).slice (Rect.unit (s := S2048x2048) off S512x2048.size inb) (fun _ => rfl)).view m7)

abbrev RLo : Rect S2x512x2048 := Rect.unit ![0, 0, 0] S2x512x1024.size inb_S2x512x2048_S2x512x1024_0_0_0
abbrev RHi : Rect S2x512x2048 := Rect.unit ![0, 0, 1024] S2x512x1024.size inb_S2x512x2048_S2x512x1024_0_0_1024

-- Columns [0, 1024) and [1024, 2048) do not meet.
theorem halves_disjoint : Disjoint RLo.set RHi.set := by
  refine Finset.disjoint_left.mpr fun i hl hr => ?_
  have h1 := (Rect.mem_set_unit.mp hl (2 : Fin 3)).2
  have h2 := (Rect.mem_set_unit.mp hr (2 : Fin 3)).1
  have h1' : (i 2).val < 0 + 1024 := h1
  have h2' : 1024 ≤ (i 2).val := h2
  omega

theorem readCov_hi_lo {sg : RefSig} {κ : Kind} {sp : Space} (v : View sg κ sp S2x512x2048 .f32)
    (wR : RHi.shape.Idx → Elt F .f32) (wL : RLo.shape.Idx → Elt F .f32) (L : List (View.Piece (Elt F) S2x512x2048 .f32)) :
    v.readCov (⟨RHi, wR⟩ :: ⟨RLo, wL⟩ :: L) RLo.toLoadRect = wL := by
  rw [View.readCov_cons_of_disjoint v ⟨RHi, wR⟩ _ RLo.toLoadRect halves_disjoint.symm]
  exact View.readCov_cons_toLoadRect v RLo wL L

theorem readCov_lo_hi {sg : RefSig} {κ : Kind} {sp : Space} (v : View sg κ sp S2x512x2048 .f32)
    (wL : RLo.shape.Idx → Elt F .f32) (wR : RHi.shape.Idx → Elt F .f32) (L : List (View.Piece (Elt F) S2x512x2048 .f32)) :
    v.readCov (⟨RLo, wL⟩ :: ⟨RHi, wR⟩ :: L) RHi.toLoadRect = wR := by
  rw [View.readCov_cons_of_disjoint v ⟨RLo, wL⟩ _ RHi.toLoadRect halves_disjoint]
  exact View.readCov_cons_toLoadRect v RHi wR L

theorem writes_halves (c : Dev nD) (X : Buf (Elt F) ((c : Thread nD τ).loc cc0_stg6_0))
    (wR : RHi.shape.Idx → Elt F .f32) (wL : RLo.shape.Idx → Elt F .f32) (L : List (View.Piece (Elt F) S2x512x2048 .f32)) :
    (Memref.whole cc0_stg6_0).view.writes (Elt F) X (⟨RHi, wR⟩ :: ⟨RLo, wL⟩ :: L)
      = wr (wr ((Memref.whole cc0_stg6_0).view.writes (Elt F) X L) ![0, 0, 0] S2x512x1024.size inb_S2x512x2048_S2x512x1024_0_0_0 wL)
          ![0, 0, 1024] S2x512x1024.size inb_S2x512x2048_S2x512x1024_0_0_1024 wR := by
  rw [View.writes_cons, View.writes_cons]
  unfold wr
  rw [← View.write_whole_slice_unit cc0_stg6_0 ![0, 0, 0] S2x512x1024.size inb_S2x512x2048_S2x512x1024_0_0_0,
    ← View.write_whole_slice_unit cc0_stg6_0 ![0, 0, 1024] S2x512x1024.size inb_S2x512x2048_S2x512x1024_0_0_1024]

section Pieces

variable (v : View sig .tc .vmem S2x512x2048 .f32)
variable (w0 w1 w2 w3 : Vec F S512x2048 .f32) (o0 o1 o2 o3 : Vec F S1x1024x512 .bf16)

def oP2 : List (View.Piece (Elt F) S2x512x2048 .f32) :=
  [⟨RHi, k0_pay52 w0 o0⟩, ⟨RLo, k0_pay51 w0 o0⟩]
def oP3 : List (View.Piece (Elt F) S2x512x2048 .f32) :=
  ⟨RLo, k0_pay55 w1 o1 (v.readCov (oP2 w0 o0) RLo.toLoadRect)⟩ :: oP2 w0 o0
def oP4 : List (View.Piece (Elt F) S2x512x2048 .f32) :=
  ⟨RHi, k0_pay56 w1 o1 (v.readCov (oP3 v w0 w1 o0 o1) RHi.toLoadRect)⟩ :: oP3 v w0 w1 o0 o1
def oP5 : List (View.Piece (Elt F) S2x512x2048 .f32) :=
  ⟨RLo, k0_pay59 w2 o2 (v.readCov (oP4 v w0 w1 o0 o1) RLo.toLoadRect)⟩ :: oP4 v w0 w1 o0 o1
def oP6 : List (View.Piece (Elt F) S2x512x2048 .f32) :=
  ⟨RHi, k0_pay60 w2 o2 (v.readCov (oP5 v w0 w1 w2 o0 o1 o2) RHi.toLoadRect)⟩ :: oP5 v w0 w1 w2 o0 o1 o2
def oP7 : List (View.Piece (Elt F) S2x512x2048 .f32) :=
  ⟨RLo, k0_pay63 w3 o3 (v.readCov (oP6 v w0 w1 w2 o0 o1 o2) RLo.toLoadRect)⟩ :: oP6 v w0 w1 w2 o0 o1 o2
def oP8 : List (View.Piece (Elt F) S2x512x2048 .f32) :=
  ⟨RHi, k0_pay64 w3 o3 (v.readCov (oP7 v w0 w1 w2 w3 o0 o1 o2 o3) RHi.toLoadRect)⟩ :: oP7 v w0 w1 w2 w3 o0 o1 o2 o3

end Pieces

-- Each step loads back what the step before stored in that half, so the last two stores carry the four-step sums.
theorem writes_oP8 (I : Dev nD → Ins F) (c : Dev nD) (X6 : Buf (Elt F) ((c : Thread nD τ).loc cc0_stg6_0))
    (w0 w1 w2 w3 : Vec F S512x2048 .f32) (o0 o1 o2 o3 : Vec F S1x1024x512 .bf16)
    (hw0 : w0 = woSt I c c) (hw1 : w1 = woSt I c (org c 0)) (hw2 : w2 = woSt I c (org c 1)) (hw3 : w3 = woSt I c (org c 2))
    (ho0 : o0 = oOwn I c) (ho1 : o1 = oOwn I (org c 0)) (ho2 : o2 = oOwn I (org c 1)) (ho3 : o3 = oOwn I (org c 2)) :
    (Memref.whole cc0_stg6_0).view.writes (Elt F) X6 (oP8 (Memref.whole cc0_stg6_0).view w0 w1 w2 w3 o0 o1 o2 o3) = out I c := by
  subst hw0 hw1 hw2 hw3 ho0 ho1 ho2 ho3
  unfold oP8 oP7
  rw [writes_halves]
  unfold oP6 oP5 oP4 oP3 oP2
  rw [readCov_lo_hi, readCov_hi_lo, readCov_lo_hi, readCov_hi_lo, readCov_lo_hi, readCov_hi_lo]
  exact outFrom_eq I c _

theorem zeroOff2 : (![0, 0] : Fin 2 → Nat) = fun _ => 0 := funext fun a => by match a with | ⟨0, _⟩ => rfl | ⟨1, _⟩ => rfl

-- The load after a whole-array store of rows [512 g, 512 g + 512) of the projection matrix reads those rows.
theorem woLoad (I : Dev nD → Ins F) (c g : Dev nD) {off : Fin 2 → Nat} (hoff : off = rowOff g)
    (inb : ∀ a, off a + S512x2048.size a ≤ S2048x2048.size a) (L : List (View.Piece (Elt F) S512x2048 .f32)) :
    (Memref.whole cc0_scratch8).view.readCov (⟨Rect.whole S512x2048, woRows c (I c).wo off inb⟩ :: L)
        (Rect.unit ![0, 0] S512x2048.size inb_S512x2048_S512x2048_0_0).toLoadRect
      = woSt I c g := by
  subst hoff
  exact readCov_whole_head (F := F) _ _ L zeroOff2 inb_S512x2048_S512x2048_0_0

theorem glue_out (I : Dev nD → Ins F) (c : Dev nD) (X6 : Buf (Elt F) ((c : Thread nD τ).loc cc0_stg6_0))
    (o0 o1 o2 o3 : Vec F S1x1024x512 .bf16)
    (ho0 : o0 = oOwn I c) (ho1 : o1 = oOwn I (og c 0)) (ho2 : o2 = oOwn I (og c 1)) (ho3 : o3 = oOwn I (og c 2)) :
    (Memref.whole cc0_stg6_0).view.writes (Elt F) X6
        (oP8 (Memref.whole cc0_stg6_0).view
          ((Memref.whole cc0_scratch8).view.readCov [⟨Rect.whole S512x2048, woRows c (I c).wo (k0_off2 c) (k0_off2_inb c)⟩] (Rect.unit ![0, 0] S512x2048.size inb_S512x2048_S512x2048_0_0).toLoadRect)
          ((Memref.whole cc0_scratch8).view.readCov [⟨Rect.whole S512x2048, woRows c (I c).wo (k0_off25 c 1#32) (k0_off25_inb c 0)⟩, ⟨Rect.whole S512x2048, woRows c (I c).wo (k0_off2 c) (k0_off2_inb c)⟩] (Rect.unit ![0, 0] S512x2048.size inb_S512x2048_S512x2048_0_0).toLoadRect)
          ((Memref.whole cc0_scratch8).view.readCov [⟨Rect.whole S512x2048, woRows c (I c).wo (k0_off25 c 2#32) (k0_off25_inb c 1)⟩, ⟨Rect.whole S512x2048, woRows c (I c).wo (k0_off25 c 1#32) (k0_off25_inb c 0)⟩, ⟨Rect.whole S512x2048, woRows c (I c).wo (k0_off2 c) (k0_off2_inb c)⟩] (Rect.unit ![0, 0] S512x2048.size inb_S512x2048_S512x2048_0_0).toLoadRect)
          ((Memref.whole cc0_scratch8).view.readCov [⟨Rect.whole S512x2048, woRows c (I c).wo (k0_off25 c 3#32) (k0_off25_inb c 2)⟩, ⟨Rect.whole S512x2048, woRows c (I c).wo (k0_off25 c 2#32) (k0_off25_inb c 1)⟩, ⟨Rect.whole S512x2048, woRows c (I c).wo (k0_off25 c 1#32) (k0_off25_inb c 0)⟩, ⟨Rect.whole S512x2048, woRows c (I c).wo (k0_off2 c) (k0_off2_inb c)⟩] (Rect.unit ![0, 0] S512x2048.size inb_S512x2048_S512x2048_0_0).toLoadRect)
          o0 o1 o2 o3)
      = out I c :=
  writes_oP8 I c X6 _ _ _ _ _ _ _ _ (woLoad I c c (k0_off2_eq c) _ _) (woLoad I c (org c 0) (k0_off25_eq c 0) _ _)
    (woLoad I c (org c 1) (k0_off25_eq c 1) _ _) (woLoad I c (org c 2) (k0_off25_eq c 2) _ _) ho0 ho1 ho2 ho3

end Cert.KernelProof

end
-- ==== Proof.Bits.Body.lean ====
import proofs.«900571_g7700000000000572_dist_mla_v7x_i4_i_b2_s512_d2048_dc128_f32_1_alg».proof.Proof.Bits.BodyRules
import proofs.«900571_g7700000000000572_dist_mla_v7x_i4_i_b2_s512_d2048_dc128_f32_1_alg».proof.Proof.Bits.Slots6
import proofs.«900571_g7700000000000572_dist_mla_v7x_i4_i_b2_s512_d2048_dc128_f32_1_alg».proof.Proof.Bits.ExitChain
import proofs.«900571_g7700000000000572_dist_mla_v7x_i4_i_b2_s512_d2048_dc128_f32_1_alg».proof.Proof.Bits.Pack
import proofs.«900571_g7700000000000572_dist_mla_v7x_i4_i_b2_s512_d2048_dc128_f32_1_alg».proof.Proof.Bits.GlueORun
import proofs.«900571_g7700000000000572_dist_mla_v7x_i4_i_b2_s512_d2048_dc128_f32_1_alg».proof.Proof.Bits.GlueOS
import proofs.«900571_g7700000000000572_dist_mla_v7x_i4_i_b2_s512_d2048_dc128_f32_1_alg».proof.Proof.Bits.GlueOut

noncomputable section

namespace Cert.KernelProof

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : PVals F)

theorem dev1_eq (c : Dev nD) : (⟨k0_dev1 c, k0_dev1_lt c⟩ : Dev nD) = pe c 0 := by revert c; decide
theorem dev2_eq (c : Dev nD) : (⟨k0_dev2 c, k0_dev2_lt c⟩ : Dev nD) = pe c 1 := by revert c; decide
theorem dev3_eq (c : Dev nD) : (⟨k0_dev3 c, k0_dev3_lt c⟩ : Dev nD) = pe c 2 := by revert c; decide
theorem dev4_eq (c : Dev nD) : (⟨k0_dev4 c, k0_dev4_lt c⟩ : Dev nD) = pe c 0 := by revert c; decide
theorem dev5_eq (c : Dev nD) : (⟨k0_dev5 c, k0_dev5_lt c⟩ : Dev nD) = pe c 0 := by revert c; decide
theorem dev6_eq (c : Dev nD) : (⟨k0_dev6 c, k0_dev6_lt c⟩ : Dev nD) = pe c 0 := by revert c; decide
theorem dev7_eq (c : Dev nD) : (⟨k0_dev7 c, k0_dev7_lt c⟩ : Dev nD) = pe c 1 := by revert c; decide
theorem dev8_eq (c : Dev nD) : (⟨k0_dev8 c, k0_dev8_lt c⟩ : Dev nD) = pe c 1 := by revert c; decide
theorem dev9_eq (c : Dev nD) : (⟨k0_dev9 c, k0_dev9_lt c⟩ : Dev nD) = pe c 1 := by revert c; decide
theorem dev10_eq (c : Dev nD) : (⟨k0_dev10 c, k0_dev10_lt c⟩ : Dev nD) = pe c 2 := by revert c; decide
theorem dev11_eq (c : Dev nD) : (⟨k0_dev11 c, k0_dev11_lt c⟩ : Dev nD) = pe c 2 := by revert c; decide
theorem dev12_eq (c : Dev nD) : (⟨k0_dev12 c, k0_dev12_lt c⟩ : Dev nD) = pe c 2 := by revert c; decide
theorem dev13_eq (c : Dev nD) : (⟨k0_dev13 c, k0_dev13_lt c⟩ : Dev nD) = pe c 0 := by revert c; decide
theorem dev14_eq (c : Dev nD) : (⟨k0_dev14 c, k0_dev14_lt c⟩ : Dev nD) = pe c 1 := by revert c; decide
theorem dev15_eq (c : Dev nD) : (⟨k0_dev15 c, k0_dev15_lt c⟩ : Dev nD) = pe c 2 := by revert c; decide
theorem dev16_eq (c : Dev nD) : (⟨k0_dev16 c, k0_dev16_lt c⟩ : Dev nD) = pe c 0 := by revert c; decide
theorem dev17_eq (c : Dev nD) : (⟨k0_dev17 c, k0_dev17_lt c⟩ : Dev nD) = pe c 1 := by revert c; decide
theorem dev18_eq (c : Dev nD) : (⟨k0_dev18 c, k0_dev18_lt c⟩ : Dev nD) = pe c 2 := by revert c; decide
theorem dev19_eq (c : Dev nD) : (⟨k0_dev19 c, k0_dev19_lt c⟩ : Dev nD) = pe c 0 := by revert c; decide
theorem dev20_eq (c : Dev nD) : (⟨k0_dev20 c, k0_dev20_lt c⟩ : Dev nD) = pe c 1 := by revert c; decide
theorem dev21_eq (c : Dev nD) : (⟨k0_dev21 c, k0_dev21_lt c⟩ : Dev nD) = pe c 2 := by revert c; decide
theorem dev22_eq (c : Dev nD) : (⟨k0_dev22 c, k0_dev22_lt c⟩ : Dev nD) = pe c 0 := by revert c; decide
theorem dev23_eq (c : Dev nD) : (⟨k0_dev23 c, k0_dev23_lt c⟩ : Dev nD) = pe c 1 := by revert c; decide
theorem dev24_eq (c : Dev nD) : (⟨k0_dev24 c, k0_dev24_lt c⟩ : Dev nD) = pe c 2 := by revert c; decide
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq

local notation "PT(" c ", " M ", " q ", " f ")" => (View.loc (c : Thread nD τ) (Memref.view M) ↦[View.set (Memref.view M)]{q} f)

theorem landing_eq (s c : Dev nD) : landing (F := F) s c = iprop((∃ f, PT(s, cM c, fullShare, f)) ∗ (∃ f, PT(s, ukD c, fullShare, f)) ∗ (∃ f, PT(s, uvD c, fullShare, f))
    ∗ (∃ f, PT(s, oM c 0, fullShare, f)) ∗ (∃ f, PT(s, oM c 1, fullShare, f)) ∗ (∃ f, PT(s, oM c 2, fullShare, f)) ∗ (∃ f, PT(s, oM c 3, fullShare, f))) := rfl

attribute [local sl_rounds] duties_bar amount_bar payload_bar expect_bar rest_bar og_pe landing_eq
  duties_ps duties_pr duties_os duties_orr amount_ps0 amount_ps1 amount_ps2 amount_pr0 amount_pr1 amount_pr2 amount_os amount_orr
  expect_ps0 expect_ps1 expect_ps2 expect_pr0 expect_pr1 expect_pr2 expect_os expect_orr
  payload_ps0 payload_ps1 payload_ps2 payload_pr0 payload_pr1 payload_pr2 payload_os payload_orr
  rest_ps0 rest_ps1 rest_ps2 rest_pr0 rest_pr1 rest_pr2 rest_os rest_orr

theorem og2_eq (c : Dev nD) : og c 2 = pe c 0 := by revert c; decide
theorem og1_eq (c : Dev nD) : og c 1 = pe c 1 := by revert c; decide
theorem og0_eq (c : Dev nD) : og c 0 = pe c 2 := by revert c; decide
omit [FloatOps F] in
theorem bigSep_fin3' (Φ : Fin 3 → sProp 𝕄) : bigSep Finset.univ Φ = iprop(Φ 0 ∗ Φ 1 ∗ Φ 2) := bigSep_univ_eq_bigSepL [0, 1, 2] (by decide) (by decide) Φ

omit [FloatOps F] in
theorem B11_eq (c : Dev nD) (f : Buf (Elt F) ((c : Thread nD τ).loc cc0_scratch2)) :
    (PT(c, B11, fullShare, f) : sProp 𝕄) = (((c : Thread nD τ).loc cc0_scratch2) ↦{fullShare} f) := by
  unfold B11; simp only [Memref.view_whole, View.set_whole]
omit [FloatOps F] in
theorem B12_eq (c : Dev nD) (f : Buf (Elt F) ((c : Thread nD τ).loc cc0_scratch3)) :
    (PT(c, B12, fullShare, f) : sProp 𝕄) = (((c : Thread nD τ).loc cc0_scratch3) ↦{fullShare} f) := by
  unfold B12; simp only [Memref.view_whole, View.set_whole]

open Lean Meta Elab Tactic in
open Idealize.SL.ProofMode in
elab "igrab " h:ident " as " x:ident ", " hx:ident : tactic => withMainContext do
  let g ← getMainGoal
  let ty ← instantiateMVars (← g.getType)
  let some ig := parseIrisGoal? ty | throwError "igrab: not a proof-mode goal"
  for (n, _, t) in Idealize.ShloMosaic.Tactic.Exec.leaves ig.hyps do
    if n == h.getId then
      let t ← instantiateMVars t
      let f := t.consumeMData.appArg!
      let (_, g') ← g.generalize #[{ expr := f, xName? := some x.getId, hName? := some hx.getId }]
      replaceMainGoal [g']
      return
  throwError "igrab: no hypothesis {h.getId}"

theorem owns_any (c : Dev nD) {s : Shape} (M : Memref sig .tc .vmem s .bf16) (q : PosShare TreeShare) (X : s.Idx → Elt F .bf16) :
    owns (c : Thread nD τ) M q X ⊢ (iprop(∃ f, M.view.loc (c : Thread nD τ) ↦[M.view.set]{q} f) : sProp 𝕄) := by
  unfold owns
  iintro ⟨%f, -, H⟩
  iexists f
  iexact H

-- a slot at known contents is a slot at some contents, so such a points-to cancels against `slotAny`
@[ipm_backtrack]
local instance frame_slotAny (p : Bool) (c : Dev nD) {s : Shape} (M : Memref sig .tc .vmem s .bf16) (f : Buf (Elt F) (M.view.loc (c : Thread nD τ))) :
    Frame p (PT(c, M, fullShare, f) : sProp 𝕄) (slotAny (F := F) c M) iprop(emp) where
  frame := sep_emp.1.trans (intuitionisticallyIf_elim.trans (exists_intro f))

theorem slot_of_owns (c : Dev nD) {s : Shape} (M : Memref sig .tc .vmem s .bf16) (X : s.Idx → Elt F .bf16) :
    owns (c : Thread nD τ) M fullShare X ⊢ slotAny (F := F) c M := by
  unfold slotAny
  exact owns_any c M fullShare X

theorem slot_merge (c : Dev nD) {s : Shape} (M : Memref sig .tc .vmem s .bf16) (V0 V1 V2 : s.Idx → Elt F .bf16)
    (f : Buf (Elt F) (M.view.loc (c : Thread nD τ))) :
    iprop(owns (c : Thread nD τ) M (qP 0) V0 ∗ owns (c : Thread nD τ) M (qP 1) V1 ∗ owns (c : Thread nD τ) M (qP 2) V2 ∗ PT(c, M, qK, f))
      ⊢ slotAny (F := F) c M := by
  unfold slotAny
  iintro ⟨H0, H1, H2, HK⟩
  ihave E0 := (owns_any c M (qP 0) V0) $$ H0
  ihave E1 := (owns_any c M (qP 1) V1) $$ H1
  ihave E2 := (owns_any c M (qP 2) V2) $$ H2
  iapply (merge_any (F := F) (ℓ := M.view.loc (c : Thread nD τ)) M.view.set) $$ [E0 E1 E2 HK]
  · iframe E0 E1 E2; iexists f; iexact HK

theorem ex_B9 (c : Dev nD) (f : Buf (Elt F) ((c : Thread nD τ).loc cc0_scratch0)) :
    (PT(c, B9, fullShare, f) : sProp 𝕄) ⊢ iprop(∃ f : Buf (Elt F) ((c : Thread nD τ).loc cc0_scratch0), ((c : Thread nD τ).loc cc0_scratch0) ↦{fullShare} f) := by
  unfold B9; simp only [Memref.view_whole, View.set_whole]
  iintro H; iexists f; iexact H
theorem ex_B16 (c : Dev nD) (f : Buf (Elt F) ((c : Thread nD τ).loc cc0_scratch7)) :
    (PT(c, B16, fullShare, f) : sProp 𝕄) ⊢ iprop(∃ f : Buf (Elt F) ((c : Thread nD τ).loc cc0_scratch7), ((c : Thread nD τ).loc cc0_scratch7) ↦{fullShare} f) := by
  unfold B16; simp only [Memref.view_whole, View.set_whole]
  iintro H; iexists f; iexact H
theorem ex_B17 (c : Dev nD) (f : Buf (Elt F) ((c : Thread nD τ).loc cc0_scratch8)) :
    (PT(c, B17, fullShare, f) : sProp 𝕄) ⊢ iprop(∃ f : Buf (Elt F) ((c : Thread nD τ).loc cc0_scratch8), ((c : Thread nD τ).loc cc0_scratch8) ↦{fullShare} f) := by
  unfold B17; simp only [Memref.view_whole, View.set_whole]
  iintro H; iexists f; iexact H

-- from its starting context the body runs to its return and hands back the end context with the device's result
set_option maxHeartbeats 0 in
set_option sl_exec.stepHeartbeats 1000000 in
theorem sound_body (m : (ℓ : Loc nD τ sig) → Buf (Elt F) ℓ) (K : Dev nD × CK → ℕ) (c : Dev nD) (W : Waits sig Unit)
    (X6 : Buf (Elt F) ((c : Thread nD τ).loc cc0_stg6_0))
    (f9 : Buf (Elt F) ((c : Thread nD τ).loc cc0_scratch0)) (f10 : Buf (Elt F) ((c : Thread nD τ).loc cc0_scratch1))
    (f11 : Buf (Elt F) ((c : Thread nD τ).loc cc0_scratch2)) (f12 : Buf (Elt F) ((c : Thread nD τ).loc cc0_scratch3))
    (f13 : Buf (Elt F) ((c : Thread nD τ).loc cc0_scratch4)) (f14 : Buf (Elt F) ((c : Thread nD τ).loc cc0_scratch5))
    (f15 : Buf (Elt F) ((c : Thread nD τ).loc cc0_scratch6))
    (f16 : Buf (Elt F) ((c : Thread nD τ).loc cc0_scratch7)) (f17 : Buf (Elt F) ((c : Thread nD τ).loc cc0_scratch8))
    (Kt : PUnit → sProp 𝕄) :
    iprop(bodyCtx (VOf m) K c W (iblk m c 0 t0_0) (iblk m c 1 t0_0) (iblk m c 2 t0_0) (iblk m c 3 t0_0) (iblk m c 4 t0_0) (iblk m c 5 t0_0) X6
          (m ((c : Thread nD τ).loc main_arg4)) (m ((c : Thread nD τ).loc main_arg7)) f9 f10 f11 f12 f13 f14 f15 f16 f17
        ∗ ((∃ W', endCtx m (outOf m) c W') -∗ Kt ⟨⟩))
      ⊢ wp frame (wpE (defs₀ (F := F)) 𝒱₀ (c : Thread nD τ) none) Set.univ (bodyAt0 (F := F) t0_0) Kt := by
  generalize hV : VOf m = V
  unfold bodyCtx bodyAt0
  simp only [cc0__fused_body_eq_skeleton]; unfold cc0__fused_body_skel
  iintro ⟨⟨#HIb, #HIps00, #HIps01, #HIps02, #HIps10, #HIps11, #HIps12, #HIps20, #HIps21, #HIps22, #HIpr00, #HIpr01, #HIpr02, #HIpr10, #HIpr11, #HIpr12, #HIpr20, #HIpr21, #HIpr22, #HIos00, #HIos01, #HIos02, #HIos03, #HIos10, #HIos11, #HIos12, #HIos13, #HIos20, #HIos21, #HIos22, #HIos23, #HIor00, #HIor01, #HIor02, #HIor03, #HIor10, #HIor11, #HIor12, #HIor13, #HIor20, #HIor21, #HIor22, #HIor23, #HIpb0, #HIpb1, #HIpb2, #HIppr00, #HIppr01, #HIppr02, #HIppr10, #HIppr11, #HIppr12, #HIppr20, #HIppr21, #HIppr22, #HIpor00, #HIpor01, #HIpor02, #HIpor03, #HIpor10, #HIpor11, #HIpor12, #HIpor13, #HIpor20, #HIpor21, #HIpor22, #HIpor23, #Hrb, #Hrps00, #Hrps01, #Hrps02, #Hrps10, #Hrps11, #Hrps12, #Hrps20, #Hrps21, #Hrps22, #Hrpr00, #Hrpr01, #Hrpr02, #Hrpr10, #Hrpr11, #Hrpr12, #Hrpr20, #Hrpr21, #Hrpr22, #Hros00, #Hros01, #Hros02, #Hros03, #Hros10, #Hros11, #Hros12, #Hros13, #Hros20, #Hros21, #Hros22, #Hros23, #Hror00, #Hror01, #Hror02, #Hror03, #Hror10, #Hror11, #Hror12, #Hror13, #Hror20, #Hror21, #Hror22, #Hror23, #Hrpb0, #Hrpb1, #Hrpb2, #Hrppr00, #Hrppr01, #Hrppr02, #Hrppr10, #Hrppr11, #Hrppr12, #Hrppr20, #Hrppr21, #Hrppr22, #Hrpor00, #Hrpor01, #Hrpor02, #Hrpor03, #Hrpor10, #Hrpor11, #Hrpor12, #Hrpor13, #Hrpor20, #Hrpor21, #Hrpor22, #Hrpor23, #Hlev, Hatb, Hatps00, Hatps01, Hatps02, Hatps10, Hatps11, Hatps12, Hatps20, Hatps21, Hatps22, Hatpr00, Hatpr01, Hatpr02, Hatpr10, Hatpr11, Hatpr12, Hatpr20, Hatpr21, Hatpr22, Hatos00, Hatos01, Hatos02, Hatos03, Hatos10, Hatos11, Hatos12, Hatos13, Hatos20, Hatos21, Hatos22, Hatos23, Hator00, Hator01, Hator02, Hator03, Hator10, Hator11, Hator12, Hator13, Hator20, Hator21, Hator22, Hator23, Htpb0, Htpb1, Htpb2, Htppr00, Htppr01, Htppr02, Htppr10, Htppr11, Htppr12, Htppr20, Htppr21, Htppr22, Htpor00, Htpor01, Htpor02, Htpor03, Htpor10, Htpor11, Htpor12, Htpor13, Htpor20, Htpor21, Htpor22, Htpor23, Htps00, Htps01, Htps02, Htps10, Htps11, Htps12, Htps20, Htps21, Htps22, Htos00, Htos01, Htos02, Htos03, Htos10, Htos11, Htos12, Htos13, Htos20, Htos21, Htos22, Htos23, Hcb, Hcpr00, Hcpr01, Hcpr02, Hcpr10, Hcpr11, Hcpr12, Hcpr20, Hcpr21, Hcpr22, Hcor00, Hcor01, Hcor02, Hcor03, Hcor10, Hcor11, Hcor12, Hcor13, Hcor20, Hcor21, Hcor22, Hcor23, HO, Hwq, Hwo, Hs0, Hs1, Hs2, Hs3, Hs4, Hs5, Hs6, H4, H7, H9, H11, H12, H16, H17, Hc0, Hk0, Hv0, Ho0_0, Ho0_1, Ho0_2, Ho0_3, Hc1, Hk1, Hv1, Ho1_0, Ho1_1, Ho1_2, Ho1_3, Hc2, Hk2, Hv2, Ho2_0, Ho2_1, Ho2_2, Ho2_3, Hc, Hk, Hv, Ho0, Ho1, Ho2, Ho3⟩, HK⟩
  have hmwb := mw_bar' (F := F) c
  have hmwpr := fun p t => mw_pr' (F := F) c p t
  have hmwq := mw_low' (F := F) c (.dma wqS) (lv_wqS c)
  sl_exec_parts
  ihave Hpay := (Entails.of_eq (bigSep_fin3' _)) $$ Hatb_pay1
  simp only [og0_eq, og1_eq, og2_eq]
  icases Hpay with ⟨⟨⟨%dc2, Hdc2⟩, ⟨%dk2, Hdk2⟩, ⟨%dv2, Hdv2⟩, ⟨%do20, Hdo20⟩, ⟨%do21, Hdo21⟩, ⟨%do22, Hdo22⟩, ⟨%do23, Hdo23⟩⟩,
    ⟨⟨%dc1, Hdc1⟩, ⟨%dk1, Hdk1⟩, ⟨%dv1, Hdv1⟩, ⟨%do10, Hdo10⟩, ⟨%do11, Hdo11⟩, ⟨%do12, Hdo12⟩, ⟨%do13, Hdo13⟩⟩,
    ⟨⟨%dc0, Hdc0⟩, ⟨%dk0, Hdk0⟩, ⟨%dv0, Hdv0⟩, ⟨%do00, Hdo00⟩, ⟨%do01, Hdo01⟩, ⟨%do02, Hdo02⟩, ⟨%do03, Hdo03⟩⟩⟩
  ihave Hc4 := (Entails.of_eq (share_split4_eq (F := F) (ℓ := View.loc (c : Thread nD τ) (cM c).view) ((cM c).view.set) (sound_body.sl.Hc_w1 m c f10))) $$ Hc
  icases Hc4 with ⟨Hcq0, Hcq1, Hcq2, HcK⟩
  igrab H11 as fu, hfu
  ihave H11a := (Entails.of_eq (B11_eq c fu)) $$ H11
  ihave H11b := (wuk_split c fu) $$ H11a
  icases H11b with ⟨Hu0, Hu1, Hu2, Hurest⟩
  igrab H12 as fw, hfw
  ihave H12a := (Entails.of_eq (B12_eq c fw)) $$ H12
  ihave H12b := (wuv_split c fw) $$ H12a
  icases H12b with ⟨Hw0, Hw1, Hw2, Hwrest⟩
  have hfs_c : (cM c).view.read (Elt F) (sound_body.sl.Hc_w1 m c f10) = V.cV c := by subst hV; exact Fc_glue (insAt m) c f10
  have hfs_k (p) : (ukS c p).view.read (Elt F) fu = V.ukV c p := by subst hV; rw [← hfu]; exact Fk_glue (insAt m) c p _
  have hfs_v (p) : (uvS c p).view.read (Elt F) fw = V.uvV c p := by subst hV; rw [← hfw]; exact Fv_glue (insAt m) c p _
  iapply (send_c V K c _ 0 (dev4_eq c) (sound_body.sl.Hc_w1 m c f10) dc0 hfs_c _ _) $$ [HO Htps00 Htppr00 Hcq0 Hdc0]
  · iframe # ∗; iexact Hdc0
  iintro ⟨Hcps00, HO⟩
  sl_exec_parts
  iapply (send_uk V K c _ 0 (dev5_eq c) fu dk0 (hfs_k 0) _ _) $$ [HO Htps01 Htppr01 Hu0 Hdk0]
  · iframe # ∗; iexact Hdk0
  iintro ⟨Hcps01, HO⟩
  sl_exec_parts
  iapply (send_uv V K c _ 0 (dev6_eq c) fw dv0 (hfs_v 0) _ _) $$ [HO Htps02 Htppr02 Hw0 Hdv0]
  · iframe # ∗; iexact Hdv0
  iintro ⟨Hcps02, HO⟩
  sl_exec_parts
  iapply (send_c V K c _ 1 (dev7_eq c) (sound_body.sl.Hc_w1 m c f10) dc1 hfs_c _ _) $$ [HO Htps10 Htppr10 Hcq1 Hdc1]
  · iframe # ∗; iexact Hdc1
  iintro ⟨Hcps10, HO⟩
  sl_exec_parts
  iapply (send_uk V K c _ 1 (dev8_eq c) fu dk1 (hfs_k 1) _ _) $$ [HO Htps11 Htppr11 Hu1 Hdk1]
  · iframe # ∗; iexact Hdk1
  iintro ⟨Hcps11, HO⟩
  sl_exec_parts
  iapply (send_uv V K c _ 1 (dev9_eq c) fw dv1 (hfs_v 1) _ _) $$ [HO Htps12 Htppr12 Hw1 Hdv1]
  · iframe # ∗; iexact Hdv1
  iintro ⟨Hcps12, HO⟩
  sl_exec_parts
  iapply (send_c V K c _ 2 (dev10_eq c) (sound_body.sl.Hc_w1 m c f10) dc2 hfs_c _ _) $$ [HO Htps20 Htppr20 Hcq2 Hdc2]
  · iframe # ∗; iexact Hdc2
  iintro ⟨Hcps20, HO⟩
  sl_exec_parts
  iapply (send_uk V K c _ 2 (dev11_eq c) fu dk2 (hfs_k 2) _ _) $$ [HO Htps21 Htppr21 Hu2 Hdk2]
  · iframe # ∗; iexact Hdk2
  iintro ⟨Hcps21, HO⟩
  sl_exec_parts
  iapply (send_uv V K c _ 2 (dev12_eq c) fw dv2 (hfs_v 2) _ _) $$ [HO Htps22 Htppr22 Hw2 Hdv2]
  · iframe # ∗; iexact Hdv2
  iintro ⟨Hcps22, HO⟩
  sl_exec_parts
  unfold owns
  icases Hatpr00_pay1 with ⟨%rc0, %hrc0, Hrc0⟩
  icases Hatpr01_pay1 with ⟨%rk0, %hrk0, Hrk0⟩
  icases Hatpr02_pay1 with ⟨%rv0, %hrv0, Hrv0⟩
  have hic0 : ((Memref.whole cc0_scratch1).access (Rect.unit (s := S4x1024x128) (k0_off10 c 1#32) S1x1024x128.size (k0_off10_inb c 0))).set ⊆ (cM (og c 0)).view.set := incl_c c 0
  have hik0 : ((Memref.whole cc0_scratch4).access (Rect.unit (s := S4x128x512) (k0_off11 c 1#32) S1x128x512.size (k0_off11_inb c 0))).set ⊆ (ukD (og c 0)).view.set := incl_uk c 0
  have hiv0 : ((Memref.whole cc0_scratch5).access (Rect.unit (s := S4x128x512) (k0_off11 c 1#32) S1x128x512.size (k0_off11_inb c 0))).set ⊆ (uvD (og c 0)).view.set := incl_uv c 0
  sl_exec_parts
  unfold owns
  icases Hatpr10_pay1 with ⟨%rc1, %hrc1, Hrc1⟩
  icases Hatpr11_pay1 with ⟨%rk1, %hrk1, Hrk1⟩
  icases Hatpr12_pay1 with ⟨%rv1, %hrv1, Hrv1⟩
  have hic1 : ((Memref.whole cc0_scratch1).access (Rect.unit (s := S4x1024x128) (k0_off10 c 2#32) S1x1024x128.size (k0_off10_inb c 1))).set ⊆ (cM (og c 1)).view.set := incl_c c 1
  have hik1 : ((Memref.whole cc0_scratch4).access (Rect.unit (s := S4x128x512) (k0_off11 c 2#32) S1x128x512.size (k0_off11_inb c 1))).set ⊆ (ukD (og c 1)).view.set := incl_uk c 1
  have hiv1 : ((Memref.whole cc0_scratch5).access (Rect.unit (s := S4x128x512) (k0_off11 c 2#32) S1x128x512.size (k0_off11_inb c 1))).set ⊆ (uvD (og c 1)).view.set := incl_uv c 1
  sl_exec_parts
  unfold owns
  icases Hatpr20_pay1 with ⟨%rc2, %hrc2, Hrc2⟩
  icases Hatpr21_pay1 with ⟨%rk2, %hrk2, Hrk2⟩
  icases Hatpr22_pay1 with ⟨%rv2, %hrv2, Hrv2⟩
  have hic2 : ((Memref.whole cc0_scratch1).access (Rect.unit (s := S4x1024x128) (k0_off10 c 3#32) S1x1024x128.size (k0_off10_inb c 2))).set ⊆ (cM (og c 2)).view.set := incl_c c 2
  have hik2 : ((Memref.whole cc0_scratch4).access (Rect.unit (s := S4x128x512) (k0_off11 c 3#32) S1x128x512.size (k0_off11_inb c 2))).set ⊆ (ukD (og c 2)).view.set := incl_uk c 2
  have hiv2 : ((Memref.whole cc0_scratch5).access (Rect.unit (s := S4x128x512) (k0_off11 c 3#32) S1x128x512.size (k0_off11_inb c 2))).set ⊆ (uvD (og c 2)).view.set := incl_uv c 2
  sl_exec_parts
  igrab Ho0 as fo0, hfo0
  have hFo0 : (oM c 0).view.read (Elt F) fo0 = V.oV c 0 := by subst hV; rw [← hfo0]; exact stripe0_run (insAt m) c f15 rc0 rk0 rv0 rc1 rk1 rv1 rc2 rk2 rv2 hrc0 hrc1 hrc2 hrk0 hrk1 hrk2 hrv0 hrv1 hrv2
  ihave Ho0s := (Entails.of_eq (share_split4_eq (F := F) (ℓ := View.loc (c : Thread nD τ) (oM c 0).view) ((oM c 0).view.set) fo0)) $$ Ho0
  icases Ho0s with ⟨Ho0q0, Ho0q1, Ho0q2, Ho0K⟩
  iapply (send_o V K c _ 0 0 (dev13_eq c) fo0 do00 hFo0 _ _) $$ [HO Htos00 Htpor00 Ho0q0 Hdo00]
  · iframe # ∗; iexact Hdo00
  iintro ⟨Hcos00, HO⟩
  sl_exec_parts
  iapply (send_o V K c _ 1 0 (dev14_eq c) fo0 do10 hFo0 _ _) $$ [HO Htos10 Htpor10 Ho0q1 Hdo10]
  · iframe # ∗; iexact Hdo10
  iintro ⟨Hcos10, HO⟩
  sl_exec_parts
  iapply (send_o V K c _ 2 0 (dev15_eq c) fo0 do20 hFo0 _ _) $$ [HO Htos20 Htpor20 Ho0q2 Hdo20]
  · iframe # ∗; iexact Hdo20
  iintro ⟨Hcos20, HO⟩
  sl_exec_parts
  igrab Ho1 as fo1, hfo1
  have hFo1 : (oM c 1).view.read (Elt F) fo1 = V.oV c 1 := by subst hV; rw [← hfo1]; exact stripe1_run (insAt m) c f15 rc0 rk0 rv0 rc1 rk1 rv1 rc2 rk2 rv2 hrc0 hrc1 hrc2 hrk0 hrk1 hrk2 hrv0 hrv1 hrv2
  ihave Ho1s := (Entails.of_eq (share_split4_eq (F := F) (ℓ := View.loc (c : Thread nD τ) (oM c 1).view) ((oM c 1).view.set) fo1)) $$ Ho1
  icases Ho1s with ⟨Ho1q0, Ho1q1, Ho1q2, Ho1K⟩
  iapply (send_o V K c _ 0 1 (dev16_eq c) fo1 do01 hFo1 _ _) $$ [HO Htos01 Htpor01 Ho1q0 Hdo01]
  · iframe # ∗; iexact Hdo01
  iintro ⟨Hcos01, HO⟩
  sl_exec_parts
  iapply (send_o V K c _ 1 1 (dev17_eq c) fo1 do11 hFo1 _ _) $$ [HO Htos11 Htpor11 Ho1q1 Hdo11]
  · iframe # ∗; iexact Hdo11
  iintro ⟨Hcos11, HO⟩
  sl_exec_parts
  iapply (send_o V K c _ 2 1 (dev18_eq c) fo1 do21 hFo1 _ _) $$ [HO Htos21 Htpor21 Ho1q2 Hdo21]
  · iframe # ∗; iexact Hdo21
  iintro ⟨Hcos21, HO⟩
  sl_exec_parts
  igrab Ho2 as fo2, hfo2
  have hFo2 : (oM c 2).view.read (Elt F) fo2 = V.oV c 2 := by subst hV; rw [← hfo2]; exact stripe2_run (insAt m) c f15 rc0 rk0 rv0 rc1 rk1 rv1 rc2 rk2 rv2 hrc0 hrc1 hrc2 hrk0 hrk1 hrk2 hrv0 hrv1 hrv2
  ihave Ho2s := (Entails.of_eq (share_split4_eq (F := F) (ℓ := View.loc (c : Thread nD τ) (oM c 2).view) ((oM c 2).view.set) fo2)) $$ Ho2
  icases Ho2s with ⟨Ho2q0, Ho2q1, Ho2q2, Ho2K⟩
  iapply (send_o V K c _ 0 2 (dev19_eq c) fo2 do02 hFo2 _ _) $$ [HO Htos02 Htpor02 Ho2q0 Hdo02]
  · iframe # ∗; iexact Hdo02
  iintro ⟨Hcos02, HO⟩
  sl_exec_parts
  iapply (send_o V K c _ 1 2 (dev20_eq c) fo2 do12 hFo2 _ _) $$ [HO Htos12 Htpor12 Ho2q1 Hdo12]
  · iframe # ∗; iexact Hdo12
  iintro ⟨Hcos12, HO⟩
  sl_exec_parts
  iapply (send_o V K c _ 2 2 (dev21_eq c) fo2 do22 hFo2 _ _) $$ [HO Htos22 Htpor22 Ho2q2 Hdo22]
  · iframe # ∗; iexact Hdo22
  iintro ⟨Hcos22, HO⟩
  sl_exec_parts
  igrab Ho3 as fo3, hfo3
  have hFo3 : (oM c 3).view.read (Elt F) fo3 = V.oV c 3 := by subst hV; rw [← hfo3]; exact stripe3_run (insAt m) c f15 rc0 rk0 rv0 rc1 rk1 rv1 rc2 rk2 rv2 hrc0 hrc1 hrc2 hrk0 hrk1 hrk2 hrv0 hrv1 hrv2
  ihave Ho3s := (Entails.of_eq (share_split4_eq (F := F) (ℓ := View.loc (c : Thread nD τ) (oM c 3).view) ((oM c 3).view.set) fo3)) $$ Ho3
  icases Ho3s with ⟨Ho3q0, Ho3q1, Ho3q2, Ho3K⟩
  iapply (send_o V K c _ 0 3 (dev22_eq c) fo3 do03 hFo3 _ _) $$ [HO Htos03 Htpor03 Ho3q0 Hdo03]
  · iframe # ∗; iexact Hdo03
  iintro ⟨Hcos03, HO⟩
  sl_exec_parts
  iapply (send_o V K c _ 1 3 (dev23_eq c) fo3 do13 hFo3 _ _) $$ [HO Htos13 Htpor13 Ho3q1 Hdo13]
  · iframe # ∗; iexact Hdo13
  iintro ⟨Hcos13, HO⟩
  sl_exec_parts
  iapply (send_o V K c _ 2 3 (dev24_eq c) fo3 do23 hFo3 0 _) $$ [HO Htos23 Htpor23 Ho3q2 Hdo23]
  · rw [zero_add]; iframe # ∗; iexact Hdo23
  iintro ⟨Hcos23, HO⟩
  sl_exec_parts
  ihave HoSown := (Entails.of_eq (stripes_glue_eq (F := F) c c qK fo0 fo1 fo2 fo3)) $$ [Ho0K Ho1K Ho2K Ho3K]
  · iframe
  have hio := incl_o_own c
  sl_exec_parts
  unfold owns
  icases Hator00_pay1 with ⟨%ro00, %hro00, Hro00⟩
  icases Hator01_pay1 with ⟨%ro01, %hro01, Hro01⟩
  icases Hator02_pay1 with ⟨%ro02, %hro02, Hro02⟩
  icases Hator03_pay1 with ⟨%ro03, %hro03, Hro03⟩
  ihave HoS0 := (Entails.of_eq (stripes_glue_eq (F := F) c (og c 0) fullShare ro00 ro01 ro02 ro03)) $$ [Hro00 Hro01 Hro02 Hro03]
  · iframe
  have hio0 := incl_o_og_1 c
  sl_exec_parts
  unfold owns
  icases Hator10_pay1 with ⟨%ro10, %hro10, Hro10⟩
  icases Hator11_pay1 with ⟨%ro11, %hro11, Hro11⟩
  icases Hator12_pay1 with ⟨%ro12, %hro12, Hro12⟩
  icases Hator13_pay1 with ⟨%ro13, %hro13, Hro13⟩
  ihave HoS1 := (Entails.of_eq (stripes_glue_eq (F := F) c (og c 1) fullShare ro10 ro11 ro12 ro13)) $$ [Hro10 Hro11 Hro12 Hro13]
  · iframe
  have hio1 := incl_o_og_2 c
  sl_exec_parts
  unfold owns
  icases Hator20_pay1 with ⟨%ro20, %hro20, Hro20⟩
  icases Hator21_pay1 with ⟨%ro21, %hro21, Hro21⟩
  icases Hator22_pay1 with ⟨%ro22, %hro22, Hro22⟩
  icases Hator23_pay1 with ⟨%ro23, %hro23, Hro23⟩
  ihave HoS2 := (Entails.of_eq (stripes_glue_eq (F := F) c (og c 2) fullShare ro20 ro21 ro22 ro23)) $$ [Hro20 Hro21 Hro22 Hro23]
  · iframe
  have hio2 := incl_o_og_3 c
  sl_exec_parts
  imod (close_all V K c) $$ [Hatps00 Hatps01 Hatps02 Hatps10 Hatps11 Hatps12 Hatps20 Hatps21 Hatps22 Hatpr00 Hatpr01 Hatpr02 Hatpr10 Hatpr11 Hatpr12 Hatpr20 Hatpr21 Hatpr22 Hatos00 Hatos01 Hatos02 Hatos03 Hatos10 Hatos11 Hatos12 Hatos13 Hatos20 Hatos21 Hatos22 Hatos23 Hator00 Hator01 Hator02 Hator03 Hator10 Hator11 Hator12 Hator13 Hator20 Hator21 Hator22 Hator23 Hwq Hwo] with Hsems
  · iframe # ∗
    isplitl [Hwq]; · iexact Hwq
    iexact Hwo
  igrab HcK as fcK, hfcK
  igrab H9 as f9', hf9
  igrab H16 as f16', hf16
  igrab H17 as f17', hf17
  igrab Hurest as fur, hfur
  igrab Hwrest as fwr, hfwr
  igrab Hs6 as fout, hfout
  ihave Hown4 := (Entails.of_eq (stripes_glue_eq (F := F) c c qK fo0 fo1 fo2 fo3).symm) $$ HoSown
  icases Hown4 with ⟨Ho0K, Ho1K, Ho2K, Ho3K⟩
  ihave Hrs0 := (Entails.of_eq (stripes_glue_eq (F := F) c (og c 0) fullShare ro00 ro01 ro02 ro03).symm) $$ HoS0
  icases Hrs0 with ⟨Hro00, Hro01, Hro02, Hro03⟩
  ihave Hrs1 := (Entails.of_eq (stripes_glue_eq (F := F) c (og c 1) fullShare ro10 ro11 ro12 ro13).symm) $$ HoS1
  icases Hrs1 with ⟨Hro10, Hro11, Hro12, Hro13⟩
  ihave Hrs2 := (Entails.of_eq (stripes_glue_eq (F := F) c (og c 2) fullShare ro20 ro21 ro22 ro23).symm) $$ HoS2
  icases Hrs2 with ⟨Hro20, Hro21, Hro22, Hro23⟩
  ihave Sc := (slot_merge (F := F) c (cM c) (V.cV c) (V.cV c) (V.cV c) fcK) $$ [Hatps00_pay1 Hatps10_pay1 Hatps20_pay1 HcK]
  · iframe
  ihave Suk0 := (slot_of_owns (F := F) c (ukS c 0) (V.ukV c 0)) $$ Hatps01_pay1
  ihave Suv0 := (slot_of_owns (F := F) c (uvS c 0) (V.uvV c 0)) $$ Hatps02_pay1
  ihave Suk1 := (slot_of_owns (F := F) c (ukS c 1) (V.ukV c 1)) $$ Hatps11_pay1
  ihave Suv1 := (slot_of_owns (F := F) c (uvS c 1) (V.uvV c 1)) $$ Hatps12_pay1
  ihave Suk2 := (slot_of_owns (F := F) c (ukS c 2) (V.ukV c 2)) $$ Hatps21_pay1
  ihave Suv2 := (slot_of_owns (F := F) c (uvS c 2) (V.uvV c 2)) $$ Hatps22_pay1
  ihave So0 := (slot_merge (F := F) c (oM c 0) (V.oV c 0) (V.oV c 0) (V.oV c 0) fo0) $$ [Hatos00_pay1 Hatos10_pay1 Hatos20_pay1 Ho0K]
  · iframe
  ihave So1 := (slot_merge (F := F) c (oM c 1) (V.oV c 1) (V.oV c 1) (V.oV c 1) fo1) $$ [Hatos01_pay1 Hatos11_pay1 Hatos21_pay1 Ho1K]
  · iframe
  ihave So2 := (slot_merge (F := F) c (oM c 2) (V.oV c 2) (V.oV c 2) (V.oV c 2) fo2) $$ [Hatos02_pay1 Hatos12_pay1 Hatos22_pay1 Ho2K]
  · iframe
  ihave So3 := (slot_merge (F := F) c (oM c 3) (V.oV c 3) (V.oV c 3) (V.oV c 3) fo3) $$ [Hatos03_pay1 Hatos13_pay1 Hatos23_pay1 Ho3K]
  · iframe
  ihave S2 := (wuk_join (F := F) c) $$ [Suk0 Suk1 Suk2 Hurest]
  · iframe Suk0 Suk1 Suk2; iexists fur; iexact Hurest
  ihave S3 := (wuv_join (F := F) c) $$ [Suv0 Suv1 Suv2 Hwrest]
  · iframe Suv0 Suv1 Suv2; iexists fwr; iexact Hwrest
  ihave S0 := (ex_B9 (F := F) c f9') $$ H9
  ihave S7 := (ex_B16 (F := F) c f16') $$ H16
  ihave S8 := (ex_B17 (F := F) c f17') $$ H17
  ihave Hscr := (scratch_exit_og (F := F) c) $$ [S0 Sc Hrc0 Hrc1 Hrc2 S2 S3 Hk Hrk0 Hrk1 Hrk2 Hv Hrv0 Hrv1 Hrv2 So0 So1 So2 So3 Hro00 Hro01 Hro02 Hro03 Hro10 Hro11 Hro12 Hro13 Hro20 Hro21 Hro22 Hro23 S7 S8]
  · unfold oSlotAny; iframe; unfold slotAny
    isplitl [Hk]; · iexists _; iexact Hk
    iexists _; iexact Hv
  have hout : fout = outOf m c := by
    subst hV
    rw [← hfout]
    exact glue_out (insAt m) c X6 _ _ _ _ (own_slot_load (insAt m) c fo0 fo1 fo2 fo3 hFo0 hFo1 hFo2 hFo3)
      (og_slot_load (insAt m) c 0 ro00 ro01 ro02 ro03 hro00 hro01 hro02 hro03)
      (og_slot_load (insAt m) c 1 ro10 ro11 ro12 ro13 hro10 hro11 hro12 hro13)
      (og_slot_load (insAt m) c 2 ro20 ro21 ro22 ro23 hro20 hro21 hro22 hro23)
  subst hout
  sl_step
  iapply HK
  iexists _
  unfold endCtx
  iframe

/-- info: 'Cert.KernelProof.sound_body' depends on axioms: [propext, Classical.choice, Quot.sound] -/
#guard_msgs in #print axioms sound_body

end Cert.KernelProof
end
-- ==== Proof.Bits.BodyOb.lean ====
import proofs.«900571_g7700000000000572_dist_mla_v7x_i4_i_b2_s512_d2048_dc128_f32_1_alg».proof.Proof.Bits.Body

noncomputable section

namespace Cert.KernelProof

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem body_obligation (m : (ℓ : Loc nD τ sig) → Buf (Elt F) ℓ) (ρ : Dev nD → PrngReg) (c : Dev nD) :
    BodyObligation (dats (F := F) m ρ (VOf m) (outOf m) 0 c) (defs₀ (F := F)) 𝒱₀ () Set.univ :=
  body_obligation_of m ρ (VOf m) (outOf m) c (by
    refine (unpack m ρ (VOf m) (outOf m) c).trans ?_
    iintro ⟨%K, %W, %X6, %f9, %f10, %f11, %f12, %f13, %f14, %f15, %f16, %f17, H⟩
    iapply (sound_body m K c W X6 f9 f10 f11 f12 f13 f14 f15 f16 f17 (fun _ => bodyPost m ρ (VOf m) (outOf m) c))
    isplitl [H]; · iexact H
    iintro ⟨%W', Hp⟩
    iapply (pack_endCtx m ρ (VOf m) (outOf m) c W')
    iexact Hp)

end Cert.KernelProof
end
-- ==== Proof.Assemble.lean ====
import proofs.«900571_g7700000000000572_dist_mla_v7x_i4_i_b2_s512_d2048_dc128_f32_1_alg».proof.Proof.Gen.Pre_finite_inputs_ReferenceIdeal
import proofs.«900571_g7700000000000572_dist_mla_v7x_i4_i_b2_s512_d2048_dc128_f32_1_alg».proof.Proof.RefValue
import proofs.«900571_g7700000000000572_dist_mla_v7x_i4_i_b2_s512_d2048_dc128_f32_1_alg».proof.Proof.FiniteIn
import proofs.«900571_g7700000000000572_dist_mla_v7x_i4_i_b2_s512_d2048_dc128_f32_1_alg».proof.Proof.KFinal
import proofs.«900571_g7700000000000572_dist_mla_v7x_i4_i_b2_s512_d2048_dc128_f32_1_alg».proof.Proof.FinalArrays
import proofs.«900571_g7700000000000572_dist_mla_v7x_i4_i_b2_s512_d2048_dc128_f32_1_alg».proof.Proof.Launch
import proofs.«900571_g7700000000000572_dist_mla_v7x_i4_i_b2_s512_d2048_dc128_f32_1_alg».proof.Proof.BodyOb
import proofs.«900571_g7700000000000572_dist_mla_v7x_i4_i_b2_s512_d2048_dc128_f32_1_alg».proof.Proof.Bits.FinalArrays
import proofs.«900571_g7700000000000572_dist_mla_v7x_i4_i_b2_s512_d2048_dc128_f32_1_alg».proof.Proof.Bits.Launch
import proofs.«900571_g7700000000000572_dist_mla_v7x_i4_i_b2_s512_d2048_dc128_f32_1_alg».proof.Proof.Bits.BodyOb

noncomputable section

namespace Cert.Proof.Mla

open Idealize.ShloMosaic Idealize.ShloMosaic.TcCoe Idealize.SL.Sem Idealize.ShloMosaic.ValueIdx
open Cert.MlaSpec Cert.MlaFin
open scoped BigOperators

/-- Device c's eight argument buffers, in the order the kernel's values take them. -/
def insOf (m : KMem) (c : Dev KernelIdeal.nD) : MlaKer.Ins Ideal :=
  ⟨arg0 m c, arg1 m c, arg2 m c, arg3 m c, arg6 m c, arg5 m c, arg4 m c, arg7 m c⟩

/-- A rectangle at offset zero with the array's own sizes reads the whole array. -/
theorem insAt_eq_insOf (m : KMem) : KernelIdealProof.insAt (F := Ideal) m = insOf m := by
  funext d
  unfold KernelIdealProof.insAt insOf
  congr 1 <;> exact Memref.read_access_unit_zero (Elt Ideal) _ (funext fun a => Nat.zero_mul _) _ _

/-- The idealized kernel's run: the launch applied to the body's proof. -/
theorem kernelIdeal_run (m : KMem) (ρ : Dev KernelIdeal.nD → PrngReg) :
    θ_run (KernelIdeal.defs (F := Ideal)) (onTc (τ := KernelIdeal.τ) (KernelIdeal.main (F := Ideal))) ⟨m, fun _ => 0, ρ⟩
      (KernelIdealProof.QC m ρ (KernelIdealProof.VOf m) (KernelIdealProof.outOf m)) :=
  KernelIdealProof.run_main m ρ _ _ (KernelIdealProof.body_obligation m ρ)

/-- Each frame is the program's run with the result dropped. -/
theorem frame_ri : frame_ReferenceIdeal := fun m ρ _ =>
  (θ_run ReferenceIdeal.defs _ _).mono (fun _ h c => (h c).2) (ReferenceIdeal.Value.run (F := Ideal) m ρ)

theorem frame_k : frame_Kernel := fun m ρ _ =>
  (θ_run Kernel.defs _ _).mono
    (fun r hr c => (KernelProof.post_of m ρ (KernelProof.VOf m) (KernelProof.outOf m) r c (hr c)).2)
    (KernelProof.run_main m ρ _ _ (KernelProof.body_obligation m ρ))

theorem frame_ki : frame_KernelIdeal := fun m ρ _ =>
  (θ_run KernelIdeal.defs _ _).mono
    (fun r hr c => (KernelIdealProof.post_of m ρ (KernelIdealProof.VOf m) (KernelIdealProof.outOf m) r c (hr c)).2)
    (kernelIdeal_run m ρ)

/-- Each device holds blocks or copies of the whole arrays, all real, so its result is the specification the reference computes. -/
theorem value_eq {m : KMem} {m' : RMem} (hpre : Pre_KernelIdeal m) (hagree : Agree m m') (c : Dev KernelIdeal.nD) :
    (KernelIdealProof.outOf m c : ReferenceIdeal.S2x512x2048.Idx → EReal) = ReferenceIdeal.Value.res_main_v29 m' 0 := by
  funext i
  obtain ⟨b, s, o, rfl⟩ : ∃ (b : Fin 2) (s : Fin 512) (o : Fin 2048), i = ix3 b s o := ⟨i 0, i 1, i 2, eq_ix3 i⟩
  obtain ⟨f0, f1, f2, f3, f4, f5, f6⟩ := fin_ref hpre hagree
  show MlaKer.out (KernelIdealProof.insAt m) c (ix3 b s o) = _
  rw [insAt_eq_insOf]
  exact (MlaKer.out_eq_kerOut (insOf m) _ _ _ _ _ _ _ _
      (fun c b s d => congrFun (hagree c).1 (ix3 b s d))
      (fun c d j => (congrFun (hagree c).2.1 (ix2 d j)).trans (block_cols_apply c (ref1 m') d j))
      (fun c j e => (congrFun (hagree c).2.2.1 (ix2 j e)).trans (block_rows_apply c (ref2 m') j e))
      (fun c j e => (congrFun (hagree c).2.2.2.1 (ix2 j e)).trans (block_rows_apply c (ref3 m') j e))
      (fun c d r => congrFun (hagree c).2.2.2.2.2.2.1 (ix2 d r))
      (fun c d q => congrFun (hagree c).2.2.2.2.2.1 (ix2 d q))
      (fun c d e => congrFun (hagree c).2.2.2.2.1 (ix2 d e))
      (fun c e o => congrFun (hagree c).2.2.2.2.2.2.2 (ix2 e o)) c b s o).trans <|
    (kerOut_eq_refOut (fun b s d => f0 (ix3 b s d)) (fun d j => f1 (ix2 d j)) (fun j e => f2 (ix2 j e))
      (fun j e => f3 (ix2 j e)) (fun d e => f4 (ix2 d e)) (fun d q => f5 (ix2 d q)) (fun d r => f6 (ix2 d r))
      scaleWord_isReal b s o).trans <|
    (MlaRef.ref_eq_spec (ref0 m') (ref1 m') (ref2 m') (ref3 m') (ref4 m') (ref5 m') (ref6 m') (ref7 m') b s o).symm.trans
      (congrFun (ReferenceIdeal.Read.val_main_v29_eq (F := Ideal) m' 0) (ix3 b s o)).symm

/-- Both programs run; the reference's result is the common value. -/
theorem algebraic : algebraic_KernelIdeal_ReferenceIdeal := fun m ρ m' ρ' hpre hagree =>
  ⟨ReferenceIdeal.Value.res_main_v29 m' 0,
    (θ_run KernelIdeal.defs _ _).mono (fun r hr c =>
      have hp := KernelIdealProof.post_of m ρ (KernelIdealProof.VOf m) (KernelIdealProof.outOf m) r c (hr c)
      ⟨hp.1.trans (value_eq hpre hagree c), hp.2⟩) (kernelIdeal_run m ρ),
    (θ_run ReferenceIdeal.defs _ _).mono (fun _ h => h 0) (ReferenceIdeal.Value.run (F := Ideal) m' ρ')⟩

theorem claim_body :
    Cert.frame_Kernel ∧ Cert.frame_KernelIdeal ∧ Cert.frame_ReferenceIdeal ∧ Cert.preserves_Kernel_KernelIdeal
      ∧ Cert.algebraic_KernelIdeal_ReferenceIdeal :=
  ⟨frame_k, frame_ki, frame_ri, trivial, algebraic⟩

/-- info: 'Cert.Proof.Mla.claim_body' depends on axioms: [propext, Classical.choice, Quot.sound] -/
#guard_msgs in #print axioms claim_body

end Cert.Proof.Mla
-- ==== Proof.lean ====
import proofs.«900571_g7700000000000572_dist_mla_v7x_i4_i_b2_s512_d2048_dc128_f32_1_alg».proof.Proof.Assemble

namespace Cert.Proof

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts, Cert.Proof.Mla.claim_body⟩

end Cert.Proof
